-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v268)) (v1 : (c : Dev Cert.KernelIdeal.nD) → Buf (Elt Ideal) ((c.tc : Thread Cert.KernelIdeal.nD Cert.KernelIdeal.τ).loc Cert.KernelIdeal.main_v269)) (v2 : (c : Dev Cert.KernelIdeal.nD) → Buf (Elt Ideal) ((c.tc : Thread Cert.KernelIdeal.nD Cert.KernelIdeal.τ).loc Cert.KernelIdeal.main_v270)) (v3 : (c : Dev Cert.KernelIdeal.nD) → Buf (Elt Ideal) ((c.tc : Thread Cert.KernelIdeal.nD Cert.KernelIdeal.τ).loc Cert.KernelIdeal.main_v271)) (v4 : (c : Dev Cert.KernelIdeal.nD) → Buf (Elt Ideal) ((c.tc : Thread Cert.KernelIdeal.nD Cert.KernelIdeal.τ).loc Cert.KernelIdeal.main_v272)) (v5 : (c : Dev Cert.KernelIdeal.nD) → Buf (Elt Ideal) ((c.tc : Thread Cert.KernelIdeal.nD Cert.KernelIdeal.τ).loc Cert.KernelIdeal.main_v273)) (v6 : (c : Dev Cert.KernelIdeal.nD) → Buf (Elt Ideal) ((c.tc : Thread Cert.KernelIdeal.nD Cert.KernelIdeal.τ).loc Cert.KernelIdeal.main_v267)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v268) = v0 c
          ∧ r.2.mem ((c.tc : Thread Cert.KernelIdeal.nD Cert.KernelIdeal.τ).loc Cert.KernelIdeal.main_v269) = v1 c
          ∧ r.2.mem ((c.tc : Thread Cert.KernelIdeal.nD Cert.KernelIdeal.τ).loc Cert.KernelIdeal.main_v270) = v2 c
          ∧ r.2.mem ((c.tc : Thread Cert.KernelIdeal.nD Cert.KernelIdeal.τ).loc Cert.KernelIdeal.main_v271) = v3 c
          ∧ r.2.mem ((c.tc : Thread Cert.KernelIdeal.nD Cert.KernelIdeal.τ).loc Cert.KernelIdeal.main_v272) = v4 c
          ∧ r.2.mem ((c.tc : Thread Cert.KernelIdeal.nD Cert.KernelIdeal.τ).loc Cert.KernelIdeal.main_v273) = v5 c
          ∧ r.2.mem ((c.tc : Thread Cert.KernelIdeal.nD Cert.KernelIdeal.τ).loc Cert.KernelIdeal.main_v267) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v404) = v0 c
          ∧ r.2.mem ((c.tc : Thread Cert.ReferenceIdeal.nD Cert.ReferenceIdeal.τ).loc Cert.ReferenceIdeal.main_v407) = v1 c
          ∧ r.2.mem ((c.tc : Thread Cert.ReferenceIdeal.nD Cert.ReferenceIdeal.τ).loc Cert.ReferenceIdeal.main_v410) = v2 c
          ∧ r.2.mem ((c.tc : Thread Cert.ReferenceIdeal.nD Cert.ReferenceIdeal.τ).loc Cert.ReferenceIdeal.main_v413) = v3 c
          ∧ r.2.mem ((c.tc : Thread Cert.ReferenceIdeal.nD Cert.ReferenceIdeal.τ).loc Cert.ReferenceIdeal.main_v416) = v4 c
          ∧ r.2.mem ((c.tc : Thread Cert.ReferenceIdeal.nD Cert.ReferenceIdeal.τ).loc Cert.ReferenceIdeal.main_v419) = v5 c
          ∧ r.2.mem ((c.tc : Thread Cert.ReferenceIdeal.nD Cert.ReferenceIdeal.τ).loc Cert.ReferenceIdeal.main_v401) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x200 : Shape := ⟨2, ![50000, 200]⟩
abbrev S2x800000 : Shape := ⟨2, ![2, 800000]⟩
abbrev S50000 : Shape := ⟨1, ![50000]⟩
abbrev S5 : Shape := ⟨1, ![5]⟩
abbrev S200x128 : Shape := ⟨2, ![200, 128]⟩
abbrev S4x128x128 : Shape := ⟨3, ![4, 128, 128]⟩
abbrev S5x128 : Shape := ⟨2, ![5, 128]⟩
abbrev S5x128x128 : Shape := ⟨3, ![5, 128, 128]⟩
abbrev S_ : Shape := ⟨0, ![]⟩

class Facts : Prop where
  bcast_S_S50000x200 : S_.BroadcastsInDim S50000x200 (![] : Fin 0 → Fin S50000x200.rank)
  reducesTo_S50000x200_S_d0_1 : S50000x200.ReducesTo [0, 1] S_
  h_S_ : 0 < S_.numel
  bcast_S_S5 : S_.BroadcastsInDim S5 (![] : Fin 0 → Fin S5.rank)
  reducesTo_S5_S_d0 : S5.ReducesTo [0] S_
  bcast_S_S200x128 : S_.BroadcastsInDim S200x128 (![] : Fin 0 → Fin S200x128.rank)
  reducesTo_S200x128_S_d0_1 : S200x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S5x128 : S_.BroadcastsInDim S5x128 (![] : Fin 0 → Fin S5x128.rank)
  reducesTo_S5x128_S_d0_1 : S5x128.ReducesTo [0, 1] S_
  bcast_S_S5x128x128 : S_.BroadcastsInDim S5x128x128 (![] : Fin 0 → Fin S5x128x128.rank)
  reducesTo_S5x128x128_S_d0_1_2 : S5x128x128.ReducesTo [0, 1, 2] S_

variable [Facts]

def fn_part3 {F : FTy → Type} [FloatOps F] (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  main_v53

def fn_part2 {F : FTy → Type} [FloatOps F] (main_arg9 : FVec F S5x128 .f32) (main_arg10 : FVec F S5x128 .f32) (main_arg11 : FVec F S5x128 .f32) (main_arg12 : FVec F S5x128 .f32) (main_v33 : IVec S_ 1) : IVec S_ 1 :=
  let main_v34 : FVec F S5x128 .f32 := Host.absf main_arg9
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5x128 .f32 := Host.absf main_arg10
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128 .f32 := Host.absf main_arg11
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  let main_v49 : FVec F S5x128 .f32 := Host.absf main_arg12
  let main_cst_18 : FVec F S_ .f32 := constant S_ .f32 0x7F800000#32
  let main_v50 : FVec F S5x128 .f32 := broadcastInDim S5x128 ![] bcast_S_S5x128 main_cst_18
  fn_part3 (F := F) main_v48 main_v49 main_v50

def fn_part1 {F : FTy → Type} [FloatOps F] (main_arg6 : FVec F S5x128 .f32) (main_arg7 : FVec F S5x128x128 .f32) (main_arg8 : FVec F S5x128 .f32) (main_arg9 : FVec F S5x128 .f32) (main_arg10 : FVec F S5x128 .f32) (main_arg11 : FVec F S5x128 .f32) (main_arg12 : FVec F S5x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128x128 .f32 := Host.absf main_arg7
  let main_cst_8 : FVec F S_ .f32 := constant S_ .f32 0x7F800000#32
  let main_v25 : FVec F S5x128x128 .f32 := broadcastInDim S5x128x128 ![] bcast_S_S5x128x128 main_cst_8
  let main_v26 : IVec S5x128x128 1 := cmpf .olt main_v24 main_v25
  let main_c_9 : IVec S_ 1 := constantI S_ 1 1#1
  let main_v27 : IVec S_ 1 := (fun x v => Host.reduce IntOp.andi x v reducesTo_S5x128x128_S_d0_1_2 h_S_) main_v26 main_c_9
  let main_v28 : IVec S_ 1 := andi main_v23 main_v27
  let main_v29 : FVec F S5x128 .f32 := Host.absf main_arg8
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x200 .f32) (main_arg1 : IVec S2x800000 32) (main_arg2 : IVec S50000 32) (main_arg3 : FVec F S5 .f32) (main_arg4 : FVec F S200x128 .f32) (main_arg5 : FVec F S4x128x128 .f32) (main_arg6 : FVec F S5x128 .f32) (main_arg7 : FVec F S5x128x128 .f32) (main_arg8 : FVec F S5x128 .f32) (main_arg9 : FVec F S5x128 .f32) (main_arg10 : FVec F S5x128 .f32) (main_arg11 : FVec F S5x128 .f32) (main_arg12 : FVec F S5x128 .f32) : IVec S_ 1 :=
  let main_v0 : FVec F S50000x200 .f32 := Host.absf main_arg0
  let main_cst : FVec F S_ .f32 := constant S_ .f32 0x7F800000#32
  let main_v1 : FVec F S50000x200 .f32 := broadcastInDim S50000x200 ![] bcast_S_S50000x200 main_cst
  let main_v2 : IVec S50000x200 1 := cmpf .olt main_v0 main_v1
  let main_c : IVec S_ 1 := constantI S_ 1 1#1
  let main_v3 : IVec S_ 1 := (fun x v => Host.reduce IntOp.andi x v reducesTo_S50000x200_S_d0_1 h_S_) main_v2 main_c
  let main_v4 : FVec F S5 .f32 := Host.absf main_arg3
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S200x128 .f32 := Host.absf main_arg4
  let main_cst_2 : FVec F S_ .f32 := constant S_ .f32 0x7F800000#32
  let main_v10 : FVec F S200x128 .f32 := broadcastInDim S200x128 ![] bcast_S_S200x128 main_cst_2
  let main_v11 : IVec S200x128 1 := cmpf .olt main_v9 main_v10
  let main_c_3 : IVec S_ 1 := constantI S_ 1 1#1
  let main_v12 : IVec S_ 1 := (fun x v => Host.reduce IntOp.andi x v reducesTo_S200x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_arg11 main_arg12 main_v13 main_v16
-- ==== Kernel.lean ====
abbrev S50000x200 : Shape := ⟨2, ![50000, 200]⟩
abbrev S2x800000 : Shape := ⟨2, ![2, 800000]⟩
abbrev S50000 : Shape := ⟨1, ![50000]⟩
abbrev S5 : Shape := ⟨1, ![5]⟩
abbrev S200x128 : Shape := ⟨2, ![200, 128]⟩
abbrev S4x128x128 : Shape := ⟨3, ![4, 128, 128]⟩
abbrev S5x128 : Shape := ⟨2, ![5, 128]⟩
abbrev S5x128x128 : Shape := ⟨3, ![5, 128, 128]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x200 : Shape := ⟨2, ![800000, 200]⟩
abbrev S1 : Shape := ⟨1, ![1]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S50000x128 : Shape := ⟨2, ![50000, 128]⟩
abbrev S5000x200 : Shape := ⟨2, ![5000, 200]⟩
abbrev S5000x128 : Shape := ⟨2, ![5000, 128]⟩
abbrev S800000x128 : Shape := ⟨2, ![800000, 128]⟩
abbrev S128x200 : Shape := ⟨2, ![128, 200]⟩
abbrev S5000x1 : Shape := ⟨2, ![5000, 1]⟩

abbrev nBuf : Space → Nat
  | .hbm => 347
  | .vmem => 170
  | .smem => 0
  | _ => 0

abbrev hbmTy0_0 (i : Nat) : BufTy := match i % 128 with
  | 0 => ⟨S50000x200, .f32⟩
  | 1 => ⟨S2x800000, .i32⟩
  | 2 => ⟨S50000, .i32⟩
  | 3 => ⟨S5, .f32⟩
  | 4 => ⟨S200x128, .f32⟩
  | 5 => ⟨S4x128x128, .f32⟩
  | 6 => ⟨S5x128, .f32⟩
  | 7 => ⟨S5x128x128, .f32⟩
  | 8 => ⟨S5x128, .f32⟩
  | 9 => ⟨S5x128, .f32⟩
  | 10 => ⟨S5x128, .f32⟩
  | 11 => ⟨S5x128, .f32⟩
  | 12 => ⟨S5x128, .f32⟩
  | 13 => ⟨S1x800000, .i32⟩
  | 14 => ⟨S800000, .i32⟩
  | 15 => ⟨S1x800000, .i32⟩
  | 16 => ⟨S800000, .i32⟩
  | 17 => ⟨S50000x1, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x200, .f32⟩
  | 27 => ⟨S_, .f32⟩
  | 28 => ⟨S50000x200, .f32⟩
  | 29 => ⟨S800000x1, .i32⟩
  | 30 => ⟨S50000x200, .f32⟩
  | 31 => ⟨S1, .f32⟩
  | 32 => ⟨S_, .f32⟩
  | 33 => ⟨S_, .f32⟩
  | 34 => ⟨S_, .f32⟩
  | 35 => ⟨S50000x200, .f32⟩
  | 36 => ⟨S50000x200, .f32⟩
  | 37 => ⟨S50000x200, .f32⟩
  | 38 => ⟨S1x128, .f32⟩
  | 39 => ⟨S128, .f32⟩
  | 40 => ⟨S1x128, .f32⟩
  | 41 => ⟨S1x128, .f32⟩
  | 42 => ⟨S128, .f32⟩
  | 43 => ⟨S1x128, .f32⟩
  | 44 => ⟨S1x128, .f32⟩
  | 45 => ⟨S128, .f32⟩
  | 46 => ⟨S1x128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S1x128, .f32⟩
  | 53 => ⟨S128, .f32⟩
  | 54 => ⟨S1x128, .f32⟩
  | 55 => ⟨S1x128, .f32⟩
  | 56 => ⟨S128, .f32⟩
  | 57 => ⟨S1x128, .f32⟩
  | 58 => ⟨S50000x128, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S1x128, .f32⟩
  | 68 => ⟨S1x128, .f32⟩
  | 69 => ⟨S50000x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S1, .f32⟩
  | 95 => ⟨S_, .f32⟩
  | 96 => ⟨S_, .f32⟩
  | 97 => ⟨S_, .f32⟩
  | 98 => ⟨S50000x128, .f32⟩
  | 99 => ⟨S50000x128, .f32⟩
  | 100 => ⟨S50000x128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S1x128, .f32⟩
  | 107 => ⟨S128, .f32⟩
  | 108 => ⟨S1x128, .f32⟩
  | 109 => ⟨S1x128, .f32⟩
  | 110 => ⟨S128, .f32⟩
  | 111 => ⟨S1x128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S1x128, .f32⟩
  | 118 => ⟨S128, .f32⟩
  | 119 => ⟨S1x128, .f32⟩
  | 120 => ⟨S1x128, .f32⟩
  | 121 => ⟨S128, .f32⟩
  | 122 => ⟨S1x128, .f32⟩
  | 123 => ⟨S50000x128, .f32⟩
  | 124 => ⟨S1x128, .f32⟩
  | 125 => ⟨S1x128, .f32⟩
  | 126 => ⟨S_, .f32⟩
  | 127 => ⟨S1x128, .f32⟩
  | _ => ⟨S50000x200, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S1x128, .f32⟩
  | 5 => ⟨S1x128, .f32⟩
  | 6 => ⟨S50000x128, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S_, .f32⟩
  | 13 => ⟨S1x128, .f32⟩
  | 14 => ⟨S1x128, .f32⟩
  | 15 => ⟨S1x128, .f32⟩
  | 16 => ⟨S1x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S1, .f32⟩
  | 32 => ⟨S_, .f32⟩
  | 33 => ⟨S_, .f32⟩
  | 34 => ⟨S_, .f32⟩
  | 35 => ⟨S50000x128, .f32⟩
  | 36 => ⟨S50000x128, .f32⟩
  | 37 => ⟨S50000x128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S1x128x128, .f32⟩
  | 50 => ⟨S128x128, .f32⟩
  | 51 => ⟨S1x128, .f32⟩
  | 52 => ⟨S128, .f32⟩
  | 53 => ⟨S1x128, .f32⟩
  | 54 => ⟨S1x128, .f32⟩
  | 55 => ⟨S128, .f32⟩
  | 56 => ⟨S1x128, .f32⟩
  | 57 => ⟨S1x128, .f32⟩
  | 58 => ⟨S128, .f32⟩
  | 59 => ⟨S1x128, .f32⟩
  | 60 => ⟨S50000x128, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S1x128, .f32⟩
  | 70 => ⟨S1x128, .f32⟩
  | 71 => ⟨S50000x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S1, .f32⟩
  | 97 => ⟨S_, .f32⟩
  | 98 => ⟨S_, .f32⟩
  | 99 => ⟨S_, .f32⟩
  | 100 => ⟨S50000x128, .f32⟩
  | 101 => ⟨S50000x128, .f32⟩
  | 102 => ⟨S50000x128, .f32⟩
  | 103 => ⟨S1x128x128, .f32⟩
  | 104 => ⟨S128x128, .f32⟩
  | 105 => ⟨S1x128, .f32⟩
  | 106 => ⟨S128, .f32⟩
  | 107 => ⟨S1x128, .f32⟩
  | 108 => ⟨S1x128, .f32⟩
  | 109 => ⟨S128, .f32⟩
  | 110 => ⟨S1x128, .f32⟩
  | 111 => ⟨S1x128, .f32⟩
  | 112 => ⟨S128, .f32⟩
  | 113 => ⟨S1x128, .f32⟩
  | 114 => ⟨S1x128x128, .f32⟩
  | 115 => ⟨S128x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S1x128, .f32⟩
  | 123 => ⟨S128, .f32⟩
  | 124 => ⟨S1x128, .f32⟩
  | 125 => ⟨S50000x128, .f32⟩
  | 126 => ⟨S1x128, .f32⟩
  | 127 => ⟨S1x128, .f32⟩
  | _ => ⟨S50000x200, .f32⟩

abbrev hbmTy0_2 (i : Nat) : BufTy := match i % 128 with
  | 0 => ⟨S_, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S1x128, .f32⟩
  | 7 => ⟨S1x128, .f32⟩
  | 8 => ⟨S50000x128, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S1x128, .f32⟩
  | 19 => ⟨S50000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S1, .f32⟩
  | 34 => ⟨S_, .f32⟩
  | 35 => ⟨S_, .f32⟩
  | 36 => ⟨S_, .f32⟩
  | 37 => ⟨S50000x128, .f32⟩
  | 38 => ⟨S50000x128, .f32⟩
  | 39 => ⟨S50000x128, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S1x128, .f32⟩
  | 57 => ⟨S128, .f32⟩
  | 58 => ⟨S1x128, .f32⟩
  | 59 => ⟨S1x128, .f32⟩
  | 60 => ⟨S128, .f32⟩
  | 61 => ⟨S1x128, .f32⟩
  | 62 => ⟨S50000x128, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S50000x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S1x128, .f32⟩
  | 84 => ⟨S50000x128, .f32⟩
  | 85 => ⟨S128x200, .f32⟩
  | 86 => ⟨S128x128, .f32⟩
  | 87 => ⟨S128x128, .f32⟩
  | 88 => ⟨S128x128, .f32⟩
  | 89 => ⟨S128x128, .f32⟩
  | 90 => ⟨S128x128, .f32⟩
  | _ => ⟨S50000x200, .f32⟩

abbrev hbmTy (i : Nat) : BufTy := match i / 128 with
  | 0 => hbmTy0_0 i
  | 1 => hbmTy0_1 i
  | 2 => hbmTy0_2 i
  | _ => ⟨S50000x200, .f32⟩

abbrev vmemTy0_0 (i : Nat) : BufTy := match i % 128 with
  | 0 => ⟨S5000x200, .f32⟩
  | 1 => ⟨S5000x200, .f32⟩
  | 2 => ⟨S200x128, .f32⟩
  | 3 => ⟨S1x128, .f32⟩
  | 4 => ⟨S5000x128, .f32⟩
  | 5 => ⟨S5000x128, .f32⟩
  | 6 => ⟨S1x128, .f32⟩
  | 7 => ⟨S1x128, .f32⟩
  | 8 => ⟨S5000x128, .f32⟩
  | 9 => ⟨S5000x128, .f32⟩
  | 10 => ⟨S1x128, .f32⟩
  | 11 => ⟨S1x128, .f32⟩
  | 12 => ⟨S1x128, .f32⟩
  | 13 => ⟨S1x128, .f32⟩
  | 14 => ⟨S128x128, .f32⟩
  | 15 => ⟨S1x128, .f32⟩
  | 16 => ⟨S5000x128, .f32⟩
  | 17 => ⟨S5000x128, .f32⟩
  | 18 => ⟨S1x128, .f32⟩
  | 19 => ⟨S1x128, .f32⟩
  | 20 => ⟨S5000x128, .f32⟩
  | 21 => ⟨S5000x128, .f32⟩
  | 22 => ⟨S1x128, .f32⟩
  | 23 => ⟨S1x128, .f32⟩
  | 24 => ⟨S1x128, .f32⟩
  | 25 => ⟨S1x128, .f32⟩
  | 26 => ⟨S5000x128, .f32⟩
  | 27 => ⟨S5000x128, .f32⟩
  | 28 => ⟨S5000x128, .f32⟩
  | 29 => ⟨S5000x128, .f32⟩
  | 30 => ⟨S128x128, .f32⟩
  | 31 => ⟨S1x128, .f32⟩
  | 32 => ⟨S5000x128, .f32⟩
  | 33 => ⟨S5000x128, .f32⟩
  | 34 => ⟨S1x128, .f32⟩
  | 35 => ⟨S1x128, .f32⟩
  | 36 => ⟨S5000x128, .f32⟩
  | 37 => ⟨S5000x128, .f32⟩
  | 38 => ⟨S1x128, .f32⟩
  | 39 => ⟨S1x128, .f32⟩
  | 40 => ⟨S1x128, .f32⟩
  | 41 => ⟨S1x128, .f32⟩
  | 42 => ⟨S128x128, .f32⟩
  | 43 => ⟨S1x128, .f32⟩
  | 44 => ⟨S5000x128, .f32⟩
  | 45 => ⟨S5000x128, .f32⟩
  | 46 => ⟨S1x128, .f32⟩
  | 47 => ⟨S1x128, .f32⟩
  | 48 => ⟨S5000x128, .f32⟩
  | 49 => ⟨S5000x128, .f32⟩
  | 50 => ⟨S1x128, .f32⟩
  | 51 => ⟨S1x128, .f32⟩
  | 52 => ⟨S1x128, .f32⟩
  | 53 => ⟨S1x128, .f32⟩
  | 54 => ⟨S5000x128, .f32⟩
  | 55 => ⟨S5000x128, .f32⟩
  | 56 => ⟨S5000x128, .f32⟩
  | 57 => ⟨S5000x128, .f32⟩
  | 58 => ⟨S128x128, .f32⟩
  | 59 => ⟨S1x128, .f32⟩
  | 60 => ⟨S5000x128, .f32⟩
  | 61 => ⟨S5000x128, .f32⟩
  | 62 => ⟨S1x128, .f32⟩
  | 63 => ⟨S1x128, .f32⟩
  | 64 => ⟨S5000x128, .f32⟩
  | 65 => ⟨S5000x128, .f32⟩
  | 66 => ⟨S1x128, .f32⟩
  | 67 => ⟨S1x128, .f32⟩
  | 68 => ⟨S1x128, .f32⟩
  | 69 => ⟨S1x128, .f32⟩
  | 70 => ⟨S128x128, .f32⟩
  | 71 => ⟨S1x128, .f32⟩
  | 72 => ⟨S5000x128, .f32⟩
  | 73 => ⟨S5000x128, .f32⟩
  | 74 => ⟨S1x128, .f32⟩
  | 75 => ⟨S1x128, .f32⟩
  | 76 => ⟨S5000x128, .f32⟩
  | 77 => ⟨S5000x128, .f32⟩
  | 78 => ⟨S1x128, .f32⟩
  | 79 => ⟨S1x128, .f32⟩
  | 80 => ⟨S1x128, .f32⟩
  | 81 => ⟨S1x128, .f32⟩
  | 82 => ⟨S5000x128, .f32⟩
  | 83 => ⟨S5000x128, .f32⟩
  | 84 => ⟨S5000x128, .f32⟩
  | 85 => ⟨S5000x128, .f32⟩
  | 86 => ⟨S128x128, .f32⟩
  | 87 => ⟨S1x128, .f32⟩
  | 88 => ⟨S5000x128, .f32⟩
  | 89 => ⟨S5000x128, .f32⟩
  | 90 => ⟨S1x128, .f32⟩
  | 91 => ⟨S1x128, .f32⟩
  | 92 => ⟨S5000x128, .f32⟩
  | 93 => ⟨S5000x128, .f32⟩
  | 94 => ⟨S1x128, .f32⟩
  | 95 => ⟨S1x128, .f32⟩
  | 96 => ⟨S1x128, .f32⟩
  | 97 => ⟨S1x128, .f32⟩
  | 98 => ⟨S128x128, .f32⟩
  | 99 => ⟨S1x128, .f32⟩
  | 100 => ⟨S5000x128, .f32⟩
  | 101 => ⟨S5000x128, .f32⟩
  | 102 => ⟨S1x128, .f32⟩
  | 103 => ⟨S1x128, .f32⟩
  | 104 => ⟨S5000x128, .f32⟩
  | 105 => ⟨S5000x128, .f32⟩
  | 106 => ⟨S1x128, .f32⟩
  | 107 => ⟨S1x128, .f32⟩
  | 108 => ⟨S1x128, .f32⟩
  | 109 => ⟨S1x128, .f32⟩
  | 110 => ⟨S5000x128, .f32⟩
  | 111 => ⟨S5000x128, .f32⟩
  | 112 => ⟨S5000x128, .f32⟩
  | 113 => ⟨S5000x128, .f32⟩
  | 114 => ⟨S128x128, .f32⟩
  | 115 => ⟨S1x128, .f32⟩
  | 116 => ⟨S5000x128, .f32⟩
  | 117 => ⟨S5000x128, .f32⟩
  | 118 => ⟨S1x128, .f32⟩
  | 119 => ⟨S1x128, .f32⟩
  | 120 => ⟨S5000x128, .f32⟩
  | 121 => ⟨S5000x128, .f32⟩
  | 122 => ⟨S1x128, .f32⟩
  | 123 => ⟨S1x128, .f32⟩
  | 124 => ⟨S1x128, .f32⟩
  | 125 => ⟨S1x128, .f32⟩
  | 126 => ⟨S128x128, .f32⟩
  | 127 => ⟨S1x128, .f32⟩
  | _ => ⟨S50000x200, .f32⟩

abbrev vmemTy0_1 (i : Nat) : BufTy := match i % 128 with
  | 0 => ⟨S5000x128, .f32⟩
  | 1 => ⟨S5000x128, .f32⟩
  | 2 => ⟨S1x128, .f32⟩
  | 3 => ⟨S1x128, .f32⟩
  | 4 => ⟨S5000x128, .f32⟩
  | 5 => ⟨S5000x128, .f32⟩
  | 6 => ⟨S1x128, .f32⟩
  | 7 => ⟨S1x128, .f32⟩
  | 8 => ⟨S1x128, .f32⟩
  | 9 => ⟨S1x128, .f32⟩
  | 10 => ⟨S5000x128, .f32⟩
  | 11 => ⟨S5000x128, .f32⟩
  | 12 => ⟨S5000x1, .i32⟩
  | 13 => ⟨S5000x1, .i32⟩
  | 14 => ⟨S5000x200, .f32⟩
  | 15 => ⟨S5000x200, .f32⟩
  | 16 => ⟨S128x200, .f32⟩
  | 17 => ⟨S5000x1, .i32⟩
  | 18 => ⟨S5000x1, .i32⟩
  | 19 => ⟨S5000x128, .f32⟩
  | 20 => ⟨S5000x128, .f32⟩
  | 21 => ⟨S128x128, .f32⟩
  | 22 => ⟨S5000x1, .i32⟩
  | 23 => ⟨S5000x1, .i32⟩
  | 24 => ⟨S5000x128, .f32⟩
  | 25 => ⟨S5000x128, .f32⟩
  | 26 => ⟨S128x128, .f32⟩
  | 27 => ⟨S5000x1, .i32⟩
  | 28 => ⟨S5000x1, .i32⟩
  | 29 => ⟨S5000x128, .f32⟩
  | 30 => ⟨S5000x128, .f32⟩
  | 31 => ⟨S128x128, .f32⟩
  | 32 => ⟨S5000x1, .i32⟩
  | 33 => ⟨S5000x1, .i32⟩
  | 34 => ⟨S5000x128, .f32⟩
  | 35 => ⟨S5000x128, .f32⟩
  | 36 => ⟨S128x128, .f32⟩
  | 37 => ⟨S5000x1, .i32⟩
  | 38 => ⟨S5000x1, .i32⟩
  | 39 => ⟨S5000x128, .f32⟩
  | 40 => ⟨S5000x128, .f32⟩
  | 41 => ⟨S128x128, .f32⟩
  | _ => ⟨S50000x200, .f32⟩

abbrev vmemTy (i : Nat) : BufTy := match i / 128 with
  | 0 => vmemTy0_0 i
  | 1 => vmemTy0_1 i
  | _ => ⟨S50000x200, .f32⟩

abbrev bufTy : (tb : Table) → Fin (tcTables nBuf tb) → BufTy
  | .hbm, ⟨i, _⟩ => hbmTy i
  | .local _ .vmem, ⟨i, _⟩ => vmemTy i
  | _, _ => ⟨S50000x200, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 170 → Bool
  | ⟨i, _⟩ => dmaSemScopedAt i

abbrev sig : RefSig :=
  ofTc nBuf bufTy 0 170 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev main_cst_2 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48_0 : Ref sig .tc := ⟨.hbm, 69, rfl⟩
abbrev main_v48_1 : Ref sig .tc := ⟨.hbm, 70, rfl⟩
abbrev main_v48_2 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_cst_5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_6 : Ref sig .tc := ⟨.hbm, 81, rfl⟩
abbrev main_v56 : Ref sig .tc := ⟨.hbm, 82, rfl⟩
abbrev main_v57 : Ref sig .tc := ⟨.hbm, 83, rfl⟩
abbrev main_c_7 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_8 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94_0 : Ref sig .tc := ⟨.hbm, 123, rfl⟩
abbrev main_v94_1 : Ref sig .tc := ⟨.hbm, 124, rfl⟩
abbrev main_v94_2 : Ref sig .tc := ⟨.hbm, 125, rfl⟩
abbrev main_cst_10 : Ref sig .tc := ⟨.hbm, 126, rfl⟩
abbrev main_v95 : Ref sig .tc := ⟨.hbm, 127, rfl⟩
abbrev main_v96 : Ref sig .tc := ⟨.hbm, 128, rfl⟩
abbrev main_cst_11 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101_0 : Ref sig .tc := ⟨.hbm, 134, rfl⟩
abbrev main_v101_1 : Ref sig .tc := ⟨.hbm, 135, rfl⟩
abbrev main_v101_2 : Ref sig .tc := ⟨.hbm, 136, rfl⟩
abbrev main_cst_12 : Ref sig .tc := ⟨.hbm, 137, rfl⟩
abbrev main_v102 : Ref sig .tc := ⟨.hbm, 138, rfl⟩
abbrev main_v103 : Ref sig .tc := ⟨.hbm, 139, rfl⟩
abbrev main_cst_13 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_14 : Ref sig .tc := ⟨.hbm, 146, rfl⟩
abbrev main_v109 : Ref sig .tc := ⟨.hbm, 147, rfl⟩
abbrev main_v110 : Ref sig .tc := ⟨.hbm, 148, rfl⟩
abbrev main_c_15 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_16 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_17 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147_0 : Ref sig .tc := ⟨.hbm, 188, rfl⟩
abbrev main_v147_1 : Ref sig .tc := ⟨.hbm, 189, rfl⟩
abbrev main_v147_2 : Ref sig .tc := ⟨.hbm, 190, rfl⟩
abbrev main_cst_18 : Ref sig .tc := ⟨.hbm, 191, rfl⟩
abbrev main_v148 : Ref sig .tc := ⟨.hbm, 192, rfl⟩
abbrev main_v149 : Ref sig .tc := ⟨.hbm, 193, rfl⟩
abbrev main_cst_19 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154_0 : Ref sig .tc := ⟨.hbm, 199, rfl⟩
abbrev main_v154_1 : Ref sig .tc := ⟨.hbm, 200, rfl⟩
abbrev main_v154_2 : Ref sig .tc := ⟨.hbm, 201, rfl⟩
abbrev main_cst_20 : Ref sig .tc := ⟨.hbm, 202, rfl⟩
abbrev main_v155 : Ref sig .tc := ⟨.hbm, 203, rfl⟩
abbrev main_v156 : Ref sig .tc := ⟨.hbm, 204, rfl⟩
abbrev main_cst_21 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_22 : Ref sig .tc := ⟨.hbm, 211, rfl⟩
abbrev main_v162 : Ref sig .tc := ⟨.hbm, 212, rfl⟩
abbrev main_v163 : Ref sig .tc := ⟨.hbm, 213, rfl⟩
abbrev main_c_23 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_24 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_25 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200_0 : Ref sig .tc := ⟨.hbm, 253, rfl⟩
abbrev main_v200_1 : Ref sig .tc := ⟨.hbm, 254, rfl⟩
abbrev main_v200_2 : Ref sig .tc := ⟨.hbm, 255, rfl⟩
abbrev main_cst_26 : Ref sig .tc := ⟨.hbm, 256, rfl⟩
abbrev main_v201 : Ref sig .tc := ⟨.hbm, 257, rfl⟩
abbrev main_v202 : Ref sig .tc := ⟨.hbm, 258, rfl⟩
abbrev main_cst_27 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207_0 : Ref sig .tc := ⟨.hbm, 264, rfl⟩
abbrev main_v207_1 : Ref sig .tc := ⟨.hbm, 265, rfl⟩
abbrev main_v207_2 : Ref sig .tc := ⟨.hbm, 266, rfl⟩
abbrev main_cst_28 : Ref sig .tc := ⟨.hbm, 267, rfl⟩
abbrev main_v208 : Ref sig .tc := ⟨.hbm, 268, rfl⟩
abbrev main_v209 : Ref sig .tc := ⟨.hbm, 269, rfl⟩
abbrev main_cst_29 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_c_30 : Ref sig .tc := ⟨.hbm, 276, rfl⟩
abbrev main_v215 : Ref sig .tc := ⟨.hbm, 277, rfl⟩
abbrev main_v216 : Ref sig .tc := ⟨.hbm, 278, rfl⟩
abbrev main_c_31 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_cst_32 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_cst_33 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253_0 : Ref sig .tc := ⟨.hbm, 318, rfl⟩
abbrev main_v253_1 : Ref sig .tc := ⟨.hbm, 319, rfl⟩
abbrev main_v253_2 : Ref sig .tc := ⟨.hbm, 320, rfl⟩
abbrev main_cst_34 : Ref sig .tc := ⟨.hbm, 321, rfl⟩
abbrev main_v254 : Ref sig .tc := ⟨.hbm, 322, rfl⟩
abbrev main_v255 : Ref sig .tc := ⟨.hbm, 323, rfl⟩
abbrev main_cst_35 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260_0 : Ref sig .tc := ⟨.hbm, 329, rfl⟩
abbrev main_v260_1 : Ref sig .tc := ⟨.hbm, 330, rfl⟩
abbrev main_v260_2 : Ref sig .tc := ⟨.hbm, 331, rfl⟩
abbrev main_cst_36 : Ref sig .tc := ⟨.hbm, 332, rfl⟩
abbrev main_v261 : Ref sig .tc := ⟨.hbm, 333, rfl⟩
abbrev main_v262 : Ref sig .tc := ⟨.hbm, 334, rfl⟩
abbrev main_cst_37 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg7_1 : Ref sig .tc := ⟨.vmem, 45, rfl⟩
abbrev cc4_stg8_0 : Ref sig .tc := ⟨.vmem, 46, rfl⟩
abbrev cc4_stg9_0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg3_1 : Ref sig .tc := ⟨.vmem, 61, rfl⟩
abbrev cc6_stg4_0 : Ref sig .tc := ⟨.vmem, 62, rfl⟩
abbrev cc6_stg5_0 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg6_0 : Ref sig .tc := ⟨.vmem, 71, rfl⟩
abbrev cc7_stg7_0 : Ref sig .tc := ⟨.vmem, 72, rfl⟩
abbrev cc7_stg7_1 : Ref sig .tc := ⟨.vmem, 73, rfl⟩
abbrev cc7_stg8_0 : Ref sig .tc := ⟨.vmem, 74, rfl⟩
abbrev cc7_stg9_0 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg5_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg2_0 : Ref sig .tc := ⟨.vmem, 87, rfl⟩
abbrev cc9_stg3_0 : Ref sig .tc := ⟨.vmem, 88, rfl⟩
abbrev cc9_stg3_1 : Ref sig .tc := ⟨.vmem, 89, rfl⟩
abbrev cc9_stg4_0 : Ref sig .tc := ⟨.vmem, 90, rfl⟩
abbrev cc9_stg5_0 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg2_0 : Ref sig .tc := ⟨.vmem, 95, rfl⟩
abbrev cc10_stg3_0 : Ref sig .tc := ⟨.vmem, 96, rfl⟩
abbrev cc10_stg4_0 : Ref sig .tc := ⟨.vmem, 97, rfl⟩
abbrev cc10_stg5_0 : Ref sig .tc := ⟨.vmem, 98, rfl⟩
abbrev cc10_stg6_0 : Ref sig .tc := ⟨.vmem, 99, rfl⟩
abbrev cc10_stg7_0 : Ref sig .tc := ⟨.vmem, 100, rfl⟩
abbrev cc10_stg7_1 : Ref sig .tc := ⟨.vmem, 101, rfl⟩
abbrev cc10_stg8_0 : Ref sig .tc := ⟨.vmem, 102, rfl⟩
abbrev cc10_stg9_0 : Ref sig .tc := ⟨.vmem, 103, rfl⟩
abbrev cc11_stg0_0 : Ref sig .tc := ⟨.vmem, 104, rfl⟩
abbrev cc11_stg0_1 : Ref sig .tc := ⟨.vmem, 105, rfl⟩
abbrev cc11_stg1_0 : Ref sig .tc := ⟨.vmem, 106, rfl⟩
abbrev cc11_stg2_0 : Ref sig .tc := ⟨.vmem, 107, rfl⟩
abbrev cc11_stg3_0 : Ref sig .tc := ⟨.vmem, 108, rfl⟩
abbrev cc11_stg4_0 : Ref sig .tc := ⟨.vmem, 109, rfl⟩
abbrev cc11_stg5_0 : Ref sig .tc := ⟨.vmem, 110, rfl⟩
abbrev cc11_stg5_1 : Ref sig .tc := ⟨.vmem, 111, rfl⟩
abbrev cc12_stg0_0 : Ref sig .tc := ⟨.vmem, 112, rfl⟩
abbrev cc12_stg0_1 : Ref sig .tc := ⟨.vmem, 113, rfl⟩
abbrev cc12_stg1_0 : Ref sig .tc := ⟨.vmem, 114, rfl⟩
abbrev cc12_stg2_0 : Ref sig .tc := ⟨.vmem, 115, rfl⟩
abbrev cc12_stg3_0 : Ref sig .tc := ⟨.vmem, 116, rfl⟩
abbrev cc12_stg3_1 : Ref sig .tc := ⟨.vmem, 117, rfl⟩
abbrev cc12_stg4_0 : Ref sig .tc := ⟨.vmem, 118, rfl⟩
abbrev cc12_stg5_0 : Ref sig .tc := ⟨.vmem, 119, rfl⟩
abbrev cc13_stg0_0 : Ref sig .tc := ⟨.vmem, 120, rfl⟩
abbrev cc13_stg0_1 : Ref sig .tc := ⟨.vmem, 121, rfl⟩
abbrev cc13_stg1_0 : Ref sig .tc := ⟨.vmem, 122, rfl⟩
abbrev cc13_stg2_0 : Ref sig .tc := ⟨.vmem, 123, rfl⟩
abbrev cc13_stg3_0 : Ref sig .tc := ⟨.vmem, 124, rfl⟩
abbrev cc13_stg4_0 : Ref sig .tc := ⟨.vmem, 125, rfl⟩
abbrev cc13_stg5_0 : Ref sig .tc := ⟨.vmem, 126, rfl⟩
abbrev cc13_stg6_0 : Ref sig .tc := ⟨.vmem, 127, rfl⟩
abbrev cc13_stg7_0 : Ref sig .tc := ⟨.vmem, 128, rfl⟩
abbrev cc13_stg7_1 : Ref sig .tc := ⟨.vmem, 129, rfl⟩
abbrev cc13_stg8_0 : Ref sig .tc := ⟨.vmem, 130, rfl⟩
abbrev cc13_stg9_0 : Ref sig .tc := ⟨.vmem, 131, rfl⟩
abbrev cc14_stg0_0 : Ref sig .tc := ⟨.vmem, 132, rfl⟩
abbrev cc14_stg0_1 : Ref sig .tc := ⟨.vmem, 133, rfl⟩
abbrev cc14_stg1_0 : Ref sig .tc := ⟨.vmem, 134, rfl⟩
abbrev cc14_stg2_0 : Ref sig .tc := ⟨.vmem, 135, rfl⟩
abbrev cc14_stg3_0 : Ref sig .tc := ⟨.vmem, 136, rfl⟩
abbrev cc14_stg4_0 : Ref sig .tc := ⟨.vmem, 137, rfl⟩
abbrev cc14_stg5_0 : Ref sig .tc := ⟨.vmem, 138, rfl⟩
abbrev cc14_stg5_1 : Ref sig .tc := ⟨.vmem, 139, rfl⟩
abbrev cc15_stg0_0 : Ref sig .tc := ⟨.vmem, 140, rfl⟩
abbrev cc15_stg0_1 : Ref sig .tc := ⟨.vmem, 141, rfl⟩
abbrev cc15_stg1_0 : Ref sig .tc := ⟨.vmem, 142, rfl⟩
abbrev cc15_stg1_1 : Ref sig .tc := ⟨.vmem, 143, rfl⟩
abbrev cc15_stg2_0 : Ref sig .tc := ⟨.vmem, 144, rfl⟩
abbrev cc16_stg0_0 : Ref sig .tc := ⟨.vmem, 145, rfl⟩
abbrev cc16_stg0_1 : Ref sig .tc := ⟨.vmem, 146, rfl⟩
abbrev cc16_stg1_0 : Ref sig .tc := ⟨.vmem, 147, rfl⟩
abbrev cc16_stg1_1 : Ref sig .tc := ⟨.vmem, 148, rfl⟩
abbrev cc16_stg2_0 : Ref sig .tc := ⟨.vmem, 149, rfl⟩
abbrev cc17_stg0_0 : Ref sig .tc := ⟨.vmem, 150, rfl⟩
abbrev cc17_stg0_1 : Ref sig .tc := ⟨.vmem, 151, rfl⟩
abbrev cc17_stg1_0 : Ref sig .tc := ⟨.vmem, 152, rfl⟩
abbrev cc17_stg1_1 : Ref sig .tc := ⟨.vmem, 153, rfl⟩
abbrev cc17_stg2_0 : Ref sig .tc := ⟨.vmem, 154, rfl⟩
abbrev cc18_stg0_0 : Ref sig .tc := ⟨.vmem, 155, rfl⟩
abbrev cc18_stg0_1 : Ref sig .tc := ⟨.vmem, 156, rfl⟩
abbrev cc18_stg1_0 : Ref sig .tc := ⟨.vmem, 157, rfl⟩
abbrev cc18_stg1_1 : Ref sig .tc := ⟨.vmem, 158, rfl⟩
abbrev cc18_stg2_0 : Ref sig .tc := ⟨.vmem, 159, rfl⟩
abbrev cc19_stg0_0 : Ref sig .tc := ⟨.vmem, 160, rfl⟩
abbrev cc19_stg0_1 : Ref sig .tc := ⟨.vmem, 161, rfl⟩
abbrev cc19_stg1_0 : Ref sig .tc := ⟨.vmem, 162, rfl⟩
abbrev cc19_stg1_1 : Ref sig .tc := ⟨.vmem, 163, rfl⟩
abbrev cc19_stg2_0 : Ref sig .tc := ⟨.vmem, 164, rfl⟩
abbrev cc20_stg0_0 : Ref sig .tc := ⟨.vmem, 165, rfl⟩
abbrev cc20_stg0_1 : Ref sig .tc := ⟨.vmem, 166, rfl⟩
abbrev cc20_stg1_0 : Ref sig .tc := ⟨.vmem, 167, rfl⟩
abbrev cc20_stg1_1 : Ref sig .tc := ⟨.vmem, 168, rfl⟩
abbrev cc20_stg2_0 : Ref sig .tc := ⟨.vmem, 169, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem5_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem7_1 : DmaSem sig := 45
abbrev cc4_sem8_0 : DmaSem sig := 46
abbrev cc4_sem9_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem3_1 : DmaSem sig := 61
abbrev cc6_sem4_0 : DmaSem sig := 62
abbrev cc6_sem5_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem6_0 : DmaSem sig := 71
abbrev cc7_sem7_0 : DmaSem sig := 72
abbrev cc7_sem7_1 : DmaSem sig := 73
abbrev cc7_sem8_0 : DmaSem sig := 74
abbrev cc7_sem9_0 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem3_0 : DmaSem sig := 80
abbrev cc8_sem4_0 : DmaSem sig := 81
abbrev cc8_sem5_0 : DmaSem sig := 82
abbrev cc8_sem5_1 : DmaSem sig := 83
abbrev cc9_sem0_0 : DmaSem sig := 84
abbrev cc9_sem0_1 : DmaSem sig := 85
abbrev cc9_sem1_0 : DmaSem sig := 86
abbrev cc9_sem2_0 : DmaSem sig := 87
abbrev cc9_sem3_0 : DmaSem sig := 88
abbrev cc9_sem3_1 : DmaSem sig := 89
abbrev cc9_sem4_0 : DmaSem sig := 90
abbrev cc9_sem5_0 : DmaSem sig := 91
abbrev cc10_sem0_0 : DmaSem sig := 92
abbrev cc10_sem0_1 : DmaSem sig := 93
abbrev cc10_sem1_0 : DmaSem sig := 94
abbrev cc10_sem2_0 : DmaSem sig := 95
abbrev cc10_sem3_0 : DmaSem sig := 96
abbrev cc10_sem4_0 : DmaSem sig := 97
abbrev cc10_sem5_0 : DmaSem sig := 98
abbrev cc10_sem6_0 : DmaSem sig := 99
abbrev cc10_sem7_0 : DmaSem sig := 100
abbrev cc10_sem7_1 : DmaSem sig := 101
abbrev cc10_sem8_0 : DmaSem sig := 102
abbrev cc10_sem9_0 : DmaSem sig := 103
abbrev cc11_sem0_0 : DmaSem sig := 104
abbrev cc11_sem0_1 : DmaSem sig := 105
abbrev cc11_sem1_0 : DmaSem sig := 106
abbrev cc11_sem2_0 : DmaSem sig := 107
abbrev cc11_sem3_0 : DmaSem sig := 108
abbrev cc11_sem4_0 : DmaSem sig := 109
abbrev cc11_sem5_0 : DmaSem sig := 110
abbrev cc11_sem5_1 : DmaSem sig := 111
abbrev cc12_sem0_0 : DmaSem sig := 112
abbrev cc12_sem0_1 : DmaSem sig := 113
abbrev cc12_sem1_0 : DmaSem sig := 114
abbrev cc12_sem2_0 : DmaSem sig := 115
abbrev cc12_sem3_0 : DmaSem sig := 116
abbrev cc12_sem3_1 : DmaSem sig := 117
abbrev cc12_sem4_0 : DmaSem sig := 118
abbrev cc12_sem5_0 : DmaSem sig := 119
abbrev cc13_sem0_0 : DmaSem sig := 120
abbrev cc13_sem0_1 : DmaSem sig := 121
abbrev cc13_sem1_0 : DmaSem sig := 122
abbrev cc13_sem2_0 : DmaSem sig := 123
abbrev cc13_sem3_0 : DmaSem sig := 124
abbrev cc13_sem4_0 : DmaSem sig := 125
abbrev cc13_sem5_0 : DmaSem sig := 126
abbrev cc13_sem6_0 : DmaSem sig := 127
abbrev cc13_sem7_0 : DmaSem sig := 128
abbrev cc13_sem7_1 : DmaSem sig := 129
abbrev cc13_sem8_0 : DmaSem sig := 130
abbrev cc13_sem9_0 : DmaSem sig := 131
abbrev cc14_sem0_0 : DmaSem sig := 132
abbrev cc14_sem0_1 : DmaSem sig := 133
abbrev cc14_sem1_0 : DmaSem sig := 134
abbrev cc14_sem2_0 : DmaSem sig := 135
abbrev cc14_sem3_0 : DmaSem sig := 136
abbrev cc14_sem4_0 : DmaSem sig := 137
abbrev cc14_sem5_0 : DmaSem sig := 138
abbrev cc14_sem5_1 : DmaSem sig := 139
abbrev cc15_sem0_0 : DmaSem sig := 140
abbrev cc15_sem0_1 : DmaSem sig := 141
abbrev cc15_sem1_0 : DmaSem sig := 142
abbrev cc15_sem1_1 : DmaSem sig := 143
abbrev cc15_sem2_0 : DmaSem sig := 144
abbrev cc16_sem0_0 : DmaSem sig := 145
abbrev cc16_sem0_1 : DmaSem sig := 146
abbrev cc16_sem1_0 : DmaSem sig := 147
abbrev cc16_sem1_1 : DmaSem sig := 148
abbrev cc16_sem2_0 : DmaSem sig := 149
abbrev cc17_sem0_0 : DmaSem sig := 150
abbrev cc17_sem0_1 : DmaSem sig := 151
abbrev cc17_sem1_0 : DmaSem sig := 152
abbrev cc17_sem1_1 : DmaSem sig := 153
abbrev cc17_sem2_0 : DmaSem sig := 154
abbrev cc18_sem0_0 : DmaSem sig := 155
abbrev cc18_sem0_1 : DmaSem sig := 156
abbrev cc18_sem1_0 : DmaSem sig := 157
abbrev cc18_sem1_1 : DmaSem sig := 158
abbrev cc18_sem2_0 : DmaSem sig := 159
abbrev cc19_sem0_0 : DmaSem sig := 160
abbrev cc19_sem0_1 : DmaSem sig := 161
abbrev cc19_sem1_0 : DmaSem sig := 162
abbrev cc19_sem1_1 : DmaSem sig := 163
abbrev cc19_sem2_0 : DmaSem sig := 164
abbrev cc20_sem0_0 : DmaSem sig := 165
abbrev cc20_sem0_1 : DmaSem sig := 166
abbrev cc20_sem1_0 : DmaSem sig := 167
abbrev cc20_sem1_1 : DmaSem sig := 168
abbrev cc20_sem2_0 : DmaSem sig := 169

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1x128 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_8 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_9 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S128x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S5000x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev stage13_8 : Fin 1 → Memref sig .tc .vmem S1x128 .f32 := fun | 0 => Memref.whole cc13_stg8_0 | ⟨_ + 1, h⟩ => absurd h (Nat.not_lt.2 (Nat.le_add_left _ _))
abbrev sem13_8 : Fin 1 → DmaSem sig := fun | 0 => cc13_sem8_0 | ⟨_ + 1, h⟩ => absurd h (Nat.not_lt.2 (Nat.le_add_left _ _))
abbrev reads13_8 : Fin grid13.rank → Bool := ![false]

abbrev stage13_9 : Fin 1 → Memref sig .tc .vmem S1x128 .f32 := fun | 0 => Memref.whole cc13_stg9_0 | ⟨_ + 1, h⟩ => absurd h (Nat.not_lt.2 (Nat.le_add_left _ _))
abbrev sem13_9 : Fin 1 → DmaSem sig := fun | 0 => cc13_sem9_0 | ⟨_ + 1, h⟩ => absurd h (Nat.not_lt.2 (Nat.le_add_left _ _))
abbrev reads13_9 : Fin grid13.rank → Bool := ![false]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S5000x1 .i32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x200 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S128x200 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S5000x1 .i32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S128x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 2 → Memref sig .tc .vmem S5000x1 .i32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S5000x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 1 → Memref sig .tc .vmem S128x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 2 → Memref sig .tc .vmem S5000x1 .i32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S128x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage19_0 : Fin 2 → Memref sig .tc .vmem S5000x1 .i32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S5000x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S128x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage20_0 : Fin 2 → Memref sig .tc .vmem S5000x1 .i32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S5000x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S128x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x200 : S_.BroadcastsInDim S50000x200 (![] : Fin 0 → Fin S50000x200.rank)
  slices_S5_S1_0 : S5.Slices ![0] S1
  shapeCasts_S1_S_ : S1.ShapeCasts S_
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  slices_S5x128x128_S1x128x128_0_0_0 : S5x128x128.Slices ![0, 0, 0] S1x128x128
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  inb_S5000x200_S5000x200_0_0 : ∀ a, (![0, 0] : Fin 2 → Nat) a + S5000x200.size a ≤ S5000x200.size a
  h_S5000x200 : 0 < S5000x200.numel
  shapeCasts_S5000x200_S5000x200 : S5000x200.ShapeCasts S5000x200
  bitsLt_bf16_f32 : FTy.bits .bf16 < FTy.bits .f32
  inb_S200x128_S200x128_0_0 : ∀ a, (![0, 0] : Fin 2 → Nat) a + S200x128.size a ≤ S200x128.size a
  h_S200x128 : 0 < S200x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  shapeCasts_S128_S1x128 : S128.ShapeCasts S1x128
  bcast_S_S1x128 : S_.BroadcastsInDim S1x128 (![] : Fin 0 → Fin S1x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  slices_S5_S1_1 : S5.Slices ![1] S1
  slices_S4x128x128_S1x128x128_0_0_0 : S4x128x128.Slices ![0, 0, 0] S1x128x128
  slices_S5x128_S1x128_1_0 : S5x128.Slices ![1, 0] S1x128
  slices_S5x128x128_S1x128x128_1_0_0 : S5x128x128.Slices ![1, 0, 0] S1x128x128
  slices_S5_S1_2 : S5.Slices ![2] S1
  slices_S4x128x128_S1x128x128_1_0_0 : S4x128x128.Slices ![1, 0, 0] S1x128x128
  slices_S5x128_S1x128_2_0 : S5x128.Slices ![2, 0] S1x128
  slices_S5x128x128_S1x128x128_2_0_0 : S5x128x128.Slices ![2, 0, 0] S1x128x128
  slices_S5_S1_3 : S5.Slices ![3] S1
  slices_S4x128x128_S1x128x128_2_0_0 : S4x128x128.Slices ![2, 0, 0] S1x128x128
  slices_S5x128_S1x128_3_0 : S5x128.Slices ![3, 0] S1x128
  slices_S5x128x128_S1x128x128_3_0_0 : S5x128x128.Slices ![3, 0, 0] S1x128x128
  slices_S5_S1_4 : S5.Slices ![4] S1
  slices_S4x128x128_S1x128x128_3_0_0 : S4x128x128.Slices ![3, 0, 0] S1x128x128
  slices_S5x128_S1x128_4_0 : S5x128.Slices ![4, 0] S1x128
  slices_S5x128x128_S1x128x128_4_0_0 : S5x128x128.Slices ![4, 0, 0] S1x128x128
  inb_S128x200_S128x200_0_0 : ∀ a, (![0, 0] : Fin 2 → Nat) a + S128x200.size a ≤ S128x200.size a
  h_S128x200 : 0 < S128x200.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  shapeCasts_S128x200_S128x200 : S128x200.ShapeCasts S128x200
  gather_S50000x200_S800000x1_S800000x200_1_0_n_n_0_1_1200_wf : GatherDims.WF S50000x200 S800000x1 S800000x200 [1] [0] [] [0] [] 1 ![1, 200]
  scatter_S50000x200_S800000x1_S800000x200_1_0_0_1_wf : ScatterDims.WF S50000x200 S800000x1 S800000x200 [1] [0] [0] 1
  dot_S5000x200_S200x128_S5000x128_1_0_0_1_n_n_wf : DotDims.WF S5000x200 S200x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S5000x200_S128x200_0_0_1_1_n_n_wf : DotDims.WF S5000x128 S5000x200 S128x200 [0] [0] [1] [1] [] []
  dot_S5000x128_S5000x128_S128x128_0_0_1_1_n_n_wf : DotDims.WF S5000x128 S5000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x200.size a ≤ S50000x200.size a
  hwx0_0 : ∀ i : grid0.Coords, EltTy.bits .f32 = 32 ∨ (Rect.block (s := S50000x200) S5000x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S200x128.size a
  hwx0_1 : ∀ i : grid0.Coords, EltTy.bits .f32 = 32 ∨ (Rect.block (s := S200x128) S200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S50000x128.size a
  hwx7_7 : ∀ i : grid7.Coords, EltTy.bits .f32 = 32 ∨ (Rect.block (s := S50000x128) S5000x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S50000x128.size a
  hwx9_3 : ∀ i : grid9.Coords, EltTy.bits .f32 = 32 ∨ (Rect.block (s := S50000x128) S5000x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x128.size a ≤ S50000x128.size a
  hwx10_7 : ∀ i : grid10.Coords, EltTy.bits .f32 = 32 ∨ (Rect.block (s := S50000x128) S5000x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S1x128.size a ≤ S1x128.size a
  hwx10_9 : ∀ i : grid10.Coords, EltTy.bits .f32 = 32 ∨ (Rect.block (s := S1x128) S1x128.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S50000x128.size a
  hwx11_5 : ∀ i : grid11.Coords, EltTy.bits .f32 = 32 ∨ (Rect.block (s := S50000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x128.size a ≤ S50000x128.size a
  hwx12_3 : ∀ i : grid12.Coords, EltTy.bits .f32 = 32 ∨ (Rect.block (s := S50000x128) S5000x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S128x128.size a ≤ S128x128.size a
  hwx13_5 : ∀ i : grid13.Coords, EltTy.bits .f32 = 32 ∨ (Rect.block (s := S128x128) S128x128.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x128.size a ≤ S1x128.size a
  hwx13_6 : ∀ i : grid13.Coords, EltTy.bits .f32 = 32 ∨ (Rect.block (s := S1x128) S1x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S5000x128.size a ≤ S50000x128.size a
  hwx13_7 : ∀ i : grid13.Coords, EltTy.bits .f32 = 32 ∨ (Rect.block (s := S50000x128) S5000x128.size (cc13_transform_7 i) (hinb13_7 i)).WholeWords (EltTy.packing .f32)
  hstage13_8 : ∀ j, (stage13_8 j).IsWhole
  nbuf13_8 : grid13.bufCount reads13_8 true = 1
  hreads13_8 : ∀ i i' : grid13.Coords, (∀ a, reads13_8 a = true → i a = i' a) → cc13_transform_8 i = cc13_transform_8 i'
  hinb13_8 : ∀ (i : grid13.Coords) a, (cc13_transform_8 i a + 1) * S1x128.size a ≤ S1x128.size a
  hwx13_8 : ∀ i : grid13.Coords, EltTy.bits .f32 = 32 ∨ (Rect.block (s := S1x128) S1x128.size (cc13_transform_8 i) (hinb13_8 i)).WholeWords (EltTy.packing .f32)
  hstage13_9 : ∀ j, (stage13_9 j).IsWhole
  nbuf13_9 : grid13.bufCount reads13_9 true = 1
  hreads13_9 : ∀ i i' : grid13.Coords, (∀ a, reads13_9 a = true → i a = i' a) → cc13_transform_9 i = cc13_transform_9 i'
  hinb13_9 : ∀ (i : grid13.Coords) a, (cc13_transform_9 i a + 1) * S1x128.size a ≤ S1x128.size a
  hwx13_9 : ∀ i : grid13.Coords, EltTy.bits .f32 = 32 ∨ (Rect.block (s := S1x128) S1x128.size (cc13_transform_9 i) (hinb13_9 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x128.size a ≤ S50000x128.size a
  hwx14_5 : ∀ i : grid14.Coords, EltTy.bits .f32 = 32 ∨ (Rect.block (s := S50000x128) S5000x128.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x1.size a ≤ S50000x1.size a
  hwx15_0 : ∀ i : grid15.Coords, EltTy.bits .i32 = 32 ∨ (Rect.block (s := S50000x1) S5000x1.size (cc15_transform_0 i) (hinb15_0 i)).WholeWords (EltTy.packing .i32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x200.size a ≤ S50000x200.size a
  hwx15_1 : ∀ i : grid15.Coords, EltTy.bits .f32 = 32 ∨ (Rect.block (s := S50000x200) S5000x200.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S128x200.size a ≤ S128x200.size a
  hwx15_2 : ∀ i : grid15.Coords, EltTy.bits .f32 = 32 ∨ (Rect.block (s := S128x200) S128x200.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x1.size a ≤ S50000x1.size a
  hwx16_0 : ∀ i : grid16.Coords, EltTy.bits .i32 = 32 ∨ (Rect.block (s := S50000x1) S5000x1.size (cc16_transform_0 i) (hinb16_0 i)).WholeWords (EltTy.packing .i32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x128.size a ≤ S50000x128.size a
  hwx16_1 : ∀ i : grid16.Coords, EltTy.bits .f32 = 32 ∨ (Rect.block (s := S50000x128) S5000x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S128x128.size a ≤ S128x128.size a
  hwx16_2 : ∀ i : grid16.Coords, EltTy.bits .f32 = 32 ∨ (Rect.block (s := S128x128) S128x128.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x1.size a ≤ S50000x1.size a
  hwx17_0 : ∀ i : grid17.Coords, EltTy.bits .i32 = 32 ∨ (Rect.block (s := S50000x1) S5000x1.size (cc17_transform_0 i) (hinb17_0 i)).WholeWords (EltTy.packing .i32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S5000x128.size a ≤ S50000x128.size a
  hwx17_1 : ∀ i : grid17.Coords, EltTy.bits .f32 = 32 ∨ (Rect.block (s := S50000x128) S5000x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S128x128.size a ≤ S128x128.size a
  hwx17_2 : ∀ i : grid17.Coords, EltTy.bits .f32 = 32 ∨ (Rect.block (s := S128x128) S128x128.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x1.size a ≤ S50000x1.size a
  hwx18_0 : ∀ i : grid18.Coords, EltTy.bits .i32 = 32 ∨ (Rect.block (s := S50000x1) S5000x1.size (cc18_transform_0 i) (hinb18_0 i)).WholeWords (EltTy.packing .i32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x128.size a ≤ S50000x128.size a
  hwx18_1 : ∀ i : grid18.Coords, EltTy.bits .f32 = 32 ∨ (Rect.block (s := S50000x128) S5000x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S128x128.size a ≤ S128x128.size a
  hwx18_2 : ∀ i : grid18.Coords, EltTy.bits .f32 = 32 ∨ (Rect.block (s := S128x128) S128x128.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x1.size a ≤ S50000x1.size a
  hwx19_0 : ∀ i : grid19.Coords, EltTy.bits .i32 = 32 ∨ (Rect.block (s := S50000x1) S5000x1.size (cc19_transform_0 i) (hinb19_0 i)).WholeWords (EltTy.packing .i32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S5000x128.size a ≤ S50000x128.size a
  hwx19_1 : ∀ i : grid19.Coords, EltTy.bits .f32 = 32 ∨ (Rect.block (s := S50000x128) S5000x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S128x128.size a ≤ S128x128.size a
  hwx19_2 : ∀ i : grid19.Coords, EltTy.bits .f32 = 32 ∨ (Rect.block (s := S128x128) S128x128.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x1.size a ≤ S50000x1.size a
  hwx20_0 : ∀ i : grid20.Coords, EltTy.bits .i32 = 32 ∨ (Rect.block (s := S50000x1) S5000x1.size (cc20_transform_0 i) (hinb20_0 i)).WholeWords (EltTy.packing .i32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S5000x128.size a ≤ S50000x128.size a
  hwx20_1 : ∀ i : grid20.Coords, EltTy.bits .f32 = 32 ∨ (Rect.block (s := S50000x128) S5000x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S128x128.size a ≤ S128x128.size a
  hwx20_2 : ∀ i : grid20.Coords, EltTy.bits .f32 = 32 ∨ (Rect.block (s := S128x128) S128x128.size (cc20_transform_2 i) (hinb20_2 i)).WholeWords (EltTy.packing .f32)

variable [Facts₀]

def gather_S50000x200_S800000x1_S800000x200_1_0_n_n_0_1_1200 : GatherDims S50000x200 S800000x1 S800000x200 where
  offsetDims := [1]
  collapsedSliceDims := [0]
  operandBatchingDims := []
  startIndicesBatchingDims := []
  startIndexMap := [0]
  indexVectorDim := 1
  sliceSizes := ![1, 200]
  wf := gather_S50000x200_S800000x1_S800000x200_1_0_n_n_0_1_1200_wf
def scatter_S50000x200_S800000x1_S800000x200_1_0_0_1 : ScatterDims S50000x200 S800000x1 S800000x200 where
  updateWindowDims := [1]
  insertedWindowDims := [0]
  scatterDimsToOperandDims := [0]
  indexVectorDim := 1
  wf := scatter_S50000x200_S800000x1_S800000x200_1_0_0_1_wf
def dot_S5000x200_S200x128_S5000x128_1_0_0_1_n_n : DotDims S5000x200 S200x128 S5000x128 where
  lhsContracting := [1]
  rhsContracting := [0]
  lhsNonContracting := [0]
  rhsNonContracting := [1]
  lhsBatch := []
  rhsBatch := []
  wf := dot_S5000x200_S200x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S5000x200_S128x200_0_0_1_1_n_n : DotDims S5000x128 S5000x200 S128x200 where
  lhsContracting := [0]
  rhsContracting := [0]
  lhsNonContracting := [1]
  rhsNonContracting := [1]
  lhsBatch := []
  rhsBatch := []
  wf := dot_S5000x128_S5000x200_S128x200_0_0_1_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf

abbrev win0_0 : Pipeline.Window sig grid0 :=
  Pipeline.Window.ofSpec (Memref.whole main_v20) S5000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S200x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v48_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v48_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v94_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v94_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v87) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v101_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v101_1) S1x128.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v101_2) S1x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v101_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v103) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v107) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v93) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v124) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v126) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v129) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v147_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v147_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v147_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v147_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v149) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v153) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v132) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v135) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v137) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v140) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v154_0) S5000x128.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v154_1) S1x128.size cc7_transform_8 reads7_8 true true 1 stage7_8 sem7_8
    hrank7 hreads7_8 hinb7_8 nbuf7_8 (Memref.isWhole_whole _) hwx7_8 hstage7_8

abbrev win7_9 : Pipeline.Window sig grid7 :=
  Pipeline.Window.ofSpec (Memref.whole main_v154_2) S1x128.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v154_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v156) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v160) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v143) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v146) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v161) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v177) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v179) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v182) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v200_0) S5000x128.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v200_1) S1x128.size cc9_transform_4 reads9_4 true true 1 stage9_4 sem9_4
    hrank9 hreads9_4 hinb9_4 nbuf9_4 (Memref.isWhole_whole _) hwx9_4 hstage9_4

abbrev win9_5 : Pipeline.Window sig grid9 :=
  Pipeline.Window.ofSpec (Memref.whole main_v200_2) S1x128.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v200_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v202) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v206) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v185) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v188) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v190) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v193) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v207_0) S5000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v207_1) S1x128.size cc10_transform_8 reads10_8 true true 1 stage10_8 sem10_8
    hrank10 hreads10_8 hinb10_8 nbuf10_8 (Memref.isWhole_whole _) hwx10_8 hstage10_8

abbrev win10_9 : Pipeline.Window sig grid10 :=
  Pipeline.Window.ofSpec (Memref.whole main_v207_2) S1x128.size cc10_transform_9 reads10_9 true true 1 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v207_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v209) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v213) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v196) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v199) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v214) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v230) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v232) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v235) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v253_0) S5000x128.size cc12_transform_3 reads12_3 true false 2 stage12_3 sem12_3
    hrank12 hreads12_3 hinb12_3 nbuf12_3 (Memref.isWhole_whole _) hwx12_3 hstage12_3

abbrev win12_4 : Pipeline.Window sig grid12 :=
  Pipeline.Window.ofSpec (Memref.whole main_v253_1) S1x128.size cc12_transform_4 reads12_4 true true 1 stage12_4 sem12_4
    hrank12 hreads12_4 hinb12_4 nbuf12_4 (Memref.isWhole_whole _) hwx12_4 hstage12_4

abbrev win12_5 : Pipeline.Window sig grid12 :=
  Pipeline.Window.ofSpec (Memref.whole main_v253_2) S1x128.size cc12_transform_5 reads12_5 true true 1 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v253_0) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v255) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v259) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v238) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v241) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v243) S128x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v246) S1x128.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v260_0) S5000x128.size cc13_transform_7 reads13_7 true false 2 stage13_7 sem13_7
    hrank13 hreads13_7 hinb13_7 nbuf13_7 (Memref.isWhole_whole _) hwx13_7 hstage13_7

abbrev win13_8 : Pipeline.Window sig grid13 :=
  Pipeline.Window.ofSpec (Memref.whole main_v260_1) S1x128.size cc13_transform_8 reads13_8 true true 1 stage13_8 sem13_8
    hrank13 hreads13_8 hinb13_8 nbuf13_8 (Memref.isWhole_whole _) hwx13_8 hstage13_8

abbrev win13_9 : Pipeline.Window sig grid13 :=
  Pipeline.Window.ofSpec (Memref.whole main_v260_2) S1x128.size cc13_transform_9 reads13_9 true true 1 stage13_9 sem13_9
    hrank13 hreads13_9 hinb13_9 nbuf13_9 (Memref.isWhole_whole _) hwx13_9 hstage13_9

abbrev win13 : Fin 10 → Pipeline.Window sig grid13 := fun | 0 => win13_0 | 1 => win13_1 | 2 => win13_2 | 3 => win13_3 | 4 => win13_4 | 5 => win13_5 | 6 => win13_6 | 7 => win13_7 | 8 => win13_8 | 9 => win13_9 | ⟨_ + 10, h⟩ => absurd h (Nat.not_lt.2 (Nat.le_add_left _ _))
abbrev spec13 : Fin 10 → Pipeline.WinSpec sig grid13.rank := fun w => (win13 w).toWinSpec

abbrev win14_0 : Pipeline.Window sig grid14 :=
  Pipeline.Window.ofSpec (Memref.whole main_v260_0) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v262) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v266) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v249) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v252) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v267) S5000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v4) S5000x1.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg0) S5000x200.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v268) S128x200.size cc15_transform_2 reads15_2 true true 1 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v4) S5000x1.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v55) S5000x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v269) S128x128.size cc16_transform_2 reads16_2 true true 1 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v4) S5000x1.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v108) S5000x128.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v270) S128x128.size cc17_transform_2 reads17_2 true true 1 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v4) S5000x1.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v161) S5000x128.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v271) S128x128.size cc18_transform_2 reads18_2 true true 1 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v4) S5000x1.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v214) S5000x128.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v272) S128x128.size cc19_transform_2 reads19_2 true true 1 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v4) S5000x1.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v267) S5000x128.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v273) S128x128.size cc20_transform_2 reads20_2 true true 1 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

class Facts : Prop extends Facts₀ where

variable [Facts]
-- ==== ReferenceIdeal.lean ====
abbrev S50000x200 : Shape := ⟨2, ![50000, 200]⟩
abbrev S2x800000 : Shape := ⟨2, ![2, 800000]⟩
abbrev S50000 : Shape := ⟨1, ![50000]⟩
abbrev S5 : Shape := ⟨1, ![5]⟩
abbrev S200x128 : Shape := ⟨2, ![200, 128]⟩
abbrev S4x128x128 : Shape := ⟨3, ![4, 128, 128]⟩
abbrev S5x128 : Shape := ⟨2, ![5, 128]⟩
abbrev S5x128x128 : Shape := ⟨3, ![5, 128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x200 : Shape := ⟨2, ![800000, 200]⟩
abbrev S1 : Shape := ⟨1, ![1]⟩
abbrev S50000x128 : Shape := ⟨2, ![50000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S800000x128 : Shape := ⟨2, ![800000, 128]⟩
abbrev S128x200 : Shape := ⟨2, ![128, 200]⟩
abbrev S50000x1 : Shape := ⟨2, ![50000, 1]⟩

abbrev nBuf : Space → Nat
  | .hbm => 729
  | .vmem => 0
  | .smem => 0
  | _ => 0

abbrev hbmTy0_0 (i : Nat) : BufTy := match i % 128 with
  | 0 => ⟨S50000x200, .f32⟩
  | 1 => ⟨S2x800000, .i32⟩
  | 2 => ⟨S50000, .i32⟩
  | 3 => ⟨S5, .f32⟩
  | 4 => ⟨S200x128, .f32⟩
  | 5 => ⟨S4x128x128, .f32⟩
  | 6 => ⟨S5x128, .f32⟩
  | 7 => ⟨S5x128x128, .f32⟩
  | 8 => ⟨S5x128, .f32⟩
  | 9 => ⟨S5x128, .f32⟩
  | 10 => ⟨S5x128, .f32⟩
  | 11 => ⟨S5x128, .f32⟩
  | 12 => ⟨S5x128, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x200, .f32⟩
  | 26 => ⟨S_, .f32⟩
  | 27 => ⟨S50000x200, .f32⟩
  | 28 => ⟨S800000x1, .i32⟩
  | 29 => ⟨S50000x200, .f32⟩
  | 30 => ⟨S1, .f32⟩
  | 31 => ⟨S_, .f32⟩
  | 32 => ⟨S_, .f32⟩
  | 33 => ⟨S_, .f32⟩
  | 34 => ⟨S50000x200, .f32⟩
  | 35 => ⟨S50000x200, .f32⟩
  | 36 => ⟨S50000x200, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S1x128, .f32⟩
  | 44 => ⟨S128, .f32⟩
  | 45 => ⟨S1x128, .f32⟩
  | 46 => ⟨S128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S128, .f32⟩
  | 104 => ⟨S1x128, .f32⟩
  | 105 => ⟨S128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S50000x200, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S1, .f32⟩
  | 39 => ⟨S_, .f32⟩
  | 40 => ⟨S_, .f32⟩
  | 41 => ⟨S_, .f32⟩
  | 42 => ⟨S50000x128, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S1x128x128, .f32⟩
  | 105 => ⟨S128x128, .f32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S128, .f32⟩
  | 114 => ⟨S1x128, .f32⟩
  | 115 => ⟨S128, .f32⟩
  | 116 => ⟨S_, .f32⟩
  | 117 => ⟨S128, .f32⟩
  | 118 => ⟨S_, .f32⟩
  | 119 => ⟨S128, .f32⟩
  | 120 => ⟨S128, .f32⟩
  | 121 => ⟨S_, .i32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S50000x200, .f32⟩

abbrev hbmTy0_2 (i : Nat) : BufTy := match i % 128 with
  | 0 => ⟨S50000x128, .f32⟩
  | 1 => ⟨S50000x128, .f32⟩
  | 2 => ⟨S50000x128, .f32⟩
  | 3 => ⟨S_, .f32⟩
  | 4 => ⟨S_, .f32⟩
  | 5 => ⟨S_, .f32⟩
  | 6 => ⟨S_, .f32⟩
  | 7 => ⟨S128, .f32⟩
  | 8 => ⟨S128, .f32⟩
  | 9 => ⟨S128, .f32⟩
  | 10 => ⟨S_, .f32⟩
  | 11 => ⟨S_, .i1⟩
  | 12 => ⟨S_, .f32⟩
  | 13 => ⟨S_, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S128, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S1, .f32⟩
  | 49 => ⟨S_, .f32⟩
  | 50 => ⟨S_, .f32⟩
  | 51 => ⟨S_, .f32⟩
  | 52 => ⟨S50000x128, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S_, .f32⟩
  | 99 => ⟨S128, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S1x128x128, .f32⟩
  | 115 => ⟨S128x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S128, .f32⟩
  | 124 => ⟨S1x128, .f32⟩
  | 125 => ⟨S128, .f32⟩
  | 126 => ⟨S_, .f32⟩
  | 127 => ⟨S128, .f32⟩
  | _ => ⟨S50000x200, .f32⟩

abbrev hbmTy0_3 (i : Nat) : BufTy := match i % 128 with
  | 0 => ⟨S_, .f32⟩
  | 1 => ⟨S128, .f32⟩
  | 2 => ⟨S128, .f32⟩
  | 3 => ⟨S_, .i32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S50000x128, .f32⟩
  | 11 => ⟨S50000x128, .f32⟩
  | 12 => ⟨S50000x128, .f32⟩
  | 13 => ⟨S_, .f32⟩
  | 14 => ⟨S_, .f32⟩
  | 15 => ⟨S_, .f32⟩
  | 16 => ⟨S_, .f32⟩
  | 17 => ⟨S128, .f32⟩
  | 18 => ⟨S128, .f32⟩
  | 19 => ⟨S128, .f32⟩
  | 20 => ⟨S_, .f32⟩
  | 21 => ⟨S_, .i1⟩
  | 22 => ⟨S_, .f32⟩
  | 23 => ⟨S_, .f32⟩
  | 24 => ⟨S128, .f32⟩
  | 25 => ⟨S128, .f32⟩
  | 26 => ⟨S1x128, .f32⟩
  | 27 => ⟨S50000x128, .f32⟩
  | 28 => ⟨S50000x128, .f32⟩
  | 29 => ⟨S_, .f32⟩
  | 30 => ⟨S128, .f32⟩
  | 31 => ⟨S128, .f32⟩
  | 32 => ⟨S128, .f32⟩
  | 33 => ⟨S1x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S1, .f32⟩
  | 59 => ⟨S_, .f32⟩
  | 60 => ⟨S_, .f32⟩
  | 61 => ⟨S_, .f32⟩
  | 62 => ⟨S50000x128, .f32⟩
  | 63 => ⟨S50000x128, .f32⟩
  | 64 => ⟨S50000x128, .f32⟩
  | 65 => ⟨S1x128x128, .f32⟩
  | 66 => ⟨S128x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S128, .f32⟩
  | 75 => ⟨S1x128, .f32⟩
  | 76 => ⟨S128, .f32⟩
  | 77 => ⟨S_, .f32⟩
  | 78 => ⟨S128, .f32⟩
  | 79 => ⟨S_, .f32⟩
  | 80 => ⟨S128, .f32⟩
  | 81 => ⟨S128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S50000x128, .f32⟩
  | 90 => ⟨S50000x128, .f32⟩
  | 91 => ⟨S50000x128, .f32⟩
  | 92 => ⟨S_, .f32⟩
  | 93 => ⟨S_, .f32⟩
  | 94 => ⟨S_, .f32⟩
  | 95 => ⟨S_, .f32⟩
  | 96 => ⟨S128, .f32⟩
  | 97 => ⟨S128, .f32⟩
  | 98 => ⟨S128, .f32⟩
  | 99 => ⟨S_, .f32⟩
  | 100 => ⟨S_, .i1⟩
  | 101 => ⟨S_, .f32⟩
  | 102 => ⟨S_, .f32⟩
  | 103 => ⟨S128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S128, .f32⟩
  | 110 => ⟨S128, .f32⟩
  | 111 => ⟨S128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S1x128, .f32⟩
  | _ => ⟨S50000x200, .f32⟩

abbrev hbmTy0_4 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S128, .f32⟩
  | 6 => ⟨S1x128, .f32⟩
  | 7 => ⟨S128, .f32⟩
  | 8 => ⟨S_, .f32⟩
  | 9 => ⟨S128, .f32⟩
  | 10 => ⟨S_, .f32⟩
  | 11 => ⟨S128, .f32⟩
  | 12 => ⟨S128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S50000x128, .f32⟩
  | 21 => ⟨S50000x128, .f32⟩
  | 22 => ⟨S50000x128, .f32⟩
  | 23 => ⟨S_, .f32⟩
  | 24 => ⟨S_, .f32⟩
  | 25 => ⟨S_, .f32⟩
  | 26 => ⟨S_, .f32⟩
  | 27 => ⟨S128, .f32⟩
  | 28 => ⟨S128, .f32⟩
  | 29 => ⟨S128, .f32⟩
  | 30 => ⟨S_, .f32⟩
  | 31 => ⟨S_, .i1⟩
  | 32 => ⟨S_, .f32⟩
  | 33 => ⟨S_, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S128, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S1, .f32⟩
  | 69 => ⟨S_, .f32⟩
  | 70 => ⟨S_, .f32⟩
  | 71 => ⟨S_, .f32⟩
  | 72 => ⟨S50000x128, .f32⟩
  | 73 => ⟨S50000x128, .f32⟩
  | 74 => ⟨S50000x128, .f32⟩
  | 75 => ⟨S1x128x128, .f32⟩
  | 76 => ⟨S128x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S50000x128, .f32⟩
  | 100 => ⟨S50000x128, .f32⟩
  | 101 => ⟨S50000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x200, .f32⟩

abbrev hbmTy0_5 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S1x128x128, .f32⟩
  | 7 => ⟨S128x128, .f32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S128, .f32⟩
  | 16 => ⟨S1x128, .f32⟩
  | 17 => ⟨S128, .f32⟩
  | 18 => ⟨S_, .f32⟩
  | 19 => ⟨S128, .f32⟩
  | 20 => ⟨S_, .f32⟩
  | 21 => ⟨S128, .f32⟩
  | 22 => ⟨S128, .f32⟩
  | 23 => ⟨S_, .i32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S50000x128, .f32⟩
  | 31 => ⟨S50000x128, .f32⟩
  | 32 => ⟨S50000x128, .f32⟩
  | 33 => ⟨S_, .f32⟩
  | 34 => ⟨S_, .f32⟩
  | 35 => ⟨S_, .f32⟩
  | 36 => ⟨S_, .f32⟩
  | 37 => ⟨S128, .f32⟩
  | 38 => ⟨S128, .f32⟩
  | 39 => ⟨S128, .f32⟩
  | 40 => ⟨S_, .f32⟩
  | 41 => ⟨S_, .i1⟩
  | 42 => ⟨S_, .f32⟩
  | 43 => ⟨S_, .f32⟩
  | 44 => ⟨S128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S_, .f32⟩
  | 66 => ⟨S128x200, .f32⟩
  | 67 => ⟨S50000x1, .i32⟩
  | 68 => ⟨S128x200, .f32⟩
  | 69 => ⟨S_, .f32⟩
  | 70 => ⟨S128x128, .f32⟩
  | 71 => ⟨S50000x1, .i32⟩
  | 72 => ⟨S128x128, .f32⟩
  | 73 => ⟨S_, .f32⟩
  | 74 => ⟨S128x128, .f32⟩
  | 75 => ⟨S50000x1, .i32⟩
  | 76 => ⟨S128x128, .f32⟩
  | 77 => ⟨S_, .f32⟩
  | 78 => ⟨S128x128, .f32⟩
  | 79 => ⟨S50000x1, .i32⟩
  | 80 => ⟨S128x128, .f32⟩
  | 81 => ⟨S_, .f32⟩
  | 82 => ⟨S128x128, .f32⟩
  | 83 => ⟨S50000x1, .i32⟩
  | 84 => ⟨S128x128, .f32⟩
  | 85 => ⟨S_, .f32⟩
  | 86 => ⟨S128x128, .f32⟩
  | 87 => ⟨S50000x1, .i32⟩
  | 88 => ⟨S128x128, .f32⟩
  | _ => ⟨S50000x200, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x200, .f32⟩

abbrev bufTy : (tb : Table) → Fin (tcTables nBuf tb) → BufTy
  | .hbm, ⟨i, _⟩ => hbmTy i
  | _, _ => ⟨S50000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_5 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_call1_cst : Ref sig .tc := ⟨.hbm, 91, rfl⟩
abbrev main_call1_v0 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_6 : Ref sig .tc := ⟨.hbm, 106, rfl⟩
abbrev main_v62 : Ref sig .tc := ⟨.hbm, 107, rfl⟩
abbrev main_cst_7 : Ref sig .tc := ⟨.hbm, 108, rfl⟩
abbrev main_v63 : Ref sig .tc := ⟨.hbm, 109, rfl⟩
abbrev main_v64 : Ref sig .tc := ⟨.hbm, 110, rfl⟩
abbrev main_c_8 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_cst_1 : Ref sig .tc := ⟨.hbm, 122, rfl⟩
abbrev main_call2_v8 : Ref sig .tc := ⟨.hbm, 123, rfl⟩
abbrev main_call2_cst_2 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_cst_3 : Ref sig .tc := ⟨.hbm, 128, rfl⟩
abbrev main_call2_v12 : Ref sig .tc := ⟨.hbm, 129, rfl⟩
abbrev main_call2_cst_4 : Ref sig .tc := ⟨.hbm, 130, rfl⟩
abbrev main_call2_call0_v0 : Ref sig .tc := ⟨.hbm, 131, rfl⟩
abbrev main_call2_call0_v1 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_cst_9 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_call3_cst : Ref sig .tc := ⟨.hbm, 150, rfl⟩
abbrev main_call3_v0 : Ref sig .tc := ⟨.hbm, 151, rfl⟩
abbrev main_v81 : Ref sig .tc := ⟨.hbm, 152, rfl⟩
abbrev main_c_10 : Ref sig .tc := ⟨.hbm, 153, rfl⟩
abbrev main_v82 : Ref sig .tc := ⟨.hbm, 154, rfl⟩
abbrev main_v83 : Ref sig .tc := ⟨.hbm, 155, rfl⟩
abbrev main_c_11 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_cst_12 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_cst_13 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_cst_14 : Ref sig .tc := ⟨.hbm, 185, rfl⟩
abbrev main_v110 : Ref sig .tc := ⟨.hbm, 186, rfl⟩
abbrev main_cst_15 : Ref sig .tc := ⟨.hbm, 187, rfl⟩
abbrev main_v111 : Ref sig .tc := ⟨.hbm, 188, rfl⟩
abbrev main_v112 : Ref sig .tc := ⟨.hbm, 189, rfl⟩
abbrev main_c_16 : Ref sig .tc := ⟨.hbm, 190, rfl⟩
abbrev main_call4_cst : Ref sig .tc := ⟨.hbm, 191, rfl⟩
abbrev main_call4_v0 : Ref sig .tc := ⟨.hbm, 192, rfl⟩
abbrev main_call4_v1 : Ref sig .tc := ⟨.hbm, 193, rfl⟩
abbrev main_call4_cst_0 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_call4_v5 : Ref sig .tc := ⟨.hbm, 198, rfl⟩
abbrev main_call4_v6 : Ref sig .tc := ⟨.hbm, 199, rfl⟩
abbrev main_call4_v7 : Ref sig .tc := ⟨.hbm, 200, rfl⟩
abbrev main_call4_cst_1 : Ref sig .tc := ⟨.hbm, 201, rfl⟩
abbrev main_call4_v8 : Ref sig .tc := ⟨.hbm, 202, rfl⟩
abbrev main_call4_cst_2 : Ref sig .tc := ⟨.hbm, 203, rfl⟩
abbrev main_call4_v9 : Ref sig .tc := ⟨.hbm, 204, rfl⟩
abbrev main_call4_v10 : Ref sig .tc := ⟨.hbm, 205, rfl⟩
abbrev main_call4_v11 : Ref sig .tc := ⟨.hbm, 206, rfl⟩
abbrev main_call4_cst_3 : Ref sig .tc := ⟨.hbm, 207, rfl⟩
abbrev main_call4_v12 : Ref sig .tc := ⟨.hbm, 208, rfl⟩
abbrev main_call4_cst_4 : Ref sig .tc := ⟨.hbm, 209, rfl⟩
abbrev main_call4_call0_v0 : Ref sig .tc := ⟨.hbm, 210, rfl⟩
abbrev main_call4_call0_v1 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_cst_17 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_call5_cst : Ref sig .tc := ⟨.hbm, 229, rfl⟩
abbrev main_call5_v0 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_cst_18 : Ref sig .tc := ⟨.hbm, 244, rfl⟩
abbrev main_v142 : Ref sig .tc := ⟨.hbm, 245, rfl⟩
abbrev main_cst_19 : Ref sig .tc := ⟨.hbm, 246, rfl⟩
abbrev main_v143 : Ref sig .tc := ⟨.hbm, 247, rfl⟩
abbrev main_v144 : Ref sig .tc := ⟨.hbm, 248, rfl⟩
abbrev main_c_20 : Ref sig .tc := ⟨.hbm, 249, rfl⟩
abbrev main_call6_cst : Ref sig .tc := ⟨.hbm, 250, rfl⟩
abbrev main_call6_v0 : Ref sig .tc := ⟨.hbm, 251, rfl⟩
abbrev main_call6_v1 : Ref sig .tc := ⟨.hbm, 252, rfl⟩
abbrev main_call6_cst_0 : Ref sig .tc := ⟨.hbm, 253, rfl⟩
abbrev main_call6_v2 : Ref sig .tc := ⟨.hbm, 254, rfl⟩
abbrev main_call6_v3 : Ref sig .tc := ⟨.hbm, 255, rfl⟩
abbrev main_call6_v4 : Ref sig .tc := ⟨.hbm, 256, rfl⟩
abbrev main_call6_v5 : Ref sig .tc := ⟨.hbm, 257, rfl⟩
abbrev main_call6_v6 : Ref sig .tc := ⟨.hbm, 258, rfl⟩
abbrev main_call6_v7 : Ref sig .tc := ⟨.hbm, 259, rfl⟩
abbrev main_call6_cst_1 : Ref sig .tc := ⟨.hbm, 260, rfl⟩
abbrev main_call6_v8 : Ref sig .tc := ⟨.hbm, 261, rfl⟩
abbrev main_call6_cst_2 : Ref sig .tc := ⟨.hbm, 262, rfl⟩
abbrev main_call6_v9 : Ref sig .tc := ⟨.hbm, 263, rfl⟩
abbrev main_call6_v10 : Ref sig .tc := ⟨.hbm, 264, rfl⟩
abbrev main_call6_v11 : Ref sig .tc := ⟨.hbm, 265, rfl⟩
abbrev main_call6_cst_3 : Ref sig .tc := ⟨.hbm, 266, rfl⟩
abbrev main_call6_v12 : Ref sig .tc := ⟨.hbm, 267, rfl⟩
abbrev main_call6_cst_4 : Ref sig .tc := ⟨.hbm, 268, rfl⟩
abbrev main_call6_call0_v0 : Ref sig .tc := ⟨.hbm, 269, rfl⟩
abbrev main_call6_call0_v1 : Ref sig .tc := ⟨.hbm, 270, rfl⟩
abbrev main_v145 : Ref sig .tc := ⟨.hbm, 271, rfl⟩
abbrev main_v146 : Ref sig .tc := ⟨.hbm, 272, rfl⟩
abbrev main_v147 : Ref sig .tc := ⟨.hbm, 273, rfl⟩
abbrev main_v148 : Ref sig .tc := ⟨.hbm, 274, rfl⟩
abbrev main_cst_21 : Ref sig .tc := ⟨.hbm, 275, rfl⟩
abbrev main_v149 : Ref sig .tc := ⟨.hbm, 276, rfl⟩
abbrev main_v150 : Ref sig .tc := ⟨.hbm, 277, rfl⟩
abbrev main_v151 : Ref sig .tc := ⟨.hbm, 278, rfl⟩
abbrev main_v152 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_v160 : Ref sig .tc := ⟨.hbm, 287, rfl⟩
abbrev main_call7_cst : Ref sig .tc := ⟨.hbm, 288, rfl⟩
abbrev main_call7_v0 : Ref sig .tc := ⟨.hbm, 289, rfl⟩
abbrev main_v161 : Ref sig .tc := ⟨.hbm, 290, rfl⟩
abbrev main_c_22 : Ref sig .tc := ⟨.hbm, 291, rfl⟩
abbrev main_v162 : Ref sig .tc := ⟨.hbm, 292, rfl⟩
abbrev main_v163 : Ref sig .tc := ⟨.hbm, 293, rfl⟩
abbrev main_c_23 : Ref sig .tc := ⟨.hbm, 294, rfl⟩
abbrev main_v164 : Ref sig .tc := ⟨.hbm, 295, rfl⟩
abbrev main_v165 : Ref sig .tc := ⟨.hbm, 296, rfl⟩
abbrev main_v166 : Ref sig .tc := ⟨.hbm, 297, rfl⟩
abbrev main_v167 : Ref sig .tc := ⟨.hbm, 298, rfl⟩
abbrev main_v168 : Ref sig .tc := ⟨.hbm, 299, rfl⟩
abbrev main_cst_24 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_v172 : Ref sig .tc := ⟨.hbm, 304, rfl⟩
abbrev main_v173 : Ref sig .tc := ⟨.hbm, 305, rfl⟩
abbrev main_cst_25 : Ref sig .tc := ⟨.hbm, 306, rfl⟩
abbrev main_v174 : Ref sig .tc := ⟨.hbm, 307, rfl⟩
abbrev main_v175 : Ref sig .tc := ⟨.hbm, 308, rfl⟩
abbrev main_v176 : Ref sig .tc := ⟨.hbm, 309, rfl⟩
abbrev main_v177 : Ref sig .tc := ⟨.hbm, 310, rfl⟩
abbrev main_v178 : Ref sig .tc := ⟨.hbm, 311, rfl⟩
abbrev main_v179 : Ref sig .tc := ⟨.hbm, 312, rfl⟩
abbrev main_v180 : Ref sig .tc := ⟨.hbm, 313, rfl⟩
abbrev main_v181 : Ref sig .tc := ⟨.hbm, 314, rfl⟩
abbrev main_v182 : Ref sig .tc := ⟨.hbm, 315, rfl⟩
abbrev main_v183 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_v187 : Ref sig .tc := ⟨.hbm, 320, rfl⟩
abbrev main_v188 : Ref sig .tc := ⟨.hbm, 321, rfl⟩
abbrev main_v189 : Ref sig .tc := ⟨.hbm, 322, rfl⟩
abbrev main_cst_26 : Ref sig .tc := ⟨.hbm, 323, rfl⟩
abbrev main_v190 : Ref sig .tc := ⟨.hbm, 324, rfl⟩
abbrev main_cst_27 : Ref sig .tc := ⟨.hbm, 325, rfl⟩
abbrev main_v191 : Ref sig .tc := ⟨.hbm, 326, rfl⟩
abbrev main_v192 : Ref sig .tc := ⟨.hbm, 327, rfl⟩
abbrev main_c_28 : Ref sig .tc := ⟨.hbm, 328, rfl⟩
abbrev main_call8_cst : Ref sig .tc := ⟨.hbm, 329, rfl⟩
abbrev main_call8_v0 : Ref sig .tc := ⟨.hbm, 330, rfl⟩
abbrev main_call8_v1 : Ref sig .tc := ⟨.hbm, 331, rfl⟩
abbrev main_call8_cst_0 : Ref sig .tc := ⟨.hbm, 332, rfl⟩
abbrev main_call8_v2 : Ref sig .tc := ⟨.hbm, 333, rfl⟩
abbrev main_call8_v3 : Ref sig .tc := ⟨.hbm, 334, rfl⟩
abbrev main_call8_v4 : Ref sig .tc := ⟨.hbm, 335, rfl⟩
abbrev main_call8_v5 : Ref sig .tc := ⟨.hbm, 336, rfl⟩
abbrev main_call8_v6 : Ref sig .tc := ⟨.hbm, 337, rfl⟩
abbrev main_call8_v7 : Ref sig .tc := ⟨.hbm, 338, rfl⟩
abbrev main_call8_cst_1 : Ref sig .tc := ⟨.hbm, 339, rfl⟩
abbrev main_call8_v8 : Ref sig .tc := ⟨.hbm, 340, rfl⟩
abbrev main_call8_cst_2 : Ref sig .tc := ⟨.hbm, 341, rfl⟩
abbrev main_call8_v9 : Ref sig .tc := ⟨.hbm, 342, rfl⟩
abbrev main_call8_v10 : Ref sig .tc := ⟨.hbm, 343, rfl⟩
abbrev main_call8_v11 : Ref sig .tc := ⟨.hbm, 344, rfl⟩
abbrev main_call8_cst_3 : Ref sig .tc := ⟨.hbm, 345, rfl⟩
abbrev main_call8_v12 : Ref sig .tc := ⟨.hbm, 346, rfl⟩
abbrev main_call8_cst_4 : Ref sig .tc := ⟨.hbm, 347, rfl⟩
abbrev main_call8_call0_v0 : Ref sig .tc := ⟨.hbm, 348, rfl⟩
abbrev main_call8_call0_v1 : Ref sig .tc := ⟨.hbm, 349, rfl⟩
abbrev main_v193 : Ref sig .tc := ⟨.hbm, 350, rfl⟩
abbrev main_v194 : Ref sig .tc := ⟨.hbm, 351, rfl⟩
abbrev main_v195 : Ref sig .tc := ⟨.hbm, 352, rfl⟩
abbrev main_v196 : Ref sig .tc := ⟨.hbm, 353, rfl⟩
abbrev main_cst_29 : Ref sig .tc := ⟨.hbm, 354, rfl⟩
abbrev main_v197 : Ref sig .tc := ⟨.hbm, 355, rfl⟩
abbrev main_v198 : Ref sig .tc := ⟨.hbm, 356, rfl⟩
abbrev main_v199 : Ref sig .tc := ⟨.hbm, 357, rfl⟩
abbrev main_v200 : Ref sig .tc := ⟨.hbm, 358, rfl⟩
abbrev main_v201 : Ref sig .tc := ⟨.hbm, 359, rfl⟩
abbrev main_v202 : Ref sig .tc := ⟨.hbm, 360, rfl⟩
abbrev main_v203 : Ref sig .tc := ⟨.hbm, 361, rfl⟩
abbrev main_v204 : Ref sig .tc := ⟨.hbm, 362, rfl⟩
abbrev main_v205 : Ref sig .tc := ⟨.hbm, 363, rfl⟩
abbrev main_v206 : Ref sig .tc := ⟨.hbm, 364, rfl⟩
abbrev main_v207 : Ref sig .tc := ⟨.hbm, 365, rfl⟩
abbrev main_v208 : Ref sig .tc := ⟨.hbm, 366, rfl⟩
abbrev main_call9_cst : Ref sig .tc := ⟨.hbm, 367, rfl⟩
abbrev main_call9_v0 : Ref sig .tc := ⟨.hbm, 368, rfl⟩
abbrev main_v209 : Ref sig .tc := ⟨.hbm, 369, rfl⟩
abbrev main_v210 : Ref sig .tc := ⟨.hbm, 370, rfl⟩
abbrev main_v211 : Ref sig .tc := ⟨.hbm, 371, rfl⟩
abbrev main_v212 : Ref sig .tc := ⟨.hbm, 372, rfl⟩
abbrev main_v213 : Ref sig .tc := ⟨.hbm, 373, rfl⟩
abbrev main_v214 : Ref sig .tc := ⟨.hbm, 374, rfl⟩
abbrev main_v215 : Ref sig .tc := ⟨.hbm, 375, rfl⟩
abbrev main_v216 : Ref sig .tc := ⟨.hbm, 376, rfl⟩
abbrev main_v217 : Ref sig .tc := ⟨.hbm, 377, rfl⟩
abbrev main_v218 : Ref sig .tc := ⟨.hbm, 378, rfl⟩
abbrev main_v219 : Ref sig .tc := ⟨.hbm, 379, rfl⟩
abbrev main_v220 : Ref sig .tc := ⟨.hbm, 380, rfl⟩
abbrev main_v221 : Ref sig .tc := ⟨.hbm, 381, rfl⟩
abbrev main_cst_30 : Ref sig .tc := ⟨.hbm, 382, rfl⟩
abbrev main_v222 : Ref sig .tc := ⟨.hbm, 383, rfl⟩
abbrev main_cst_31 : Ref sig .tc := ⟨.hbm, 384, rfl⟩
abbrev main_v223 : Ref sig .tc := ⟨.hbm, 385, rfl⟩
abbrev main_v224 : Ref sig .tc := ⟨.hbm, 386, rfl⟩
abbrev main_c_32 : Ref sig .tc := ⟨.hbm, 387, rfl⟩
abbrev main_call10_cst : Ref sig .tc := ⟨.hbm, 388, rfl⟩
abbrev main_call10_v0 : Ref sig .tc := ⟨.hbm, 389, rfl⟩
abbrev main_call10_v1 : Ref sig .tc := ⟨.hbm, 390, rfl⟩
abbrev main_call10_cst_0 : Ref sig .tc := ⟨.hbm, 391, rfl⟩
abbrev main_call10_v2 : Ref sig .tc := ⟨.hbm, 392, rfl⟩
abbrev main_call10_v3 : Ref sig .tc := ⟨.hbm, 393, rfl⟩
abbrev main_call10_v4 : Ref sig .tc := ⟨.hbm, 394, rfl⟩
abbrev main_call10_v5 : Ref sig .tc := ⟨.hbm, 395, rfl⟩
abbrev main_call10_v6 : Ref sig .tc := ⟨.hbm, 396, rfl⟩
abbrev main_call10_v7 : Ref sig .tc := ⟨.hbm, 397, rfl⟩
abbrev main_call10_cst_1 : Ref sig .tc := ⟨.hbm, 398, rfl⟩
abbrev main_call10_v8 : Ref sig .tc := ⟨.hbm, 399, rfl⟩
abbrev main_call10_cst_2 : Ref sig .tc := ⟨.hbm, 400, rfl⟩
abbrev main_call10_v9 : Ref sig .tc := ⟨.hbm, 401, rfl⟩
abbrev main_call10_v10 : Ref sig .tc := ⟨.hbm, 402, rfl⟩
abbrev main_call10_v11 : Ref sig .tc := ⟨.hbm, 403, rfl⟩
abbrev main_call10_cst_3 : Ref sig .tc := ⟨.hbm, 404, rfl⟩
abbrev main_call10_v12 : Ref sig .tc := ⟨.hbm, 405, rfl⟩
abbrev main_call10_cst_4 : Ref sig .tc := ⟨.hbm, 406, rfl⟩
abbrev main_call10_call0_v0 : Ref sig .tc := ⟨.hbm, 407, rfl⟩
abbrev main_call10_call0_v1 : Ref sig .tc := ⟨.hbm, 408, rfl⟩
abbrev main_v225 : Ref sig .tc := ⟨.hbm, 409, rfl⟩
abbrev main_v226 : Ref sig .tc := ⟨.hbm, 410, rfl⟩
abbrev main_v227 : Ref sig .tc := ⟨.hbm, 411, rfl⟩
abbrev main_v228 : Ref sig .tc := ⟨.hbm, 412, rfl⟩
abbrev main_cst_33 : Ref sig .tc := ⟨.hbm, 413, rfl⟩
abbrev main_v229 : Ref sig .tc := ⟨.hbm, 414, rfl⟩
abbrev main_v230 : Ref sig .tc := ⟨.hbm, 415, rfl⟩
abbrev main_v231 : Ref sig .tc := ⟨.hbm, 416, rfl⟩
abbrev main_v232 : Ref sig .tc := ⟨.hbm, 417, rfl⟩
abbrev main_v233 : Ref sig .tc := ⟨.hbm, 418, rfl⟩
abbrev main_v234 : Ref sig .tc := ⟨.hbm, 419, rfl⟩
abbrev main_v235 : Ref sig .tc := ⟨.hbm, 420, rfl⟩
abbrev main_v236 : Ref sig .tc := ⟨.hbm, 421, rfl⟩
abbrev main_v237 : Ref sig .tc := ⟨.hbm, 422, rfl⟩
abbrev main_v238 : Ref sig .tc := ⟨.hbm, 423, rfl⟩
abbrev main_v239 : Ref sig .tc := ⟨.hbm, 424, rfl⟩
abbrev main_v240 : Ref sig .tc := ⟨.hbm, 425, rfl⟩
abbrev main_call11_cst : Ref sig .tc := ⟨.hbm, 426, rfl⟩
abbrev main_call11_v0 : Ref sig .tc := ⟨.hbm, 427, rfl⟩
abbrev main_v241 : Ref sig .tc := ⟨.hbm, 428, rfl⟩
abbrev main_c_34 : Ref sig .tc := ⟨.hbm, 429, rfl⟩
abbrev main_v242 : Ref sig .tc := ⟨.hbm, 430, rfl⟩
abbrev main_v243 : Ref sig .tc := ⟨.hbm, 431, rfl⟩
abbrev main_c_35 : Ref sig .tc := ⟨.hbm, 432, rfl⟩
abbrev main_v244 : Ref sig .tc := ⟨.hbm, 433, rfl⟩
abbrev main_v245 : Ref sig .tc := ⟨.hbm, 434, rfl⟩
abbrev main_v246 : Ref sig .tc := ⟨.hbm, 435, rfl⟩
abbrev main_v247 : Ref sig .tc := ⟨.hbm, 436, rfl⟩
abbrev main_v248 : Ref sig .tc := ⟨.hbm, 437, rfl⟩
abbrev main_cst_36 : Ref sig .tc := ⟨.hbm, 438, rfl⟩
abbrev main_v249 : Ref sig .tc := ⟨.hbm, 439, rfl⟩
abbrev main_v250 : Ref sig .tc := ⟨.hbm, 440, rfl⟩
abbrev main_v251 : Ref sig .tc := ⟨.hbm, 441, rfl⟩
abbrev main_v252 : Ref sig .tc := ⟨.hbm, 442, rfl⟩
abbrev main_v253 : Ref sig .tc := ⟨.hbm, 443, rfl⟩
abbrev main_cst_37 : Ref sig .tc := ⟨.hbm, 444, rfl⟩
abbrev main_v254 : Ref sig .tc := ⟨.hbm, 445, rfl⟩
abbrev main_v255 : Ref sig .tc := ⟨.hbm, 446, rfl⟩
abbrev main_v256 : Ref sig .tc := ⟨.hbm, 447, rfl⟩
abbrev main_v257 : Ref sig .tc := ⟨.hbm, 448, rfl⟩
abbrev main_v258 : Ref sig .tc := ⟨.hbm, 449, rfl⟩
abbrev main_v259 : Ref sig .tc := ⟨.hbm, 450, rfl⟩
abbrev main_v260 : Ref sig .tc := ⟨.hbm, 451, rfl⟩
abbrev main_v261 : Ref sig .tc := ⟨.hbm, 452, rfl⟩
abbrev main_v262 : Ref sig .tc := ⟨.hbm, 453, rfl⟩
abbrev main_v263 : Ref sig .tc := ⟨.hbm, 454, rfl⟩
abbrev main_v264 : Ref sig .tc := ⟨.hbm, 455, rfl⟩
abbrev main_v265 : Ref sig .tc := ⟨.hbm, 456, rfl⟩
abbrev main_v266 : Ref sig .tc := ⟨.hbm, 457, rfl⟩
abbrev main_v267 : Ref sig .tc := ⟨.hbm, 458, rfl⟩
abbrev main_v268 : Ref sig .tc := ⟨.hbm, 459, rfl⟩
abbrev main_v269 : Ref sig .tc := ⟨.hbm, 460, rfl⟩
abbrev main_cst_38 : Ref sig .tc := ⟨.hbm, 461, rfl⟩
abbrev main_v270 : Ref sig .tc := ⟨.hbm, 462, rfl⟩
abbrev main_cst_39 : Ref sig .tc := ⟨.hbm, 463, rfl⟩
abbrev main_v271 : Ref sig .tc := ⟨.hbm, 464, rfl⟩
abbrev main_v272 : Ref sig .tc := ⟨.hbm, 465, rfl⟩
abbrev main_c_40 : Ref sig .tc := ⟨.hbm, 466, rfl⟩
abbrev main_call12_cst : Ref sig .tc := ⟨.hbm, 467, rfl⟩
abbrev main_call12_v0 : Ref sig .tc := ⟨.hbm, 468, rfl⟩
abbrev main_call12_v1 : Ref sig .tc := ⟨.hbm, 469, rfl⟩
abbrev main_call12_cst_0 : Ref sig .tc := ⟨.hbm, 470, rfl⟩
abbrev main_call12_v2 : Ref sig .tc := ⟨.hbm, 471, rfl⟩
abbrev main_call12_v3 : Ref sig .tc := ⟨.hbm, 472, rfl⟩
abbrev main_call12_v4 : Ref sig .tc := ⟨.hbm, 473, rfl⟩
abbrev main_call12_v5 : Ref sig .tc := ⟨.hbm, 474, rfl⟩
abbrev main_call12_v6 : Ref sig .tc := ⟨.hbm, 475, rfl⟩
abbrev main_call12_v7 : Ref sig .tc := ⟨.hbm, 476, rfl⟩
abbrev main_call12_cst_1 : Ref sig .tc := ⟨.hbm, 477, rfl⟩
abbrev main_call12_v8 : Ref sig .tc := ⟨.hbm, 478, rfl⟩
abbrev main_call12_cst_2 : Ref sig .tc := ⟨.hbm, 479, rfl⟩
abbrev main_call12_v9 : Ref sig .tc := ⟨.hbm, 480, rfl⟩
abbrev main_call12_v10 : Ref sig .tc := ⟨.hbm, 481, rfl⟩
abbrev main_call12_v11 : Ref sig .tc := ⟨.hbm, 482, rfl⟩
abbrev main_call12_cst_3 : Ref sig .tc := ⟨.hbm, 483, rfl⟩
abbrev main_call12_v12 : Ref sig .tc := ⟨.hbm, 484, rfl⟩
abbrev main_call12_cst_4 : Ref sig .tc := ⟨.hbm, 485, rfl⟩
abbrev main_call12_call0_v0 : Ref sig .tc := ⟨.hbm, 486, rfl⟩
abbrev main_call12_call0_v1 : Ref sig .tc := ⟨.hbm, 487, rfl⟩
abbrev main_v273 : Ref sig .tc := ⟨.hbm, 488, rfl⟩
abbrev main_v274 : Ref sig .tc := ⟨.hbm, 489, rfl⟩
abbrev main_v275 : Ref sig .tc := ⟨.hbm, 490, rfl⟩
abbrev main_v276 : Ref sig .tc := ⟨.hbm, 491, rfl⟩
abbrev main_cst_41 : Ref sig .tc := ⟨.hbm, 492, rfl⟩
abbrev main_v277 : Ref sig .tc := ⟨.hbm, 493, rfl⟩
abbrev main_v278 : Ref sig .tc := ⟨.hbm, 494, rfl⟩
abbrev main_v279 : Ref sig .tc := ⟨.hbm, 495, rfl⟩
abbrev main_v280 : Ref sig .tc := ⟨.hbm, 496, rfl⟩
abbrev main_v281 : Ref sig .tc := ⟨.hbm, 497, rfl⟩
abbrev main_v282 : Ref sig .tc := ⟨.hbm, 498, rfl⟩
abbrev main_v283 : Ref sig .tc := ⟨.hbm, 499, rfl⟩
abbrev main_v284 : Ref sig .tc := ⟨.hbm, 500, rfl⟩
abbrev main_v285 : Ref sig .tc := ⟨.hbm, 501, rfl⟩
abbrev main_v286 : Ref sig .tc := ⟨.hbm, 502, rfl⟩
abbrev main_v287 : Ref sig .tc := ⟨.hbm, 503, rfl⟩
abbrev main_v288 : Ref sig .tc := ⟨.hbm, 504, rfl⟩
abbrev main_call13_cst : Ref sig .tc := ⟨.hbm, 505, rfl⟩
abbrev main_call13_v0 : Ref sig .tc := ⟨.hbm, 506, rfl⟩
abbrev main_v289 : Ref sig .tc := ⟨.hbm, 507, rfl⟩
abbrev main_v290 : Ref sig .tc := ⟨.hbm, 508, rfl⟩
abbrev main_v291 : Ref sig .tc := ⟨.hbm, 509, rfl⟩
abbrev main_v292 : Ref sig .tc := ⟨.hbm, 510, rfl⟩
abbrev main_v293 : Ref sig .tc := ⟨.hbm, 511, rfl⟩
abbrev main_v294 : Ref sig .tc := ⟨.hbm, 512, rfl⟩
abbrev main_v295 : Ref sig .tc := ⟨.hbm, 513, rfl⟩
abbrev main_v296 : Ref sig .tc := ⟨.hbm, 514, rfl⟩
abbrev main_v297 : Ref sig .tc := ⟨.hbm, 515, rfl⟩
abbrev main_v298 : Ref sig .tc := ⟨.hbm, 516, rfl⟩
abbrev main_v299 : Ref sig .tc := ⟨.hbm, 517, rfl⟩
abbrev main_v300 : Ref sig .tc := ⟨.hbm, 518, rfl⟩
abbrev main_v301 : Ref sig .tc := ⟨.hbm, 519, rfl⟩
abbrev main_cst_42 : Ref sig .tc := ⟨.hbm, 520, rfl⟩
abbrev main_v302 : Ref sig .tc := ⟨.hbm, 521, rfl⟩
abbrev main_cst_43 : Ref sig .tc := ⟨.hbm, 522, rfl⟩
abbrev main_v303 : Ref sig .tc := ⟨.hbm, 523, rfl⟩
abbrev main_v304 : Ref sig .tc := ⟨.hbm, 524, rfl⟩
abbrev main_c_44 : Ref sig .tc := ⟨.hbm, 525, rfl⟩
abbrev main_call14_cst : Ref sig .tc := ⟨.hbm, 526, rfl⟩
abbrev main_call14_v0 : Ref sig .tc := ⟨.hbm, 527, rfl⟩
abbrev main_call14_v1 : Ref sig .tc := ⟨.hbm, 528, rfl⟩
abbrev main_call14_cst_0 : Ref sig .tc := ⟨.hbm, 529, rfl⟩
abbrev main_call14_v2 : Ref sig .tc := ⟨.hbm, 530, rfl⟩
abbrev main_call14_v3 : Ref sig .tc := ⟨.hbm, 531, rfl⟩
abbrev main_call14_v4 : Ref sig .tc := ⟨.hbm, 532, rfl⟩
abbrev main_call14_v5 : Ref sig .tc := ⟨.hbm, 533, rfl⟩
abbrev main_call14_v6 : Ref sig .tc := ⟨.hbm, 534, rfl⟩
abbrev main_call14_v7 : Ref sig .tc := ⟨.hbm, 535, rfl⟩
abbrev main_call14_cst_1 : Ref sig .tc := ⟨.hbm, 536, rfl⟩
abbrev main_call14_v8 : Ref sig .tc := ⟨.hbm, 537, rfl⟩
abbrev main_call14_cst_2 : Ref sig .tc := ⟨.hbm, 538, rfl⟩
abbrev main_call14_v9 : Ref sig .tc := ⟨.hbm, 539, rfl⟩
abbrev main_call14_v10 : Ref sig .tc := ⟨.hbm, 540, rfl⟩
abbrev main_call14_v11 : Ref sig .tc := ⟨.hbm, 541, rfl⟩
abbrev main_call14_cst_3 : Ref sig .tc := ⟨.hbm, 542, rfl⟩
abbrev main_call14_v12 : Ref sig .tc := ⟨.hbm, 543, rfl⟩
abbrev main_call14_cst_4 : Ref sig .tc := ⟨.hbm, 544, rfl⟩
abbrev main_call14_call0_v0 : Ref sig .tc := ⟨.hbm, 545, rfl⟩
abbrev main_call14_call0_v1 : Ref sig .tc := ⟨.hbm, 546, rfl⟩
abbrev main_v305 : Ref sig .tc := ⟨.hbm, 547, rfl⟩
abbrev main_v306 : Ref sig .tc := ⟨.hbm, 548, rfl⟩
abbrev main_v307 : Ref sig .tc := ⟨.hbm, 549, rfl⟩
abbrev main_v308 : Ref sig .tc := ⟨.hbm, 550, rfl⟩
abbrev main_cst_45 : Ref sig .tc := ⟨.hbm, 551, rfl⟩
abbrev main_v309 : Ref sig .tc := ⟨.hbm, 552, rfl⟩
abbrev main_v310 : Ref sig .tc := ⟨.hbm, 553, rfl⟩
abbrev main_v311 : Ref sig .tc := ⟨.hbm, 554, rfl⟩
abbrev main_v312 : Ref sig .tc := ⟨.hbm, 555, rfl⟩
abbrev main_v313 : Ref sig .tc := ⟨.hbm, 556, rfl⟩
abbrev main_v314 : Ref sig .tc := ⟨.hbm, 557, rfl⟩
abbrev main_v315 : Ref sig .tc := ⟨.hbm, 558, rfl⟩
abbrev main_v316 : Ref sig .tc := ⟨.hbm, 559, rfl⟩
abbrev main_v317 : Ref sig .tc := ⟨.hbm, 560, rfl⟩
abbrev main_v318 : Ref sig .tc := ⟨.hbm, 561, rfl⟩
abbrev main_v319 : Ref sig .tc := ⟨.hbm, 562, rfl⟩
abbrev main_v320 : Ref sig .tc := ⟨.hbm, 563, rfl⟩
abbrev main_call15_cst : Ref sig .tc := ⟨.hbm, 564, rfl⟩
abbrev main_call15_v0 : Ref sig .tc := ⟨.hbm, 565, rfl⟩
abbrev main_v321 : Ref sig .tc := ⟨.hbm, 566, rfl⟩
abbrev main_c_46 : Ref sig .tc := ⟨.hbm, 567, rfl⟩
abbrev main_v322 : Ref sig .tc := ⟨.hbm, 568, rfl⟩
abbrev main_v323 : Ref sig .tc := ⟨.hbm, 569, rfl⟩
abbrev main_c_47 : Ref sig .tc := ⟨.hbm, 570, rfl⟩
abbrev main_v324 : Ref sig .tc := ⟨.hbm, 571, rfl⟩
abbrev main_v325 : Ref sig .tc := ⟨.hbm, 572, rfl⟩
abbrev main_v326 : Ref sig .tc := ⟨.hbm, 573, rfl⟩
abbrev main_v327 : Ref sig .tc := ⟨.hbm, 574, rfl⟩
abbrev main_v328 : Ref sig .tc := ⟨.hbm, 575, rfl⟩
abbrev main_cst_48 : Ref sig .tc := ⟨.hbm, 576, rfl⟩
abbrev main_v329 : Ref sig .tc := ⟨.hbm, 577, rfl⟩
abbrev main_v330 : Ref sig .tc := ⟨.hbm, 578, rfl⟩
abbrev main_v331 : Ref sig .tc := ⟨.hbm, 579, rfl⟩
abbrev main_v332 : Ref sig .tc := ⟨.hbm, 580, rfl⟩
abbrev main_v333 : Ref sig .tc := ⟨.hbm, 581, rfl⟩
abbrev main_cst_49 : Ref sig .tc := ⟨.hbm, 582, rfl⟩
abbrev main_v334 : Ref sig .tc := ⟨.hbm, 583, rfl⟩
abbrev main_v335 : Ref sig .tc := ⟨.hbm, 584, rfl⟩
abbrev main_v336 : Ref sig .tc := ⟨.hbm, 585, rfl⟩
abbrev main_v337 : Ref sig .tc := ⟨.hbm, 586, rfl⟩
abbrev main_v338 : Ref sig .tc := ⟨.hbm, 587, rfl⟩
abbrev main_v339 : Ref sig .tc := ⟨.hbm, 588, rfl⟩
abbrev main_v340 : Ref sig .tc := ⟨.hbm, 589, rfl⟩
abbrev main_v341 : Ref sig .tc := ⟨.hbm, 590, rfl⟩
abbrev main_v342 : Ref sig .tc := ⟨.hbm, 591, rfl⟩
abbrev main_v343 : Ref sig .tc := ⟨.hbm, 592, rfl⟩
abbrev main_v344 : Ref sig .tc := ⟨.hbm, 593, rfl⟩
abbrev main_v345 : Ref sig .tc := ⟨.hbm, 594, rfl⟩
abbrev main_v346 : Ref sig .tc := ⟨.hbm, 595, rfl⟩
abbrev main_v347 : Ref sig .tc := ⟨.hbm, 596, rfl⟩
abbrev main_v348 : Ref sig .tc := ⟨.hbm, 597, rfl⟩
abbrev main_v349 : Ref sig .tc := ⟨.hbm, 598, rfl⟩
abbrev main_cst_50 : Ref sig .tc := ⟨.hbm, 599, rfl⟩
abbrev main_v350 : Ref sig .tc := ⟨.hbm, 600, rfl⟩
abbrev main_cst_51 : Ref sig .tc := ⟨.hbm, 601, rfl⟩
abbrev main_v351 : Ref sig .tc := ⟨.hbm, 602, rfl⟩
abbrev main_v352 : Ref sig .tc := ⟨.hbm, 603, rfl⟩
abbrev main_c_52 : Ref sig .tc := ⟨.hbm, 604, rfl⟩
abbrev main_call16_cst : Ref sig .tc := ⟨.hbm, 605, rfl⟩
abbrev main_call16_v0 : Ref sig .tc := ⟨.hbm, 606, rfl⟩
abbrev main_call16_v1 : Ref sig .tc := ⟨.hbm, 607, rfl⟩
abbrev main_call16_cst_0 : Ref sig .tc := ⟨.hbm, 608, rfl⟩
abbrev main_call16_v2 : Ref sig .tc := ⟨.hbm, 609, rfl⟩
abbrev main_call16_v3 : Ref sig .tc := ⟨.hbm, 610, rfl⟩
abbrev main_call16_v4 : Ref sig .tc := ⟨.hbm, 611, rfl⟩
abbrev main_call16_v5 : Ref sig .tc := ⟨.hbm, 612, rfl⟩
abbrev main_call16_v6 : Ref sig .tc := ⟨.hbm, 613, rfl⟩
abbrev main_call16_v7 : Ref sig .tc := ⟨.hbm, 614, rfl⟩
abbrev main_call16_cst_1 : Ref sig .tc := ⟨.hbm, 615, rfl⟩
abbrev main_call16_v8 : Ref sig .tc := ⟨.hbm, 616, rfl⟩
abbrev main_call16_cst_2 : Ref sig .tc := ⟨.hbm, 617, rfl⟩
abbrev main_call16_v9 : Ref sig .tc := ⟨.hbm, 618, rfl⟩
abbrev main_call16_v10 : Ref sig .tc := ⟨.hbm, 619, rfl⟩
abbrev main_call16_v11 : Ref sig .tc := ⟨.hbm, 620, rfl⟩
abbrev main_call16_cst_3 : Ref sig .tc := ⟨.hbm, 621, rfl⟩
abbrev main_call16_v12 : Ref sig .tc := ⟨.hbm, 622, rfl⟩
abbrev main_call16_cst_4 : Ref sig .tc := ⟨.hbm, 623, rfl⟩
abbrev main_call16_call0_v0 : Ref sig .tc := ⟨.hbm, 624, rfl⟩
abbrev main_call16_call0_v1 : Ref sig .tc := ⟨.hbm, 625, rfl⟩
abbrev main_v353 : Ref sig .tc := ⟨.hbm, 626, rfl⟩
abbrev main_v354 : Ref sig .tc := ⟨.hbm, 627, rfl⟩
abbrev main_v355 : Ref sig .tc := ⟨.hbm, 628, rfl⟩
abbrev main_v356 : Ref sig .tc := ⟨.hbm, 629, rfl⟩
abbrev main_cst_53 : Ref sig .tc := ⟨.hbm, 630, rfl⟩
abbrev main_v357 : Ref sig .tc := ⟨.hbm, 631, rfl⟩
abbrev main_v358 : Ref sig .tc := ⟨.hbm, 632, rfl⟩
abbrev main_v359 : Ref sig .tc := ⟨.hbm, 633, rfl⟩
abbrev main_v360 : Ref sig .tc := ⟨.hbm, 634, rfl⟩
abbrev main_v361 : Ref sig .tc := ⟨.hbm, 635, rfl⟩
abbrev main_v362 : Ref sig .tc := ⟨.hbm, 636, rfl⟩
abbrev main_v363 : Ref sig .tc := ⟨.hbm, 637, rfl⟩
abbrev main_v364 : Ref sig .tc := ⟨.hbm, 638, rfl⟩
abbrev main_v365 : Ref sig .tc := ⟨.hbm, 639, rfl⟩
abbrev main_v366 : Ref sig .tc := ⟨.hbm, 640, rfl⟩
abbrev main_v367 : Ref sig .tc := ⟨.hbm, 641, rfl⟩
abbrev main_v368 : Ref sig .tc := ⟨.hbm, 642, rfl⟩
abbrev main_call17_cst : Ref sig .tc := ⟨.hbm, 643, rfl⟩
abbrev main_call17_v0 : Ref sig .tc := ⟨.hbm, 644, rfl⟩
abbrev main_v369 : Ref sig .tc := ⟨.hbm, 645, rfl⟩
abbrev main_v370 : Ref sig .tc := ⟨.hbm, 646, rfl⟩
abbrev main_v371 : Ref sig .tc := ⟨.hbm, 647, rfl⟩
abbrev main_v372 : Ref sig .tc := ⟨.hbm, 648, rfl⟩
abbrev main_v373 : Ref sig .tc := ⟨.hbm, 649, rfl⟩
abbrev main_v374 : Ref sig .tc := ⟨.hbm, 650, rfl⟩
abbrev main_v375 : Ref sig .tc := ⟨.hbm, 651, rfl⟩
abbrev main_v376 : Ref sig .tc := ⟨.hbm, 652, rfl⟩
abbrev main_v377 : Ref sig .tc := ⟨.hbm, 653, rfl⟩
abbrev main_v378 : Ref sig .tc := ⟨.hbm, 654, rfl⟩
abbrev main_v379 : Ref sig .tc := ⟨.hbm, 655, rfl⟩
abbrev main_v380 : Ref sig .tc := ⟨.hbm, 656, rfl⟩
abbrev main_v381 : Ref sig .tc := ⟨.hbm, 657, rfl⟩
abbrev main_cst_54 : Ref sig .tc := ⟨.hbm, 658, rfl⟩
abbrev main_v382 : Ref sig .tc := ⟨.hbm, 659, rfl⟩
abbrev main_cst_55 : Ref sig .tc := ⟨.hbm, 660, rfl⟩
abbrev main_v383 : Ref sig .tc := ⟨.hbm, 661, rfl⟩
abbrev main_v384 : Ref sig .tc := ⟨.hbm, 662, rfl⟩
abbrev main_c_56 : Ref sig .tc := ⟨.hbm, 663, rfl⟩
abbrev main_call18_cst : Ref sig .tc := ⟨.hbm, 664, rfl⟩
abbrev main_call18_v0 : Ref sig .tc := ⟨.hbm, 665, rfl⟩
abbrev main_call18_v1 : Ref sig .tc := ⟨.hbm, 666, rfl⟩
abbrev main_call18_cst_0 : Ref sig .tc := ⟨.hbm, 667, rfl⟩
abbrev main_call18_v2 : Ref sig .tc := ⟨.hbm, 668, rfl⟩
abbrev main_call18_v3 : Ref sig .tc := ⟨.hbm, 669, rfl⟩
abbrev main_call18_v4 : Ref sig .tc := ⟨.hbm, 670, rfl⟩
abbrev main_call18_v5 : Ref sig .tc := ⟨.hbm, 671, rfl⟩
abbrev main_call18_v6 : Ref sig .tc := ⟨.hbm, 672, rfl⟩
abbrev main_call18_v7 : Ref sig .tc := ⟨.hbm, 673, rfl⟩
abbrev main_call18_cst_1 : Ref sig .tc := ⟨.hbm, 674, rfl⟩
abbrev main_call18_v8 : Ref sig .tc := ⟨.hbm, 675, rfl⟩
abbrev main_call18_cst_2 : Ref sig .tc := ⟨.hbm, 676, rfl⟩
abbrev main_call18_v9 : Ref sig .tc := ⟨.hbm, 677, rfl⟩
abbrev main_call18_v10 : Ref sig .tc := ⟨.hbm, 678, rfl⟩
abbrev main_call18_v11 : Ref sig .tc := ⟨.hbm, 679, rfl⟩
abbrev main_call18_cst_3 : Ref sig .tc := ⟨.hbm, 680, rfl⟩
abbrev main_call18_v12 : Ref sig .tc := ⟨.hbm, 681, rfl⟩
abbrev main_call18_cst_4 : Ref sig .tc := ⟨.hbm, 682, rfl⟩
abbrev main_call18_call0_v0 : Ref sig .tc := ⟨.hbm, 683, rfl⟩
abbrev main_call18_call0_v1 : Ref sig .tc := ⟨.hbm, 684, rfl⟩
abbrev main_v385 : Ref sig .tc := ⟨.hbm, 685, rfl⟩
abbrev main_v386 : Ref sig .tc := ⟨.hbm, 686, rfl⟩
abbrev main_v387 : Ref sig .tc := ⟨.hbm, 687, rfl⟩
abbrev main_v388 : Ref sig .tc := ⟨.hbm, 688, rfl⟩
abbrev main_cst_57 : Ref sig .tc := ⟨.hbm, 689, rfl⟩
abbrev main_v389 : Ref sig .tc := ⟨.hbm, 690, rfl⟩
abbrev main_v390 : Ref sig .tc := ⟨.hbm, 691, rfl⟩
abbrev main_v391 : Ref sig .tc := ⟨.hbm, 692, rfl⟩
abbrev main_v392 : Ref sig .tc := ⟨.hbm, 693, rfl⟩
abbrev main_v393 : Ref sig .tc := ⟨.hbm, 694, rfl⟩
abbrev main_v394 : Ref sig .tc := ⟨.hbm, 695, rfl⟩
abbrev main_v395 : Ref sig .tc := ⟨.hbm, 696, rfl⟩
abbrev main_v396 : Ref sig .tc := ⟨.hbm, 697, rfl⟩
abbrev main_v397 : Ref sig .tc := ⟨.hbm, 698, rfl⟩
abbrev main_v398 : Ref sig .tc := ⟨.hbm, 699, rfl⟩
abbrev main_v399 : Ref sig .tc := ⟨.hbm, 700, rfl⟩
abbrev main_v400 : Ref sig .tc := ⟨.hbm, 701, rfl⟩
abbrev main_call19_cst : Ref sig .tc := ⟨.hbm, 702, rfl⟩
abbrev main_call19_v0 : Ref sig .tc := ⟨.hbm, 703, rfl⟩
abbrev main_v401 : Ref sig .tc := ⟨.hbm, 704, rfl⟩
abbrev main_cst_58 : Ref sig .tc := ⟨.hbm, 705, rfl⟩
abbrev main_v402 : Ref sig .tc := ⟨.hbm, 706, rfl⟩
abbrev main_v403 : Ref sig .tc := ⟨.hbm, 707, rfl⟩
abbrev main_v404 : Ref sig .tc := ⟨.hbm, 708, rfl⟩
abbrev main_cst_59 : Ref sig .tc := ⟨.hbm, 709, rfl⟩
abbrev main_v405 : Ref sig .tc := ⟨.hbm, 710, rfl⟩
abbrev main_v406 : Ref sig .tc := ⟨.hbm, 711, rfl⟩
abbrev main_v407 : Ref sig .tc := ⟨.hbm, 712, rfl⟩
abbrev main_cst_60 : Ref sig .tc := ⟨.hbm, 713, rfl⟩
abbrev main_v408 : Ref sig .tc := ⟨.hbm, 714, rfl⟩
abbrev main_v409 : Ref sig .tc := ⟨.hbm, 715, rfl⟩
abbrev main_v410 : Ref sig .tc := ⟨.hbm, 716, rfl⟩
abbrev main_cst_61 : Ref sig .tc := ⟨.hbm, 717, rfl⟩
abbrev main_v411 : Ref sig .tc := ⟨.hbm, 718, rfl⟩
abbrev main_v412 : Ref sig .tc := ⟨.hbm, 719, rfl⟩
abbrev main_v413 : Ref sig .tc := ⟨.hbm, 720, rfl⟩
abbrev main_cst_62 : Ref sig .tc := ⟨.hbm, 721, rfl⟩
abbrev main_v414 : Ref sig .tc := ⟨.hbm, 722, rfl⟩
abbrev main_v415 : Ref sig .tc := ⟨.hbm, 723, rfl⟩
abbrev main_v416 : Ref sig .tc := ⟨.hbm, 724, rfl⟩
abbrev main_cst_63 : Ref sig .tc := ⟨.hbm, 725, rfl⟩
abbrev main_v417 : Ref sig .tc := ⟨.hbm, 726, rfl⟩
abbrev main_v418 : Ref sig .tc := ⟨.hbm, 727, rfl⟩
abbrev main_v419 : Ref sig .tc := ⟨.hbm, 728, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x200 : S_.BroadcastsInDim S50000x200 (![] : Fin 0 → Fin S50000x200.rank)
  slices_S5_S1_0 : S5.Slices ![0] S1
  shapeCasts_S1_S_ : S1.ShapeCasts S_
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5_S1_1 : S5.Slices ![1] S1
  slices_S4x128x128_S1x128x128_0_0_0 : S4x128x128.Slices ![0, 0, 0] S1x128x128
  slices_S5x128_S1x128_1_0 : S5x128.Slices ![1, 0] S1x128
  slices_S5x128x128_S1x128x128_1_0_0 : S5x128x128.Slices ![1, 0, 0] S1x128x128
  slices_S5_S1_2 : S5.Slices ![2] S1
  slices_S4x128x128_S1x128x128_1_0_0 : S4x128x128.Slices ![1, 0, 0] S1x128x128
  slices_S5x128_S1x128_2_0 : S5x128.Slices ![2, 0] S1x128
  slices_S5x128x128_S1x128x128_2_0_0 : S5x128x128.Slices ![2, 0, 0] S1x128x128
  slices_S5_S1_3 : S5.Slices ![3] S1
  slices_S4x128x128_S1x128x128_2_0_0 : S4x128x128.Slices ![2, 0, 0] S1x128x128
  slices_S5x128_S1x128_3_0 : S5x128.Slices ![3, 0] S1x128
  slices_S5x128x128_S1x128x128_3_0_0 : S5x128x128.Slices ![3, 0, 0] S1x128x128
  slices_S5_S1_4 : S5.Slices ![4] S1
  slices_S4x128x128_S1x128x128_3_0_0 : S4x128x128.Slices ![3, 0, 0] S1x128x128
  slices_S5x128_S1x128_4_0 : S5x128.Slices ![4, 0] S1x128
  slices_S5x128x128_S1x128x128_4_0_0 : S5x128x128.Slices ![4, 0, 0] S1x128x128
  bcast_S_S128x200 : S_.BroadcastsInDim S128x200 (![] : Fin 0 → Fin S128x200.rank)
  bcast_S50000_S50000x1_0 : S50000.BroadcastsInDim S50000x1 (![0] : Fin 1 → Fin S50000x1.rank)
  bcast_S_S128x128 : S_.BroadcastsInDim S128x128 (![] : Fin 0 → Fin S128x128.rank)
  gather_S50000x200_S800000x1_S800000x200_1_0_n_n_0_1_1200_wf : GatherDims.WF S50000x200 S800000x1 S800000x200 [1] [0] [] [0] [] 1 ![1, 200]
  scatter_S50000x200_S800000x1_S800000x200_1_0_0_1_wf : ScatterDims.WF S50000x200 S800000x1 S800000x200 [1] [0] [0] 1
  dot_S50000x200_S200x128_S50000x128_1_0_0_1_n_n_wf : DotDims.WF S50000x200 S200x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128x200_S50000x1_S50000x200_1_0_0_1_wf : ScatterDims.WF S128x200 S50000x1 S50000x200 [1] [0] [0] 1
  scatter_S128x128_S50000x1_S50000x128_1_0_0_1_wf : ScatterDims.WF S128x128 S50000x1 S50000x128 [1] [0] [0] 1

variable [Facts₀]

def gather_S50000x200_S800000x1_S800000x200_1_0_n_n_0_1_1200 : GatherDims S50000x200 S800000x1 S800000x200 where
  offsetDims := [1]
  collapsedSliceDims := [0]
  operandBatchingDims := []
  startIndicesBatchingDims := []
  startIndexMap := [0]
  indexVectorDim := 1
  sliceSizes := ![1, 200]
  wf := gather_S50000x200_S800000x1_S800000x200_1_0_n_n_0_1_1200_wf
def scatter_S50000x200_S800000x1_S800000x200_1_0_0_1 : ScatterDims S50000x200 S800000x1 S800000x200 where
  updateWindowDims := [1]
  insertedWindowDims := [0]
  scatterDimsToOperandDims := [0]
  indexVectorDim := 1
  wf := scatter_S50000x200_S800000x1_S800000x200_1_0_0_1_wf
def dot_S50000x200_S200x128_S50000x128_1_0_0_1_n_n : DotDims S50000x200 S200x128 S50000x128 where
  lhsContracting := [1]
  rhsContracting := [0]
  lhsNonContracting := [0]
  rhsNonContracting := [1]
  lhsBatch := []
  rhsBatch := []
  wf := dot_S50000x200_S200x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128x200_S50000x1_S50000x200_1_0_0_1 : ScatterDims S128x200 S50000x1 S50000x200 where
  updateWindowDims := [1]
  insertedWindowDims := [0]
  scatterDimsToOperandDims := [0]
  indexVectorDim := 1
  wf := scatter_S128x200_S50000x1_S50000x200_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf

class Facts : Prop extends Facts₀ where

variable [Facts]
-- ==== Proof.Spec.lean ====
import proofs.«410724_j86964497809599_1_alg».proof.ReferenceIdeal
import proofs.«410724_j86964497809599_1_alg».proof.Proof.Gen.ReferenceIdeal
import Idealize.ShloMosaic.PureOps.Ideal

noncomputable section

namespace Cert.Spec

open Cert.ReferenceIdeal Cert.ReferenceIdeal.Facts₀ Idealize.ShloMosaic Idealize.ShloMosaic.TcCoe

abbrev M (S : Shape) : Type := FVec Ideal S .f32

abbrev I (S : Shape) : Type := IVec S 32

def AllReal {S : Shape} (v : M S) : Prop := ∀ i, ∃ r : ℝ, v i = (r : EReal)

def zeroS : M S_ := constant (F := Ideal) S_ .f32 0x00000000#32

def nS : M S_ := constant (F := Ideal) S_ .f32 0x47435000#32

def epsS : M S_ := constant (F := Ideal) S_ .f32 0x3727C5AC#32

def oneS : M S_ := constant (F := Ideal) S_ .f32 0x3F800000#32

def row (v : M S128) : M S1x128 := broadcastInDim S1x128 ![1] bcast_S128_S1x128_1 v

def rows (v : M S1x128) : M S50000x128 := broadcastInDim S50000x128 ![0, 1] bcast_S1x128_S50000x128_0_1 v

def p128 (off : Fin 2 → Nat) (a : M S5x128) (h : S5x128.Slices off S1x128) : M S128 :=
  shapeCast S128 (extractStridedSlice S1x128 off a h) shapeCasts_S1x128_S128

def pW5 (off : Fin 3 → Nat) (a : M S5x128x128) (h : S5x128x128.Slices off S1x128x128) : M S128x128 :=
  shapeCast S128x128 (extractStridedSlice S1x128x128 off a h) shapeCasts_S1x128x128_S128x128

def pW4 (off : Fin 3 → Nat) (a : M S4x128x128) (h : S4x128x128.Slices off S1x128x128) : M S128x128 :=
  shapeCast S128x128 (extractStridedSlice S1x128x128 off a h) shapeCasts_S1x128x128_S128x128

def pS5 (off : Fin 1 → Nat) (a : M S5) (h : S5.Slices off S1) : M S_ :=
  shapeCast S_ (extractStridedSlice S1 off a h) shapeCasts_S1_S_

def rowIdx (ei : I S2x800000) : I S800000 :=
  shapeCast S800000 (extractStridedSlice S1x800000 ![0, 0] ei slices_S2x800000_S1x800000_0_0) shapeCasts_S1x800000_S800000

def colIdx (ei : I S2x800000) : I S800000 :=
  shapeCast S800000 (extractStridedSlice S1x800000 ![1, 0] ei slices_S2x800000_S1x800000_1_0) shapeCasts_S1x800000_S800000

def srcIdx (col : I S800000) : I S800000x1 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

def dstIdx (r : I S800000) : I S800000x1 := broadcastInDim S800000x1 ![0] bcast_S800000_S800000x1_0 r

def agg200 (h : M S50000x200) (r col : I S800000) (e : M S_) : M S50000x200 :=
  addf
    (Host.scatterAdd scatter_S50000x200_S800000x1_S800000x200_1_0_0_1
      (broadcastInDim S50000x200 ![] bcast_S_S50000x200 zeroS) (dstIdx r)
      (Host.gather gather_S50000x200_S800000x1_S800000x200_1_0_n_n_0_1_1200 h (srcIdx col)))
    (mulf (broadcastInDim S50000x200 ![] bcast_S_S50000x200 (addf oneS e)) h)

def agg128 (h : M S50000x128) (r col : I S800000) (e : M S_) : M S50000x128 :=
  addf
    (Host.scatterAdd scatter_S50000x128_S800000x1_S800000x128_1_0_0_1
      (broadcastInDim S50000x128 ![] bcast_S_S50000x128 zeroS) (dstIdx r)
      (Host.gather gather_S50000x128_S800000x1_S800000x128_1_0_n_n_0_1_1128 h (srcIdx col)))
    (mulf (broadcastInDim S50000x128 ![] bcast_S_S50000x128 (addf oneS e)) h)

def lin200 (X : M S50000x200) (W : M S200x128) (b : M S1x128) : M S50000x128 :=
  addf (Host.dotGeneral dot_S50000x200_S200x128_S50000x128_1_0_0_1_n_n none X W) (rows b)

def lin128 (X : M S50000x128) (W : M S128x128) (b : M S1x128) : M S50000x128 :=
  addf (Host.dotGeneral dot_S50000x128_S128x128_S50000x128_1_0_0_1_n_n none X W) (rows b)

def colsum (Z : M S50000x128) : M S128 := Host.reduceAdd Z zeroS reducesTo_S50000x128_S128_d0 h_S_

def meanR (Z : M S50000x128) : M S128 := Host.divf (colsum Z) (broadcastInDim S128 ![] bcast_S_S128 nS)

def normR : M S_ := subf nS (sitofp (F := Ideal) .f32 (constantI S_ 32 0#32))

def varR (Z : M S50000x128) : M S128 :=
  select (broadcastInDim S128 ![] bcast_S_S128 (cmpf .ogt normR zeroS))
    (Host.divf
      (Host.reduceAdd
        (mulf
          (subf Z (broadcastInDim S50000x128 ![0, 1] bcast_S1x128_S50000x128_0_1
            (Host.divf (broadcastInDim S1x128 ![1] bcast_S128_S1x128_1 (colsum Z)) (broadcastInDim S1x128 ![] bcast_S_S1x128 nS))))
          (subf Z (broadcastInDim S50000x128 ![0, 1] bcast_S1x128_S50000x128_0_1
            (Host.divf (broadcastInDim S1x128 ![1] bcast_S128_S1x128_1 (colsum Z)) (broadcastInDim S1x128 ![] bcast_S_S1x128 nS)))))
        zeroS reducesTo_S50000x128_S128_d0 h_S_)
      (broadcastInDim S128 ![] bcast_S_S128 normR))
    (broadcastInDim S128 ![] bcast_S_S128 (id (constant (F := Ideal) S_ .f32 0x7FC00000#32)))

def meanK (s : M S1x128) : M S1x128 := Host.divf s (broadcastInDim S1x128 ![] bcast_S_S1x128 nS)

def varK (q mean : M S1x128) : M S1x128 :=
  subf (Host.divf q (broadcastInDim S1x128 ![] bcast_S_S1x128 nS)) (mulf mean mean)

def bnreluK (Z : M S50000x128) (mean var g be : M S1x128) : M S50000x128 :=
  maximumf
    (addf (mulf (mulf (subf Z (rows mean)) (rows (Host.rsqrt (addf var (broadcastInDim S1x128 ![] bcast_S_S1x128 epsS))))) (rows g)) (rows be))
    (broadcastInDim S50000x128 ![] bcast_S_S50000x128 zeroS)

def bnreluR (Z : M S50000x128) (g be : M S128) : M S50000x128 :=
  maximumf
    (addf (mulf (mulf (subf Z (rows (row (meanR Z))))
        (rows (row (Host.rsqrt (addf (varR Z) (broadcastInDim S128 ![] bcast_S_S128 epsS)))))) (rows (row g))) (rows (row be)))
    (broadcastInDim S50000x128 ![] bcast_S_S50000x128 zeroS)

def sumRow (Z : M S50000x128) : M S1x128 := row (colsum Z)

def sqRow (Z : M S50000x128) : M S1x128 := row (colsum (mulf Z Z))

def bnK (Z : M S50000x128) (g be : M S128) : M S50000x128 :=
  bnreluK Z (meanK (sumRow Z)) (varK (sqRow Z) (meanK (sumRow Z))) (row g) (row be)

def layerR (z1 : M S50000x128) (g1 be1 : M S128) (W2 : M S128x128) (b2 g2 be2 : M S128) : M S50000x128 :=
  bnreluR (lin128 (bnreluR z1 g1 be1) W2 (row b2)) g2 be2

def layerK (z1 : M S50000x128) (g1 be1 : M S128) (W2 : M S128x128) (b2 g2 be2 : M S128) : M S50000x128 :=
  bnK (lin128 (bnK z1 g1 be1) W2 (row b2)) g2 be2

def pool200 (b : I S50000x1) (H : M S50000x200) : M S128x200 :=
  Host.scatterAdd scatter_S128x200_S50000x1_S50000x200_1_0_0_1 (broadcastInDim S128x200 ![] bcast_S_S128x200 zeroS) b H

def pool128 (b : I S50000x1) (H : M S50000x128) : M S128x128 :=
  Host.scatterAdd scatter_S128x128_S50000x1_S50000x128_1_0_0_1 (broadcastInDim S128x128 ![] bcast_S_S128x128 zeroS) b H

def batchColR (b : I S50000) : I S50000x1 := broadcastInDim S50000x1 ![0] bcast_S50000_S50000x1_0 b

end Cert.Spec

end
-- ==== Proof.DotRows.lean ====
import Idealize.ShloMosaic.Lib.ValueIdx
import Idealize.ShloMosaic.PureOps.Ideal.Laws

noncomputable section

namespace Cert.DotRows

open Idealize.ShloMosaic Idealize.ShloMosaic.ValueIdx

variable {m n : ℕ} (D : DotDims ⟨2, ![m, n]⟩ ⟨2, ![n, 128]⟩ ⟨2, ![m, 128]⟩)

theorem lhs_row (hlb : D.lhsBatch = []) (hln : D.lhsNonContracting = [0])
    (j : (⟨2, ![m, 128]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p : ℕ) (hp : p < (⟨2, ![m, 128]⟩ : Shape).rank), p = 0 → (j ⟨p, hp⟩).val = (j 0).val :=
    fun p hp h => by subst h; rfl
  exact key _ _ (by simp [hlb, hln])

theorem rhs_col (hlb : D.lhsBatch = []) (hln : D.lhsNonContracting = [0]) (hrb : D.rhsBatch = [])
    (hrn : D.rhsNonContracting = [1])
    (j : (⟨2, ![m, 128]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : ℕ) (hp : p < (⟨2, ![m, 128]⟩ : Shape).rank), p = 1 → (j ⟨p, hp⟩).val = (j 1).val :=
    fun p hp h => by subst h; rfl
  exact key _ _ (by simp [hlb, hln, hrn])

theorem contr_rank (hlc : D.lhsContracting = [1]) : D.contr.rank = 1 := by
  rw [D.rank_contr, hlc]; rfl

theorem contr_size (hlc : D.lhsContracting = [1]) :
    D.contr.size ⟨0, by rw [contr_rank D hlc]; exact Nat.one_pos⟩ = n := by
  rw [D.size_contr 0 (by rw [hlc]; exact Nat.one_pos)]
  simp [hlc]

-- An m × n by n × 128 product at (r, q): the contraction index carries one coordinate k < n, and the operands are read at (r, k) and (k, q).
theorem sum_eq (hlb : D.lhsBatch = []) (hln : D.lhsNonContracting = [0]) (hlc : D.lhsContracting = [1])
    (hrb : D.rhsBatch = []) (hrn : D.rhsNonContracting = [1]) (hrc : D.rhsContracting = [0])
    (L : (⟨2, ![m, n]⟩ : Shape).Idx → EReal) (R : (⟨2, ![n, 128]⟩ : Shape).Idx → EReal) (r : Fin m) (q : Fin 128) :
    ∑ k : D.contr.Idx, L (D.lhsIdx (ix2 r q) k) * R (D.rhsIdx (ix2 r q) k) = ∑ k : Fin n, L (ix2 r k) * R (ix2 k q) := by
  rw [← Equiv.sum_comp (contrEquiv1 D n (contr_rank D hlc) (contr_size D hlc)).symm]
  refine Finset.sum_congr rfl fun i _ => ?_
  have hl : D.lhsIdx (ix2 r q) ((contrEquiv1 D n (contr_rank D hlc) (contr_size D hlc)).symm i) = ix2 r i := by
    funext a
    apply Fin.ext
    match a with
    | ⟨0, _⟩ => exact lhs_row D hlb hln _ _
    | ⟨1, _⟩ => exact (D.lhsIdx_val_of_single hlc _ _).trans (contrEquiv1_symm_val D n _ _ i)
  have hr : D.rhsIdx (ix2 r q) ((contrEquiv1 D n (contr_rank D hlc) (contr_size D hlc)).symm i) = ix2 i q := by
    funext a
    apply Fin.ext
    match a with
    | ⟨0, _⟩ => exact (D.rhsIdx_val_of_single hrc _ _).trans (contrEquiv1_symm_val D n _ _ i)
    | ⟨1, _⟩ => exact rhs_col D hlb hln hrb hrn _ _
  rw [hl, hr]

end Cert.DotRows

end
-- ==== Proof.SpecAt.lean ====
import proofs.«410724_j86964497809599_1_alg».proof.Proof.Spec
import proofs.«410724_j86964497809599_1_alg».proof.Proof.DotRows
import Idealize.ShloMosaic.Lib.ValueIdx
import Idealize.ShloMosaic.Lib.KernelVsHost
import Idealize.ShloMosaic.PureOps.Ideal.Laws

noncomputable section

namespace Cert.SpecAt

open Cert.ReferenceIdeal Cert.ReferenceIdeal.Facts₀ Idealize.ShloMosaic Idealize.ShloMosaic.TcCoe
open Idealize.ShloMosaic.ValueIdx Cert.Spec

def bnrelu1 (z mean var g be : EReal) : EReal :=
  max ((z - mean) * Ideal.rsqrt (var + Ideal.ofBits .f32 0x3727C5AC#32) * g + be) (Ideal.ofBits .f32 0x00000000#32)

theorem rows_apply (v : M S1x128) (r : Fin 50000) (q : Fin 128) : rows v (ix2 r q) = v (ix2 (0 : Fin 1) q) :=
  broadcastInDim_oneRow_apply bcast_S1x128_S50000x128_0_1 v r q

theorem row_apply (v : M S128) (q : Fin 128) : row v (ix2 (0 : Fin 1) q) = v (ix1 q) := by
  refine broadcastInDim_apply ![1] bcast_S128_S1x128_1 v (ix2 (0 : Fin 1) q) (ix1 q) ?_
  intro a
  match a with
  | ⟨0, _⟩ => show q.val = if (128 : ℕ) = 1 then 0 else q.val; rfl

theorem bnreluK_apply (Z : M S50000x128) (mean var g be : M S1x128) (r : Fin 50000) (k : Fin 128) :
    bnreluK Z mean var g be (ix2 r k)
      = bnrelu1 (Z (ix2 r k)) (mean (ix2 (0 : Fin 1) k)) (var (ix2 (0 : Fin 1) k)) (g (ix2 (0 : Fin 1) k)) (be (ix2 (0 : Fin 1) k)) := by
  show max ((Z (ix2 r k) - rows mean (ix2 r k))
        * rows (Host.rsqrt (addf var (broadcastInDim S1x128 ![] bcast_S_S1x128 epsS))) (ix2 r k) * rows g (ix2 r k)
        + rows be (ix2 r k)) (Ideal.ofBits .f32 0x00000000#32) = _
  rw [rows_apply, rows_apply, rows_apply, rows_apply]
  rfl

theorem lin128_apply (X : M S50000x128) (W : M S128x128) (b : M S1x128) (r : Fin 50000) (q : Fin 128) :
    lin128 X W b (ix2 r q) = (∑ k : Fin 128, X (ix2 r k) * W (ix2 k q)) + b (ix2 (0 : Fin 1) q) := by
  show FloatOps.dotGeneral dot_S50000x128_S128x128_S50000x128_1_0_0_1_n_n none .single X W (ix2 r q) + rows b (ix2 r q) = _
  rw [rows_apply, Ideal.dotGeneral_apply]
  exact congrArg (· + b (ix2 (0 : Fin 1) q))
    (Cert.DotRows.sum_eq dot_S50000x128_S128x128_S50000x128_1_0_0_1_n_n rfl rfl rfl rfl rfl rfl X W r q)

theorem colsum_apply (Z : M S50000x128) (q : Fin 128) : colsum Z (ix1 q) = ∑ r : Fin 50000, Z (ix2 r q) := by
  show Ideal.hostReduceAdd reducesTo_S50000x128_S128_d0 Z (Ideal.ofBits .f32 0x00000000#32) (ix1 q) = _
  rw [Ideal.hostReduceAdd_single reducesTo_S50000x128_S128_d0 (by decide : S50000x128.Reduces [0] S128) Z _ (ix1 q),
    Ideal.ofBits_zero_f32, zero_add]
  refine Finset.sum_congr rfl fun r _ => congrArg Z ?_
  funext a
  match a with
  | ⟨0, _⟩ => rfl
  | ⟨1, _⟩ => rfl

theorem sumRow_apply (Z : M S50000x128) (q : Fin 128) : sumRow Z (ix2 (0 : Fin 1) q) = ∑ r : Fin 50000, Z (ix2 r q) := by
  unfold sumRow
  rw [row_apply, colsum_apply]

theorem sqRow_apply (Z : M S50000x128) (q : Fin 128) :
    sqRow Z (ix2 (0 : Fin 1) q) = ∑ r : Fin 50000, Z (ix2 r q) * Z (ix2 r q) := by
  unfold sqRow
  rw [row_apply, colsum_apply]
  rfl

end Cert.SpecAt

end
-- ==== Proof.NMSPay1.lean ====
import proofs.«410724_j86964497809599_1_alg».proof.Proof.Gen.KernelIdeal.Skeleton
import proofs.«410724_j86964497809599_1_alg».proof.Proof.SpecAt
import Idealize.ShloMosaic.Lib.Pipeline.Value
import Idealize.ShloMosaic.Lib.ValueLayout

noncomputable section

namespace Cert.KernelIdeal.NMSPay1

open Cert.KernelIdeal Cert.KernelIdeal.Gen Idealize.ShloMosaic Idealize.ShloMosaic.TcCoe Idealize.ShloMosaic.ValueIdx
open Cert.SpecAt (bnrelu1)

theorem tileColsum_apply (v : FVec Ideal S5000x128 .f32) (q : Fin 128) :
    multiReduction .add [0] S128 v 0x00000000#32 reduces_S5000x128_S128 (.inl rfl) rfl (ix1 q) = ∑ p : Fin 5000, v (ix2 p q) := by
  refine (Ideal.multiReduction_add_single v 0x00000000#32 reduces_S5000x128_S128 (.inl rfl) rfl (ix1 q)).trans ?_
  refine Finset.sum_congr rfl fun p _ => congrArg v ?_
  funext a
  match a with
  | ⟨0, _⟩ => rfl
  | ⟨1, _⟩ => rfl

-- Entry (p, q): each x0 (p, k) is normalised with column k's statistics and clamped at zero, then weighted by xw (k, q); xb's row repeats down the rows.
theorem pay5_apply (x0 : FVec Ideal S5000x128 .f32) (xvar xmean xg xbe : FVec Ideal S1x128 .f32) (xw : FVec Ideal S128x128 .f32)
    (xb : FVec Ideal S1x128 .f32) (p : Fin 5000) (q : Fin 128) :
    k1_pay5 (F := Ideal) x0 xvar xmean xg xbe xw xb (ix2 p q)
      = (∑ k : Fin 128, bnrelu1 (x0 (ix2 p k)) (xmean (ix2 (0 : Fin 1) k)) (xvar (ix2 (0 : Fin 1) k)) (xg (ix2 (0 : Fin 1) k))
            (xbe (ix2 (0 : Fin 1) k)) * xw (ix2 k q)) + xb (ix2 (0 : Fin 1) q) := by
  unfold k1_pay5
  simp only [shapeCast_self]
  refine (congrArg₂ (fun a b : EReal => a + b)
    (Ideal.matmul_constant_zero_apply dot_S5000x128_S128x128_S5000x128_1_0_0_1_n_n none _ _ (ix2 p q))
    (broadcastTo_1b_ab_apply xb _ p q)).trans ?_
  refine congrArg (· + xb (ix2 (0 : Fin 1) q)) ?_
  refine (Cert.DotRows.sum_eq dot_S5000x128_S128x128_S5000x128_1_0_0_1_n_n rfl rfl rfl rfl rfl rfl _ _ p q).trans ?_
  refine Finset.sum_congr rfl fun k _ => ?_
  show max ((x0 (ix2 p k) - broadcastTo S5000x128 xmean broadcasts_S1x128_S5000x128 (ix2 p k))
        * broadcastTo S5000x128 (rsqrt (F := Ideal) (addf (F := Ideal) xvar (broadcast S1x128 (Ideal.ofBits .f32 0x3727C5AC#32)))) broadcasts_S1x128_S5000x128 (ix2 p k)
        * broadcastTo S5000x128 xg broadcasts_S1x128_S5000x128 (ix2 p k)
        + broadcastTo S5000x128 xbe broadcasts_S1x128_S5000x128 (ix2 p k)) (Ideal.ofBits .f32 0x00000000#32) * xw (ix2 k q) = _
  rw [broadcastTo_1b_ab_apply, broadcastTo_1b_ab_apply, broadcastTo_1b_ab_apply, broadcastTo_1b_ab_apply]
  rfl

-- Reducing over the row axis sums each column; the sum is added to the running row.
theorem pay1_apply (v : FVec Ideal S5000x128 .f32) (acc : FVec Ideal S1x128 .f32) (q : Fin 128) :
    k1_pay1 (F := Ideal) v acc (ix2 (0 : Fin 1) q) = acc (ix2 (0 : Fin 1) q) + ∑ p : Fin 5000, v (ix2 p q) := by
  unfold k1_pay1
  simp only [shapeCast_self]
  show acc (ix2 (0 : Fin 1) q)
      + shapeCast S1x128 (multiReduction .add [0] S128 v 0x00000000#32 reduces_S5000x128_S128 (.inl rfl) rfl) shapeCasts_S128_S1x128 (ix2 (0 : Fin 1) q) = _
  rw [shapeCast_a_1a_apply, tileColsum_apply]

-- The squares' row is the sums' row at the tile of squares.
theorem pay2_apply (v : FVec Ideal S5000x128 .f32) (acc : FVec Ideal S1x128 .f32) (q : Fin 128) :
    k1_pay2 (F := Ideal) v acc (ix2 (0 : Fin 1) q) = acc (ix2 (0 : Fin 1) q) + ∑ p : Fin 5000, v (ix2 p q) * v (ix2 p q) :=
  pay1_apply (mulf v v) acc q

theorem pay3_apply (j : S1x128.Idx) : k1_pay3 (F := Ideal) j = 0 := Ideal.ofBits_zero_f32
theorem pay4_apply (j : S1x128.Idx) : k1_pay4 (F := Ideal) j = 0 := Ideal.ofBits_zero_f32

end Cert.KernelIdeal.NMSPay1

end
-- ==== Proof.LibTiles.lean ====
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

theorem tile_lt_4096 (j : Fin 4) (q : Fin 1024) : j.val * 1024 + q.val < 4096 :=
  tile_lt j q

theorem tile_lt_nat {j : ℕ} (hj : j < 4) (q : Fin 1024) : j * 1024 + q.val < 4096 :=
  tile_lt_4096 ⟨j, hj⟩ q

theorem tile_sum_4096 (f : Fin 4096 → M) :
    ∑ c : Fin 4096, f c =
      ∑ j : Fin 4, ∑ q : Fin 1024, f ⟨j.val * 1024 + q.val, tile_lt_4096 j q⟩ :=
  tile_sum 4 1024 f

theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

theorem lo_lt (r : Fin 4096) : r.val < 8192 := lt_trans r.isLt (by decide)

theorem hi_lt (r : Fin 4096) : 4096 + r.val < 8192 := Nat.add_lt_add_left r.isLt 4096

theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.TileSums.lean ====
import proofs.«410724_j86964497809599_1_alg».proof.Proof.LibTiles
import Mathlib.Algebra.BigOperators.Intervals

namespace Cert.TileSums

open Cert.LibTiles

variable {M : Type*} [AddCommMonoid M]

def tileSum (a b : ℕ) (f : Fin (a * b) → M) (s : ℕ) : M :=
  if h : s < a then ∑ k : Fin b, f ⟨s * b + k.val, tile_lt ⟨s, h⟩ k⟩ else 0

theorem tileSum_of_lt (a b : ℕ) (f : Fin (a * b) → M) {s : ℕ} (h : s < a) :
    tileSum a b f s = ∑ k : Fin b, f ⟨s * b + k.val, tile_lt ⟨s, h⟩ k⟩ := dif_pos h

theorem sum_eq_range (a b : ℕ) (f : Fin (a * b) → M) :
    ∑ i : Fin (a * b), f i = ∑ s ∈ Finset.range a, tileSum a b f s := by
  rw [tile_sum a b f, Finset.sum_range]
  exact Finset.sum_congr rfl fun j _ => (tileSum_of_lt a b f j.isLt).symm

theorem acc_zero (a b : ℕ) (f : Fin (a * b) → M) :
    ∑ s ∈ Finset.range (0 + 1), tileSum a b f s = tileSum a b f 0 := by
  rw [Nat.zero_add, Finset.sum_range_one]

theorem acc_succ (a b : ℕ) (f : Fin (a * b) → M) (n : ℕ) :
    ∑ s ∈ Finset.range (n + 1 + 1), tileSum a b f s
      = (∑ s ∈ Finset.range (n + 1), tileSum a b f s) + tileSum a b f (n + 1) :=
  Finset.sum_range_succ _ _

end Cert.TileSums
-- ==== Proof.LS3Math.lean ====
import proofs.«410724_j86964497809599_1_alg».proof.Proof.NMSPay1
import proofs.«410724_j86964497809599_1_alg».proof.Proof.TileSums
import Idealize.ShloMosaic.Lib.ValueLayout

noncomputable section

namespace Cert.KernelIdeal.LS3

open Cert.KernelIdeal Cert.KernelIdeal.Gen Idealize.ShloMosaic Idealize.ShloMosaic.TcCoe Idealize.ShloMosaic.ValueIdx

-- Entry (r, j) of the tile's product is row r of x0 against column j of x1 (128 terms); the bias row repeats down the rows.
theorem pay3_apply (x0 : FVec Ideal S5000x128 .f32) (x1 : FVec Ideal S128x128 .f32) (x2 : FVec Ideal S1x128 .f32)
    (r : Fin 5000) (j : Fin 128) :
    k3_pay3 (F := Ideal) x0 x1 x2 (ix2 r j) = (∑ k : Fin 128, x0 (ix2 r k) * x1 (ix2 k j)) + x2 (ix2 0 j) := by
  unfold k3_pay3
  simp only [shapeCast_self]
  exact congrArg₂ (· + ·)
    ((Ideal.matmul_constant_zero_apply _ none _ _ (ix2 r j)).trans
      (Cert.DotRows.sum_eq dot_S5000x128_S128x128_S5000x128_1_0_0_1_n_n rfl rfl rfl rfl rfl rfl x0 x1 r j))
    (broadcastTo_1b_ab_apply x2 _ r j)

theorem pay1_apply (y : S1x128.Idx) : k3_pay1 (F := Ideal) y = 0 := Ideal.ofBits_zero_f32
theorem pay2_apply (y : S1x128.Idx) : k3_pay2 (F := Ideal) y = 0 := Ideal.ofBits_zero_f32

-- The two running rows are region 1's, taken at this tile's product.
theorem pay4_apply (x0 : FVec Ideal S5000x128 .f32) (x1 : FVec Ideal S128x128 .f32) (x2 : FVec Ideal S1x128 .f32)
    (acc : FVec Ideal S1x128 .f32) (j : Fin 128) :
    k3_pay4 (F := Ideal) x0 x1 x2 acc (ix2 0 j)
      = acc (ix2 0 j) + ∑ r : Fin 5000, k3_pay3 (F := Ideal) x0 x1 x2 (ix2 r j) :=
  NMSPay1.pay1_apply _ acc j

theorem pay5_apply (x0 : FVec Ideal S5000x128 .f32) (x1 : FVec Ideal S128x128 .f32) (x2 : FVec Ideal S1x128 .f32)
    (acc : FVec Ideal S1x128 .f32) (j : Fin 128) :
    k3_pay5 (F := Ideal) x0 x1 x2 acc (ix2 0 j)
      = acc (ix2 0 j) + ∑ r : Fin 5000, k3_pay3 (F := Ideal) x0 x1 x2 (ix2 r j) * k3_pay3 (F := Ideal) x0 x1 x2 (ix2 r j) :=
  NMSPay1.pay2_apply _ acc j

def colF (Z : Cert.Spec.M Cert.ReferenceIdeal.S50000x128) (j : Fin 128) : Fin (10 * 5000) → EReal :=
  fun i => Z (ix2 ⟨i.val, i.isLt⟩ j)

theorem row_lt {t : ℕ} (ht : t < 10) (r : Fin 5000) : t * 5000 + r.val < 50000 := by
  have := r.isLt; omega

section
variable (X : Cert.Spec.M Cert.ReferenceIdeal.S50000x128) (W : Cert.Spec.M Cert.ReferenceIdeal.S128x128)
  (b : Cert.Spec.M Cert.ReferenceIdeal.S1x128) (x0 : FVec Ideal S5000x128 .f32) {t : ℕ} (ht : t < 10)
  (hx : ∀ (r : Fin 5000) (k : Fin 128), x0 (ix2 r k) = X (ix2 ⟨t * 5000 + r.val, row_lt ht r⟩ k))
include hx

-- When x0 holds rows t·5000 … t·5000+4999 of X, the two dot products agree term by term.
theorem pay3_tile (r : Fin 5000) (j : Fin 128) :
    k3_pay3 (F := Ideal) x0 W b (ix2 r j) = Cert.Spec.lin128 X W b (ix2 ⟨t * 5000 + r.val, row_lt ht r⟩ j) := by
  rw [pay3_apply, Cert.SpecAt.lin128_apply]
  exact congrArg (· + b (ix2 0 j)) (Finset.sum_congr rfl fun k _ => by rw [hx r k])

theorem pay3_tileSum (j : Fin 128) :
    ∑ r : Fin 5000, k3_pay3 (F := Ideal) x0 W b (ix2 r j)
      = Cert.TileSums.tileSum 10 5000 (colF (Cert.Spec.lin128 X W b) j) t := by
  rw [Cert.TileSums.tileSum_of_lt 10 5000 _ ht]
  exact Finset.sum_congr rfl fun r _ => pay3_tile X W b x0 ht hx r j

theorem pay3_tileSumSq (j : Fin 128) :
    ∑ r : Fin 5000, k3_pay3 (F := Ideal) x0 W b (ix2 r j) * k3_pay3 (F := Ideal) x0 W b (ix2 r j)
      = Cert.TileSums.tileSum 10 5000
          (colF (mulf (Cert.Spec.lin128 X W b) (Cert.Spec.lin128 X W b)) j) t := by
  rw [Cert.TileSums.tileSum_of_lt 10 5000 _ ht]
  exact Finset.sum_congr rfl fun r _ => by rw [pay3_tile X W b x0 ht hx r j]; rfl
end

-- 50000 = 10 · 5000, so a sum over all rows is the sum of the ten tile sums.
theorem sumRow_tiles (Z : Cert.Spec.M Cert.ReferenceIdeal.S50000x128) (j : Fin 128) :
    Cert.Spec.sumRow Z (ix2 0 j) = ∑ s ∈ Finset.range 10, Cert.TileSums.tileSum 10 5000 (colF Z j) s :=
  (Cert.SpecAt.sumRow_apply Z j).trans (Cert.TileSums.sum_eq_range 10 5000 (colF Z j))

theorem sqRow_tiles (Z : Cert.Spec.M Cert.ReferenceIdeal.S50000x128) (j : Fin 128) :
    Cert.Spec.sqRow Z (ix2 0 j) = ∑ s ∈ Finset.range 10, Cert.TileSums.tileSum 10 5000 (colF (mulf Z Z) j) s :=
  sumRow_tiles (mulf Z Z) j

end Cert.KernelIdeal.LS3

end
-- ==== Proof.LS0Math.lean ====
import proofs.«410724_j86964497809599_1_alg».proof.Proof.LS3Math

noncomputable section

namespace Cert.KernelIdeal.LS0

open Cert.KernelIdeal Cert.KernelIdeal.Gen Idealize.ShloMosaic Idealize.ShloMosaic.TcCoe Idealize.ShloMosaic.ValueIdx

-- These do not depend on the number of input features.
export Cert.KernelIdeal.LS3 (colF row_lt sumRow_tiles sqRow_tiles)

-- Entry (r, j) of the tile's product is row r of x0 against column j of x1 (200 terms); the bias row repeats down the rows.
theorem pay3_apply (x0 : FVec Ideal S5000x200 .f32) (x1 : FVec Ideal S200x128 .f32) (x2 : FVec Ideal S1x128 .f32)
    (r : Fin 5000) (j : Fin 128) :
    k0_pay3 (F := Ideal) x0 x1 x2 (ix2 r j) = (∑ k : Fin 200, x0 (ix2 r k) * x1 (ix2 k j)) + x2 (ix2 0 j) := by
  unfold k0_pay3
  simp only [shapeCast_self]
  exact congrArg₂ (· + ·)
    ((Ideal.matmul_constant_zero_apply _ none _ _ (ix2 r j)).trans
      (Cert.DotRows.sum_eq dot_S5000x200_S200x128_S5000x128_1_0_0_1_n_n rfl rfl rfl rfl rfl rfl x0 x1 r j))
    (broadcastTo_1b_ab_apply x2 _ r j)

theorem pay1_apply (y : S1x128.Idx) : k0_pay1 (F := Ideal) y = 0 := Ideal.ofBits_zero_f32
theorem pay2_apply (y : S1x128.Idx) : k0_pay2 (F := Ideal) y = 0 := Ideal.ofBits_zero_f32

-- The two running rows are region 1's, taken at this tile's product.
theorem pay4_apply (x0 : FVec Ideal S5000x200 .f32) (x1 : FVec Ideal S200x128 .f32) (x2 : FVec Ideal S1x128 .f32)
    (acc : FVec Ideal S1x128 .f32) (j : Fin 128) :
    k0_pay4 (F := Ideal) x0 x1 x2 acc (ix2 0 j)
      = acc (ix2 0 j) + ∑ r : Fin 5000, k0_pay3 (F := Ideal) x0 x1 x2 (ix2 r j) :=
  NMSPay1.pay1_apply _ acc j

theorem pay5_apply (x0 : FVec Ideal S5000x200 .f32) (x1 : FVec Ideal S200x128 .f32) (x2 : FVec Ideal S1x128 .f32)
    (acc : FVec Ideal S1x128 .f32) (j : Fin 128) :
    k0_pay5 (F := Ideal) x0 x1 x2 acc (ix2 0 j)
      = acc (ix2 0 j) + ∑ r : Fin 5000, k0_pay3 (F := Ideal) x0 x1 x2 (ix2 r j) * k0_pay3 (F := Ideal) x0 x1 x2 (ix2 r j) :=
  NMSPay1.pay2_apply _ acc j

theorem lin200_apply (X : Cert.Spec.M Cert.ReferenceIdeal.S50000x200) (W : Cert.Spec.M Cert.ReferenceIdeal.S200x128)
    (b : Cert.Spec.M Cert.ReferenceIdeal.S1x128) (n : Fin 50000) (j : Fin 128) :
    Cert.Spec.lin200 X W b (ix2 n j) = (∑ k : Fin 200, X (ix2 n k) * W (ix2 k j)) + b (ix2 0 j) := by
  show FloatOps.dotGeneral Cert.ReferenceIdeal.dot_S50000x200_S200x128_S50000x128_1_0_0_1_n_n none .single X W (ix2 n j)
      + Cert.Spec.rows b (ix2 n j) = _
  rw [Cert.SpecAt.rows_apply, Ideal.dotGeneral_apply]
  exact congrArg (· + b (ix2 0 j)) (Cert.DotRows.sum_eq _ rfl rfl rfl rfl rfl rfl X W n j)

section
variable (X : Cert.Spec.M Cert.ReferenceIdeal.S50000x200) (W : Cert.Spec.M Cert.ReferenceIdeal.S200x128)
  (b : Cert.Spec.M Cert.ReferenceIdeal.S1x128) (x0 : FVec Ideal S5000x200 .f32) {t : ℕ} (ht : t < 10)
  (hx : ∀ (r : Fin 5000) (k : Fin 200), x0 (ix2 r k) = X (ix2 ⟨t * 5000 + r.val, row_lt ht r⟩ k))
include hx

-- When x0 holds rows t·5000 … t·5000+4999 of X, the two dot products agree term by term.
theorem pay3_tile (r : Fin 5000) (j : Fin 128) :
    k0_pay3 (F := Ideal) x0 W b (ix2 r j) = Cert.Spec.lin200 X W b (ix2 ⟨t * 5000 + r.val, row_lt ht r⟩ j) := by
  rw [pay3_apply, lin200_apply]
  exact congrArg (· + b (ix2 0 j)) (Finset.sum_congr rfl fun k _ => by rw [hx r k])

theorem pay3_tileSum (j : Fin 128) :
    ∑ r : Fin 5000, k0_pay3 (F := Ideal) x0 W b (ix2 r j)
      = Cert.TileSums.tileSum 10 5000 (colF (Cert.Spec.lin200 X W b) j) t := by
  rw [Cert.TileSums.tileSum_of_lt 10 5000 _ ht]
  exact Finset.sum_congr rfl fun r _ => pay3_tile X W b x0 ht hx r j

theorem pay3_tileSumSq (j : Fin 128) :
    ∑ r : Fin 5000, k0_pay3 (F := Ideal) x0 W b (ix2 r j) * k0_pay3 (F := Ideal) x0 W b (ix2 r j)
      = Cert.TileSums.tileSum 10 5000
          (colF (mulf (Cert.Spec.lin200 X W b) (Cert.Spec.lin200 X W b)) j) t := by
  rw [Cert.TileSums.tileSum_of_lt 10 5000 _ ht]
  exact Finset.sum_congr rfl fun r _ => by rw [pay3_tile X W b x0 ht hx r j]; rfl
end

end Cert.KernelIdeal.LS0

end
-- ==== Proof.LS0.lean ====
import proofs.«410724_j86964497809599_1_alg».proof.Proof.LS0Math
import proofs.«410724_j86964497809599_1_alg».proof.Proof.Gen.KernelIdeal.Frame
import Idealize.ShloMosaic.Lib.Pipeline.Value
import Idealize.ShloMosaic.Lib.Tactic

set_option maxRecDepth 16384

noncomputable section

namespace Cert.KernelIdeal.LS0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

abbrev Za (c : Dev nD) : Cert.Spec.M Cert.ReferenceIdeal.S50000x128 :=
  Cert.Spec.lin200 (V c main_v20) (V c main_arg4) (V c main_v23)

-- The tile's linear map, and each row of p plus the tile's column sums of the map and of its squares.
abbrev pays x0 x1 x2 (p : FVec Ideal S1x128 .f32 × FVec Ideal S1x128 .f32) :=
  (k0_pay3 (F := Ideal) x0 x1 x2, k0_pay4 x0 x1 x2 p.1, k0_pay5 x0 x1 x2 p.2)

theorem hz : (![0, 0] : Fin 2 → Nat) = fun _ => 0 := funext fun a => by fin_cases a <;> rfl

theorem outs_A (c : Dev nD) (t : Fin cfg0.N) (h0 : t.val % 10 = 0) :
    outsAt0 V c t.val t.isLt = pays (iblk0 V c 0 t) (iblk0 V c 1 t) (iblk0 V c 2 t) (k0_pay1 (F := Ideal), k0_pay2 (F := Ideal)) := by
  rw [outsAt0_A V c t h0]
  unfold out0_A_3 out0_A_4 out0_A_5
  rw [View.read_writes_eq_canon _ _ _ (fun _ => cover0_A_3 ..), View.read_writes_eq_canon _ _ _ (fun _ => cover0_A_4 ..),
    View.read_writes_eq_canon _ _ _ (fun _ => cover0_A_5 ..)]
  unfold kernelRun0_A
  dsimp only
  sl_unfold_words
  repeat rw [View.canon_cons_unit_zero hz]
  repeat rw [View.readCov_unit_zero _ hz]
  simp only [View.readAt_eq_ld, Memref.IsWhole.read_unread]
  repeat rw [View.ld_unit_zero hz]

theorem outs_B (c : Dev nD) (t : Fin cfg0.N) (h0 : ¬t.val % 10 = 0) :
    outsAt0 V c t.val t.isLt
      = pays (iblk0 V c 0 t) (iblk0 V c 1 t) (iblk0 V c 2 t) (outsAt0 V c (t.val - 1) (Nat.sub_lt_of_lt t.isLt)).2 := by
  rw [outsAt0_B V c t h0]
  unfold out0_B_3 out0_B_4 out0_B_5
  rw [View.read_writes_eq_canon _ _ _ (fun _ => cover0_B_3 ..), View.read_writes_eq_canon _ _ _ (fun _ => cover0_B_4 ..),
    View.read_writes_eq_canon _ _ _ (fun _ => cover0_B_5 ..)]
  unfold kernelRun0_B
  dsimp only
  repeat rw [View.canon_cons_unit_zero hz]
  simp only [View.readAt_eq_ld, Memref.IsWhole.read_unread]
  repeat rw [View.ld_unit_zero hz]

theorem tlt (t : Fin cfg0.N) : t.val < 10 := lt_of_lt_of_eq t.isLt (show cfg0.N = 10 from N_0)

theorem offs : ∀ t : Fin cfg0.N, win0_0.index t = ![t.val, 0] ∧ win0_1.index t = (fun _ => 0) ∧ win0_2.index t = (fun _ => 0)
    ∧ win0_3.index t = ![t.val, 0] ∧ win0_4.index t = (fun _ => 0) ∧ win0_5.index t = (fun _ => 0) :=
  (by decide +kernel : ∀ t : Fin grid0.N, _)

theorem off0 {n : ℕ} {ix : Fin n → ℕ} (sz : Fin n → ℕ) (h : ix = fun _ => 0) : (fun a => ix a * sz a) = fun _ => 0 := by
  subst h; exact funext fun _ => Nat.zero_mul _

theorem mem_blk {b : Ref sig .tc} {r : Rect b.ty.shape} {i : b.ty.shape.Idx} (h : i ∈ r.set) :
    i ∈ ((View.whole b).slice r).set := (View.set_slice_whole b r).symm ▸ h

theorem ext2 {n0 n1 : ℕ} {α : Type} {f g : (⟨2, ![n0, n1]⟩ : Shape).Idx → α} (h : ∀ r j, f (ix2 r j) = g (ix2 r j)) : f = g :=
  funext fun y => by rw [eq_ix2 y]; exact h _ _

theorem x_row (c : Dev nD) (t : Fin cfg0.N) (r : Fin 5000) (k : Fin 200) :
    iblk0 V c 0 t (ix2 r k) = V c main_v20 (ix2 ⟨t.val * 5000 + r.val, row_lt (tlt t) r⟩ k) :=
  congrArg (V c main_v20) (Shape.idx_ext₂ ((win0_0.rect_emb_val t _ 0).trans (by rw [(offs t).1]; rfl))
    (win0_0.rect_emb_val_of_index_zero t 1 (congrFun (offs t).1 1) _))
theorem w_eq (c : Dev nD) (t : Fin cfg0.N) : iblk0 V c 1 t = V c main_arg4 := View.ld_unit_zero (off0 _ (offs t).2.1) _ _
theorem b_eq (c : Dev nD) (t : Fin cfg0.N) : iblk0 V c 2 t = V c main_v23 := View.ld_unit_zero (off0 _ (offs t).2.2.1) _ _

-- By induction on the point: each point adds its tile's column sums to what the point before left.
theorem acc_eq (c : Dev nD) (j : Fin 128) : ∀ (n : ℕ) (h : n < cfg0.N),
    (outsAt0 V c n h).2.1 (ix2 0 j) = ∑ s ∈ Finset.range (n + 1), Cert.TileSums.tileSum 10 5000 (colF (Za V c) j) s ∧
    (outsAt0 V c n h).2.2 (ix2 0 j)
      = ∑ s ∈ Finset.range (n + 1), Cert.TileSums.tileSum 10 5000 (colF (mulf (Za V c) (Za V c)) j) s
  | 0, h => by
    rw [outs_A V c ⟨0, h⟩ rfl, w_eq, b_eq]
    dsimp only
    rw [pay4_apply, pay5_apply, pay1_apply, pay2_apply, Cert.TileSums.acc_zero, Cert.TileSums.acc_zero, zero_add, zero_add]
    exact ⟨pay3_tileSum _ _ _ _ (tlt ⟨0, h⟩) (x_row V c _) j, pay3_tileSumSq _ _ _ _ (tlt ⟨0, h⟩) (x_row V c _) j⟩
  | n + 1, h => by
    rw [outs_B V c ⟨n + 1, h⟩ (by have := tlt ⟨n + 1, h⟩; dsimp only at this ⊢; omega), w_eq, b_eq]
    dsimp only
    rw [pay4_apply, pay5_apply, Cert.TileSums.acc_succ, Cert.TileSums.acc_succ]
    exact ⟨congrArg₂ (· + ·) (acc_eq c j n _).1 (pay3_tileSum _ _ _ _ (tlt ⟨n + 1, h⟩) (x_row V c _) j),
      congrArg₂ (· + ·) (acc_eq c j n _).2 (pay3_tileSumSq _ _ _ _ (tlt ⟨n + 1, h⟩) (x_row V c _) j)⟩

-- Tile t of the map is the map of rows t · 5000 … of X, and the ten tiles cover the 50000 rows.
theorem out3 (c : Dev nD) : (dat0 V c).arrAt 3 cfg0.N = Cert.Spec.lin200 (V c main_v20) (V c main_arg4) (V c main_v23) := by
  refine (dat0 V c).arrAt_eq_of_cover 3 (Za V c) (fun t _ => ext2 (n0 := 5000) (n1 := 128) fun r j => ?_) fun i => ?_
  · have e : (outsAt0 V c t.val t.isLt).1 = k0_pay3 (iblk0 V c 0 t) (V c main_arg4) (V c main_v23) := by
      by_cases h0 : t.val % 10 = 0
      · rw [outs_A V c t h0, w_eq, b_eq]
      · rw [outs_B V c t h0, w_eq, b_eq]
    exact (congrFun e _).trans ((pay3_tile _ _ _ _ (tlt t) (x_row V c t) r j).trans (congrArg (Za V c)
      (Shape.idx_ext₂ ((win0_3.rect_emb_val t (ix2 r j) 0).trans (by rw [(offs t).2.2.2.1]; rfl)).symm
        (win0_3.rect_emb_val_of_index_zero t 1 (congrFun (offs t).2.2.2.1 1) (ix2 r j)).symm)))
  · have ht : (i 0).val / 5000 < cfg0.N := by
      rw [show cfg0.N = 10 from N_0]; have : (i 0).val < 50000 := (i 0).isLt; omega
    refine ⟨⟨_, ht⟩, flush0_3 _, mem_blk (Rect.mem_set_unit.mpr ?_)⟩
    rw [(offs _).2.2.2.1]
    exact fun a => match a with
      | ⟨0, _⟩ => ⟨Nat.div_mul_le_self _ _, Nat.lt_div_mul_add (by decide)⟩
      | ⟨1, _⟩ => ⟨Nat.zero_le _, (i 1).isLt⟩

theorem n9 : 9 < cfg0.N := by rw [show cfg0.N = 10 from N_0]; decide

theorem out4 (c : Dev nD) : (dat0 V c).arrAt 4 cfg0.N = Cert.Spec.sumRow (Cert.Spec.lin200 (V c main_v20) (V c main_arg4) (V c main_v23)) := by
  refine (dat0 V c).arrAt_eq_of_cover 4 (Cert.Spec.sumRow (Za V c)) (fun t hf => ?_) fun i =>
    ⟨⟨9, n9⟩, (flush0_4 _).mpr rfl, mem_blk (View.mem_set_unit_zero (off0 _ (offs _).2.2.2.2.1) _ i)⟩
  have e : ∀ G, ((cfg0.win 4).blk t).view.read (Elt Ideal) G = G := fun G => View.ld_unit_zero (off0 _ (offs t).2.2.2.2.1) _ G
  rw [e]
  refine ext2 (n0 := 1) (n1 := 128) fun p j => ?_
  obtain rfl : p = 0 := Subsingleton.elim _ _
  exact (acc_eq V c j t.val t.isLt).1.trans (by
    rw [sumRow_tiles, show t.val + 1 = 10 by have := (flush0_4 t).mp hf; have := tlt t; omega])

theorem out5 (c : Dev nD) : (dat0 V c).arrAt 5 cfg0.N = Cert.Spec.sqRow (Cert.Spec.lin200 (V c main_v20) (V c main_arg4) (V c main_v23)) := by
  refine (dat0 V c).arrAt_eq_of_cover 5 (Cert.Spec.sqRow (Za V c)) (fun t hf => ?_) fun i =>
    ⟨⟨9, n9⟩, (flush0_5 _).mpr rfl, mem_blk (View.mem_set_unit_zero (off0 _ (offs _).2.2.2.2.2) _ i)⟩
  have e : ∀ G, ((cfg0.win 5).blk t).view.read (Elt Ideal) G = G := fun G => View.ld_unit_zero (off0 _ (offs t).2.2.2.2.2) _ G
  rw [e]
  refine ext2 (n0 := 1) (n1 := 128) fun p j => ?_
  obtain rfl : p = 0 := Subsingleton.elim _ _
  exact (acc_eq V c j t.val t.isLt).2.trans (by
    rw [sqRow_tiles, show t.val + 1 = 10 by have := (flush0_5 t).mp hf; have := tlt t; omega])

end Cert.KernelIdeal.LS0

end
-- ==== Proof.NMS1Pieces.lean ====
import proofs.«410724_j86964497809599_1_alg».proof.Proof.Gen.KernelIdeal.Frame
import proofs.«410724_j86964497809599_1_alg».proof.Proof.NMSPay1
import proofs.«410724_j86964497809599_1_alg».proof.Proof.TileSums
import Idealize.ShloMosaic.Lib.Pipeline.Value
import Idealize.ShloMosaic.Lib.Tactic

set_option maxRecDepth 16384

noncomputable section

namespace Cert.KernelIdeal.NMS1

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

variable {F : FTy → Type} [FloatOps F] (c : Dev nD) (i : grid1.Coords)
  (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole)
  (x0 : Vec F S5000x128 .f32) (x1 x2 x3 x4 : Vec F S1x128 .f32) (x5 : Vec F S128x128 .f32) (x6 : Vec F S1x128 .f32)

-- First point: the three outputs are the body's payloads of the input blocks, the rows of sums started from the zero rows.
theorem tile_A (hc : cond1_0 i) :
    out1_A_7 c i a1 h1 a2 h2 a3 h3 a4 h4 a5 h5 a6 h6 a7 h7 a8 h8 a9 h9 a10 h10 hc x0 x1 x2 x3 x4 x5 x6 = k1_pay5 x0 x2 x1 x3 x4 x5 x6 := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz]

theorem sum_A (hc : cond1_0 i) :
    out1_A_8 c i a1 h1 a2 h2 a3 h3 a4 h4 a5 h5 a6 h6 a7 h7 a8 h8 a9 h9 a10 h10 hc x0 x1 x2 x3 x4 x5 x6 = k1_pay1 (k1_pay5 x0 x2 x1 x3 x4 x5 x6) (k1_pay3 (F := F)) := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz, View.readCov_unit_zero (S := S1x128) _ hz]

theorem sq_A (hc : cond1_0 i) :
    out1_A_9 c i a1 h1 a2 h2 a3 h3 a4 h4 a5 h5 a6 h6 a7 h7 a8 h8 a9 h9 a10 h10 hc x0 x1 x2 x3 x4 x5 x6 = k1_pay2 (k1_pay5 x0 x2 x1 x3 x4 x5 x6) (k1_pay4 (F := F)) := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz, View.readCov_unit_zero (S := S1x128) _ hz]

-- Later points: the same, the rows of sums continued from what they held.
theorem tile_B (hc : ¬cond1_0 i) (xo8 xo9 : Vec F S1x128 .f32) :
    out1_B_7 c i a1 h1 a2 h2 a3 h3 a4 h4 a5 h5 a6 h6 a7 h7 a8 h8 a9 h9 a10 h10 hc x0 x1 x2 x3 x4 x5 x6 xo8 xo9 = k1_pay5 x0 x2 x1 x3 x4 x5 x6 := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

theorem sum_B (hc : ¬cond1_0 i) (xo8 xo9 : Vec F S1x128 .f32) :
    out1_B_8 c i a1 h1 a2 h2 a3 h3 a4 h4 a5 h5 a6 h6 a7 h7 a8 h8 a9 h9 a10 h10 hc x0 x1 x2 x3 x4 x5 x6 xo8 xo9 = k1_pay1 (k1_pay5 x0 x2 x1 x3 x4 x5 x6) xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

theorem sq_B (hc : ¬cond1_0 i) (xo8 xo9 : Vec F S1x128 .f32) :
    out1_B_9 c i a1 h1 a2 h2 a3 h3 a4 h4 a5 h5 a6 h6 a7 h7 a8 h8 a9 h9 a10 h10 hc x0 x1 x2 x3 x4 x5 x6 xo8 xo9 = k1_pay2 (k1_pay5 x0 x2 x1 x3 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

end Cert.KernelIdeal.NMS1

end
-- ==== Proof.NMS1.lean ====
import proofs.«410724_j86964497809599_1_alg».proof.Proof.NMS1Pieces

set_option maxRecDepth 16384

noncomputable section

namespace Cert.KernelIdeal.NMS1

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.TileSums

variable (V : (c : Dev nD) → (b : Ref sig .tc) → Buf (Elt Ideal) ((c : Thread nD τ).loc b))

-- The specification's output: the second linear map of the clamped normalisation.
abbrev Y (c : Dev nD) : Cert.Spec.M Cert.ReferenceIdeal.S50000x128 :=
  Cert.Spec.lin128 (Cert.Spec.bnreluK (V c main_v41_0) (V c main_v43) (V c main_v47) (V c main_v26) (V c main_v29)) (V c main_v31) (V c main_v34)

-- The body's arithmetic of point t's input blocks.
abbrev tile (c : Dev nD) (t : Fin cfg1.N) : FVec Ideal S5000x128 .f32 :=
  k1_pay5 (F := Ideal) (iblk1 V c 0 t) (iblk1 V c 2 t) (iblk1 V c 1 t) (iblk1 V c 3 t) (iblk1 V c 4 t) (iblk1 V c 5 t) (iblk1 V c 6 t)

theorem lt_ten (t : Fin cfg1.N) : t.val < 10 := lt_of_lt_of_eq t.isLt (show cfg1.N = 10 from N_1)

theorem row_lt (t : Fin cfg1.N) (p : Fin 5000) : t.val * 5000 + p.val < 50000 := by
  have := lt_ten t; have := p.isLt; omega

abbrev tLast : Fin cfg1.N := ⟨9, by rw [show cfg1.N = 10 from N_1]; decide⟩

-- The two row-tiled windows sit at block (t, 0).
theorem idxT : ∀ t : Fin cfg1.N, (win1_0.index t (0 : Fin 2) = t.val ∧ win1_0.index t (1 : Fin 2) = 0)
    ∧ win1_7.index t (0 : Fin 2) = t.val ∧ win1_7.index t (1 : Fin 2) = 0 :=
  (by decide +kernel : ∀ t : Fin grid1.N, _)

-- Every other window sits at block (0, 0).
theorem idx0 : ∀ t : Fin cfg1.N, (∀ a : Fin 2, win1_1.index t a = 0) ∧ (∀ a : Fin 2, win1_2.index t a = 0)
    ∧ (∀ a : Fin 2, win1_3.index t a = 0) ∧ (∀ a : Fin 2, win1_4.index t a = 0) ∧ (∀ a : Fin 2, win1_5.index t a = 0)
    ∧ (∀ a : Fin 2, win1_6.index t a = 0) ∧ (∀ a : Fin 2, win1_8.index t a = 0) ∧ ∀ a : Fin 2, win1_9.index t a = 0 :=
  (by decide +kernel : ∀ t : Fin grid1.N, _)

theorem off0 {i s : Fin 2 → ℕ} (h : ∀ a, i a = 0) : (fun a => i a * s a) = fun _ => 0 :=
  funext fun a => by rw [h a, Nat.zero_mul]

-- Entry (p, k) of block t of the first input is entry (5000 t + p, k) of its array.
theorem blk0_apply (c : Dev nD) (t : Fin cfg1.N) (p : Fin 5000) (k : Fin 128) :
    (iblk1 V c 0 t : FVec Ideal S5000x128 .f32) (ix2 p k) = V c main_v41_0 (ix2 (⟨t.val * 5000 + p.val, row_lt t p⟩ : Fin 50000) k) := by
  obtain ⟨⟨e0, e1⟩, -⟩ := idxT t
  show V c main_v41_0 (((cfg1.win 0).blk t).view.emb (ix2 p k)) = V c main_v41_0 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

-- The tile the body computes at point t is rows 5000 t … 5000 t + 4999 of the specification's output.
theorem tile_apply (c : Dev nD) (t : Fin cfg1.N) (p : Fin 5000) (q : Fin 128) :
    tile V c t (ix2 p q) = Y V c (ix2 (⟨t.val * 5000 + p.val, row_lt t p⟩ : Fin 50000) q) := by
  obtain ⟨e1, e2, e3, e4, e5, e6, -⟩ := idx0 t
  refine (NMSPay1.pay5_apply _ _ _ _ _ _ _ p q).trans ?_
  refine Eq.trans ?_ (Cert.SpecAt.lin128_apply _ _ _ ⟨_, row_lt t p⟩ q).symm
  refine congrArg₂ (fun a b : EReal => a + b) (Finset.sum_congr rfl fun k _ => ?_)
    (congrFun (Memref.read_access_unit_zero (Elt Ideal) main_v34 (off0 e6) _ (V c main_v34)) _)
  refine congrArg₂ (fun a b : EReal => a * b) ?_
    (congrFun (Memref.read_access_unit_zero (Elt Ideal) main_v31 (off0 e5) _ (V c main_v31)) _)
  refine Eq.trans ?_ (Cert.SpecAt.bnreluK_apply _ _ _ _ _ ⟨_, row_lt t p⟩ k).symm
  rw [blk0_apply V c t p k]
  exact congr (congr (congr (congrArg (Cert.SpecAt.bnrelu1 _)
    (congrFun (Memref.read_access_unit_zero (Elt Ideal) main_v43 (off0 e1) _ (V c main_v43)) _))
    (congrFun (Memref.read_access_unit_zero (Elt Ideal) main_v47 (off0 e2) _ (V c main_v47)) _))
    (congrFun (Memref.read_access_unit_zero (Elt Ideal) main_v26 (off0 e3) _ (V c main_v26)) _))
    (congrFun (Memref.read_access_unit_zero (Elt Ideal) main_v29 (off0 e4) _ (V c main_v29)) _)

theorem tile_at (c : Dev nD) (t : Fin cfg1.N) (j : S5000x128.Idx) :
    tile V c t j = Y V c (ix2 (⟨t.val * 5000 + (j 0).val, row_lt t (j 0)⟩ : Fin 50000) (j 1)) := by
  obtain ⟨p, q, rfl⟩ : ∃ (p : Fin 5000) (q : Fin 128), j = ix2 p q := ⟨j 0, j 1, eq_ix2 j⟩
  exact tile_apply V c t p q

-- At the first point the rows of sums are the zero rows plus the tile's column sums.
theorem outs_first (c : Dev nD) (t : Fin cfg1.N) (h0 : t.val % 10 = 0) :
    outsAt1 V c t.val t.isLt = (tile V c t, k1_pay1 (tile V c t) (k1_pay3 (F := Ideal)), k1_pay2 (tile V c t) (k1_pay4 (F := Ideal))) := by
  rw [outsAt1_A V c t h0]
  exact congrArg₂ Prod.mk (tile_A ..) (congrArg₂ Prod.mk (sum_A ..) (sq_A ..))

-- At a later point they are what the point before left plus the tile's column sums.
theorem outs_next (c : Dev nD) (t : Fin cfg1.N) (h0 : ¬t.val % 10 = 0) :
    outsAt1 V c t.val t.isLt = (tile V c t,
      k1_pay1 (tile V c t) (outsAt1 V c (t.val - 1) (Nat.lt_of_le_of_lt (Nat.sub_le _ _) t.isLt)).2.1,
      k1_pay2 (tile V c t) (outsAt1 V c (t.val - 1) (Nat.lt_of_le_of_lt (Nat.sub_le _ _) t.isLt)).2.2) := by
  rw [outsAt1_B V c t h0]
  exact congrArg₂ Prod.mk (tile_B ..) (congrArg₂ Prod.mk (sum_B ..) (sq_B ..))

theorem after_tile (c : Dev nD) (t : Fin cfg1.N) : (outsAt1 V c t.val t.isLt).1 = tile V c t := by
  by_cases h0 : t.val % 10 = 0
  · rw [outs_first V c t h0]
  · rw [outs_next V c t h0]

-- Column q of the specification's output under f, row by row.
def col (c : Dev nD) (f : EReal → EReal) (q : Fin 128) : Fin (10 * 5000) → EReal := fun r => f (Y V c (ix2 (r : Fin 50000) q))

theorem tile_col (c : Dev nD) (f : EReal → EReal) (t : Fin cfg1.N) (q : Fin 128) :
    ∑ p : Fin 5000, f (tile V c t (ix2 p q)) = tileSum 10 5000 (col V c f q) t.val := by
  rw [tileSum_of_lt 10 5000 _ (lt_ten t)]
  exact Finset.sum_congr rfl fun p _ => congrArg f (tile_apply V c t p q)

-- A row that starts at the first tile's column sums of f and grows by each later tile's holds, after point n, those of the first n + 1 tiles.
theorem acc (c : Dev nD) (f : EReal → EReal) (r : (n : ℕ) → n < cfg1.N → FVec Ideal S1x128 .f32)
    (h0 : ∀ h q, r 0 h (ix2 (0 : Fin 1) q) = ∑ p : Fin 5000, f (tile V c ⟨0, h⟩ (ix2 p q)))
    (hs : ∀ n h q, r (n + 1) h (ix2 (0 : Fin 1) q)
      = r n (Nat.lt_of_succ_lt h) (ix2 (0 : Fin 1) q) + ∑ p : Fin 5000, f (tile V c ⟨n + 1, h⟩ (ix2 p q)))
    (q : Fin 128) : ∀ n h, r n h (ix2 (0 : Fin 1) q) = ∑ s ∈ Finset.range (n + 1), tileSum 10 5000 (col V c f q) s
  | 0, h => by rw [h0, acc_zero]; exact tile_col V c f ⟨0, h⟩ q
  | n + 1, h => by rw [hs, acc c f r h0 hs q n, acc_succ]; exact congrArg _ (tile_col V c f ⟨n + 1, h⟩ q)

-- So after the last point it is the row R of whole-column sums of f.
theorem last (c : Dev nD) (f : EReal → EReal) (r : (n : ℕ) → n < cfg1.N → FVec Ideal S1x128 .f32)
    (h0 : ∀ h q, r 0 h (ix2 (0 : Fin 1) q) = ∑ p : Fin 5000, f (tile V c ⟨0, h⟩ (ix2 p q)))
    (hs : ∀ n h q, r (n + 1) h (ix2 (0 : Fin 1) q)
      = r n (Nat.lt_of_succ_lt h) (ix2 (0 : Fin 1) q) + ∑ p : Fin 5000, f (tile V c ⟨n + 1, h⟩ (ix2 p q)))
    (R : Cert.Spec.M Cert.ReferenceIdeal.S1x128) (hR : ∀ q, R (ix2 (0 : Fin 1) q) = ∑ i : Fin 50000, f (Y V c (ix2 i q))) :
    r 9 tLast.isLt = R := by
  funext j
  obtain ⟨z, q, rfl⟩ : ∃ (z : Fin 1) (q : Fin 128), j = ix2 z q := ⟨j 0, j 1, eq_ix2 j⟩
  obtain rfl : z = 0 := Subsingleton.elim _ _
  rw [acc V c f r h0 hs q 9, hR]
  exact (sum_eq_range 10 5000 (col V c f q)).symm

theorem not_first {n : ℕ} (h : n + 1 < cfg1.N) : ¬(n + 1) % 10 = 0 := by
  have hN : cfg1.N = 10 := N_1
  omega

theorem last_sum (c : Dev nD) : (outsAt1 V c tLast.val tLast.isLt).2.1 = Cert.Spec.sumRow (Y V c) :=
  last V c (fun x => x) (fun n h => (outsAt1 V c n h).2.1)
    (fun h q => by
      rw [outs_first V c ⟨0, h⟩ rfl]
      exact (NMSPay1.pay1_apply _ _ q).trans (by rw [NMSPay1.pay3_apply, zero_add]))
    (fun n h q => by
      rw [outs_next V c ⟨n + 1, h⟩ (not_first h)]
      exact NMSPay1.pay1_apply _ _ q)
    _ (Cert.SpecAt.sumRow_apply _)

theorem last_sq (c : Dev nD) : (outsAt1 V c tLast.val tLast.isLt).2.2 = Cert.Spec.sqRow (Y V c) :=
  last V c (fun x => x * x) (fun n h => (outsAt1 V c n h).2.2)
    (fun h q => by
      rw [outs_first V c ⟨0, h⟩ rfl]
      exact (NMSPay1.pay2_apply _ _ q).trans (by rw [NMSPay1.pay4_apply, zero_add]))
    (fun n h q => by
      rw [outs_next V c ⟨n + 1, h⟩ (not_first h)]
      exact NMSPay1.pay2_apply _ _ q)
    _ (Cert.SpecAt.sqRow_apply _)

theorem flushed7_eq (c : Dev nD) (t : Fin cfg1.N) :
    (dat1 V c).flushed 7 t = ((cfg1.win 7).blk t).view.read (Elt Ideal) (Y V c) := by
  obtain ⟨-, e0, e1⟩ := idxT t
  show (cfg1.win 7).cut (grid1.coords t) ((dat1 V c).after 7 t) = _
  rw [after1_7, after_tile V c t]
  funext j
  refine (tile_at V c t j).trans ?_
  show Y V c _ = Y V c (((cfg1.win 7).blk t).view.emb j)
  congr 1
  funext a
  apply Fin.ext
  match a with
  | ⟨0, _⟩ => show t.val * 5000 + (j 0).val = win1_7.index t (0 : Fin 2) * 5000 + 1 * (j 0).val; rw [e0]; omega
  | ⟨1, _⟩ => show (j 1).val = win1_7.index t (1 : Fin 2) * 128 + 1 * (j 1).val; rw [e1]; omega

theorem out7 (c : Dev nD) : (dat1 V c).arrAt 7 cfg1.N = Cert.Spec.lin128 (Cert.Spec.bnreluK (V c main_v41_0) (V c main_v43) (V c main_v47) (V c main_v26) (V c main_v29)) (V c main_v31) (V c main_v34) :=
  (dat1 V c).arrAt_eq_of_cover 7 (Y V c) (fun t _ => flushed7_eq V c t) fun i => by
    have hi0 : (i 0).val < 50000 := (i 0).isLt
    have hi1 : (i 1).val < 128 := (i 1).isLt
    have ht : (i 0).val / 5000 < cfg1.N := by rw [show cfg1.N = 10 from N_1]; omega
    obtain ⟨-, e0, e1⟩ := idxT ⟨_, ht⟩
    refine ⟨⟨_, ht⟩, flush1_7 _, ?_⟩
    show i ∈ ((View.whole main_v48_0).slice (win1_7.rect ⟨_, ht⟩)).set
    rw [View.set_slice_whole, Rect.mem_set_unit]
    intro a
    match a with
    | ⟨0, _⟩ =>
      show win1_7.index _ (0 : Fin 2) * 5000 ≤ (i 0).val ∧ (i 0).val < win1_7.index _ (0 : Fin 2) * 5000 + 5000
      rw [e0]; dsimp only; omega
    | ⟨1, _⟩ =>
      show win1_7.index _ (1 : Fin 2) * 128 ≤ (i 1).val ∧ (i 1).val < win1_7.index _ (1 : Fin 2) * 128 + 128
      rw [e1]; omega

theorem out_last (c : Dev nD) (w : Fin cfg1.W) (G : Buf (Elt Ideal) ((cfg1.win w).arr.view.loc (c : Thread nD τ)))
    (hf : ∀ t : Fin cfg1.N, (cfg1.win w).flush t = true ↔ t.val % 10 = 9)
    (hG : (dat1 V c).flushed w tLast = ((cfg1.win w).blk tLast).view.read (Elt Ideal) G)
    (hc : ∀ i, i ∈ ((cfg1.win w).blk tLast).view.set) : (dat1 V c).arrAt w cfg1.N = G :=
  (dat1 V c).arrAt_eq_of_cover w G
    (fun t h => by
      obtain rfl : t = tLast := Fin.ext (show t.val = 9 by have := (hf t).mp h; have := lt_ten t; omega)
      exact hG)
    fun i => ⟨tLast, (hf tLast).mpr rfl, hc i⟩

theorem out8 (c : Dev nD) : (dat1 V c).arrAt 8 cfg1.N = Cert.Spec.sumRow (Cert.Spec.lin128 (Cert.Spec.bnreluK (V c main_v41_0) (V c main_v43) (V c main_v47) (V c main_v26) (V c main_v29)) (V c main_v31) (V c main_v34)) := by
  obtain ⟨-, -, -, -, -, -, e, -⟩ := idx0 tLast
  refine out_last V c 8 _ flush1_8 ?_ fun i => ?_
  · show (cfg1.win 8).cut (grid1.coords tLast) ((dat1 V c).after 8 tLast) = _
    rw [after1_8, last_sum V c]
    exact (Memref.read_access_unit_zero (Elt Ideal) main_v48_1 (off0 e) _ _).symm
  · show i ∈ ((View.whole main_v48_1).slice (win1_8.rect tLast)).set
    rw [View.set_slice_whole]
    exact View.mem_set_unit_zero (off0 e) _ i

theorem out9 (c : Dev nD) : (dat1 V c).arrAt 9 cfg1.N = Cert.Spec.sqRow (Cert.Spec.lin128 (Cert.Spec.bnreluK (V c main_v41_0) (V c main_v43) (V c main_v47) (V c main_v26) (V c main_v29)) (V c main_v31) (V c main_v34)) := by
  obtain ⟨-, -, -, -, -, -, -, e⟩ := idx0 tLast
  refine out_last V c 9 _ flush1_9 ?_ fun i => ?_
  · show (cfg1.win 9).cut (grid1.coords tLast) ((dat1 V c).after 9 tLast) = _
    rw [after1_9, last_sq V c]
    exact (Memref.read_access_unit_zero (Elt Ideal) main_v48_2 (off0 e) _ _).symm
  · show i ∈ ((View.whole main_v48_2).slice (win1_9.rect tLast)).set
    rw [View.set_slice_whole]
    exact View.mem_set_unit_zero (off0 e) _ i

end Cert.KernelIdeal.NMS1

end
-- ==== Proof.NR2.lean ====
import proofs.«410724_j86964497809599_1_alg».proof.Proof.Gen.KernelIdeal.Frame
import proofs.«410724_j86964497809599_1_alg».proof.Proof.SpecAt
import Idealize.ShloMosaic.Lib.ValueIdx
import Idealize.ShloMosaic.Lib.ValueLayout
import Idealize.ShloMosaic.Lib.Pipeline.Value

set_option maxRecDepth 16384

noncomputable section

namespace Cert.KernelIdeal.NR2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.SpecAt (bnrelu1 bnreluK_apply)

variable (V : (c : Dev nD) → (b : Ref sig .tc) → Buf (Elt Ideal) ((c : Thread nD τ).loc b))

theorem hz : (![0, 0] : Fin 2 → Nat) = fun _ => 0 := funext fun a => by fin_cases a <;> rfl

-- The body is pointwise: entry (p, q) depends on z (p, q) and on column q of the four one-row operands.
theorem pay_apply (z : Vec Ideal S5000x128 .f32) (va mean g be : Vec Ideal S1x128 .f32) (p : Fin 5000) (q : Fin 128) :
    k2_pay1 z va mean g be (ix2 p q)
      = bnrelu1 (z (ix2 p q)) (mean (ix2 (0 : Fin 1) q)) (va (ix2 (0 : Fin 1) q)) (g (ix2 (0 : Fin 1) q)) (be (ix2 (0 : Fin 1) q)) := by
  unfold k2_pay1
  simp only [shapeCast_self]
  simp only [maximumf_apply, addf_apply, mulf_apply, subf_apply, broadcast_apply, broadcastTo_1b_ab_apply, rsqrt,
    Ideal.rsqrt_def, Ideal.ofBits_def]
  rfl

theorem idx_tile : ∀ t : Fin cfg2.N,
    win2_0.index t (0 : Fin 2) = t.val ∧ win2_0.index t (1 : Fin 2) = 0
    ∧ win2_5.index t (0 : Fin 2) = t.val ∧ win2_5.index t (1 : Fin 2) = 0 :=
  (by decide +kernel : ∀ t : Fin grid2.N, _)

theorem idx_row : ∀ (t : Fin cfg2.N) (a : Fin 2),
    win2_1.index t a = 0 ∧ win2_2.index t a = 0 ∧ win2_3.index t a = 0 ∧ win2_4.index t a = 0 :=
  (by decide +kernel : ∀ t : Fin grid2.N, _)

-- Block t of a 5000-row window starts at row 5000 t.
theorem emb5 (t : Fin cfg2.N) (p : Fin 5000) (q : Fin 128) (r : Fin 50000) (hr : r.val = 5000 * t.val + p.val) :
    ((cfg2.win 5).blk t).view.emb (ix2 p q) = (ix2 r q : S50000x128.Idx) := by
  obtain ⟨-, -, e0, e1⟩ := idx_tile t
  funext a; apply Fin.ext
  match a with
  | ⟨0, _⟩ => show win2_5.index t (0 : Fin 2) * 5000 + 1 * p.val = r.val; omega
  | ⟨1, _⟩ => show win2_5.index t (1 : Fin 2) * 128 + 1 * q.val = q.val; omega

theorem emb0 (t : Fin cfg2.N) (p : Fin 5000) (q : Fin 128) (r : Fin 50000) (hr : r.val = 5000 * t.val + p.val) :
    ((cfg2.win 0).blk t).view.emb (ix2 p q) = (ix2 r q : S50000x128.Idx) := by
  obtain ⟨e0, e1, -⟩ := idx_tile t
  funext a; apply Fin.ext
  match a with
  | ⟨0, _⟩ => show win2_0.index t (0 : Fin 2) * 5000 + 1 * p.val = r.val; omega
  | ⟨1, _⟩ => show win2_0.index t (1 : Fin 2) * 128 + 1 * q.val = q.val; omega

theorem zblk_apply (c : Dev nD) (t : Fin cfg2.N) (p : Fin 5000) (q : Fin 128) (r : Fin 50000) (hr : r.val = 5000 * t.val + p.val) :
    (iblk2 V c 0 t : Vec Ideal S5000x128 .f32) (ix2 p q) = (V c main_v48_0 : S50000x128.Idx → EReal) (ix2 r q) := by
  show (V c main_v48_0 : S50000x128.Idx → EReal) (((cfg2.win 0).blk t).view.emb (ix2 p q)) = _
  exact congrArg _ (emb0 t p q r hr)

-- A one-row window sits at block index 0 on both axes, so its block is its whole array.
theorem mblk_apply (c : Dev nD) (t : Fin cfg2.N) (q : Fin 128) :
    (iblk2 V c 1 t : Vec Ideal S1x128 .f32) (ix2 (0 : Fin 1) q) = (V c main_v50 : S1x128.Idx → EReal) (ix2 (0 : Fin 1) q) := by
  show (V c main_v50 : S1x128.Idx → EReal) (((cfg2.win 1).blk t).view.emb (ix2 (0 : Fin 1) q)) = _
  exact congrArg (V c main_v50 : S1x128.Idx → EReal)
    (funext fun a => Fin.ext (win2_1.rect_emb_val_of_index_zero t a (idx_row t a).1 (ix2 (0 : Fin 1) q)))
theorem vblk_apply (c : Dev nD) (t : Fin cfg2.N) (q : Fin 128) :
    (iblk2 V c 2 t : Vec Ideal S1x128 .f32) (ix2 (0 : Fin 1) q) = (V c main_v54 : S1x128.Idx → EReal) (ix2 (0 : Fin 1) q) := by
  show (V c main_v54 : S1x128.Idx → EReal) (((cfg2.win 2).blk t).view.emb (ix2 (0 : Fin 1) q)) = _
  exact congrArg (V c main_v54 : S1x128.Idx → EReal)
    (funext fun a => Fin.ext (win2_2.rect_emb_val_of_index_zero t a (idx_row t a).2.1 (ix2 (0 : Fin 1) q)))
theorem gblk_apply (c : Dev nD) (t : Fin cfg2.N) (q : Fin 128) :
    (iblk2 V c 3 t : Vec Ideal S1x128 .f32) (ix2 (0 : Fin 1) q) = (V c main_v37 : S1x128.Idx → EReal) (ix2 (0 : Fin 1) q) := by
  show (V c main_v37 : S1x128.Idx → EReal) (((cfg2.win 3).blk t).view.emb (ix2 (0 : Fin 1) q)) = _
  exact congrArg (V c main_v37 : S1x128.Idx → EReal)
    (funext fun a => Fin.ext (win2_3.rect_emb_val_of_index_zero t a (idx_row t a).2.2.1 (ix2 (0 : Fin 1) q)))
theorem bblk_apply (c : Dev nD) (t : Fin cfg2.N) (q : Fin 128) :
    (iblk2 V c 4 t : Vec Ideal S1x128 .f32) (ix2 (0 : Fin 1) q) = (V c main_v40 : S1x128.Idx → EReal) (ix2 (0 : Fin 1) q) := by
  show (V c main_v40 : S1x128.Idx → EReal) (((cfg2.win 4).blk t).view.emb (ix2 (0 : Fin 1) q)) = _
  exact congrArg (V c main_v40 : S1x128.Idx → EReal)
    (funext fun a => Fin.ext (win2_4.rect_emb_val_of_index_zero t a (idx_row t a).2.2.2 (ix2 (0 : Fin 1) q)))

abbrev G (c : Dev nD) : Cert.Spec.M Cert.ReferenceIdeal.S50000x128 :=
  Cert.Spec.bnreluK (V c main_v48_0) (V c main_v50) (V c main_v54) (V c main_v37) (V c main_v40)

theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have ht : t.val < 10 := lt_of_lt_of_eq (show t.val < grid2.N from t.isLt) N_2
  have hp : p.val < 5000 := p.isLt
  let r : Fin 50000 := ⟨5000 * t.val + p.val, by omega⟩
  show k2_pay1 (iblk2 V c 0 t) (iblk2 V c 2 t) (iblk2 V c 1 t) (iblk2 V c 3 t) (iblk2 V c 4 t) (ix2 p q)
    = G V c (((cfg2.win 5).blk t).view.emb (ix2 p q))
  refine (pay_apply _ _ _ _ _ p q).trans ?_
  refine Eq.trans ?_ (congrArg (G V c) (emb5 t p q r rfl)).symm
  refine Eq.trans ?_ (bnreluK_apply _ _ _ _ _ r q).symm
  rw [zblk_apply V c t p q r rfl, mblk_apply V c t q, vblk_apply V c t q, gblk_apply V c t q, bblk_apply V c t q]

theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v55).slice (win2_5.rect t)).set ↔ _
  rw [View.set_slice_whole, Rect.mem_set_unit]
  exact Iff.rfl

-- Row i lies in the block of point i / 5000.
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨-, -, e0, e1⟩ := idx_tile t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

theorem out5 (c : Dev nD) :
    (dat2 V c).arrAt 5 cfg2.N = Cert.Spec.bnreluK (V c main_v48_0) (V c main_v50) (V c main_v54) (V c main_v37) (V c main_v40) :=
  (dat2 V c).arrAt_eq_of_cover 5 (G V c) (fun t _ => flushed_eq V c t) cover

end Cert.KernelIdeal.NR2

end
-- ==== Proof.LS3.lean ====
import proofs.«410724_j86964497809599_1_alg».proof.Proof.LS3Math
import proofs.«410724_j86964497809599_1_alg».proof.Proof.Gen.KernelIdeal.Frame
import Idealize.ShloMosaic.Lib.Pipeline.Value
import Idealize.ShloMosaic.Lib.Tactic

set_option maxRecDepth 16384

noncomputable section

namespace Cert.KernelIdeal.LS3

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

abbrev Za (c : Dev nD) : Cert.Spec.M Cert.ReferenceIdeal.S50000x128 :=
  Cert.Spec.lin128 (V c main_v71) (V c main_v73) (V c main_v76)

-- The tile's linear map, and each row of p plus the tile's column sums of the map and of its squares.
abbrev pays x0 x1 x2 (p : FVec Ideal S1x128 .f32 × FVec Ideal S1x128 .f32) :=
  (k3_pay3 (F := Ideal) x0 x1 x2, k3_pay4 x0 x1 x2 p.1, k3_pay5 x0 x1 x2 p.2)

theorem hz : (![0, 0] : Fin 2 → Nat) = fun _ => 0 := funext fun a => by fin_cases a <;> rfl

theorem outs_A (c : Dev nD) (t : Fin cfg3.N) (h0 : t.val % 10 = 0) :
    outsAt3 V c t.val t.isLt = pays (iblk3 V c 0 t) (iblk3 V c 1 t) (iblk3 V c 2 t) (k3_pay1 (F := Ideal), k3_pay2 (F := Ideal)) := by
  rw [outsAt3_A V c t h0]
  unfold out3_A_3 out3_A_4 out3_A_5
  rw [View.read_writes_eq_canon _ _ _ (fun _ => cover3_A_3 ..), View.read_writes_eq_canon _ _ _ (fun _ => cover3_A_4 ..),
    View.read_writes_eq_canon _ _ _ (fun _ => cover3_A_5 ..)]
  unfold kernelRun3_A
  dsimp only
  sl_unfold_words
  repeat rw [View.canon_cons_unit_zero hz]
  repeat rw [View.readCov_unit_zero _ hz]
  simp only [View.readAt_eq_ld, Memref.IsWhole.read_unread]
  repeat rw [View.ld_unit_zero hz]

theorem outs_B (c : Dev nD) (t : Fin cfg3.N) (h0 : ¬t.val % 10 = 0) :
    outsAt3 V c t.val t.isLt
      = pays (iblk3 V c 0 t) (iblk3 V c 1 t) (iblk3 V c 2 t) (outsAt3 V c (t.val - 1) (Nat.sub_lt_of_lt t.isLt)).2 := by
  rw [outsAt3_B V c t h0]
  unfold out3_B_3 out3_B_4 out3_B_5
  rw [View.read_writes_eq_canon _ _ _ (fun _ => cover3_B_3 ..), View.read_writes_eq_canon _ _ _ (fun _ => cover3_B_4 ..),
    View.read_writes_eq_canon _ _ _ (fun _ => cover3_B_5 ..)]
  unfold kernelRun3_B
  dsimp only
  repeat rw [View.canon_cons_unit_zero hz]
  simp only [View.readAt_eq_ld, Memref.IsWhole.read_unread]
  repeat rw [View.ld_unit_zero hz]

theorem tlt (t : Fin cfg3.N) : t.val < 10 := lt_of_lt_of_eq t.isLt (show cfg3.N = 10 from N_3)

theorem offs : ∀ t : Fin cfg3.N, win3_0.index t = ![t.val, 0] ∧ win3_1.index t = (fun _ => 0) ∧ win3_2.index t = (fun _ => 0)
    ∧ win3_3.index t = ![t.val, 0] ∧ win3_4.index t = (fun _ => 0) ∧ win3_5.index t = (fun _ => 0) :=
  (by decide +kernel : ∀ t : Fin grid3.N, _)

theorem off0 {n : ℕ} {ix : Fin n → ℕ} (sz : Fin n → ℕ) (h : ix = fun _ => 0) : (fun a => ix a * sz a) = fun _ => 0 := by
  subst h; exact funext fun _ => Nat.zero_mul _

theorem mem_blk {b : Ref sig .tc} {r : Rect b.ty.shape} {i : b.ty.shape.Idx} (h : i ∈ r.set) :
    i ∈ ((View.whole b).slice r).set := (View.set_slice_whole b r).symm ▸ h

theorem ext2 {n0 n1 : ℕ} {α : Type} {f g : (⟨2, ![n0, n1]⟩ : Shape).Idx → α} (h : ∀ r j, f (ix2 r j) = g (ix2 r j)) : f = g :=
  funext fun y => by rw [eq_ix2 y]; exact h _ _

theorem x_row (c : Dev nD) (t : Fin cfg3.N) (r : Fin 5000) (k : Fin 128) :
    iblk3 V c 0 t (ix2 r k) = V c main_v71 (ix2 ⟨t.val * 5000 + r.val, row_lt (tlt t) r⟩ k) :=
  congrArg (V c main_v71) (Shape.idx_ext₂ ((win3_0.rect_emb_val t _ 0).trans (by rw [(offs t).1]; rfl))
    (win3_0.rect_emb_val_of_index_zero t 1 (congrFun (offs t).1 1) _))
theorem w_eq (c : Dev nD) (t : Fin cfg3.N) : iblk3 V c 1 t = V c main_v73 := View.ld_unit_zero (off0 _ (offs t).2.1) _ _
theorem b_eq (c : Dev nD) (t : Fin cfg3.N) : iblk3 V c 2 t = V c main_v76 := View.ld_unit_zero (off0 _ (offs t).2.2.1) _ _

-- By induction on the point: each point adds its tile's column sums to what the point before left.
theorem acc_eq (c : Dev nD) (j : Fin 128) : ∀ (n : ℕ) (h : n < cfg3.N),
    (outsAt3 V c n h).2.1 (ix2 0 j) = ∑ s ∈ Finset.range (n + 1), Cert.TileSums.tileSum 10 5000 (colF (Za V c) j) s ∧
    (outsAt3 V c n h).2.2 (ix2 0 j)
      = ∑ s ∈ Finset.range (n + 1), Cert.TileSums.tileSum 10 5000 (colF (mulf (Za V c) (Za V c)) j) s
  | 0, h => by
    rw [outs_A V c ⟨0, h⟩ rfl, w_eq, b_eq]
    dsimp only
    rw [pay4_apply, pay5_apply, pay1_apply, pay2_apply, Cert.TileSums.acc_zero, Cert.TileSums.acc_zero, zero_add, zero_add]
    exact ⟨pay3_tileSum _ _ _ _ (tlt ⟨0, h⟩) (x_row V c _) j, pay3_tileSumSq _ _ _ _ (tlt ⟨0, h⟩) (x_row V c _) j⟩
  | n + 1, h => by
    rw [outs_B V c ⟨n + 1, h⟩ (by have := tlt ⟨n + 1, h⟩; dsimp only at this ⊢; omega), w_eq, b_eq]
    dsimp only
    rw [pay4_apply, pay5_apply, Cert.TileSums.acc_succ, Cert.TileSums.acc_succ]
    exact ⟨congrArg₂ (· + ·) (acc_eq c j n _).1 (pay3_tileSum _ _ _ _ (tlt ⟨n + 1, h⟩) (x_row V c _) j),
      congrArg₂ (· + ·) (acc_eq c j n _).2 (pay3_tileSumSq _ _ _ _ (tlt ⟨n + 1, h⟩) (x_row V c _) j)⟩

-- Tile t of the map is the map of rows t · 5000 … of X, and the ten tiles cover the 50000 rows.
theorem out3 (c : Dev nD) : (dat3 V c).arrAt 3 cfg3.N = Cert.Spec.lin128 (V c main_v71) (V c main_v73) (V c main_v76) := by
  refine (dat3 V c).arrAt_eq_of_cover 3 (Za V c) (fun t _ => ext2 (n0 := 5000) (n1 := 128) fun r j => ?_) fun i => ?_
  · have e : (outsAt3 V c t.val t.isLt).1 = k3_pay3 (iblk3 V c 0 t) (V c main_v73) (V c main_v76) := by
      by_cases h0 : t.val % 10 = 0
      · rw [outs_A V c t h0, w_eq, b_eq]
      · rw [outs_B V c t h0, w_eq, b_eq]
    exact (congrFun e _).trans ((pay3_tile _ _ _ _ (tlt t) (x_row V c t) r j).trans (congrArg (Za V c)
      (Shape.idx_ext₂ ((win3_3.rect_emb_val t (ix2 r j) 0).trans (by rw [(offs t).2.2.2.1]; rfl)).symm
        (win3_3.rect_emb_val_of_index_zero t 1 (congrFun (offs t).2.2.2.1 1) (ix2 r j)).symm)))
  · have ht : (i 0).val / 5000 < cfg3.N := by
      rw [show cfg3.N = 10 from N_3]; have : (i 0).val < 50000 := (i 0).isLt; omega
    refine ⟨⟨_, ht⟩, flush3_3 _, mem_blk (Rect.mem_set_unit.mpr ?_)⟩
    rw [(offs _).2.2.2.1]
    exact fun a => match a with
      | ⟨0, _⟩ => ⟨Nat.div_mul_le_self _ _, Nat.lt_div_mul_add (by decide)⟩
      | ⟨1, _⟩ => ⟨Nat.zero_le _, (i 1).isLt⟩

theorem n9 : 9 < cfg3.N := by rw [show cfg3.N = 10 from N_3]; decide

theorem out4 (c : Dev nD) : (dat3 V c).arrAt 4 cfg3.N = Cert.Spec.sumRow (Cert.Spec.lin128 (V c main_v71) (V c main_v73) (V c main_v76)) := by
  refine (dat3 V c).arrAt_eq_of_cover 4 (Cert.Spec.sumRow (Za V c)) (fun t hf => ?_) fun i =>
    ⟨⟨9, n9⟩, (flush3_4 _).mpr rfl, mem_blk (View.mem_set_unit_zero (off0 _ (offs _).2.2.2.2.1) _ i)⟩
  have e : ∀ G, ((cfg3.win 4).blk t).view.read (Elt Ideal) G = G := fun G => View.ld_unit_zero (off0 _ (offs t).2.2.2.2.1) _ G
  rw [e]
  refine ext2 (n0 := 1) (n1 := 128) fun p j => ?_
  obtain rfl : p = 0 := Subsingleton.elim _ _
  exact (acc_eq V c j t.val t.isLt).1.trans (by
    rw [sumRow_tiles, show t.val + 1 = 10 by have := (flush3_4 t).mp hf; have := tlt t; omega])

theorem out5 (c : Dev nD) : (dat3 V c).arrAt 5 cfg3.N = Cert.Spec.sqRow (Cert.Spec.lin128 (V c main_v71) (V c main_v73) (V c main_v76)) := by
  refine (dat3 V c).arrAt_eq_of_cover 5 (Cert.Spec.sqRow (Za V c)) (fun t hf => ?_) fun i =>
    ⟨⟨9, n9⟩, (flush3_5 _).mpr rfl, mem_blk (View.mem_set_unit_zero (off0 _ (offs _).2.2.2.2.2) _ i)⟩
  have e : ∀ G, ((cfg3.win 5).blk t).view.read (Elt Ideal) G = G := fun G => View.ld_unit_zero (off0 _ (offs t).2.2.2.2.2) _ G
  rw [e]
  refine ext2 (n0 := 1) (n1 := 128) fun p j => ?_
  obtain rfl : p = 0 := Subsingleton.elim _ _
  exact (acc_eq V c j t.val t.isLt).2.trans (by
    rw [sqRow_tiles, show t.val + 1 = 10 by have := (flush3_5 t).mp hf; have := tlt t; omega])

end Cert.KernelIdeal.LS3

end
-- ==== Proof.NMSPay4.lean ====
import proofs.«410724_j86964497809599_1_alg».proof.Proof.NMSPay1

namespace Cert.KernelIdeal.NMSPay4

open Cert.KernelIdeal Cert.KernelIdeal.Gen Idealize.ShloMosaic Idealize.ShloMosaic.TcCoe Idealize.ShloMosaic.ValueIdx
open Cert.SpecAt (bnrelu1)

-- This region's payload functions are the same terms as region 1's, so each fact below is region 1's.

theorem pay5_apply (x0 : FVec Ideal S5000x128 .f32) (xvar xmean xg xbe : FVec Ideal S1x128 .f32) (xw : FVec Ideal S128x128 .f32)
    (xb : FVec Ideal S1x128 .f32) (p : Fin 5000) (q : Fin 128) :
    k4_pay5 (F := Ideal) x0 xvar xmean xg xbe xw xb (ix2 p q)
      = (∑ k : Fin 128, bnrelu1 (x0 (ix2 p k)) (xmean (ix2 (0 : Fin 1) k)) (xvar (ix2 (0 : Fin 1) k)) (xg (ix2 (0 : Fin 1) k))
            (xbe (ix2 (0 : Fin 1) k)) * xw (ix2 k q)) + xb (ix2 (0 : Fin 1) q) :=
  NMSPay1.pay5_apply x0 xvar xmean xg xbe xw xb p q

theorem pay1_apply (v : FVec Ideal S5000x128 .f32) (acc : FVec Ideal S1x128 .f32) (q : Fin 128) :
    k4_pay1 (F := Ideal) v acc (ix2 (0 : Fin 1) q) = acc (ix2 (0 : Fin 1) q) + ∑ p : Fin 5000, v (ix2 p q) :=
  NMSPay1.pay1_apply v acc q

theorem pay2_apply (v : FVec Ideal S5000x128 .f32) (acc : FVec Ideal S1x128 .f32) (q : Fin 128) :
    k4_pay2 (F := Ideal) v acc (ix2 (0 : Fin 1) q) = acc (ix2 (0 : Fin 1) q) + ∑ p : Fin 5000, v (ix2 p q) * v (ix2 p q) :=
  NMSPay1.pay2_apply v acc q

theorem pay3_apply (j : S1x128.Idx) : k4_pay3 (F := Ideal) j = 0 := NMSPay1.pay3_apply j
theorem pay4_apply (j : S1x128.Idx) : k4_pay4 (F := Ideal) j = 0 := NMSPay1.pay4_apply j

end Cert.KernelIdeal.NMSPay4
-- ==== Proof.NMS4Pieces.lean ====
import proofs.«410724_j86964497809599_1_alg».proof.Proof.Gen.KernelIdeal.Frame
import proofs.«410724_j86964497809599_1_alg».proof.Proof.NMSPay4
import proofs.«410724_j86964497809599_1_alg».proof.Proof.TileSums
import Idealize.ShloMosaic.Lib.Pipeline.Value
import Idealize.ShloMosaic.Lib.Tactic

set_option maxRecDepth 16384

noncomputable section

namespace Cert.KernelIdeal.NMS4

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

variable {F : FTy → Type} [FloatOps F] (c : Dev nD) (i : grid4.Coords)
  (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole)
  (x0 : Vec F S5000x128 .f32) (x1 x2 x3 x4 : Vec F S1x128 .f32) (x5 : Vec F S128x128 .f32) (x6 : Vec F S1x128 .f32)

-- First point: the three outputs are the body's payloads of the input blocks, the rows of sums started from the zero rows.
theorem tile_A (hc : cond4_0 i) :
    out4_A_7 c i a1 h1 a2 h2 a3 h3 a4 h4 a5 h5 a6 h6 a7 h7 a8 h8 a9 h9 a10 h10 hc x0 x1 x2 x3 x4 x5 x6 = k4_pay5 x0 x2 x1 x3 x4 x5 x6 := by
  unfold out4_A_7
  rw [View.read_writes_eq_canon _ _ _ (cover4_A_7 c i a1 h1 a2 h2 a3 h3 a4 h4 a5 h5 a6 h6 a7 h7 a8 h8 a9 h9 a10 h10 hc x0 x1 x2 x3 x4 x5 x6)]
  unfold kernelRun4_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz]

theorem sum_A (hc : cond4_0 i) :
    out4_A_8 c i a1 h1 a2 h2 a3 h3 a4 h4 a5 h5 a6 h6 a7 h7 a8 h8 a9 h9 a10 h10 hc x0 x1 x2 x3 x4 x5 x6 = k4_pay1 (k4_pay5 x0 x2 x1 x3 x4 x5 x6) (k4_pay3 (F := F)) := by
  unfold out4_A_8
  rw [View.read_writes_eq_canon _ _ _ (cover4_A_8 c i a1 h1 a2 h2 a3 h3 a4 h4 a5 h5 a6 h6 a7 h7 a8 h8 a9 h9 a10 h10 hc x0 x1 x2 x3 x4 x5 x6)]
  unfold kernelRun4_A
  dsimp only
  sl_unfold_words
  rw [View.canon_cons_unit_zero (S := S1x128) hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz, View.readCov_unit_zero (S := S1x128) _ hz]

theorem sq_A (hc : cond4_0 i) :
    out4_A_9 c i a1 h1 a2 h2 a3 h3 a4 h4 a5 h5 a6 h6 a7 h7 a8 h8 a9 h9 a10 h10 hc x0 x1 x2 x3 x4 x5 x6 = k4_pay2 (k4_pay5 x0 x2 x1 x3 x4 x5 x6) (k4_pay4 (F := F)) := by
  unfold out4_A_9
  rw [View.read_writes_eq_canon _ _ _ (cover4_A_9 c i a1 h1 a2 h2 a3 h3 a4 h4 a5 h5 a6 h6 a7 h7 a8 h8 a9 h9 a10 h10 hc x0 x1 x2 x3 x4 x5 x6)]
  unfold kernelRun4_A
  dsimp only
  sl_unfold_words
  rw [View.canon_cons_unit_zero (S := S1x128) hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz, View.readCov_unit_zero (S := S1x128) _ hz]

-- Later points: the same, the rows of sums continued from what they held.
theorem tile_B (hc : ¬cond4_0 i) (xo8 xo9 : Vec F S1x128 .f32) :
    out4_B_7 c i a1 h1 a2 h2 a3 h3 a4 h4 a5 h5 a6 h6 a7 h7 a8 h8 a9 h9 a10 h10 hc x0 x1 x2 x3 x4 x5 x6 xo8 xo9 = k4_pay5 x0 x2 x1 x3 x4 x5 x6 := by
  unfold out4_B_7
  rw [View.read_writes_eq_canon _ _ _ (cover4_B_7 c i a1 h1 a2 h2 a3 h3 a4 h4 a5 h5 a6 h6 a7 h7 a8 h8 a9 h9 a10 h10 hc x0 x1 x2 x3 x4 x5 x6 xo8 xo9)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

theorem sum_B (hc : ¬cond4_0 i) (xo8 xo9 : Vec F S1x128 .f32) :
    out4_B_8 c i a1 h1 a2 h2 a3 h3 a4 h4 a5 h5 a6 h6 a7 h7 a8 h8 a9 h9 a10 h10 hc x0 x1 x2 x3 x4 x5 x6 xo8 xo9 = k4_pay1 (k4_pay5 x0 x2 x1 x3 x4 x5 x6) xo8 := by
  unfold out4_B_8
  rw [View.read_writes_eq_canon _ _ _ (cover4_B_8 c i a1 h1 a2 h2 a3 h3 a4 h4 a5 h5 a6 h6 a7 h7 a8 h8 a9 h9 a10 h10 hc x0 x1 x2 x3 x4 x5 x6 xo8 xo9)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

theorem sq_B (hc : ¬cond4_0 i) (xo8 xo9 : Vec F S1x128 .f32) :
    out4_B_9 c i a1 h1 a2 h2 a3 h3 a4 h4 a5 h5 a6 h6 a7 h7 a8 h8 a9 h9 a10 h10 hc x0 x1 x2 x3 x4 x5 x6 xo8 xo9 = k4_pay2 (k4_pay5 x0 x2 x1 x3 x4 x5 x6) xo9 := by
  unfold out4_B_9
  rw [View.read_writes_eq_canon _ _ _ (cover4_B_9 c i a1 h1 a2 h2 a3 h3 a4 h4 a5 h5 a6 h6 a7 h7 a8 h8 a9 h9 a10 h10 hc x0 x1 x2 x3 x4 x5 x6 xo8 xo9)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

end Cert.KernelIdeal.NMS4

end
-- ==== Proof.NMS4.lean ====
import proofs.«410724_j86964497809599_1_alg».proof.Proof.NMS4Pieces

set_option maxRecDepth 16384

noncomputable section

namespace Cert.KernelIdeal.NMS4

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.TileSums

variable (V : (c : Dev nD) → (b : Ref sig .tc) → Buf (Elt Ideal) ((c : Thread nD τ).loc b))

-- The specification's output: the second linear map of the clamped normalisation.
abbrev Y (c : Dev nD) : Cert.Spec.M Cert.ReferenceIdeal.S50000x128 :=
  Cert.Spec.lin128 (Cert.Spec.bnreluK (V c main_v94_0) (V c main_v96) (V c main_v100) (V c main_v79) (V c main_v82)) (V c main_v84) (V c main_v87)

-- The body's arithmetic of point t's input blocks.
abbrev tile (c : Dev nD) (t : Fin cfg4.N) : FVec Ideal S5000x128 .f32 :=
  k4_pay5 (F := Ideal) (iblk4 V c 0 t) (iblk4 V c 2 t) (iblk4 V c 1 t) (iblk4 V c 3 t) (iblk4 V c 4 t) (iblk4 V c 5 t) (iblk4 V c 6 t)

theorem lt_ten (t : Fin cfg4.N) : t.val < 10 := lt_of_lt_of_eq t.isLt (show cfg4.N = 10 from N_4)

theorem row_lt (t : Fin cfg4.N) (p : Fin 5000) : t.val * 5000 + p.val < 50000 := by
  have := lt_ten t; have := p.isLt; omega

abbrev tLast : Fin cfg4.N := ⟨9, by rw [show cfg4.N = 10 from N_4]; decide⟩

-- The two row-tiled windows sit at block (t, 0).
theorem idxT : ∀ t : Fin cfg4.N, (win4_0.index t (0 : Fin 2) = t.val ∧ win4_0.index t (1 : Fin 2) = 0)
    ∧ win4_7.index t (0 : Fin 2) = t.val ∧ win4_7.index t (1 : Fin 2) = 0 :=
  (by decide +kernel : ∀ t : Fin grid4.N, _)

-- Every other window sits at block (0, 0).
theorem idx0 : ∀ t : Fin cfg4.N, (∀ a : Fin 2, win4_1.index t a = 0) ∧ (∀ a : Fin 2, win4_2.index t a = 0)
    ∧ (∀ a : Fin 2, win4_3.index t a = 0) ∧ (∀ a : Fin 2, win4_4.index t a = 0) ∧ (∀ a : Fin 2, win4_5.index t a = 0)
    ∧ (∀ a : Fin 2, win4_6.index t a = 0) ∧ (∀ a : Fin 2, win4_8.index t a = 0) ∧ ∀ a : Fin 2, win4_9.index t a = 0 :=
  (by decide +kernel : ∀ t : Fin grid4.N, _)

theorem off0 {i s : Fin 2 → ℕ} (h : ∀ a, i a = 0) : (fun a => i a * s a) = fun _ => 0 :=
  funext fun a => by rw [h a, Nat.zero_mul]

-- Entry (p, k) of block t of the first input is entry (5000 t + p, k) of its array.
theorem blk0_apply (c : Dev nD) (t : Fin cfg4.N) (p : Fin 5000) (k : Fin 128) :
    (iblk4 V c 0 t : FVec Ideal S5000x128 .f32) (ix2 p k) = V c main_v94_0 (ix2 (⟨t.val * 5000 + p.val, row_lt t p⟩ : Fin 50000) k) := by
  obtain ⟨⟨e0, e1⟩, -⟩ := idxT t
  show V c main_v94_0 (((cfg4.win 0).blk t).view.emb (ix2 p k)) = V c main_v94_0 _
  congr 1
  funext a
  apply Fin.ext
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

-- The tile the body computes at point t is rows 5000 t … 5000 t + 4999 of the specification's output.
theorem tile_apply (c : Dev nD) (t : Fin cfg4.N) (p : Fin 5000) (q : Fin 128) :
    tile V c t (ix2 p q) = Y V c (ix2 (⟨t.val * 5000 + p.val, row_lt t p⟩ : Fin 50000) q) := by
  obtain ⟨e1, e2, e3, e4, e5, e6, -⟩ := idx0 t
  refine (NMSPay4.pay5_apply _ _ _ _ _ _ _ p q).trans ?_
  refine Eq.trans ?_ (Cert.SpecAt.lin128_apply _ _ _ ⟨_, row_lt t p⟩ q).symm
  refine congrArg₂ (fun a b : EReal => a + b) (Finset.sum_congr rfl fun k _ => ?_)
    (congrFun (Memref.read_access_unit_zero (Elt Ideal) main_v87 (off0 e6) _ (V c main_v87)) _)
  refine congrArg₂ (fun a b : EReal => a * b) ?_
    (congrFun (Memref.read_access_unit_zero (Elt Ideal) main_v84 (off0 e5) _ (V c main_v84)) _)
  refine Eq.trans ?_ (Cert.SpecAt.bnreluK_apply _ _ _ _ _ ⟨_, row_lt t p⟩ k).symm
  rw [blk0_apply V c t p k]
  exact congr (congr (congr (congrArg (Cert.SpecAt.bnrelu1 _)
    (congrFun (Memref.read_access_unit_zero (Elt Ideal) main_v96 (off0 e1) _ (V c main_v96)) _))
    (congrFun (Memref.read_access_unit_zero (Elt Ideal) main_v100 (off0 e2) _ (V c main_v100)) _))
    (congrFun (Memref.read_access_unit_zero (Elt Ideal) main_v79 (off0 e3) _ (V c main_v79)) _))
    (congrFun (Memref.read_access_unit_zero (Elt Ideal) main_v82 (off0 e4) _ (V c main_v82)) _)

theorem tile_at (c : Dev nD) (t : Fin cfg4.N) (j : S5000x128.Idx) :
    tile V c t j = Y V c (ix2 (⟨t.val * 5000 + (j 0).val, row_lt t (j 0)⟩ : Fin 50000) (j 1)) := by
  obtain ⟨p, q, rfl⟩ : ∃ (p : Fin 5000) (q : Fin 128), j = ix2 p q := ⟨j 0, j 1, eq_ix2 j⟩
  exact tile_apply V c t p q

-- At the first point the rows of sums are the zero rows plus the tile's column sums.
theorem outs_first (c : Dev nD) (t : Fin cfg4.N) (h0 : t.val % 10 = 0) :
    outsAt4 V c t.val t.isLt = (tile V c t, k4_pay1 (tile V c t) (k4_pay3 (F := Ideal)), k4_pay2 (tile V c t) (k4_pay4 (F := Ideal))) := by
  rw [outsAt4_A V c t h0]
  exact congrArg₂ Prod.mk (tile_A ..) (congrArg₂ Prod.mk (sum_A ..) (sq_A ..))

-- At a later point they are what the point before left plus the tile's column sums.
theorem outs_next (c : Dev nD) (t : Fin cfg4.N) (h0 : ¬t.val % 10 = 0) :
    outsAt4 V c t.val t.isLt = (tile V c t,
      k4_pay1 (tile V c t) (outsAt4 V c (t.val - 1) (Nat.lt_of_le_of_lt (Nat.sub_le _ _) t.isLt)).2.1,
      k4_pay2 (tile V c t) (outsAt4 V c (t.val - 1) (Nat.lt_of_le_of_lt (Nat.sub_le _ _) t.isLt)).2.2) := by
  rw [outsAt4_B V c t h0]
  exact congrArg₂ Prod.mk (tile_B ..) (congrArg₂ Prod.mk (sum_B ..) (sq_B ..))

theorem after_tile (c : Dev nD) (t : Fin cfg4.N) : (outsAt4 V c t.val t.isLt).1 = tile V c t := by
  by_cases h0 : t.val % 10 = 0
  · rw [outs_first V c t h0]
  · rw [outs_next V c t h0]

-- Column q of the specification's output under f, row by row.
def col (c : Dev nD) (f : EReal → EReal) (q : Fin 128) : Fin (10 * 5000) → EReal := fun r => f (Y V c (ix2 (r : Fin 50000) q))

theorem tile_col (c : Dev nD) (f : EReal → EReal) (t : Fin cfg4.N) (q : Fin 128) :
    ∑ p : Fin 5000, f (tile V c t (ix2 p q)) = tileSum 10 5000 (col V c f q) t.val := by
  rw [tileSum_of_lt 10 5000 _ (lt_ten t)]
  exact Finset.sum_congr rfl fun p _ => congrArg f (tile_apply V c t p q)

-- A row that starts at the first tile's column sums of f and grows by each later tile's holds, after point n, those of the first n + 1 tiles.
theorem acc (c : Dev nD) (f : EReal → EReal) (r : (n : ℕ) → n < cfg4.N → FVec Ideal S1x128 .f32)
    (h0 : ∀ h q, r 0 h (ix2 (0 : Fin 1) q) = ∑ p : Fin 5000, f (tile V c ⟨0, h⟩ (ix2 p q)))
    (hs : ∀ n h q, r (n + 1) h (ix2 (0 : Fin 1) q)
      = r n (Nat.lt_of_succ_lt h) (ix2 (0 : Fin 1) q) + ∑ p : Fin 5000, f (tile V c ⟨n + 1, h⟩ (ix2 p q)))
    (q : Fin 128) : ∀ n h, r n h (ix2 (0 : Fin 1) q) = ∑ s ∈ Finset.range (n + 1), tileSum 10 5000 (col V c f q) s
  | 0, h => by rw [h0, acc_zero]; exact tile_col V c f ⟨0, h⟩ q
  | n + 1, h => by rw [hs, acc c f r h0 hs q n, acc_succ]; exact congrArg _ (tile_col V c f ⟨n + 1, h⟩ q)

-- So after the last point it is the row R of whole-column sums of f.
theorem last (c : Dev nD) (f : EReal → EReal) (r : (n : ℕ) → n < cfg4.N → FVec Ideal S1x128 .f32)
    (h0 : ∀ h q, r 0 h (ix2 (0 : Fin 1) q) = ∑ p : Fin 5000, f (tile V c ⟨0, h⟩ (ix2 p q)))
    (hs : ∀ n h q, r (n + 1) h (ix2 (0 : Fin 1) q)
      = r n (Nat.lt_of_succ_lt h) (ix2 (0 : Fin 1) q) + ∑ p : Fin 5000, f (tile V c ⟨n + 1, h⟩ (ix2 p q)))
    (R : Cert.Spec.M Cert.ReferenceIdeal.S1x128) (hR : ∀ q, R (ix2 (0 : Fin 1) q) = ∑ i : Fin 50000, f (Y V c (ix2 i q))) :
    r 9 tLast.isLt = R := by
  funext j
  obtain ⟨z, q, rfl⟩ : ∃ (z : Fin 1) (q : Fin 128), j = ix2 z q := ⟨j 0, j 1, eq_ix2 j⟩
  obtain rfl : z = 0 := Subsingleton.elim _ _
  rw [acc V c f r h0 hs q 9, hR]
  exact (sum_eq_range 10 5000 (col V c f q)).symm

theorem not_first {n : ℕ} (h : n + 1 < cfg4.N) : ¬(n + 1) % 10 = 0 := by
  have hN : cfg4.N = 10 := N_4
  omega

theorem last_sum (c : Dev nD) : (outsAt4 V c tLast.val tLast.isLt).2.1 = Cert.Spec.sumRow (Y V c) :=
  last V c (fun x => x) (fun n h => (outsAt4 V c n h).2.1)
    (fun h q => by
      rw [outs_first V c ⟨0, h⟩ rfl]
      exact (NMSPay4.pay1_apply _ _ q).trans (by rw [NMSPay4.pay3_apply, zero_add]))
    (fun n h q => by
      rw [outs_next V c ⟨n + 1, h⟩ (not_first h)]
      exact NMSPay4.pay1_apply _ _ q)
    _ (Cert.SpecAt.sumRow_apply _)

theorem last_sq (c : Dev nD) : (outsAt4 V c tLast.val tLast.isLt).2.2 = Cert.Spec.sqRow (Y V c) :=
  last V c (fun x => x * x) (fun n h => (outsAt4 V c n h).2.2)
    (fun h q => by
      rw [outs_first V c ⟨0, h⟩ rfl]
      exact (NMSPay4.pay2_apply _ _ q).trans (by rw [NMSPay4.pay4_apply, zero_add]))
    (fun n h q => by
      rw [outs_next V c ⟨n + 1, h⟩ (not_first h)]
      exact NMSPay4.pay2_apply _ _ q)
    _ (Cert.SpecAt.sqRow_apply _)

theorem flushed7_eq (c : Dev nD) (t : Fin cfg4.N) :
    (dat4 V c).flushed 7 t = ((cfg4.win 7).blk t).view.read (Elt Ideal) (Y V c) := by
  obtain ⟨-, e0, e1⟩ := idxT t
  show (cfg4.win 7).cut (grid4.coords t) ((dat4 V c).after 7 t) = _
  rw [after4_7, after_tile V c t]
  funext j
  refine (tile_at V c t j).trans ?_
  show Y V c _ = Y V c (((cfg4.win 7).blk t).view.emb j)
  congr 1
  funext a
  apply Fin.ext
  match a with
  | ⟨0, _⟩ => show t.val * 5000 + (j 0).val = win4_7.index t (0 : Fin 2) * 5000 + 1 * (j 0).val; rw [e0]; omega
  | ⟨1, _⟩ => show (j 1).val = win4_7.index t (1 : Fin 2) * 128 + 1 * (j 1).val; rw [e1]; omega

theorem out7 (c : Dev nD) : (dat4 V c).arrAt 7 cfg4.N = Cert.Spec.lin128 (Cert.Spec.bnreluK (V c main_v94_0) (V c main_v96) (V c main_v100) (V c main_v79) (V c main_v82)) (V c main_v84) (V c main_v87) :=
  (dat4 V c).arrAt_eq_of_cover 7 (Y V c) (fun t _ => flushed7_eq V c t) fun i => by
    have hi0 : (i 0).val < 50000 := (i 0).isLt
    have hi1 : (i 1).val < 128 := (i 1).isLt
    have ht : (i 0).val / 5000 < cfg4.N := by rw [show cfg4.N = 10 from N_4]; omega
    obtain ⟨-, e0, e1⟩ := idxT ⟨_, ht⟩
    refine ⟨⟨_, ht⟩, flush4_7 _, ?_⟩
    show i ∈ ((View.whole main_v101_0).slice (win4_7.rect ⟨_, ht⟩)).set
    rw [View.set_slice_whole, Rect.mem_set_unit]
    intro a
    match a with
    | ⟨0, _⟩ =>
      show win4_7.index _ (0 : Fin 2) * 5000 ≤ (i 0).val ∧ (i 0).val < win4_7.index _ (0 : Fin 2) * 5000 + 5000
      rw [e0]; dsimp only; omega
    | ⟨1, _⟩ =>
      show win4_7.index _ (1 : Fin 2) * 128 ≤ (i 1).val ∧ (i 1).val < win4_7.index _ (1 : Fin 2) * 128 + 128
      rw [e1]; omega

theorem out_last (c : Dev nD) (w : Fin cfg4.W) (G : Buf (Elt Ideal) ((cfg4.win w).arr.view.loc (c : Thread nD τ)))
    (hf : ∀ t : Fin cfg4.N, (cfg4.win w).flush t = true ↔ t.val % 10 = 9)
    (hG : (dat4 V c).flushed w tLast = ((cfg4.win w).blk tLast).view.read (Elt Ideal) G)
    (hc : ∀ i, i ∈ ((cfg4.win w).blk tLast).view.set) : (dat4 V c).arrAt w cfg4.N = G :=
  (dat4 V c).arrAt_eq_of_cover w G
    (fun t h => by
      obtain rfl : t = tLast := Fin.ext (show t.val = 9 by have := (hf t).mp h; have := lt_ten t; omega)
      exact hG)
    fun i => ⟨tLast, (hf tLast).mpr rfl, hc i⟩

theorem out8 (c : Dev nD) : (dat4 V c).arrAt 8 cfg4.N = Cert.Spec.sumRow (Cert.Spec.lin128 (Cert.Spec.bnreluK (V c main_v94_0) (V c main_v96) (V c main_v100) (V c main_v79) (V c main_v82)) (V c main_v84) (V c main_v87)) := by
  obtain ⟨-, -, -, -, -, -, e, -⟩ := idx0 tLast
  refine out_last V c 8 _ flush4_8 ?_ fun i => ?_
  · show (cfg4.win 8).cut (grid4.coords tLast) ((dat4 V c).after 8 tLast) = _
    rw [after4_8, last_sum V c]
    exact (Memref.read_access_unit_zero (Elt Ideal) main_v101_1 (off0 e) _ _).symm
  · show i ∈ ((View.whole main_v101_1).slice (win4_8.rect tLast)).set
    rw [View.set_slice_whole]
    exact View.mem_set_unit_zero (off0 e) _ i

theorem out9 (c : Dev nD) : (dat4 V c).arrAt 9 cfg4.N = Cert.Spec.sqRow (Cert.Spec.lin128 (Cert.Spec.bnreluK (V c main_v94_0) (V c main_v96) (V c main_v100) (V c main_v79) (V c main_v82)) (V c main_v84) (V c main_v87)) := by
  obtain ⟨-, -, -, -, -, -, -, e⟩ := idx0 tLast
  refine out_last V c 9 _ flush4_9 ?_ fun i => ?_
  · show (cfg4.win 9).cut (grid4.coords tLast) ((dat4 V c).after 9 tLast) = _
    rw [after4_9, last_sq V c]
    exact (Memref.read_access_unit_zero (Elt Ideal) main_v101_2 (off0 e) _ _).symm
  · show i ∈ ((View.whole main_v101_2).slice (win4_9.rect tLast)).set
    rw [View.set_slice_whole]
    exact View.mem_set_unit_zero (off0 e) _ i

end Cert.KernelIdeal.NMS4

end
-- ==== Proof.NR5.lean ====
import proofs.«410724_j86964497809599_1_alg».proof.Proof.Gen.KernelIdeal.Frame
import proofs.«410724_j86964497809599_1_alg».proof.Proof.SpecAt
import Idealize.ShloMosaic.Lib.ValueIdx
import Idealize.ShloMosaic.Lib.ValueLayout
import Idealize.ShloMosaic.Lib.Pipeline.Value

set_option maxRecDepth 16384

noncomputable section

namespace Cert.KernelIdeal.NR5

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.SpecAt (bnrelu1 bnreluK_apply)

variable (V : (c : Dev nD) → (b : Ref sig .tc) → Buf (Elt Ideal) ((c : Thread nD τ).loc b))

theorem hz : (![0, 0] : Fin 2 → Nat) = fun _ => 0 := funext fun a => by fin_cases a <;> rfl

-- The body is pointwise: entry (p, q) depends on z (p, q) and on column q of the four one-row operands.
theorem pay_apply (z : Vec Ideal S5000x128 .f32) (va mean g be : Vec Ideal S1x128 .f32) (p : Fin 5000) (q : Fin 128) :
    k5_pay1 z va mean g be (ix2 p q)
      = bnrelu1 (z (ix2 p q)) (mean (ix2 (0 : Fin 1) q)) (va (ix2 (0 : Fin 1) q)) (g (ix2 (0 : Fin 1) q)) (be (ix2 (0 : Fin 1) q)) := by
  unfold k5_pay1
  simp only [shapeCast_self]
  simp only [maximumf_apply, addf_apply, mulf_apply, subf_apply, broadcast_apply, broadcastTo_1b_ab_apply, rsqrt,
    Ideal.rsqrt_def, Ideal.ofBits_def]
  rfl

theorem idx_tile : ∀ t : Fin cfg5.N,
    win5_0.index t (0 : Fin 2) = t.val ∧ win5_0.index t (1 : Fin 2) = 0
    ∧ win5_5.index t (0 : Fin 2) = t.val ∧ win5_5.index t (1 : Fin 2) = 0 :=
  (by decide +kernel : ∀ t : Fin grid5.N, _)

theorem idx_row : ∀ (t : Fin cfg5.N) (a : Fin 2),
    win5_1.index t a = 0 ∧ win5_2.index t a = 0 ∧ win5_3.index t a = 0 ∧ win5_4.index t a = 0 :=
  (by decide +kernel : ∀ t : Fin grid5.N, _)

-- Block t of a 5000-row window starts at row 5000 t.
theorem emb5 (t : Fin cfg5.N) (p : Fin 5000) (q : Fin 128) (r : Fin 50000) (hr : r.val = 5000 * t.val + p.val) :
    ((cfg5.win 5).blk t).view.emb (ix2 p q) = (ix2 r q : S50000x128.Idx) := by
  obtain ⟨-, -, e0, e1⟩ := idx_tile t
  funext a; apply Fin.ext
  match a with
  | ⟨0, _⟩ => show win5_5.index t (0 : Fin 2) * 5000 + 1 * p.val = r.val; omega
  | ⟨1, _⟩ => show win5_5.index t (1 : Fin 2) * 128 + 1 * q.val = q.val; omega

theorem emb0 (t : Fin cfg5.N) (p : Fin 5000) (q : Fin 128) (r : Fin 50000) (hr : r.val = 5000 * t.val + p.val) :
    ((cfg5.win 0).blk t).view.emb (ix2 p q) = (ix2 r q : S50000x128.Idx) := by
  obtain ⟨e0, e1, -⟩ := idx_tile t
  funext a; apply Fin.ext
  match a with
  | ⟨0, _⟩ => show win5_0.index t (0 : Fin 2) * 5000 + 1 * p.val = r.val; omega
  | ⟨1, _⟩ => show win5_0.index t (1 : Fin 2) * 128 + 1 * q.val = q.val; omega

theorem zblk_apply (c : Dev nD) (t : Fin cfg5.N) (p : Fin 5000) (q : Fin 128) (r : Fin 50000) (hr : r.val = 5000 * t.val + p.val) :
    (iblk5 V c 0 t : Vec Ideal S5000x128 .f32) (ix2 p q) = (V c main_v101_0 : S50000x128.Idx → EReal) (ix2 r q) := by
  show (V c main_v101_0 : S50000x128.Idx → EReal) (((cfg5.win 0).blk t).view.emb (ix2 p q)) = _
  exact congrArg _ (emb0 t p q r hr)

-- A one-row window sits at block index 0 on both axes, so its block is its whole array.
theorem mblk_apply (c : Dev nD) (t : Fin cfg5.N) (q : Fin 128) :
    (iblk5 V c 1 t : Vec Ideal S1x128 .f32) (ix2 (0 : Fin 1) q) = (V c main_v103 : S1x128.Idx → EReal) (ix2 (0 : Fin 1) q) := by
  show (V c main_v103 : S1x128.Idx → EReal) (((cfg5.win 1).blk t).view.emb (ix2 (0 : Fin 1) q)) = _
  exact congrArg (V c main_v103 : S1x128.Idx → EReal)
    (funext fun a => Fin.ext (win5_1.rect_emb_val_of_index_zero t a (idx_row t a).1 (ix2 (0 : Fin 1) q)))
theorem vblk_apply (c : Dev nD) (t : Fin cfg5.N) (q : Fin 128) :
    (iblk5 V c 2 t : Vec Ideal S1x128 .f32) (ix2 (0 : Fin 1) q) = (V c main_v107 : S1x128.Idx → EReal) (ix2 (0 : Fin 1) q) := by
  show (V c main_v107 : S1x128.Idx → EReal) (((cfg5.win 2).blk t).view.emb (ix2 (0 : Fin 1) q)) = _
  exact congrArg (V c main_v107 : S1x128.Idx → EReal)
    (funext fun a => Fin.ext (win5_2.rect_emb_val_of_index_zero t a (idx_row t a).2.1 (ix2 (0 : Fin 1) q)))
theorem gblk_apply (c : Dev nD) (t : Fin cfg5.N) (q : Fin 128) :
    (iblk5 V c 3 t : Vec Ideal S1x128 .f32) (ix2 (0 : Fin 1) q) = (V c main_v90 : S1x128.Idx → EReal) (ix2 (0 : Fin 1) q) := by
  show (V c main_v90 : S1x128.Idx → EReal) (((cfg5.win 3).blk t).view.emb (ix2 (0 : Fin 1) q)) = _
  exact congrArg (V c main_v90 : S1x128.Idx → EReal)
    (funext fun a => Fin.ext (win5_3.rect_emb_val_of_index_zero t a (idx_row t a).2.2.1 (ix2 (0 : Fin 1) q)))
theorem bblk_apply (c : Dev nD) (t : Fin cfg5.N) (q : Fin 128) :
    (iblk5 V c 4 t : Vec Ideal S1x128 .f32) (ix2 (0 : Fin 1) q) = (V c main_v93 : S1x128.Idx → EReal) (ix2 (0 : Fin 1) q) := by
  show (V c main_v93 : S1x128.Idx → EReal) (((cfg5.win 4).blk t).view.emb (ix2 (0 : Fin 1) q)) = _
  exact congrArg (V c main_v93 : S1x128.Idx → EReal)
    (funext fun a => Fin.ext (win5_4.rect_emb_val_of_index_zero t a (idx_row t a).2.2.2 (ix2 (0 : Fin 1) q)))

abbrev G (c : Dev nD) : Cert.Spec.M Cert.ReferenceIdeal.S50000x128 :=
  Cert.Spec.bnreluK (V c main_v101_0) (V c main_v103) (V c main_v107) (V c main_v90) (V c main_v93)

theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have ht : t.val < 10 := lt_of_lt_of_eq (show t.val < grid5.N from t.isLt) N_5
  have hp : p.val < 5000 := p.isLt
  let r : Fin 50000 := ⟨5000 * t.val + p.val, by omega⟩
  show k5_pay1 (iblk5 V c 0 t) (iblk5 V c 2 t) (iblk5 V c 1 t) (iblk5 V c 3 t) (iblk5 V c 4 t) (ix2 p q)
    = G V c (((cfg5.win 5).blk t).view.emb (ix2 p q))
  refine (pay_apply _ _ _ _ _ p q).trans ?_
  refine Eq.trans ?_ (congrArg (G V c) (emb5 t p q r rfl)).symm
  refine Eq.trans ?_ (bnreluK_apply _ _ _ _ _ r q).symm
  rw [zblk_apply V c t p q r rfl, mblk_apply V c t q, vblk_apply V c t q, gblk_apply V c t q, bblk_apply V c t q]

theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v108).slice (win5_5.rect t)).set ↔ _
  rw [View.set_slice_whole, Rect.mem_set_unit]
  exact Iff.rfl

-- Row i lies in the block of point i / 5000.
theorem cover (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  let t : Fin cfg5.N := ⟨(i 0).val / 5000, by rw [show cfg5.N = 10 from N_5]; omega⟩
  obtain ⟨-, -, e0, e1⟩ := idx_tile t
  have ht : t.val = (i 0).val / 5000 := rfl
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

theorem out5 (c : Dev nD) :
    (dat5 V c).arrAt 5 cfg5.N = Cert.Spec.bnreluK (V c main_v101_0) (V c main_v103) (V c main_v107) (V c main_v90) (V c main_v93) :=
  (dat5 V c).arrAt_eq_of_cover 5 (G V c) (fun t _ => flushed_eq V c t) cover

end Cert.KernelIdeal.NR5

end
-- ==== Proof.LS6Math.lean ====
import proofs.«410724_j86964497809599_1_alg».proof.Proof.LS3Math

namespace Cert.KernelIdeal.LS6

open Cert.KernelIdeal Cert.KernelIdeal.Gen Idealize.ShloMosaic Idealize.ShloMosaic.TcCoe Idealize.ShloMosaic.ValueIdx

export Cert.KernelIdeal.LS3 (colF row_lt sumRow_tiles sqRow_tiles)

-- This region's payload functions are the same terms as region 3's, so each fact below is region 3's.

theorem pay1_apply (y : S1x128.Idx) : k6_pay1 (F := Ideal) y = 0 := LS3.pay1_apply y
theorem pay2_apply (y : S1x128.Idx) : k6_pay2 (F := Ideal) y = 0 := LS3.pay2_apply y

section
variable (x0 : FVec Ideal S5000x128 .f32) (x1 : FVec Ideal S128x128 .f32) (x2 acc : FVec Ideal S1x128 .f32) (j : Fin 128)

theorem pay4_apply : k6_pay4 (F := Ideal) x0 x1 x2 acc (ix2 0 j)
    = acc (ix2 0 j) + ∑ r : Fin 5000, k6_pay3 (F := Ideal) x0 x1 x2 (ix2 r j) :=
  LS3.pay4_apply x0 x1 x2 acc j

theorem pay5_apply : k6_pay5 (F := Ideal) x0 x1 x2 acc (ix2 0 j)
    = acc (ix2 0 j) + ∑ r : Fin 5000, k6_pay3 (F := Ideal) x0 x1 x2 (ix2 r j) * k6_pay3 (F := Ideal) x0 x1 x2 (ix2 r j) :=
  LS3.pay5_apply x0 x1 x2 acc j
end

variable (X : Cert.Spec.M Cert.ReferenceIdeal.S50000x128) (W : Cert.Spec.M Cert.ReferenceIdeal.S128x128)
  (b : Cert.Spec.M Cert.ReferenceIdeal.S1x128) (x0 : FVec Ideal S5000x128 .f32) {t : ℕ} (ht : t < 10)
  (hx : ∀ (r : Fin 5000) (k : Fin 128), x0 (ix2 r k) = X (ix2 ⟨t * 5000 + r.val, row_lt ht r⟩ k))
include hx

theorem pay3_tile (r : Fin 5000) (j : Fin 128) :
    k6_pay3 (F := Ideal) x0 W b (ix2 r j) = Cert.Spec.lin128 X W b (ix2 ⟨t * 5000 + r.val, row_lt ht r⟩ j) :=
  LS3.pay3_tile X W b x0 ht hx r j

theorem pay3_tileSum (j : Fin 128) : ∑ r : Fin 5000, k6_pay3 (F := Ideal) x0 W b (ix2 r j)
    = Cert.TileSums.tileSum 10 5000 (colF (Cert.Spec.lin128 X W b) j) t :=
  LS3.pay3_tileSum X W b x0 ht hx j

theorem pay3_tileSumSq (j : Fin 128) :
    ∑ r : Fin 5000, k6_pay3 (F := Ideal) x0 W b (ix2 r j) * k6_pay3 (F := Ideal) x0 W b (ix2 r j)
      = Cert.TileSums.tileSum 10 5000 (colF (mulf (Cert.Spec.lin128 X W b) (Cert.Spec.lin128 X W b)) j) t :=
  LS3.pay3_tileSumSq X W b x0 ht hx j

end Cert.KernelIdeal.LS6
-- ==== Proof.LS6.lean ====
import proofs.«410724_j86964497809599_1_alg».proof.Proof.LS6Math
import proofs.«410724_j86964497809599_1_alg».proof.Proof.Gen.KernelIdeal.Frame
import Idealize.ShloMosaic.Lib.Pipeline.Value
import Idealize.ShloMosaic.Lib.Tactic

set_option maxRecDepth 16384

noncomputable section

namespace Cert.KernelIdeal.LS6

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

abbrev Za (c : Dev nD) : Cert.Spec.M Cert.ReferenceIdeal.S50000x128 :=
  Cert.Spec.lin128 (V c main_v124) (V c main_v126) (V c main_v129)

-- The tile's linear map, and each row of p plus the tile's column sums of the map and of its squares.
abbrev pays x0 x1 x2 (p : FVec Ideal S1x128 .f32 × FVec Ideal S1x128 .f32) :=
  (k6_pay3 (F := Ideal) x0 x1 x2, k6_pay4 x0 x1 x2 p.1, k6_pay5 x0 x1 x2 p.2)

theorem hz : (![0, 0] : Fin 2 → Nat) = fun _ => 0 := funext fun a => by fin_cases a <;> rfl

theorem outs_A (c : Dev nD) (t : Fin cfg6.N) (h0 : t.val % 10 = 0) :
    outsAt6 V c t.val t.isLt = pays (iblk6 V c 0 t) (iblk6 V c 1 t) (iblk6 V c 2 t) (k6_pay1 (F := Ideal), k6_pay2 (F := Ideal)) := by
  rw [outsAt6_A V c t h0]
  unfold out6_A_3 out6_A_4 out6_A_5
  rw [View.read_writes_eq_canon _ _ _ (fun _ => cover6_A_3 ..), View.read_writes_eq_canon _ _ _ (fun _ => cover6_A_4 ..),
    View.read_writes_eq_canon _ _ _ (fun _ => cover6_A_5 ..)]
  unfold kernelRun6_A
  dsimp only
  sl_unfold_words
  repeat rw [View.canon_cons_unit_zero hz]
  repeat rw [View.readCov_unit_zero _ hz]
  simp only [View.readAt_eq_ld, Memref.IsWhole.read_unread]
  repeat rw [View.ld_unit_zero hz]

theorem outs_B (c : Dev nD) (t : Fin cfg6.N) (h0 : ¬t.val % 10 = 0) :
    outsAt6 V c t.val t.isLt
      = pays (iblk6 V c 0 t) (iblk6 V c 1 t) (iblk6 V c 2 t) (outsAt6 V c (t.val - 1) (Nat.sub_lt_of_lt t.isLt)).2 := by
  rw [outsAt6_B V c t h0]
  unfold out6_B_3 out6_B_4 out6_B_5
  rw [View.read_writes_eq_canon _ _ _ (fun _ => cover6_B_3 ..), View.read_writes_eq_canon _ _ _ (fun _ => cover6_B_4 ..),
    View.read_writes_eq_canon _ _ _ (fun _ => cover6_B_5 ..)]
  unfold kernelRun6_B
  dsimp only
  repeat rw [View.canon_cons_unit_zero hz]
  simp only [View.readAt_eq_ld, Memref.IsWhole.read_unread]
  repeat rw [View.ld_unit_zero hz]

theorem tlt (t : Fin cfg6.N) : t.val < 10 := lt_of_lt_of_eq t.isLt (show cfg6.N = 10 from N_6)

theorem offs : ∀ t : Fin cfg6.N, win6_0.index t = ![t.val, 0] ∧ win6_1.index t = (fun _ => 0) ∧ win6_2.index t = (fun _ => 0)
    ∧ win6_3.index t = ![t.val, 0] ∧ win6_4.index t = (fun _ => 0) ∧ win6_5.index t = (fun _ => 0) :=
  (by decide +kernel : ∀ t : Fin grid6.N, _)

theorem off0 {n : ℕ} {ix : Fin n → ℕ} (sz : Fin n → ℕ) (h : ix = fun _ => 0) : (fun a => ix a * sz a) = fun _ => 0 := by
  subst h; exact funext fun _ => Nat.zero_mul _

theorem mem_blk {b : Ref sig .tc} {r : Rect b.ty.shape} {i : b.ty.shape.Idx} (h : i ∈ r.set) :
    i ∈ ((View.whole b).slice r).set := (View.set_slice_whole b r).symm ▸ h

theorem ext2 {n0 n1 : ℕ} {α : Type} {f g : (⟨2, ![n0, n1]⟩ : Shape).Idx → α} (h : ∀ r j, f (ix2 r j) = g (ix2 r j)) : f = g :=
  funext fun y => by rw [eq_ix2 y]; exact h _ _

theorem x_row (c : Dev nD) (t : Fin cfg6.N) (r : Fin 5000) (k : Fin 128) :
    iblk6 V c 0 t (ix2 r k) = V c main_v124 (ix2 ⟨t.val * 5000 + r.val, row_lt (tlt t) r⟩ k) :=
  congrArg (V c main_v124) (Shape.idx_ext₂ ((win6_0.rect_emb_val t _ 0).trans (by rw [(offs t).1]; rfl))
    (win6_0.rect_emb_val_of_index_zero t 1 (congrFun (offs t).1 1) _))
theorem w_eq (c : Dev nD) (t : Fin cfg6.N) : iblk6 V c 1 t = V c main_v126 := View.ld_unit_zero (off0 _ (offs t).2.1) _ _
theorem b_eq (c : Dev nD) (t : Fin cfg6.N) : iblk6 V c 2 t = V c main_v129 := View.ld_unit_zero (off0 _ (offs t).2.2.1) _ _

-- By induction on the point: each point adds its tile's column sums to what the point before left.
theorem acc_eq (c : Dev nD) (j : Fin 128) : ∀ (n : ℕ) (h : n < cfg6.N),
    (outsAt6 V c n h).2.1 (ix2 0 j) = ∑ s ∈ Finset.range (n + 1), Cert.TileSums.tileSum 10 5000 (colF (Za V c) j) s ∧
    (outsAt6 V c n h).2.2 (ix2 0 j)
      = ∑ s ∈ Finset.range (n + 1), Cert.TileSums.tileSum 10 5000 (colF (mulf (Za V c) (Za V c)) j) s
  | 0, h => by
    rw [outs_A V c ⟨0, h⟩ rfl, w_eq, b_eq]
    dsimp only
    rw [pay4_apply, pay5_apply, pay1_apply, pay2_apply, Cert.TileSums.acc_zero, Cert.TileSums.acc_zero, zero_add, zero_add]
    exact ⟨pay3_tileSum _ _ _ _ (tlt ⟨0, h⟩) (x_row V c _) j, pay3_tileSumSq _ _ _ _ (tlt ⟨0, h⟩) (x_row V c _) j⟩
  | n + 1, h => by
    rw [outs_B V c ⟨n + 1, h⟩ (by have := tlt ⟨n + 1, h⟩; dsimp only at this ⊢; omega), w_eq, b_eq]
    dsimp only
    rw [pay4_apply, pay5_apply, Cert.TileSums.acc_succ, Cert.TileSums.acc_succ]
    exact ⟨congrArg₂ (· + ·) (acc_eq c j n _).1 (pay3_tileSum _ _ _ _ (tlt ⟨n + 1, h⟩) (x_row V c _) j),
      congrArg₂ (· + ·) (acc_eq c j n _).2 (pay3_tileSumSq _ _ _ _ (tlt ⟨n + 1, h⟩) (x_row V c _) j)⟩

-- Tile t of the map is the map of rows t · 5000 … of X, and the ten tiles cover the 50000 rows.
theorem out3 (c : Dev nD) : (dat6 V c).arrAt 3 cfg6.N = Cert.Spec.lin128 (V c main_v124) (V c main_v126) (V c main_v129) := by
  refine (dat6 V c).arrAt_eq_of_cover 3 (Za V c) (fun t _ => ext2 (n0 := 5000) (n1 := 128) fun r j => ?_) fun i => ?_
  · have e : (outsAt6 V c t.val t.isLt).1 = k6_pay3 (iblk6 V c 0 t) (V c main_v126) (V c main_v129) := by
      by_cases h0 : t.val % 10 = 0
      · rw [outs_A V c t h0, w_eq, b_eq]
      · rw [outs_B V c t h0, w_eq, b_eq]
    exact (congrFun e _).trans ((pay3_tile _ _ _ _ (tlt t) (x_row V c t) r j).trans (congrArg (Za V c)
      (Shape.idx_ext₂ ((win6_3.rect_emb_val t (ix2 r j) 0).trans (by rw [(offs t).2.2.2.1]; rfl)).symm
        (win6_3.rect_emb_val_of_index_zero t 1 (congrFun (offs t).2.2.2.1 1) (ix2 r j)).symm)))
  · have ht : (i 0).val / 5000 < cfg6.N := by
      rw [show cfg6.N = 10 from N_6]; have : (i 0).val < 50000 := (i 0).isLt; omega
    refine ⟨⟨_, ht⟩, flush6_3 _, mem_blk (Rect.mem_set_unit.mpr ?_)⟩
    rw [(offs _).2.2.2.1]
    exact fun a => match a with
      | ⟨0, _⟩ => ⟨Nat.div_mul_le_self _ _, Nat.lt_div_mul_add (by decide)⟩
      | ⟨1, _⟩ => ⟨Nat.zero_le _, (i 1).isLt⟩

theorem n9 : 9 < cfg6.N := by rw [show cfg6.N = 10 from N_6]; decide

theorem out4 (c : Dev nD) : (dat6 V c).arrAt 4 cfg6.N = Cert.Spec.sumRow (Cert.Spec.lin128 (V c main_v124) (V c main_v126) (V c main_v129)) := by
  refine (dat6 V c).arrAt_eq_of_cover 4 (Cert.Spec.sumRow (Za V c)) (fun t hf => ?_) fun i =>
    ⟨⟨9, n9⟩, (flush6_4 _).mpr rfl, mem_blk (View.mem_set_unit_zero (off0 _ (offs _).2.2.2.2.1) _ i)⟩
  have e : ∀ G, ((cfg6.win 4).blk t).view.read (Elt Ideal) G = G := fun G => View.ld_unit_zero (off0 _ (offs t).2.2.2.2.1) _ G
  rw [e]
  refine ext2 (n0 := 1) (n1 := 128) fun p j => ?_
  obtain rfl : p = 0 := Subsingleton.elim _ _
  exact (acc_eq V c j t.val t.isLt).1.trans (by
    rw [sumRow_tiles, show t.val + 1 = 10 by have := (flush6_4 t).mp hf; have := tlt t; omega])

theorem out5 (c : Dev nD) : (dat6 V c).arrAt 5 cfg6.N = Cert.Spec.sqRow (Cert.Spec.lin128 (V c main_v124) (V c main_v126) (V c main_v129)) := by
  refine (dat6 V c).arrAt_eq_of_cover 5 (Cert.Spec.sqRow (Za V c)) (fun t hf => ?_) fun i =>
    ⟨⟨9, n9⟩, (flush6_5 _).mpr rfl, mem_blk (View.mem_set_unit_zero (off0 _ (offs _).2.2.2.2.2) _ i)⟩
  have e : ∀ G, ((cfg6.win 5).blk t).view.read (Elt Ideal) G = G := fun G => View.ld_unit_zero (off0 _ (offs t).2.2.2.2.2) _ G
  rw [e]
  refine ext2 (n0 := 1) (n1 := 128) fun p j => ?_
  obtain rfl : p = 0 := Subsingleton.elim _ _
  exact (acc_eq V c j t.val t.isLt).2.trans (by
    rw [sqRow_tiles, show t.val + 1 = 10 by have := (flush6_5 t).mp hf; have := tlt t; omega])

end Cert.KernelIdeal.LS6

end
-- ==== Proof.NMSPay7.lean ====
import proofs.«410724_j86964497809599_1_alg».proof.Proof.NMSPay1

namespace Cert.KernelIdeal.NMSPay7

open Cert.KernelIdeal Cert.KernelIdeal.Gen Idealize.ShloMosaic Idealize.ShloMosaic.TcCoe Idealize.ShloMosaic.ValueIdx
open Cert.SpecAt (bnrelu1)

-- This region's payload functions are the same terms as region 1's, so each fact below is region 1's.

theorem pay5_apply (x0 : FVec Ideal S5000x128 .f32) (xvar xmean xg xbe : FVec Ideal S1x128 .f32) (xw : FVec Ideal S128x128 .f32)
    (xb : FVec Ideal S1x128 .f32) (p : Fin 5000) (q : Fin 128) :
    k7_pay5 (F := Ideal) x0 xvar xmean xg xbe xw xb (ix2 p q)
      = (∑ k : Fin 128, bnrelu1 (x0 (ix2 p k)) (xmean (ix2 (0 : Fin 1) k)) (xvar (ix2 (0 : Fin 1) k)) (xg (ix2 (0 : Fin 1) k))
            (xbe (ix2 (0 : Fin 1) k)) * xw (ix2 k q)) + xb (ix2 (0 : Fin 1) q) :=
  NMSPay1.pay5_apply x0 xvar xmean xg xbe xw xb p q

theorem pay1_apply (v : FVec Ideal S5000x128 .f32) (acc : FVec Ideal S1x128 .f32) (q : Fin 128) :
    k7_pay1 (F := Ideal) v acc (ix2 (0 : Fin 1) q) = acc (ix2 (0 : Fin 1) q) + ∑ p : Fin 5000, v (ix2 p q) :=
  NMSPay1.pay1_apply v acc q

theorem pay2_apply (v : FVec Ideal S5000x128 .f32) (acc : FVec Ideal S1x128 .f32) (q : Fin 128) :
    k7_pay2 (F := Ideal) v acc (ix2 (0 : Fin 1) q) = acc (ix2 (0 : Fin 1) q) + ∑ p : Fin 5000, v (ix2 p q) * v (ix2 p q) :=
  NMSPay1.pay2_apply v acc q

theorem pay3_apply (j : S1x128.Idx) : k7_pay3 (F := Ideal) j = 0 := NMSPay1.pay3_apply j
theorem pay4_apply (j : S1x128.Idx) : k7_pay4 (F := Ideal) j = 0 := NMSPay1.pay4_apply j

end Cert.KernelIdeal.NMSPay7
-- ==== Proof.NMS7Pieces.lean ====
import proofs.«410724_j86964497809599_1_alg».proof.Proof.Gen.KernelIdeal.Frame
import proofs.«410724_j86964497809599_1_alg».proof.Proof.NMSPay7
import proofs.«410724_j86964497809599_1_alg».proof.Proof.TileSums
import Idealize.ShloMosaic.Lib.Pipeline.Value
import Idealize.ShloMosaic.Lib.Tactic

set_option maxRecDepth 16384

noncomputable section

namespace Cert.KernelIdeal.NMS7

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

variable {F : FTy → Type} [FloatOps F] (c : Dev nD) (i : grid7.Coords)
  (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole)
  (x0 : Vec F S5000x128 .f32) (x1 x2 x3 x4 : Vec F S1x128 .f32) (x5 : Vec F S128x128 .f32) (x6 : Vec F S1x128 .f32)

-- First point: the three outputs are the body's payloads of the input blocks, the rows of sums started from the zero rows.
theorem tile_A (hc : cond7_0 i) :
    out7_A_7 c i a1 h1 a2 h2 a3 h3 a4 h4 a5 h5 a6 h6 a7 h7 a8 h8 a9 h9 a10 h10 hc x0 x1 x2 x3 x4 x5 x6 = k7_pay5 x0 x2 x1 x3 x4 x5 x6 := by
  unfold out7_A_7
  rw [View.read_writes_eq_canon _ _ _ (cover7_A_7 c i a1 h1 a2 h2 a3 h3 a4 h4 a5 h5 a6 h6 a7 h7 a8 h8 a9 h9 a10 h10 hc x0 x1 x2 x3 x4 x5 x6)]
  unfold kernelRun7_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz]

theorem sum_A (hc : cond7_0 i) :
    out7_A_8 c i a1 h1 a2 h2 a3 h3 a4 h4 a5 h5 a6 h6 a7 h7 a8 h8 a9 h9 a10 h10 hc x0 x1 x2 x3 x4 x5 x6 = k7_pay1 (k7_pay5 x0 x2 x1 x3 x4 x5 x6) (k7_pay3 (F := F)) := by
  unfold out7_A_8
  rw [View.read_writes_eq_canon _ _ _ (cover7_A_8 c i a1 h1 a2 h2 a3 h3 a4 h4 a5 h5 a6 h6 a7 h7 a8 h8 a9 h9 a10 h10 hc x0 x1 x2 x3 x4 x5 x6)]
  unfold kernelRun7_A
  dsimp only
  sl_unfold_words
  rw [View.canon_cons_unit_zero (S := S1x128) hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz, View.readCov_unit_zero (S := S1x128) _ hz]

theorem sq_A (hc : cond7_0 i) :
    out7_A_9 c i a1 h1 a2 h2 a3 h3 a4 h4 a5 h5 a6 h6 a7 h7 a8 h8 a9 h9 a10 h10 hc x0 x1 x2 x3 x4 x5 x6 = k7_pay2 (k7_pay5 x0 x2 x1 x3 x4 x5 x6) (k7_pay4 (F := F)) := by
  unfold out7_A_9
  rw [View.read_writes_eq_canon _ _ _ (cover7_A_9 c i a1 h1 a2 h2 a3 h3 a4 h4 a5 h5 a6 h6 a7 h7 a8 h8 a9 h9 a10 h10 hc x0 x1 x2 x3 x4 x5 x6)]
  unfold kernelRun7_A
  dsimp only
  sl_unfold_words
  rw [View.canon_cons_unit_zero (S := S1x128) hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz, View.readCov_unit_zero (S := S1x128) _ hz]

-- Later points: the same, the rows of sums continued from what they held.
theorem tile_B (hc : ¬cond7_0 i) (xo8 xo9 : Vec F S1x128 .f32) :
    out7_B_7 c i a1 h1 a2 h2 a3 h3 a4 h4 a5 h5 a6 h6 a7 h7 a8 h8 a9 h9 a10 h10 hc x0 x1 x2 x3 x4 x5 x6 xo8 xo9 = k7_pay5 x0 x2 x1 x3 x4 x5 x6 := by
  unfold out7_B_7
  rw [View.read_writes_eq_canon _ _ _ (cover7_B_7 c i a1 h1 a2 h2 a3 h3 a4 h4 a5 h5 a6 h6 a7 h7 a8 h8 a9 h9 a10 h10 hc x0 x1 x2 x3 x4 x5 x6 xo8 xo9)]
  unfold kernelRun7_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

theorem sum_B (hc : ¬cond7_0 i) (xo8 xo9 : Vec F S1x128 .f32) :
    out7_B_8 c i a1 h1 a2 h2 a3 h3 a4 h4 a5 h5 a6 h6 a7 h7 a8 h8 a9 h9 a10 h10 hc x0 x1 x2 x3 x4 x5 x6 xo8 xo9 = k7_pay1 (k7_pay5 x0 x2 x1 x3 x4 x5 x6) xo8 := by
  unfold out7_B_8
  rw [View.read_writes_eq_canon _ _ _ (cover7_B_8 c i a1 h1 a2 h2 a3 h3 a4 h4 a5 h5 a6 h6 a7 h7 a8 h8 a9 h9 a10 h10 hc x0 x1 x2 x3 x4 x5 x6 xo8 xo9)]
  unfold kernelRun7_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

theorem sq_B (hc : ¬cond7_0 i) (xo8 xo9 : Vec F S1x128 .f32) :
    out7_B_9 c i a1 h1 a2 h2 a3 h3 a4 h4 a5 h5 a6 h6 a7 h7 a8 h8 a9 h9 a10 h10 hc x0 x1 x2 x3 x4 x5 x6 xo8 xo9 = k7_pay2 (k7_pay5 x0 x2 x1 x3 x4 x5 x6) xo9 := by
  unfold out7_B_9
  rw [View.read_writes_eq_canon _ _ _ (cover7_B_9 c i a1 h1 a2 h2 a3 h3 a4 h4 a5 h5 a6 h6 a7 h7 a8 h8 a9 h9 a10 h10 hc x0 x1 x2 x3 x4 x5 x6 xo8 xo9)]
  unfold kernelRun7_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

end Cert.KernelIdeal.NMS7

end
-- ==== Proof.NMS7.lean ====
import proofs.«410724_j86964497809599_1_alg».proof.Proof.NMS7Pieces

set_option maxRecDepth 16384

noncomputable section

namespace Cert.KernelIdeal.NMS7

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.TileSums

variable (V : (c : Dev nD) → (b : Ref sig .tc) → Buf (Elt Ideal) ((c : Thread nD τ).loc b))

-- The specification's output: the second linear map of the clamped normalisation.
abbrev Y (c : Dev nD) : Cert.Spec.M Cert.ReferenceIdeal.S50000x128 :=
  Cert.Spec.lin128 (Cert.Spec.bnreluK (V c main_v147_0) (V c main_v149) (V c main_v153) (V c main_v132) (V c main_v135)) (V c main_v137) (V c main_v140)

-- The body's arithmetic of point t's input blocks.
abbrev tile (c : Dev nD) (t : Fin cfg7.N) : FVec Ideal S5000x128 .f32 :=
  k7_pay5 (F := Ideal) (iblk7 V c 0 t) (iblk7 V c 2 t) (iblk7 V c 1 t) (iblk7 V c 3 t) (iblk7 V c 4 t) (iblk7 V c 5 t) (iblk7 V c 6 t)

theorem lt_ten (t : Fin cfg7.N) : t.val < 10 := lt_of_lt_of_eq t.isLt (show cfg7.N = 10 from N_7)

theorem row_lt (t : Fin cfg7.N) (p : Fin 5000) : t.val * 5000 + p.val < 50000 := by
  have := lt_ten t; have := p.isLt; omega

abbrev tLast : Fin cfg7.N := ⟨9, by rw [show cfg7.N = 10 from N_7]; decide⟩

-- The two row-tiled windows sit at block (t, 0).
theorem idxT : ∀ t : Fin cfg7.N, (win7_0.index t (0 : Fin 2) = t.val ∧ win7_0.index t (1 : Fin 2) = 0)
    ∧ win7_7.index t (0 : Fin 2) = t.val ∧ win7_7.index t (1 : Fin 2) = 0 :=
  (by decide +kernel : ∀ t : Fin grid7.N, _)

-- Every other window sits at block (0, 0).
theorem idx0 : ∀ t : Fin cfg7.N, (∀ a : Fin 2, win7_1.index t a = 0) ∧ (∀ a : Fin 2, win7_2.index t a = 0)
    ∧ (∀ a : Fin 2, win7_3.index t a = 0) ∧ (∀ a : Fin 2, win7_4.index t a = 0) ∧ (∀ a : Fin 2, win7_5.index t a = 0)
    ∧ (∀ a : Fin 2, win7_6.index t a = 0) ∧ (∀ a : Fin 2, win7_8.index t a = 0) ∧ ∀ a : Fin 2, win7_9.index t a = 0 :=
  (by decide +kernel : ∀ t : Fin grid7.N, _)

theorem off0 {i s : Fin 2 → ℕ} (h : ∀ a, i a = 0) : (fun a => i a * s a) = fun _ => 0 :=
  funext fun a => by rw [h a, Nat.zero_mul]

-- Entry (p, k) of block t of the first input is entry (5000 t + p, k) of its array.
theorem blk0_apply (c : Dev nD) (t : Fin cfg7.N) (p : Fin 5000) (k : Fin 128) :
    (iblk7 V c 0 t : FVec Ideal S5000x128 .f32) (ix2 p k) = V c main_v147_0 (ix2 (⟨t.val * 5000 + p.val, row_lt t p⟩ : Fin 50000) k) := by
  obtain ⟨⟨e0, e1⟩, -⟩ := idxT t
  show V c main_v147_0 (((cfg7.win 0).blk t).view.emb (ix2 p k)) = V c main_v147_0 _
  congr 1
  funext a
  apply Fin.ext
  match a with
  | ⟨0, _⟩ => show win7_0.index t (0 : Fin 2) * 5000 + 1 * p.val = t.val * 5000 + p.val; rw [e0]; omega
  | ⟨1, _⟩ => show win7_0.index t (1 : Fin 2) * 128 + 1 * k.val = k.val; rw [e1]; omega

-- The tile the body computes at point t is rows 5000 t … 5000 t + 4999 of the specification's output.
theorem tile_apply (c : Dev nD) (t : Fin cfg7.N) (p : Fin 5000) (q : Fin 128) :
    tile V c t (ix2 p q) = Y V c (ix2 (⟨t.val * 5000 + p.val, row_lt t p⟩ : Fin 50000) q) := by
  obtain ⟨e1, e2, e3, e4, e5, e6, -⟩ := idx0 t
  refine (NMSPay7.pay5_apply _ _ _ _ _ _ _ p q).trans ?_
  refine Eq.trans ?_ (Cert.SpecAt.lin128_apply _ _ _ ⟨_, row_lt t p⟩ q).symm
  refine congrArg₂ (fun a b : EReal => a + b) (Finset.sum_congr rfl fun k _ => ?_)
    (congrFun (Memref.read_access_unit_zero (Elt Ideal) main_v140 (off0 e6) _ (V c main_v140)) _)
  refine congrArg₂ (fun a b : EReal => a * b) ?_
    (congrFun (Memref.read_access_unit_zero (Elt Ideal) main_v137 (off0 e5) _ (V c main_v137)) _)
  refine Eq.trans ?_ (Cert.SpecAt.bnreluK_apply _ _ _ _ _ ⟨_, row_lt t p⟩ k).symm
  rw [blk0_apply V c t p k]
  exact congr (congr (congr (congrArg (Cert.SpecAt.bnrelu1 _)
    (congrFun (Memref.read_access_unit_zero (Elt Ideal) main_v149 (off0 e1) _ (V c main_v149)) _))
    (congrFun (Memref.read_access_unit_zero (Elt Ideal) main_v153 (off0 e2) _ (V c main_v153)) _))
    (congrFun (Memref.read_access_unit_zero (Elt Ideal) main_v132 (off0 e3) _ (V c main_v132)) _))
    (congrFun (Memref.read_access_unit_zero (Elt Ideal) main_v135 (off0 e4) _ (V c main_v135)) _)

theorem tile_at (c : Dev nD) (t : Fin cfg7.N) (j : S5000x128.Idx) :
    tile V c t j = Y V c (ix2 (⟨t.val * 5000 + (j 0).val, row_lt t (j 0)⟩ : Fin 50000) (j 1)) := by
  obtain ⟨p, q, rfl⟩ : ∃ (p : Fin 5000) (q : Fin 128), j = ix2 p q := ⟨j 0, j 1, eq_ix2 j⟩
  exact tile_apply V c t p q

-- At the first point the rows of sums are the zero rows plus the tile's column sums.
theorem outs_first (c : Dev nD) (t : Fin cfg7.N) (h0 : t.val % 10 = 0) :
    outsAt7 V c t.val t.isLt = (tile V c t, k7_pay1 (tile V c t) (k7_pay3 (F := Ideal)), k7_pay2 (tile V c t) (k7_pay4 (F := Ideal))) := by
  rw [outsAt7_A V c t h0]
  exact congrArg₂ Prod.mk (tile_A ..) (congrArg₂ Prod.mk (sum_A ..) (sq_A ..))

-- At a later point they are what the point before left plus the tile's column sums.
theorem outs_next (c : Dev nD) (t : Fin cfg7.N) (h0 : ¬t.val % 10 = 0) :
    outsAt7 V c t.val t.isLt = (tile V c t,
      k7_pay1 (tile V c t) (outsAt7 V c (t.val - 1) (Nat.lt_of_le_of_lt (Nat.sub_le _ _) t.isLt)).2.1,
      k7_pay2 (tile V c t) (outsAt7 V c (t.val - 1) (Nat.lt_of_le_of_lt (Nat.sub_le _ _) t.isLt)).2.2) := by
  rw [outsAt7_B V c t h0]
  exact congrArg₂ Prod.mk (tile_B ..) (congrArg₂ Prod.mk (sum_B ..) (sq_B ..))

theorem after_tile (c : Dev nD) (t : Fin cfg7.N) : (outsAt7 V c t.val t.isLt).1 = tile V c t := by
  by_cases h0 : t.val % 10 = 0
  · rw [outs_first V c t h0]
  · rw [outs_next V c t h0]

-- Column q of the specification's output under f, row by row.
def col (c : Dev nD) (f : EReal → EReal) (q : Fin 128) : Fin (10 * 5000) → EReal := fun r => f (Y V c (ix2 (r : Fin 50000) q))

theorem tile_col (c : Dev nD) (f : EReal → EReal) (t : Fin cfg7.N) (q : Fin 128) :
    ∑ p : Fin 5000, f (tile V c t (ix2 p q)) = tileSum 10 5000 (col V c f q) t.val := by
  rw [tileSum_of_lt 10 5000 _ (lt_ten t)]
  exact Finset.sum_congr rfl fun p _ => congrArg f (tile_apply V c t p q)

-- A row that starts at the first tile's column sums of f and grows by each later tile's holds, after point n, those of the first n + 1 tiles.
theorem acc (c : Dev nD) (f : EReal → EReal) (r : (n : ℕ) → n < cfg7.N → FVec Ideal S1x128 .f32)
    (h0 : ∀ h q, r 0 h (ix2 (0 : Fin 1) q) = ∑ p : Fin 5000, f (tile V c ⟨0, h⟩ (ix2 p q)))
    (hs : ∀ n h q, r (n + 1) h (ix2 (0 : Fin 1) q)
      = r n (Nat.lt_of_succ_lt h) (ix2 (0 : Fin 1) q) + ∑ p : Fin 5000, f (tile V c ⟨n + 1, h⟩ (ix2 p q)))
    (q : Fin 128) : ∀ n h, r n h (ix2 (0 : Fin 1) q) = ∑ s ∈ Finset.range (n + 1), tileSum 10 5000 (col V c f q) s
  | 0, h => by rw [h0, acc_zero]; exact tile_col V c f ⟨0, h⟩ q
  | n + 1, h => by rw [hs, acc c f r h0 hs q n, acc_succ]; exact congrArg _ (tile_col V c f ⟨n + 1, h⟩ q)

-- So after the last point it is the row R of whole-column sums of f.
theorem last (c : Dev nD) (f : EReal → EReal) (r : (n : ℕ) → n < cfg7.N → FVec Ideal S1x128 .f32)
    (h0 : ∀ h q, r 0 h (ix2 (0 : Fin 1) q) = ∑ p : Fin 5000, f (tile V c ⟨0, h⟩ (ix2 p q)))
    (hs : ∀ n h q, r (n + 1) h (ix2 (0 : Fin 1) q)
      = r n (Nat.lt_of_succ_lt h) (ix2 (0 : Fin 1) q) + ∑ p : Fin 5000, f (tile V c ⟨n + 1, h⟩ (ix2 p q)))
    (R : Cert.Spec.M Cert.ReferenceIdeal.S1x128) (hR : ∀ q, R (ix2 (0 : Fin 1) q) = ∑ i : Fin 50000, f (Y V c (ix2 i q))) :
    r 9 tLast.isLt = R := by
  funext j
  obtain ⟨z, q, rfl⟩ : ∃ (z : Fin 1) (q : Fin 128), j = ix2 z q := ⟨j 0, j 1, eq_ix2 j⟩
  obtain rfl : z = 0 := Subsingleton.elim _ _
  rw [acc V c f r h0 hs q 9, hR]
  exact (sum_eq_range 10 5000 (col V c f q)).symm

theorem not_first {n : ℕ} (h : n + 1 < cfg7.N) : ¬(n + 1) % 10 = 0 := by
  have hN : cfg7.N = 10 := N_7
  omega

theorem last_sum (c : Dev nD) : (outsAt7 V c tLast.val tLast.isLt).2.1 = Cert.Spec.sumRow (Y V c) :=
  last V c (fun x => x) (fun n h => (outsAt7 V c n h).2.1)
    (fun h q => by
      rw [outs_first V c ⟨0, h⟩ rfl]
      exact (NMSPay7.pay1_apply _ _ q).trans (by rw [NMSPay7.pay3_apply, zero_add]))
    (fun n h q => by
      rw [outs_next V c ⟨n + 1, h⟩ (not_first h)]
      exact NMSPay7.pay1_apply _ _ q)
    _ (Cert.SpecAt.sumRow_apply _)

theorem last_sq (c : Dev nD) : (outsAt7 V c tLast.val tLast.isLt).2.2 = Cert.Spec.sqRow (Y V c) :=
  last V c (fun x => x * x) (fun n h => (outsAt7 V c n h).2.2)
    (fun h q => by
      rw [outs_first V c ⟨0, h⟩ rfl]
      exact (NMSPay7.pay2_apply _ _ q).trans (by rw [NMSPay7.pay4_apply, zero_add]))
    (fun n h q => by
      rw [outs_next V c ⟨n + 1, h⟩ (not_first h)]
      exact NMSPay7.pay2_apply _ _ q)
    _ (Cert.SpecAt.sqRow_apply _)

theorem flushed7_eq (c : Dev nD) (t : Fin cfg7.N) :
    (dat7 V c).flushed 7 t = ((cfg7.win 7).blk t).view.read (Elt Ideal) (Y V c) := by
  obtain ⟨-, e0, e1⟩ := idxT t
  show (cfg7.win 7).cut (grid7.coords t) ((dat7 V c).after 7 t) = _
  rw [after7_7, after_tile V c t]
  funext j
  refine (tile_at V c t j).trans ?_
  show Y V c _ = Y V c (((cfg7.win 7).blk t).view.emb j)
  congr 1
  funext a
  apply Fin.ext
  match a with
  | ⟨0, _⟩ => show t.val * 5000 + (j 0).val = win7_7.index t (0 : Fin 2) * 5000 + 1 * (j 0).val; rw [e0]; omega
  | ⟨1, _⟩ => show (j 1).val = win7_7.index t (1 : Fin 2) * 128 + 1 * (j 1).val; rw [e1]; omega

theorem out7 (c : Dev nD) : (dat7 V c).arrAt 7 cfg7.N = Cert.Spec.lin128 (Cert.Spec.bnreluK (V c main_v147_0) (V c main_v149) (V c main_v153) (V c main_v132) (V c main_v135)) (V c main_v137) (V c main_v140) :=
  (dat7 V c).arrAt_eq_of_cover 7 (Y V c) (fun t _ => flushed7_eq V c t) fun i => by
    have hi0 : (i 0).val < 50000 := (i 0).isLt
    have hi1 : (i 1).val < 128 := (i 1).isLt
    have ht : (i 0).val / 5000 < cfg7.N := by rw [show cfg7.N = 10 from N_7]; omega
    obtain ⟨-, e0, e1⟩ := idxT ⟨_, ht⟩
    refine ⟨⟨_, ht⟩, flush7_7 _, ?_⟩
    show i ∈ ((View.whole main_v154_0).slice (win7_7.rect ⟨_, ht⟩)).set
    rw [View.set_slice_whole, Rect.mem_set_unit]
    intro a
    match a with
    | ⟨0, _⟩ =>
      show win7_7.index _ (0 : Fin 2) * 5000 ≤ (i 0).val ∧ (i 0).val < win7_7.index _ (0 : Fin 2) * 5000 + 5000
      rw [e0]; dsimp only; omega
    | ⟨1, _⟩ =>
      show win7_7.index _ (1 : Fin 2) * 128 ≤ (i 1).val ∧ (i 1).val < win7_7.index _ (1 : Fin 2) * 128 + 128
      rw [e1]; omega

theorem out_last (c : Dev nD) (w : Fin cfg7.W) (G : Buf (Elt Ideal) ((cfg7.win w).arr.view.loc (c : Thread nD τ)))
    (hf : ∀ t : Fin cfg7.N, (cfg7.win w).flush t = true ↔ t.val % 10 = 9)
    (hG : (dat7 V c).flushed w tLast = ((cfg7.win w).blk tLast).view.read (Elt Ideal) G)
    (hc : ∀ i, i ∈ ((cfg7.win w).blk tLast).view.set) : (dat7 V c).arrAt w cfg7.N = G :=
  (dat7 V c).arrAt_eq_of_cover w G
    (fun t h => by
      obtain rfl : t = tLast := Fin.ext (show t.val = 9 by have := (hf t).mp h; have := lt_ten t; omega)
      exact hG)
    fun i => ⟨tLast, (hf tLast).mpr rfl, hc i⟩

theorem out8 (c : Dev nD) : (dat7 V c).arrAt 8 cfg7.N = Cert.Spec.sumRow (Cert.Spec.lin128 (Cert.Spec.bnreluK (V c main_v147_0) (V c main_v149) (V c main_v153) (V c main_v132) (V c main_v135)) (V c main_v137) (V c main_v140)) := by
  obtain ⟨-, -, -, -, -, -, e, -⟩ := idx0 tLast
  refine out_last V c 8 _ flush7_8 ?_ fun i => ?_
  · show (cfg7.win 8).cut (grid7.coords tLast) ((dat7 V c).after 8 tLast) = _
    rw [after7_8, last_sum V c]
    exact (Memref.read_access_unit_zero (Elt Ideal) main_v154_1 (off0 e) _ _).symm
  · show i ∈ ((View.whole main_v154_1).slice (win7_8.rect tLast)).set
    rw [View.set_slice_whole]
    exact View.mem_set_unit_zero (off0 e) _ i

theorem out9 (c : Dev nD) : (dat7 V c).arrAt 9 cfg7.N = Cert.Spec.sqRow (Cert.Spec.lin128 (Cert.Spec.bnreluK (V c main_v147_0) (V c main_v149) (V c main_v153) (V c main_v132) (V c main_v135)) (V c main_v137) (V c main_v140)) := by
  obtain ⟨-, -, -, -, -, -, -, e⟩ := idx0 tLast
  refine out_last V c 9 _ flush7_9 ?_ fun i => ?_
  · show (cfg7.win 9).cut (grid7.coords tLast) ((dat7 V c).after 9 tLast) = _
    rw [after7_9, last_sq V c]
    exact (Memref.read_access_unit_zero (Elt Ideal) main_v154_2 (off0 e) _ _).symm
  · show i ∈ ((View.whole main_v154_2).slice (win7_9.rect tLast)).set
    rw [View.set_slice_whole]
    exact View.mem_set_unit_zero (off0 e) _ i

end Cert.KernelIdeal.NMS7

end
-- ==== Proof.NR8.lean ====
import proofs.«410724_j86964497809599_1_alg».proof.Proof.Gen.KernelIdeal.Frame
import proofs.«410724_j86964497809599_1_alg».proof.Proof.SpecAt
import Idealize.ShloMosaic.Lib.ValueIdx
import Idealize.ShloMosaic.Lib.ValueLayout
import Idealize.ShloMosaic.Lib.Pipeline.Value

set_option maxRecDepth 16384

noncomputable section

namespace Cert.KernelIdeal.NR8

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.SpecAt (bnrelu1 bnreluK_apply)

variable (V : (c : Dev nD) → (b : Ref sig .tc) → Buf (Elt Ideal) ((c : Thread nD τ).loc b))

theorem hz : (![0, 0] : Fin 2 → Nat) = fun _ => 0 := funext fun a => by fin_cases a <;> rfl

-- The body is pointwise: entry (p, q) depends on z (p, q) and on column q of the four one-row operands.
theorem pay_apply (z : Vec Ideal S5000x128 .f32) (va mean g be : Vec Ideal S1x128 .f32) (p : Fin 5000) (q : Fin 128) :
    k8_pay1 z va mean g be (ix2 p q)
      = bnrelu1 (z (ix2 p q)) (mean (ix2 (0 : Fin 1) q)) (va (ix2 (0 : Fin 1) q)) (g (ix2 (0 : Fin 1) q)) (be (ix2 (0 : Fin 1) q)) := by
  unfold k8_pay1
  simp only [shapeCast_self]
  simp only [maximumf_apply, addf_apply, mulf_apply, subf_apply, broadcast_apply, broadcastTo_1b_ab_apply, rsqrt,
    Ideal.rsqrt_def, Ideal.ofBits_def]
  rfl

theorem idx_tile : ∀ t : Fin cfg8.N,
    win8_0.index t (0 : Fin 2) = t.val ∧ win8_0.index t (1 : Fin 2) = 0
    ∧ win8_5.index t (0 : Fin 2) = t.val ∧ win8_5.index t (1 : Fin 2) = 0 :=
  (by decide +kernel : ∀ t : Fin grid8.N, _)

theorem idx_row : ∀ (t : Fin cfg8.N) (a : Fin 2),
    win8_1.index t a = 0 ∧ win8_2.index t a = 0 ∧ win8_3.index t a = 0 ∧ win8_4.index t a = 0 :=
  (by decide +kernel : ∀ t : Fin grid8.N, _)

-- Block t of a 5000-row window starts at row 5000 t.
theorem emb5 (t : Fin cfg8.N) (p : Fin 5000) (q : Fin 128) (r : Fin 50000) (hr : r.val = 5000 * t.val + p.val) :
    ((cfg8.win 5).blk t).view.emb (ix2 p q) = (ix2 r q : S50000x128.Idx) := by
  obtain ⟨-, -, e0, e1⟩ := idx_tile t
  funext a; apply Fin.ext
  match a with
  | ⟨0, _⟩ => show win8_5.index t (0 : Fin 2) * 5000 + 1 * p.val = r.val; omega
  | ⟨1, _⟩ => show win8_5.index t (1 : Fin 2) * 128 + 1 * q.val = q.val; omega

theorem emb0 (t : Fin cfg8.N) (p : Fin 5000) (q : Fin 128) (r : Fin 50000) (hr : r.val = 5000 * t.val + p.val) :
    ((cfg8.win 0).blk t).view.emb (ix2 p q) = (ix2 r q : S50000x128.Idx) := by
  obtain ⟨e0, e1, -⟩ := idx_tile t
  funext a; apply Fin.ext
  match a with
  | ⟨0, _⟩ => show win8_0.index t (0 : Fin 2) * 5000 + 1 * p.val = r.val; omega
  | ⟨1, _⟩ => show win8_0.index t (1 : Fin 2) * 128 + 1 * q.val = q.val; omega

theorem zblk_apply (c : Dev nD) (t : Fin cfg8.N) (p : Fin 5000) (q : Fin 128) (r : Fin 50000) (hr : r.val = 5000 * t.val + p.val) :
    (iblk8 V c 0 t : Vec Ideal S5000x128 .f32) (ix2 p q) = (V c main_v154_0 : S50000x128.Idx → EReal) (ix2 r q) := by
  show (V c main_v154_0 : S50000x128.Idx → EReal) (((cfg8.win 0).blk t).view.emb (ix2 p q)) = _
  exact congrArg _ (emb0 t p q r hr)

-- A one-row window sits at block index 0 on both axes, so its block is its whole array.
theorem mblk_apply (c : Dev nD) (t : Fin cfg8.N) (q : Fin 128) :
    (iblk8 V c 1 t : Vec Ideal S1x128 .f32) (ix2 (0 : Fin 1) q) = (V c main_v156 : S1x128.Idx → EReal) (ix2 (0 : Fin 1) q) := by
  show (V c main_v156 : S1x128.Idx → EReal) (((cfg8.win 1).blk t).view.emb (ix2 (0 : Fin 1) q)) = _
  exact congrArg (V c main_v156 : S1x128.Idx → EReal)
    (funext fun a => Fin.ext (win8_1.rect_emb_val_of_index_zero t a (idx_row t a).1 (ix2 (0 : Fin 1) q)))
theorem vblk_apply (c : Dev nD) (t : Fin cfg8.N) (q : Fin 128) :
    (iblk8 V c 2 t : Vec Ideal S1x128 .f32) (ix2 (0 : Fin 1) q) = (V c main_v160 : S1x128.Idx → EReal) (ix2 (0 : Fin 1) q) := by
  show (V c main_v160 : S1x128.Idx → EReal) (((cfg8.win 2).blk t).view.emb (ix2 (0 : Fin 1) q)) = _
  exact congrArg (V c main_v160 : S1x128.Idx → EReal)
    (funext fun a => Fin.ext (win8_2.rect_emb_val_of_index_zero t a (idx_row t a).2.1 (ix2 (0 : Fin 1) q)))
theorem gblk_apply (c : Dev nD) (t : Fin cfg8.N) (q : Fin 128) :
    (iblk8 V c 3 t : Vec Ideal S1x128 .f32) (ix2 (0 : Fin 1) q) = (V c main_v143 : S1x128.Idx → EReal) (ix2 (0 : Fin 1) q) := by
  show (V c main_v143 : S1x128.Idx → EReal) (((cfg8.win 3).blk t).view.emb (ix2 (0 : Fin 1) q)) = _
  exact congrArg (V c main_v143 : S1x128.Idx → EReal)
    (funext fun a => Fin.ext (win8_3.rect_emb_val_of_index_zero t a (idx_row t a).2.2.1 (ix2 (0 : Fin 1) q)))
theorem bblk_apply (c : Dev nD) (t : Fin cfg8.N) (q : Fin 128) :
    (iblk8 V c 4 t : Vec Ideal S1x128 .f32) (ix2 (0 : Fin 1) q) = (V c main_v146 : S1x128.Idx → EReal) (ix2 (0 : Fin 1) q) := by
  show (V c main_v146 : S1x128.Idx → EReal) (((cfg8.win 4).blk t).view.emb (ix2 (0 : Fin 1) q)) = _
  exact congrArg (V c main_v146 : S1x128.Idx → EReal)
    (funext fun a => Fin.ext (win8_4.rect_emb_val_of_index_zero t a (idx_row t a).2.2.2 (ix2 (0 : Fin 1) q)))

abbrev G (c : Dev nD) : Cert.Spec.M Cert.ReferenceIdeal.S50000x128 :=
  Cert.Spec.bnreluK (V c main_v154_0) (V c main_v156) (V c main_v160) (V c main_v143) (V c main_v146)

theorem flushed_eq (c : Dev nD) (t : Fin cfg8.N) :
    (dat8 V c).flushed 5 t = ((cfg8.win 5).blk t).view.read (Elt Ideal) (G V c) := by
  show (cfg8.win 5).cut (grid8.coords t) ((dat8 V c).after 5 t) = _
  rw [after8_5]
  unfold out8_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have ht : t.val < 10 := lt_of_lt_of_eq (show t.val < grid8.N from t.isLt) N_8
  have hp : p.val < 5000 := p.isLt
  let r : Fin 50000 := ⟨5000 * t.val + p.val, by omega⟩
  show k8_pay1 (iblk8 V c 0 t) (iblk8 V c 2 t) (iblk8 V c 1 t) (iblk8 V c 3 t) (iblk8 V c 4 t) (ix2 p q)
    = G V c (((cfg8.win 5).blk t).view.emb (ix2 p q))
  refine (pay_apply _ _ _ _ _ p q).trans ?_
  refine Eq.trans ?_ (congrArg (G V c) (emb5 t p q r rfl)).symm
  refine Eq.trans ?_ (bnreluK_apply _ _ _ _ _ r q).symm
  rw [zblk_apply V c t p q r rfl, mblk_apply V c t q, vblk_apply V c t q, gblk_apply V c t q, bblk_apply V c t q]

theorem mem_blk (t : Fin cfg8.N) (i : S50000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v161).slice (win8_5.rect t)).set ↔ _
  rw [View.set_slice_whole, Rect.mem_set_unit]
  exact Iff.rfl

-- Row i lies in the block of point i / 5000.
theorem cover (i : S50000x128.Idx) : ∃ t : Fin cfg8.N, (cfg8.win 5).flush t = true ∧ i ∈ ((cfg8.win 5).blk t).view.set := by
  have hi0 : (i 0).val < 50000 := (i 0).isLt
  have hi1 : (i 1).val < 128 := (i 1).isLt
  let t : Fin cfg8.N := ⟨(i 0).val / 5000, by rw [show cfg8.N = 10 from N_8]; omega⟩
  obtain ⟨-, -, e0, e1⟩ := idx_tile t
  have ht : t.val = (i 0).val / 5000 := rfl
  refine ⟨t, flush8_5 t, ?_⟩
  rw [mem_blk]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 128 ≤ (i 1).val ∧ (i 1).val < win8_5.index t (1 : Fin 2) * 128 + 128; omega

theorem out5 (c : Dev nD) :
    (dat8 V c).arrAt 5 cfg8.N = Cert.Spec.bnreluK (V c main_v154_0) (V c main_v156) (V c main_v160) (V c main_v143) (V c main_v146) :=
  (dat8 V c).arrAt_eq_of_cover 5 (G V c) (fun t _ => flushed_eq V c t) cover

end Cert.KernelIdeal.NR8

end
-- ==== Proof.LS9Math.lean ====
import proofs.«410724_j86964497809599_1_alg».proof.Proof.LS3Math

namespace Cert.KernelIdeal.LS9

open Cert.KernelIdeal Cert.KernelIdeal.Gen Idealize.ShloMosaic Idealize.ShloMosaic.TcCoe Idealize.ShloMosaic.ValueIdx

export Cert.KernelIdeal.LS3 (colF row_lt sumRow_tiles sqRow_tiles)

-- This region's payload functions are the same terms as region 3's, so each fact below is region 3's.

theorem pay1_apply (y : S1x128.Idx) : k9_pay1 (F := Ideal) y = 0 := LS3.pay1_apply y
theorem pay2_apply (y : S1x128.Idx) : k9_pay2 (F := Ideal) y = 0 := LS3.pay2_apply y

section
variable (x0 : FVec Ideal S5000x128 .f32) (x1 : FVec Ideal S128x128 .f32) (x2 acc : FVec Ideal S1x128 .f32) (j : Fin 128)

theorem pay4_apply : k9_pay4 (F := Ideal) x0 x1 x2 acc (ix2 0 j)
    = acc (ix2 0 j) + ∑ r : Fin 5000, k9_pay3 (F := Ideal) x0 x1 x2 (ix2 r j) :=
  LS3.pay4_apply x0 x1 x2 acc j

theorem pay5_apply : k9_pay5 (F := Ideal) x0 x1 x2 acc (ix2 0 j)
    = acc (ix2 0 j) + ∑ r : Fin 5000, k9_pay3 (F := Ideal) x0 x1 x2 (ix2 r j) * k9_pay3 (F := Ideal) x0 x1 x2 (ix2 r j) :=
  LS3.pay5_apply x0 x1 x2 acc j
end

variable (X : Cert.Spec.M Cert.ReferenceIdeal.S50000x128) (W : Cert.Spec.M Cert.ReferenceIdeal.S128x128)
  (b : Cert.Spec.M Cert.ReferenceIdeal.S1x128) (x0 : FVec Ideal S5000x128 .f32) {t : ℕ} (ht : t < 10)
  (hx : ∀ (r : Fin 5000) (k : Fin 128), x0 (ix2 r k) = X (ix2 ⟨t * 5000 + r.val, row_lt ht r⟩ k))
include hx

theorem pay3_tile (r : Fin 5000) (j : Fin 128) :
    k9_pay3 (F := Ideal) x0 W b (ix2 r j) = Cert.Spec.lin128 X W b (ix2 ⟨t * 5000 + r.val, row_lt ht r⟩ j) :=
  LS3.pay3_tile X W b x0 ht hx r j

theorem pay3_tileSum (j : Fin 128) : ∑ r : Fin 5000, k9_pay3 (F := Ideal) x0 W b (ix2 r j)
    = Cert.TileSums.tileSum 10 5000 (colF (Cert.Spec.lin128 X W b) j) t :=
  LS3.pay3_tileSum X W b x0 ht hx j

theorem pay3_tileSumSq (j : Fin 128) :
    ∑ r : Fin 5000, k9_pay3 (F := Ideal) x0 W b (ix2 r j) * k9_pay3 (F := Ideal) x0 W b (ix2 r j)
      = Cert.TileSums.tileSum 10 5000 (colF (mulf (Cert.Spec.lin128 X W b) (Cert.Spec.lin128 X W b)) j) t :=
  LS3.pay3_tileSumSq X W b x0 ht hx j

end Cert.KernelIdeal.LS9
-- ==== Proof.LS9.lean ====
import proofs.«410724_j86964497809599_1_alg».proof.Proof.LS9Math
import proofs.«410724_j86964497809599_1_alg».proof.Proof.Gen.KernelIdeal.Frame
import Idealize.ShloMosaic.Lib.Pipeline.Value
import Idealize.ShloMosaic.Lib.Tactic

set_option maxRecDepth 16384

noncomputable section

namespace Cert.KernelIdeal.LS9

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

abbrev Za (c : Dev nD) : Cert.Spec.M Cert.ReferenceIdeal.S50000x128 :=
  Cert.Spec.lin128 (V c main_v177) (V c main_v179) (V c main_v182)

-- The tile's linear map, and each row of p plus the tile's column sums of the map and of its squares.
abbrev pays x0 x1 x2 (p : FVec Ideal S1x128 .f32 × FVec Ideal S1x128 .f32) :=
  (k9_pay3 (F := Ideal) x0 x1 x2, k9_pay4 x0 x1 x2 p.1, k9_pay5 x0 x1 x2 p.2)

theorem hz : (![0, 0] : Fin 2 → Nat) = fun _ => 0 := funext fun a => by fin_cases a <;> rfl

theorem outs_A (c : Dev nD) (t : Fin cfg9.N) (h0 : t.val % 10 = 0) :
    outsAt9 V c t.val t.isLt = pays (iblk9 V c 0 t) (iblk9 V c 1 t) (iblk9 V c 2 t) (k9_pay1 (F := Ideal), k9_pay2 (F := Ideal)) := by
  rw [outsAt9_A V c t h0]
  unfold out9_A_3 out9_A_4 out9_A_5
  rw [View.read_writes_eq_canon _ _ _ (fun _ => cover9_A_3 ..), View.read_writes_eq_canon _ _ _ (fun _ => cover9_A_4 ..),
    View.read_writes_eq_canon _ _ _ (fun _ => cover9_A_5 ..)]
  unfold kernelRun9_A
  dsimp only
  sl_unfold_words
  repeat rw [View.canon_cons_unit_zero hz]
  repeat rw [View.readCov_unit_zero _ hz]
  simp only [View.readAt_eq_ld, Memref.IsWhole.read_unread]
  repeat rw [View.ld_unit_zero hz]

theorem outs_B (c : Dev nD) (t : Fin cfg9.N) (h0 : ¬t.val % 10 = 0) :
    outsAt9 V c t.val t.isLt
      = pays (iblk9 V c 0 t) (iblk9 V c 1 t) (iblk9 V c 2 t) (outsAt9 V c (t.val - 1) (Nat.sub_lt_of_lt t.isLt)).2 := by
  rw [outsAt9_B V c t h0]
  unfold out9_B_3 out9_B_4 out9_B_5
  rw [View.read_writes_eq_canon _ _ _ (fun _ => cover9_B_3 ..), View.read_writes_eq_canon _ _ _ (fun _ => cover9_B_4 ..),
    View.read_writes_eq_canon _ _ _ (fun _ => cover9_B_5 ..)]
  unfold kernelRun9_B
  dsimp only
  repeat rw [View.canon_cons_unit_zero hz]
  simp only [View.readAt_eq_ld, Memref.IsWhole.read_unread]
  repeat rw [View.ld_unit_zero hz]

theorem tlt (t : Fin cfg9.N) : t.val < 10 := lt_of_lt_of_eq t.isLt (show cfg9.N = 10 from N_9)

theorem offs : ∀ t : Fin cfg9.N, win9_0.index t = ![t.val, 0] ∧ win9_1.index t = (fun _ => 0) ∧ win9_2.index t = (fun _ => 0)
    ∧ win9_3.index t = ![t.val, 0] ∧ win9_4.index t = (fun _ => 0) ∧ win9_5.index t = (fun _ => 0) :=
  (by decide +kernel : ∀ t : Fin grid9.N, _)

theorem off0 {n : ℕ} {ix : Fin n → ℕ} (sz : Fin n → ℕ) (h : ix = fun _ => 0) : (fun a => ix a * sz a) = fun _ => 0 := by
  subst h; exact funext fun _ => Nat.zero_mul _

theorem mem_blk {b : Ref sig .tc} {r : Rect b.ty.shape} {i : b.ty.shape.Idx} (h : i ∈ r.set) :
    i ∈ ((View.whole b).slice r).set := (View.set_slice_whole b r).symm ▸ h

theorem ext2 {n0 n1 : ℕ} {α : Type} {f g : (⟨2, ![n0, n1]⟩ : Shape).Idx → α} (h : ∀ r j, f (ix2 r j) = g (ix2 r j)) : f = g :=
  funext fun y => by rw [eq_ix2 y]; exact h _ _

theorem x_row (c : Dev nD) (t : Fin cfg9.N) (r : Fin 5000) (k : Fin 128) :
    iblk9 V c 0 t (ix2 r k) = V c main_v177 (ix2 ⟨t.val * 5000 + r.val, row_lt (tlt t) r⟩ k) :=
  congrArg (V c main_v177) (Shape.idx_ext₂ ((win9_0.rect_emb_val t _ 0).trans (by rw [(offs t).1]; rfl))
    (win9_0.rect_emb_val_of_index_zero t 1 (congrFun (offs t).1 1) _))
theorem w_eq (c : Dev nD) (t : Fin cfg9.N) : iblk9 V c 1 t = V c main_v179 := View.ld_unit_zero (off0 _ (offs t).2.1) _ _
theorem b_eq (c : Dev nD) (t : Fin cfg9.N) : iblk9 V c 2 t = V c main_v182 := View.ld_unit_zero (off0 _ (offs t).2.2.1) _ _

-- By induction on the point: each point adds its tile's column sums to what the point before left.
theorem acc_eq (c : Dev nD) (j : Fin 128) : ∀ (n : ℕ) (h : n < cfg9.N),
    (outsAt9 V c n h).2.1 (ix2 0 j) = ∑ s ∈ Finset.range (n + 1), Cert.TileSums.tileSum 10 5000 (colF (Za V c) j) s ∧
    (outsAt9 V c n h).2.2 (ix2 0 j)
      = ∑ s ∈ Finset.range (n + 1), Cert.TileSums.tileSum 10 5000 (colF (mulf (Za V c) (Za V c)) j) s
  | 0, h => by
    rw [outs_A V c ⟨0, h⟩ rfl, w_eq, b_eq]
    dsimp only
    rw [pay4_apply, pay5_apply, pay1_apply, pay2_apply, Cert.TileSums.acc_zero, Cert.TileSums.acc_zero, zero_add, zero_add]
    exact ⟨pay3_tileSum _ _ _ _ (tlt ⟨0, h⟩) (x_row V c _) j, pay3_tileSumSq _ _ _ _ (tlt ⟨0, h⟩) (x_row V c _) j⟩
  | n + 1, h => by
    rw [outs_B V c ⟨n + 1, h⟩ (by have := tlt ⟨n + 1, h⟩; dsimp only at this ⊢; omega), w_eq, b_eq]
    dsimp only
    rw [pay4_apply, pay5_apply, Cert.TileSums.acc_succ, Cert.TileSums.acc_succ]
    exact ⟨congrArg₂ (· + ·) (acc_eq c j n _).1 (pay3_tileSum _ _ _ _ (tlt ⟨n + 1, h⟩) (x_row V c _) j),
      congrArg₂ (· + ·) (acc_eq c j n _).2 (pay3_tileSumSq _ _ _ _ (tlt ⟨n + 1, h⟩) (x_row V c _) j)⟩

-- Tile t of the map is the map of rows t · 5000 … of X, and the ten tiles cover the 50000 rows.
theorem out3 (c : Dev nD) : (dat9 V c).arrAt 3 cfg9.N = Cert.Spec.lin128 (V c main_v177) (V c main_v179) (V c main_v182) := by
  refine (dat9 V c).arrAt_eq_of_cover 3 (Za V c) (fun t _ => ext2 (n0 := 5000) (n1 := 128) fun r j => ?_) fun i => ?_
  · have e : (outsAt9 V c t.val t.isLt).1 = k9_pay3 (iblk9 V c 0 t) (V c main_v179) (V c main_v182) := by
      by_cases h0 : t.val % 10 = 0
      · rw [outs_A V c t h0, w_eq, b_eq]
      · rw [outs_B V c t h0, w_eq, b_eq]
    exact (congrFun e _).trans ((pay3_tile _ _ _ _ (tlt t) (x_row V c t) r j).trans (congrArg (Za V c)
      (Shape.idx_ext₂ ((win9_3.rect_emb_val t (ix2 r j) 0).trans (by rw [(offs t).2.2.2.1]; rfl)).symm
        (win9_3.rect_emb_val_of_index_zero t 1 (congrFun (offs t).2.2.2.1 1) (ix2 r j)).symm)))
  · have ht : (i 0).val / 5000 < cfg9.N := by
      rw [show cfg9.N = 10 from N_9]; have : (i 0).val < 50000 := (i 0).isLt; omega
    refine ⟨⟨_, ht⟩, flush9_3 _, mem_blk (Rect.mem_set_unit.mpr ?_)⟩
    rw [(offs _).2.2.2.1]
    exact fun a => match a with
      | ⟨0, _⟩ => ⟨Nat.div_mul_le_self _ _, Nat.lt_div_mul_add (by decide)⟩
      | ⟨1, _⟩ => ⟨Nat.zero_le _, (i 1).isLt⟩

theorem n9 : 9 < cfg9.N := by rw [show cfg9.N = 10 from N_9]; decide

theorem out4 (c : Dev nD) : (dat9 V c).arrAt 4 cfg9.N = Cert.Spec.sumRow (Cert.Spec.lin128 (V c main_v177) (V c main_v179) (V c main_v182)) := by
  refine (dat9 V c).arrAt_eq_of_cover 4 (Cert.Spec.sumRow (Za V c)) (fun t hf => ?_) fun i =>
    ⟨⟨9, n9⟩, (flush9_4 _).mpr rfl, mem_blk (View.mem_set_unit_zero (off0 _ (offs _).2.2.2.2.1) _ i)⟩
  have e : ∀ G, ((cfg9.win 4).blk t).view.read (Elt Ideal) G = G := fun G => View.ld_unit_zero (off0 _ (offs t).2.2.2.2.1) _ G
  rw [e]
  refine ext2 (n0 := 1) (n1 := 128) fun p j => ?_
  obtain rfl : p = 0 := Subsingleton.elim _ _
  exact (acc_eq V c j t.val t.isLt).1.trans (by
    rw [sumRow_tiles, show t.val + 1 = 10 by have := (flush9_4 t).mp hf; have := tlt t; omega])

theorem out5 (c : Dev nD) : (dat9 V c).arrAt 5 cfg9.N = Cert.Spec.sqRow (Cert.Spec.lin128 (V c main_v177) (V c main_v179) (V c main_v182)) := by
  refine (dat9 V c).arrAt_eq_of_cover 5 (Cert.Spec.sqRow (Za V c)) (fun t hf => ?_) fun i =>
    ⟨⟨9, n9⟩, (flush9_5 _).mpr rfl, mem_blk (View.mem_set_unit_zero (off0 _ (offs _).2.2.2.2.2) _ i)⟩
  have e : ∀ G, ((cfg9.win 5).blk t).view.read (Elt Ideal) G = G := fun G => View.ld_unit_zero (off0 _ (offs t).2.2.2.2.2) _ G
  rw [e]
  refine ext2 (n0 := 1) (n1 := 128) fun p j => ?_
  obtain rfl : p = 0 := Subsingleton.elim _ _
  exact (acc_eq V c j t.val t.isLt).2.trans (by
    rw [sqRow_tiles, show t.val + 1 = 10 by have := (flush9_5 t).mp hf; have := tlt t; omega])

end Cert.KernelIdeal.LS9

end
-- ==== Proof.NMSPay10.lean ====
import proofs.«410724_j86964497809599_1_alg».proof.Proof.NMSPay1

namespace Cert.KernelIdeal.NMSPay10

open Cert.KernelIdeal Cert.KernelIdeal.Gen Idealize.ShloMosaic Idealize.ShloMosaic.TcCoe Idealize.ShloMosaic.ValueIdx
open Cert.SpecAt (bnrelu1)

-- This region's payload functions are the same terms as region 1's, so each fact below is region 1's.

theorem pay5_apply (x0 : FVec Ideal S5000x128 .f32) (xvar xmean xg xbe : FVec Ideal S1x128 .f32) (xw : FVec Ideal S128x128 .f32)
    (xb : FVec Ideal S1x128 .f32) (p : Fin 5000) (q : Fin 128) :
    k10_pay5 (F := Ideal) x0 xvar xmean xg xbe xw xb (ix2 p q)
      = (∑ k : Fin 128, bnrelu1 (x0 (ix2 p k)) (xmean (ix2 (0 : Fin 1) k)) (xvar (ix2 (0 : Fin 1) k)) (xg (ix2 (0 : Fin 1) k))
            (xbe (ix2 (0 : Fin 1) k)) * xw (ix2 k q)) + xb (ix2 (0 : Fin 1) q) :=
  NMSPay1.pay5_apply x0 xvar xmean xg xbe xw xb p q

theorem pay1_apply (v : FVec Ideal S5000x128 .f32) (acc : FVec Ideal S1x128 .f32) (q : Fin 128) :
    k10_pay1 (F := Ideal) v acc (ix2 (0 : Fin 1) q) = acc (ix2 (0 : Fin 1) q) + ∑ p : Fin 5000, v (ix2 p q) :=
  NMSPay1.pay1_apply v acc q

theorem pay2_apply (v : FVec Ideal S5000x128 .f32) (acc : FVec Ideal S1x128 .f32) (q : Fin 128) :
    k10_pay2 (F := Ideal) v acc (ix2 (0 : Fin 1) q) = acc (ix2 (0 : Fin 1) q) + ∑ p : Fin 5000, v (ix2 p q) * v (ix2 p q) :=
  NMSPay1.pay2_apply v acc q

theorem pay3_apply (j : S1x128.Idx) : k10_pay3 (F := Ideal) j = 0 := NMSPay1.pay3_apply j
theorem pay4_apply (j : S1x128.Idx) : k10_pay4 (F := Ideal) j = 0 := NMSPay1.pay4_apply j

end Cert.KernelIdeal.NMSPay10
-- ==== Proof.NMS10Pieces.lean ====
import proofs.«410724_j86964497809599_1_alg».proof.Proof.Gen.KernelIdeal.Frame
import proofs.«410724_j86964497809599_1_alg».proof.Proof.NMSPay10
import proofs.«410724_j86964497809599_1_alg».proof.Proof.TileSums
import Idealize.ShloMosaic.Lib.Pipeline.Value
import Idealize.ShloMosaic.Lib.Tactic

set_option maxRecDepth 16384

noncomputable section

namespace Cert.KernelIdeal.NMS10

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

variable {F : FTy → Type} [FloatOps F] (c : Dev nD) (i : grid10.Coords)
  (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole)
  (x0 : Vec F S5000x128 .f32) (x1 x2 x3 x4 : Vec F S1x128 .f32) (x5 : Vec F S128x128 .f32) (x6 : Vec F S1x128 .f32)

-- First point: the three outputs are the body's payloads of the input blocks, the rows of sums started from the zero rows.
theorem tile_A (hc : cond10_0 i) :
    out10_A_7 c i a1 h1 a2 h2 a3 h3 a4 h4 a5 h5 a6 h6 a7 h7 a8 h8 a9 h9 a10 h10 hc x0 x1 x2 x3 x4 x5 x6 = k10_pay5 x0 x2 x1 x3 x4 x5 x6 := by
  unfold out10_A_7
  rw [View.read_writes_eq_canon _ _ _ (cover10_A_7 c i a1 h1 a2 h2 a3 h3 a4 h4 a5 h5 a6 h6 a7 h7 a8 h8 a9 h9 a10 h10 hc x0 x1 x2 x3 x4 x5 x6)]
  unfold kernelRun10_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz]

theorem sum_A (hc : cond10_0 i) :
    out10_A_8 c i a1 h1 a2 h2 a3 h3 a4 h4 a5 h5 a6 h6 a7 h7 a8 h8 a9 h9 a10 h10 hc x0 x1 x2 x3 x4 x5 x6 = k10_pay1 (k10_pay5 x0 x2 x1 x3 x4 x5 x6) (k10_pay3 (F := F)) := by
  unfold out10_A_8
  rw [View.read_writes_eq_canon _ _ _ (cover10_A_8 c i a1 h1 a2 h2 a3 h3 a4 h4 a5 h5 a6 h6 a7 h7 a8 h8 a9 h9 a10 h10 hc x0 x1 x2 x3 x4 x5 x6)]
  unfold kernelRun10_A
  dsimp only
  sl_unfold_words
  rw [View.canon_cons_unit_zero (S := S1x128) hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz, View.readCov_unit_zero (S := S1x128) _ hz]

theorem sq_A (hc : cond10_0 i) :
    out10_A_9 c i a1 h1 a2 h2 a3 h3 a4 h4 a5 h5 a6 h6 a7 h7 a8 h8 a9 h9 a10 h10 hc x0 x1 x2 x3 x4 x5 x6 = k10_pay2 (k10_pay5 x0 x2 x1 x3 x4 x5 x6) (k10_pay4 (F := F)) := by
  unfold out10_A_9
  rw [View.read_writes_eq_canon _ _ _ (cover10_A_9 c i a1 h1 a2 h2 a3 h3 a4 h4 a5 h5 a6 h6 a7 h7 a8 h8 a9 h9 a10 h10 hc x0 x1 x2 x3 x4 x5 x6)]
  unfold kernelRun10_A
  dsimp only
  sl_unfold_words
  rw [View.canon_cons_unit_zero (S := S1x128) hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz, View.readCov_unit_zero (S := S1x128) _ hz]

-- Later points: the same, the rows of sums continued from what they held.
theorem tile_B (hc : ¬cond10_0 i) (xo8 xo9 : Vec F S1x128 .f32) :
    out10_B_7 c i a1 h1 a2 h2 a3 h3 a4 h4 a5 h5 a6 h6 a7 h7 a8 h8 a9 h9 a10 h10 hc x0 x1 x2 x3 x4 x5 x6 xo8 xo9 = k10_pay5 x0 x2 x1 x3 x4 x5 x6 := by
  unfold out10_B_7
  rw [View.read_writes_eq_canon _ _ _ (cover10_B_7 c i a1 h1 a2 h2 a3 h3 a4 h4 a5 h5 a6 h6 a7 h7 a8 h8 a9 h9 a10 h10 hc x0 x1 x2 x3 x4 x5 x6 xo8 xo9)]
  unfold kernelRun10_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

theorem sum_B (hc : ¬cond10_0 i) (xo8 xo9 : Vec F S1x128 .f32) :
    out10_B_8 c i a1 h1 a2 h2 a3 h3 a4 h4 a5 h5 a6 h6 a7 h7 a8 h8 a9 h9 a10 h10 hc x0 x1 x2 x3 x4 x5 x6 xo8 xo9 = k10_pay1 (k10_pay5 x0 x2 x1 x3 x4 x5 x6) xo8 := by
  unfold out10_B_8
  rw [View.read_writes_eq_canon _ _ _ (cover10_B_8 c i a1 h1 a2 h2 a3 h3 a4 h4 a5 h5 a6 h6 a7 h7 a8 h8 a9 h9 a10 h10 hc x0 x1 x2 x3 x4 x5 x6 xo8 xo9)]
  unfold kernelRun10_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

theorem sq_B (hc : ¬cond10_0 i) (xo8 xo9 : Vec F S1x128 .f32) :
    out10_B_9 c i a1 h1 a2 h2 a3 h3 a4 h4 a5 h5 a6 h6 a7 h7 a8 h8 a9 h9 a10 h10 hc x0 x1 x2 x3 x4 x5 x6 xo8 xo9 = k10_pay2 (k10_pay5 x0 x2 x1 x3 x4 x5 x6) xo9 := by
  unfold out10_B_9
  rw [View.read_writes_eq_canon _ _ _ (cover10_B_9 c i a1 h1 a2 h2 a3 h3 a4 h4 a5 h5 a6 h6 a7 h7 a8 h8 a9 h9 a10 h10 hc x0 x1 x2 x3 x4 x5 x6 xo8 xo9)]
  unfold kernelRun10_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

end Cert.KernelIdeal.NMS10

end
-- ==== Proof.NMS10.lean ====
import proofs.«410724_j86964497809599_1_alg».proof.Proof.NMS10Pieces

set_option maxRecDepth 16384

noncomputable section

namespace Cert.KernelIdeal.NMS10

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.TileSums

variable (V : (c : Dev nD) → (b : Ref sig .tc) → Buf (Elt Ideal) ((c : Thread nD τ).loc b))

-- The specification's output: the second linear map of the clamped normalisation.
abbrev Y (c : Dev nD) : Cert.Spec.M Cert.ReferenceIdeal.S50000x128 :=
  Cert.Spec.lin128 (Cert.Spec.bnreluK (V c main_v200_0) (V c main_v202) (V c main_v206) (V c main_v185) (V c main_v188)) (V c main_v190) (V c main_v193)

-- The body's arithmetic of point t's input blocks.
abbrev tile (c : Dev nD) (t : Fin cfg10.N) : FVec Ideal S5000x128 .f32 :=
  k10_pay5 (F := Ideal) (iblk10 V c 0 t) (iblk10 V c 2 t) (iblk10 V c 1 t) (iblk10 V c 3 t) (iblk10 V c 4 t) (iblk10 V c 5 t) (iblk10 V c 6 t)

theorem lt_ten (t : Fin cfg10.N) : t.val < 10 := lt_of_lt_of_eq t.isLt (show cfg10.N = 10 from N_10)

theorem row_lt (t : Fin cfg10.N) (p : Fin 5000) : t.val * 5000 + p.val < 50000 := by
  have := lt_ten t; have := p.isLt; omega

abbrev tLast : Fin cfg10.N := ⟨9, by rw [show cfg10.N = 10 from N_10]; decide⟩

-- The two row-tiled windows sit at block (t, 0).
theorem idxT : ∀ t : Fin cfg10.N, (win10_0.index t (0 : Fin 2) = t.val ∧ win10_0.index t (1 : Fin 2) = 0)
    ∧ win10_7.index t (0 : Fin 2) = t.val ∧ win10_7.index t (1 : Fin 2) = 0 :=
  (by decide +kernel : ∀ t : Fin grid10.N, _)

-- Every other window sits at block (0, 0).
theorem idx0 : ∀ t : Fin cfg10.N, (∀ a : Fin 2, win10_1.index t a = 0) ∧ (∀ a : Fin 2, win10_2.index t a = 0)
    ∧ (∀ a : Fin 2, win10_3.index t a = 0) ∧ (∀ a : Fin 2, win10_4.index t a = 0) ∧ (∀ a : Fin 2, win10_5.index t a = 0)
    ∧ (∀ a : Fin 2, win10_6.index t a = 0) ∧ (∀ a : Fin 2, win10_8.index t a = 0) ∧ ∀ a : Fin 2, win10_9.index t a = 0 :=
  (by decide +kernel : ∀ t : Fin grid10.N, _)

theorem off0 {i s : Fin 2 → ℕ} (h : ∀ a, i a = 0) : (fun a => i a * s a) = fun _ => 0 :=
  funext fun a => by rw [h a, Nat.zero_mul]

-- Entry (p, k) of block t of the first input is entry (5000 t + p, k) of its array.
theorem blk0_apply (c : Dev nD) (t : Fin cfg10.N) (p : Fin 5000) (k : Fin 128) :
    (iblk10 V c 0 t : FVec Ideal S5000x128 .f32) (ix2 p k) = V c main_v200_0 (ix2 (⟨t.val * 5000 + p.val, row_lt t p⟩ : Fin 50000) k) := by
  obtain ⟨⟨e0, e1⟩, -⟩ := idxT t
  show V c main_v200_0 (((cfg10.win 0).blk t).view.emb (ix2 p k)) = V c main_v200_0 _
  congr 1
  funext a
  apply Fin.ext
  match a with
  | ⟨0, _⟩ => show win10_0.index t (0 : Fin 2) * 5000 + 1 * p.val = t.val * 5000 + p.val; rw [e0]; omega
  | ⟨1, _⟩ => show win10_0.index t (1 : Fin 2) * 128 + 1 * k.val = k.val; rw [e1]; omega

-- The tile the body computes at point t is rows 5000 t … 5000 t + 4999 of the specification's output.
theorem tile_apply (c : Dev nD) (t : Fin cfg10.N) (p : Fin 5000) (q : Fin 128) :
    tile V c t (ix2 p q) = Y V c (ix2 (⟨t.val * 5000 + p.val, row_lt t p⟩ : Fin 50000) q) := by
  obtain ⟨e1, e2, e3, e4, e5, e6, -⟩ := idx0 t
  refine (NMSPay10.pay5_apply _ _ _ _ _ _ _ p q).trans ?_
  refine Eq.trans ?_ (Cert.SpecAt.lin128_apply _ _ _ ⟨_, row_lt t p⟩ q).symm
  refine congrArg₂ (fun a b : EReal => a + b) (Finset.sum_congr rfl fun k _ => ?_)
    (congrFun (Memref.read_access_unit_zero (Elt Ideal) main_v193 (off0 e6) _ (V c main_v193)) _)
  refine congrArg₂ (fun a b : EReal => a * b) ?_
    (congrFun (Memref.read_access_unit_zero (Elt Ideal) main_v190 (off0 e5) _ (V c main_v190)) _)
  refine Eq.trans ?_ (Cert.SpecAt.bnreluK_apply _ _ _ _ _ ⟨_, row_lt t p⟩ k).symm
  rw [blk0_apply V c t p k]
  exact congr (congr (congr (congrArg (Cert.SpecAt.bnrelu1 _)
    (congrFun (Memref.read_access_unit_zero (Elt Ideal) main_v202 (off0 e1) _ (V c main_v202)) _))
    (congrFun (Memref.read_access_unit_zero (Elt Ideal) main_v206 (off0 e2) _ (V c main_v206)) _))
    (congrFun (Memref.read_access_unit_zero (Elt Ideal) main_v185 (off0 e3) _ (V c main_v185)) _))
    (congrFun (Memref.read_access_unit_zero (Elt Ideal) main_v188 (off0 e4) _ (V c main_v188)) _)

theorem tile_at (c : Dev nD) (t : Fin cfg10.N) (j : S5000x128.Idx) :
    tile V c t j = Y V c (ix2 (⟨t.val * 5000 + (j 0).val, row_lt t (j 0)⟩ : Fin 50000) (j 1)) := by
  obtain ⟨p, q, rfl⟩ : ∃ (p : Fin 5000) (q : Fin 128), j = ix2 p q := ⟨j 0, j 1, eq_ix2 j⟩
  exact tile_apply V c t p q

-- At the first point the rows of sums are the zero rows plus the tile's column sums.
theorem outs_first (c : Dev nD) (t : Fin cfg10.N) (h0 : t.val % 10 = 0) :
    outsAt10 V c t.val t.isLt = (tile V c t, k10_pay1 (tile V c t) (k10_pay3 (F := Ideal)), k10_pay2 (tile V c t) (k10_pay4 (F := Ideal))) := by
  rw [outsAt10_A V c t h0]
  exact congrArg₂ Prod.mk (tile_A ..) (congrArg₂ Prod.mk (sum_A ..) (sq_A ..))

-- At a later point they are what the point before left plus the tile's column sums.
theorem outs_next (c : Dev nD) (t : Fin cfg10.N) (h0 : ¬t.val % 10 = 0) :
    outsAt10 V c t.val t.isLt = (tile V c t,
      k10_pay1 (tile V c t) (outsAt10 V c (t.val - 1) (Nat.lt_of_le_of_lt (Nat.sub_le _ _) t.isLt)).2.1,
      k10_pay2 (tile V c t) (outsAt10 V c (t.val - 1) (Nat.lt_of_le_of_lt (Nat.sub_le _ _) t.isLt)).2.2) := by
  rw [outsAt10_B V c t h0]
  exact congrArg₂ Prod.mk (tile_B ..) (congrArg₂ Prod.mk (sum_B ..) (sq_B ..))

theorem after_tile (c : Dev nD) (t : Fin cfg10.N) : (outsAt10 V c t.val t.isLt).1 = tile V c t := by
  by_cases h0 : t.val % 10 = 0
  · rw [outs_first V c t h0]
  · rw [outs_next V c t h0]

-- Column q of the specification's output under f, row by row.
def col (c : Dev nD) (f : EReal → EReal) (q : Fin 128) : Fin (10 * 5000) → EReal := fun r => f (Y V c (ix2 (r : Fin 50000) q))

theorem tile_col (c : Dev nD) (f : EReal → EReal) (t : Fin cfg10.N) (q : Fin 128) :
    ∑ p : Fin 5000, f (tile V c t (ix2 p q)) = tileSum 10 5000 (col V c f q) t.val := by
  rw [tileSum_of_lt 10 5000 _ (lt_ten t)]
  exact Finset.sum_congr rfl fun p _ => congrArg f (tile_apply V c t p q)

-- A row that starts at the first tile's column sums of f and grows by each later tile's holds, after point n, those of the first n + 1 tiles.
theorem acc (c : Dev nD) (f : EReal → EReal) (r : (n : ℕ) → n < cfg10.N → FVec Ideal S1x128 .f32)
    (h0 : ∀ h q, r 0 h (ix2 (0 : Fin 1) q) = ∑ p : Fin 5000, f (tile V c ⟨0, h⟩ (ix2 p q)))
    (hs : ∀ n h q, r (n + 1) h (ix2 (0 : Fin 1) q)
      = r n (Nat.lt_of_succ_lt h) (ix2 (0 : Fin 1) q) + ∑ p : Fin 5000, f (tile V c ⟨n + 1, h⟩ (ix2 p q)))
    (q : Fin 128) : ∀ n h, r n h (ix2 (0 : Fin 1) q) = ∑ s ∈ Finset.range (n + 1), tileSum 10 5000 (col V c f q) s
  | 0, h => by rw [h0, acc_zero]; exact tile_col V c f ⟨0, h⟩ q
  | n + 1, h => by rw [hs, acc c f r h0 hs q n, acc_succ]; exact congrArg _ (tile_col V c f ⟨n + 1, h⟩ q)

-- So after the last point it is the row R of whole-column sums of f.
theorem last (c : Dev nD) (f : EReal → EReal) (r : (n : ℕ) → n < cfg10.N → FVec Ideal S1x128 .f32)
    (h0 : ∀ h q, r 0 h (ix2 (0 : Fin 1) q) = ∑ p : Fin 5000, f (tile V c ⟨0, h⟩ (ix2 p q)))
    (hs : ∀ n h q, r (n + 1) h (ix2 (0 : Fin 1) q)
      = r n (Nat.lt_of_succ_lt h) (ix2 (0 : Fin 1) q) + ∑ p : Fin 5000, f (tile V c ⟨n + 1, h⟩ (ix2 p q)))
    (R : Cert.Spec.M Cert.ReferenceIdeal.S1x128) (hR : ∀ q, R (ix2 (0 : Fin 1) q) = ∑ i : Fin 50000, f (Y V c (ix2 i q))) :
    r 9 tLast.isLt = R := by
  funext j
  obtain ⟨z, q, rfl⟩ : ∃ (z : Fin 1) (q : Fin 128), j = ix2 z q := ⟨j 0, j 1, eq_ix2 j⟩
  obtain rfl : z = 0 := Subsingleton.elim _ _
  rw [acc V c f r h0 hs q 9, hR]
  exact (sum_eq_range 10 5000 (col V c f q)).symm

theorem not_first {n : ℕ} (h : n + 1 < cfg10.N) : ¬(n + 1) % 10 = 0 := by
  have hN : cfg10.N = 10 := N_10
  omega

theorem last_sum (c : Dev nD) : (outsAt10 V c tLast.val tLast.isLt).2.1 = Cert.Spec.sumRow (Y V c) :=
  last V c (fun x => x) (fun n h => (outsAt10 V c n h).2.1)
    (fun h q => by
      rw [outs_first V c ⟨0, h⟩ rfl]
      exact (NMSPay10.pay1_apply _ _ q).trans (by rw [NMSPay10.pay3_apply, zero_add]))
    (fun n h q => by
      rw [outs_next V c ⟨n + 1, h⟩ (not_first h)]
      exact NMSPay10.pay1_apply _ _ q)
    _ (Cert.SpecAt.sumRow_apply _)

theorem last_sq (c : Dev nD) : (outsAt10 V c tLast.val tLast.isLt).2.2 = Cert.Spec.sqRow (Y V c) :=
  last V c (fun x => x * x) (fun n h => (outsAt10 V c n h).2.2)
    (fun h q => by
      rw [outs_first V c ⟨0, h⟩ rfl]
      exact (NMSPay10.pay2_apply _ _ q).trans (by rw [NMSPay10.pay4_apply, zero_add]))
    (fun n h q => by
      rw [outs_next V c ⟨n + 1, h⟩ (not_first h)]
      exact NMSPay10.pay2_apply _ _ q)
    _ (Cert.SpecAt.sqRow_apply _)

theorem flushed7_eq (c : Dev nD) (t : Fin cfg10.N) :
    (dat10 V c).flushed 7 t = ((cfg10.win 7).blk t).view.read (Elt Ideal) (Y V c) := by
  obtain ⟨-, e0, e1⟩ := idxT t
  show (cfg10.win 7).cut (grid10.coords t) ((dat10 V c).after 7 t) = _
  rw [after10_7, after_tile V c t]
  funext j
  refine (tile_at V c t j).trans ?_
  show Y V c _ = Y V c (((cfg10.win 7).blk t).view.emb j)
  congr 1
  funext a
  apply Fin.ext
  match a with
  | ⟨0, _⟩ => show t.val * 5000 + (j 0).val = win10_7.index t (0 : Fin 2) * 5000 + 1 * (j 0).val; rw [e0]; omega
  | ⟨1, _⟩ => show (j 1).val = win10_7.index t (1 : Fin 2) * 128 + 1 * (j 1).val; rw [e1]; omega

theorem out7 (c : Dev nD) : (dat10 V c).arrAt 7 cfg10.N = Cert.Spec.lin128 (Cert.Spec.bnreluK (V c main_v200_0) (V c main_v202) (V c main_v206) (V c main_v185) (V c main_v188)) (V c main_v190) (V c main_v193) :=
  (dat10 V c).arrAt_eq_of_cover 7 (Y V c) (fun t _ => flushed7_eq V c t) fun i => by
    have hi0 : (i 0).val < 50000 := (i 0).isLt
    have hi1 : (i 1).val < 128 := (i 1).isLt
    have ht : (i 0).val / 5000 < cfg10.N := by rw [show cfg10.N = 10 from N_10]; omega
    obtain ⟨-, e0, e1⟩ := idxT ⟨_, ht⟩
    refine ⟨⟨_, ht⟩, flush10_7 _, ?_⟩
    show i ∈ ((View.whole main_v207_0).slice (win10_7.rect ⟨_, ht⟩)).set
    rw [View.set_slice_whole, Rect.mem_set_unit]
    intro a
    match a with
    | ⟨0, _⟩ =>
      show win10_7.index _ (0 : Fin 2) * 5000 ≤ (i 0).val ∧ (i 0).val < win10_7.index _ (0 : Fin 2) * 5000 + 5000
      rw [e0]; dsimp only; omega
    | ⟨1, _⟩ =>
      show win10_7.index _ (1 : Fin 2) * 128 ≤ (i 1).val ∧ (i 1).val < win10_7.index _ (1 : Fin 2) * 128 + 128
      rw [e1]; omega

theorem out_last (c : Dev nD) (w : Fin cfg10.W) (G : Buf (Elt Ideal) ((cfg10.win w).arr.view.loc (c : Thread nD τ)))
    (hf : ∀ t : Fin cfg10.N, (cfg10.win w).flush t = true ↔ t.val % 10 = 9)
    (hG : (dat10 V c).flushed w tLast = ((cfg10.win w).blk tLast).view.read (Elt Ideal) G)
    (hc : ∀ i, i ∈ ((cfg10.win w).blk tLast).view.set) : (dat10 V c).arrAt w cfg10.N = G :=
  (dat10 V c).arrAt_eq_of_cover w G
    (fun t h => by
      obtain rfl : t = tLast := Fin.ext (show t.val = 9 by have := (hf t).mp h; have := lt_ten t; omega)
      exact hG)
    fun i => ⟨tLast, (hf tLast).mpr rfl, hc i⟩

theorem out8 (c : Dev nD) : (dat10 V c).arrAt 8 cfg10.N = Cert.Spec.sumRow (Cert.Spec.lin128 (Cert.Spec.bnreluK (V c main_v200_0) (V c main_v202) (V c main_v206) (V c main_v185) (V c main_v188)) (V c main_v190) (V c main_v193)) := by
  obtain ⟨-, -, -, -, -, -, e, -⟩ := idx0 tLast
  refine out_last V c 8 _ flush10_8 ?_ fun i => ?_
  · show (cfg10.win 8).cut (grid10.coords tLast) ((dat10 V c).after 8 tLast) = _
    rw [after10_8, last_sum V c]
    exact (Memref.read_access_unit_zero (Elt Ideal) main_v207_1 (off0 e) _ _).symm
  · show i ∈ ((View.whole main_v207_1).slice (win10_8.rect tLast)).set
    rw [View.set_slice_whole]
    exact View.mem_set_unit_zero (off0 e) _ i

theorem out9 (c : Dev nD) : (dat10 V c).arrAt 9 cfg10.N = Cert.Spec.sqRow (Cert.Spec.lin128 (Cert.Spec.bnreluK (V c main_v200_0) (V c main_v202) (V c main_v206) (V c main_v185) (V c main_v188)) (V c main_v190) (V c main_v193)) := by
  obtain ⟨-, -, -, -, -, -, -, e⟩ := idx0 tLast
  refine out_last V c 9 _ flush10_9 ?_ fun i => ?_
  · show (cfg10.win 9).cut (grid10.coords tLast) ((dat10 V c).after 9 tLast) = _
    rw [after10_9, last_sq V c]
    exact (Memref.read_access_unit_zero (Elt Ideal) main_v207_2 (off0 e) _ _).symm
  · show i ∈ ((View.whole main_v207_2).slice (win10_9.rect tLast)).set
    rw [View.set_slice_whole]
    exact View.mem_set_unit_zero (off0 e) _ i

end Cert.KernelIdeal.NMS10

end
-- ==== Proof.NR11.lean ====
import proofs.«410724_j86964497809599_1_alg».proof.Proof.Gen.KernelIdeal.Frame
import proofs.«410724_j86964497809599_1_alg».proof.Proof.SpecAt
import Idealize.ShloMosaic.Lib.ValueIdx
import Idealize.ShloMosaic.Lib.ValueLayout
import Idealize.ShloMosaic.Lib.Pipeline.Value

set_option maxRecDepth 16384

noncomputable section

namespace Cert.KernelIdeal.NR11

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.SpecAt (bnrelu1 bnreluK_apply)

variable (V : (c : Dev nD) → (b : Ref sig .tc) → Buf (Elt Ideal) ((c : Thread nD τ).loc b))

theorem hz : (![0, 0] : Fin 2 → Nat) = fun _ => 0 := funext fun a => by fin_cases a <;> rfl

-- The body is pointwise: entry (p, q) depends on z (p, q) and on column q of the four one-row operands.
theorem pay_apply (z : Vec Ideal S5000x128 .f32) (va mean g be : Vec Ideal S1x128 .f32) (p : Fin 5000) (q : Fin 128) :
    k11_pay1 z va mean g be (ix2 p q)
      = bnrelu1 (z (ix2 p q)) (mean (ix2 (0 : Fin 1) q)) (va (ix2 (0 : Fin 1) q)) (g (ix2 (0 : Fin 1) q)) (be (ix2 (0 : Fin 1) q)) := by
  unfold k11_pay1
  simp only [shapeCast_self]
  simp only [maximumf_apply, addf_apply, mulf_apply, subf_apply, broadcast_apply, broadcastTo_1b_ab_apply, rsqrt,
    Ideal.rsqrt_def, Ideal.ofBits_def]
  rfl

theorem idx_tile : ∀ t : Fin cfg11.N,
    win11_0.index t (0 : Fin 2) = t.val ∧ win11_0.index t (1 : Fin 2) = 0
    ∧ win11_5.index t (0 : Fin 2) = t.val ∧ win11_5.index t (1 : Fin 2) = 0 :=
  (by decide +kernel : ∀ t : Fin grid11.N, _)

theorem idx_row : ∀ (t : Fin cfg11.N) (a : Fin 2),
    win11_1.index t a = 0 ∧ win11_2.index t a = 0 ∧ win11_3.index t a = 0 ∧ win11_4.index t a = 0 :=
  (by decide +kernel : ∀ t : Fin grid11.N, _)

-- Block t of a 5000-row window starts at row 5000 t.
theorem emb5 (t : Fin cfg11.N) (p : Fin 5000) (q : Fin 128) (r : Fin 50000) (hr : r.val = 5000 * t.val + p.val) :
    ((cfg11.win 5).blk t).view.emb (ix2 p q) = (ix2 r q : S50000x128.Idx) := by
  obtain ⟨-, -, e0, e1⟩ := idx_tile t
  funext a; apply Fin.ext
  match a with
  | ⟨0, _⟩ => show win11_5.index t (0 : Fin 2) * 5000 + 1 * p.val = r.val; omega
  | ⟨1, _⟩ => show win11_5.index t (1 : Fin 2) * 128 + 1 * q.val = q.val; omega

theorem emb0 (t : Fin cfg11.N) (p : Fin 5000) (q : Fin 128) (r : Fin 50000) (hr : r.val = 5000 * t.val + p.val) :
    ((cfg11.win 0).blk t).view.emb (ix2 p q) = (ix2 r q : S50000x128.Idx) := by
  obtain ⟨e0, e1, -⟩ := idx_tile t
  funext a; apply Fin.ext
  match a with
  | ⟨0, _⟩ => show win11_0.index t (0 : Fin 2) * 5000 + 1 * p.val = r.val; omega
  | ⟨1, _⟩ => show win11_0.index t (1 : Fin 2) * 128 + 1 * q.val = q.val; omega

theorem zblk_apply (c : Dev nD) (t : Fin cfg11.N) (p : Fin 5000) (q : Fin 128) (r : Fin 50000) (hr : r.val = 5000 * t.val + p.val) :
    (iblk11 V c 0 t : Vec Ideal S5000x128 .f32) (ix2 p q) = (V c main_v207_0 : S50000x128.Idx → EReal) (ix2 r q) := by
  show (V c main_v207_0 : S50000x128.Idx → EReal) (((cfg11.win 0).blk t).view.emb (ix2 p q)) = _
  exact congrArg _ (emb0 t p q r hr)

-- A one-row window sits at block index 0 on both axes, so its block is its whole array.
theorem mblk_apply (c : Dev nD) (t : Fin cfg11.N) (q : Fin 128) :
    (iblk11 V c 1 t : Vec Ideal S1x128 .f32) (ix2 (0 : Fin 1) q) = (V c main_v209 : S1x128.Idx → EReal) (ix2 (0 : Fin 1) q) := by
  show (V c main_v209 : S1x128.Idx → EReal) (((cfg11.win 1).blk t).view.emb (ix2 (0 : Fin 1) q)) = _
  exact congrArg (V c main_v209 : S1x128.Idx → EReal)
    (funext fun a => Fin.ext (win11_1.rect_emb_val_of_index_zero t a (idx_row t a).1 (ix2 (0 : Fin 1) q)))
theorem vblk_apply (c : Dev nD) (t : Fin cfg11.N) (q : Fin 128) :
    (iblk11 V c 2 t : Vec Ideal S1x128 .f32) (ix2 (0 : Fin 1) q) = (V c main_v213 : S1x128.Idx → EReal) (ix2 (0 : Fin 1) q) := by
  show (V c main_v213 : S1x128.Idx → EReal) (((cfg11.win 2).blk t).view.emb (ix2 (0 : Fin 1) q)) = _
  exact congrArg (V c main_v213 : S1x128.Idx → EReal)
    (funext fun a => Fin.ext (win11_2.rect_emb_val_of_index_zero t a (idx_row t a).2.1 (ix2 (0 : Fin 1) q)))
theorem gblk_apply (c : Dev nD) (t : Fin cfg11.N) (q : Fin 128) :
    (iblk11 V c 3 t : Vec Ideal S1x128 .f32) (ix2 (0 : Fin 1) q) = (V c main_v196 : S1x128.Idx → EReal) (ix2 (0 : Fin 1) q) := by
  show (V c main_v196 : S1x128.Idx → EReal) (((cfg11.win 3).blk t).view.emb (ix2 (0 : Fin 1) q)) = _
  exact congrArg (V c main_v196 : S1x128.Idx → EReal)
    (funext fun a => Fin.ext (win11_3.rect_emb_val_of_index_zero t a (idx_row t a).2.2.1 (ix2 (0 : Fin 1) q)))
theorem bblk_apply (c : Dev nD) (t : Fin cfg11.N) (q : Fin 128) :
    (iblk11 V c 4 t : Vec Ideal S1x128 .f32) (ix2 (0 : Fin 1) q) = (V c main_v199 : S1x128.Idx → EReal) (ix2 (0 : Fin 1) q) := by
  show (V c main_v199 : S1x128.Idx → EReal) (((cfg11.win 4).blk t).view.emb (ix2 (0 : Fin 1) q)) = _
  exact congrArg (V c main_v199 : S1x128.Idx → EReal)
    (funext fun a => Fin.ext (win11_4.rect_emb_val_of_index_zero t a (idx_row t a).2.2.2 (ix2 (0 : Fin 1) q)))

abbrev G (c : Dev nD) : Cert.Spec.M Cert.ReferenceIdeal.S50000x128 :=
  Cert.Spec.bnreluK (V c main_v207_0) (V c main_v209) (V c main_v213) (V c main_v196) (V c main_v199)

theorem flushed_eq (c : Dev nD) (t : Fin cfg11.N) :
    (dat11 V c).flushed 5 t = ((cfg11.win 5).blk t).view.read (Elt Ideal) (G V c) := by
  show (cfg11.win 5).cut (grid11.coords t) ((dat11 V c).after 5 t) = _
  rw [after11_5]
  unfold out11_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have ht : t.val < 10 := lt_of_lt_of_eq (show t.val < grid11.N from t.isLt) N_11
  have hp : p.val < 5000 := p.isLt
  let r : Fin 50000 := ⟨5000 * t.val + p.val, by omega⟩
  show k11_pay1 (iblk11 V c 0 t) (iblk11 V c 2 t) (iblk11 V c 1 t) (iblk11 V c 3 t) (iblk11 V c 4 t) (ix2 p q)
    = G V c (((cfg11.win 5).blk t).view.emb (ix2 p q))
  refine (pay_apply _ _ _ _ _ p q).trans ?_
  refine Eq.trans ?_ (congrArg (G V c) (emb5 t p q r rfl)).symm
  refine Eq.trans ?_ (bnreluK_apply _ _ _ _ _ r q).symm
  rw [zblk_apply V c t p q r rfl, mblk_apply V c t q, vblk_apply V c t q, gblk_apply V c t q, bblk_apply V c t q]

theorem mem_blk (t : Fin cfg11.N) (i : S50000x128.Idx) :
    i ∈ ((cfg11.win 5).blk t).view.set ↔ ∀ a : Fin 2, win11_5.index t a * S5000x128.size a ≤ (i a).val ∧ (i a).val < win11_5.index t a * S5000x128.size a + S5000x128.size a := by
  show i ∈ ((View.whole main_v214).slice (win11_5.rect t)).set ↔ _
  rw [View.set_slice_whole, Rect.mem_set_unit]
  exact Iff.rfl

-- Row i lies in the block of point i / 5000.
theorem cover (i : S50000x128.Idx) : ∃ t : Fin cfg11.N, (cfg11.win 5).flush t = true ∧ i ∈ ((cfg11.win 5).blk t).view.set := by
  have hi0 : (i 0).val < 50000 := (i 0).isLt
  have hi1 : (i 1).val < 128 := (i 1).isLt
  let t : Fin cfg11.N := ⟨(i 0).val / 5000, by rw [show cfg11.N = 10 from N_11]; omega⟩
  obtain ⟨-, -, e0, e1⟩ := idx_tile t
  have ht : t.val = (i 0).val / 5000 := rfl
  refine ⟨t, flush11_5 t, ?_⟩
  rw [mem_blk]
  intro a
  match a with
  | ⟨0, _⟩ => show win11_5.index t (0 : Fin 2) * 5000 ≤ (i 0).val ∧ (i 0).val < win11_5.index t (0 : Fin 2) * 5000 + 5000; omega
  | ⟨1, _⟩ => show win11_5.index t (1 : Fin 2) * 128 ≤ (i 1).val ∧ (i 1).val < win11_5.index t (1 : Fin 2) * 128 + 128; omega

theorem out5 (c : Dev nD) :
    (dat11 V c).arrAt 5 cfg11.N = Cert.Spec.bnreluK (V c main_v207_0) (V c main_v209) (V c main_v213) (V c main_v196) (V c main_v199) :=
  (dat11 V c).arrAt_eq_of_cover 5 (G V c) (fun t _ => flushed_eq V c t) cover

end Cert.KernelIdeal.NR11

end
-- ==== Proof.LS12Math.lean ====
import proofs.«410724_j86964497809599_1_alg».proof.Proof.LS3Math

namespace Cert.KernelIdeal.LS12

open Cert.KernelIdeal Cert.KernelIdeal.Gen Idealize.ShloMosaic Idealize.ShloMosaic.TcCoe Idealize.ShloMosaic.ValueIdx

export Cert.KernelIdeal.LS3 (colF row_lt sumRow_tiles sqRow_tiles)

-- This region's payload functions are the same terms as region 3's, so each fact below is region 3's.

theorem pay1_apply (y : S1x128.Idx) : k12_pay1 (F := Ideal) y = 0 := LS3.pay1_apply y
theorem pay2_apply (y : S1x128.Idx) : k12_pay2 (F := Ideal) y = 0 := LS3.pay2_apply y

section
variable (x0 : FVec Ideal S5000x128 .f32) (x1 : FVec Ideal S128x128 .f32) (x2 acc : FVec Ideal S1x128 .f32) (j : Fin 128)

theorem pay4_apply : k12_pay4 (F := Ideal) x0 x1 x2 acc (ix2 0 j)
    = acc (ix2 0 j) + ∑ r : Fin 5000, k12_pay3 (F := Ideal) x0 x1 x2 (ix2 r j) :=
  LS3.pay4_apply x0 x1 x2 acc j

theorem pay5_apply : k12_pay5 (F := Ideal) x0 x1 x2 acc (ix2 0 j)
    = acc (ix2 0 j) + ∑ r : Fin 5000, k12_pay3 (F := Ideal) x0 x1 x2 (ix2 r j) * k12_pay3 (F := Ideal) x0 x1 x2 (ix2 r j) :=
  LS3.pay5_apply x0 x1 x2 acc j
end

variable (X : Cert.Spec.M Cert.ReferenceIdeal.S50000x128) (W : Cert.Spec.M Cert.ReferenceIdeal.S128x128)
  (b : Cert.Spec.M Cert.ReferenceIdeal.S1x128) (x0 : FVec Ideal S5000x128 .f32) {t : ℕ} (ht : t < 10)
  (hx : ∀ (r : Fin 5000) (k : Fin 128), x0 (ix2 r k) = X (ix2 ⟨t * 5000 + r.val, row_lt ht r⟩ k))
include hx

theorem pay3_tile (r : Fin 5000) (j : Fin 128) :
    k12_pay3 (F := Ideal) x0 W b (ix2 r j) = Cert.Spec.lin128 X W b (ix2 ⟨t * 5000 + r.val, row_lt ht r⟩ j) :=
  LS3.pay3_tile X W b x0 ht hx r j

theorem pay3_tileSum (j : Fin 128) : ∑ r : Fin 5000, k12_pay3 (F := Ideal) x0 W b (ix2 r j)
    = Cert.TileSums.tileSum 10 5000 (colF (Cert.Spec.lin128 X W b) j) t :=
  LS3.pay3_tileSum X W b x0 ht hx j

theorem pay3_tileSumSq (j : Fin 128) :
    ∑ r : Fin 5000, k12_pay3 (F := Ideal) x0 W b (ix2 r j) * k12_pay3 (F := Ideal) x0 W b (ix2 r j)
      = Cert.TileSums.tileSum 10 5000 (colF (mulf (Cert.Spec.lin128 X W b) (Cert.Spec.lin128 X W b)) j) t :=
  LS3.pay3_tileSumSq X W b x0 ht hx j

end Cert.KernelIdeal.LS12
-- ==== Proof.LS12.lean ====
import proofs.«410724_j86964497809599_1_alg».proof.Proof.LS12Math
import proofs.«410724_j86964497809599_1_alg».proof.Proof.Gen.KernelIdeal.Frame
import Idealize.ShloMosaic.Lib.Pipeline.Value
import Idealize.ShloMosaic.Lib.Tactic

set_option maxRecDepth 16384

noncomputable section

namespace Cert.KernelIdeal.LS12

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

abbrev Za (c : Dev nD) : Cert.Spec.M Cert.ReferenceIdeal.S50000x128 :=
  Cert.Spec.lin128 (V c main_v230) (V c main_v232) (V c main_v235)

-- The tile's linear map, and each row of p plus the tile's column sums of the map and of its squares.
abbrev pays x0 x1 x2 (p : FVec Ideal S1x128 .f32 × FVec Ideal S1x128 .f32) :=
  (k12_pay3 (F := Ideal) x0 x1 x2, k12_pay4 x0 x1 x2 p.1, k12_pay5 x0 x1 x2 p.2)

theorem hz : (![0, 0] : Fin 2 → Nat) = fun _ => 0 := funext fun a => by fin_cases a <;> rfl

theorem outs_A (c : Dev nD) (t : Fin cfg12.N) (h0 : t.val % 10 = 0) :
    outsAt12 V c t.val t.isLt = pays (iblk12 V c 0 t) (iblk12 V c 1 t) (iblk12 V c 2 t) (k12_pay1 (F := Ideal), k12_pay2 (F := Ideal)) := by
  rw [outsAt12_A V c t h0]
  unfold out12_A_3 out12_A_4 out12_A_5
  rw [View.read_writes_eq_canon _ _ _ (fun _ => cover12_A_3 ..), View.read_writes_eq_canon _ _ _ (fun _ => cover12_A_4 ..),
    View.read_writes_eq_canon _ _ _ (fun _ => cover12_A_5 ..)]
  unfold kernelRun12_A
  dsimp only
  sl_unfold_words
  repeat rw [View.canon_cons_unit_zero hz]
  repeat rw [View.readCov_unit_zero _ hz]
  simp only [View.readAt_eq_ld, Memref.IsWhole.read_unread]
  repeat rw [View.ld_unit_zero hz]

theorem outs_B (c : Dev nD) (t : Fin cfg12.N) (h0 : ¬t.val % 10 = 0) :
    outsAt12 V c t.val t.isLt
      = pays (iblk12 V c 0 t) (iblk12 V c 1 t) (iblk12 V c 2 t) (outsAt12 V c (t.val - 1) (Nat.sub_lt_of_lt t.isLt)).2 := by
  rw [outsAt12_B V c t h0]
  unfold out12_B_3 out12_B_4 out12_B_5
  rw [View.read_writes_eq_canon _ _ _ (fun _ => cover12_B_3 ..), View.read_writes_eq_canon _ _ _ (fun _ => cover12_B_4 ..),
    View.read_writes_eq_canon _ _ _ (fun _ => cover12_B_5 ..)]
  unfold kernelRun12_B
  dsimp only
  repeat rw [View.canon_cons_unit_zero hz]
  simp only [View.readAt_eq_ld, Memref.IsWhole.read_unread]
  repeat rw [View.ld_unit_zero hz]

theorem tlt (t : Fin cfg12.N) : t.val < 10 := lt_of_lt_of_eq t.isLt (show cfg12.N = 10 from N_12)

theorem offs : ∀ t : Fin cfg12.N, win12_0.index t = ![t.val, 0] ∧ win12_1.index t = (fun _ => 0) ∧ win12_2.index t = (fun _ => 0)
    ∧ win12_3.index t = ![t.val, 0] ∧ win12_4.index t = (fun _ => 0) ∧ win12_5.index t = (fun _ => 0) :=
  (by decide +kernel : ∀ t : Fin grid12.N, _)

theorem off0 {n : ℕ} {ix : Fin n → ℕ} (sz : Fin n → ℕ) (h : ix = fun _ => 0) : (fun a => ix a * sz a) = fun _ => 0 := by
  subst h; exact funext fun _ => Nat.zero_mul _

theorem mem_blk {b : Ref sig .tc} {r : Rect b.ty.shape} {i : b.ty.shape.Idx} (h : i ∈ r.set) :
    i ∈ ((View.whole b).slice r).set := (View.set_slice_whole b r).symm ▸ h

theorem ext2 {n0 n1 : ℕ} {α : Type} {f g : (⟨2, ![n0, n1]⟩ : Shape).Idx → α} (h : ∀ r j, f (ix2 r j) = g (ix2 r j)) : f = g :=
  funext fun y => by rw [eq_ix2 y]; exact h _ _

theorem x_row (c : Dev nD) (t : Fin cfg12.N) (r : Fin 5000) (k : Fin 128) :
    iblk12 V c 0 t (ix2 r k) = V c main_v230 (ix2 ⟨t.val * 5000 + r.val, row_lt (tlt t) r⟩ k) :=
  congrArg (V c main_v230) (Shape.idx_ext₂ ((win12_0.rect_emb_val t _ 0).trans (by rw [(offs t).1]; rfl))
    (win12_0.rect_emb_val_of_index_zero t 1 (congrFun (offs t).1 1) _))
theorem w_eq (c : Dev nD) (t : Fin cfg12.N) : iblk12 V c 1 t = V c main_v232 := View.ld_unit_zero (off0 _ (offs t).2.1) _ _
theorem b_eq (c : Dev nD) (t : Fin cfg12.N) : iblk12 V c 2 t = V c main_v235 := View.ld_unit_zero (off0 _ (offs t).2.2.1) _ _

-- By induction on the point: each point adds its tile's column sums to what the point before left.
theorem acc_eq (c : Dev nD) (j : Fin 128) : ∀ (n : ℕ) (h : n < cfg12.N),
    (outsAt12 V c n h).2.1 (ix2 0 j) = ∑ s ∈ Finset.range (n + 1), Cert.TileSums.tileSum 10 5000 (colF (Za V c) j) s ∧
    (outsAt12 V c n h).2.2 (ix2 0 j)
      = ∑ s ∈ Finset.range (n + 1), Cert.TileSums.tileSum 10 5000 (colF (mulf (Za V c) (Za V c)) j) s
  | 0, h => by
    rw [outs_A V c ⟨0, h⟩ rfl, w_eq, b_eq]
    dsimp only
    rw [pay4_apply, pay5_apply, pay1_apply, pay2_apply, Cert.TileSums.acc_zero, Cert.TileSums.acc_zero, zero_add, zero_add]
    exact ⟨pay3_tileSum _ _ _ _ (tlt ⟨0, h⟩) (x_row V c _) j, pay3_tileSumSq _ _ _ _ (tlt ⟨0, h⟩) (x_row V c _) j⟩
  | n + 1, h => by
    rw [outs_B V c ⟨n + 1, h⟩ (by have := tlt ⟨n + 1, h⟩; dsimp only at this ⊢; omega), w_eq, b_eq]
    dsimp only
    rw [pay4_apply, pay5_apply, Cert.TileSums.acc_succ, Cert.TileSums.acc_succ]
    exact ⟨congrArg₂ (· + ·) (acc_eq c j n _).1 (pay3_tileSum _ _ _ _ (tlt ⟨n + 1, h⟩) (x_row V c _) j),
      congrArg₂ (· + ·) (acc_eq c j n _).2 (pay3_tileSumSq _ _ _ _ (tlt ⟨n + 1, h⟩) (x_row V c _) j)⟩

-- Tile t of the map is the map of rows t · 5000 … of X, and the ten tiles cover the 50000 rows.
theorem out3 (c : Dev nD) : (dat12 V c).arrAt 3 cfg12.N = Cert.Spec.lin128 (V c main_v230) (V c main_v232) (V c main_v235) := by
  refine (dat12 V c).arrAt_eq_of_cover 3 (Za V c) (fun t _ => ext2 (n0 := 5000) (n1 := 128) fun r j => ?_) fun i => ?_
  · have e : (outsAt12 V c t.val t.isLt).1 = k12_pay3 (iblk12 V c 0 t) (V c main_v232) (V c main_v235) := by
      by_cases h0 : t.val % 10 = 0
      · rw [outs_A V c t h0, w_eq, b_eq]
      · rw [outs_B V c t h0, w_eq, b_eq]
    exact (congrFun e _).trans ((pay3_tile _ _ _ _ (tlt t) (x_row V c t) r j).trans (congrArg (Za V c)
      (Shape.idx_ext₂ ((win12_3.rect_emb_val t (ix2 r j) 0).trans (by rw [(offs t).2.2.2.1]; rfl)).symm
        (win12_3.rect_emb_val_of_index_zero t 1 (congrFun (offs t).2.2.2.1 1) (ix2 r j)).symm)))
  · have ht : (i 0).val / 5000 < cfg12.N := by
      rw [show cfg12.N = 10 from N_12]; have : (i 0).val < 50000 := (i 0).isLt; omega
    refine ⟨⟨_, ht⟩, flush12_3 _, mem_blk (Rect.mem_set_unit.mpr ?_)⟩
    rw [(offs _).2.2.2.1]
    exact fun a => match a with
      | ⟨0, _⟩ => ⟨Nat.div_mul_le_self _ _, Nat.lt_div_mul_add (by decide)⟩
      | ⟨1, _⟩ => ⟨Nat.zero_le _, (i 1).isLt⟩

theorem n9 : 9 < cfg12.N := by rw [show cfg12.N = 10 from N_12]; decide

theorem out4 (c : Dev nD) : (dat12 V c).arrAt 4 cfg12.N = Cert.Spec.sumRow (Cert.Spec.lin128 (V c main_v230) (V c main_v232) (V c main_v235)) := by
  refine (dat12 V c).arrAt_eq_of_cover 4 (Cert.Spec.sumRow (Za V c)) (fun t hf => ?_) fun i =>
    ⟨⟨9, n9⟩, (flush12_4 _).mpr rfl, mem_blk (View.mem_set_unit_zero (off0 _ (offs _).2.2.2.2.1) _ i)⟩
  have e : ∀ G, ((cfg12.win 4).blk t).view.read (Elt Ideal) G = G := fun G => View.ld_unit_zero (off0 _ (offs t).2.2.2.2.1) _ G
  rw [e]
  refine ext2 (n0 := 1) (n1 := 128) fun p j => ?_
  obtain rfl : p = 0 := Subsingleton.elim _ _
  exact (acc_eq V c j t.val t.isLt).1.trans (by
    rw [sumRow_tiles, show t.val + 1 = 10 by have := (flush12_4 t).mp hf; have := tlt t; omega])

theorem out5 (c : Dev nD) : (dat12 V c).arrAt 5 cfg12.N = Cert.Spec.sqRow (Cert.Spec.lin128 (V c main_v230) (V c main_v232) (V c main_v235)) := by
  refine (dat12 V c).arrAt_eq_of_cover 5 (Cert.Spec.sqRow (Za V c)) (fun t hf => ?_) fun i =>
    ⟨⟨9, n9⟩, (flush12_5 _).mpr rfl, mem_blk (View.mem_set_unit_zero (off0 _ (offs _).2.2.2.2.2) _ i)⟩
  have e : ∀ G, ((cfg12.win 5).blk t).view.read (Elt Ideal) G = G := fun G => View.ld_unit_zero (off0 _ (offs t).2.2.2.2.2) _ G
  rw [e]
  refine ext2 (n0 := 1) (n1 := 128) fun p j => ?_
  obtain rfl : p = 0 := Subsingleton.elim _ _
  exact (acc_eq V c j t.val t.isLt).2.trans (by
    rw [sqRow_tiles, show t.val + 1 = 10 by have := (flush12_5 t).mp hf; have := tlt t; omega])

end Cert.KernelIdeal.LS12

end
-- ==== Proof.NMSPay13.lean ====
import proofs.«410724_j86964497809599_1_alg».proof.Proof.NMSPay1

namespace Cert.KernelIdeal.NMSPay13

open Cert.KernelIdeal Cert.KernelIdeal.Gen Idealize.ShloMosaic Idealize.ShloMosaic.TcCoe Idealize.ShloMosaic.ValueIdx
open Cert.SpecAt (bnrelu1)

-- This region's payload functions are the same terms as region 1's, so each fact below is region 1's.

theorem pay5_apply (x0 : FVec Ideal S5000x128 .f32) (xvar xmean xg xbe : FVec Ideal S1x128 .f32) (xw : FVec Ideal S128x128 .f32)
    (xb : FVec Ideal S1x128 .f32) (p : Fin 5000) (q : Fin 128) :
    k13_pay5 (F := Ideal) x0 xvar xmean xg xbe xw xb (ix2 p q)
      = (∑ k : Fin 128, bnrelu1 (x0 (ix2 p k)) (xmean (ix2 (0 : Fin 1) k)) (xvar (ix2 (0 : Fin 1) k)) (xg (ix2 (0 : Fin 1) k))
            (xbe (ix2 (0 : Fin 1) k)) * xw (ix2 k q)) + xb (ix2 (0 : Fin 1) q) :=
  NMSPay1.pay5_apply x0 xvar xmean xg xbe xw xb p q

theorem pay1_apply (v : FVec Ideal S5000x128 .f32) (acc : FVec Ideal S1x128 .f32) (q : Fin 128) :
    k13_pay1 (F := Ideal) v acc (ix2 (0 : Fin 1) q) = acc (ix2 (0 : Fin 1) q) + ∑ p : Fin 5000, v (ix2 p q) :=
  NMSPay1.pay1_apply v acc q

theorem pay2_apply (v : FVec Ideal S5000x128 .f32) (acc : FVec Ideal S1x128 .f32) (q : Fin 128) :
    k13_pay2 (F := Ideal) v acc (ix2 (0 : Fin 1) q) = acc (ix2 (0 : Fin 1) q) + ∑ p : Fin 5000, v (ix2 p q) * v (ix2 p q) :=
  NMSPay1.pay2_apply v acc q

theorem pay3_apply (j : S1x128.Idx) : k13_pay3 (F := Ideal) j = 0 := NMSPay1.pay3_apply j
theorem pay4_apply (j : S1x128.Idx) : k13_pay4 (F := Ideal) j = 0 := NMSPay1.pay4_apply j

end Cert.KernelIdeal.NMSPay13
-- ==== Proof.NMS13Pieces.lean ====
import proofs.«410724_j86964497809599_1_alg».proof.Proof.Gen.KernelIdeal.Frame
import proofs.«410724_j86964497809599_1_alg».proof.Proof.NMSPay13
import proofs.«410724_j86964497809599_1_alg».proof.Proof.TileSums
import Idealize.ShloMosaic.Lib.Pipeline.Value
import Idealize.ShloMosaic.Lib.Tactic

set_option maxRecDepth 16384

noncomputable section

namespace Cert.KernelIdeal.NMS13

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

variable {F : FTy → Type} [FloatOps F] (c : Dev nD) (i : grid13.Coords)
  (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole)
  (x0 : Vec F S5000x128 .f32) (x1 x2 x3 x4 : Vec F S1x128 .f32) (x5 : Vec F S128x128 .f32) (x6 : Vec F S1x128 .f32)

-- First point: the three outputs are the body's payloads of the input blocks, the rows of sums started from the zero rows.
theorem tile_A (hc : cond13_0 i) :
    out13_A_7 c i a1 h1 a2 h2 a3 h3 a4 h4 a5 h5 a6 h6 a7 h7 a8 h8 a9 h9 a10 h10 hc x0 x1 x2 x3 x4 x5 x6 = k13_pay5 x0 x2 x1 x3 x4 x5 x6 := by
  unfold out13_A_7
  rw [View.read_writes_eq_canon _ _ _ (cover13_A_7 c i a1 h1 a2 h2 a3 h3 a4 h4 a5 h5 a6 h6 a7 h7 a8 h8 a9 h9 a10 h10 hc x0 x1 x2 x3 x4 x5 x6)]
  unfold kernelRun13_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz]

theorem sum_A (hc : cond13_0 i) :
    out13_A_8 c i a1 h1 a2 h2 a3 h3 a4 h4 a5 h5 a6 h6 a7 h7 a8 h8 a9 h9 a10 h10 hc x0 x1 x2 x3 x4 x5 x6 = k13_pay1 (k13_pay5 x0 x2 x1 x3 x4 x5 x6) (k13_pay3 (F := F)) := by
  unfold out13_A_8
  rw [View.read_writes_eq_canon _ _ _ (cover13_A_8 c i a1 h1 a2 h2 a3 h3 a4 h4 a5 h5 a6 h6 a7 h7 a8 h8 a9 h9 a10 h10 hc x0 x1 x2 x3 x4 x5 x6)]
  unfold kernelRun13_A
  dsimp only
  sl_unfold_words
  rw [View.canon_cons_unit_zero (S := S1x128) hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz, View.readCov_unit_zero (S := S1x128) _ hz]

theorem sq_A (hc : cond13_0 i) :
    out13_A_9 c i a1 h1 a2 h2 a3 h3 a4 h4 a5 h5 a6 h6 a7 h7 a8 h8 a9 h9 a10 h10 hc x0 x1 x2 x3 x4 x5 x6 = k13_pay2 (k13_pay5 x0 x2 x1 x3 x4 x5 x6) (k13_pay4 (F := F)) := by
  unfold out13_A_9
  rw [View.read_writes_eq_canon _ _ _ (cover13_A_9 c i a1 h1 a2 h2 a3 h3 a4 h4 a5 h5 a6 h6 a7 h7 a8 h8 a9 h9 a10 h10 hc x0 x1 x2 x3 x4 x5 x6)]
  unfold kernelRun13_A
  dsimp only
  sl_unfold_words
  rw [View.canon_cons_unit_zero (S := S1x128) hz]
  simp only [View.readAt_eq_ld, h1.read_unread, h2.read_unread, h3.read_unread, h4.read_unread, h5.read_unread, h6.read_unread, h7.read_unread, View.ld_unit_zero (S := S5000x128) hz, View.ld_unit_zero (S := S1x128) hz, View.ld_unit_zero (S := S128x128) hz, View.readCov_unit_zero (S := S1x128) _ hz]

-- Later points: the same, the rows of sums continued from what they held.
theorem tile_B (hc : ¬cond13_0 i) (xo8 xo9 : Vec F S1x128 .f32) :
    out13_B_7 c i a1 h1 a2 h2 a3 h3 a4 h4 a5 h5 a6 h6 a7 h7 a8 h8 a9 h9 a10 h10 hc x0 x1 x2 x3 x4 x5 x6 xo8 xo9 = k13_pay5 x0 x2 x1 x3 x4 x5 x6 := by
  unfold out13_B_7
  rw [View.read_writes_eq_canon _ _ _ (cover13_B_7 c i a1 h1 a2 h2 a3 h3 a4 h4 a5 h5 a6 h6 a7 h7 a8 h8 a9 h9 a10 h10 hc x0 x1 x2 x3 x4 x5 x6 xo8 xo9)]
  unfold kernelRun13_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

theorem sum_B (hc : ¬cond13_0 i) (xo8 xo9 : Vec F S1x128 .f32) :
    out13_B_8 c i a1 h1 a2 h2 a3 h3 a4 h4 a5 h5 a6 h6 a7 h7 a8 h8 a9 h9 a10 h10 hc x0 x1 x2 x3 x4 x5 x6 xo8 xo9 = k13_pay1 (k13_pay5 x0 x2 x1 x3 x4 x5 x6) xo8 := by
  unfold out13_B_8
  rw [View.read_writes_eq_canon _ _ _ (cover13_B_8 c i a1 h1 a2 h2 a3 h3 a4 h4 a5 h5 a6 h6 a7 h7 a8 h8 a9 h9 a10 h10 hc x0 x1 x2 x3 x4 x5 x6 xo8 xo9)]
  unfold kernelRun13_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

theorem sq_B (hc : ¬cond13_0 i) (xo8 xo9 : Vec F S1x128 .f32) :
    out13_B_9 c i a1 h1 a2 h2 a3 h3 a4 h4 a5 h5 a6 h6 a7 h7 a8 h8 a9 h9 a10 h10 hc x0 x1 x2 x3 x4 x5 x6 xo8 xo9 = k13_pay2 (k13_pay5 x0 x2 x1 x3 x4 x5 x6) xo9 := by
  unfold out13_B_9
  rw [View.read_writes_eq_canon _ _ _ (cover13_B_9 c i a1 h1 a2 h2 a3 h3 a4 h4 a5 h5 a6 h6 a7 h7 a8 h8 a9 h9 a10 h10 hc x0 x1 x2 x3 x4 x5 x6 xo8 xo9)]
  unfold kernelRun13_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S5000x128) hz, View.ld_unit_zero (S := S1x128) hz, View.ld_unit_zero (S := S128x128) hz]

end Cert.KernelIdeal.NMS13

end
-- ==== Proof.NMS13.lean ====
import proofs.«410724_j86964497809599_1_alg».proof.Proof.NMS13Pieces

set_option maxRecDepth 16384

noncomputable section

namespace Cert.KernelIdeal.NMS13

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.TileSums

variable (V : (c : Dev nD) → (b : Ref sig .tc) → Buf (Elt Ideal) ((c : Thread nD τ).loc b))

-- The specification's output: the second linear map of the clamped normalisation.
abbrev Y (c : Dev nD) : Cert.Spec.M Cert.ReferenceIdeal.S50000x128 :=
  Cert.Spec.lin128 (Cert.Spec.bnreluK (V c main_v253_0) (V c main_v255) (V c main_v259) (V c main_v238) (V c main_v241)) (V c main_v243) (V c main_v246)

-- The body's arithmetic of point t's input blocks.
abbrev tile (c : Dev nD) (t : Fin cfg13.N) : FVec Ideal S5000x128 .f32 :=
  k13_pay5 (F := Ideal) (iblk13 V c 0 t) (iblk13 V c 2 t) (iblk13 V c 1 t) (iblk13 V c 3 t) (iblk13 V c 4 t) (iblk13 V c 5 t) (iblk13 V c 6 t)

theorem lt_ten (t : Fin cfg13.N) : t.val < 10 := lt_of_lt_of_eq t.isLt (show cfg13.N = 10 from N_13)

theorem row_lt (t : Fin cfg13.N) (p : Fin 5000) : t.val * 5000 + p.val < 50000 := by
  have := lt_ten t; have := p.isLt; omega

abbrev tLast : Fin cfg13.N := ⟨9, by rw [show cfg13.N = 10 from N_13]; decide⟩

-- The two row-tiled windows sit at block (t, 0).
theorem idxT : ∀ t : Fin cfg13.N, (win13_0.index t (0 : Fin 2) = t.val ∧ win13_0.index t (1 : Fin 2) = 0)
    ∧ win13_7.index t (0 : Fin 2) = t.val ∧ win13_7.index t (1 : Fin 2) = 0 :=
  (by decide +kernel : ∀ t : Fin grid13.N, _)

-- Every other window sits at block (0, 0).
theorem idx0 : ∀ t : Fin cfg13.N, (∀ a : Fin 2, win13_1.index t a = 0) ∧ (∀ a : Fin 2, win13_2.index t a = 0)
    ∧ (∀ a : Fin 2, win13_3.index t a = 0) ∧ (∀ a : Fin 2, win13_4.index t a = 0) ∧ (∀ a : Fin 2, win13_5.index t a = 0)
    ∧ (∀ a : Fin 2, win13_6.index t a = 0) ∧ (∀ a : Fin 2, win13_8.index t a = 0) ∧ ∀ a : Fin 2, win13_9.index t a = 0 :=
  (by decide +kernel : ∀ t : Fin grid13.N, _)

theorem off0 {i s : Fin 2 → ℕ} (h : ∀ a, i a = 0) : (fun a => i a * s a) = fun _ => 0 :=
  funext fun a => by rw [h a, Nat.zero_mul]

-- Entry (p, k) of block t of the first input is entry (5000 t + p, k) of its array.
theorem blk0_apply (c : Dev nD) (t : Fin cfg13.N) (p : Fin 5000) (k : Fin 128) :
    (iblk13 V c 0 t : FVec Ideal S5000x128 .f32) (ix2 p k) = V c main_v253_0 (ix2 (⟨t.val * 5000 + p.val, row_lt t p⟩ : Fin 50000) k) := by
  obtain ⟨⟨e0, e1⟩, -⟩ := idxT t
  show V c main_v253_0 (((cfg13.win 0).blk t).view.emb (ix2 p k)) = V c main_v253_0 _
  congr 1
  funext a
  apply Fin.ext
  match a with
  | ⟨0, _⟩ => show win13_0.index t (0 : Fin 2) * 5000 + 1 * p.val = t.val * 5000 + p.val; rw [e0]; omega
  | ⟨1, _⟩ => show win13_0.index t (1 : Fin 2) * 128 + 1 * k.val = k.val; rw [e1]; omega

-- The tile the body computes at point t is rows 5000 t … 5000 t + 4999 of the specification's output.
theorem tile_apply (c : Dev nD) (t : Fin cfg13.N) (p : Fin 5000) (q : Fin 128) :
    tile V c t (ix2 p q) = Y V c (ix2 (⟨t.val * 5000 + p.val, row_lt t p⟩ : Fin 50000) q) := by
  obtain ⟨e1, e2, e3, e4, e5, e6, -⟩ := idx0 t
  refine (NMSPay13.pay5_apply _ _ _ _ _ _ _ p q).trans ?_
  refine Eq.trans ?_ (Cert.SpecAt.lin128_apply _ _ _ ⟨_, row_lt t p⟩ q).symm
  refine congrArg₂ (fun a b : EReal => a + b) (Finset.sum_congr rfl fun k _ => ?_)
    (congrFun (Memref.read_access_unit_zero (Elt Ideal) main_v246 (off0 e6) _ (V c main_v246)) _)
  refine congrArg₂ (fun a b : EReal => a * b) ?_
    (congrFun (Memref.read_access_unit_zero (Elt Ideal) main_v243 (off0 e5) _ (V c main_v243)) _)
  refine Eq.trans ?_ (Cert.SpecAt.bnreluK_apply _ _ _ _ _ ⟨_, row_lt t p⟩ k).symm
  rw [blk0_apply V c t p k]
  exact congr (congr (congr (congrArg (Cert.SpecAt.bnrelu1 _)
    (congrFun (Memref.read_access_unit_zero (Elt Ideal) main_v255 (off0 e1) _ (V c main_v255)) _))
    (congrFun (Memref.read_access_unit_zero (Elt Ideal) main_v259 (off0 e2) _ (V c main_v259)) _))
    (congrFun (Memref.read_access_unit_zero (Elt Ideal) main_v238 (off0 e3) _ (V c main_v238)) _))
    (congrFun (Memref.read_access_unit_zero (Elt Ideal) main_v241 (off0 e4) _ (V c main_v241)) _)

theorem tile_at (c : Dev nD) (t : Fin cfg13.N) (j : S5000x128.Idx) :
    tile V c t j = Y V c (ix2 (⟨t.val * 5000 + (j 0).val, row_lt t (j 0)⟩ : Fin 50000) (j 1)) := by
  obtain ⟨p, q, rfl⟩ : ∃ (p : Fin 5000) (q : Fin 128), j = ix2 p q := ⟨j 0, j 1, eq_ix2 j⟩
  exact tile_apply V c t p q

-- At the first point the rows of sums are the zero rows plus the tile's column sums.
theorem outs_first (c : Dev nD) (t : Fin cfg13.N) (h0 : t.val % 10 = 0) :
    outsAt13 V c t.val t.isLt = (tile V c t, k13_pay1 (tile V c t) (k13_pay3 (F := Ideal)), k13_pay2 (tile V c t) (k13_pay4 (F := Ideal))) := by
  rw [outsAt13_A V c t h0]
  exact congrArg₂ Prod.mk (tile_A ..) (congrArg₂ Prod.mk (sum_A ..) (sq_A ..))

-- At a later point they are what the point before left plus the tile's column sums.
theorem outs_next (c : Dev nD) (t : Fin cfg13.N) (h0 : ¬t.val % 10 = 0) :
    outsAt13 V c t.val t.isLt = (tile V c t,
      k13_pay1 (tile V c t) (outsAt13 V c (t.val - 1) (Nat.lt_of_le_of_lt (Nat.sub_le _ _) t.isLt)).2.1,
      k13_pay2 (tile V c t) (outsAt13 V c (t.val - 1) (Nat.lt_of_le_of_lt (Nat.sub_le _ _) t.isLt)).2.2) := by
  rw [outsAt13_B V c t h0]
  exact congrArg₂ Prod.mk (tile_B ..) (congrArg₂ Prod.mk (sum_B ..) (sq_B ..))

theorem after_tile (c : Dev nD) (t : Fin cfg13.N) : (outsAt13 V c t.val t.isLt).1 = tile V c t := by
  by_cases h0 : t.val % 10 = 0
  · rw [outs_first V c t h0]
  · rw [outs_next V c t h0]

-- Column q of the specification's output under f, row by row.
def col (c : Dev nD) (f : EReal → EReal) (q : Fin 128) : Fin (10 * 5000) → EReal := fun r => f (Y V c (ix2 (r : Fin 50000) q))

theorem tile_col (c : Dev nD) (f : EReal → EReal) (t : Fin cfg13.N) (q : Fin 128) :
    ∑ p : Fin 5000, f (tile V c t (ix2 p q)) = tileSum 10 5000 (col V c f q) t.val := by
  rw [tileSum_of_lt 10 5000 _ (lt_ten t)]
  exact Finset.sum_congr rfl fun p _ => congrArg f (tile_apply V c t p q)

-- A row that starts at the first tile's column sums of f and grows by each later tile's holds, after point n, those of the first n + 1 tiles.
theorem acc (c : Dev nD) (f : EReal → EReal) (r : (n : ℕ) → n < cfg13.N → FVec Ideal S1x128 .f32)
    (h0 : ∀ h q, r 0 h (ix2 (0 : Fin 1) q) = ∑ p : Fin 5000, f (tile V c ⟨0, h⟩ (ix2 p q)))
    (hs : ∀ n h q, r (n + 1) h (ix2 (0 : Fin 1) q)
      = r n (Nat.lt_of_succ_lt h) (ix2 (0 : Fin 1) q) + ∑ p : Fin 5000, f (tile V c ⟨n + 1, h⟩ (ix2 p q)))
    (q : Fin 128) : ∀ n h, r n h (ix2 (0 : Fin 1) q) = ∑ s ∈ Finset.range (n + 1), tileSum 10 5000 (col V c f q) s
  | 0, h => by rw [h0, acc_zero]; exact tile_col V c f ⟨0, h⟩ q
  | n + 1, h => by rw [hs, acc c f r h0 hs q n, acc_succ]; exact congrArg _ (tile_col V c f ⟨n + 1, h⟩ q)

-- So after the last point it is the row R of whole-column sums of f.
theorem last (c : Dev nD) (f : EReal → EReal) (r : (n : ℕ) → n < cfg13.N → FVec Ideal S1x128 .f32)
    (h0 : ∀ h q, r 0 h (ix2 (0 : Fin 1) q) = ∑ p : Fin 5000, f (tile V c ⟨0, h⟩ (ix2 p q)))
    (hs : ∀ n h q, r (n + 1) h (ix2 (0 : Fin 1) q)
      = r n (Nat.lt_of_succ_lt h) (ix2 (0 : Fin 1) q) + ∑ p : Fin 5000, f (tile V c ⟨n + 1, h⟩ (ix2 p q)))
    (R : Cert.Spec.M Cert.ReferenceIdeal.S1x128) (hR : ∀ q, R (ix2 (0 : Fin 1) q) = ∑ i : Fin 50000, f (Y V c (ix2 i q))) :
    r 9 tLast.isLt = R := by
  funext j
  obtain ⟨z, q, rfl⟩ : ∃ (z : Fin 1) (q : Fin 128), j = ix2 z q := ⟨j 0, j 1, eq_ix2 j⟩
  obtain rfl : z = 0 := Subsingleton.elim _ _
  rw [acc V c f r h0 hs q 9, hR]
  exact (sum_eq_range 10 5000 (col V c f q)).symm

theorem not_first {n : ℕ} (h : n + 1 < cfg13.N) : ¬(n + 1) % 10 = 0 := by
  have hN : cfg13.N = 10 := N_13
  omega

theorem last_sum (c : Dev nD) : (outsAt13 V c tLast.val tLast.isLt).2.1 = Cert.Spec.sumRow (Y V c) :=
  last V c (fun x => x) (fun n h => (outsAt13 V c n h).2.1)
    (fun h q => by
      rw [outs_first V c ⟨0, h⟩ rfl]
      exact (NMSPay13.pay1_apply _ _ q).trans (by rw [NMSPay13.pay3_apply, zero_add]))
    (fun n h q => by
      rw [outs_next V c ⟨n + 1, h⟩ (not_first h)]
      exact NMSPay13.pay1_apply _ _ q)
    _ (Cert.SpecAt.sumRow_apply _)

theorem last_sq (c : Dev nD) : (outsAt13 V c tLast.val tLast.isLt).2.2 = Cert.Spec.sqRow (Y V c) :=
  last V c (fun x => x * x) (fun n h => (outsAt13 V c n h).2.2)
    (fun h q => by
      rw [outs_first V c ⟨0, h⟩ rfl]
      exact (NMSPay13.pay2_apply _ _ q).trans (by rw [NMSPay13.pay4_apply, zero_add]))
    (fun n h q => by
      rw [outs_next V c ⟨n + 1, h⟩ (not_first h)]
      exact NMSPay13.pay2_apply _ _ q)
    _ (Cert.SpecAt.sqRow_apply _)

theorem flushed7_eq (c : Dev nD) (t : Fin cfg13.N) :
    (dat13 V c).flushed 7 t = ((cfg13.win 7).blk t).view.read (Elt Ideal) (Y V c) := by
  obtain ⟨-, e0, e1⟩ := idxT t
  show (cfg13.win 7).cut (grid13.coords t) ((dat13 V c).after 7 t) = _
  rw [after13_7, after_tile V c t]
  funext j
  refine (tile_at V c t j).trans ?_
  show Y V c _ = Y V c (((cfg13.win 7).blk t).view.emb j)
  congr 1
  funext a
  apply Fin.ext
  match a with
  | ⟨0, _⟩ => show t.val * 5000 + (j 0).val = win13_7.index t (0 : Fin 2) * 5000 + 1 * (j 0).val; rw [e0]; omega
  | ⟨1, _⟩ => show (j 1).val = win13_7.index t (1 : Fin 2) * 128 + 1 * (j 1).val; rw [e1]; omega

theorem out7 (c : Dev nD) : (dat13 V c).arrAt 7 cfg13.N = Cert.Spec.lin128 (Cert.Spec.bnreluK (V c main_v253_0) (V c main_v255) (V c main_v259) (V c main_v238) (V c main_v241)) (V c main_v243) (V c main_v246) :=
  (dat13 V c).arrAt_eq_of_cover 7 (Y V c) (fun t _ => flushed7_eq V c t) fun i => by
    have hi0 : (i 0).val < 50000 := (i 0).isLt
    have hi1 : (i 1).val < 128 := (i 1).isLt
    have ht : (i 0).val / 5000 < cfg13.N := by rw [show cfg13.N = 10 from N_13]; omega
    obtain ⟨-, e0, e1⟩ := idxT ⟨_, ht⟩
    refine ⟨⟨_, ht⟩, flush13_7 _, ?_⟩
    show i ∈ ((View.whole main_v260_0).slice (win13_7.rect ⟨_, ht⟩)).set
    rw [View.set_slice_whole, Rect.mem_set_unit]
    intro a
    match a with
    | ⟨0, _⟩ =>
      show win13_7.index _ (0 : Fin 2) * 5000 ≤ (i 0).val ∧ (i 0).val < win13_7.index _ (0 : Fin 2) * 5000 + 5000
      rw [e0]; dsimp only; omega
    | ⟨1, _⟩ =>
      show win13_7.index _ (1 : Fin 2) * 128 ≤ (i 1).val ∧ (i 1).val < win13_7.index _ (1 : Fin 2) * 128 + 128
      rw [e1]; omega

theorem out_last (c : Dev nD) (w : Fin cfg13.W) (G : Buf (Elt Ideal) ((cfg13.win w).arr.view.loc (c : Thread nD τ)))
    (hf : ∀ t : Fin cfg13.N, (cfg13.win w).flush t = true ↔ t.val % 10 = 9)
    (hG : (dat13 V c).flushed w tLast = ((cfg13.win w).blk tLast).view.read (Elt Ideal) G)
    (hc : ∀ i, i ∈ ((cfg13.win w).blk tLast).view.set) : (dat13 V c).arrAt w cfg13.N = G :=
  (dat13 V c).arrAt_eq_of_cover w G
    (fun t h => by
      obtain rfl : t = tLast := Fin.ext (show t.val = 9 by have := (hf t).mp h; have := lt_ten t; omega)
      exact hG)
    fun i => ⟨tLast, (hf tLast).mpr rfl, hc i⟩

theorem out8 (c : Dev nD) : (dat13 V c).arrAt 8 cfg13.N = Cert.Spec.sumRow (Cert.Spec.lin128 (Cert.Spec.bnreluK (V c main_v253_0) (V c main_v255) (V c main_v259) (V c main_v238) (V c main_v241)) (V c main_v243) (V c main_v246)) := by
  obtain ⟨-, -, -, -, -, -, e, -⟩ := idx0 tLast
  refine out_last V c 8 _ flush13_8 ?_ fun i => ?_
  · show (cfg13.win 8).cut (grid13.coords tLast) ((dat13 V c).after 8 tLast) = _
    rw [after13_8, last_sum V c]
    exact (Memref.read_access_unit_zero (Elt Ideal) main_v260_1 (off0 e) _ _).symm
  · show i ∈ ((View.whole main_v260_1).slice (win13_8.rect tLast)).set
    rw [View.set_slice_whole]
    exact View.mem_set_unit_zero (off0 e) _ i

theorem out9 (c : Dev nD) : (dat13 V c).arrAt 9 cfg13.N = Cert.Spec.sqRow (Cert.Spec.lin128 (Cert.Spec.bnreluK (V c main_v253_0) (V c main_v255) (V c main_v259) (V c main_v238) (V c main_v241)) (V c main_v243) (V c main_v246)) := by
  obtain ⟨-, -, -, -, -, -, -, e⟩ := idx0 tLast
  refine out_last V c 9 _ flush13_9 ?_ fun i => ?_
  · show (cfg13.win 9).cut (grid13.coords tLast) ((dat13 V c).after 9 tLast) = _
    rw [after13_9, last_sq V c]
    exact (Memref.read_access_unit_zero (Elt Ideal) main_v260_2 (off0 e) _ _).symm
  · show i ∈ ((View.whole main_v260_2).slice (win13_9.rect tLast)).set
    rw [View.set_slice_whole]
    exact View.mem_set_unit_zero (off0 e) _ i

end Cert.KernelIdeal.NMS13

end
-- ==== Proof.NR14.lean ====
import proofs.«410724_j86964497809599_1_alg».proof.Proof.Gen.KernelIdeal.Frame
import proofs.«410724_j86964497809599_1_alg».proof.Proof.SpecAt
import Idealize.ShloMosaic.Lib.ValueIdx
import Idealize.ShloMosaic.Lib.ValueLayout
import Idealize.ShloMosaic.Lib.Pipeline.Value

set_option maxRecDepth 16384

noncomputable section

namespace Cert.KernelIdeal.NR14

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.SpecAt (bnrelu1 bnreluK_apply)

variable (V : (c : Dev nD) → (b : Ref sig .tc) → Buf (Elt Ideal) ((c : Thread nD τ).loc b))

theorem hz : (![0, 0] : Fin 2 → Nat) = fun _ => 0 := funext fun a => by fin_cases a <;> rfl

-- The body is pointwise: entry (p, q) depends on z (p, q) and on column q of the four one-row operands.
theorem pay_apply (z : Vec Ideal S5000x128 .f32) (va mean g be : Vec Ideal S1x128 .f32) (p : Fin 5000) (q : Fin 128) :
    k14_pay1 z va mean g be (ix2 p q)
      = bnrelu1 (z (ix2 p q)) (mean (ix2 (0 : Fin 1) q)) (va (ix2 (0 : Fin 1) q)) (g (ix2 (0 : Fin 1) q)) (be (ix2 (0 : Fin 1) q)) := by
  unfold k14_pay1
  simp only [shapeCast_self]
  simp only [maximumf_apply, addf_apply, mulf_apply, subf_apply, broadcast_apply, broadcastTo_1b_ab_apply, rsqrt,
    Ideal.rsqrt_def, Ideal.ofBits_def]
  rfl

theorem idx_tile : ∀ t : Fin cfg14.N,
    win14_0.index t (0 : Fin 2) = t.val ∧ win14_0.index t (1 : Fin 2) = 0
    ∧ win14_5.index t (0 : Fin 2) = t.val ∧ win14_5.index t (1 : Fin 2) = 0 :=
  (by decide +kernel : ∀ t : Fin grid14.N, _)

theorem idx_row : ∀ (t : Fin cfg14.N) (a : Fin 2),
    win14_1.index t a = 0 ∧ win14_2.index t a = 0 ∧ win14_3.index t a = 0 ∧ win14_4.index t a = 0 :=
  (by decide +kernel : ∀ t : Fin grid14.N, _)

-- Block t of a 5000-row window starts at row 5000 t.
theorem emb5 (t : Fin cfg14.N) (p : Fin 5000) (q : Fin 128) (r : Fin 50000) (hr : r.val = 5000 * t.val + p.val) :
    ((cfg14.win 5).blk t).view.emb (ix2 p q) = (ix2 r q : S50000x128.Idx) := by
  obtain ⟨-, -, e0, e1⟩ := idx_tile t
  funext a; apply Fin.ext
  match a with
  | ⟨0, _⟩ => show win14_5.index t (0 : Fin 2) * 5000 + 1 * p.val = r.val; omega
  | ⟨1, _⟩ => show win14_5.index t (1 : Fin 2) * 128 + 1 * q.val = q.val; omega

theorem emb0 (t : Fin cfg14.N) (p : Fin 5000) (q : Fin 128) (r : Fin 50000) (hr : r.val = 5000 * t.val + p.val) :
    ((cfg14.win 0).blk t).view.emb (ix2 p q) = (ix2 r q : S50000x128.Idx) := by
  obtain ⟨e0, e1, -⟩ := idx_tile t
  funext a; apply Fin.ext
  match a with
  | ⟨0, _⟩ => show win14_0.index t (0 : Fin 2) * 5000 + 1 * p.val = r.val; omega
  | ⟨1, _⟩ => show win14_0.index t (1 : Fin 2) * 128 + 1 * q.val = q.val; omega

theorem zblk_apply (c : Dev nD) (t : Fin cfg14.N) (p : Fin 5000) (q : Fin 128) (r : Fin 50000) (hr : r.val = 5000 * t.val + p.val) :
    (iblk14 V c 0 t : Vec Ideal S5000x128 .f32) (ix2 p q) = (V c main_v260_0 : S50000x128.Idx → EReal) (ix2 r q) := by
  show (V c main_v260_0 : S50000x128.Idx → EReal) (((cfg14.win 0).blk t).view.emb (ix2 p q)) = _
  exact congrArg _ (emb0 t p q r hr)

-- A one-row window sits at block index 0 on both axes, so its block is its whole array.
theorem mblk_apply (c : Dev nD) (t : Fin cfg14.N) (q : Fin 128) :
    (iblk14 V c 1 t : Vec Ideal S1x128 .f32) (ix2 (0 : Fin 1) q) = (V c main_v262 : S1x128.Idx → EReal) (ix2 (0 : Fin 1) q) := by
  show (V c main_v262 : S1x128.Idx → EReal) (((cfg14.win 1).blk t).view.emb (ix2 (0 : Fin 1) q)) = _
  exact congrArg (V c main_v262 : S1x128.Idx → EReal)
    (funext fun a => Fin.ext (win14_1.rect_emb_val_of_index_zero t a (idx_row t a).1 (ix2 (0 : Fin 1) q)))
theorem vblk_apply (c : Dev nD) (t : Fin cfg14.N) (q : Fin 128) :
    (iblk14 V c 2 t : Vec Ideal S1x128 .f32) (ix2 (0 : Fin 1) q) = (V c main_v266 : S1x128.Idx → EReal) (ix2 (0 : Fin 1) q) := by
  show (V c main_v266 : S1x128.Idx → EReal) (((cfg14.win 2).blk t).view.emb (ix2 (0 : Fin 1) q)) = _
  exact congrArg (V c main_v266 : S1x128.Idx → EReal)
    (funext fun a => Fin.ext (win14_2.rect_emb_val_of_index_zero t a (idx_row t a).2.1 (ix2 (0 : Fin 1) q)))
theorem gblk_apply (c : Dev nD) (t : Fin cfg14.N) (q : Fin 128) :
    (iblk14 V c 3 t : Vec Ideal S1x128 .f32) (ix2 (0 : Fin 1) q) = (V c main_v249 : S1x128.Idx → EReal) (ix2 (0 : Fin 1) q) := by
  show (V c main_v249 : S1x128.Idx → EReal) (((cfg14.win 3).blk t).view.emb (ix2 (0 : Fin 1) q)) = _
  exact congrArg (V c main_v249 : S1x128.Idx → EReal)
    (funext fun a => Fin.ext (win14_3.rect_emb_val_of_index_zero t a (idx_row t a).2.2.1 (ix2 (0 : Fin 1) q)))
theorem bblk_apply (c : Dev nD) (t : Fin cfg14.N) (q : Fin 128) :
    (iblk14 V c 4 t : Vec Ideal S1x128 .f32) (ix2 (0 : Fin 1) q) = (V c main_v252 : S1x128.Idx → EReal) (ix2 (0 : Fin 1) q) := by
  show (V c main_v252 : S1x128.Idx → EReal) (((cfg14.win 4).blk t).view.emb (ix2 (0 : Fin 1) q)) = _
  exact congrArg (V c main_v252 : S1x128.Idx → EReal)
    (funext fun a => Fin.ext (win14_4.rect_emb_val_of_index_zero t a (idx_row t a).2.2.2 (ix2 (0 : Fin 1) q)))

abbrev G (c : Dev nD) : Cert.Spec.M Cert.ReferenceIdeal.S50000x128 :=
  Cert.Spec.bnreluK (V c main_v260_0) (V c main_v262) (V c main_v266) (V c main_v249) (V c main_v252)

theorem flushed_eq (c : Dev nD) (t : Fin cfg14.N) :
    (dat14 V c).flushed 5 t = ((cfg14.win 5).blk t).view.read (Elt Ideal) (G V c) := by
  show (cfg14.win 5).cut (grid14.coords t) ((dat14 V c).after 5 t) = _
  rw [after14_5]
  unfold out14_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have ht : t.val < 10 := lt_of_lt_of_eq (show t.val < grid14.N from t.isLt) N_14
  have hp : p.val < 5000 := p.isLt
  let r : Fin 50000 := ⟨5000 * t.val + p.val, by omega⟩
  show k14_pay1 (iblk14 V c 0 t) (iblk14 V c 2 t) (iblk14 V c 1 t) (iblk14 V c 3 t) (iblk14 V c 4 t) (ix2 p q)
    = G V c (((cfg14.win 5).blk t).view.emb (ix2 p q))
  refine (pay_apply _ _ _ _ _ p q).trans ?_
  refine Eq.trans ?_ (congrArg (G V c) (emb5 t p q r rfl)).symm
  refine Eq.trans ?_ (bnreluK_apply _ _ _ _ _ r q).symm
  rw [zblk_apply V c t p q r rfl, mblk_apply V c t q, vblk_apply V c t q, gblk_apply V c t q, bblk_apply V c t q]

theorem mem_blk (t : Fin cfg14.N) (i : S50000x128.Idx) :
    i ∈ ((cfg14.win 5).blk t).view.set ↔ ∀ a : Fin 2, win14_5.index t a * S5000x128.size a ≤ (i a).val ∧ (i a).val < win14_5.index t a * S5000x128.size a + S5000x128.size a := by
  show i ∈ ((View.whole main_v267).slice (win14_5.rect t)).set ↔ _
  rw [View.set_slice_whole, Rect.mem_set_unit]
  exact Iff.rfl

-- Row i lies in the block of point i / 5000.
theorem cover (i : S50000x128.Idx) : ∃ t : Fin cfg14.N, (cfg14.win 5).flush t = true ∧ i ∈ ((cfg14.win 5).blk t).view.set := by
  have hi0 : (i 0).val < 50000 := (i 0).isLt
  have hi1 : (i 1).val < 128 := (i 1).isLt
  let t : Fin cfg14.N := ⟨(i 0).val / 5000, by rw [show cfg14.N = 10 from N_14]; omega⟩
  obtain ⟨-, -, e0, e1⟩ := idx_tile t
  have ht : t.val = (i 0).val / 5000 := rfl
  refine ⟨t, flush14_5 t, ?_⟩
  rw [mem_blk]
  intro a
  match a with
  | ⟨0, _⟩ => show win14_5.index t (0 : Fin 2) * 5000 ≤ (i 0).val ∧ (i 0).val < win14_5.index t (0 : Fin 2) * 5000 + 5000; omega
  | ⟨1, _⟩ => show win14_5.index t (1 : Fin 2) * 128 ≤ (i 1).val ∧ (i 1).val < win14_5.index t (1 : Fin 2) * 128 + 128; omega

theorem out5 (c : Dev nD) :
    (dat14 V c).arrAt 5 cfg14.N = Cert.Spec.bnreluK (V c main_v260_0) (V c main_v262) (V c main_v266) (V c main_v249) (V c main_v252) :=
  (dat14 V c).arrAt_eq_of_cover 5 (G V c) (fun t _ => flushed_eq V c t) cover

end Cert.KernelIdeal.NR14

end
-- ==== Proof.PoolSum.lean ====
import Idealize.ShloMosaic.PureOps.Ideal
import Idealize.ShloMosaic.PureOps.Ideal.Laws
import Idealize.ShloMosaic.Lib.ValueIdx
import Mathlib.Algebra.BigOperators.Fin
import Mathlib.Data.Fintype.BigOperators

noncomputable section

namespace Cert.PoolSum

open Idealize.ShloMosaic Idealize.ShloMosaic.ValueIdx

abbrev poolDims (G N D : Nat) (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ where
  updateWindowDims := [1]
  insertedWindowDims := [0]
  scatterDimsToOperandDims := [0]
  indexVectorDim := 1
  wf := wf

variable {G N D w : Nat} (wf : ScatterDims.WF ⟨2, ![G, D]⟩ ⟨2, ![N, 1]⟩ ⟨2, ![N, D]⟩ [1] [0] [0] 1)

theorem start0 (j : (⟨2, ![N, D]⟩ : Shape).Idx) (idx : IVec ⟨2, ![N, 1]⟩ w) :
    (poolDims G N D wf).start j idx 0 = (idx (ix2 (j 0) 0)).toInt := by
  unfold ScatterDims.start
  rw [dif_pos (show (0 : Fin 2) ∈ (poolDims G N D wf).scatterDimsToOperandDims from List.mem_singleton.mpr rfl)]
  have hsi : (poolDims G N D wf).siIdx j ⟨List.idxOf (0 : Fin 2) (poolDims G N D wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

theorem start1 (j : (⟨2, ![N, D]⟩ : Shape).Idx) (idx : IVec ⟨2, ![N, 1]⟩ w) :
    (poolDims G N D wf).start j idx 1 = 0 := by
  unfold ScatterDims.start
  have h : ¬ (1 : Fin 2) ∈ (poolDims G N D wf).scatterDimsToOperandDims :=
    show ¬ (1 : Fin 2) ∈ ([0] : List (Fin 2)) from by decide
  rw [dif_neg h]

theorem window0 (j : (⟨2, ![N, D]⟩ : Shape).Idx) : (poolDims G N D wf).window j 0 = 0 := by
  unfold ScatterDims.window
  have h : ¬ (0 : Fin 2) ∈ (poolDims G N D wf).sKept := show ¬ (0 : Fin 2) ∈ ([1] : List (Fin 2)) from by decide
  rw [dif_neg h]

theorem window1 (j : (⟨2, ![N, D]⟩ : Shape).Idx) : (poolDims G N D wf).window j 1 = (j 1).val := by
  unfold ScatterDims.window
  have h : (1 : Fin 2) ∈ (poolDims G N D wf).sKept := show (1 : Fin 2) ∈ ([1] : List (Fin 2)) from by decide
  rw [dif_pos h]
  rfl

theorem resultIdx_iff (j : (⟨2, ![N, D]⟩ : Shape).Idx) (idx : IVec ⟨2, ![N, 1]⟩ w) (i : (⟨2, ![G, D]⟩ : Shape).Idx) :
    (poolDims G N D wf).resultIdx? j idx = some i ↔ ((idx (ix2 (j 0) 0)).toInt = ((i 0).val : ℤ) ∧ j 1 = i 1) := by
  have hi0 : (i 0).val < G := idx2_lt0 i
  have hi1 : (i 1).val < D := idx2_lt1 i
  have hj1 : (j 1).val < D := idx2_lt1 j
  unfold ScatterDims.resultIdx?
  constructor
  · intro h
    split at h
    · rename_i hall
      have he := Option.some.inj h
      have e0 := congrArg (fun k : (⟨2, ![G, D]⟩ : Shape).Idx => ((k 0).val : ℤ)) he
      have e1 := congrArg (fun k : (⟨2, ![G, D]⟩ : Shape).Idx => (k 1).val) he
      simp only at e0 e1
      have h0 := hall 0
      rw [start0, window0] at e0 h0
      rw [start1, window1] at e1
      refine ⟨by omega, Fin.ext (by omega)⟩
    · exact absurd h (by simp)
  · rintro ⟨h0, h1⟩
    have hall : ∀ a : Fin 2, 0 ≤ (poolDims G N D wf).start j idx a + ((poolDims G N D wf).window j a : ℤ)
        ∧ (poolDims G N D wf).start j idx a + ((poolDims G N D wf).window j a : ℤ) < ((⟨2, ![G, D]⟩ : Shape).size a : ℤ) := by
      intro a
      match a with
      | ⟨0, _⟩ =>
        show 0 ≤ (poolDims G N D wf).start j idx 0 + ((poolDims G N D wf).window j 0 : ℤ) ∧ (poolDims G N D wf).start j idx 0 + ((poolDims G N D wf).window j 0 : ℤ) < (G : ℤ)
        rw [start0, window0, h0]; omega
      | ⟨1, _⟩ =>
        show 0 ≤ (poolDims G N D wf).start j idx 1 + ((poolDims G N D wf).window j 1 : ℤ) ∧ (poolDims G N D wf).start j idx 1 + ((poolDims G N D wf).window j 1 : ℤ) < (D : ℤ)
        rw [start1, window1]; omega
    rw [dif_pos hall]
    congr 1
    funext a
    refine Fin.ext ?_
    match a with
    | ⟨0, _⟩ =>
      show ((poolDims G N D wf).start j idx 0 + ((poolDims G N D wf).window j 0 : ℤ)).toNat = (i 0).val
      rw [start0, window0, h0]; omega
    | ⟨1, _⟩ =>
      show ((poolDims G N D wf).start j idx 1 + ((poolDims G N D wf).window j 1 : ℤ)).toNat = (i 1).val
      rw [start1, window1, h1]; omega

theorem scatterAdd_apply (x : (⟨2, ![G, D]⟩ : Shape).Idx → EReal) (idx : IVec ⟨2, ![N, 1]⟩ w)
    (upd : (⟨2, ![N, D]⟩ : Shape).Idx → EReal) (g : Fin G) (d : Fin D) :
    Ideal.hostScatterAdd (poolDims G N D wf) x idx upd (ix2 g d)
      = x (ix2 g d) + ∑ n : Fin N, if (idx (ix2 n 0)).toInt = (g.val : ℤ) then upd (ix2 n d) else 0 := by
  unfold Ideal.hostScatterAdd
  congr 1
  rw [Finset.sum_filter, sum_idx2]
  refine Finset.sum_congr rfl fun n _ => ?_
  have hin : ∀ d' : Fin D,
      (if (poolDims G N D wf).resultIdx? (ix2 n d') idx = some (ix2 g d) then upd (ix2 n d') else 0)
        = if d' = d then (if (idx (ix2 n 0)).toInt = (g.val : ℤ) then upd (ix2 n d) else 0) else 0 := by
    intro d'
    by_cases hp : (poolDims G N D wf).resultIdx? (ix2 n d') idx = some (ix2 g d)
    · rw [if_pos hp]
      obtain ⟨h0, h1⟩ := (resultIdx_iff wf _ idx _).mp hp
      have h0' : (idx (ix2 n 0)).toInt = (g.val : ℤ) := h0
      have h1' : d' = d := h1
      subst h1'
      rw [if_pos rfl, if_pos h0']
    · rw [if_neg hp]
      by_cases hd : d' = d
      · subst hd
        have hn : ¬ (idx (ix2 n 0)).toInt = (g.val : ℤ) := fun h0 => hp ((resultIdx_iff wf _ idx _).mpr ⟨h0, rfl⟩)
        rw [if_pos rfl, if_neg hn]
      · rw [if_neg hd]
  rw [Finset.sum_congr rfl (fun d' _ => hin d'), Finset.sum_ite_eq' Finset.univ d, if_pos (Finset.mem_univ d)]

def onehot (w : BitVec 32) (g : Nat) : EReal :=
  FloatOps.sitofp (F := Ideal) .f32 ((IntOp.cmpi .eq w (BitVec.ofNat 32 g)).setWidth 32)

theorem word_eq_iff (w : BitVec 32) (g : Nat) (hg : g < 128) : w = BitVec.ofNat 32 g ↔ w.toInt = (g : ℤ) := by
  have hg' : (BitVec.ofNat 32 g).toInt = (g : ℤ) := by
    rw [BitVec.toInt_eq_toNat_cond, BitVec.toNat_ofNat]
    have hm : g % 2 ^ 32 = g := Nat.mod_eq_of_lt (by omega)
    rw [hm, if_pos (by omega)]
  constructor
  · rintro rfl; exact hg'
  · intro h; exact BitVec.eq_of_toInt_eq (h.trans hg'.symm)

theorem onehot_eq (w : BitVec 32) (g : Nat) (hg : g < 128) : onehot w g = if w.toInt = (g : ℤ) then 1 else 0 := by
  unfold onehot
  by_cases h : w = BitVec.ofNat 32 g
  · rw [if_pos ((word_eq_iff w g hg).mp h)]
    have hc : IntOp.cmpi .eq w (BitVec.ofNat 32 g) = 1#1 := by simp [IntOp.cmpi, h]
    rw [hc]
    show (((((1#1 : BitVec 1).setWidth 32).toInt : ℝ)) : EReal) = 1
    norm_num
  · rw [if_neg (fun h' => h ((word_eq_iff w g hg).mpr h'))]
    have hb : (w == BitVec.ofNat 32 g) = false := beq_eq_false_iff_ne.mpr h
    have hc : IntOp.cmpi .eq w (BitVec.ofNat 32 g) = 0#1 := by simp [IntOp.cmpi, hb]
    rw [hc]
    show (((((0#1 : BitVec 1).setWidth 32).toInt : ℝ)) : EReal) = 0
    norm_num

def poolFn (b : IVec ⟨2, ![N, 1]⟩ 32) (H : (⟨2, ![N, D]⟩ : Shape).Idx → EReal) : (⟨2, ![128, D]⟩ : Shape).Idx → EReal :=
  fun i => ∑ n : Fin N, onehot (b (ix2 n 0)) (i 0).val * H (ix2 n (i 1))

theorem scatterAdd_zero_eq_poolFn (wf' : ScatterDims.WF ⟨2, ![128, D]⟩ ⟨2, ![N, 1]⟩ ⟨2, ![N, D]⟩ [1] [0] [0] 1)
    (x : (⟨2, ![128, D]⟩ : Shape).Idx → EReal) (hx : ∀ i, x i = 0)
    (b : IVec ⟨2, ![N, 1]⟩ 32) (H : (⟨2, ![N, D]⟩ : Shape).Idx → EReal) :
    Ideal.hostScatterAdd (poolDims 128 N D wf') x b H = poolFn b H := by
  funext i
  obtain ⟨g, d, rfl⟩ : ∃ (g : Fin 128) (d : Fin D), i = ix2 g d := ⟨i 0, i 1, eq_ix2 i⟩
  rw [scatterAdd_apply, hx, zero_add]
  refine Finset.sum_congr rfl fun n _ => ?_
  show _ = onehot (b (ix2 n 0)) g.val * H (ix2 n d)
  rw [onehot_eq _ _ g.isLt]
  by_cases h : (b (ix2 n 0)).toInt = (g.val : ℤ)
  · rw [if_pos h, if_pos h, one_mul]
  · rw [if_neg h, if_neg h, zero_mul]

end Cert.PoolSum

end
-- ==== Proof.GP16Pay.lean ====
import proofs.«410724_j86964497809599_1_alg».proof.Proof.Gen.KernelIdeal.Skeleton
import proofs.«410724_j86964497809599_1_alg».proof.Proof.PoolSum
import Idealize.ShloMosaic.PureOps.Ideal.Laws
import Idealize.ShloMosaic.Lib.ValueIdx
import Idealize.ShloMosaic.Lib.Pipeline.Value

set_option maxRecDepth 16384

noncomputable section

namespace Cert.KernelIdeal.GP16

open Cert.KernelIdeal Cert.KernelIdeal.Gen Idealize.ShloMosaic Idealize.ShloMosaic.TcCoe Idealize.ShloMosaic.ValueIdx
open Cert.PoolSum (onehot)

abbrev DD : DotDims S5000x128 S5000x128 S128x128 := dot_S5000x128_S5000x128_S128x128_0_0_1_1_n_n

theorem dd_rank : DD.contr.rank = 1 := rfl
theorem dd_size : DD.contr.size ⟨0, by rw [dd_rank]; exact Nat.one_pos⟩ = 5000 := rfl

theorem dd_idx (j : S128x128.Idx) (k : DD.contr.Idx) :
    (DD.lhsIdx j k 0).val = (k ⟨0, by rw [dd_rank]; exact Nat.one_pos⟩).val ∧ (DD.lhsIdx j k 1).val = (j 0).val
    ∧ (DD.rhsIdx j k 0).val = (k ⟨0, by rw [dd_rank]; exact Nat.one_pos⟩).val ∧ (DD.rhsIdx j k 1).val = (j 1).val :=
  ⟨rfl, rfl, rfl, rfl⟩

-- Comparing row r's batch id with the column number g and converting to a float gives the one-hot entry.
theorem lhs_at (v3 : Vec Ideal S5000x1 .i32) (r : Fin 5000) (g : Fin 128) :
    (truncf FTy.bf16
          (sitofp FTy.f32
            (extui 32
              (cmpi CmpIPredicate.eq
                (broadcastTo S5000x128 (shapeCast S5000x1 v3 shapeCasts_S5000x1_S5000x1) broadcasts_S5000x1_S5000x128)
                (iota Kind.tc S5000x128 32 [1] iota_S5000x128_d1_w32))
              natLt_1_32))
          bitsLt_bf16_f32 : FVec Ideal S5000x128 .bf16) (ix2 r g) = onehot (v3 (ix2 r 0)) g.val := by
  rw [shapeCast_self]
  show FloatOps.sitofp (F := Ideal) .f32 ((IntOp.cmpi .eq (broadcastTo S5000x128 v3 broadcasts_S5000x1_S5000x128 (ix2 r g)) (iota Kind.tc S5000x128 32 [1] iota_S5000x128_d1_w32 (ix2 r g))).setWidth 32) = _
  rw [iota_single_apply, broadcastTo_apply v3 broadcasts_S5000x1_S5000x128 (ix2 r g) (ix2 r 0) (fun a => by
    match a with
    | ⟨0, _⟩ => rfl
    | ⟨1, _⟩ => rfl)]
  rfl

theorem rhs_at (v11 : Vec Ideal S5000x128 .f32) (r : Fin 5000) (d : Fin 128) :
    (truncf FTy.bf16 (shapeCast S5000x128 v11 shapeCasts_S5000x128_S5000x128) bitsLt_bf16_f32 : FVec Ideal S5000x128 .bf16) (ix2 r d)
      = v11 (ix2 r d) := by
  rw [shapeCast_self]
  rfl

abbrev ck (r : Fin 5000) : DD.contr.Idx := (contrEquiv1 DD 5000 dd_rank dd_size).symm r

theorem lhsIdx_ck (g : Fin 128) (d : Fin 128) (r : Fin 5000) : DD.lhsIdx (ix2 g d) (ck r) = ix2 r g := by
  funext a
  refine Fin.ext ?_
  match a with
  | ⟨0, _⟩ => exact (dd_idx (ix2 g d) (ck r)).1.trans (contrEquiv1_symm_val DD 5000 dd_rank dd_size r)
  | ⟨1, _⟩ => exact (dd_idx (ix2 g d) (ck r)).2.1

theorem rhsIdx_ck (g : Fin 128) (d : Fin 128) (r : Fin 5000) : DD.rhsIdx (ix2 g d) (ck r) = ix2 r d := by
  funext a
  refine Fin.ext ?_
  match a with
  | ⟨0, _⟩ => exact (dd_idx (ix2 g d) (ck r)).2.2.1.trans (contrEquiv1_symm_val DD 5000 dd_rank dd_size r)
  | ⟨1, _⟩ => exact (dd_idx (ix2 g d) (ck r)).2.2.2

-- Both operands are contracted over their 5000 rows, so entry (g, d) sums onehot(batch r, g) · v11 (r, d) over r.
theorem pay2_apply (v3 : Vec Ideal S5000x1 .i32) (v11 : Vec Ideal S5000x128 .f32) (v15 : Vec Ideal S128x128 .f32)
    (g : Fin 128) (d : Fin 128) :
    k16_pay2 (F := Ideal) v3 v11 v15 (ix2 g d)
      = v15 (ix2 g d) + ∑ r : Fin 5000, onehot (v3 (ix2 r 0)) g.val * v11 (ix2 r d) := by
  unfold k16_pay2
  dsimp only
  refine (addf_apply _ _ _).trans ?_
  refine congr (congrArg HAdd.hAdd (congrFun (shapeCast_self v15 shapeCasts_S128x128_S128x128) (ix2 g d))) ?_
  refine (Ideal.matmul_constant_zero_apply DD none _ _ (ix2 g d)).trans ?_
  refine (Equiv.sum_comp (contrEquiv1 DD 5000 dd_rank dd_size).symm _).symm.trans ?_
  refine Finset.sum_congr rfl fun r _ => ?_
  show _ * _ = _
  rw [lhsIdx_ck, rhsIdx_ck, lhs_at, rhs_at]

theorem pay1_apply (i : S128x128.Idx) : k16_pay1 (F := Ideal) i = 0 := by
  unfold k16_pay1
  exact Ideal.ofBits_zero_f32

end Cert.KernelIdeal.GP16

end
-- ==== Proof.GP15Pay.lean ====
import proofs.«410724_j86964497809599_1_alg».proof.Proof.GP16Pay

set_option maxRecDepth 16384

noncomputable section

namespace Cert.KernelIdeal.GP15

open Cert.KernelIdeal Cert.KernelIdeal.Gen Idealize.ShloMosaic Idealize.ShloMosaic.TcCoe Idealize.ShloMosaic.ValueIdx
open Cert.PoolSum (onehot)

abbrev DD : DotDims S5000x128 S5000x200 S128x200 := dot_S5000x128_S5000x200_S128x200_0_0_1_1_n_n

theorem dd_rank : DD.contr.rank = 1 := rfl
theorem dd_size : DD.contr.size ⟨0, by rw [dd_rank]; exact Nat.one_pos⟩ = 5000 := rfl

theorem dd_idx (j : S128x200.Idx) (k : DD.contr.Idx) :
    (DD.lhsIdx j k 0).val = (k ⟨0, by rw [dd_rank]; exact Nat.one_pos⟩).val ∧ (DD.lhsIdx j k 1).val = (j 0).val
    ∧ (DD.rhsIdx j k 0).val = (k ⟨0, by rw [dd_rank]; exact Nat.one_pos⟩).val ∧ (DD.rhsIdx j k 1).val = (j 1).val :=
  ⟨rfl, rfl, rfl, rfl⟩

theorem rhs_at (v11 : Vec Ideal S5000x200 .f32) (r : Fin 5000) (d : Fin 200) :
    (truncf FTy.bf16 v11 bitsLt_bf16_f32 : FVec Ideal S5000x200 .bf16) (ix2 r d) = v11 (ix2 r d) := rfl

abbrev ck (r : Fin 5000) : DD.contr.Idx := (contrEquiv1 DD 5000 dd_rank dd_size).symm r

theorem lhsIdx_ck (g : Fin 128) (d : Fin 200) (r : Fin 5000) : DD.lhsIdx (ix2 g d) (ck r) = ix2 r g := by
  funext a
  refine Fin.ext ?_
  match a with
  | ⟨0, _⟩ => exact (dd_idx (ix2 g d) (ck r)).1.trans (contrEquiv1_symm_val DD 5000 dd_rank dd_size r)
  | ⟨1, _⟩ => exact (dd_idx (ix2 g d) (ck r)).2.1

theorem rhsIdx_ck (g : Fin 128) (d : Fin 200) (r : Fin 5000) : DD.rhsIdx (ix2 g d) (ck r) = ix2 r d := by
  funext a
  refine Fin.ext ?_
  match a with
  | ⟨0, _⟩ => exact (dd_idx (ix2 g d) (ck r)).2.2.1.trans (contrEquiv1_symm_val DD 5000 dd_rank dd_size r)
  | ⟨1, _⟩ => exact (dd_idx (ix2 g d) (ck r)).2.2.2

-- Both operands are contracted over their 5000 rows, so entry (g, d) sums onehot(batch r, g) · v11 (r, d) over r.
theorem pay2_apply (v3 : Vec Ideal S5000x1 .i32) (v11 : Vec Ideal S5000x200 .f32) (v15 : Vec Ideal S128x200 .f32)
    (g : Fin 128) (d : Fin 200) :
    k15_pay2 (F := Ideal) v3 v11 v15 (ix2 g d)
      = v15 (ix2 g d) + ∑ r : Fin 5000, onehot (v3 (ix2 r 0)) g.val * v11 (ix2 r d) := by
  unfold k15_pay2
  dsimp only
  refine (addf_apply _ _ _).trans ?_
  refine congr (congrArg HAdd.hAdd (congrFun (shapeCast_self v15 shapeCasts_S128x200_S128x200) (ix2 g d))) ?_
  refine (Ideal.matmul_constant_zero_apply DD none _ _ (ix2 g d)).trans ?_
  refine (Equiv.sum_comp (contrEquiv1 DD 5000 dd_rank dd_size).symm _).symm.trans ?_
  refine Finset.sum_congr rfl fun r _ => ?_
  show _ * _ = _
  rw [lhsIdx_ck, rhsIdx_ck, GP16.lhs_at, rhs_at]

theorem pay1_apply (i : S128x200.Idx) : k15_pay1 (F := Ideal) i = 0 := by
  unfold k15_pay1
  exact Ideal.ofBits_zero_f32

end Cert.KernelIdeal.GP15

end
-- ==== Proof.GP15.lean ====
import proofs.«410724_j86964497809599_1_alg».proof.Proof.Gen.KernelIdeal.Frame
import proofs.«410724_j86964497809599_1_alg».proof.Proof.GP15Pay
import proofs.«410724_j86964497809599_1_alg».proof.Proof.Spec
import proofs.«410724_j86964497809599_1_alg».proof.Proof.TileSums
import Idealize.ShloMosaic.Lib.Pipeline.Value
import Idealize.ShloMosaic.Lib.Tactic

set_option maxRecDepth 16384

noncomputable section

namespace Cert.KernelIdeal.GP15

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat Cfg Window)
open Cert.PoolSum (onehot poolFn)

theorem hz : (![0, 0] : Fin 2 → Nat) = fun _ => 0 := funext fun a => by fin_cases a <;> rfl

section Pieces
variable {F : FTy → Type} [FloatOps F]

theorem out_B (c : Dev nD) (i : grid15.Coords) (a1 : Memref sig .tc .vmem S5000x1 .i32) (h1 : a1.IsWhole)
    (a2 : Memref sig .tc .vmem S5000x200 .f32) (h2 : a2.IsWhole) (a3 : Memref sig .tc .vmem S128x200 .f32) (h3 : a3.IsWhole)
    (hc : ¬cond15_0 i) (x0 : Vec F S5000x1 .i32) (x1 : Vec F S5000x200 .f32) (xo : Vec F S128x200 .f32) :
    out15_B_2 c i a1 h1 a2 h2 a3 h3 hc x0 x1 xo = k15_pay2 x0 x1 xo := by
  unfold out15_B_2
  rw [View.read_writes_eq_canon _ _ _ (cover15_B_2 c i a1 h1 a2 h2 a3 h3 hc x0 x1 xo)]
  unfold kernelRun15_B
  dsimp only
  sl_unfold_words
  rw [View.canon_unit_zero hz]
  simp only [View.readAt_eq_ld, h1.read_unread, h2.read_unread, h3.read_unread, View.ld_unit_zero (S := S5000x1) hz,
    View.ld_unit_zero (S := S5000x200) hz, View.ld_unit_zero (S := S128x200) hz]

theorem out_A (c : Dev nD) (i : grid15.Coords) (a1 : Memref sig .tc .vmem S5000x1 .i32) (h1 : a1.IsWhole)
    (a2 : Memref sig .tc .vmem S5000x200 .f32) (h2 : a2.IsWhole) (a3 : Memref sig .tc .vmem S128x200 .f32) (h3 : a3.IsWhole)
    (hc : cond15_0 i) (x0 : Vec F S5000x1 .i32) (x1 : Vec F S5000x200 .f32) :
    out15_A_2 c i a1 h1 a2 h2 a3 h3 hc x0 x1 = k15_pay2 x0 x1 (k15_pay1 (F := F)) := by
  unfold out15_A_2
  rw [View.read_writes_eq_canon _ _ _ (cover15_A_2 c i a1 h1 a2 h2 a3 h3 hc x0 x1)]
  unfold kernelRun15_A
  dsimp only
  sl_unfold_words
  rw [View.canon_cons_unit_zero (S := S128x200) hz, View.readCov_unit_zero (S := S128x200) _ hz]
  simp only [View.readAt_eq_ld, h1.read_unread, h2.read_unread, View.ld_unit_zero (S := S5000x1) hz,
    View.ld_unit_zero (S := S5000x200) hz, View.ld_unit_zero (S := S128x200) hz]

end Pieces

variable (V : (c : Dev nD) → (b : Ref sig .tc) → Buf (Elt Ideal) ((c : Thread nD τ).loc b))

abbrev bblk (c : Dev nD) (t : Fin cfg15.N) : Vec Ideal S5000x1 .i32 := iblk15 V c 0 t

abbrev hblk (c : Dev nD) (t : Fin cfg15.N) : Vec Ideal S5000x200 .f32 := iblk15 V c 1 t

abbrev barr (c : Dev nD) : Vec Ideal S50000x1 .i32 := V c main_v4

abbrev harr (c : Dev nD) : Vec Ideal S50000x200 .f32 := V c main_arg0

theorem idx_facts : ∀ t : Fin cfg15.N, win15_0.index t (0 : Fin 2) = t.val ∧ win15_0.index t (1 : Fin 2) = 0
    ∧ win15_1.index t (0 : Fin 2) = t.val ∧ win15_1.index t (1 : Fin 2) = 0 :=
  (by decide +kernel : ∀ t : Fin grid15.N, _)

theorem bblk_apply (c : Dev nD) (t : Fin cfg15.N) (k : Fin 5000) (h : t.val * 5000 + k.val < 50000) :
    bblk V c t (ix2 k 0) = barr V c (ix2 ⟨t.val * 5000 + k.val, h⟩ 0) := by
  obtain ⟨e0, e1, -, -⟩ := idx_facts t
  unfold bblk iblk15
  rw [View.read_apply]
  show V c main_v4 _ = V c main_v4 _
  congr 1
  funext a
  apply Fin.ext
  match a with
  | ⟨0, _⟩ => show win15_0.index t 0 * 5000 + 1 * k.val = t.val * 5000 + k.val; rw [e0]; omega
  | ⟨1, _⟩ => show win15_0.index t 1 * 1 + 1 * 0 = 0; rw [e1]

theorem hblk_apply (c : Dev nD) (t : Fin cfg15.N) (k : Fin 5000) (d : Fin 200) (h : t.val * 5000 + k.val < 50000) :
    hblk V c t (ix2 k d) = harr V c (ix2 ⟨t.val * 5000 + k.val, h⟩ d) := by
  obtain ⟨-, -, e0, e1⟩ := idx_facts t
  unfold hblk iblk15
  rw [View.read_apply]
  show V c main_arg0 _ = V c main_arg0 _
  congr 1
  funext a
  apply Fin.ext
  match a with
  | ⟨0, _⟩ => show win15_1.index t 0 * 5000 + 1 * k.val = t.val * 5000 + k.val; rw [e0]; omega
  | ⟨1, _⟩ => show win15_1.index t 1 * 200 + 1 * d.val = d.val; rw [e1]; omega

abbrev rowTerm (c : Dev nD) (g : Fin 128) (d : Fin 200) : Fin 50000 → EReal :=
  fun n => onehot (barr V c (ix2 n 0)) g.val * harr V c (ix2 n d)

abbrev term (c : Dev nD) (g : Fin 128) (d : Fin 200) : Fin (10 * 5000) → EReal :=
  fun i => rowTerm V c g d (Fin.cast (by norm_num) i)

theorem tile_eq (c : Dev nD) (t : Fin cfg15.N) (g : Fin 128) (d : Fin 200) :
    ∑ r : Fin 5000, onehot (bblk V c t (ix2 r 0)) g.val * hblk V c t (ix2 r d)
      = Cert.TileSums.tileSum 10 5000 (term V c g d) t.val := by
  have hN : t.val < 10 := lt_of_lt_of_eq t.isLt (show cfg15.N = 10 from N_15)
  rw [Cert.TileSums.tileSum_of_lt 10 5000 _ hN]
  refine Finset.sum_congr rfl fun r _ => ?_
  have hlt : t.val * 5000 + r.val < 50000 := by have := r.isLt; omega
  rw [bblk_apply V c t r hlt, hblk_apply V c t r d hlt]
  rfl

-- By induction on the point: point 0 adds its tile to the zero block, each later point adds its tile to what the point before left.
theorem outsAt_apply (c : Dev nD) (g : Fin 128) (d : Fin 200) : ∀ (n : ℕ) (h : n < cfg15.N),
    outsAt15 V c n h (ix2 g d) = ∑ s ∈ Finset.range (n + 1), Cert.TileSums.tileSum 10 5000 (term V c g d) s
  | 0, h => by
    rw [outsAt15_A V c ⟨0, h⟩ rfl]
    refine (congrFun (out_A (F := Ideal) c (grid15.coords ⟨0, h⟩) (ms15_0 ⟨0, h⟩) (hs15_0 ⟨0, h⟩) (ms15_1 ⟨0, h⟩) (hs15_1 ⟨0, h⟩)
      (ms15_2 ⟨0, h⟩) (hs15_2 ⟨0, h⟩) ((hcond15_0 ⟨0, h⟩).mpr rfl) (bblk V c ⟨0, h⟩) (hblk V c ⟨0, h⟩)) (ix2 g d)).trans ?_
    refine (pay2_apply (bblk V c ⟨0, h⟩) (hblk V c ⟨0, h⟩) (k15_pay1 (F := Ideal)) g d).trans ?_
    rw [pay1_apply, zero_add, tile_eq V c ⟨0, h⟩ g d, Cert.TileSums.acc_zero]
  | n + 1, h => by
    have hN : cfg15.N = 10 := N_15
    have hB : ¬(⟨n + 1, h⟩ : Fin cfg15.N).val % 10 = 0 := by dsimp only; omega
    rw [outsAt15_B V c ⟨n + 1, h⟩ hB]
    refine (congrFun (out_B (F := Ideal) c (grid15.coords ⟨n + 1, h⟩) (ms15_0 ⟨n + 1, h⟩) (hs15_0 ⟨n + 1, h⟩) (ms15_1 ⟨n + 1, h⟩) (hs15_1 ⟨n + 1, h⟩)
      (ms15_2 ⟨n + 1, h⟩) (hs15_2 ⟨n + 1, h⟩) (fun hh => hB ((hcond15_0 ⟨n + 1, h⟩).mp hh)) (bblk V c ⟨n + 1, h⟩) (hblk V c ⟨n + 1, h⟩)
      (outsAt15 V c n (Nat.lt_of_succ_lt h))) (ix2 g d)).trans ?_
    refine (pay2_apply (bblk V c ⟨n + 1, h⟩) (hblk V c ⟨n + 1, h⟩) (outsAt15 V c n (Nat.lt_of_succ_lt h)) g d).trans ?_
    rw [outsAt_apply c g d n (Nat.lt_of_succ_lt h), tile_eq V c ⟨n + 1, h⟩ g d, Cert.TileSums.acc_succ]

abbrev result (c : Dev nD) : Buf (Elt Ideal) ((c : Thread nD τ).loc main_v268) :=
  poolFn (N := 50000) (D := 200) (barr V c) (harr V c)

-- Ten tiles of 5000 rows are all 50000 rows.
theorem after_last (c : Dev nD) : outsAt15 V c t15_9.val t15_9.isLt = result V c := by
  funext i
  obtain ⟨g, d, rfl⟩ : ∃ (g : Fin 128) (d : Fin 200), i = ix2 g d := ⟨i 0, i 1, eq_ix2 i⟩
  rw [outsAt_apply V c g d]
  show ∑ s ∈ Finset.range 10, Cert.TileSums.tileSum 10 5000 (term V c g d) s = ∑ n : Fin 50000, rowTerm V c g d n
  rw [← Cert.TileSums.sum_eq_range 10 5000 (term V c g d)]
  exact Equiv.sum_comp (finCongr (show 10 * 5000 = 50000 by norm_num)) (rowTerm V c g d)

theorem flushed_eq (c : Dev nD) (t : Fin cfg15.N) (hf : (cfg15.win 2).flush t = true) :
    (dat15 V c).flushed 2 t = ((cfg15.win 2).blk t).view.read (Elt Ideal) (result V c) := by
  have hN : cfg15.N = 10 := N_15
  have h9 : t.val = 9 := by have := (flush15_2 t).mp hf; have := t.isLt; omega
  obtain rfl : t = t15_9 := Fin.ext h9
  show (cfg15.win 2).cut (grid15.coords t15_9) ((dat15 V c).after 2 t15_9) = _
  rw [after15_2, after_last]
  have hz' : (fun a => win15_2.index t15_9 a * main_v268.ty.shape.size a) = fun _ => 0 := funext fun a => by fin_cases a <;> decide
  exact (Memref.read_access_unit_zero (Elt Ideal) main_v268 hz' (fun a => by rw [congrFun hz' a]; simp) (result V c)).symm

theorem final (c : Dev nD) : (dat15 V c).arrAt 2 cfg15.N = result V c :=
  (dat15 V c).arrAt_eq_of_cover 2 (result V c) (flushed_eq V c) fun i =>
    ⟨t15_9, (flush15_2 t15_9).mpr rfl, by
      show i ∈ ((View.whole main_v268).slice (win15_2.rect t15_9)).set
      rw [View.set_slice_whole, Rect.mem_set_unit]
      intro a
      have h0 : (i 0 : Nat) < 128 := (i 0).isLt
      have h1 : (i 1 : Nat) < 200 := (i 1).isLt
      match a with
      | ⟨0, _⟩ => show win15_2.index t15_9 0 * win15_2.size 0 ≤ (i 0 : Nat) ∧ (i 0 : Nat) < win15_2.index t15_9 0 * win15_2.size 0 + win15_2.xsize (grid15.coords t15_9) 0
                  rw [show win15_2.index t15_9 0 * win15_2.size 0 = 0 from by decide +kernel, show win15_2.xsize (grid15.coords t15_9) 0 = 128 from by decide +kernel]; omega
      | ⟨1, _⟩ => show win15_2.index t15_9 1 * win15_2.size 1 ≤ (i 1 : Nat) ∧ (i 1 : Nat) < win15_2.index t15_9 1 * win15_2.size 1 + win15_2.xsize (grid15.coords t15_9) 1
                  rw [show win15_2.index t15_9 1 * win15_2.size 1 = 0 from by decide +kernel, show win15_2.xsize (grid15.coords t15_9) 1 = 200 from by decide +kernel]; omega⟩

-- Scatter-adding row n of H into row (batch n) of a zero array sums, at (g, d), the rows whose batch id is g.
theorem pool_eq (b : Cert.Spec.I Cert.ReferenceIdeal.S50000x1) (H : Cert.Spec.M Cert.ReferenceIdeal.S50000x200) :
    Cert.Spec.pool200 b H = poolFn (N := 50000) (D := 200) b H := by
  unfold Cert.Spec.pool200 Host.scatterAdd
  rw [Ideal.hostScatterAdd_def]
  exact Cert.PoolSum.scatterAdd_zero_eq_poolFn Cert.ReferenceIdeal.scatter_S128x200_S50000x1_S50000x200_1_0_0_1.wf _
    (fun _ => Ideal.ofBits_zero_f32) b H

theorem out2 (c : Dev nD) : (dat15 V c).arrAt 2 cfg15.N = Cert.Spec.pool200 (V c main_v4) (V c main_arg0) :=
  (final V c).trans (pool_eq (V c main_v4) (V c main_arg0)).symm

end Cert.KernelIdeal.GP15

end
-- ==== Proof.GP16.lean ====
import proofs.«410724_j86964497809599_1_alg».proof.Proof.Gen.KernelIdeal.Frame
import proofs.«410724_j86964497809599_1_alg».proof.Proof.GP16Pay
import proofs.«410724_j86964497809599_1_alg».proof.Proof.Spec
import proofs.«410724_j86964497809599_1_alg».proof.Proof.TileSums
import Idealize.ShloMosaic.Lib.Pipeline.Value
import Idealize.ShloMosaic.Lib.Tactic

set_option maxRecDepth 16384

noncomputable section

namespace Cert.KernelIdeal.GP16

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat Cfg Window)
open Cert.PoolSum (onehot poolFn)

theorem hz : (![0, 0] : Fin 2 → Nat) = fun _ => 0 := funext fun a => by fin_cases a <;> rfl

section Pieces
variable {F : FTy → Type} [FloatOps F]

theorem out_B (c : Dev nD) (i : grid16.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : ¬cond16_0 i) (x0 : Vec F S5000x1 .i32) (x1 : Vec F S5000x128 .f32) (xo : Vec F S128x128 .f32) :
    out16_B_2 c i a1 h1 a2 h2 a3 h3 hc x0 x1 xo = k16_pay2 x0 x1 xo := by
  unfold out16_B_2
  rw [View.read_writes_eq_canon _ _ _ (cover16_B_2 c i a1 h1 a2 h2 a3 h3 hc x0 x1 xo)]
  unfold kernelRun16_B
  dsimp only
  sl_unfold_words
  rw [View.canon_unit_zero hz]
  simp only [View.readAt_eq_ld, h1.read_unread, h2.read_unread, h3.read_unread, View.ld_unit_zero (S := S5000x1) hz,
    View.ld_unit_zero (S := S5000x128) hz, View.ld_unit_zero (S := S128x128) hz]

theorem out_A (c : Dev nD) (i : grid16.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : cond16_0 i) (x0 : Vec F S5000x1 .i32) (x1 : Vec F S5000x128 .f32) :
    out16_A_2 c i a1 h1 a2 h2 a3 h3 hc x0 x1 = k16_pay2 x0 x1 (k16_pay1 (F := F)) := by
  unfold out16_A_2
  rw [View.read_writes_eq_canon _ _ _ (cover16_A_2 c i a1 h1 a2 h2 a3 h3 hc x0 x1)]
  unfold kernelRun16_A
  dsimp only
  sl_unfold_words
  rw [View.canon_cons_unit_zero (S := S128x128) hz, View.readCov_unit_zero (S := S128x128) _ hz]
  simp only [View.readAt_eq_ld, h1.read_unread, h2.read_unread, View.ld_unit_zero (S := S5000x1) hz,
    View.ld_unit_zero (S := S5000x128) hz, View.ld_unit_zero (S := S128x128) hz]

end Pieces

variable (V : (c : Dev nD) → (b : Ref sig .tc) → Buf (Elt Ideal) ((c : Thread nD τ).loc b))

abbrev bblk (c : Dev nD) (t : Fin cfg16.N) : Vec Ideal S5000x1 .i32 := iblk16 V c 0 t

abbrev hblk (c : Dev nD) (t : Fin cfg16.N) : Vec Ideal S5000x128 .f32 := iblk16 V c 1 t

abbrev barr (c : Dev nD) : Vec Ideal S50000x1 .i32 := V c main_v4

abbrev harr (c : Dev nD) : Vec Ideal S50000x128 .f32 := V c main_v55

theorem idx_facts : ∀ t : Fin cfg16.N, win16_0.index t (0 : Fin 2) = t.val ∧ win16_0.index t (1 : Fin 2) = 0
    ∧ win16_1.index t (0 : Fin 2) = t.val ∧ win16_1.index t (1 : Fin 2) = 0 :=
  (by decide +kernel : ∀ t : Fin grid16.N, _)

theorem bblk_apply (c : Dev nD) (t : Fin cfg16.N) (k : Fin 5000) (h : t.val * 5000 + k.val < 50000) :
    bblk V c t (ix2 k 0) = barr V c (ix2 ⟨t.val * 5000 + k.val, h⟩ 0) := by
  obtain ⟨e0, e1, -, -⟩ := idx_facts t
  unfold bblk iblk16
  rw [View.read_apply]
  show V c main_v4 _ = V c main_v4 _
  congr 1
  funext a
  apply Fin.ext
  match a with
  | ⟨0, _⟩ => show win16_0.index t 0 * 5000 + 1 * k.val = t.val * 5000 + k.val; rw [e0]; omega
  | ⟨1, _⟩ => show win16_0.index t 1 * 1 + 1 * 0 = 0; rw [e1]

theorem hblk_apply (c : Dev nD) (t : Fin cfg16.N) (k : Fin 5000) (d : Fin 128) (h : t.val * 5000 + k.val < 50000) :
    hblk V c t (ix2 k d) = harr V c (ix2 ⟨t.val * 5000 + k.val, h⟩ d) := by
  obtain ⟨-, -, e0, e1⟩ := idx_facts t
  unfold hblk iblk16
  rw [View.read_apply]
  show V c main_v55 _ = V c main_v55 _
  congr 1
  funext a
  apply Fin.ext
  match a with
  | ⟨0, _⟩ => show win16_1.index t 0 * 5000 + 1 * k.val = t.val * 5000 + k.val; rw [e0]; omega
  | ⟨1, _⟩ => show win16_1.index t 1 * 128 + 1 * d.val = d.val; rw [e1]; omega

abbrev rowTerm (c : Dev nD) (g : Fin 128) (d : Fin 128) : Fin 50000 → EReal :=
  fun n => onehot (barr V c (ix2 n 0)) g.val * harr V c (ix2 n d)

abbrev term (c : Dev nD) (g : Fin 128) (d : Fin 128) : Fin (10 * 5000) → EReal :=
  fun i => rowTerm V c g d (Fin.cast (by norm_num) i)

theorem tile_eq (c : Dev nD) (t : Fin cfg16.N) (g : Fin 128) (d : Fin 128) :
    ∑ r : Fin 5000, onehot (bblk V c t (ix2 r 0)) g.val * hblk V c t (ix2 r d)
      = Cert.TileSums.tileSum 10 5000 (term V c g d) t.val := by
  have hN : t.val < 10 := lt_of_lt_of_eq t.isLt (show cfg16.N = 10 from N_16)
  rw [Cert.TileSums.tileSum_of_lt 10 5000 _ hN]
  refine Finset.sum_congr rfl fun r _ => ?_
  have hlt : t.val * 5000 + r.val < 50000 := by have := r.isLt; omega
  rw [bblk_apply V c t r hlt, hblk_apply V c t r d hlt]
  rfl

-- By induction on the point: point 0 adds its tile to the zero block, each later point adds its tile to what the point before left.
theorem outsAt_apply (c : Dev nD) (g : Fin 128) (d : Fin 128) : ∀ (n : ℕ) (h : n < cfg16.N),
    outsAt16 V c n h (ix2 g d) = ∑ s ∈ Finset.range (n + 1), Cert.TileSums.tileSum 10 5000 (term V c g d) s
  | 0, h => by
    rw [outsAt16_A V c ⟨0, h⟩ rfl]
    refine (congrFun (out_A (F := Ideal) c (grid16.coords ⟨0, h⟩) (ms16_0 ⟨0, h⟩) (hs16_0 ⟨0, h⟩) (ms16_1 ⟨0, h⟩) (hs16_1 ⟨0, h⟩)
      (ms16_2 ⟨0, h⟩) (hs16_2 ⟨0, h⟩) ((hcond16_0 ⟨0, h⟩).mpr rfl) (bblk V c ⟨0, h⟩) (hblk V c ⟨0, h⟩)) (ix2 g d)).trans ?_
    refine (pay2_apply (bblk V c ⟨0, h⟩) (hblk V c ⟨0, h⟩) (k16_pay1 (F := Ideal)) g d).trans ?_
    rw [pay1_apply, zero_add, tile_eq V c ⟨0, h⟩ g d, Cert.TileSums.acc_zero]
  | n + 1, h => by
    have hN : cfg16.N = 10 := N_16
    have hB : ¬(⟨n + 1, h⟩ : Fin cfg16.N).val % 10 = 0 := by dsimp only; omega
    rw [outsAt16_B V c ⟨n + 1, h⟩ hB]
    refine (congrFun (out_B (F := Ideal) c (grid16.coords ⟨n + 1, h⟩) (ms16_0 ⟨n + 1, h⟩) (hs16_0 ⟨n + 1, h⟩) (ms16_1 ⟨n + 1, h⟩) (hs16_1 ⟨n + 1, h⟩)
      (ms16_2 ⟨n + 1, h⟩) (hs16_2 ⟨n + 1, h⟩) (fun hh => hB ((hcond16_0 ⟨n + 1, h⟩).mp hh)) (bblk V c ⟨n + 1, h⟩) (hblk V c ⟨n + 1, h⟩)
      (outsAt16 V c n (Nat.lt_of_succ_lt h))) (ix2 g d)).trans ?_
    refine (pay2_apply (bblk V c ⟨n + 1, h⟩) (hblk V c ⟨n + 1, h⟩) (outsAt16 V c n (Nat.lt_of_succ_lt h)) g d).trans ?_
    rw [outsAt_apply c g d n (Nat.lt_of_succ_lt h), tile_eq V c ⟨n + 1, h⟩ g d, Cert.TileSums.acc_succ]

abbrev result (c : Dev nD) : Buf (Elt Ideal) ((c : Thread nD τ).loc main_v269) :=
  poolFn (N := 50000) (D := 128) (barr V c) (harr V c)

-- Ten tiles of 5000 rows are all 50000 rows.
theorem after_last (c : Dev nD) : outsAt16 V c t16_9.val t16_9.isLt = result V c := by
  funext i
  obtain ⟨g, d, rfl⟩ : ∃ (g : Fin 128) (d : Fin 128), i = ix2 g d := ⟨i 0, i 1, eq_ix2 i⟩
  rw [outsAt_apply V c g d]
  show ∑ s ∈ Finset.range 10, Cert.TileSums.tileSum 10 5000 (term V c g d) s = ∑ n : Fin 50000, rowTerm V c g d n
  rw [← Cert.TileSums.sum_eq_range 10 5000 (term V c g d)]
  exact Equiv.sum_comp (finCongr (show 10 * 5000 = 50000 by norm_num)) (rowTerm V c g d)

theorem flushed_eq (c : Dev nD) (t : Fin cfg16.N) (hf : (cfg16.win 2).flush t = true) :
    (dat16 V c).flushed 2 t = ((cfg16.win 2).blk t).view.read (Elt Ideal) (result V c) := by
  have hN : cfg16.N = 10 := N_16
  have h9 : t.val = 9 := by have := (flush16_2 t).mp hf; have := t.isLt; omega
  obtain rfl : t = t16_9 := Fin.ext h9
  show (cfg16.win 2).cut (grid16.coords t16_9) ((dat16 V c).after 2 t16_9) = _
  rw [after16_2, after_last]
  have hz' : (fun a => win16_2.index t16_9 a * main_v269.ty.shape.size a) = fun _ => 0 := funext fun a => by fin_cases a <;> decide
  exact (Memref.read_access_unit_zero (Elt Ideal) main_v269 hz' (fun a => by rw [congrFun hz' a]; simp) (result V c)).symm

theorem final (c : Dev nD) : (dat16 V c).arrAt 2 cfg16.N = result V c :=
  (dat16 V c).arrAt_eq_of_cover 2 (result V c) (flushed_eq V c) fun i =>
    ⟨t16_9, (flush16_2 t16_9).mpr rfl, by
      show i ∈ ((View.whole main_v269).slice (win16_2.rect t16_9)).set
      rw [View.set_slice_whole, Rect.mem_set_unit]
      intro a
      have h0 : (i 0 : Nat) < 128 := (i 0).isLt
      have h1 : (i 1 : Nat) < 128 := (i 1).isLt
      match a with
      | ⟨0, _⟩ => show win16_2.index t16_9 0 * win16_2.size 0 ≤ (i 0 : Nat) ∧ (i 0 : Nat) < win16_2.index t16_9 0 * win16_2.size 0 + win16_2.xsize (grid16.coords t16_9) 0
                  rw [show win16_2.index t16_9 0 * win16_2.size 0 = 0 from by decide +kernel, show win16_2.xsize (grid16.coords t16_9) 0 = 128 from by decide +kernel]; omega
      | ⟨1, _⟩ => show win16_2.index t16_9 1 * win16_2.size 1 ≤ (i 1 : Nat) ∧ (i 1 : Nat) < win16_2.index t16_9 1 * win16_2.size 1 + win16_2.xsize (grid16.coords t16_9) 1
                  rw [show win16_2.index t16_9 1 * win16_2.size 1 = 0 from by decide +kernel, show win16_2.xsize (grid16.coords t16_9) 1 = 128 from by decide +kernel]; omega⟩

-- Scatter-adding row n of H into row (batch n) of a zero array sums, at (g, d), the rows whose batch id is g.
theorem pool_eq (b : Cert.Spec.I Cert.ReferenceIdeal.S50000x1) (H : Cert.Spec.M Cert.ReferenceIdeal.S50000x128) :
    Cert.Spec.pool128 b H = poolFn (N := 50000) (D := 128) b H := by
  unfold Cert.Spec.pool128 Host.scatterAdd
  rw [Ideal.hostScatterAdd_def]
  exact Cert.PoolSum.scatterAdd_zero_eq_poolFn Cert.ReferenceIdeal.scatter_S128x128_S50000x1_S50000x128_1_0_0_1.wf _
    (fun _ => Ideal.ofBits_zero_f32) b H

theorem out2 (c : Dev nD) : (dat16 V c).arrAt 2 cfg16.N = Cert.Spec.pool128 (V c main_v4) (V c main_v55) :=
  (final V c).trans (pool_eq (V c main_v4) (V c main_v55)).symm

end Cert.KernelIdeal.GP16

end
-- ==== Proof.GP17Pay.lean ====
import proofs.«410724_j86964497809599_1_alg».proof.Proof.GP16Pay

namespace Cert.KernelIdeal.GP17

open Cert.KernelIdeal Cert.KernelIdeal.Gen Idealize.ShloMosaic Idealize.ShloMosaic.TcCoe Idealize.ShloMosaic.ValueIdx
open Cert.PoolSum (onehot)

-- This region's payload functions are the same terms as region 16's, so each fact below is region 16's.

theorem pay2_apply (v3 : Vec Ideal S5000x1 .i32) (v11 : Vec Ideal S5000x128 .f32) (v15 : Vec Ideal S128x128 .f32)
    (g : Fin 128) (d : Fin 128) :
    k17_pay2 (F := Ideal) v3 v11 v15 (ix2 g d)
      = v15 (ix2 g d) + ∑ r : Fin 5000, onehot (v3 (ix2 r 0)) g.val * v11 (ix2 r d) :=
  GP16.pay2_apply v3 v11 v15 g d

theorem pay1_apply (i : S128x128.Idx) : k17_pay1 (F := Ideal) i = 0 := GP16.pay1_apply i

end Cert.KernelIdeal.GP17
-- ==== Proof.GP17.lean ====
import proofs.«410724_j86964497809599_1_alg».proof.Proof.Gen.KernelIdeal.Frame
import proofs.«410724_j86964497809599_1_alg».proof.Proof.GP17Pay
import proofs.«410724_j86964497809599_1_alg».proof.Proof.Spec
import proofs.«410724_j86964497809599_1_alg».proof.Proof.TileSums
import Idealize.ShloMosaic.Lib.Pipeline.Value
import Idealize.ShloMosaic.Lib.Tactic

set_option maxRecDepth 16384

noncomputable section

namespace Cert.KernelIdeal.GP17

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat Cfg Window)
open Cert.PoolSum (onehot poolFn)

theorem hz : (![0, 0] : Fin 2 → Nat) = fun _ => 0 := funext fun a => by fin_cases a <;> rfl

section Pieces
variable {F : FTy → Type} [FloatOps F]

theorem out_B (c : Dev nD) (i : grid17.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : ¬cond17_0 i) (x0 : Vec F S5000x1 .i32) (x1 : Vec F S5000x128 .f32) (xo : Vec F S128x128 .f32) :
    out17_B_2 c i a1 h1 a2 h2 a3 h3 hc x0 x1 xo = k17_pay2 x0 x1 xo := by
  unfold out17_B_2
  rw [View.read_writes_eq_canon _ _ _ (cover17_B_2 c i a1 h1 a2 h2 a3 h3 hc x0 x1 xo)]
  unfold kernelRun17_B
  dsimp only
  sl_unfold_words
  rw [View.canon_unit_zero hz]
  simp only [View.readAt_eq_ld, h1.read_unread, h2.read_unread, h3.read_unread, View.ld_unit_zero (S := S5000x1) hz,
    View.ld_unit_zero (S := S5000x128) hz, View.ld_unit_zero (S := S128x128) hz]

theorem out_A (c : Dev nD) (i : grid17.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : cond17_0 i) (x0 : Vec F S5000x1 .i32) (x1 : Vec F S5000x128 .f32) :
    out17_A_2 c i a1 h1 a2 h2 a3 h3 hc x0 x1 = k17_pay2 x0 x1 (k17_pay1 (F := F)) := by
  unfold out17_A_2
  rw [View.read_writes_eq_canon _ _ _ (cover17_A_2 c i a1 h1 a2 h2 a3 h3 hc x0 x1)]
  unfold kernelRun17_A
  dsimp only
  sl_unfold_words
  rw [View.canon_cons_unit_zero (S := S128x128) hz, View.readCov_unit_zero (S := S128x128) _ hz]
  simp only [View.readAt_eq_ld, h1.read_unread, h2.read_unread, View.ld_unit_zero (S := S5000x1) hz,
    View.ld_unit_zero (S := S5000x128) hz, View.ld_unit_zero (S := S128x128) hz]

end Pieces

variable (V : (c : Dev nD) → (b : Ref sig .tc) → Buf (Elt Ideal) ((c : Thread nD τ).loc b))

abbrev bblk (c : Dev nD) (t : Fin cfg17.N) : Vec Ideal S5000x1 .i32 := iblk17 V c 0 t

abbrev hblk (c : Dev nD) (t : Fin cfg17.N) : Vec Ideal S5000x128 .f32 := iblk17 V c 1 t

abbrev barr (c : Dev nD) : Vec Ideal S50000x1 .i32 := V c main_v4

abbrev harr (c : Dev nD) : Vec Ideal S50000x128 .f32 := V c main_v108

theorem idx_facts : ∀ t : Fin cfg17.N, win17_0.index t (0 : Fin 2) = t.val ∧ win17_0.index t (1 : Fin 2) = 0
    ∧ win17_1.index t (0 : Fin 2) = t.val ∧ win17_1.index t (1 : Fin 2) = 0 :=
  (by decide +kernel : ∀ t : Fin grid17.N, _)

theorem bblk_apply (c : Dev nD) (t : Fin cfg17.N) (k : Fin 5000) (h : t.val * 5000 + k.val < 50000) :
    bblk V c t (ix2 k 0) = barr V c (ix2 ⟨t.val * 5000 + k.val, h⟩ 0) := by
  obtain ⟨e0, e1, -, -⟩ := idx_facts t
  unfold bblk iblk17
  rw [View.read_apply]
  show V c main_v4 _ = V c main_v4 _
  congr 1
  funext a
  apply Fin.ext
  match a with
  | ⟨0, _⟩ => show win17_0.index t 0 * 5000 + 1 * k.val = t.val * 5000 + k.val; rw [e0]; omega
  | ⟨1, _⟩ => show win17_0.index t 1 * 1 + 1 * 0 = 0; rw [e1]

theorem hblk_apply (c : Dev nD) (t : Fin cfg17.N) (k : Fin 5000) (d : Fin 128) (h : t.val * 5000 + k.val < 50000) :
    hblk V c t (ix2 k d) = harr V c (ix2 ⟨t.val * 5000 + k.val, h⟩ d) := by
  obtain ⟨-, -, e0, e1⟩ := idx_facts t
  unfold hblk iblk17
  rw [View.read_apply]
  show V c main_v108 _ = V c main_v108 _
  congr 1
  funext a
  apply Fin.ext
  match a with
  | ⟨0, _⟩ => show win17_1.index t 0 * 5000 + 1 * k.val = t.val * 5000 + k.val; rw [e0]; omega
  | ⟨1, _⟩ => show win17_1.index t 1 * 128 + 1 * d.val = d.val; rw [e1]; omega

abbrev rowTerm (c : Dev nD) (g : Fin 128) (d : Fin 128) : Fin 50000 → EReal :=
  fun n => onehot (barr V c (ix2 n 0)) g.val * harr V c (ix2 n d)

abbrev term (c : Dev nD) (g : Fin 128) (d : Fin 128) : Fin (10 * 5000) → EReal :=
  fun i => rowTerm V c g d (Fin.cast (by norm_num) i)

theorem tile_eq (c : Dev nD) (t : Fin cfg17.N) (g : Fin 128) (d : Fin 128) :
    ∑ r : Fin 5000, onehot (bblk V c t (ix2 r 0)) g.val * hblk V c t (ix2 r d)
      = Cert.TileSums.tileSum 10 5000 (term V c g d) t.val := by
  have hN : t.val < 10 := lt_of_lt_of_eq t.isLt (show cfg17.N = 10 from N_17)
  rw [Cert.TileSums.tileSum_of_lt 10 5000 _ hN]
  refine Finset.sum_congr rfl fun r _ => ?_
  have hlt : t.val * 5000 + r.val < 50000 := by have := r.isLt; omega
  rw [bblk_apply V c t r hlt, hblk_apply V c t r d hlt]
  rfl

-- By induction on the point: point 0 adds its tile to the zero block, each later point adds its tile to what the point before left.
theorem outsAt_apply (c : Dev nD) (g : Fin 128) (d : Fin 128) : ∀ (n : ℕ) (h : n < cfg17.N),
    outsAt17 V c n h (ix2 g d) = ∑ s ∈ Finset.range (n + 1), Cert.TileSums.tileSum 10 5000 (term V c g d) s
  | 0, h => by
    rw [outsAt17_A V c ⟨0, h⟩ rfl]
    refine (congrFun (out_A (F := Ideal) c (grid17.coords ⟨0, h⟩) (ms17_0 ⟨0, h⟩) (hs17_0 ⟨0, h⟩) (ms17_1 ⟨0, h⟩) (hs17_1 ⟨0, h⟩)
      (ms17_2 ⟨0, h⟩) (hs17_2 ⟨0, h⟩) ((hcond17_0 ⟨0, h⟩).mpr rfl) (bblk V c ⟨0, h⟩) (hblk V c ⟨0, h⟩)) (ix2 g d)).trans ?_
    refine (pay2_apply (bblk V c ⟨0, h⟩) (hblk V c ⟨0, h⟩) (k17_pay1 (F := Ideal)) g d).trans ?_
    rw [pay1_apply, zero_add, tile_eq V c ⟨0, h⟩ g d, Cert.TileSums.acc_zero]
  | n + 1, h => by
    have hN : cfg17.N = 10 := N_17
    have hB : ¬(⟨n + 1, h⟩ : Fin cfg17.N).val % 10 = 0 := by dsimp only; omega
    rw [outsAt17_B V c ⟨n + 1, h⟩ hB]
    refine (congrFun (out_B (F := Ideal) c (grid17.coords ⟨n + 1, h⟩) (ms17_0 ⟨n + 1, h⟩) (hs17_0 ⟨n + 1, h⟩) (ms17_1 ⟨n + 1, h⟩) (hs17_1 ⟨n + 1, h⟩)
      (ms17_2 ⟨n + 1, h⟩) (hs17_2 ⟨n + 1, h⟩) (fun hh => hB ((hcond17_0 ⟨n + 1, h⟩).mp hh)) (bblk V c ⟨n + 1, h⟩) (hblk V c ⟨n + 1, h⟩)
      (outsAt17 V c n (Nat.lt_of_succ_lt h))) (ix2 g d)).trans ?_
    refine (pay2_apply (bblk V c ⟨n + 1, h⟩) (hblk V c ⟨n + 1, h⟩) (outsAt17 V c n (Nat.lt_of_succ_lt h)) g d).trans ?_
    rw [outsAt_apply c g d n (Nat.lt_of_succ_lt h), tile_eq V c ⟨n + 1, h⟩ g d, Cert.TileSums.acc_succ]

abbrev result (c : Dev nD) : Buf (Elt Ideal) ((c : Thread nD τ).loc main_v270) :=
  poolFn (N := 50000) (D := 128) (barr V c) (harr V c)

-- Ten tiles of 5000 rows are all 50000 rows.
theorem after_last (c : Dev nD) : outsAt17 V c t17_9.val t17_9.isLt = result V c := by
  funext i
  obtain ⟨g, d, rfl⟩ : ∃ (g : Fin 128) (d : Fin 128), i = ix2 g d := ⟨i 0, i 1, eq_ix2 i⟩
  rw [outsAt_apply V c g d]
  show ∑ s ∈ Finset.range 10, Cert.TileSums.tileSum 10 5000 (term V c g d) s = ∑ n : Fin 50000, rowTerm V c g d n
  rw [← Cert.TileSums.sum_eq_range 10 5000 (term V c g d)]
  exact Equiv.sum_comp (finCongr (show 10 * 5000 = 50000 by norm_num)) (rowTerm V c g d)

theorem flushed_eq (c : Dev nD) (t : Fin cfg17.N) (hf : (cfg17.win 2).flush t = true) :
    (dat17 V c).flushed 2 t = ((cfg17.win 2).blk t).view.read (Elt Ideal) (result V c) := by
  have hN : cfg17.N = 10 := N_17
  have h9 : t.val = 9 := by have := (flush17_2 t).mp hf; have := t.isLt; omega
  obtain rfl : t = t17_9 := Fin.ext h9
  show (cfg17.win 2).cut (grid17.coords t17_9) ((dat17 V c).after 2 t17_9) = _
  rw [after17_2, after_last]
  have hz' : (fun a => win17_2.index t17_9 a * main_v270.ty.shape.size a) = fun _ => 0 := funext fun a => by fin_cases a <;> decide
  exact (Memref.read_access_unit_zero (Elt Ideal) main_v270 hz' (fun a => by rw [congrFun hz' a]; simp) (result V c)).symm

theorem final (c : Dev nD) : (dat17 V c).arrAt 2 cfg17.N = result V c :=
  (dat17 V c).arrAt_eq_of_cover 2 (result V c) (flushed_eq V c) fun i =>
    ⟨t17_9, (flush17_2 t17_9).mpr rfl, by
      show i ∈ ((View.whole main_v270).slice (win17_2.rect t17_9)).set
      rw [View.set_slice_whole, Rect.mem_set_unit]
      intro a
      have h0 : (i 0 : Nat) < 128 := (i 0).isLt
      have h1 : (i 1 : Nat) < 128 := (i 1).isLt
      match a with
      | ⟨0, _⟩ => show win17_2.index t17_9 0 * win17_2.size 0 ≤ (i 0 : Nat) ∧ (i 0 : Nat) < win17_2.index t17_9 0 * win17_2.size 0 + win17_2.xsize (grid17.coords t17_9) 0
                  rw [show win17_2.index t17_9 0 * win17_2.size 0 = 0 from by decide +kernel, show win17_2.xsize (grid17.coords t17_9) 0 = 128 from by decide +kernel]; omega
      | ⟨1, _⟩ => show win17_2.index t17_9 1 * win17_2.size 1 ≤ (i 1 : Nat) ∧ (i 1 : Nat) < win17_2.index t17_9 1 * win17_2.size 1 + win17_2.xsize (grid17.coords t17_9) 1
                  rw [show win17_2.index t17_9 1 * win17_2.size 1 = 0 from by decide +kernel, show win17_2.xsize (grid17.coords t17_9) 1 = 128 from by decide +kernel]; omega⟩

-- Scatter-adding row n of H into row (batch n) of a zero array sums, at (g, d), the rows whose batch id is g.
theorem pool_eq (b : Cert.Spec.I Cert.ReferenceIdeal.S50000x1) (H : Cert.Spec.M Cert.ReferenceIdeal.S50000x128) :
    Cert.Spec.pool128 b H = poolFn (N := 50000) (D := 128) b H := by
  unfold Cert.Spec.pool128 Host.scatterAdd
  rw [Ideal.hostScatterAdd_def]
  exact Cert.PoolSum.scatterAdd_zero_eq_poolFn Cert.ReferenceIdeal.scatter_S128x128_S50000x1_S50000x128_1_0_0_1.wf _
    (fun _ => Ideal.ofBits_zero_f32) b H

theorem out2 (c : Dev nD) : (dat17 V c).arrAt 2 cfg17.N = Cert.Spec.pool128 (V c main_v4) (V c main_v108) :=
  (final V c).trans (pool_eq (V c main_v4) (V c main_v108)).symm

end Cert.KernelIdeal.GP17

end
-- ==== Proof.GP18Pay.lean ====
import proofs.«410724_j86964497809599_1_alg».proof.Proof.GP16Pay

namespace Cert.KernelIdeal.GP18

open Cert.KernelIdeal Cert.KernelIdeal.Gen Idealize.ShloMosaic Idealize.ShloMosaic.TcCoe Idealize.ShloMosaic.ValueIdx
open Cert.PoolSum (onehot)

-- This region's payload functions are the same terms as region 16's, so each fact below is region 16's.

theorem pay2_apply (v3 : Vec Ideal S5000x1 .i32) (v11 : Vec Ideal S5000x128 .f32) (v15 : Vec Ideal S128x128 .f32)
    (g : Fin 128) (d : Fin 128) :
    k18_pay2 (F := Ideal) v3 v11 v15 (ix2 g d)
      = v15 (ix2 g d) + ∑ r : Fin 5000, onehot (v3 (ix2 r 0)) g.val * v11 (ix2 r d) :=
  GP16.pay2_apply v3 v11 v15 g d

theorem pay1_apply (i : S128x128.Idx) : k18_pay1 (F := Ideal) i = 0 := GP16.pay1_apply i

end Cert.KernelIdeal.GP18
-- ==== Proof.GP18.lean ====
import proofs.«410724_j86964497809599_1_alg».proof.Proof.Gen.KernelIdeal.Frame
import proofs.«410724_j86964497809599_1_alg».proof.Proof.GP18Pay
import proofs.«410724_j86964497809599_1_alg».proof.Proof.Spec
import proofs.«410724_j86964497809599_1_alg».proof.Proof.TileSums
import Idealize.ShloMosaic.Lib.Pipeline.Value
import Idealize.ShloMosaic.Lib.Tactic

set_option maxRecDepth 16384

noncomputable section

namespace Cert.KernelIdeal.GP18

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat Cfg Window)
open Cert.PoolSum (onehot poolFn)

theorem hz : (![0, 0] : Fin 2 → Nat) = fun _ => 0 := funext fun a => by fin_cases a <;> rfl

section Pieces
variable {F : FTy → Type} [FloatOps F]

theorem out_B (c : Dev nD) (i : grid18.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : ¬cond18_0 i) (x0 : Vec F S5000x1 .i32) (x1 : Vec F S5000x128 .f32) (xo : Vec F S128x128 .f32) :
    out18_B_2 c i a1 h1 a2 h2 a3 h3 hc x0 x1 xo = k18_pay2 x0 x1 xo := by
  unfold out18_B_2
  rw [View.read_writes_eq_canon _ _ _ (cover18_B_2 c i a1 h1 a2 h2 a3 h3 hc x0 x1 xo)]
  unfold kernelRun18_B
  dsimp only
  sl_unfold_words
  rw [View.canon_unit_zero hz]
  simp only [View.readAt_eq_ld, h1.read_unread, h2.read_unread, h3.read_unread, View.ld_unit_zero (S := S5000x1) hz,
    View.ld_unit_zero (S := S5000x128) hz, View.ld_unit_zero (S := S128x128) hz]

theorem out_A (c : Dev nD) (i : grid18.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : cond18_0 i) (x0 : Vec F S5000x1 .i32) (x1 : Vec F S5000x128 .f32) :
    out18_A_2 c i a1 h1 a2 h2 a3 h3 hc x0 x1 = k18_pay2 x0 x1 (k18_pay1 (F := F)) := by
  unfold out18_A_2
  rw [View.read_writes_eq_canon _ _ _ (cover18_A_2 c i a1 h1 a2 h2 a3 h3 hc x0 x1)]
  unfold kernelRun18_A
  dsimp only
  sl_unfold_words
  rw [View.canon_cons_unit_zero (S := S128x128) hz, View.readCov_unit_zero (S := S128x128) _ hz]
  simp only [View.readAt_eq_ld, h1.read_unread, h2.read_unread, View.ld_unit_zero (S := S5000x1) hz,
    View.ld_unit_zero (S := S5000x128) hz, View.ld_unit_zero (S := S128x128) hz]

end Pieces

variable (V : (c : Dev nD) → (b : Ref sig .tc) → Buf (Elt Ideal) ((c : Thread nD τ).loc b))

abbrev bblk (c : Dev nD) (t : Fin cfg18.N) : Vec Ideal S5000x1 .i32 := iblk18 V c 0 t

abbrev hblk (c : Dev nD) (t : Fin cfg18.N) : Vec Ideal S5000x128 .f32 := iblk18 V c 1 t

abbrev barr (c : Dev nD) : Vec Ideal S50000x1 .i32 := V c main_v4

abbrev harr (c : Dev nD) : Vec Ideal S50000x128 .f32 := V c main_v161

theorem idx_facts : ∀ t : Fin cfg18.N, win18_0.index t (0 : Fin 2) = t.val ∧ win18_0.index t (1 : Fin 2) = 0
    ∧ win18_1.index t (0 : Fin 2) = t.val ∧ win18_1.index t (1 : Fin 2) = 0 :=
  (by decide +kernel : ∀ t : Fin grid18.N, _)

theorem bblk_apply (c : Dev nD) (t : Fin cfg18.N) (k : Fin 5000) (h : t.val * 5000 + k.val < 50000) :
    bblk V c t (ix2 k 0) = barr V c (ix2 ⟨t.val * 5000 + k.val, h⟩ 0) := by
  obtain ⟨e0, e1, -, -⟩ := idx_facts t
  unfold bblk iblk18
  rw [View.read_apply]
  show V c main_v4 _ = V c main_v4 _
  congr 1
  funext a
  apply Fin.ext
  match a with
  | ⟨0, _⟩ => show win18_0.index t 0 * 5000 + 1 * k.val = t.val * 5000 + k.val; rw [e0]; omega
  | ⟨1, _⟩ => show win18_0.index t 1 * 1 + 1 * 0 = 0; rw [e1]

theorem hblk_apply (c : Dev nD) (t : Fin cfg18.N) (k : Fin 5000) (d : Fin 128) (h : t.val * 5000 + k.val < 50000) :
    hblk V c t (ix2 k d) = harr V c (ix2 ⟨t.val * 5000 + k.val, h⟩ d) := by
  obtain ⟨-, -, e0, e1⟩ := idx_facts t
  unfold hblk iblk18
  rw [View.read_apply]
  show V c main_v161 _ = V c main_v161 _
  congr 1
  funext a
  apply Fin.ext
  match a with
  | ⟨0, _⟩ => show win18_1.index t 0 * 5000 + 1 * k.val = t.val * 5000 + k.val; rw [e0]; omega
  | ⟨1, _⟩ => show win18_1.index t 1 * 128 + 1 * d.val = d.val; rw [e1]; omega

abbrev rowTerm (c : Dev nD) (g : Fin 128) (d : Fin 128) : Fin 50000 → EReal :=
  fun n => onehot (barr V c (ix2 n 0)) g.val * harr V c (ix2 n d)

abbrev term (c : Dev nD) (g : Fin 128) (d : Fin 128) : Fin (10 * 5000) → EReal :=
  fun i => rowTerm V c g d (Fin.cast (by norm_num) i)

theorem tile_eq (c : Dev nD) (t : Fin cfg18.N) (g : Fin 128) (d : Fin 128) :
    ∑ r : Fin 5000, onehot (bblk V c t (ix2 r 0)) g.val * hblk V c t (ix2 r d)
      = Cert.TileSums.tileSum 10 5000 (term V c g d) t.val := by
  have hN : t.val < 10 := lt_of_lt_of_eq t.isLt (show cfg18.N = 10 from N_18)
  rw [Cert.TileSums.tileSum_of_lt 10 5000 _ hN]
  refine Finset.sum_congr rfl fun r _ => ?_
  have hlt : t.val * 5000 + r.val < 50000 := by have := r.isLt; omega
  rw [bblk_apply V c t r hlt, hblk_apply V c t r d hlt]
  rfl

-- By induction on the point: point 0 adds its tile to the zero block, each later point adds its tile to what the point before left.
theorem outsAt_apply (c : Dev nD) (g : Fin 128) (d : Fin 128) : ∀ (n : ℕ) (h : n < cfg18.N),
    outsAt18 V c n h (ix2 g d) = ∑ s ∈ Finset.range (n + 1), Cert.TileSums.tileSum 10 5000 (term V c g d) s
  | 0, h => by
    rw [outsAt18_A V c ⟨0, h⟩ rfl]
    refine (congrFun (out_A (F := Ideal) c (grid18.coords ⟨0, h⟩) (ms18_0 ⟨0, h⟩) (hs18_0 ⟨0, h⟩) (ms18_1 ⟨0, h⟩) (hs18_1 ⟨0, h⟩)
      (ms18_2 ⟨0, h⟩) (hs18_2 ⟨0, h⟩) ((hcond18_0 ⟨0, h⟩).mpr rfl) (bblk V c ⟨0, h⟩) (hblk V c ⟨0, h⟩)) (ix2 g d)).trans ?_
    refine (pay2_apply (bblk V c ⟨0, h⟩) (hblk V c ⟨0, h⟩) (k18_pay1 (F := Ideal)) g d).trans ?_
    rw [pay1_apply, zero_add, tile_eq V c ⟨0, h⟩ g d, Cert.TileSums.acc_zero]
  | n + 1, h => by
    have hN : cfg18.N = 10 := N_18
    have hB : ¬(⟨n + 1, h⟩ : Fin cfg18.N).val % 10 = 0 := by dsimp only; omega
    rw [outsAt18_B V c ⟨n + 1, h⟩ hB]
    refine (congrFun (out_B (F := Ideal) c (grid18.coords ⟨n + 1, h⟩) (ms18_0 ⟨n + 1, h⟩) (hs18_0 ⟨n + 1, h⟩) (ms18_1 ⟨n + 1, h⟩) (hs18_1 ⟨n + 1, h⟩)
      (ms18_2 ⟨n + 1, h⟩) (hs18_2 ⟨n + 1, h⟩) (fun hh => hB ((hcond18_0 ⟨n + 1, h⟩).mp hh)) (bblk V c ⟨n + 1, h⟩) (hblk V c ⟨n + 1, h⟩)
      (outsAt18 V c n (Nat.lt_of_succ_lt h))) (ix2 g d)).trans ?_
    refine (pay2_apply (bblk V c ⟨n + 1, h⟩) (hblk V c ⟨n + 1, h⟩) (outsAt18 V c n (Nat.lt_of_succ_lt h)) g d).trans ?_
    rw [outsAt_apply c g d n (Nat.lt_of_succ_lt h), tile_eq V c ⟨n + 1, h⟩ g d, Cert.TileSums.acc_succ]

abbrev result (c : Dev nD) : Buf (Elt Ideal) ((c : Thread nD τ).loc main_v271) :=
  poolFn (N := 50000) (D := 128) (barr V c) (harr V c)

-- Ten tiles of 5000 rows are all 50000 rows.
theorem after_last (c : Dev nD) : outsAt18 V c t18_9.val t18_9.isLt = result V c := by
  funext i
  obtain ⟨g, d, rfl⟩ : ∃ (g : Fin 128) (d : Fin 128), i = ix2 g d := ⟨i 0, i 1, eq_ix2 i⟩
  rw [outsAt_apply V c g d]
  show ∑ s ∈ Finset.range 10, Cert.TileSums.tileSum 10 5000 (term V c g d) s = ∑ n : Fin 50000, rowTerm V c g d n
  rw [← Cert.TileSums.sum_eq_range 10 5000 (term V c g d)]
  exact Equiv.sum_comp (finCongr (show 10 * 5000 = 50000 by norm_num)) (rowTerm V c g d)

theorem flushed_eq (c : Dev nD) (t : Fin cfg18.N) (hf : (cfg18.win 2).flush t = true) :
    (dat18 V c).flushed 2 t = ((cfg18.win 2).blk t).view.read (Elt Ideal) (result V c) := by
  have hN : cfg18.N = 10 := N_18
  have h9 : t.val = 9 := by have := (flush18_2 t).mp hf; have := t.isLt; omega
  obtain rfl : t = t18_9 := Fin.ext h9
  show (cfg18.win 2).cut (grid18.coords t18_9) ((dat18 V c).after 2 t18_9) = _
  rw [after18_2, after_last]
  have hz' : (fun a => win18_2.index t18_9 a * main_v271.ty.shape.size a) = fun _ => 0 := funext fun a => by fin_cases a <;> decide
  exact (Memref.read_access_unit_zero (Elt Ideal) main_v271 hz' (fun a => by rw [congrFun hz' a]; simp) (result V c)).symm

theorem final (c : Dev nD) : (dat18 V c).arrAt 2 cfg18.N = result V c :=
  (dat18 V c).arrAt_eq_of_cover 2 (result V c) (flushed_eq V c) fun i =>
    ⟨t18_9, (flush18_2 t18_9).mpr rfl, by
      show i ∈ ((View.whole main_v271).slice (win18_2.rect t18_9)).set
      rw [View.set_slice_whole, Rect.mem_set_unit]
      intro a
      have h0 : (i 0 : Nat) < 128 := (i 0).isLt
      have h1 : (i 1 : Nat) < 128 := (i 1).isLt
      match a with
      | ⟨0, _⟩ => show win18_2.index t18_9 0 * win18_2.size 0 ≤ (i 0 : Nat) ∧ (i 0 : Nat) < win18_2.index t18_9 0 * win18_2.size 0 + win18_2.xsize (grid18.coords t18_9) 0
                  rw [show win18_2.index t18_9 0 * win18_2.size 0 = 0 from by decide +kernel, show win18_2.xsize (grid18.coords t18_9) 0 = 128 from by decide +kernel]; omega
      | ⟨1, _⟩ => show win18_2.index t18_9 1 * win18_2.size 1 ≤ (i 1 : Nat) ∧ (i 1 : Nat) < win18_2.index t18_9 1 * win18_2.size 1 + win18_2.xsize (grid18.coords t18_9) 1
                  rw [show win18_2.index t18_9 1 * win18_2.size 1 = 0 from by decide +kernel, show win18_2.xsize (grid18.coords t18_9) 1 = 128 from by decide +kernel]; omega⟩

-- Scatter-adding row n of H into row (batch n) of a zero array sums, at (g, d), the rows whose batch id is g.
theorem pool_eq (b : Cert.Spec.I Cert.ReferenceIdeal.S50000x1) (H : Cert.Spec.M Cert.ReferenceIdeal.S50000x128) :
    Cert.Spec.pool128 b H = poolFn (N := 50000) (D := 128) b H := by
  unfold Cert.Spec.pool128 Host.scatterAdd
  rw [Ideal.hostScatterAdd_def]
  exact Cert.PoolSum.scatterAdd_zero_eq_poolFn Cert.ReferenceIdeal.scatter_S128x128_S50000x1_S50000x128_1_0_0_1.wf _
    (fun _ => Ideal.ofBits_zero_f32) b H

theorem out2 (c : Dev nD) : (dat18 V c).arrAt 2 cfg18.N = Cert.Spec.pool128 (V c main_v4) (V c main_v161) :=
  (final V c).trans (pool_eq (V c main_v4) (V c main_v161)).symm

end Cert.KernelIdeal.GP18

end
-- ==== Proof.GP19Pay.lean ====
import proofs.«410724_j86964497809599_1_alg».proof.Proof.GP16Pay

namespace Cert.KernelIdeal.GP19

open Cert.KernelIdeal Cert.KernelIdeal.Gen Idealize.ShloMosaic Idealize.ShloMosaic.TcCoe Idealize.ShloMosaic.ValueIdx
open Cert.PoolSum (onehot)

-- This region's payload functions are the same terms as region 16's, so each fact below is region 16's.

theorem pay2_apply (v3 : Vec Ideal S5000x1 .i32) (v11 : Vec Ideal S5000x128 .f32) (v15 : Vec Ideal S128x128 .f32)
    (g : Fin 128) (d : Fin 128) :
    k19_pay2 (F := Ideal) v3 v11 v15 (ix2 g d)
      = v15 (ix2 g d) + ∑ r : Fin 5000, onehot (v3 (ix2 r 0)) g.val * v11 (ix2 r d) :=
  GP16.pay2_apply v3 v11 v15 g d

theorem pay1_apply (i : S128x128.Idx) : k19_pay1 (F := Ideal) i = 0 := GP16.pay1_apply i

end Cert.KernelIdeal.GP19
-- ==== Proof.GP19.lean ====
import proofs.«410724_j86964497809599_1_alg».proof.Proof.Gen.KernelIdeal.Frame
import proofs.«410724_j86964497809599_1_alg».proof.Proof.GP19Pay
import proofs.«410724_j86964497809599_1_alg».proof.Proof.Spec
import proofs.«410724_j86964497809599_1_alg».proof.Proof.TileSums
import Idealize.ShloMosaic.Lib.Pipeline.Value
import Idealize.ShloMosaic.Lib.Tactic

set_option maxRecDepth 16384

noncomputable section

namespace Cert.KernelIdeal.GP19

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat Cfg Window)
open Cert.PoolSum (onehot poolFn)

theorem hz : (![0, 0] : Fin 2 → Nat) = fun _ => 0 := funext fun a => by fin_cases a <;> rfl

section Pieces
variable {F : FTy → Type} [FloatOps F]

theorem out_B (c : Dev nD) (i : grid19.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : ¬cond19_0 i) (x0 : Vec F S5000x1 .i32) (x1 : Vec F S5000x128 .f32) (xo : Vec F S128x128 .f32) :
    out19_B_2 c i a1 h1 a2 h2 a3 h3 hc x0 x1 xo = k19_pay2 x0 x1 xo := by
  unfold out19_B_2
  rw [View.read_writes_eq_canon _ _ _ (cover19_B_2 c i a1 h1 a2 h2 a3 h3 hc x0 x1 xo)]
  unfold kernelRun19_B
  dsimp only
  sl_unfold_words
  rw [View.canon_unit_zero hz]
  simp only [View.readAt_eq_ld, h1.read_unread, h2.read_unread, h3.read_unread, View.ld_unit_zero (S := S5000x1) hz,
    View.ld_unit_zero (S := S5000x128) hz, View.ld_unit_zero (S := S128x128) hz]

theorem out_A (c : Dev nD) (i : grid19.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : cond19_0 i) (x0 : Vec F S5000x1 .i32) (x1 : Vec F S5000x128 .f32) :
    out19_A_2 c i a1 h1 a2 h2 a3 h3 hc x0 x1 = k19_pay2 x0 x1 (k19_pay1 (F := F)) := by
  unfold out19_A_2
  rw [View.read_writes_eq_canon _ _ _ (cover19_A_2 c i a1 h1 a2 h2 a3 h3 hc x0 x1)]
  unfold kernelRun19_A
  dsimp only
  sl_unfold_words
  rw [View.canon_cons_unit_zero (S := S128x128) hz, View.readCov_unit_zero (S := S128x128) _ hz]
  simp only [View.readAt_eq_ld, h1.read_unread, h2.read_unread, View.ld_unit_zero (S := S5000x1) hz,
    View.ld_unit_zero (S := S5000x128) hz, View.ld_unit_zero (S := S128x128) hz]

end Pieces

variable (V : (c : Dev nD) → (b : Ref sig .tc) → Buf (Elt Ideal) ((c : Thread nD τ).loc b))

abbrev bblk (c : Dev nD) (t : Fin cfg19.N) : Vec Ideal S5000x1 .i32 := iblk19 V c 0 t

abbrev hblk (c : Dev nD) (t : Fin cfg19.N) : Vec Ideal S5000x128 .f32 := iblk19 V c 1 t

abbrev barr (c : Dev nD) : Vec Ideal S50000x1 .i32 := V c main_v4

abbrev harr (c : Dev nD) : Vec Ideal S50000x128 .f32 := V c main_v214

theorem idx_facts : ∀ t : Fin cfg19.N, win19_0.index t (0 : Fin 2) = t.val ∧ win19_0.index t (1 : Fin 2) = 0
    ∧ win19_1.index t (0 : Fin 2) = t.val ∧ win19_1.index t (1 : Fin 2) = 0 :=
  (by decide +kernel : ∀ t : Fin grid19.N, _)

theorem bblk_apply (c : Dev nD) (t : Fin cfg19.N) (k : Fin 5000) (h : t.val * 5000 + k.val < 50000) :
    bblk V c t (ix2 k 0) = barr V c (ix2 ⟨t.val * 5000 + k.val, h⟩ 0) := by
  obtain ⟨e0, e1, -, -⟩ := idx_facts t
  unfold bblk iblk19
  rw [View.read_apply]
  show V c main_v4 _ = V c main_v4 _
  congr 1
  funext a
  apply Fin.ext
  match a with
  | ⟨0, _⟩ => show win19_0.index t 0 * 5000 + 1 * k.val = t.val * 5000 + k.val; rw [e0]; omega
  | ⟨1, _⟩ => show win19_0.index t 1 * 1 + 1 * 0 = 0; rw [e1]

theorem hblk_apply (c : Dev nD) (t : Fin cfg19.N) (k : Fin 5000) (d : Fin 128) (h : t.val * 5000 + k.val < 50000) :
    hblk V c t (ix2 k d) = harr V c (ix2 ⟨t.val * 5000 + k.val, h⟩ d) := by
  obtain ⟨-, -, e0, e1⟩ := idx_facts t
  unfold hblk iblk19
  rw [View.read_apply]
  show V c main_v214 _ = V c main_v214 _
  congr 1
  funext a
  apply Fin.ext
  match a with
  | ⟨0, _⟩ => show win19_1.index t 0 * 5000 + 1 * k.val = t.val * 5000 + k.val; rw [e0]; omega
  | ⟨1, _⟩ => show win19_1.index t 1 * 128 + 1 * d.val = d.val; rw [e1]; omega

abbrev rowTerm (c : Dev nD) (g : Fin 128) (d : Fin 128) : Fin 50000 → EReal :=
  fun n => onehot (barr V c (ix2 n 0)) g.val * harr V c (ix2 n d)

abbrev term (c : Dev nD) (g : Fin 128) (d : Fin 128) : Fin (10 * 5000) → EReal :=
  fun i => rowTerm V c g d (Fin.cast (by norm_num) i)

theorem tile_eq (c : Dev nD) (t : Fin cfg19.N) (g : Fin 128) (d : Fin 128) :
    ∑ r : Fin 5000, onehot (bblk V c t (ix2 r 0)) g.val * hblk V c t (ix2 r d)
      = Cert.TileSums.tileSum 10 5000 (term V c g d) t.val := by
  have hN : t.val < 10 := lt_of_lt_of_eq t.isLt (show cfg19.N = 10 from N_19)
  rw [Cert.TileSums.tileSum_of_lt 10 5000 _ hN]
  refine Finset.sum_congr rfl fun r _ => ?_
  have hlt : t.val * 5000 + r.val < 50000 := by have := r.isLt; omega
  rw [bblk_apply V c t r hlt, hblk_apply V c t r d hlt]
  rfl

-- By induction on the point: point 0 adds its tile to the zero block, each later point adds its tile to what the point before left.
theorem outsAt_apply (c : Dev nD) (g : Fin 128) (d : Fin 128) : ∀ (n : ℕ) (h : n < cfg19.N),
    outsAt19 V c n h (ix2 g d) = ∑ s ∈ Finset.range (n + 1), Cert.TileSums.tileSum 10 5000 (term V c g d) s
  | 0, h => by
    rw [outsAt19_A V c ⟨0, h⟩ rfl]
    refine (congrFun (out_A (F := Ideal) c (grid19.coords ⟨0, h⟩) (ms19_0 ⟨0, h⟩) (hs19_0 ⟨0, h⟩) (ms19_1 ⟨0, h⟩) (hs19_1 ⟨0, h⟩)
      (ms19_2 ⟨0, h⟩) (hs19_2 ⟨0, h⟩) ((hcond19_0 ⟨0, h⟩).mpr rfl) (bblk V c ⟨0, h⟩) (hblk V c ⟨0, h⟩)) (ix2 g d)).trans ?_
    refine (pay2_apply (bblk V c ⟨0, h⟩) (hblk V c ⟨0, h⟩) (k19_pay1 (F := Ideal)) g d).trans ?_
    rw [pay1_apply, zero_add, tile_eq V c ⟨0, h⟩ g d, Cert.TileSums.acc_zero]
  | n + 1, h => by
    have hN : cfg19.N = 10 := N_19
    have hB : ¬(⟨n + 1, h⟩ : Fin cfg19.N).val % 10 = 0 := by dsimp only; omega
    rw [outsAt19_B V c ⟨n + 1, h⟩ hB]
    refine (congrFun (out_B (F := Ideal) c (grid19.coords ⟨n + 1, h⟩) (ms19_0 ⟨n + 1, h⟩) (hs19_0 ⟨n + 1, h⟩) (ms19_1 ⟨n + 1, h⟩) (hs19_1 ⟨n + 1, h⟩)
      (ms19_2 ⟨n + 1, h⟩) (hs19_2 ⟨n + 1, h⟩) (fun hh => hB ((hcond19_0 ⟨n + 1, h⟩).mp hh)) (bblk V c ⟨n + 1, h⟩) (hblk V c ⟨n + 1, h⟩)
      (outsAt19 V c n (Nat.lt_of_succ_lt h))) (ix2 g d)).trans ?_
    refine (pay2_apply (bblk V c ⟨n + 1, h⟩) (hblk V c ⟨n + 1, h⟩) (outsAt19 V c n (Nat.lt_of_succ_lt h)) g d).trans ?_
    rw [outsAt_apply c g d n (Nat.lt_of_succ_lt h), tile_eq V c ⟨n + 1, h⟩ g d, Cert.TileSums.acc_succ]

abbrev result (c : Dev nD) : Buf (Elt Ideal) ((c : Thread nD τ).loc main_v272) :=
  poolFn (N := 50000) (D := 128) (barr V c) (harr V c)

-- Ten tiles of 5000 rows are all 50000 rows.
theorem after_last (c : Dev nD) : outsAt19 V c t19_9.val t19_9.isLt = result V c := by
  funext i
  obtain ⟨g, d, rfl⟩ : ∃ (g : Fin 128) (d : Fin 128), i = ix2 g d := ⟨i 0, i 1, eq_ix2 i⟩
  rw [outsAt_apply V c g d]
  show ∑ s ∈ Finset.range 10, Cert.TileSums.tileSum 10 5000 (term V c g d) s = ∑ n : Fin 50000, rowTerm V c g d n
  rw [← Cert.TileSums.sum_eq_range 10 5000 (term V c g d)]
  exact Equiv.sum_comp (finCongr (show 10 * 5000 = 50000 by norm_num)) (rowTerm V c g d)

theorem flushed_eq (c : Dev nD) (t : Fin cfg19.N) (hf : (cfg19.win 2).flush t = true) :
    (dat19 V c).flushed 2 t = ((cfg19.win 2).blk t).view.read (Elt Ideal) (result V c) := by
  have hN : cfg19.N = 10 := N_19
  have h9 : t.val = 9 := by have := (flush19_2 t).mp hf; have := t.isLt; omega
  obtain rfl : t = t19_9 := Fin.ext h9
  show (cfg19.win 2).cut (grid19.coords t19_9) ((dat19 V c).after 2 t19_9) = _
  rw [after19_2, after_last]
  have hz' : (fun a => win19_2.index t19_9 a * main_v272.ty.shape.size a) = fun _ => 0 := funext fun a => by fin_cases a <;> decide
  exact (Memref.read_access_unit_zero (Elt Ideal) main_v272 hz' (fun a => by rw [congrFun hz' a]; simp) (result V c)).symm

theorem final (c : Dev nD) : (dat19 V c).arrAt 2 cfg19.N = result V c :=
  (dat19 V c).arrAt_eq_of_cover 2 (result V c) (flushed_eq V c) fun i =>
    ⟨t19_9, (flush19_2 t19_9).mpr rfl, by
      show i ∈ ((View.whole main_v272).slice (win19_2.rect t19_9)).set
      rw [View.set_slice_whole, Rect.mem_set_unit]
      intro a
      have h0 : (i 0 : Nat) < 128 := (i 0).isLt
      have h1 : (i 1 : Nat) < 128 := (i 1).isLt
      match a with
      | ⟨0, _⟩ => show win19_2.index t19_9 0 * win19_2.size 0 ≤ (i 0 : Nat) ∧ (i 0 : Nat) < win19_2.index t19_9 0 * win19_2.size 0 + win19_2.xsize (grid19.coords t19_9) 0
                  rw [show win19_2.index t19_9 0 * win19_2.size 0 = 0 from by decide +kernel, show win19_2.xsize (grid19.coords t19_9) 0 = 128 from by decide +kernel]; omega
      | ⟨1, _⟩ => show win19_2.index t19_9 1 * win19_2.size 1 ≤ (i 1 : Nat) ∧ (i 1 : Nat) < win19_2.index t19_9 1 * win19_2.size 1 + win19_2.xsize (grid19.coords t19_9) 1
                  rw [show win19_2.index t19_9 1 * win19_2.size 1 = 0 from by decide +kernel, show win19_2.xsize (grid19.coords t19_9) 1 = 128 from by decide +kernel]; omega⟩

-- Scatter-adding row n of H into row (batch n) of a zero array sums, at (g, d), the rows whose batch id is g.
theorem pool_eq (b : Cert.Spec.I Cert.ReferenceIdeal.S50000x1) (H : Cert.Spec.M Cert.ReferenceIdeal.S50000x128) :
    Cert.Spec.pool128 b H = poolFn (N := 50000) (D := 128) b H := by
  unfold Cert.Spec.pool128 Host.scatterAdd
  rw [Ideal.hostScatterAdd_def]
  exact Cert.PoolSum.scatterAdd_zero_eq_poolFn Cert.ReferenceIdeal.scatter_S128x128_S50000x1_S50000x128_1_0_0_1.wf _
    (fun _ => Ideal.ofBits_zero_f32) b H

theorem out2 (c : Dev nD) : (dat19 V c).arrAt 2 cfg19.N = Cert.Spec.pool128 (V c main_v4) (V c main_v214) :=
  (final V c).trans (pool_eq (V c main_v4) (V c main_v214)).symm

end Cert.KernelIdeal.GP19

end
-- ==== Proof.GP20Pay.lean ====
import proofs.«410724_j86964497809599_1_alg».proof.Proof.GP16Pay

namespace Cert.KernelIdeal.GP20

open Cert.KernelIdeal Cert.KernelIdeal.Gen Idealize.ShloMosaic Idealize.ShloMosaic.TcCoe Idealize.ShloMosaic.ValueIdx
open Cert.PoolSum (onehot)

-- This region's payload functions are the same terms as region 16's, so each fact below is region 16's.

theorem pay2_apply (v3 : Vec Ideal S5000x1 .i32) (v11 : Vec Ideal S5000x128 .f32) (v15 : Vec Ideal S128x128 .f32)
    (g : Fin 128) (d : Fin 128) :
    k20_pay2 (F := Ideal) v3 v11 v15 (ix2 g d)
      = v15 (ix2 g d) + ∑ r : Fin 5000, onehot (v3 (ix2 r 0)) g.val * v11 (ix2 r d) :=
  GP16.pay2_apply v3 v11 v15 g d

theorem pay1_apply (i : S128x128.Idx) : k20_pay1 (F := Ideal) i = 0 := GP16.pay1_apply i

end Cert.KernelIdeal.GP20
-- ==== Proof.GP20.lean ====
import proofs.«410724_j86964497809599_1_alg».proof.Proof.Gen.KernelIdeal.Frame
import proofs.«410724_j86964497809599_1_alg».proof.Proof.GP20Pay
import proofs.«410724_j86964497809599_1_alg».proof.Proof.Spec
import proofs.«410724_j86964497809599_1_alg».proof.Proof.TileSums
import Idealize.ShloMosaic.Lib.Pipeline.Value
import Idealize.ShloMosaic.Lib.Tactic

set_option maxRecDepth 16384

noncomputable section

namespace Cert.KernelIdeal.GP20

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat Cfg Window)
open Cert.PoolSum (onehot poolFn)

theorem hz : (![0, 0] : Fin 2 → Nat) = fun _ => 0 := funext fun a => by fin_cases a <;> rfl

section Pieces
variable {F : FTy → Type} [FloatOps F]

theorem out_B (c : Dev nD) (i : grid20.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : ¬cond20_0 i) (x0 : Vec F S5000x1 .i32) (x1 : Vec F S5000x128 .f32) (xo : Vec F S128x128 .f32) :
    out20_B_2 c i a1 h1 a2 h2 a3 h3 hc x0 x1 xo = k20_pay2 x0 x1 xo := by
  unfold out20_B_2
  rw [View.read_writes_eq_canon _ _ _ (cover20_B_2 c i a1 h1 a2 h2 a3 h3 hc x0 x1 xo)]
  unfold kernelRun20_B
  dsimp only
  sl_unfold_words
  rw [View.canon_unit_zero hz]
  simp only [View.readAt_eq_ld, h1.read_unread, h2.read_unread, h3.read_unread, View.ld_unit_zero (S := S5000x1) hz,
    View.ld_unit_zero (S := S5000x128) hz, View.ld_unit_zero (S := S128x128) hz]

theorem out_A (c : Dev nD) (i : grid20.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : cond20_0 i) (x0 : Vec F S5000x1 .i32) (x1 : Vec F S5000x128 .f32) :
    out20_A_2 c i a1 h1 a2 h2 a3 h3 hc x0 x1 = k20_pay2 x0 x1 (k20_pay1 (F := F)) := by
  unfold out20_A_2
  rw [View.read_writes_eq_canon _ _ _ (cover20_A_2 c i a1 h1 a2 h2 a3 h3 hc x0 x1)]
  unfold kernelRun20_A
  dsimp only
  sl_unfold_words
  rw [View.canon_cons_unit_zero (S := S128x128) hz, View.readCov_unit_zero (S := S128x128) _ hz]
  simp only [View.readAt_eq_ld, h1.read_unread, h2.read_unread, View.ld_unit_zero (S := S5000x1) hz,
    View.ld_unit_zero (S := S5000x128) hz, View.ld_unit_zero (S := S128x128) hz]

end Pieces

variable (V : (c : Dev nD) → (b : Ref sig .tc) → Buf (Elt Ideal) ((c : Thread nD τ).loc b))

abbrev bblk (c : Dev nD) (t : Fin cfg20.N) : Vec Ideal S5000x1 .i32 := iblk20 V c 0 t

abbrev hblk (c : Dev nD) (t : Fin cfg20.N) : Vec Ideal S5000x128 .f32 := iblk20 V c 1 t

abbrev barr (c : Dev nD) : Vec Ideal S50000x1 .i32 := V c main_v4

abbrev harr (c : Dev nD) : Vec Ideal S50000x128 .f32 := V c main_v267

theorem idx_facts : ∀ t : Fin cfg20.N, win20_0.index t (0 : Fin 2) = t.val ∧ win20_0.index t (1 : Fin 2) = 0
    ∧ win20_1.index t (0 : Fin 2) = t.val ∧ win20_1.index t (1 : Fin 2) = 0 :=
  (by decide +kernel : ∀ t : Fin grid20.N, _)

theorem bblk_apply (c : Dev nD) (t : Fin cfg20.N) (k : Fin 5000) (h : t.val * 5000 + k.val < 50000) :
    bblk V c t (ix2 k 0) = barr V c (ix2 ⟨t.val * 5000 + k.val, h⟩ 0) := by
  obtain ⟨e0, e1, -, -⟩ := idx_facts t
  unfold bblk iblk20
  rw [View.read_apply]
  show V c main_v4 _ = V c main_v4 _
  congr 1
  funext a
  apply Fin.ext
  match a with
  | ⟨0, _⟩ => show win20_0.index t 0 * 5000 + 1 * k.val = t.val * 5000 + k.val; rw [e0]; omega
  | ⟨1, _⟩ => show win20_0.index t 1 * 1 + 1 * 0 = 0; rw [e1]

theorem hblk_apply (c : Dev nD) (t : Fin cfg20.N) (k : Fin 5000) (d : Fin 128) (h : t.val * 5000 + k.val < 50000) :
    hblk V c t (ix2 k d) = harr V c (ix2 ⟨t.val * 5000 + k.val, h⟩ d) := by
  obtain ⟨-, -, e0, e1⟩ := idx_facts t
  unfold hblk iblk20
  rw [View.read_apply]
  show V c main_v267 _ = V c main_v267 _
  congr 1
  funext a
  apply Fin.ext
  match a with
  | ⟨0, _⟩ => show win20_1.index t 0 * 5000 + 1 * k.val = t.val * 5000 + k.val; rw [e0]; omega
  | ⟨1, _⟩ => show win20_1.index t 1 * 128 + 1 * d.val = d.val; rw [e1]; omega

abbrev rowTerm (c : Dev nD) (g : Fin 128) (d : Fin 128) : Fin 50000 → EReal :=
  fun n => onehot (barr V c (ix2 n 0)) g.val * harr V c (ix2 n d)

abbrev term (c : Dev nD) (g : Fin 128) (d : Fin 128) : Fin (10 * 5000) → EReal :=
  fun i => rowTerm V c g d (Fin.cast (by norm_num) i)

theorem tile_eq (c : Dev nD) (t : Fin cfg20.N) (g : Fin 128) (d : Fin 128) :
    ∑ r : Fin 5000, onehot (bblk V c t (ix2 r 0)) g.val * hblk V c t (ix2 r d)
      = Cert.TileSums.tileSum 10 5000 (term V c g d) t.val := by
  have hN : t.val < 10 := lt_of_lt_of_eq t.isLt (show cfg20.N = 10 from N_20)
  rw [Cert.TileSums.tileSum_of_lt 10 5000 _ hN]
  refine Finset.sum_congr rfl fun r _ => ?_
  have hlt : t.val * 5000 + r.val < 50000 := by have := r.isLt; omega
  rw [bblk_apply V c t r hlt, hblk_apply V c t r d hlt]
  rfl

-- By induction on the point: point 0 adds its tile to the zero block, each later point adds its tile to what the point before left.
theorem outsAt_apply (c : Dev nD) (g : Fin 128) (d : Fin 128) : ∀ (n : ℕ) (h : n < cfg20.N),
    outsAt20 V c n h (ix2 g d) = ∑ s ∈ Finset.range (n + 1), Cert.TileSums.tileSum 10 5000 (term V c g d) s
  | 0, h => by
    rw [outsAt20_A V c ⟨0, h⟩ rfl]
    refine (congrFun (out_A (F := Ideal) c (grid20.coords ⟨0, h⟩) (ms20_0 ⟨0, h⟩) (hs20_0 ⟨0, h⟩) (ms20_1 ⟨0, h⟩) (hs20_1 ⟨0, h⟩)
      (ms20_2 ⟨0, h⟩) (hs20_2 ⟨0, h⟩) ((hcond20_0 ⟨0, h⟩).mpr rfl) (bblk V c ⟨0, h⟩) (hblk V c ⟨0, h⟩)) (ix2 g d)).trans ?_
    refine (pay2_apply (bblk V c ⟨0, h⟩) (hblk V c ⟨0, h⟩) (k20_pay1 (F := Ideal)) g d).trans ?_
    rw [pay1_apply, zero_add, tile_eq V c ⟨0, h⟩ g d, Cert.TileSums.acc_zero]
  | n + 1, h => by
    have hN : cfg20.N = 10 := N_20
    have hB : ¬(⟨n + 1, h⟩ : Fin cfg20.N).val % 10 = 0 := by dsimp only; omega
    rw [outsAt20_B V c ⟨n + 1, h⟩ hB]
    refine (congrFun (out_B (F := Ideal) c (grid20.coords ⟨n + 1, h⟩) (ms20_0 ⟨n + 1, h⟩) (hs20_0 ⟨n + 1, h⟩) (ms20_1 ⟨n + 1, h⟩) (hs20_1 ⟨n + 1, h⟩)
      (ms20_2 ⟨n + 1, h⟩) (hs20_2 ⟨n + 1, h⟩) (fun hh => hB ((hcond20_0 ⟨n + 1, h⟩).mp hh)) (bblk V c ⟨n + 1, h⟩) (hblk V c ⟨n + 1, h⟩)
      (outsAt20 V c n (Nat.lt_of_succ_lt h))) (ix2 g d)).trans ?_
    refine (pay2_apply (bblk V c ⟨n + 1, h⟩) (hblk V c ⟨n + 1, h⟩) (outsAt20 V c n (Nat.lt_of_succ_lt h)) g d).trans ?_
    rw [outsAt_apply c g d n (Nat.lt_of_succ_lt h), tile_eq V c ⟨n + 1, h⟩ g d, Cert.TileSums.acc_succ]

abbrev result (c : Dev nD) : Buf (Elt Ideal) ((c : Thread nD τ).loc main_v273) :=
  poolFn (N := 50000) (D := 128) (barr V c) (harr V c)

-- Ten tiles of 5000 rows are all 50000 rows.
theorem after_last (c : Dev nD) : outsAt20 V c t20_9.val t20_9.isLt = result V c := by
  funext i
  obtain ⟨g, d, rfl⟩ : ∃ (g : Fin 128) (d : Fin 128), i = ix2 g d := ⟨i 0, i 1, eq_ix2 i⟩
  rw [outsAt_apply V c g d]
  show ∑ s ∈ Finset.range 10, Cert.TileSums.tileSum 10 5000 (term V c g d) s = ∑ n : Fin 50000, rowTerm V c g d n
  rw [← Cert.TileSums.sum_eq_range 10 5000 (term V c g d)]
  exact Equiv.sum_comp (finCongr (show 10 * 5000 = 50000 by norm_num)) (rowTerm V c g d)

theorem flushed_eq (c : Dev nD) (t : Fin cfg20.N) (hf : (cfg20.win 2).flush t = true) :
    (dat20 V c).flushed 2 t = ((cfg20.win 2).blk t).view.read (Elt Ideal) (result V c) := by
  have hN : cfg20.N = 10 := N_20
  have h9 : t.val = 9 := by have := (flush20_2 t).mp hf; have := t.isLt; omega
  obtain rfl : t = t20_9 := Fin.ext h9
  show (cfg20.win 2).cut (grid20.coords t20_9) ((dat20 V c).after 2 t20_9) = _
  rw [after20_2, after_last]
  have hz' : (fun a => win20_2.index t20_9 a * main_v273.ty.shape.size a) = fun _ => 0 := funext fun a => by fin_cases a <;> decide
  exact (Memref.read_access_unit_zero (Elt Ideal) main_v273 hz' (fun a => by rw [congrFun hz' a]; simp) (result V c)).symm

theorem final (c : Dev nD) : (dat20 V c).arrAt 2 cfg20.N = result V c :=
  (dat20 V c).arrAt_eq_of_cover 2 (result V c) (flushed_eq V c) fun i =>
    ⟨t20_9, (flush20_2 t20_9).mpr rfl, by
      show i ∈ ((View.whole main_v273).slice (win20_2.rect t20_9)).set
      rw [View.set_slice_whole, Rect.mem_set_unit]
      intro a
      have h0 : (i 0 : Nat) < 128 := (i 0).isLt
      have h1 : (i 1 : Nat) < 128 := (i 1).isLt
      match a with
      | ⟨0, _⟩ => show win20_2.index t20_9 0 * win20_2.size 0 ≤ (i 0 : Nat) ∧ (i 0 : Nat) < win20_2.index t20_9 0 * win20_2.size 0 + win20_2.xsize (grid20.coords t20_9) 0
                  rw [show win20_2.index t20_9 0 * win20_2.size 0 = 0 from by decide +kernel, show win20_2.xsize (grid20.coords t20_9) 0 = 128 from by decide +kernel]; omega
      | ⟨1, _⟩ => show win20_2.index t20_9 1 * win20_2.size 1 ≤ (i 1 : Nat) ∧ (i 1 : Nat) < win20_2.index t20_9 1 * win20_2.size 1 + win20_2.xsize (grid20.coords t20_9) 1
                  rw [show win20_2.index t20_9 1 * win20_2.size 1 = 0 from by decide +kernel, show win20_2.xsize (grid20.coords t20_9) 1 = 128 from by decide +kernel]; omega⟩

-- Scatter-adding row n of H into row (batch n) of a zero array sums, at (g, d), the rows whose batch id is g.
theorem pool_eq (b : Cert.Spec.I Cert.ReferenceIdeal.S50000x1) (H : Cert.Spec.M Cert.ReferenceIdeal.S50000x128) :
    Cert.Spec.pool128 b H = poolFn (N := 50000) (D := 128) b H := by
  unfold Cert.Spec.pool128 Host.scatterAdd
  rw [Ideal.hostScatterAdd_def]
  exact Cert.PoolSum.scatterAdd_zero_eq_poolFn Cert.ReferenceIdeal.scatter_S128x128_S50000x1_S50000x128_1_0_0_1.wf _
    (fun _ => Ideal.ofBits_zero_f32) b H

theorem out2 (c : Dev nD) : (dat20 V c).arrAt 2 cfg20.N = Cert.Spec.pool128 (V c main_v4) (V c main_v267) :=
  (final V c).trans (pool_eq (V c main_v4) (V c main_v267)).symm

end Cert.KernelIdeal.GP20

end
-- ==== Proof.RegionVals.lean ====
import proofs.«410724_j86964497809599_1_alg».proof.Proof.Gen.KernelIdeal.Frame
import proofs.«410724_j86964497809599_1_alg».proof.Proof.Spec
import proofs.«410724_j86964497809599_1_alg».proof.Proof.LS0
import proofs.«410724_j86964497809599_1_alg».proof.Proof.NMS1
import proofs.«410724_j86964497809599_1_alg».proof.Proof.NR2
import proofs.«410724_j86964497809599_1_alg».proof.Proof.LS3
import proofs.«410724_j86964497809599_1_alg».proof.Proof.NMS4
import proofs.«410724_j86964497809599_1_alg».proof.Proof.NR5
import proofs.«410724_j86964497809599_1_alg».proof.Proof.LS6
import proofs.«410724_j86964497809599_1_alg».proof.Proof.NMS7
import proofs.«410724_j86964497809599_1_alg».proof.Proof.NR8
import proofs.«410724_j86964497809599_1_alg».proof.Proof.LS9
import proofs.«410724_j86964497809599_1_alg».proof.Proof.NMS10
import proofs.«410724_j86964497809599_1_alg».proof.Proof.NR11
import proofs.«410724_j86964497809599_1_alg».proof.Proof.LS12
import proofs.«410724_j86964497809599_1_alg».proof.Proof.NMS13
import proofs.«410724_j86964497809599_1_alg».proof.Proof.NR14
import proofs.«410724_j86964497809599_1_alg».proof.Proof.GP15
import proofs.«410724_j86964497809599_1_alg».proof.Proof.GP16
import proofs.«410724_j86964497809599_1_alg».proof.Proof.GP17
import proofs.«410724_j86964497809599_1_alg».proof.Proof.GP18
import proofs.«410724_j86964497809599_1_alg».proof.Proof.GP19
import proofs.«410724_j86964497809599_1_alg».proof.Proof.GP20

set_option maxRecDepth 16384

noncomputable section

namespace Cert.KernelIdeal.RV

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem reg0_out3 (c : Dev nD) : (dat0 V c).arrAt 3 cfg0.N = Cert.Spec.lin200 (V c main_v20) (V c main_arg4) (V c main_v23) := Cert.KernelIdeal.LS0.out3 V c
theorem reg0_out4 (c : Dev nD) : (dat0 V c).arrAt 4 cfg0.N = Cert.Spec.sumRow (Cert.Spec.lin200 (V c main_v20) (V c main_arg4) (V c main_v23)) := Cert.KernelIdeal.LS0.out4 V c
theorem reg0_out5 (c : Dev nD) : (dat0 V c).arrAt 5 cfg0.N = Cert.Spec.sqRow (Cert.Spec.lin200 (V c main_v20) (V c main_arg4) (V c main_v23)) := Cert.KernelIdeal.LS0.out5 V c
theorem reg1_out7 (c : Dev nD) : (dat1 V c).arrAt 7 cfg1.N = Cert.Spec.lin128 (Cert.Spec.bnreluK (V c main_v41_0) (V c main_v43) (V c main_v47) (V c main_v26) (V c main_v29)) (V c main_v31) (V c main_v34) := Cert.KernelIdeal.NMS1.out7 V c
theorem reg1_out8 (c : Dev nD) : (dat1 V c).arrAt 8 cfg1.N = Cert.Spec.sumRow (Cert.Spec.lin128 (Cert.Spec.bnreluK (V c main_v41_0) (V c main_v43) (V c main_v47) (V c main_v26) (V c main_v29)) (V c main_v31) (V c main_v34)) := Cert.KernelIdeal.NMS1.out8 V c
theorem reg1_out9 (c : Dev nD) : (dat1 V c).arrAt 9 cfg1.N = Cert.Spec.sqRow (Cert.Spec.lin128 (Cert.Spec.bnreluK (V c main_v41_0) (V c main_v43) (V c main_v47) (V c main_v26) (V c main_v29)) (V c main_v31) (V c main_v34)) := Cert.KernelIdeal.NMS1.out9 V c
theorem reg2_out5 (c : Dev nD) : (dat2 V c).arrAt 5 cfg2.N = Cert.Spec.bnreluK (V c main_v48_0) (V c main_v50) (V c main_v54) (V c main_v37) (V c main_v40) := Cert.KernelIdeal.NR2.out5 V c
theorem reg3_out3 (c : Dev nD) : (dat3 V c).arrAt 3 cfg3.N = Cert.Spec.lin128 (V c main_v71) (V c main_v73) (V c main_v76) := Cert.KernelIdeal.LS3.out3 V c
theorem reg3_out4 (c : Dev nD) : (dat3 V c).arrAt 4 cfg3.N = Cert.Spec.sumRow (Cert.Spec.lin128 (V c main_v71) (V c main_v73) (V c main_v76)) := Cert.KernelIdeal.LS3.out4 V c
theorem reg3_out5 (c : Dev nD) : (dat3 V c).arrAt 5 cfg3.N = Cert.Spec.sqRow (Cert.Spec.lin128 (V c main_v71) (V c main_v73) (V c main_v76)) := Cert.KernelIdeal.LS3.out5 V c
theorem reg4_out7 (c : Dev nD) : (dat4 V c).arrAt 7 cfg4.N = Cert.Spec.lin128 (Cert.Spec.bnreluK (V c main_v94_0) (V c main_v96) (V c main_v100) (V c main_v79) (V c main_v82)) (V c main_v84) (V c main_v87) := Cert.KernelIdeal.NMS4.out7 V c
theorem reg4_out8 (c : Dev nD) : (dat4 V c).arrAt 8 cfg4.N = Cert.Spec.sumRow (Cert.Spec.lin128 (Cert.Spec.bnreluK (V c main_v94_0) (V c main_v96) (V c main_v100) (V c main_v79) (V c main_v82)) (V c main_v84) (V c main_v87)) := Cert.KernelIdeal.NMS4.out8 V c
theorem reg4_out9 (c : Dev nD) : (dat4 V c).arrAt 9 cfg4.N = Cert.Spec.sqRow (Cert.Spec.lin128 (Cert.Spec.bnreluK (V c main_v94_0) (V c main_v96) (V c main_v100) (V c main_v79) (V c main_v82)) (V c main_v84) (V c main_v87)) := Cert.KernelIdeal.NMS4.out9 V c
theorem reg5_out5 (c : Dev nD) : (dat5 V c).arrAt 5 cfg5.N = Cert.Spec.bnreluK (V c main_v101_0) (V c main_v103) (V c main_v107) (V c main_v90) (V c main_v93) := Cert.KernelIdeal.NR5.out5 V c
theorem reg6_out3 (c : Dev nD) : (dat6 V c).arrAt 3 cfg6.N = Cert.Spec.lin128 (V c main_v124) (V c main_v126) (V c main_v129) := Cert.KernelIdeal.LS6.out3 V c
theorem reg6_out4 (c : Dev nD) : (dat6 V c).arrAt 4 cfg6.N = Cert.Spec.sumRow (Cert.Spec.lin128 (V c main_v124) (V c main_v126) (V c main_v129)) := Cert.KernelIdeal.LS6.out4 V c
theorem reg6_out5 (c : Dev nD) : (dat6 V c).arrAt 5 cfg6.N = Cert.Spec.sqRow (Cert.Spec.lin128 (V c main_v124) (V c main_v126) (V c main_v129)) := Cert.KernelIdeal.LS6.out5 V c
theorem reg7_out7 (c : Dev nD) : (dat7 V c).arrAt 7 cfg7.N = Cert.Spec.lin128 (Cert.Spec.bnreluK (V c main_v147_0) (V c main_v149) (V c main_v153) (V c main_v132) (V c main_v135)) (V c main_v137) (V c main_v140) := Cert.KernelIdeal.NMS7.out7 V c
theorem reg7_out8 (c : Dev nD) : (dat7 V c).arrAt 8 cfg7.N = Cert.Spec.sumRow (Cert.Spec.lin128 (Cert.Spec.bnreluK (V c main_v147_0) (V c main_v149) (V c main_v153) (V c main_v132) (V c main_v135)) (V c main_v137) (V c main_v140)) := Cert.KernelIdeal.NMS7.out8 V c
theorem reg7_out9 (c : Dev nD) : (dat7 V c).arrAt 9 cfg7.N = Cert.Spec.sqRow (Cert.Spec.lin128 (Cert.Spec.bnreluK (V c main_v147_0) (V c main_v149) (V c main_v153) (V c main_v132) (V c main_v135)) (V c main_v137) (V c main_v140)) := Cert.KernelIdeal.NMS7.out9 V c
theorem reg8_out5 (c : Dev nD) : (dat8 V c).arrAt 5 cfg8.N = Cert.Spec.bnreluK (V c main_v154_0) (V c main_v156) (V c main_v160) (V c main_v143) (V c main_v146) := Cert.KernelIdeal.NR8.out5 V c
theorem reg9_out3 (c : Dev nD) : (dat9 V c).arrAt 3 cfg9.N = Cert.Spec.lin128 (V c main_v177) (V c main_v179) (V c main_v182) := Cert.KernelIdeal.LS9.out3 V c
theorem reg9_out4 (c : Dev nD) : (dat9 V c).arrAt 4 cfg9.N = Cert.Spec.sumRow (Cert.Spec.lin128 (V c main_v177) (V c main_v179) (V c main_v182)) := Cert.KernelIdeal.LS9.out4 V c
theorem reg9_out5 (c : Dev nD) : (dat9 V c).arrAt 5 cfg9.N = Cert.Spec.sqRow (Cert.Spec.lin128 (V c main_v177) (V c main_v179) (V c main_v182)) := Cert.KernelIdeal.LS9.out5 V c
theorem reg10_out7 (c : Dev nD) : (dat10 V c).arrAt 7 cfg10.N = Cert.Spec.lin128 (Cert.Spec.bnreluK (V c main_v200_0) (V c main_v202) (V c main_v206) (V c main_v185) (V c main_v188)) (V c main_v190) (V c main_v193) := Cert.KernelIdeal.NMS10.out7 V c
theorem reg10_out8 (c : Dev nD) : (dat10 V c).arrAt 8 cfg10.N = Cert.Spec.sumRow (Cert.Spec.lin128 (Cert.Spec.bnreluK (V c main_v200_0) (V c main_v202) (V c main_v206) (V c main_v185) (V c main_v188)) (V c main_v190) (V c main_v193)) := Cert.KernelIdeal.NMS10.out8 V c
theorem reg10_out9 (c : Dev nD) : (dat10 V c).arrAt 9 cfg10.N = Cert.Spec.sqRow (Cert.Spec.lin128 (Cert.Spec.bnreluK (V c main_v200_0) (V c main_v202) (V c main_v206) (V c main_v185) (V c main_v188)) (V c main_v190) (V c main_v193)) := Cert.KernelIdeal.NMS10.out9 V c
theorem reg11_out5 (c : Dev nD) : (dat11 V c).arrAt 5 cfg11.N = Cert.Spec.bnreluK (V c main_v207_0) (V c main_v209) (V c main_v213) (V c main_v196) (V c main_v199) := Cert.KernelIdeal.NR11.out5 V c
theorem reg12_out3 (c : Dev nD) : (dat12 V c).arrAt 3 cfg12.N = Cert.Spec.lin128 (V c main_v230) (V c main_v232) (V c main_v235) := Cert.KernelIdeal.LS12.out3 V c
theorem reg12_out4 (c : Dev nD) : (dat12 V c).arrAt 4 cfg12.N = Cert.Spec.sumRow (Cert.Spec.lin128 (V c main_v230) (V c main_v232) (V c main_v235)) := Cert.KernelIdeal.LS12.out4 V c
theorem reg12_out5 (c : Dev nD) : (dat12 V c).arrAt 5 cfg12.N = Cert.Spec.sqRow (Cert.Spec.lin128 (V c main_v230) (V c main_v232) (V c main_v235)) := Cert.KernelIdeal.LS12.out5 V c
theorem reg13_out7 (c : Dev nD) : (dat13 V c).arrAt 7 cfg13.N = Cert.Spec.lin128 (Cert.Spec.bnreluK (V c main_v253_0) (V c main_v255) (V c main_v259) (V c main_v238) (V c main_v241)) (V c main_v243) (V c main_v246) := Cert.KernelIdeal.NMS13.out7 V c
theorem reg13_out8 (c : Dev nD) : (dat13 V c).arrAt 8 cfg13.N = Cert.Spec.sumRow (Cert.Spec.lin128 (Cert.Spec.bnreluK (V c main_v253_0) (V c main_v255) (V c main_v259) (V c main_v238) (V c main_v241)) (V c main_v243) (V c main_v246)) := Cert.KernelIdeal.NMS13.out8 V c
theorem reg13_out9 (c : Dev nD) : (dat13 V c).arrAt 9 cfg13.N = Cert.Spec.sqRow (Cert.Spec.lin128 (Cert.Spec.bnreluK (V c main_v253_0) (V c main_v255) (V c main_v259) (V c main_v238) (V c main_v241)) (V c main_v243) (V c main_v246)) := Cert.KernelIdeal.NMS13.out9 V c
theorem reg14_out5 (c : Dev nD) : (dat14 V c).arrAt 5 cfg14.N = Cert.Spec.bnreluK (V c main_v260_0) (V c main_v262) (V c main_v266) (V c main_v249) (V c main_v252) := Cert.KernelIdeal.NR14.out5 V c
theorem reg15_out2 (c : Dev nD) : (dat15 V c).arrAt 2 cfg15.N = Cert.Spec.pool200 (V c main_v4) (V c main_arg0) := Cert.KernelIdeal.GP15.out2 V c
theorem reg16_out2 (c : Dev nD) : (dat16 V c).arrAt 2 cfg16.N = Cert.Spec.pool128 (V c main_v4) (V c main_v55) := Cert.KernelIdeal.GP16.out2 V c
theorem reg17_out2 (c : Dev nD) : (dat17 V c).arrAt 2 cfg17.N = Cert.Spec.pool128 (V c main_v4) (V c main_v108) := Cert.KernelIdeal.GP17.out2 V c
theorem reg18_out2 (c : Dev nD) : (dat18 V c).arrAt 2 cfg18.N = Cert.Spec.pool128 (V c main_v4) (V c main_v161) := Cert.KernelIdeal.GP18.out2 V c
theorem reg19_out2 (c : Dev nD) : (dat19 V c).arrAt 2 cfg19.N = Cert.Spec.pool128 (V c main_v4) (V c main_v214) := Cert.KernelIdeal.GP19.out2 V c
theorem reg20_out2 (c : Dev nD) : (dat20 V c).arrAt 2 cfg20.N = Cert.Spec.pool128 (V c main_v4) (V c main_v267) := Cert.KernelIdeal.GP20.out2 V c

end Cert.KernelIdeal.RV

end
-- ==== Proof.SpecNet.lean ====
import proofs.«410724_j86964497809599_1_alg».proof.Proof.Spec

noncomputable section

namespace Cert.Spec

open Cert.ReferenceIdeal Cert.ReferenceIdeal.Facts₀ Idealize.ShloMosaic Idealize.ShloMosaic.TcCoe

structure Args where
  x : M S50000x200
  ei : I S2x800000
  batch : I S50000
  eps : M S5
  w1_0 : M S200x128
  w1 : M S4x128x128
  b1 : M S5x128
  w2 : M S5x128x128
  b2 : M S5x128
  g1 : M S5x128
  be1 : M S5x128
  g2 : M S5x128
  be2 : M S5x128

structure LP where
  e : M S_
  b1 : M S128
  g1 : M S128
  be1 : M S128
  W2 : M S128x128
  b2 : M S128
  g2 : M S128
  be2 : M S128

def lp0 (A : Args) : LP where
  e := pS5 ![0] A.eps slices_S5_S1_0
  b1 := p128 ![0, 0] A.b1 slices_S5x128_S1x128_0_0
  g1 := p128 ![0, 0] A.g1 slices_S5x128_S1x128_0_0
  be1 := p128 ![0, 0] A.be1 slices_S5x128_S1x128_0_0
  W2 := pW5 ![0, 0, 0] A.w2 slices_S5x128x128_S1x128x128_0_0_0
  b2 := p128 ![0, 0] A.b2 slices_S5x128_S1x128_0_0
  g2 := p128 ![0, 0] A.g2 slices_S5x128_S1x128_0_0
  be2 := p128 ![0, 0] A.be2 slices_S5x128_S1x128_0_0

def lp1 (A : Args) : LP where
  e := pS5 ![1] A.eps slices_S5_S1_1
  b1 := p128 ![1, 0] A.b1 slices_S5x128_S1x128_1_0
  g1 := p128 ![1, 0] A.g1 slices_S5x128_S1x128_1_0
  be1 := p128 ![1, 0] A.be1 slices_S5x128_S1x128_1_0
  W2 := pW5 ![1, 0, 0] A.w2 slices_S5x128x128_S1x128x128_1_0_0
  b2 := p128 ![1, 0] A.b2 slices_S5x128_S1x128_1_0
  g2 := p128 ![1, 0] A.g2 slices_S5x128_S1x128_1_0
  be2 := p128 ![1, 0] A.be2 slices_S5x128_S1x128_1_0

def lp2 (A : Args) : LP where
  e := pS5 ![2] A.eps slices_S5_S1_2
  b1 := p128 ![2, 0] A.b1 slices_S5x128_S1x128_2_0
  g1 := p128 ![2, 0] A.g1 slices_S5x128_S1x128_2_0
  be1 := p128 ![2, 0] A.be1 slices_S5x128_S1x128_2_0
  W2 := pW5 ![2, 0, 0] A.w2 slices_S5x128x128_S1x128x128_2_0_0
  b2 := p128 ![2, 0] A.b2 slices_S5x128_S1x128_2_0
  g2 := p128 ![2, 0] A.g2 slices_S5x128_S1x128_2_0
  be2 := p128 ![2, 0] A.be2 slices_S5x128_S1x128_2_0

def lp3 (A : Args) : LP where
  e := pS5 ![3] A.eps slices_S5_S1_3
  b1 := p128 ![3, 0] A.b1 slices_S5x128_S1x128_3_0
  g1 := p128 ![3, 0] A.g1 slices_S5x128_S1x128_3_0
  be1 := p128 ![3, 0] A.be1 slices_S5x128_S1x128_3_0
  W2 := pW5 ![3, 0, 0] A.w2 slices_S5x128x128_S1x128x128_3_0_0
  b2 := p128 ![3, 0] A.b2 slices_S5x128_S1x128_3_0
  g2 := p128 ![3, 0] A.g2 slices_S5x128_S1x128_3_0
  be2 := p128 ![3, 0] A.be2 slices_S5x128_S1x128_3_0

def lp4 (A : Args) : LP where
  e := pS5 ![4] A.eps slices_S5_S1_4
  b1 := p128 ![4, 0] A.b1 slices_S5x128_S1x128_4_0
  g1 := p128 ![4, 0] A.g1 slices_S5x128_S1x128_4_0
  be1 := p128 ![4, 0] A.be1 slices_S5x128_S1x128_4_0
  W2 := pW5 ![4, 0, 0] A.w2 slices_S5x128x128_S1x128x128_4_0_0
  b2 := p128 ![4, 0] A.b2 slices_S5x128_S1x128_4_0
  g2 := p128 ![4, 0] A.g2 slices_S5x128_S1x128_4_0
  be2 := p128 ![4, 0] A.be2 slices_S5x128_S1x128_4_0

def w1_1 (A : Args) : M S128x128 := pW4 ![0, 0, 0] A.w1 slices_S4x128x128_S1x128x128_0_0_0
def w1_2 (A : Args) : M S128x128 := pW4 ![1, 0, 0] A.w1 slices_S4x128x128_S1x128x128_1_0_0
def w1_3 (A : Args) : M S128x128 := pW4 ![2, 0, 0] A.w1 slices_S4x128x128_S1x128x128_2_0_0
def w1_4 (A : Args) : M S128x128 := pW4 ![3, 0, 0] A.w1 slices_S4x128x128_S1x128x128_3_0_0

def z0 (A : Args) : M S50000x128 :=
  lin200 (agg200 A.x (rowIdx A.ei) (colIdx A.ei) (lp0 A).e) A.w1_0 (row (lp0 A).b1)

def zNext (A : Args) (h : M S50000x128) (P : LP) (W1 : M S128x128) : M S50000x128 :=
  lin128 (agg128 h (rowIdx A.ei) (colIdx A.ei) P.e) W1 (row P.b1)

def afterR (z : M S50000x128) (P : LP) : M S50000x128 := layerR z P.g1 P.be1 P.W2 P.b2 P.g2 P.be2
def afterK (z : M S50000x128) (P : LP) : M S50000x128 := layerK z P.g1 P.be1 P.W2 P.b2 P.g2 P.be2

def h1R (A : Args) : M S50000x128 := afterR (z0 A) (lp0 A)
def h2R (A : Args) : M S50000x128 := afterR (zNext A (h1R A) (lp1 A) (w1_1 A)) (lp1 A)
def h3R (A : Args) : M S50000x128 := afterR (zNext A (h2R A) (lp2 A) (w1_2 A)) (lp2 A)
def h4R (A : Args) : M S50000x128 := afterR (zNext A (h3R A) (lp3 A) (w1_3 A)) (lp3 A)
def h5R (A : Args) : M S50000x128 := afterR (zNext A (h4R A) (lp4 A) (w1_4 A)) (lp4 A)

def h1K (A : Args) : M S50000x128 := afterK (z0 A) (lp0 A)
def h2K (A : Args) : M S50000x128 := afterK (zNext A (h1K A) (lp1 A) (w1_1 A)) (lp1 A)
def h3K (A : Args) : M S50000x128 := afterK (zNext A (h2K A) (lp2 A) (w1_2 A)) (lp2 A)
def h4K (A : Args) : M S50000x128 := afterK (zNext A (h3K A) (lp3 A) (w1_3 A)) (lp3 A)
def h5K (A : Args) : M S50000x128 := afterK (zNext A (h4K A) (lp4 A) (w1_4 A)) (lp4 A)

structure Args.Finite (A : Args) : Prop where
  x : AllReal A.x
  eps : AllReal A.eps
  w1_0 : AllReal A.w1_0
  w1 : AllReal A.w1
  b1 : AllReal A.b1
  w2 : AllReal A.w2
  b2 : AllReal A.b2
  g1 : AllReal A.g1
  be1 : AllReal A.be1
  g2 : AllReal A.g2
  be2 : AllReal A.be2

structure LP.Finite (P : LP) : Prop where
  e : AllReal P.e
  b1 : AllReal P.b1
  g1 : AllReal P.g1
  be1 : AllReal P.be1
  W2 : AllReal P.W2
  b2 : AllReal P.b2
  g2 : AllReal P.g2
  be2 : AllReal P.be2

end Cert.Spec

end
-- ==== Proof.WKeep.lean ====
import proofs.«410724_j86964497809599_1_alg».proof.Proof.Gen.KernelIdeal.Frame

noncomputable section

namespace Cert.KernelIdeal.WKeep

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The buffers host stretch `j` writes: one result per operation. -/
def hw : Nat → List (Ref sig .tc)
  | 0 => [main_v0, main_v1, main_v2, main_v3, main_v4, main_c, main_v5, main_v6, main_c_0, main_v7, main_v8, main_v9, main_v10, main_v11, main_cst, main_v12, main_v13, main_v14, main_v15, main_v16, main_cst_1, main_v17, main_v18, main_v19, main_v20, main_v21, main_v22, main_v23, main_v24, main_v25, main_v26, main_v27, main_v28, main_v29, main_v30, main_v31, main_v32, main_v33, main_v34, main_v35, main_v36, main_v37, main_v38, main_v39, main_v40]
  | 1 => [main_cst_2, main_v42, main_v43, main_cst_3, main_v44, main_v45, main_v46, main_v47]
  | 2 => [main_cst_4, main_v49, main_v50, main_cst_5, main_v51, main_v52, main_v53, main_v54]
  | 3 => [main_c_6, main_v56, main_v57, main_c_7, main_v58, main_v59, main_v60, main_v61, main_v62, main_cst_8, main_v63, main_v64, main_v65, main_v66, main_v67, main_cst_9, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93]
  | 4 => [main_cst_10, main_v95, main_v96, main_cst_11, main_v97, main_v98, main_v99, main_v100]
  | 5 => [main_cst_12, main_v102, main_v103, main_cst_13, main_v104, main_v105, main_v106, main_v107]
  | 6 => [main_c_14, main_v109, main_v110, main_c_15, main_v111, main_v112, main_v113, main_v114, main_v115, main_cst_16, main_v116, main_v117, main_v118, main_v119, main_v120, main_cst_17, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146]
  | 7 => [main_cst_18, main_v148, main_v149, main_cst_19, main_v150, main_v151, main_v152, main_v153]
  | 8 => [main_cst_20, main_v155, main_v156, main_cst_21, main_v157, main_v158, main_v159, main_v160]
  | 9 => [main_c_22, main_v162, main_v163, main_c_23, main_v164, main_v165, main_v166, main_v167, main_v168, main_cst_24, main_v169, main_v170, main_v171, main_v172, main_v173, main_cst_25, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199]
  | 10 => [main_cst_26, main_v201, main_v202, main_cst_27, main_v203, main_v204, main_v205, main_v206]
  | 11 => [main_cst_28, main_v208, main_v209, main_cst_29, main_v210, main_v211, main_v212, main_v213]
  | 12 => [main_c_30, main_v215, main_v216, main_c_31, main_v217, main_v218, main_v219, main_v220, main_v221, main_cst_32, main_v222, main_v223, main_v224, main_v225, main_v226, main_cst_33, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252]
  | 13 => [main_cst_34, main_v254, main_v255, main_cst_35, main_v256, main_v257, main_v258, main_v259]
  | 14 => [main_cst_36, main_v261, main_v262, main_cst_37, main_v263, main_v264, main_v265, main_v266]
  | _ => []

theorem hsub0 : (hostOps0 : List (HloOp τ sig (Elt F))).Forall fun op => op.writes ⊆ ((hw 0).map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub1 : (hostOps1 : List (HloOp τ sig (Elt F))).Forall fun op => op.writes ⊆ ((hw 1).map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub2 : (hostOps2 : List (HloOp τ sig (Elt F))).Forall fun op => op.writes ⊆ ((hw 2).map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub3 : (hostOps3 : List (HloOp τ sig (Elt F))).Forall fun op => op.writes ⊆ ((hw 3).map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub4 : (hostOps4 : List (HloOp τ sig (Elt F))).Forall fun op => op.writes ⊆ ((hw 4).map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub5 : (hostOps5 : List (HloOp τ sig (Elt F))).Forall fun op => op.writes ⊆ ((hw 5).map (Proc.devRef (τ := τ) .tc)).toFinset := by
  simp only [hostOps5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub6 : (hostOps6 : List (HloOp τ sig (Elt F))).Forall fun op => op.writes ⊆ ((hw 6).map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub7 : (hostOps7 : List (HloOp τ sig (Elt F))).Forall fun op => op.writes ⊆ ((hw 7).map (Proc.devRef (τ := τ) .tc)).toFinset := by
  simp only [hostOps7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub8 : (hostOps8 : List (HloOp τ sig (Elt F))).Forall fun op => op.writes ⊆ ((hw 8).map (Proc.devRef (τ := τ) .tc)).toFinset := by
  simp only [hostOps8, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub9 : (hostOps9 : List (HloOp τ sig (Elt F))).Forall fun op => op.writes ⊆ ((hw 9).map (Proc.devRef (τ := τ) .tc)).toFinset := by
  simp only [hostOps9, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub10 : (hostOps10 : List (HloOp τ sig (Elt F))).Forall fun op => op.writes ⊆ ((hw 10).map (Proc.devRef (τ := τ) .tc)).toFinset := by
  simp only [hostOps10, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub11 : (hostOps11 : List (HloOp τ sig (Elt F))).Forall fun op => op.writes ⊆ ((hw 11).map (Proc.devRef (τ := τ) .tc)).toFinset := by
  simp only [hostOps11, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub12 : (hostOps12 : List (HloOp τ sig (Elt F))).Forall fun op => op.writes ⊆ ((hw 12).map (Proc.devRef (τ := τ) .tc)).toFinset := by
  simp only [hostOps12, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub13 : (hostOps13 : List (HloOp τ sig (Elt F))).Forall fun op => op.writes ⊆ ((hw 13).map (Proc.devRef (τ := τ) .tc)).toFinset := by
  simp only [hostOps13, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hsub14 : (hostOps14 : List (HloOp τ sig (Elt F))).Forall fun op => op.writes ⊆ ((hw 14).map (Proc.devRef (τ := τ) .tc)).toFinset := by
  simp only [hostOps14, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The run's 37 boundaries as one family. -/
def Wn : Nat → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | 18 => W18 m ρ
  | 19 => W19 m ρ
  | 20 => W20 m ρ
  | 21 => W21 m ρ
  | 22 => W22 m ρ
  | 23 => W23 m ρ
  | 24 => W24 m ρ
  | 25 => W25 m ρ
  | 26 => W26 m ρ
  | 27 => W27 m ρ
  | 28 => W28 m ρ
  | 29 => W29 m ρ
  | 30 => W30 m ρ
  | 31 => W31 m ρ
  | 32 => W32 m ρ
  | 33 => W33 m ρ
  | 34 => W34 m ρ
  | 35 => W35 m ρ
  | 36 => W36 m ρ
  | _ => W36 m ρ

/-- Step `k` of the run, from boundary `k` to `k + 1`, writes nothing at `b`: a host stretch writes its results only, a region its arrays only. -/
def ok (b : Ref sig .tc) : Nat → Bool
  | 0 => decide (b ∉ hw 0)
  | 1 => decide (∀ w, Pipeline.arrRef spec0 w ≠ b)
  | 2 => decide (b ∉ hw 1)
  | 3 => decide (∀ w, Pipeline.arrRef spec1 w ≠ b)
  | 4 => decide (b ∉ hw 2)
  | 5 => decide (∀ w, Pipeline.arrRef spec2 w ≠ b)
  | 6 => decide (b ∉ hw 3)
  | 7 => decide (∀ w, Pipeline.arrRef spec3 w ≠ b)
  | 8 => decide (b ∉ hw 4)
  | 9 => decide (∀ w, Pipeline.arrRef spec4 w ≠ b)
  | 10 => decide (b ∉ hw 5)
  | 11 => decide (∀ w, Pipeline.arrRef spec5 w ≠ b)
  | 12 => decide (b ∉ hw 6)
  | 13 => decide (∀ w, Pipeline.arrRef spec6 w ≠ b)
  | 14 => decide (b ∉ hw 7)
  | 15 => decide (∀ w, Pipeline.arrRef spec7 w ≠ b)
  | 16 => decide (b ∉ hw 8)
  | 17 => decide (∀ w, Pipeline.arrRef spec8 w ≠ b)
  | 18 => decide (b ∉ hw 9)
  | 19 => decide (∀ w, Pipeline.arrRef spec9 w ≠ b)
  | 20 => decide (b ∉ hw 10)
  | 21 => decide (∀ w, Pipeline.arrRef spec10 w ≠ b)
  | 22 => decide (b ∉ hw 11)
  | 23 => decide (∀ w, Pipeline.arrRef spec11 w ≠ b)
  | 24 => decide (b ∉ hw 12)
  | 25 => decide (∀ w, Pipeline.arrRef spec12 w ≠ b)
  | 26 => decide (b ∉ hw 13)
  | 27 => decide (∀ w, Pipeline.arrRef spec13 w ≠ b)
  | 28 => decide (b ∉ hw 14)
  | 29 => decide (∀ w, Pipeline.arrRef spec14 w ≠ b)
  | 30 => decide (∀ w, Pipeline.arrRef spec15 w ≠ b)
  | 31 => decide (∀ w, Pipeline.arrRef spec16 w ≠ b)
  | 32 => decide (∀ w, Pipeline.arrRef spec17 w ≠ b)
  | 33 => decide (∀ w, Pipeline.arrRef spec18 w ≠ b)
  | 34 => decide (∀ w, Pipeline.arrRef spec19 w ≠ b)
  | 35 => decide (∀ w, Pipeline.arrRef spec20 w ≠ b)
  | _ => false

theorem step (b : Ref sig .tc) (c : Dev nD) : ∀ k, ok b k = true →
    Wn m ρ (k + 1) c (Proc.devRef .tc b) = Wn m ρ k c (Proc.devRef .tc b)
  | 0, h => StableHlo.after_of_writes_sub hostOps0 (W0 m ρ c) hsub0 (of_decide_eq_true h)
  | 1, h => W2_of_ne m ρ c b (of_decide_eq_true h)
  | 2, h => StableHlo.after_of_writes_sub hostOps1 (W2 m ρ c) hsub1 (of_decide_eq_true h)
  | 3, h => W4_of_ne m ρ c b (of_decide_eq_true h)
  | 4, h => StableHlo.after_of_writes_sub hostOps2 (W4 m ρ c) hsub2 (of_decide_eq_true h)
  | 5, h => W6_of_ne m ρ c b (of_decide_eq_true h)
  | 6, h => StableHlo.after_of_writes_sub hostOps3 (W6 m ρ c) hsub3 (of_decide_eq_true h)
  | 7, h => W8_of_ne m ρ c b (of_decide_eq_true h)
  | 8, h => StableHlo.after_of_writes_sub hostOps4 (W8 m ρ c) hsub4 (of_decide_eq_true h)
  | 9, h => W10_of_ne m ρ c b (of_decide_eq_true h)
  | 10, h => StableHlo.after_of_writes_sub hostOps5 (W10 m ρ c) hsub5 (of_decide_eq_true h)
  | 11, h => W12_of_ne m ρ c b (of_decide_eq_true h)
  | 12, h => StableHlo.after_of_writes_sub hostOps6 (W12 m ρ c) hsub6 (of_decide_eq_true h)
  | 13, h => W14_of_ne m ρ c b (of_decide_eq_true h)
  | 14, h => StableHlo.after_of_writes_sub hostOps7 (W14 m ρ c) hsub7 (of_decide_eq_true h)
  | 15, h => W16_of_ne m ρ c b (of_decide_eq_true h)
  | 16, h => StableHlo.after_of_writes_sub hostOps8 (W16 m ρ c) hsub8 (of_decide_eq_true h)
  | 17, h => W18_of_ne m ρ c b (of_decide_eq_true h)
  | 18, h => StableHlo.after_of_writes_sub hostOps9 (W18 m ρ c) hsub9 (of_decide_eq_true h)
  | 19, h => W20_of_ne m ρ c b (of_decide_eq_true h)
  | 20, h => StableHlo.after_of_writes_sub hostOps10 (W20 m ρ c) hsub10 (of_decide_eq_true h)
  | 21, h => W22_of_ne m ρ c b (of_decide_eq_true h)
  | 22, h => StableHlo.after_of_writes_sub hostOps11 (W22 m ρ c) hsub11 (of_decide_eq_true h)
  | 23, h => W24_of_ne m ρ c b (of_decide_eq_true h)
  | 24, h => StableHlo.after_of_writes_sub hostOps12 (W24 m ρ c) hsub12 (of_decide_eq_true h)
  | 25, h => W26_of_ne m ρ c b (of_decide_eq_true h)
  | 26, h => StableHlo.after_of_writes_sub hostOps13 (W26 m ρ c) hsub13 (of_decide_eq_true h)
  | 27, h => W28_of_ne m ρ c b (of_decide_eq_true h)
  | 28, h => StableHlo.after_of_writes_sub hostOps14 (W28 m ρ c) hsub14 (of_decide_eq_true h)
  | 29, h => W30_of_ne m ρ c b (of_decide_eq_true h)
  | 30, h => W31_of_ne m ρ c b (of_decide_eq_true h)
  | 31, h => W32_of_ne m ρ c b (of_decide_eq_true h)
  | 32, h => W33_of_ne m ρ c b (of_decide_eq_true h)
  | 33, h => W34_of_ne m ρ c b (of_decide_eq_true h)
  | 34, h => W35_of_ne m ρ c b (of_decide_eq_true h)
  | 35, h => W36_of_ne m ρ c b (of_decide_eq_true h)
  | _ + 36, h => (Bool.false_ne_true h).elim

/-- A buffer no step from boundary `i` to boundary `i + n` writes holds at the later what it held at the earlier. -/
theorem keep (b : Ref sig .tc) (i : Nat) : ∀ n, (∀ k, k < n → ok b (i + k) = true) → ∀ c,
    Wn m ρ (i + n) c (Proc.devRef .tc b) = Wn m ρ i c (Proc.devRef .tc b)
  | 0, _, _ => rfl
  | n + 1, h, c => (step m ρ b c (i + n) (h n n.lt_succ_self)).trans (keep b i n (fun k hk => h k (Nat.lt_succ_of_lt hk)) c)

/-- An argument of @main, written by no step before boundary `j`, holds its launch contents there. -/
theorem arg (b : Ref sig .tc) : ∀ j, (∀ k, k < j → ok b k = true) → ∀ c,
    Wn m ρ j c (Proc.devRef .tc b) = m ((c : Thread nD τ).loc b)
  | 0, _, _ => rfl
  | j + 1, h, c => (step m ρ b c j (h j j.lt_succ_self)).trans (arg b j (fun k hk => h k (Nat.lt_succ_of_lt hk)) c)

theorem W31_main_v4 (c : Dev nD) : W31 m ρ c (Proc.devRef .tc main_v4) = W1 m ρ c (Proc.devRef .tc main_v4) :=
  ((W31_arr m ρ c 0).trans (((dat15 (V30 m ρ) c).arrAt_in 0 rfl _).trans (A_eq15 (V30 m ρ) c 0))).trans (keep m ρ main_v4 1 29 (by decide) c)
theorem W32_main_v4 (c : Dev nD) : W32 m ρ c (Proc.devRef .tc main_v4) = W1 m ρ c (Proc.devRef .tc main_v4) :=
  ((W32_arr m ρ c 0).trans (((dat16 (V31 m ρ) c).arrAt_in 0 rfl _).trans (A_eq16 (V31 m ρ) c 0))).trans (W31_main_v4 m ρ c)
theorem W33_main_v4 (c : Dev nD) : W33 m ρ c (Proc.devRef .tc main_v4) = W1 m ρ c (Proc.devRef .tc main_v4) :=
  ((W33_arr m ρ c 0).trans (((dat17 (V32 m ρ) c).arrAt_in 0 rfl _).trans (A_eq17 (V32 m ρ) c 0))).trans (W32_main_v4 m ρ c)
theorem W34_main_v4 (c : Dev nD) : W34 m ρ c (Proc.devRef .tc main_v4) = W1 m ρ c (Proc.devRef .tc main_v4) :=
  ((W34_arr m ρ c 0).trans (((dat18 (V33 m ρ) c).arrAt_in 0 rfl _).trans (A_eq18 (V33 m ρ) c 0))).trans (W33_main_v4 m ρ c)
theorem W35_main_v4 (c : Dev nD) : W35 m ρ c (Proc.devRef .tc main_v4) = W1 m ρ c (Proc.devRef .tc main_v4) :=
  ((W35_arr m ρ c 0).trans (((dat19 (V34 m ρ) c).arrAt_in 0 rfl _).trans (A_eq19 (V34 m ρ) c 0))).trans (W34_main_v4 m ρ c)
theorem W36_main_v267 (c : Dev nD) : W36 m ρ c (Proc.devRef .tc main_v267) = W30 m ρ c (Proc.devRef .tc main_v267) :=
  ((W36_arr m ρ c 1).trans (((dat20 (V35 m ρ) c).arrAt_in 1 rfl _).trans (A_eq20 (V35 m ρ) c 1))).trans (keep m ρ main_v267 30 5 (by decide) c)

end Cert.KernelIdeal.WKeep

end
-- ==== Proof.KRead0.lean ====
import proofs.«410724_j86964497809599_1_alg».proof.Proof.Gen.KernelIdeal.Frame
import proofs.«410724_j86964497809599_1_alg».proof.Proof.RegionVals
import proofs.«410724_j86964497809599_1_alg».proof.Proof.SpecNet
import proofs.«410724_j86964497809599_1_alg».proof.Proof.WKeep

set_option maxRecDepth 16384

noncomputable section

namespace Cert.KernelIdeal.KRead

open Cert.KernelIdeal Cert.KernelIdeal.Gen
open Idealize.ShloMosaic Idealize.ShloMosaic.TcCoe Idealize.SL.Sem
open Idealize.ShloMosaic.StableHlo

theorem gather200_eq : Cert.KernelIdeal.gather_S50000x200_S800000x1_S800000x200_1_0_n_n_0_1_1200
    = Cert.ReferenceIdeal.gather_S50000x200_S800000x1_S800000x200_1_0_n_n_0_1_1200 := rfl
theorem scatter200_eq : Cert.KernelIdeal.scatter_S50000x200_S800000x1_S800000x200_1_0_0_1
    = Cert.ReferenceIdeal.scatter_S50000x200_S800000x1_S800000x200_1_0_0_1 := rfl
theorem gather128_eq : Cert.KernelIdeal.gather_S50000x128_S800000x1_S800000x128_1_0_n_n_0_1_1128
    = Cert.ReferenceIdeal.gather_S50000x128_S800000x1_S800000x128_1_0_n_n_0_1_1128 := rfl
theorem scatter128_eq : Cert.KernelIdeal.scatter_S50000x128_S800000x1_S800000x128_1_0_0_1
    = Cert.ReferenceIdeal.scatter_S50000x128_S800000x1_S800000x128_1_0_0_1 := rfl

section Host0
variable (V : Valuation τ sig (Elt Ideal))

theorem host0_v1 : after hostOps0 V (Proc.devRef .tc main_v1) = Cert.Spec.rowIdx (V (Proc.devRef .tc main_arg1)) := by
  after_results_simp; rfl

theorem host0_v3 : after hostOps0 V (Proc.devRef .tc main_v3) = Cert.Spec.colIdx (V (Proc.devRef .tc main_arg1)) := by
  after_results_simp; rfl

theorem host0_v4 : after hostOps0 V (Proc.devRef .tc main_v4)
    = shapeCast Cert.ReferenceIdeal.S50000x1 (V (Proc.devRef .tc main_arg2)) Cert.KernelIdeal.Facts₀.shapeCasts_S50000_S50000x1 := by
  after_results_simp; rfl

theorem host0_v20 : after hostOps0 V (Proc.devRef .tc main_v20)
    = Cert.Spec.agg200 (V (Proc.devRef .tc main_arg0)) (Cert.Spec.rowIdx (V (Proc.devRef .tc main_arg1)))
        (Cert.Spec.colIdx (V (Proc.devRef .tc main_arg1))) (Cert.Spec.pS5 ![0] (V (Proc.devRef .tc main_arg3)) Cert.ReferenceIdeal.Facts₀.slices_S5_S1_0) := by
  after_results_simp
  simp only [gather200_eq, scatter200_eq]
  rfl

theorem host0_v23 : after hostOps0 V (Proc.devRef .tc main_v23)
    = Cert.Spec.row (Cert.Spec.p128 ![0, 0] (V (Proc.devRef .tc main_arg6)) Cert.ReferenceIdeal.Facts₀.slices_S5x128_S1x128_0_0) := by
  after_results_simp; rfl

theorem host0_v26 : after hostOps0 V (Proc.devRef .tc main_v26)
    = Cert.Spec.row (Cert.Spec.p128 ![0, 0] (V (Proc.devRef .tc main_arg9)) Cert.ReferenceIdeal.Facts₀.slices_S5x128_S1x128_0_0) := by
  after_results_simp; rfl

theorem host0_v29 : after hostOps0 V (Proc.devRef .tc main_v29)
    = Cert.Spec.row (Cert.Spec.p128 ![0, 0] (V (Proc.devRef .tc main_arg10)) Cert.ReferenceIdeal.Facts₀.slices_S5x128_S1x128_0_0) := by
  after_results_simp; rfl

theorem host0_v31 : after hostOps0 V (Proc.devRef .tc main_v31)
    = Cert.Spec.pW5 ![0, 0, 0] (V (Proc.devRef .tc main_arg7)) Cert.ReferenceIdeal.Facts₀.slices_S5x128x128_S1x128x128_0_0_0 := by
  after_results_simp; rfl

theorem host0_v34 : after hostOps0 V (Proc.devRef .tc main_v34)
    = Cert.Spec.row (Cert.Spec.p128 ![0, 0] (V (Proc.devRef .tc main_arg8)) Cert.ReferenceIdeal.Facts₀.slices_S5x128_S1x128_0_0) := by
  after_results_simp; rfl

theorem host0_v37 : after hostOps0 V (Proc.devRef .tc main_v37)
    = Cert.Spec.row (Cert.Spec.p128 ![0, 0] (V (Proc.devRef .tc main_arg11)) Cert.ReferenceIdeal.Facts₀.slices_S5x128_S1x128_0_0) := by
  after_results_simp; rfl

theorem host0_v40 : after hostOps0 V (Proc.devRef .tc main_v40)
    = Cert.Spec.row (Cert.Spec.p128 ![0, 0] (V (Proc.devRef .tc main_arg12)) Cert.ReferenceIdeal.Facts₀.slices_S5x128_S1x128_0_0) := by
  after_results_simp; rfl

end Host0

section Host1
variable (V : Valuation τ sig (Elt Ideal))

theorem host1_mean : after hostOps1 V (Proc.devRef .tc main_v43) = Cert.Spec.meanK (V (Proc.devRef .tc main_v41_1)) := by
  after_results_simp; rfl

theorem host1_var : after hostOps1 V (Proc.devRef .tc main_v47)
    = Cert.Spec.varK (V (Proc.devRef .tc main_v41_2)) (Cert.Spec.meanK (V (Proc.devRef .tc main_v41_1))) := by
  after_results_simp; rfl

end Host1

section Host2
variable (V : Valuation τ sig (Elt Ideal))

theorem host2_mean : after hostOps2 V (Proc.devRef .tc main_v50) = Cert.Spec.meanK (V (Proc.devRef .tc main_v48_1)) := by
  after_results_simp; rfl

theorem host2_var : after hostOps2 V (Proc.devRef .tc main_v54)
    = Cert.Spec.varK (V (Proc.devRef .tc main_v48_2)) (Cert.Spec.meanK (V (Proc.devRef .tc main_v48_1))) := by
  after_results_simp; rfl

end Host2

open Idealize.ShloMosaic.Pipeline (Dat Cfg Window)

variable (m : (ℓ : Loc nD τ sig) → Buf (Elt Ideal) ℓ) (ρ : Dev nD → PrngReg)

def argsOf (c : Dev nD) : Cert.Spec.Args where
  x := m ((c : Thread nD τ).loc main_arg0)
  ei := m ((c : Thread nD τ).loc main_arg1)
  batch := m ((c : Thread nD τ).loc main_arg2)
  eps := m ((c : Thread nD τ).loc main_arg3)
  w1_0 := m ((c : Thread nD τ).loc main_arg4)
  w1 := m ((c : Thread nD τ).loc main_arg5)
  b1 := m ((c : Thread nD τ).loc main_arg6)
  w2 := m ((c : Thread nD τ).loc main_arg7)
  b2 := m ((c : Thread nD τ).loc main_arg8)
  g1 := m ((c : Thread nD τ).loc main_arg9)
  be1 := m ((c : Thread nD τ).loc main_arg10)
  g2 := m ((c : Thread nD τ).loc main_arg11)
  be2 := m ((c : Thread nD τ).loc main_arg12)

def mid (z : Cert.Spec.M Cert.ReferenceIdeal.S50000x128) (P : Cert.Spec.LP) : Cert.Spec.M Cert.ReferenceIdeal.S50000x128 :=
  Cert.Spec.lin128 (Cert.Spec.bnK z P.g1 P.be1) P.W2 (Cert.Spec.row P.b2)

theorem afterK_eq (z : Cert.Spec.M Cert.ReferenceIdeal.S50000x128) (P : Cert.Spec.LP) :
    Cert.Spec.afterK z P = Cert.Spec.bnK (mid z P) P.g2 P.be2 := rfl

theorem bnreluK_stats (Z : Cert.Spec.M Cert.ReferenceIdeal.S50000x128) (g be : Cert.Spec.M Cert.ReferenceIdeal.S128) :
    Cert.Spec.bnreluK Z (Cert.Spec.meanK (Cert.Spec.sumRow Z)) (Cert.Spec.varK (Cert.Spec.sqRow Z) (Cert.Spec.meanK (Cert.Spec.sumRow Z)))
      (Cert.Spec.row g) (Cert.Spec.row be) = Cert.Spec.bnK Z g be := rfl

theorem W1_v1 (c : Dev nD) : W1 m ρ c (Proc.devRef .tc main_v1) = Cert.Spec.rowIdx (argsOf m c).ei := host0_v1 (W0 m ρ c)
theorem W1_v3 (c : Dev nD) : W1 m ρ c (Proc.devRef .tc main_v3) = Cert.Spec.colIdx (argsOf m c).ei := host0_v3 (W0 m ρ c)
theorem W1_v4 (c : Dev nD) : W1 m ρ c (Proc.devRef .tc main_v4)
    = shapeCast Cert.ReferenceIdeal.S50000x1 (m ((c : Thread nD τ).loc main_arg2)) Cert.KernelIdeal.Facts₀.shapeCasts_S50000_S50000x1 :=
  host0_v4 (W0 m ρ c)
theorem W1_x (c : Dev nD) : W1 m ρ c (Proc.devRef .tc main_v20)
    = Cert.Spec.agg200 (argsOf m c).x (Cert.Spec.rowIdx (argsOf m c).ei) (Cert.Spec.colIdx (argsOf m c).ei) (Cert.Spec.lp0 (argsOf m c)).e :=
  host0_v20 (W0 m ρ c)
theorem W1_w1 (c : Dev nD) : W1 m ρ c (Proc.devRef .tc main_arg4) = (argsOf m c).w1_0 := (show W1 m ρ c _ = _ from WKeep.arg m ρ main_arg4 1 (by decide) c)
theorem W1_b1 (c : Dev nD) : W1 m ρ c (Proc.devRef .tc main_v23) = Cert.Spec.row (Cert.Spec.lp0 (argsOf m c)).b1 := host0_v23 (W0 m ρ c)
theorem W1_g1 (c : Dev nD) : W1 m ρ c (Proc.devRef .tc main_v26) = Cert.Spec.row (Cert.Spec.lp0 (argsOf m c)).g1 := host0_v26 (W0 m ρ c)
theorem W1_be1 (c : Dev nD) : W1 m ρ c (Proc.devRef .tc main_v29) = Cert.Spec.row (Cert.Spec.lp0 (argsOf m c)).be1 := host0_v29 (W0 m ρ c)
theorem W1_w2 (c : Dev nD) : W1 m ρ c (Proc.devRef .tc main_v31) = (Cert.Spec.lp0 (argsOf m c)).W2 := host0_v31 (W0 m ρ c)
theorem W1_b2 (c : Dev nD) : W1 m ρ c (Proc.devRef .tc main_v34) = Cert.Spec.row (Cert.Spec.lp0 (argsOf m c)).b2 := host0_v34 (W0 m ρ c)
theorem W1_g2 (c : Dev nD) : W1 m ρ c (Proc.devRef .tc main_v37) = Cert.Spec.row (Cert.Spec.lp0 (argsOf m c)).g2 := host0_v37 (W0 m ρ c)
theorem W1_be2 (c : Dev nD) : W1 m ρ c (Proc.devRef .tc main_v40) = Cert.Spec.row (Cert.Spec.lp0 (argsOf m c)).be2 := host0_v40 (W0 m ρ c)

theorem in0 (c : Dev nD) :
    Cert.Spec.lin200 (W1 m ρ c (Proc.devRef .tc main_v20)) (W1 m ρ c (Proc.devRef .tc main_arg4)) (W1 m ρ c (Proc.devRef .tc main_v23))
      = Cert.Spec.z0 (argsOf m c) := by
  rw [W1_x m ρ c, W1_w1 m ρ c, W1_b1 m ρ c] <;> rfl

theorem W2_z (c : Dev nD) : W2 m ρ c (Proc.devRef .tc main_v41_0) = Cert.Spec.z0 (argsOf m c) :=
  (W2_arr m ρ c 3).trans ((RV.reg0_out3 (V1 m ρ) c).trans (in0 m ρ c))
theorem W2_s (c : Dev nD) : W2 m ρ c (Proc.devRef .tc main_v41_1) = Cert.Spec.sumRow (Cert.Spec.z0 (argsOf m c)) :=
  (W2_arr m ρ c 4).trans ((RV.reg0_out4 (V1 m ρ) c).trans (congrArg Cert.Spec.sumRow (in0 m ρ c)))
theorem W2_q (c : Dev nD) : W2 m ρ c (Proc.devRef .tc main_v41_2) = Cert.Spec.sqRow (Cert.Spec.z0 (argsOf m c)) :=
  (W2_arr m ρ c 5).trans ((RV.reg0_out5 (V1 m ρ) c).trans (congrArg Cert.Spec.sqRow (in0 m ρ c)))

theorem W3_mean (c : Dev nD) : W3 m ρ c (Proc.devRef .tc main_v43) = Cert.Spec.meanK (Cert.Spec.sumRow (Cert.Spec.z0 (argsOf m c))) :=
  (host1_mean (W2 m ρ c)).trans (by rw [W2_s m ρ c])
theorem W3_var (c : Dev nD) : W3 m ρ c (Proc.devRef .tc main_v47)
    = Cert.Spec.varK (Cert.Spec.sqRow (Cert.Spec.z0 (argsOf m c))) (Cert.Spec.meanK (Cert.Spec.sumRow (Cert.Spec.z0 (argsOf m c)))) :=
  (host1_var (W2 m ρ c)).trans (by rw [W2_s m ρ c, W2_q m ρ c])
theorem W3_z (c : Dev nD) : W3 m ρ c (Proc.devRef .tc main_v41_0) = Cert.Spec.z0 (argsOf m c) :=
  (WKeep.keep m ρ main_v41_0 2 1 (by decide) c).trans (W2_z m ρ c)
theorem W3_g1 (c : Dev nD) : W3 m ρ c (Proc.devRef .tc main_v26) = Cert.Spec.row (Cert.Spec.lp0 (argsOf m c)).g1 :=
  (WKeep.keep m ρ main_v26 1 2 (by decide) c).trans (W1_g1 m ρ c)
theorem W3_be1 (c : Dev nD) : W3 m ρ c (Proc.devRef .tc main_v29) = Cert.Spec.row (Cert.Spec.lp0 (argsOf m c)).be1 :=
  (WKeep.keep m ρ main_v29 1 2 (by decide) c).trans (W1_be1 m ρ c)
theorem W3_w2 (c : Dev nD) : W3 m ρ c (Proc.devRef .tc main_v31) = (Cert.Spec.lp0 (argsOf m c)).W2 :=
  (WKeep.keep m ρ main_v31 1 2 (by decide) c).trans (W1_w2 m ρ c)
theorem W3_b2 (c : Dev nD) : W3 m ρ c (Proc.devRef .tc main_v34) = Cert.Spec.row (Cert.Spec.lp0 (argsOf m c)).b2 :=
  (WKeep.keep m ρ main_v34 1 2 (by decide) c).trans (W1_b2 m ρ c)

theorem in1 (c : Dev nD) :
    Cert.Spec.lin128 (Cert.Spec.bnreluK (W3 m ρ c (Proc.devRef .tc main_v41_0)) (W3 m ρ c (Proc.devRef .tc main_v43)) (W3 m ρ c (Proc.devRef .tc main_v47))
        (W3 m ρ c (Proc.devRef .tc main_v26)) (W3 m ρ c (Proc.devRef .tc main_v29))) (W3 m ρ c (Proc.devRef .tc main_v31)) (W3 m ρ c (Proc.devRef .tc main_v34))
      = mid (Cert.Spec.z0 (argsOf m c)) (Cert.Spec.lp0 (argsOf m c)) := by
  rw [W3_z m ρ c, W3_mean m ρ c, W3_var m ρ c, W3_g1 m ρ c, W3_be1 m ρ c, W3_w2 m ρ c, W3_b2 m ρ c, bnreluK_stats] <;> rfl

theorem W4_z (c : Dev nD) : W4 m ρ c (Proc.devRef .tc main_v48_0) = mid (Cert.Spec.z0 (argsOf m c)) (Cert.Spec.lp0 (argsOf m c)) :=
  (W4_arr m ρ c 7).trans ((RV.reg1_out7 (V3 m ρ) c).trans (in1 m ρ c))
theorem W4_s (c : Dev nD) : W4 m ρ c (Proc.devRef .tc main_v48_1) = Cert.Spec.sumRow (mid (Cert.Spec.z0 (argsOf m c)) (Cert.Spec.lp0 (argsOf m c))) :=
  (W4_arr m ρ c 8).trans ((RV.reg1_out8 (V3 m ρ) c).trans (congrArg Cert.Spec.sumRow (in1 m ρ c)))
theorem W4_q (c : Dev nD) : W4 m ρ c (Proc.devRef .tc main_v48_2) = Cert.Spec.sqRow (mid (Cert.Spec.z0 (argsOf m c)) (Cert.Spec.lp0 (argsOf m c))) :=
  (W4_arr m ρ c 9).trans ((RV.reg1_out9 (V3 m ρ) c).trans (congrArg Cert.Spec.sqRow (in1 m ρ c)))

theorem W5_mean (c : Dev nD) : W5 m ρ c (Proc.devRef .tc main_v50)
    = Cert.Spec.meanK (Cert.Spec.sumRow (mid (Cert.Spec.z0 (argsOf m c)) (Cert.Spec.lp0 (argsOf m c)))) :=
  (host2_mean (W4 m ρ c)).trans (by rw [W4_s m ρ c])
theorem W5_var (c : Dev nD) : W5 m ρ c (Proc.devRef .tc main_v54)
    = Cert.Spec.varK (Cert.Spec.sqRow (mid (Cert.Spec.z0 (argsOf m c)) (Cert.Spec.lp0 (argsOf m c))))
        (Cert.Spec.meanK (Cert.Spec.sumRow (mid (Cert.Spec.z0 (argsOf m c)) (Cert.Spec.lp0 (argsOf m c))))) :=
  (host2_var (W4 m ρ c)).trans (by rw [W4_s m ρ c, W4_q m ρ c])
theorem W5_z (c : Dev nD) : W5 m ρ c (Proc.devRef .tc main_v48_0) = mid (Cert.Spec.z0 (argsOf m c)) (Cert.Spec.lp0 (argsOf m c)) :=
  (WKeep.keep m ρ main_v48_0 4 1 (by decide) c).trans (W4_z m ρ c)
theorem W5_g2 (c : Dev nD) : W5 m ρ c (Proc.devRef .tc main_v37) = Cert.Spec.row (Cert.Spec.lp0 (argsOf m c)).g2 :=
  (WKeep.keep m ρ main_v37 1 4 (by decide) c).trans (W1_g2 m ρ c)
theorem W5_be2 (c : Dev nD) : W5 m ρ c (Proc.devRef .tc main_v40) = Cert.Spec.row (Cert.Spec.lp0 (argsOf m c)).be2 :=
  (WKeep.keep m ρ main_v40 1 4 (by decide) c).trans (W1_be2 m ρ c)

theorem in2 (c : Dev nD) :
    Cert.Spec.bnreluK (W5 m ρ c (Proc.devRef .tc main_v48_0)) (W5 m ρ c (Proc.devRef .tc main_v50)) (W5 m ρ c (Proc.devRef .tc main_v54))
        (W5 m ρ c (Proc.devRef .tc main_v37)) (W5 m ρ c (Proc.devRef .tc main_v40))
      = Cert.Spec.h1K (argsOf m c) := by
  rw [W5_z m ρ c, W5_mean m ρ c, W5_var m ρ c, W5_g2 m ρ c, W5_be2 m ρ c, bnreluK_stats] <;> rfl

theorem W6_h1 (c : Dev nD) : W6 m ρ c (Proc.devRef .tc main_v55) = Cert.Spec.h1K (argsOf m c) :=
  (W6_arr m ρ c 5).trans ((RV.reg2_out5 (V5 m ρ) c).trans (in2 m ρ c))

end Cert.KernelIdeal.KRead

end
-- ==== Proof.KRead1.lean ====
import proofs.«410724_j86964497809599_1_alg».proof.Proof.KRead0

set_option maxRecDepth 16384

noncomputable section

namespace Cert.KernelIdeal.KRead

open Cert.KernelIdeal Cert.KernelIdeal.Gen
open Idealize.ShloMosaic Idealize.ShloMosaic.TcCoe Idealize.SL.Sem
open Idealize.ShloMosaic.StableHlo

open Idealize.ShloMosaic.Pipeline (Dat Cfg Window)

variable (m : (ℓ : Loc nD τ sig) → Buf (Elt Ideal) ℓ) (ρ : Dev nD → PrngReg)

-- Layer 1's first linear map on the aggregated features, and its second on the normalised, clamped first.
abbrev zLin1 (c : Dev nD) := Cert.Spec.zNext (argsOf m c) (Cert.Spec.h1K (argsOf m c)) (Cert.Spec.lp1 (argsOf m c)) (Cert.Spec.w1_1 (argsOf m c))
abbrev zMid1 (c : Dev nD) := mid (zLin1 m c) (Cert.Spec.lp1 (argsOf m c))

theorem W7_x (c : Dev nD) : W7 m ρ c (Proc.devRef .tc main_v71)
    = Cert.Spec.agg128 (Cert.Spec.h1K (argsOf m c)) (Cert.Spec.rowIdx (argsOf m c).ei) (Cert.Spec.colIdx (argsOf m c).ei) (Cert.Spec.lp1 (argsOf m c)).e := by
  show after hostOps3 (W6 m ρ c) _ = _
  generalize hV : W6 m ρ c = V
  after_results_simp
  simp only [gather128_eq, scatter128_eq]
  subst hV
  rw [W6_h1 m ρ c, (show W6 m ρ c _ = _ from (WKeep.keep m ρ main_v1 1 5 (by decide) c).trans (W1_v1 m ρ c)), (show W6 m ρ c _ = _ from (WKeep.keep m ρ main_v3 1 5 (by decide) c).trans (W1_v3 m ρ c)), (show W6 m ρ c _ = _ from WKeep.arg m ρ main_arg3 6 (by decide) c)] <;> rfl
theorem W7_w1 (c : Dev nD) : W7 m ρ c (Proc.devRef .tc main_v73) = Cert.Spec.w1_1 (argsOf m c) := by
  show after hostOps3 (W6 m ρ c) _ = _
  generalize hV : W6 m ρ c = V
  after_results_simp
  subst hV
  rw [(show W6 m ρ c _ = _ from WKeep.arg m ρ main_arg5 6 (by decide) c)] <;> rfl
theorem W7_b1 (c : Dev nD) : W7 m ρ c (Proc.devRef .tc main_v76) = Cert.Spec.row (Cert.Spec.lp1 (argsOf m c)).b1 := by
  show after hostOps3 (W6 m ρ c) _ = _
  generalize hV : W6 m ρ c = V
  after_results_simp
  subst hV
  rw [(show W6 m ρ c _ = _ from WKeep.arg m ρ main_arg6 6 (by decide) c)] <;> rfl
theorem W7_g1 (c : Dev nD) : W7 m ρ c (Proc.devRef .tc main_v79) = Cert.Spec.row (Cert.Spec.lp1 (argsOf m c)).g1 := by
  show after hostOps3 (W6 m ρ c) _ = _
  generalize hV : W6 m ρ c = V
  after_results_simp
  subst hV
  rw [(show W6 m ρ c _ = _ from WKeep.arg m ρ main_arg9 6 (by decide) c)] <;> rfl
theorem W7_be1 (c : Dev nD) : W7 m ρ c (Proc.devRef .tc main_v82) = Cert.Spec.row (Cert.Spec.lp1 (argsOf m c)).be1 := by
  show after hostOps3 (W6 m ρ c) _ = _
  generalize hV : W6 m ρ c = V
  after_results_simp
  subst hV
  rw [(show W6 m ρ c _ = _ from WKeep.arg m ρ main_arg10 6 (by decide) c)] <;> rfl
theorem W7_w2 (c : Dev nD) : W7 m ρ c (Proc.devRef .tc main_v84) = (Cert.Spec.lp1 (argsOf m c)).W2 := by
  show after hostOps3 (W6 m ρ c) _ = _
  generalize hV : W6 m ρ c = V
  after_results_simp
  subst hV
  rw [(show W6 m ρ c _ = _ from WKeep.arg m ρ main_arg7 6 (by decide) c)] <;> rfl
theorem W7_b2 (c : Dev nD) : W7 m ρ c (Proc.devRef .tc main_v87) = Cert.Spec.row (Cert.Spec.lp1 (argsOf m c)).b2 := by
  show after hostOps3 (W6 m ρ c) _ = _
  generalize hV : W6 m ρ c = V
  after_results_simp
  subst hV
  rw [(show W6 m ρ c _ = _ from WKeep.arg m ρ main_arg8 6 (by decide) c)] <;> rfl
theorem W7_g2 (c : Dev nD) : W7 m ρ c (Proc.devRef .tc main_v90) = Cert.Spec.row (Cert.Spec.lp1 (argsOf m c)).g2 := by
  show after hostOps3 (W6 m ρ c) _ = _
  generalize hV : W6 m ρ c = V
  after_results_simp
  subst hV
  rw [(show W6 m ρ c _ = _ from WKeep.arg m ρ main_arg11 6 (by decide) c)] <;> rfl
theorem W7_be2 (c : Dev nD) : W7 m ρ c (Proc.devRef .tc main_v93) = Cert.Spec.row (Cert.Spec.lp1 (argsOf m c)).be2 := by
  show after hostOps3 (W6 m ρ c) _ = _
  generalize hV : W6 m ρ c = V
  after_results_simp
  subst hV
  rw [(show W6 m ρ c _ = _ from WKeep.arg m ρ main_arg12 6 (by decide) c)] <;> rfl

-- Region 3 reads the aggregated features, the first matrix and the first bias row.
theorem in3 (c : Dev nD) :
    Cert.Spec.lin128 (W7 m ρ c (Proc.devRef .tc main_v71)) (W7 m ρ c (Proc.devRef .tc main_v73)) (W7 m ρ c (Proc.devRef .tc main_v76))
      = zLin1 m c := by
  rw [W7_x m ρ c, W7_w1 m ρ c, W7_b1 m ρ c] <;> rfl

theorem W8_z (c : Dev nD) : W8 m ρ c (Proc.devRef .tc main_v94_0) = zLin1 m c :=
  (W8_arr m ρ c 3).trans ((RV.reg3_out3 (V7 m ρ) c).trans (in3 m ρ c))
theorem W8_s (c : Dev nD) : W8 m ρ c (Proc.devRef .tc main_v94_1) = Cert.Spec.sumRow (zLin1 m c) :=
  (W8_arr m ρ c 4).trans ((RV.reg3_out4 (V7 m ρ) c).trans (congrArg Cert.Spec.sumRow (in3 m ρ c)))
theorem W8_q (c : Dev nD) : W8 m ρ c (Proc.devRef .tc main_v94_2) = Cert.Spec.sqRow (zLin1 m c) :=
  (W8_arr m ρ c 5).trans ((RV.reg3_out5 (V7 m ρ) c).trans (congrArg Cert.Spec.sqRow (in3 m ρ c)))

theorem W9_mean (c : Dev nD) : W9 m ρ c (Proc.devRef .tc main_v96) = Cert.Spec.meanK (Cert.Spec.sumRow (zLin1 m c)) := by
  show after hostOps4 (W8 m ρ c) _ = _
  generalize hV : W8 m ρ c = V
  after_results_simp
  subst hV
  rw [W8_s m ρ c] <;> rfl
theorem W9_var (c : Dev nD) : W9 m ρ c (Proc.devRef .tc main_v100)
    = Cert.Spec.varK (Cert.Spec.sqRow (zLin1 m c)) (Cert.Spec.meanK (Cert.Spec.sumRow (zLin1 m c))) := by
  show after hostOps4 (W8 m ρ c) _ = _
  generalize hV : W8 m ρ c = V
  after_results_simp
  subst hV
  rw [W8_s m ρ c, W8_q m ρ c] <;> rfl
theorem W9_z (c : Dev nD) : W9 m ρ c (Proc.devRef .tc main_v94_0) = zLin1 m c :=
  (WKeep.keep m ρ main_v94_0 8 1 (by decide) c).trans (W8_z m ρ c)
theorem W9_g1 (c : Dev nD) : W9 m ρ c (Proc.devRef .tc main_v79) = Cert.Spec.row (Cert.Spec.lp1 (argsOf m c)).g1 :=
  (WKeep.keep m ρ main_v79 7 2 (by decide) c).trans (W7_g1 m ρ c)
theorem W9_be1 (c : Dev nD) : W9 m ρ c (Proc.devRef .tc main_v82) = Cert.Spec.row (Cert.Spec.lp1 (argsOf m c)).be1 :=
  (WKeep.keep m ρ main_v82 7 2 (by decide) c).trans (W7_be1 m ρ c)
theorem W9_w2 (c : Dev nD) : W9 m ρ c (Proc.devRef .tc main_v84) = (Cert.Spec.lp1 (argsOf m c)).W2 :=
  (WKeep.keep m ρ main_v84 7 2 (by decide) c).trans (W7_w2 m ρ c)
theorem W9_b2 (c : Dev nD) : W9 m ρ c (Proc.devRef .tc main_v87) = Cert.Spec.row (Cert.Spec.lp1 (argsOf m c)).b2 :=
  (WKeep.keep m ρ main_v87 7 2 (by decide) c).trans (W7_b2 m ρ c)

-- With the column mean and variance of the first map, normalising and clamping it gives the second map's input.
theorem in4 (c : Dev nD) :
    Cert.Spec.lin128 (Cert.Spec.bnreluK (W9 m ρ c (Proc.devRef .tc main_v94_0)) (W9 m ρ c (Proc.devRef .tc main_v96)) (W9 m ρ c (Proc.devRef .tc main_v100))
        (W9 m ρ c (Proc.devRef .tc main_v79)) (W9 m ρ c (Proc.devRef .tc main_v82))) (W9 m ρ c (Proc.devRef .tc main_v84)) (W9 m ρ c (Proc.devRef .tc main_v87))
      = zMid1 m c := by
  rw [W9_z m ρ c, W9_mean m ρ c, W9_var m ρ c, W9_g1 m ρ c, W9_be1 m ρ c, W9_w2 m ρ c, W9_b2 m ρ c, bnreluK_stats] <;> rfl

theorem W10_z (c : Dev nD) : W10 m ρ c (Proc.devRef .tc main_v101_0) = zMid1 m c :=
  (W10_arr m ρ c 7).trans ((RV.reg4_out7 (V9 m ρ) c).trans (in4 m ρ c))
theorem W10_s (c : Dev nD) : W10 m ρ c (Proc.devRef .tc main_v101_1) = Cert.Spec.sumRow (zMid1 m c) :=
  (W10_arr m ρ c 8).trans ((RV.reg4_out8 (V9 m ρ) c).trans (congrArg Cert.Spec.sumRow (in4 m ρ c)))
theorem W10_q (c : Dev nD) : W10 m ρ c (Proc.devRef .tc main_v101_2) = Cert.Spec.sqRow (zMid1 m c) :=
  (W10_arr m ρ c 9).trans ((RV.reg4_out9 (V9 m ρ) c).trans (congrArg Cert.Spec.sqRow (in4 m ρ c)))

theorem W11_mean (c : Dev nD) : W11 m ρ c (Proc.devRef .tc main_v103) = Cert.Spec.meanK (Cert.Spec.sumRow (zMid1 m c)) := by
  show after hostOps5 (W10 m ρ c) _ = _
  generalize hV : W10 m ρ c = V
  after_results_simp
  subst hV
  rw [W10_s m ρ c] <;> rfl
theorem W11_var (c : Dev nD) : W11 m ρ c (Proc.devRef .tc main_v107)
    = Cert.Spec.varK (Cert.Spec.sqRow (zMid1 m c)) (Cert.Spec.meanK (Cert.Spec.sumRow (zMid1 m c))) := by
  show after hostOps5 (W10 m ρ c) _ = _
  generalize hV : W10 m ρ c = V
  after_results_simp
  subst hV
  rw [W10_s m ρ c, W10_q m ρ c] <;> rfl
theorem W11_z (c : Dev nD) : W11 m ρ c (Proc.devRef .tc main_v101_0) = zMid1 m c :=
  (WKeep.keep m ρ main_v101_0 10 1 (by decide) c).trans (W10_z m ρ c)
theorem W11_g2 (c : Dev nD) : W11 m ρ c (Proc.devRef .tc main_v90) = Cert.Spec.row (Cert.Spec.lp1 (argsOf m c)).g2 :=
  (WKeep.keep m ρ main_v90 7 4 (by decide) c).trans (W7_g2 m ρ c)
theorem W11_be2 (c : Dev nD) : W11 m ρ c (Proc.devRef .tc main_v93) = Cert.Spec.row (Cert.Spec.lp1 (argsOf m c)).be2 :=
  (WKeep.keep m ρ main_v93 7 4 (by decide) c).trans (W7_be2 m ρ c)

theorem in5 (c : Dev nD) :
    Cert.Spec.bnreluK (W11 m ρ c (Proc.devRef .tc main_v101_0)) (W11 m ρ c (Proc.devRef .tc main_v103)) (W11 m ρ c (Proc.devRef .tc main_v107))
        (W11 m ρ c (Proc.devRef .tc main_v90)) (W11 m ρ c (Proc.devRef .tc main_v93))
      = Cert.Spec.h2K (argsOf m c) := by
  rw [W11_z m ρ c, W11_mean m ρ c, W11_var m ρ c, W11_g2 m ρ c, W11_be2 m ρ c, bnreluK_stats] <;> rfl

-- The last region normalises and clamps the second map: the next layer's features.
theorem W12_h2 (c : Dev nD) : W12 m ρ c (Proc.devRef .tc main_v108) = Cert.Spec.h2K (argsOf m c) :=
  (W12_arr m ρ c 5).trans ((RV.reg5_out5 (V11 m ρ) c).trans (in5 m ρ c))

end Cert.KernelIdeal.KRead

end
-- ==== Proof.KRead2.lean ====
import proofs.«410724_j86964497809599_1_alg».proof.Proof.KRead1

set_option maxRecDepth 16384

noncomputable section

namespace Cert.KernelIdeal.KRead

open Cert.KernelIdeal Cert.KernelIdeal.Gen
open Idealize.ShloMosaic Idealize.ShloMosaic.TcCoe Idealize.SL.Sem
open Idealize.ShloMosaic.StableHlo

open Idealize.ShloMosaic.Pipeline (Dat Cfg Window)

variable (m : (ℓ : Loc nD τ sig) → Buf (Elt Ideal) ℓ) (ρ : Dev nD → PrngReg)

-- Layer 2's first linear map on the aggregated features, and its second on the normalised, clamped first.
abbrev zLin2 (c : Dev nD) := Cert.Spec.zNext (argsOf m c) (Cert.Spec.h2K (argsOf m c)) (Cert.Spec.lp2 (argsOf m c)) (Cert.Spec.w1_2 (argsOf m c))
abbrev zMid2 (c : Dev nD) := mid (zLin2 m c) (Cert.Spec.lp2 (argsOf m c))

theorem W13_x (c : Dev nD) : W13 m ρ c (Proc.devRef .tc main_v124)
    = Cert.Spec.agg128 (Cert.Spec.h2K (argsOf m c)) (Cert.Spec.rowIdx (argsOf m c).ei) (Cert.Spec.colIdx (argsOf m c).ei) (Cert.Spec.lp2 (argsOf m c)).e := by
  show after hostOps6 (W12 m ρ c) _ = _
  generalize hV : W12 m ρ c = V
  after_results_simp
  simp only [gather128_eq, scatter128_eq]
  subst hV
  rw [W12_h2 m ρ c, (show W12 m ρ c _ = _ from (WKeep.keep m ρ main_v1 1 11 (by decide) c).trans (W1_v1 m ρ c)), (show W12 m ρ c _ = _ from (WKeep.keep m ρ main_v3 1 11 (by decide) c).trans (W1_v3 m ρ c)), (show W12 m ρ c _ = _ from WKeep.arg m ρ main_arg3 12 (by decide) c)] <;> rfl
theorem W13_w1 (c : Dev nD) : W13 m ρ c (Proc.devRef .tc main_v126) = Cert.Spec.w1_2 (argsOf m c) := by
  show after hostOps6 (W12 m ρ c) _ = _
  generalize hV : W12 m ρ c = V
  after_results_simp
  subst hV
  rw [(show W12 m ρ c _ = _ from WKeep.arg m ρ main_arg5 12 (by decide) c)] <;> rfl
theorem W13_b1 (c : Dev nD) : W13 m ρ c (Proc.devRef .tc main_v129) = Cert.Spec.row (Cert.Spec.lp2 (argsOf m c)).b1 := by
  show after hostOps6 (W12 m ρ c) _ = _
  generalize hV : W12 m ρ c = V
  after_results_simp
  subst hV
  rw [(show W12 m ρ c _ = _ from WKeep.arg m ρ main_arg6 12 (by decide) c)] <;> rfl
theorem W13_g1 (c : Dev nD) : W13 m ρ c (Proc.devRef .tc main_v132) = Cert.Spec.row (Cert.Spec.lp2 (argsOf m c)).g1 := by
  show after hostOps6 (W12 m ρ c) _ = _
  generalize hV : W12 m ρ c = V
  after_results_simp
  subst hV
  rw [(show W12 m ρ c _ = _ from WKeep.arg m ρ main_arg9 12 (by decide) c)] <;> rfl
theorem W13_be1 (c : Dev nD) : W13 m ρ c (Proc.devRef .tc main_v135) = Cert.Spec.row (Cert.Spec.lp2 (argsOf m c)).be1 := by
  show after hostOps6 (W12 m ρ c) _ = _
  generalize hV : W12 m ρ c = V
  after_results_simp
  subst hV
  rw [(show W12 m ρ c _ = _ from WKeep.arg m ρ main_arg10 12 (by decide) c)] <;> rfl
theorem W13_w2 (c : Dev nD) : W13 m ρ c (Proc.devRef .tc main_v137) = (Cert.Spec.lp2 (argsOf m c)).W2 := by
  show after hostOps6 (W12 m ρ c) _ = _
  generalize hV : W12 m ρ c = V
  after_results_simp
  subst hV
  rw [(show W12 m ρ c _ = _ from WKeep.arg m ρ main_arg7 12 (by decide) c)] <;> rfl
theorem W13_b2 (c : Dev nD) : W13 m ρ c (Proc.devRef .tc main_v140) = Cert.Spec.row (Cert.Spec.lp2 (argsOf m c)).b2 := by
  show after hostOps6 (W12 m ρ c) _ = _
  generalize hV : W12 m ρ c = V
  after_results_simp
  subst hV
  rw [(show W12 m ρ c _ = _ from WKeep.arg m ρ main_arg8 12 (by decide) c)] <;> rfl
theorem W13_g2 (c : Dev nD) : W13 m ρ c (Proc.devRef .tc main_v143) = Cert.Spec.row (Cert.Spec.lp2 (argsOf m c)).g2 := by
  show after hostOps6 (W12 m ρ c) _ = _
  generalize hV : W12 m ρ c = V
  after_results_simp
  subst hV
  rw [(show W12 m ρ c _ = _ from WKeep.arg m ρ main_arg11 12 (by decide) c)] <;> rfl
theorem W13_be2 (c : Dev nD) : W13 m ρ c (Proc.devRef .tc main_v146) = Cert.Spec.row (Cert.Spec.lp2 (argsOf m c)).be2 := by
  show after hostOps6 (W12 m ρ c) _ = _
  generalize hV : W12 m ρ c = V
  after_results_simp
  subst hV
  rw [(show W12 m ρ c _ = _ from WKeep.arg m ρ main_arg12 12 (by decide) c)] <;> rfl

-- Region 6 reads the aggregated features, the first matrix and the first bias row.
theorem in6 (c : Dev nD) :
    Cert.Spec.lin128 (W13 m ρ c (Proc.devRef .tc main_v124)) (W13 m ρ c (Proc.devRef .tc main_v126)) (W13 m ρ c (Proc.devRef .tc main_v129))
      = zLin2 m c := by
  rw [W13_x m ρ c, W13_w1 m ρ c, W13_b1 m ρ c] <;> rfl

theorem W14_z (c : Dev nD) : W14 m ρ c (Proc.devRef .tc main_v147_0) = zLin2 m c :=
  (W14_arr m ρ c 3).trans ((RV.reg6_out3 (V13 m ρ) c).trans (in6 m ρ c))
theorem W14_s (c : Dev nD) : W14 m ρ c (Proc.devRef .tc main_v147_1) = Cert.Spec.sumRow (zLin2 m c) :=
  (W14_arr m ρ c 4).trans ((RV.reg6_out4 (V13 m ρ) c).trans (congrArg Cert.Spec.sumRow (in6 m ρ c)))
theorem W14_q (c : Dev nD) : W14 m ρ c (Proc.devRef .tc main_v147_2) = Cert.Spec.sqRow (zLin2 m c) :=
  (W14_arr m ρ c 5).trans ((RV.reg6_out5 (V13 m ρ) c).trans (congrArg Cert.Spec.sqRow (in6 m ρ c)))

theorem W15_mean (c : Dev nD) : W15 m ρ c (Proc.devRef .tc main_v149) = Cert.Spec.meanK (Cert.Spec.sumRow (zLin2 m c)) := by
  show after hostOps7 (W14 m ρ c) _ = _
  generalize hV : W14 m ρ c = V
  after_results_simp
  subst hV
  rw [W14_s m ρ c] <;> rfl
theorem W15_var (c : Dev nD) : W15 m ρ c (Proc.devRef .tc main_v153)
    = Cert.Spec.varK (Cert.Spec.sqRow (zLin2 m c)) (Cert.Spec.meanK (Cert.Spec.sumRow (zLin2 m c))) := by
  show after hostOps7 (W14 m ρ c) _ = _
  generalize hV : W14 m ρ c = V
  after_results_simp
  subst hV
  rw [W14_s m ρ c, W14_q m ρ c] <;> rfl
theorem W15_z (c : Dev nD) : W15 m ρ c (Proc.devRef .tc main_v147_0) = zLin2 m c :=
  (WKeep.keep m ρ main_v147_0 14 1 (by decide) c).trans (W14_z m ρ c)
theorem W15_g1 (c : Dev nD) : W15 m ρ c (Proc.devRef .tc main_v132) = Cert.Spec.row (Cert.Spec.lp2 (argsOf m c)).g1 :=
  (WKeep.keep m ρ main_v132 13 2 (by decide) c).trans (W13_g1 m ρ c)
theorem W15_be1 (c : Dev nD) : W15 m ρ c (Proc.devRef .tc main_v135) = Cert.Spec.row (Cert.Spec.lp2 (argsOf m c)).be1 :=
  (WKeep.keep m ρ main_v135 13 2 (by decide) c).trans (W13_be1 m ρ c)
theorem W15_w2 (c : Dev nD) : W15 m ρ c (Proc.devRef .tc main_v137) = (Cert.Spec.lp2 (argsOf m c)).W2 :=
  (WKeep.keep m ρ main_v137 13 2 (by decide) c).trans (W13_w2 m ρ c)
theorem W15_b2 (c : Dev nD) : W15 m ρ c (Proc.devRef .tc main_v140) = Cert.Spec.row (Cert.Spec.lp2 (argsOf m c)).b2 :=
  (WKeep.keep m ρ main_v140 13 2 (by decide) c).trans (W13_b2 m ρ c)

-- With the column mean and variance of the first map, normalising and clamping it gives the second map's input.
theorem in7 (c : Dev nD) :
    Cert.Spec.lin128 (Cert.Spec.bnreluK (W15 m ρ c (Proc.devRef .tc main_v147_0)) (W15 m ρ c (Proc.devRef .tc main_v149)) (W15 m ρ c (Proc.devRef .tc main_v153))
        (W15 m ρ c (Proc.devRef .tc main_v132)) (W15 m ρ c (Proc.devRef .tc main_v135))) (W15 m ρ c (Proc.devRef .tc main_v137)) (W15 m ρ c (Proc.devRef .tc main_v140))
      = zMid2 m c := by
  rw [W15_z m ρ c, W15_mean m ρ c, W15_var m ρ c, W15_g1 m ρ c, W15_be1 m ρ c, W15_w2 m ρ c, W15_b2 m ρ c, bnreluK_stats] <;> rfl

theorem W16_z (c : Dev nD) : W16 m ρ c (Proc.devRef .tc main_v154_0) = zMid2 m c :=
  (W16_arr m ρ c 7).trans ((RV.reg7_out7 (V15 m ρ) c).trans (in7 m ρ c))
theorem W16_s (c : Dev nD) : W16 m ρ c (Proc.devRef .tc main_v154_1) = Cert.Spec.sumRow (zMid2 m c) :=
  (W16_arr m ρ c 8).trans ((RV.reg7_out8 (V15 m ρ) c).trans (congrArg Cert.Spec.sumRow (in7 m ρ c)))
theorem W16_q (c : Dev nD) : W16 m ρ c (Proc.devRef .tc main_v154_2) = Cert.Spec.sqRow (zMid2 m c) :=
  (W16_arr m ρ c 9).trans ((RV.reg7_out9 (V15 m ρ) c).trans (congrArg Cert.Spec.sqRow (in7 m ρ c)))

theorem W17_mean (c : Dev nD) : W17 m ρ c (Proc.devRef .tc main_v156) = Cert.Spec.meanK (Cert.Spec.sumRow (zMid2 m c)) := by
  show after hostOps8 (W16 m ρ c) _ = _
  generalize hV : W16 m ρ c = V
  after_results_simp
  subst hV
  rw [W16_s m ρ c] <;> rfl
theorem W17_var (c : Dev nD) : W17 m ρ c (Proc.devRef .tc main_v160)
    = Cert.Spec.varK (Cert.Spec.sqRow (zMid2 m c)) (Cert.Spec.meanK (Cert.Spec.sumRow (zMid2 m c))) := by
  show after hostOps8 (W16 m ρ c) _ = _
  generalize hV : W16 m ρ c = V
  after_results_simp
  subst hV
  rw [W16_s m ρ c, W16_q m ρ c] <;> rfl
theorem W17_z (c : Dev nD) : W17 m ρ c (Proc.devRef .tc main_v154_0) = zMid2 m c :=
  (WKeep.keep m ρ main_v154_0 16 1 (by decide) c).trans (W16_z m ρ c)
theorem W17_g2 (c : Dev nD) : W17 m ρ c (Proc.devRef .tc main_v143) = Cert.Spec.row (Cert.Spec.lp2 (argsOf m c)).g2 :=
  (WKeep.keep m ρ main_v143 13 4 (by decide) c).trans (W13_g2 m ρ c)
theorem W17_be2 (c : Dev nD) : W17 m ρ c (Proc.devRef .tc main_v146) = Cert.Spec.row (Cert.Spec.lp2 (argsOf m c)).be2 :=
  (WKeep.keep m ρ main_v146 13 4 (by decide) c).trans (W13_be2 m ρ c)

theorem in8 (c : Dev nD) :
    Cert.Spec.bnreluK (W17 m ρ c (Proc.devRef .tc main_v154_0)) (W17 m ρ c (Proc.devRef .tc main_v156)) (W17 m ρ c (Proc.devRef .tc main_v160))
        (W17 m ρ c (Proc.devRef .tc main_v143)) (W17 m ρ c (Proc.devRef .tc main_v146))
      = Cert.Spec.h3K (argsOf m c) := by
  rw [W17_z m ρ c, W17_mean m ρ c, W17_var m ρ c, W17_g2 m ρ c, W17_be2 m ρ c, bnreluK_stats] <;> rfl

-- The last region normalises and clamps the second map: the next layer's features.
theorem W18_h3 (c : Dev nD) : W18 m ρ c (Proc.devRef .tc main_v161) = Cert.Spec.h3K (argsOf m c) :=
  (W18_arr m ρ c 5).trans ((RV.reg8_out5 (V17 m ρ) c).trans (in8 m ρ c))

end Cert.KernelIdeal.KRead

end
-- ==== Proof.KRead3.lean ====
import proofs.«410724_j86964497809599_1_alg».proof.Proof.KRead2

set_option maxRecDepth 16384

noncomputable section

namespace Cert.KernelIdeal.KRead

open Cert.KernelIdeal Cert.KernelIdeal.Gen
open Idealize.ShloMosaic Idealize.ShloMosaic.TcCoe Idealize.SL.Sem
open Idealize.ShloMosaic.StableHlo

open Idealize.ShloMosaic.Pipeline (Dat Cfg Window)

variable (m : (ℓ : Loc nD τ sig) → Buf (Elt Ideal) ℓ) (ρ : Dev nD → PrngReg)

-- Layer 3's first linear map on the aggregated features, and its second on the normalised, clamped first.
abbrev zLin3 (c : Dev nD) := Cert.Spec.zNext (argsOf m c) (Cert.Spec.h3K (argsOf m c)) (Cert.Spec.lp3 (argsOf m c)) (Cert.Spec.w1_3 (argsOf m c))
abbrev zMid3 (c : Dev nD) := mid (zLin3 m c) (Cert.Spec.lp3 (argsOf m c))

theorem W19_x (c : Dev nD) : W19 m ρ c (Proc.devRef .tc main_v177)
    = Cert.Spec.agg128 (Cert.Spec.h3K (argsOf m c)) (Cert.Spec.rowIdx (argsOf m c).ei) (Cert.Spec.colIdx (argsOf m c).ei) (Cert.Spec.lp3 (argsOf m c)).e := by
  show after hostOps9 (W18 m ρ c) _ = _
  generalize hV : W18 m ρ c = V
  after_results_simp
  simp only [gather128_eq, scatter128_eq]
  subst hV
  rw [W18_h3 m ρ c, (show W18 m ρ c _ = _ from (WKeep.keep m ρ main_v1 1 17 (by decide) c).trans (W1_v1 m ρ c)), (show W18 m ρ c _ = _ from (WKeep.keep m ρ main_v3 1 17 (by decide) c).trans (W1_v3 m ρ c)), (show W18 m ρ c _ = _ from WKeep.arg m ρ main_arg3 18 (by decide) c)] <;> rfl
theorem W19_w1 (c : Dev nD) : W19 m ρ c (Proc.devRef .tc main_v179) = Cert.Spec.w1_3 (argsOf m c) := by
  show after hostOps9 (W18 m ρ c) _ = _
  generalize hV : W18 m ρ c = V
  after_results_simp
  subst hV
  rw [(show W18 m ρ c _ = _ from WKeep.arg m ρ main_arg5 18 (by decide) c)] <;> rfl
theorem W19_b1 (c : Dev nD) : W19 m ρ c (Proc.devRef .tc main_v182) = Cert.Spec.row (Cert.Spec.lp3 (argsOf m c)).b1 := by
  show after hostOps9 (W18 m ρ c) _ = _
  generalize hV : W18 m ρ c = V
  after_results_simp
  subst hV
  rw [(show W18 m ρ c _ = _ from WKeep.arg m ρ main_arg6 18 (by decide) c)] <;> rfl
theorem W19_g1 (c : Dev nD) : W19 m ρ c (Proc.devRef .tc main_v185) = Cert.Spec.row (Cert.Spec.lp3 (argsOf m c)).g1 := by
  show after hostOps9 (W18 m ρ c) _ = _
  generalize hV : W18 m ρ c = V
  after_results_simp
  subst hV
  rw [(show W18 m ρ c _ = _ from WKeep.arg m ρ main_arg9 18 (by decide) c)] <;> rfl
theorem W19_be1 (c : Dev nD) : W19 m ρ c (Proc.devRef .tc main_v188) = Cert.Spec.row (Cert.Spec.lp3 (argsOf m c)).be1 := by
  show after hostOps9 (W18 m ρ c) _ = _
  generalize hV : W18 m ρ c = V
  after_results_simp
  subst hV
  rw [(show W18 m ρ c _ = _ from WKeep.arg m ρ main_arg10 18 (by decide) c)] <;> rfl
theorem W19_w2 (c : Dev nD) : W19 m ρ c (Proc.devRef .tc main_v190) = (Cert.Spec.lp3 (argsOf m c)).W2 := by
  show after hostOps9 (W18 m ρ c) _ = _
  generalize hV : W18 m ρ c = V
  after_results_simp
  subst hV
  rw [(show W18 m ρ c _ = _ from WKeep.arg m ρ main_arg7 18 (by decide) c)] <;> rfl
theorem W19_b2 (c : Dev nD) : W19 m ρ c (Proc.devRef .tc main_v193) = Cert.Spec.row (Cert.Spec.lp3 (argsOf m c)).b2 := by
  show after hostOps9 (W18 m ρ c) _ = _
  generalize hV : W18 m ρ c = V
  after_results_simp
  subst hV
  rw [(show W18 m ρ c _ = _ from WKeep.arg m ρ main_arg8 18 (by decide) c)] <;> rfl
theorem W19_g2 (c : Dev nD) : W19 m ρ c (Proc.devRef .tc main_v196) = Cert.Spec.row (Cert.Spec.lp3 (argsOf m c)).g2 := by
  show after hostOps9 (W18 m ρ c) _ = _
  generalize hV : W18 m ρ c = V
  after_results_simp
  subst hV
  rw [(show W18 m ρ c _ = _ from WKeep.arg m ρ main_arg11 18 (by decide) c)] <;> rfl
theorem W19_be2 (c : Dev nD) : W19 m ρ c (Proc.devRef .tc main_v199) = Cert.Spec.row (Cert.Spec.lp3 (argsOf m c)).be2 := by
  show after hostOps9 (W18 m ρ c) _ = _
  generalize hV : W18 m ρ c = V
  after_results_simp
  subst hV
  rw [(show W18 m ρ c _ = _ from WKeep.arg m ρ main_arg12 18 (by decide) c)] <;> rfl

-- Region 9 reads the aggregated features, the first matrix and the first bias row.
theorem in9 (c : Dev nD) :
    Cert.Spec.lin128 (W19 m ρ c (Proc.devRef .tc main_v177)) (W19 m ρ c (Proc.devRef .tc main_v179)) (W19 m ρ c (Proc.devRef .tc main_v182))
      = zLin3 m c := by
  rw [W19_x m ρ c, W19_w1 m ρ c, W19_b1 m ρ c] <;> rfl

theorem W20_z (c : Dev nD) : W20 m ρ c (Proc.devRef .tc main_v200_0) = zLin3 m c :=
  (W20_arr m ρ c 3).trans ((RV.reg9_out3 (V19 m ρ) c).trans (in9 m ρ c))
theorem W20_s (c : Dev nD) : W20 m ρ c (Proc.devRef .tc main_v200_1) = Cert.Spec.sumRow (zLin3 m c) :=
  (W20_arr m ρ c 4).trans ((RV.reg9_out4 (V19 m ρ) c).trans (congrArg Cert.Spec.sumRow (in9 m ρ c)))
theorem W20_q (c : Dev nD) : W20 m ρ c (Proc.devRef .tc main_v200_2) = Cert.Spec.sqRow (zLin3 m c) :=
  (W20_arr m ρ c 5).trans ((RV.reg9_out5 (V19 m ρ) c).trans (congrArg Cert.Spec.sqRow (in9 m ρ c)))

theorem W21_mean (c : Dev nD) : W21 m ρ c (Proc.devRef .tc main_v202) = Cert.Spec.meanK (Cert.Spec.sumRow (zLin3 m c)) := by
  show after hostOps10 (W20 m ρ c) _ = _
  generalize hV : W20 m ρ c = V
  after_results_simp
  subst hV
  rw [W20_s m ρ c] <;> rfl
theorem W21_var (c : Dev nD) : W21 m ρ c (Proc.devRef .tc main_v206)
    = Cert.Spec.varK (Cert.Spec.sqRow (zLin3 m c)) (Cert.Spec.meanK (Cert.Spec.sumRow (zLin3 m c))) := by
  show after hostOps10 (W20 m ρ c) _ = _
  generalize hV : W20 m ρ c = V
  after_results_simp
  subst hV
  rw [W20_s m ρ c, W20_q m ρ c] <;> rfl
theorem W21_z (c : Dev nD) : W21 m ρ c (Proc.devRef .tc main_v200_0) = zLin3 m c :=
  (WKeep.keep m ρ main_v200_0 20 1 (by decide) c).trans (W20_z m ρ c)
theorem W21_g1 (c : Dev nD) : W21 m ρ c (Proc.devRef .tc main_v185) = Cert.Spec.row (Cert.Spec.lp3 (argsOf m c)).g1 :=
  (WKeep.keep m ρ main_v185 19 2 (by decide) c).trans (W19_g1 m ρ c)
theorem W21_be1 (c : Dev nD) : W21 m ρ c (Proc.devRef .tc main_v188) = Cert.Spec.row (Cert.Spec.lp3 (argsOf m c)).be1 :=
  (WKeep.keep m ρ main_v188 19 2 (by decide) c).trans (W19_be1 m ρ c)
theorem W21_w2 (c : Dev nD) : W21 m ρ c (Proc.devRef .tc main_v190) = (Cert.Spec.lp3 (argsOf m c)).W2 :=
  (WKeep.keep m ρ main_v190 19 2 (by decide) c).trans (W19_w2 m ρ c)
theorem W21_b2 (c : Dev nD) : W21 m ρ c (Proc.devRef .tc main_v193) = Cert.Spec.row (Cert.Spec.lp3 (argsOf m c)).b2 :=
  (WKeep.keep m ρ main_v193 19 2 (by decide) c).trans (W19_b2 m ρ c)

-- With the column mean and variance of the first map, normalising and clamping it gives the second map's input.
theorem in10 (c : Dev nD) :
    Cert.Spec.lin128 (Cert.Spec.bnreluK (W21 m ρ c (Proc.devRef .tc main_v200_0)) (W21 m ρ c (Proc.devRef .tc main_v202)) (W21 m ρ c (Proc.devRef .tc main_v206))
        (W21 m ρ c (Proc.devRef .tc main_v185)) (W21 m ρ c (Proc.devRef .tc main_v188))) (W21 m ρ c (Proc.devRef .tc main_v190)) (W21 m ρ c (Proc.devRef .tc main_v193))
      = zMid3 m c := by
  rw [W21_z m ρ c, W21_mean m ρ c, W21_var m ρ c, W21_g1 m ρ c, W21_be1 m ρ c, W21_w2 m ρ c, W21_b2 m ρ c, bnreluK_stats] <;> rfl

theorem W22_z (c : Dev nD) : W22 m ρ c (Proc.devRef .tc main_v207_0) = zMid3 m c :=
  (W22_arr m ρ c 7).trans ((RV.reg10_out7 (V21 m ρ) c).trans (in10 m ρ c))
theorem W22_s (c : Dev nD) : W22 m ρ c (Proc.devRef .tc main_v207_1) = Cert.Spec.sumRow (zMid3 m c) :=
  (W22_arr m ρ c 8).trans ((RV.reg10_out8 (V21 m ρ) c).trans (congrArg Cert.Spec.sumRow (in10 m ρ c)))
theorem W22_q (c : Dev nD) : W22 m ρ c (Proc.devRef .tc main_v207_2) = Cert.Spec.sqRow (zMid3 m c) :=
  (W22_arr m ρ c 9).trans ((RV.reg10_out9 (V21 m ρ) c).trans (congrArg Cert.Spec.sqRow (in10 m ρ c)))

theorem W23_mean (c : Dev nD) : W23 m ρ c (Proc.devRef .tc main_v209) = Cert.Spec.meanK (Cert.Spec.sumRow (zMid3 m c)) := by
  show after hostOps11 (W22 m ρ c) _ = _
  generalize hV : W22 m ρ c = V
  after_results_simp
  subst hV
  rw [W22_s m ρ c] <;> rfl
theorem W23_var (c : Dev nD) : W23 m ρ c (Proc.devRef .tc main_v213)
    = Cert.Spec.varK (Cert.Spec.sqRow (zMid3 m c)) (Cert.Spec.meanK (Cert.Spec.sumRow (zMid3 m c))) := by
  show after hostOps11 (W22 m ρ c) _ = _
  generalize hV : W22 m ρ c = V
  after_results_simp
  subst hV
  rw [W22_s m ρ c, W22_q m ρ c] <;> rfl
theorem W23_z (c : Dev nD) : W23 m ρ c (Proc.devRef .tc main_v207_0) = zMid3 m c :=
  (WKeep.keep m ρ main_v207_0 22 1 (by decide) c).trans (W22_z m ρ c)
theorem W23_g2 (c : Dev nD) : W23 m ρ c (Proc.devRef .tc main_v196) = Cert.Spec.row (Cert.Spec.lp3 (argsOf m c)).g2 :=
  (WKeep.keep m ρ main_v196 19 4 (by decide) c).trans (W19_g2 m ρ c)
theorem W23_be2 (c : Dev nD) : W23 m ρ c (Proc.devRef .tc main_v199) = Cert.Spec.row (Cert.Spec.lp3 (argsOf m c)).be2 :=
  (WKeep.keep m ρ main_v199 19 4 (by decide) c).trans (W19_be2 m ρ c)

theorem in11 (c : Dev nD) :
    Cert.Spec.bnreluK (W23 m ρ c (Proc.devRef .tc main_v207_0)) (W23 m ρ c (Proc.devRef .tc main_v209)) (W23 m ρ c (Proc.devRef .tc main_v213))
        (W23 m ρ c (Proc.devRef .tc main_v196)) (W23 m ρ c (Proc.devRef .tc main_v199))
      = Cert.Spec.h4K (argsOf m c) := by
  rw [W23_z m ρ c, W23_mean m ρ c, W23_var m ρ c, W23_g2 m ρ c, W23_be2 m ρ c, bnreluK_stats] <;> rfl

-- The last region normalises and clamps the second map: the next layer's features.
theorem W24_h4 (c : Dev nD) : W24 m ρ c (Proc.devRef .tc main_v214) = Cert.Spec.h4K (argsOf m c) :=
  (W24_arr m ρ c 5).trans ((RV.reg11_out5 (V23 m ρ) c).trans (in11 m ρ c))

end Cert.KernelIdeal.KRead

end
-- ==== Proof.KRead4.lean ====
import proofs.«410724_j86964497809599_1_alg».proof.Proof.KRead3

set_option maxRecDepth 16384

noncomputable section

namespace Cert.KernelIdeal.KRead

open Cert.KernelIdeal Cert.KernelIdeal.Gen
open Idealize.ShloMosaic Idealize.ShloMosaic.TcCoe Idealize.SL.Sem
open Idealize.ShloMosaic.StableHlo

open Idealize.ShloMosaic.Pipeline (Dat Cfg Window)

variable (m : (ℓ : Loc nD τ sig) → Buf (Elt Ideal) ℓ) (ρ : Dev nD → PrngReg)

-- Layer 4's first linear map on the aggregated features, and its second on the normalised, clamped first.
abbrev zLin4 (c : Dev nD) := Cert.Spec.zNext (argsOf m c) (Cert.Spec.h4K (argsOf m c)) (Cert.Spec.lp4 (argsOf m c)) (Cert.Spec.w1_4 (argsOf m c))
abbrev zMid4 (c : Dev nD) := mid (zLin4 m c) (Cert.Spec.lp4 (argsOf m c))

theorem W25_x (c : Dev nD) : W25 m ρ c (Proc.devRef .tc main_v230)
    = Cert.Spec.agg128 (Cert.Spec.h4K (argsOf m c)) (Cert.Spec.rowIdx (argsOf m c).ei) (Cert.Spec.colIdx (argsOf m c).ei) (Cert.Spec.lp4 (argsOf m c)).e := by
  show after hostOps12 (W24 m ρ c) _ = _
  generalize hV : W24 m ρ c = V
  after_results_simp
  simp only [gather128_eq, scatter128_eq]
  subst hV
  rw [W24_h4 m ρ c, (show W24 m ρ c _ = _ from (WKeep.keep m ρ main_v1 1 23 (by decide) c).trans (W1_v1 m ρ c)), (show W24 m ρ c _ = _ from (WKeep.keep m ρ main_v3 1 23 (by decide) c).trans (W1_v3 m ρ c)), (show W24 m ρ c _ = _ from WKeep.arg m ρ main_arg3 24 (by decide) c)] <;> rfl
theorem W25_w1 (c : Dev nD) : W25 m ρ c (Proc.devRef .tc main_v232) = Cert.Spec.w1_4 (argsOf m c) := by
  show after hostOps12 (W24 m ρ c) _ = _
  generalize hV : W24 m ρ c = V
  after_results_simp
  subst hV
  rw [(show W24 m ρ c _ = _ from WKeep.arg m ρ main_arg5 24 (by decide) c)] <;> rfl
theorem W25_b1 (c : Dev nD) : W25 m ρ c (Proc.devRef .tc main_v235) = Cert.Spec.row (Cert.Spec.lp4 (argsOf m c)).b1 := by
  show after hostOps12 (W24 m ρ c) _ = _
  generalize hV : W24 m ρ c = V
  after_results_simp
  subst hV
  rw [(show W24 m ρ c _ = _ from WKeep.arg m ρ main_arg6 24 (by decide) c)] <;> rfl
theorem W25_g1 (c : Dev nD) : W25 m ρ c (Proc.devRef .tc main_v238) = Cert.Spec.row (Cert.Spec.lp4 (argsOf m c)).g1 := by
  show after hostOps12 (W24 m ρ c) _ = _
  generalize hV : W24 m ρ c = V
  after_results_simp
  subst hV
  rw [(show W24 m ρ c _ = _ from WKeep.arg m ρ main_arg9 24 (by decide) c)] <;> rfl
theorem W25_be1 (c : Dev nD) : W25 m ρ c (Proc.devRef .tc main_v241) = Cert.Spec.row (Cert.Spec.lp4 (argsOf m c)).be1 := by
  show after hostOps12 (W24 m ρ c) _ = _
  generalize hV : W24 m ρ c = V
  after_results_simp
  subst hV
  rw [(show W24 m ρ c _ = _ from WKeep.arg m ρ main_arg10 24 (by decide) c)] <;> rfl
theorem W25_w2 (c : Dev nD) : W25 m ρ c (Proc.devRef .tc main_v243) = (Cert.Spec.lp4 (argsOf m c)).W2 := by
  show after hostOps12 (W24 m ρ c) _ = _
  generalize hV : W24 m ρ c = V
  after_results_simp
  subst hV
  rw [(show W24 m ρ c _ = _ from WKeep.arg m ρ main_arg7 24 (by decide) c)] <;> rfl
theorem W25_b2 (c : Dev nD) : W25 m ρ c (Proc.devRef .tc main_v246) = Cert.Spec.row (Cert.Spec.lp4 (argsOf m c)).b2 := by
  show after hostOps12 (W24 m ρ c) _ = _
  generalize hV : W24 m ρ c = V
  after_results_simp
  subst hV
  rw [(show W24 m ρ c _ = _ from WKeep.arg m ρ main_arg8 24 (by decide) c)] <;> rfl
theorem W25_g2 (c : Dev nD) : W25 m ρ c (Proc.devRef .tc main_v249) = Cert.Spec.row (Cert.Spec.lp4 (argsOf m c)).g2 := by
  show after hostOps12 (W24 m ρ c) _ = _
  generalize hV : W24 m ρ c = V
  after_results_simp
  subst hV
  rw [(show W24 m ρ c _ = _ from WKeep.arg m ρ main_arg11 24 (by decide) c)] <;> rfl
theorem W25_be2 (c : Dev nD) : W25 m ρ c (Proc.devRef .tc main_v252) = Cert.Spec.row (Cert.Spec.lp4 (argsOf m c)).be2 := by
  show after hostOps12 (W24 m ρ c) _ = _
  generalize hV : W24 m ρ c = V
  after_results_simp
  subst hV
  rw [(show W24 m ρ c _ = _ from WKeep.arg m ρ main_arg12 24 (by decide) c)] <;> rfl

-- Region 12 reads the aggregated features, the first matrix and the first bias row.
theorem in12 (c : Dev nD) :
    Cert.Spec.lin128 (W25 m ρ c (Proc.devRef .tc main_v230)) (W25 m ρ c (Proc.devRef .tc main_v232)) (W25 m ρ c (Proc.devRef .tc main_v235))
      = zLin4 m c := by
  rw [W25_x m ρ c, W25_w1 m ρ c, W25_b1 m ρ c] <;> rfl

theorem W26_z (c : Dev nD) : W26 m ρ c (Proc.devRef .tc main_v253_0) = zLin4 m c :=
  (W26_arr m ρ c 3).trans ((RV.reg12_out3 (V25 m ρ) c).trans (in12 m ρ c))
theorem W26_s (c : Dev nD) : W26 m ρ c (Proc.devRef .tc main_v253_1) = Cert.Spec.sumRow (zLin4 m c) :=
  (W26_arr m ρ c 4).trans ((RV.reg12_out4 (V25 m ρ) c).trans (congrArg Cert.Spec.sumRow (in12 m ρ c)))
theorem W26_q (c : Dev nD) : W26 m ρ c (Proc.devRef .tc main_v253_2) = Cert.Spec.sqRow (zLin4 m c) :=
  (W26_arr m ρ c 5).trans ((RV.reg12_out5 (V25 m ρ) c).trans (congrArg Cert.Spec.sqRow (in12 m ρ c)))

theorem W27_mean (c : Dev nD) : W27 m ρ c (Proc.devRef .tc main_v255) = Cert.Spec.meanK (Cert.Spec.sumRow (zLin4 m c)) := by
  show after hostOps13 (W26 m ρ c) _ = _
  generalize hV : W26 m ρ c = V
  after_results_simp
  subst hV
  rw [W26_s m ρ c] <;> rfl
theorem W27_var (c : Dev nD) : W27 m ρ c (Proc.devRef .tc main_v259)
    = Cert.Spec.varK (Cert.Spec.sqRow (zLin4 m c)) (Cert.Spec.meanK (Cert.Spec.sumRow (zLin4 m c))) := by
  show after hostOps13 (W26 m ρ c) _ = _
  generalize hV : W26 m ρ c = V
  after_results_simp
  subst hV
  rw [W26_s m ρ c, W26_q m ρ c] <;> rfl
theorem W27_z (c : Dev nD) : W27 m ρ c (Proc.devRef .tc main_v253_0) = zLin4 m c :=
  (WKeep.keep m ρ main_v253_0 26 1 (by decide) c).trans (W26_z m ρ c)
theorem W27_g1 (c : Dev nD) : W27 m ρ c (Proc.devRef .tc main_v238) = Cert.Spec.row (Cert.Spec.lp4 (argsOf m c)).g1 :=
  (WKeep.keep m ρ main_v238 25 2 (by decide) c).trans (W25_g1 m ρ c)
theorem W27_be1 (c : Dev nD) : W27 m ρ c (Proc.devRef .tc main_v241) = Cert.Spec.row (Cert.Spec.lp4 (argsOf m c)).be1 :=
  (WKeep.keep m ρ main_v241 25 2 (by decide) c).trans (W25_be1 m ρ c)
theorem W27_w2 (c : Dev nD) : W27 m ρ c (Proc.devRef .tc main_v243) = (Cert.Spec.lp4 (argsOf m c)).W2 :=
  (WKeep.keep m ρ main_v243 25 2 (by decide) c).trans (W25_w2 m ρ c)
theorem W27_b2 (c : Dev nD) : W27 m ρ c (Proc.devRef .tc main_v246) = Cert.Spec.row (Cert.Spec.lp4 (argsOf m c)).b2 :=
  (WKeep.keep m ρ main_v246 25 2 (by decide) c).trans (W25_b2 m ρ c)

-- With the column mean and variance of the first map, normalising and clamping it gives the second map's input.
theorem in13 (c : Dev nD) :
    Cert.Spec.lin128 (Cert.Spec.bnreluK (W27 m ρ c (Proc.devRef .tc main_v253_0)) (W27 m ρ c (Proc.devRef .tc main_v255)) (W27 m ρ c (Proc.devRef .tc main_v259))
        (W27 m ρ c (Proc.devRef .tc main_v238)) (W27 m ρ c (Proc.devRef .tc main_v241))) (W27 m ρ c (Proc.devRef .tc main_v243)) (W27 m ρ c (Proc.devRef .tc main_v246))
      = zMid4 m c := by
  rw [W27_z m ρ c, W27_mean m ρ c, W27_var m ρ c, W27_g1 m ρ c, W27_be1 m ρ c, W27_w2 m ρ c, W27_b2 m ρ c, bnreluK_stats] <;> rfl

theorem W28_z (c : Dev nD) : W28 m ρ c (Proc.devRef .tc main_v260_0) = zMid4 m c :=
  (W28_arr m ρ c 7).trans ((RV.reg13_out7 (V27 m ρ) c).trans (in13 m ρ c))
theorem W28_s (c : Dev nD) : W28 m ρ c (Proc.devRef .tc main_v260_1) = Cert.Spec.sumRow (zMid4 m c) :=
  (W28_arr m ρ c 8).trans ((RV.reg13_out8 (V27 m ρ) c).trans (congrArg Cert.Spec.sumRow (in13 m ρ c)))
theorem W28_q (c : Dev nD) : W28 m ρ c (Proc.devRef .tc main_v260_2) = Cert.Spec.sqRow (zMid4 m c) :=
  (W28_arr m ρ c 9).trans ((RV.reg13_out9 (V27 m ρ) c).trans (congrArg Cert.Spec.sqRow (in13 m ρ c)))

theorem W29_mean (c : Dev nD) : W29 m ρ c (Proc.devRef .tc main_v262) = Cert.Spec.meanK (Cert.Spec.sumRow (zMid4 m c)) := by
  show after hostOps14 (W28 m ρ c) _ = _
  generalize hV : W28 m ρ c = V
  after_results_simp
  subst hV
  rw [W28_s m ρ c] <;> rfl
theorem W29_var (c : Dev nD) : W29 m ρ c (Proc.devRef .tc main_v266)
    = Cert.Spec.varK (Cert.Spec.sqRow (zMid4 m c)) (Cert.Spec.meanK (Cert.Spec.sumRow (zMid4 m c))) := by
  show after hostOps14 (W28 m ρ c) _ = _
  generalize hV : W28 m ρ c = V
  after_results_simp
  subst hV
  rw [W28_s m ρ c, W28_q m ρ c] <;> rfl
theorem W29_z (c : Dev nD) : W29 m ρ c (Proc.devRef .tc main_v260_0) = zMid4 m c :=
  (WKeep.keep m ρ main_v260_0 28 1 (by decide) c).trans (W28_z m ρ c)
theorem W29_g2 (c : Dev nD) : W29 m ρ c (Proc.devRef .tc main_v249) = Cert.Spec.row (Cert.Spec.lp4 (argsOf m c)).g2 :=
  (WKeep.keep m ρ main_v249 25 4 (by decide) c).trans (W25_g2 m ρ c)
theorem W29_be2 (c : Dev nD) : W29 m ρ c (Proc.devRef .tc main_v252) = Cert.Spec.row (Cert.Spec.lp4 (argsOf m c)).be2 :=
  (WKeep.keep m ρ main_v252 25 4 (by decide) c).trans (W25_be2 m ρ c)

theorem in14 (c : Dev nD) :
    Cert.Spec.bnreluK (W29 m ρ c (Proc.devRef .tc main_v260_0)) (W29 m ρ c (Proc.devRef .tc main_v262)) (W29 m ρ c (Proc.devRef .tc main_v266))
        (W29 m ρ c (Proc.devRef .tc main_v249)) (W29 m ρ c (Proc.devRef .tc main_v252))
      = Cert.Spec.h5K (argsOf m c) := by
  rw [W29_z m ρ c, W29_mean m ρ c, W29_var m ρ c, W29_g2 m ρ c, W29_be2 m ρ c, bnreluK_stats] <;> rfl

-- The last region normalises and clamps the second map: the next layer's features.
theorem W30_h5 (c : Dev nD) : W30 m ρ c (Proc.devRef .tc main_v267) = Cert.Spec.h5K (argsOf m c) :=
  (W30_arr m ρ c 5).trans ((RV.reg14_out5 (V29 m ρ) c).trans (in14 m ρ c))

end Cert.KernelIdeal.KRead

end
-- ==== Proof.KPools.lean ====
import proofs.«410724_j86964497809599_1_alg».proof.Proof.Gen.KernelIdeal.Frame
import proofs.«410724_j86964497809599_1_alg».proof.Proof.RegionVals
import proofs.«410724_j86964497809599_1_alg».proof.Proof.WKeep

set_option maxRecDepth 16384

noncomputable section

namespace Cert.KernelIdeal.KPools

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem pool0 (c : Dev nD) (B : Cert.Spec.I Cert.ReferenceIdeal.S50000x1)
    (hb : W1 m ρ c (Proc.devRef .tc main_v4) = B) :
    W36 m ρ c (Proc.devRef .tc main_v268) = Cert.Spec.pool200 B (m ((c : Thread nD τ).loc main_arg0)) :=
  calc W36 m ρ c (Proc.devRef .tc main_v268)
    _ = W31 m ρ c (Proc.devRef .tc main_v268) := WKeep.keep m ρ main_v268 31 5 (by decide) c
    _ = (dat15 (V30 m ρ) c).arrAt 2 cfg15.N := W31_arr m ρ c 2
    _ = Cert.Spec.pool200 (V30 m ρ c main_v4) (V30 m ρ c main_arg0) := RV.reg15_out2 (V30 m ρ) c
    _ = Cert.Spec.pool200 B (m ((c : Thread nD τ).loc main_arg0)) :=
        congrArg₂ Cert.Spec.pool200 ((WKeep.keep m ρ main_v4 1 29 (by decide) c).trans hb) ((show W30 m ρ c _ = _ from WKeep.arg m ρ main_arg0 30 (by decide) c))

theorem pool1 (c : Dev nD) (B : Cert.Spec.I Cert.ReferenceIdeal.S50000x1) (H : Cert.Spec.M Cert.ReferenceIdeal.S50000x128)
    (hb : W1 m ρ c (Proc.devRef .tc main_v4) = B) (hh : W6 m ρ c (Proc.devRef .tc main_v55) = H) :
    W36 m ρ c (Proc.devRef .tc main_v269) = Cert.Spec.pool128 B H :=
  calc W36 m ρ c (Proc.devRef .tc main_v269)
    _ = W32 m ρ c (Proc.devRef .tc main_v269) := WKeep.keep m ρ main_v269 32 4 (by decide) c
    _ = (dat16 (V31 m ρ) c).arrAt 2 cfg16.N := W32_arr m ρ c 2
    _ = Cert.Spec.pool128 (V31 m ρ c main_v4) (V31 m ρ c main_v55) := RV.reg16_out2 (V31 m ρ) c
    _ = Cert.Spec.pool128 B H :=
        congrArg₂ Cert.Spec.pool128 ((WKeep.W31_main_v4 m ρ c).trans hb) ((WKeep.keep m ρ main_v55 6 25 (by decide) c).trans hh)

theorem pool2 (c : Dev nD) (B : Cert.Spec.I Cert.ReferenceIdeal.S50000x1) (H : Cert.Spec.M Cert.ReferenceIdeal.S50000x128)
    (hb : W1 m ρ c (Proc.devRef .tc main_v4) = B) (hh : W12 m ρ c (Proc.devRef .tc main_v108) = H) :
    W36 m ρ c (Proc.devRef .tc main_v270) = Cert.Spec.pool128 B H :=
  calc W36 m ρ c (Proc.devRef .tc main_v270)
    _ = W33 m ρ c (Proc.devRef .tc main_v270) := WKeep.keep m ρ main_v270 33 3 (by decide) c
    _ = (dat17 (V32 m ρ) c).arrAt 2 cfg17.N := W33_arr m ρ c 2
    _ = Cert.Spec.pool128 (V32 m ρ c main_v4) (V32 m ρ c main_v108) := RV.reg17_out2 (V32 m ρ) c
    _ = Cert.Spec.pool128 B H :=
        congrArg₂ Cert.Spec.pool128 ((WKeep.W32_main_v4 m ρ c).trans hb) ((WKeep.keep m ρ main_v108 12 20 (by decide) c).trans hh)

theorem pool3 (c : Dev nD) (B : Cert.Spec.I Cert.ReferenceIdeal.S50000x1) (H : Cert.Spec.M Cert.ReferenceIdeal.S50000x128)
    (hb : W1 m ρ c (Proc.devRef .tc main_v4) = B) (hh : W18 m ρ c (Proc.devRef .tc main_v161) = H) :
    W36 m ρ c (Proc.devRef .tc main_v271) = Cert.Spec.pool128 B H :=
  calc W36 m ρ c (Proc.devRef .tc main_v271)
    _ = W34 m ρ c (Proc.devRef .tc main_v271) := WKeep.keep m ρ main_v271 34 2 (by decide) c
    _ = (dat18 (V33 m ρ) c).arrAt 2 cfg18.N := W34_arr m ρ c 2
    _ = Cert.Spec.pool128 (V33 m ρ c main_v4) (V33 m ρ c main_v161) := RV.reg18_out2 (V33 m ρ) c
    _ = Cert.Spec.pool128 B H :=
        congrArg₂ Cert.Spec.pool128 ((WKeep.W33_main_v4 m ρ c).trans hb) ((WKeep.keep m ρ main_v161 18 15 (by decide) c).trans hh)

theorem pool4 (c : Dev nD) (B : Cert.Spec.I Cert.ReferenceIdeal.S50000x1) (H : Cert.Spec.M Cert.ReferenceIdeal.S50000x128)
    (hb : W1 m ρ c (Proc.devRef .tc main_v4) = B) (hh : W24 m ρ c (Proc.devRef .tc main_v214) = H) :
    W36 m ρ c (Proc.devRef .tc main_v272) = Cert.Spec.pool128 B H :=
  calc W36 m ρ c (Proc.devRef .tc main_v272)
    _ = W35 m ρ c (Proc.devRef .tc main_v272) := WKeep.keep m ρ main_v272 35 1 (by decide) c
    _ = (dat19 (V34 m ρ) c).arrAt 2 cfg19.N := W35_arr m ρ c 2
    _ = Cert.Spec.pool128 (V34 m ρ c main_v4) (V34 m ρ c main_v214) := RV.reg19_out2 (V34 m ρ) c
    _ = Cert.Spec.pool128 B H :=
        congrArg₂ Cert.Spec.pool128 ((WKeep.W34_main_v4 m ρ c).trans hb) ((WKeep.keep m ρ main_v214 24 10 (by decide) c).trans hh)

theorem pool5 (c : Dev nD) (B : Cert.Spec.I Cert.ReferenceIdeal.S50000x1) (H : Cert.Spec.M Cert.ReferenceIdeal.S50000x128)
    (hb : W1 m ρ c (Proc.devRef .tc main_v4) = B) (hh : W30 m ρ c (Proc.devRef .tc main_v267) = H) :
    W36 m ρ c (Proc.devRef .tc main_v273) = Cert.Spec.pool128 B H :=
  calc W36 m ρ c (Proc.devRef .tc main_v273)
    _ = (dat20 (V35 m ρ) c).arrAt 2 cfg20.N := W36_arr m ρ c 2
    _ = Cert.Spec.pool128 (V35 m ρ c main_v4) (V35 m ρ c main_v267) := RV.reg20_out2 (V35 m ρ) c
    _ = Cert.Spec.pool128 B H :=
        congrArg₂ Cert.Spec.pool128 ((WKeep.W35_main_v4 m ρ c).trans hb) ((WKeep.keep m ρ main_v267 30 5 (by decide) c).trans hh)

end Cert.KernelIdeal.KPools

end
-- ==== Proof.KRead.lean ====
import proofs.«410724_j86964497809599_1_alg».proof.Proof.KRead4
import proofs.«410724_j86964497809599_1_alg».proof.Proof.KPools
import proofs.«410724_j86964497809599_1_alg».proof.Proof.WKeep

set_option maxRecDepth 16384

noncomputable section

namespace Cert.KernelIdeal.KRead

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem res_h5 (c : Dev nD) : W36 m ρ c (Proc.devRef .tc main_v267) = Cert.Spec.h5K (argsOf m c) :=
  (WKeep.W36_main_v267 m ρ c).trans (W30_h5 m ρ c)

theorem res_p0 (c : Dev nD) :
    W36 m ρ c (Proc.devRef .tc main_v268)
      = Cert.Spec.pool200
          (shapeCast Cert.ReferenceIdeal.S50000x1 (m ((c : Thread nD τ).loc main_arg2)) Cert.KernelIdeal.Facts₀.shapeCasts_S50000_S50000x1)
          (m ((c : Thread nD τ).loc main_arg0)) :=
  KPools.pool0 m ρ c _ (W1_v4 m ρ c)

theorem res_p1 (c : Dev nD) :
    W36 m ρ c (Proc.devRef .tc main_v269)
      = Cert.Spec.pool128
          (shapeCast Cert.ReferenceIdeal.S50000x1 (m ((c : Thread nD τ).loc main_arg2)) Cert.KernelIdeal.Facts₀.shapeCasts_S50000_S50000x1)
          (Cert.Spec.h1K (argsOf m c)) :=
  KPools.pool1 m ρ c _ _ (W1_v4 m ρ c) (W6_h1 m ρ c)

theorem res_p2 (c : Dev nD) :
    W36 m ρ c (Proc.devRef .tc main_v270)
      = Cert.Spec.pool128
          (shapeCast Cert.ReferenceIdeal.S50000x1 (m ((c : Thread nD τ).loc main_arg2)) Cert.KernelIdeal.Facts₀.shapeCasts_S50000_S50000x1)
          (Cert.Spec.h2K (argsOf m c)) :=
  KPools.pool2 m ρ c _ _ (W1_v4 m ρ c) (W12_h2 m ρ c)

theorem res_p3 (c : Dev nD) :
    W36 m ρ c (Proc.devRef .tc main_v271)
      = Cert.Spec.pool128
          (shapeCast Cert.ReferenceIdeal.S50000x1 (m ((c : Thread nD τ).loc main_arg2)) Cert.KernelIdeal.Facts₀.shapeCasts_S50000_S50000x1)
          (Cert.Spec.h3K (argsOf m c)) :=
  KPools.pool3 m ρ c _ _ (W1_v4 m ρ c) (W18_h3 m ρ c)

theorem res_p4 (c : Dev nD) :
    W36 m ρ c (Proc.devRef .tc main_v272)
      = Cert.Spec.pool128
          (shapeCast Cert.ReferenceIdeal.S50000x1 (m ((c : Thread nD τ).loc main_arg2)) Cert.KernelIdeal.Facts₀.shapeCasts_S50000_S50000x1)
          (Cert.Spec.h4K (argsOf m c)) :=
  KPools.pool4 m ρ c _ _ (W1_v4 m ρ c) (W24_h4 m ρ c)

theorem res_p5 (c : Dev nD) :
    W36 m ρ c (Proc.devRef .tc main_v273)
      = Cert.Spec.pool128
          (shapeCast Cert.ReferenceIdeal.S50000x1 (m ((c : Thread nD τ).loc main_arg2)) Cert.KernelIdeal.Facts₀.shapeCasts_S50000_S50000x1)
          (Cert.Spec.h5K (argsOf m c)) :=
  KPools.pool5 m ρ c _ _ (W1_v4 m ρ c) (W30_h5 m ρ c)

end Cert.KernelIdeal.KRead

end
-- ==== Proof.RefOps.lean ====
import proofs.«410724_j86964497809599_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in

abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v3 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v3 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x200_S800000x1_S800000x200_1_0_n_n_0_1_1200 x i) : (⟨S50000x200, .f32⟩ : BufTy).Contents (Elt F) → (⟨S800000x1, .i32⟩ : BufTy).Contents (Elt F) → (⟨S800000x200, .f32⟩ : BufTy).Contents (Elt F)),
    StableHlo.nullary main_cst (constant S_ .f32 0x00000000#32),
    StableHlo.unary main_cst main_v11 (broadcastInDim S50000x200 ![] bcast_S_S50000x200 : (⟨S_, .f32⟩ : BufTy).Contents (Elt F) → (⟨S50000x200, .f32⟩ : BufTy).Contents (Elt F)),
    StableHlo.unary main_v1 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x200_S800000x1_S800000x200_1_0_0_1 x i u) : (⟨S50000x200, .f32⟩ : BufTy).Contents (Elt F) → (⟨S800000x1, .i32⟩ : BufTy).Contents (Elt F) → (⟨S800000x200, .f32⟩ : BufTy).Contents (Elt F) → (⟨S50000x200, .f32⟩ : BufTy).Contents (Elt F)),
    StableHlo.unary main_arg3 main_v14 ((extractStridedSlice S1 ![0] · slices_S5_S1_0) : (⟨S5, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S50000x200 ![] bcast_S_S50000x200 : (⟨S_, .f32⟩ : BufTy).Contents (Elt F) → (⟨S50000x200, .f32⟩ : BufTy).Contents (Elt F)),
    StableHlo.binary main_v17 main_arg0 main_v18 (mulf : (⟨S50000x200, .f32⟩ : BufTy).Contents (Elt F) → (⟨S50000x200, .f32⟩ : BufTy).Contents (Elt F) → (⟨S50000x200, .f32⟩ : BufTy).Contents (Elt F)),
    StableHlo.binary main_v13 main_v18 main_v19 (addf : (⟨S50000x200, .f32⟩ : BufTy).Contents (Elt F) → (⟨S50000x200, .f32⟩ : BufTy).Contents (Elt F) → (⟨S50000x200, .f32⟩ : BufTy).Contents (Elt F)),
    StableHlo.binary main_v19 main_arg4 main_v20 ((fun l r => Host.dotGeneral dot_S50000x200_S200x128_S50000x128_1_0_0_1_n_n none l r) : (⟨S50000x200, .f32⟩ : BufTy).Contents (Elt F) → (⟨S200x128, .f32⟩ : BufTy).Contents (Elt F) → (⟨S50000x128, .f32⟩ : BufTy).Contents (Elt F)),
    StableHlo.unary main_arg6 main_v21 ((extractStridedSlice S1x128 ![0, 0] · slices_S5x128_S1x128_0_0) : (⟨S5x128, .f32⟩ : BufTy).Contents (Elt F) → (⟨S1x128, .f32⟩ : BufTy).Contents (Elt F)),
    StableHlo.reshape main_v21 main_v22 rfl shapeCasts_S1x128_S128,
    StableHlo.unary main_v22 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S50000x128 ![0, 1] bcast_S1x128_S50000x128_0_1 : (⟨S1x128, .f32⟩ : BufTy).Contents (Elt F) → (⟨S50000x128, .f32⟩ : BufTy).Contents (Elt F)),
    StableHlo.binary main_v20 main_v24 main_v25 (addf : (⟨S50000x128, .f32⟩ : BufTy).Contents (Elt F) → (⟨S50000x128, .f32⟩ : BufTy).Contents (Elt F) → (⟨S50000x128, .f32⟩ : BufTy).Contents (Elt F)),
    StableHlo.unary main_arg9 main_v26 ((extractStridedSlice S1x128 ![0, 0] · slices_S5x128_S1x128_0_0) : (⟨S5x128, .f32⟩ : BufTy).Contents (Elt F) → (⟨S1x128, .f32⟩ : BufTy).Contents (Elt F)),
    StableHlo.reshape main_v26 main_v27 rfl shapeCasts_S1x128_S128,
    StableHlo.unary main_arg10 main_v28 ((extractStridedSlice S1x128 ![0, 0] · slices_S5x128_S1x128_0_0) : (⟨S5x128, .f32⟩ : BufTy).Contents (Elt F) → (⟨S1x128, .f32⟩ : BufTy).Contents (Elt F)),
    StableHlo.reshape main_v28 main_v29 rfl shapeCasts_S1x128_S128,
    StableHlo.nullary main_cst_2 (constant S_ .f32 0x00000000#32),
    StableHlo.binary main_v25 main_cst_2 main_v30 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_3 (constant S_ .f32 0x47435000#32),
    StableHlo.unary main_cst_3 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v25 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v25 : StableHlo.TRef sig ⟨S50000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v32 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v25 main_v35 main_v36 (subf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3727C5AC#32),
    StableHlo.unary main_cst_5 main_v37 (broadcastInDim S128 ![] bcast_S_S128 : (⟨S_, .f32⟩ : BufTy).Contents (Elt F) → (⟨S128, .f32⟩ : BufTy).Contents (Elt F)),
    StableHlo.binary main_v33 main_v37 main_v38 (addf : (⟨S128, .f32⟩ : BufTy).Contents (Elt F) → (⟨S128, .f32⟩ : BufTy).Contents (Elt F) → (⟨S128, .f32⟩ : BufTy).Contents (Elt F)),
    StableHlo.unary main_v38 main_v39 (Host.rsqrt : (⟨S128, .f32⟩ : BufTy).Contents (Elt F) → (⟨S128, .f32⟩ : BufTy).Contents (Elt F)),
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v41 main_v42 (mulf : (⟨S50000x128, .f32⟩ : BufTy).Contents (Elt F) → (⟨S50000x128, .f32⟩ : BufTy).Contents (Elt F) → (⟨S50000x128, .f32⟩ : BufTy).Contents (Elt F)),
    StableHlo.unary main_v27 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v44 main_v45 (mulf : (⟨S50000x128, .f32⟩ : BufTy).Contents (Elt F) → (⟨S50000x128, .f32⟩ : BufTy).Contents (Elt F) → (⟨S50000x128, .f32⟩ : BufTy).Contents (Elt F)),
    StableHlo.unary main_v29 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v48 : StableHlo.TRef sig ⟨S50000x128, .f32⟩) main_call1.v0 main_call1.v1 maximumf,
    StableHlo.unary main_arg7 main_v50 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v50 main_v51 rfl shapeCasts_S1x128x128_S128x128 ]

set_option maxRecDepth 8192 in
set_option maxHeartbeats 40000000 in

abbrev ops1 : List (HloOp τ sig (Elt F)) :=
  [ StableHlo.binary main_v49 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v53 ((extractStridedSlice S1x128 ![0, 0] · slices_S5x128_S1x128_0_0) : (⟨S5x128, .f32⟩ : BufTy).Contents (Elt F) → (⟨S1x128, .f32⟩ : BufTy).Contents (Elt F)),
    StableHlo.reshape main_v53 main_v54 rfl shapeCasts_S1x128_S128,
    StableHlo.unary main_v54 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v56 main_v57 (addf : (⟨S50000x128, .f32⟩ : BufTy).Contents (Elt F) → (⟨S50000x128, .f32⟩ : BufTy).Contents (Elt F) → (⟨S50000x128, .f32⟩ : BufTy).Contents (Elt F)),
    StableHlo.unary main_arg11 main_v58 ((extractStridedSlice S1x128 ![0, 0] · slices_S5x128_S1x128_0_0) : (⟨S5x128, .f32⟩ : BufTy).Contents (Elt F) → (⟨S1x128, .f32⟩ : BufTy).Contents (Elt F)),
    StableHlo.reshape main_v58 main_v59 rfl shapeCasts_S1x128_S128,
    StableHlo.unary main_arg12 main_v60 ((extractStridedSlice S1x128 ![0, 0] · slices_S5x128_S1x128_0_0) : (⟨S5x128, .f32⟩ : BufTy).Contents (Elt F) → (⟨S1x128, .f32⟩ : BufTy).Contents (Elt F)),
    StableHlo.reshape main_v60 main_v61 rfl shapeCasts_S1x128_S128,
    StableHlo.nullary main_cst_6 (constant S_ .f32 0x00000000#32),
    StableHlo.binary main_v57 main_cst_6 main_v62 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v63 (broadcastInDim S128 ![] bcast_S_S128 : (⟨S_, .f32⟩ : BufTy).Contents (Elt F) → (⟨S128, .f32⟩ : BufTy).Contents (Elt F)),
    StableHlo.binary main_v62 main_v63 main_v64 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary (.of main_v57 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v57 : StableHlo.TRef sig ⟨S50000x128, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v64 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v67 main_v68 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v69 (broadcastInDim S128 ![] bcast_S_S128 : (⟨S_, .f32⟩ : BufTy).Contents (Elt F) → (⟨S128, .f32⟩ : BufTy).Contents (Elt F)),
    StableHlo.binary main_v65 main_v69 main_v70 (addf : (⟨S128, .f32⟩ : BufTy).Contents (Elt F) → (⟨S128, .f32⟩ : BufTy).Contents (Elt F) → (⟨S128, .f32⟩ : BufTy).Contents (Elt F)),
    StableHlo.unary main_v70 main_v71 (Host.rsqrt : (⟨S128, .f32⟩ : BufTy).Contents (Elt F) → (⟨S128, .f32⟩ : BufTy).Contents (Elt F)),
    StableHlo.unary main_v71 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v73 main_v74 (mulf : (⟨S50000x128, .f32⟩ : BufTy).Contents (Elt F) → (⟨S50000x128, .f32⟩ : BufTy).Contents (Elt F) → (⟨S50000x128, .f32⟩ : BufTy).Contents (Elt F)),
    StableHlo.unary main_v59 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (mulf : (⟨S50000x128, .f32⟩ : BufTy).Contents (Elt F) → (⟨S50000x128, .f32⟩ : BufTy).Contents (Elt F) → (⟨S50000x128, .f32⟩ : BufTy).Contents (Elt F)),
    StableHlo.unary main_v61 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v80 : StableHlo.TRef sig ⟨S50000x128, .f32⟩) main_call3.v0 main_call3.v1 maximumf,
    StableHlo.nullary main_c_10 (constantI S_ 32 0#32),
    StableHlo.unary main_c_10 main_v82 (broadcastInDim S800000 ![] bcast_S_S800000 : (⟨S_, .i32⟩ : BufTy).Contents (Elt F) → (⟨S800000, .i32⟩ : BufTy).Contents (Elt F)),
    StableHlo.binary main_v3 main_v82 main_v83 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v84 (broadcastInDim S800000 ![] bcast_S_S800000 : (⟨S_, .i32⟩ : BufTy).Contents (Elt F) → (⟨S800000, .i32⟩ : BufTy).Contents (Elt F)),
    StableHlo.binary main_v3 main_v84 main_v85 (addi : (⟨S800000, .i32⟩ : BufTy).Contents (Elt F) → (⟨S800000, .i32⟩ : BufTy).Contents (Elt F) → (⟨S800000, .i32⟩ : BufTy).Contents (Elt F)),
    StableHlo.ternary main_v83 main_v85 main_v3 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v86 main_v87 (broadcastInDim S800000x1 ![0] bcast_S800000_S800000x1_0 : (⟨S800000, .i32⟩ : BufTy).Contents (Elt F) → (⟨S800000x1, .i32⟩ : BufTy).Contents (Elt F)),
    StableHlo.binary main_v81 main_v87 main_v88 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v89 (broadcastInDim S50000x128 ![] bcast_S_S50000x128 : (⟨S_, .f32⟩ : BufTy).Contents (Elt F) → (⟨S50000x128, .f32⟩ : BufTy).Contents (Elt F)),
    StableHlo.unary main_v1 main_v90 (broadcastInDim S800000x1 ![0] bcast_S800000_S800000x1_0 : (⟨S800000, .i32⟩ : BufTy).Contents (Elt F) → (⟨S800000x1, .i32⟩ : BufTy).Contents (Elt F)),
    StableHlo.ternary main_v89 main_v90 main_v88 main_v91 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v92 ((extractStridedSlice S1 ![1] · slices_S5_S1_1) : (⟨S5, .f32⟩ : BufTy).Contents (Elt F) → (⟨S1, .f32⟩ : BufTy).Contents (Elt F)),
    StableHlo.reshape main_v92 main_v93 rfl shapeCasts_S1_S_,
    StableHlo.nullary main_cst_13 (constant S_ .f32 0x3F800000#32),
    StableHlo.binary main_cst_13 main_v93 main_v94 (addf : (⟨S_, .f32⟩ : BufTy).Contents (Elt F) → (⟨S_, .f32⟩ : BufTy).Contents (Elt F) → (⟨S_, .f32⟩ : BufTy).Contents (Elt F)),
    StableHlo.unary main_v94 main_v95 (broadcastInDim S50000x128 ![] bcast_S_S50000x128 : (⟨S_, .f32⟩ : BufTy).Contents (Elt F) → (⟨S50000x128, .f32⟩ : BufTy).Contents (Elt F)),
    StableHlo.binary main_v95 main_v81 main_v96 (mulf : (⟨S50000x128, .f32⟩ : BufTy).Contents (Elt F) → (⟨S50000x128, .f32⟩ : BufTy).Contents (Elt F) → (⟨S50000x128, .f32⟩ : BufTy).Contents (Elt F)),
    StableHlo.binary main_v91 main_v96 main_v97 (addf : (⟨S50000x128, .f32⟩ : BufTy).Contents (Elt F) → (⟨S50000x128, .f32⟩ : BufTy).Contents (Elt F) → (⟨S50000x128, .f32⟩ : BufTy).Contents (Elt F)),
    StableHlo.unary main_arg5 main_v98 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v98 main_v99 rfl shapeCasts_S1x128x128_S128x128,
    StableHlo.binary main_v97 main_v99 main_v100 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v101 ((extractStridedSlice S1x128 ![1, 0] · slices_S5x128_S1x128_1_0) : (⟨S5x128, .f32⟩ : BufTy).Contents (Elt F) → (⟨S1x128, .f32⟩ : BufTy).Contents (Elt F)),
    StableHlo.reshape main_v101 main_v102 rfl shapeCasts_S1x128_S128,
    StableHlo.unary main_v102 main_v103 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 40000000 in

abbrev ops2 : List (HloOp τ sig (Elt F)) :=
  [ StableHlo.unary main_v103 main_v104 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v104 main_v105 (addf : (⟨S50000x128, .f32⟩ : BufTy).Contents (Elt F) → (⟨S50000x128, .f32⟩ : BufTy).Contents (Elt F) → (⟨S50000x128, .f32⟩ : BufTy).Contents (Elt F)),
    StableHlo.unary main_arg9 main_v106 ((extractStridedSlice S1x128 ![1, 0] · slices_S5x128_S1x128_1_0) : (⟨S5x128, .f32⟩ : BufTy).Contents (Elt F) → (⟨S1x128, .f32⟩ : BufTy).Contents (Elt F)),
    StableHlo.reshape main_v106 main_v107 rfl shapeCasts_S1x128_S128,
    StableHlo.unary main_arg10 main_v108 ((extractStridedSlice S1x128 ![1, 0] · slices_S5x128_S1x128_1_0) : (⟨S5x128, .f32⟩ : BufTy).Contents (Elt F) → (⟨S1x128, .f32⟩ : BufTy).Contents (Elt F)),
    StableHlo.reshape main_v108 main_v109 rfl shapeCasts_S1x128_S128,
    StableHlo.nullary main_cst_14 (constant S_ .f32 0x00000000#32),
    StableHlo.binary main_v105 main_cst_14 main_v110 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v111 (broadcastInDim S128 ![] bcast_S_S128 : (⟨S_, .f32⟩ : BufTy).Contents (Elt F) → (⟨S128, .f32⟩ : BufTy).Contents (Elt F)),
    StableHlo.binary main_v110 main_v111 main_v112 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call4.cst (constant S_ .f32 0x00000000#32),
    StableHlo.TRef.binary (.of main_v105 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v105 : StableHlo.TRef sig ⟨S50000x128, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v112 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v115 main_v116 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v117 (broadcastInDim S128 ![] bcast_S_S128 : (⟨S_, .f32⟩ : BufTy).Contents (Elt F) → (⟨S128, .f32⟩ : BufTy).Contents (Elt F)),
    StableHlo.binary main_v113 main_v117 main_v118 (addf : (⟨S128, .f32⟩ : BufTy).Contents (Elt F) → (⟨S128, .f32⟩ : BufTy).Contents (Elt F) → (⟨S128, .f32⟩ : BufTy).Contents (Elt F)),
    StableHlo.unary main_v118 main_v119 (Host.rsqrt : (⟨S128, .f32⟩ : BufTy).Contents (Elt F) → (⟨S128, .f32⟩ : BufTy).Contents (Elt F)),
    StableHlo.unary main_v119 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v121 main_v122 (mulf : (⟨S50000x128, .f32⟩ : BufTy).Contents (Elt F) → (⟨S50000x128, .f32⟩ : BufTy).Contents (Elt F) → (⟨S50000x128, .f32⟩ : BufTy).Contents (Elt F)),
    StableHlo.unary main_v107 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S50000x128 ![0, 1] bcast_S1x128_S50000x128_0_1 : (⟨S1x128, .f32⟩ : BufTy).Contents (Elt F) → (⟨S50000x128, .f32⟩ : BufTy).Contents (Elt F)),
    StableHlo.binary main_v122 main_v124 main_v125 (mulf : (⟨S50000x128, .f32⟩ : BufTy).Contents (Elt F) → (⟨S50000x128, .f32⟩ : BufTy).Contents (Elt F) → (⟨S50000x128, .f32⟩ : BufTy).Contents (Elt F)),
    StableHlo.unary main_v109 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v125 main_v127 main_v128 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v128 : StableHlo.TRef sig ⟨S50000x128, .f32⟩) main_call5.v0 main_call5.v1 maximumf,
    StableHlo.unary main_arg7 main_v130 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v130 main_v131 rfl shapeCasts_S1x128x128_S128x128,
    StableHlo.binary main_v129 main_v131 main_v132 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v133 ((extractStridedSlice S1x128 ![1, 0] · slices_S5x128_S1x128_1_0) : (⟨S5x128, .f32⟩ : BufTy).Contents (Elt F) → (⟨S1x128, .f32⟩ : BufTy).Contents (Elt F)),
    StableHlo.reshape main_v133 main_v134 rfl shapeCasts_S1x128_S128,
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v136 main_v137 (addf : (⟨S50000x128, .f32⟩ : BufTy).Contents (Elt F) → (⟨S50000x128, .f32⟩ : BufTy).Contents (Elt F) → (⟨S50000x128, .f32⟩ : BufTy).Contents (Elt F)),
    StableHlo.unary main_arg11 main_v138 ((extractStridedSlice S1x128 ![1, 0] · slices_S5x128_S1x128_1_0) : (⟨S5x128, .f32⟩ : BufTy).Contents (Elt F) → (⟨S1x128, .f32⟩ : BufTy).Contents (Elt F)),
    StableHlo.reshape main_v138 main_v139 rfl shapeCasts_S1x128_S128,
    StableHlo.unary main_arg12 main_v140 ((extractStridedSlice S1x128 ![1, 0] · slices_S5x128_S1x128_1_0) : (⟨S5x128, .f32⟩ : BufTy).Contents (Elt F) → (⟨S1x128, .f32⟩ : BufTy).Contents (Elt F)),
    StableHlo.reshape main_v140 main_v141 rfl shapeCasts_S1x128_S128,
    StableHlo.nullary main_cst_18 (constant S_ .f32 0x00000000#32),
    StableHlo.binary main_v137 main_cst_18 main_v142 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_19 (constant S_ .f32 0x47435000#32),
    StableHlo.unary main_cst_19 main_v143 (broadcastInDim S128 ![] bcast_S_S128 : (⟨S_, .f32⟩ : BufTy).Contents (Elt F) → (⟨S128, .f32⟩ : BufTy).Contents (Elt F)),
    StableHlo.binary main_v142 main_v143 main_v144 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call6.cst (constant S_ .f32 0x00000000#32),
    StableHlo.TRef.binary (.of main_v137 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v137 : StableHlo.TRef sig ⟨S50000x128, .f32⟩) main_call6.v4 main_call6.v5 subf,
    StableHlo.TRef.binary main_call6.v5 main_call6.v5 main_call6.v6 mulf,
    StableHlo.TRef.unary (.of main_c_20 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v144 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v147 main_v148 (subf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3727C5AC#32),
    StableHlo.unary main_cst_21 main_v149 (broadcastInDim S128 ![] bcast_S_S128 : (⟨S_, .f32⟩ : BufTy).Contents (Elt F) → (⟨S128, .f32⟩ : BufTy).Contents (Elt F)),
    StableHlo.binary main_v145 main_v149 main_v150 (addf : (⟨S128, .f32⟩ : BufTy).Contents (Elt F) → (⟨S128, .f32⟩ : BufTy).Contents (Elt F) → (⟨S128, .f32⟩ : BufTy).Contents (Elt F)),
    StableHlo.unary main_v150 main_v151 (Host.rsqrt : (⟨S128, .f32⟩ : BufTy).Contents (Elt F) → (⟨S128, .f32⟩ : BufTy).Contents (Elt F)),
    StableHlo.unary main_v151 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v153 main_v154 (mulf : (⟨S50000x128, .f32⟩ : BufTy).Contents (Elt F) → (⟨S50000x128, .f32⟩ : BufTy).Contents (Elt F) → (⟨S50000x128, .f32⟩ : BufTy).Contents (Elt F)),
    StableHlo.unary main_v139 main_v155 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 40000000 in

abbrev ops3 : List (HloOp τ sig (Elt F)) :=
  [ StableHlo.unary main_v155 main_v156 (broadcastInDim S50000x128 ![0, 1] bcast_S1x128_S50000x128_0_1 : (⟨S1x128, .f32⟩ : BufTy).Contents (Elt F) → (⟨S50000x128, .f32⟩ : BufTy).Contents (Elt F)),
    StableHlo.binary main_v154 main_v156 main_v157 (mulf : (⟨S50000x128, .f32⟩ : BufTy).Contents (Elt F) → (⟨S50000x128, .f32⟩ : BufTy).Contents (Elt F) → (⟨S50000x128, .f32⟩ : BufTy).Contents (Elt F)),
    StableHlo.unary main_v141 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v159 main_v160 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v160 : StableHlo.TRef sig ⟨S50000x128, .f32⟩) main_call7.v0 main_call7.v1 maximumf,
    StableHlo.nullary main_c_22 (constantI S_ 32 0#32),
    StableHlo.unary main_c_22 main_v162 (broadcastInDim S800000 ![] bcast_S_S800000 : (⟨S_, .i32⟩ : BufTy).Contents (Elt F) → (⟨S800000, .i32⟩ : BufTy).Contents (Elt F)),
    StableHlo.binary main_v3 main_v162 main_v163 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v164 (broadcastInDim S800000 ![] bcast_S_S800000 : (⟨S_, .i32⟩ : BufTy).Contents (Elt F) → (⟨S800000, .i32⟩ : BufTy).Contents (Elt F)),
    StableHlo.binary main_v3 main_v164 main_v165 (addi : (⟨S800000, .i32⟩ : BufTy).Contents (Elt F) → (⟨S800000, .i32⟩ : BufTy).Contents (Elt F) → (⟨S800000, .i32⟩ : BufTy).Contents (Elt F)),
    StableHlo.ternary main_v163 main_v165 main_v3 main_v166 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v166 main_v167 (broadcastInDim S800000x1 ![0] bcast_S800000_S800000x1_0 : (⟨S800000, .i32⟩ : BufTy).Contents (Elt F) → (⟨S800000x1, .i32⟩ : BufTy).Contents (Elt F)),
    StableHlo.binary main_v161 main_v167 main_v168 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_24 (constant S_ .f32 0x00000000#32),
    StableHlo.unary main_cst_24 main_v169 (broadcastInDim S50000x128 ![] bcast_S_S50000x128 : (⟨S_, .f32⟩ : BufTy).Contents (Elt F) → (⟨S50000x128, .f32⟩ : BufTy).Contents (Elt F)),
    StableHlo.unary main_v1 main_v170 (broadcastInDim S800000x1 ![0] bcast_S800000_S800000x1_0 : (⟨S800000, .i32⟩ : BufTy).Contents (Elt F) → (⟨S800000x1, .i32⟩ : BufTy).Contents (Elt F)),
    StableHlo.ternary main_v169 main_v170 main_v168 main_v171 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v172 ((extractStridedSlice S1 ![2] · slices_S5_S1_2) : (⟨S5, .f32⟩ : BufTy).Contents (Elt F) → (⟨S1, .f32⟩ : BufTy).Contents (Elt F)),
    StableHlo.reshape main_v172 main_v173 rfl shapeCasts_S1_S_,
    StableHlo.nullary main_cst_25 (constant S_ .f32 0x3F800000#32),
    StableHlo.binary main_cst_25 main_v173 main_v174 (addf : (⟨S_, .f32⟩ : BufTy).Contents (Elt F) → (⟨S_, .f32⟩ : BufTy).Contents (Elt F) → (⟨S_, .f32⟩ : BufTy).Contents (Elt F)),
    StableHlo.unary main_v174 main_v175 (broadcastInDim S50000x128 ![] bcast_S_S50000x128 : (⟨S_, .f32⟩ : BufTy).Contents (Elt F) → (⟨S50000x128, .f32⟩ : BufTy).Contents (Elt F)),
    StableHlo.binary main_v175 main_v161 main_v176 (mulf : (⟨S50000x128, .f32⟩ : BufTy).Contents (Elt F) → (⟨S50000x128, .f32⟩ : BufTy).Contents (Elt F) → (⟨S50000x128, .f32⟩ : BufTy).Contents (Elt F)),
    StableHlo.binary main_v171 main_v176 main_v177 (addf : (⟨S50000x128, .f32⟩ : BufTy).Contents (Elt F) → (⟨S50000x128, .f32⟩ : BufTy).Contents (Elt F) → (⟨S50000x128, .f32⟩ : BufTy).Contents (Elt F)),
    StableHlo.unary main_arg5 main_v178 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v178 main_v179 rfl shapeCasts_S1x128x128_S128x128,
    StableHlo.binary main_v177 main_v179 main_v180 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v181 ((extractStridedSlice S1x128 ![2, 0] · slices_S5x128_S1x128_2_0) : (⟨S5x128, .f32⟩ : BufTy).Contents (Elt F) → (⟨S1x128, .f32⟩ : BufTy).Contents (Elt F)),
    StableHlo.reshape main_v181 main_v182 rfl shapeCasts_S1x128_S128,
    StableHlo.unary main_v182 main_v183 (broadcastInDim S1x128 ![1] bcast_S128_S1x128_1 : (⟨S128, .f32⟩ : BufTy).Contents (Elt F) → (⟨S1x128, .f32⟩ : BufTy).Contents (Elt F)),
    StableHlo.unary main_v183 main_v184 (broadcastInDim S50000x128 ![0, 1] bcast_S1x128_S50000x128_0_1 : (⟨S1x128, .f32⟩ : BufTy).Contents (Elt F) → (⟨S50000x128, .f32⟩ : BufTy).Contents (Elt F)),
    StableHlo.binary main_v180 main_v184 main_v185 (addf : (⟨S50000x128, .f32⟩ : BufTy).Contents (Elt F) → (⟨S50000x128, .f32⟩ : BufTy).Contents (Elt F) → (⟨S50000x128, .f32⟩ : BufTy).Contents (Elt F)),
    StableHlo.unary main_arg9 main_v186 ((extractStridedSlice S1x128 ![2, 0] · slices_S5x128_S1x128_2_0) : (⟨S5x128, .f32⟩ : BufTy).Contents (Elt F) → (⟨S1x128, .f32⟩ : BufTy).Contents (Elt F)),
    StableHlo.reshape main_v186 main_v187 rfl shapeCasts_S1x128_S128,
    StableHlo.unary main_arg10 main_v188 ((extractStridedSlice S1x128 ![2, 0] · slices_S5x128_S1x128_2_0) : (⟨S5x128, .f32⟩ : BufTy).Contents (Elt F) → (⟨S1x128, .f32⟩ : BufTy).Contents (Elt F)),
    StableHlo.reshape main_v188 main_v189 rfl shapeCasts_S1x128_S128,
    StableHlo.nullary main_cst_26 (constant S_ .f32 0x00000000#32),
    StableHlo.binary main_v185 main_cst_26 main_v190 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_27 (constant S_ .f32 0x47435000#32),
    StableHlo.unary main_cst_27 main_v191 (broadcastInDim S128 ![] bcast_S_S128 : (⟨S_, .f32⟩ : BufTy).Contents (Elt F) → (⟨S128, .f32⟩ : BufTy).Contents (Elt F)),
    StableHlo.binary main_v190 main_v191 main_v192 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call8.cst (constant S_ .f32 0x00000000#32),
    StableHlo.TRef.binary (.of main_v185 : StableHlo.TRef sig ⟨S50000x128, .f32⟩) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v185 : StableHlo.TRef sig ⟨S50000x128, .f32⟩) main_call8.v4 main_call8.v5 subf,
    StableHlo.TRef.binary main_call8.v5 main_call8.v5 main_call8.v6 mulf,
    StableHlo.TRef.unary (.of main_c_28 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v192 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S50000x128 ![0, 1] bcast_S1x128_S50000x128_0_1 : (⟨S1x128, .f32⟩ : BufTy).Contents (Elt F) → (⟨S50000x128, .f32⟩ : BufTy).Contents (Elt F)),
    StableHlo.binary main_v185 main_v195 main_v196 (subf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3727C5AC#32),
    StableHlo.unary main_cst_29 main_v197 (broadcastInDim S128 ![] bcast_S_S128 : (⟨S_, .f32⟩ : BufTy).Contents (Elt F) → (⟨S128, .f32⟩ : BufTy).Contents (Elt F)),
    StableHlo.binary main_v193 main_v197 main_v198 (addf : (⟨S128, .f32⟩ : BufTy).Contents (Elt F) → (⟨S128, .f32⟩ : BufTy).Contents (Elt F) → (⟨S128, .f32⟩ : BufTy).Contents (Elt F)),
    StableHlo.unary main_v198 main_v199 (Host.rsqrt : (⟨S128, .f32⟩ : BufTy).Contents (Elt F) → (⟨S128, .f32⟩ : BufTy).Contents (Elt F)),
    StableHlo.unary main_v199 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S50000x128 ![0, 1] bcast_S1x128_S50000x128_0_1 : (⟨S1x128, .f32⟩ : BufTy).Contents (Elt F) → (⟨S50000x128, .f32⟩ : BufTy).Contents (Elt F)),
    StableHlo.binary main_v196 main_v201 main_v202 (mulf : (⟨S50000x128, .f32⟩ : BufTy).Contents (Elt F) → (⟨S50000x128, .f32⟩ : BufTy).Contents (Elt F) → (⟨S50000x128, .f32⟩ : BufTy).Contents (Elt F)),
    StableHlo.unary main_v187 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)),
    StableHlo.binary main_v202 main_v204 main_v205 (mulf : (⟨S50000x128, .f32⟩ : BufTy).Contents (Elt F) → (⟨S50000x128, .f32⟩ : BufTy).Contents (Elt F) → (⟨S50000x128, .f32⟩ : BufTy).Contents (Elt F)),
    StableHlo.unary main_v189 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S50000x128 ![0, 1] bcast_S1x128_S50000x128_0_1 : (⟨S1x128, .f32⟩ : BufTy).Contents (Elt F) → (⟨S50000x128, .f32⟩ : BufTy).Contents (Elt F)) ]

set_option maxRecDepth 8192 in
set_option maxHeartbeats 40000000 in

abbrev ops4 : List (HloOp τ sig (Elt F)) :=
  [ StableHlo.binary main_v205 main_v207 main_v208 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v208 : StableHlo.TRef sig ⟨S50000x128, .f32⟩) main_call9.v0 main_call9.v1 maximumf,
    StableHlo.unary main_arg7 main_v210 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v210 main_v211 rfl shapeCasts_S1x128x128_S128x128,
    StableHlo.binary main_v209 main_v211 main_v212 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v213 ((extractStridedSlice S1x128 ![2, 0] · slices_S5x128_S1x128_2_0) : (⟨S5x128, .f32⟩ : BufTy).Contents (Elt F) → (⟨S1x128, .f32⟩ : BufTy).Contents (Elt F)),
    StableHlo.reshape main_v213 main_v214 rfl shapeCasts_S1x128_S128,
    StableHlo.unary main_v214 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S50000x128 ![0, 1] bcast_S1x128_S50000x128_0_1 : (⟨S1x128, .f32⟩ : BufTy).Contents (Elt F) → (⟨S50000x128, .f32⟩ : BufTy).Contents (Elt F)),
    StableHlo.binary main_v212 main_v216 main_v217 (addf : (⟨S50000x128, .f32⟩ : BufTy).Contents (Elt F) → (⟨S50000x128, .f32⟩ : BufTy).Contents (Elt F) → (⟨S50000x128, .f32⟩ : BufTy).Contents (Elt F)),
    StableHlo.unary main_arg11 main_v218 ((extractStridedSlice S1x128 ![2, 0] · slices_S5x128_S1x128_2_0) : (⟨S5x128, .f32⟩ : BufTy).Contents (Elt F) → (⟨S1x128, .f32⟩ : BufTy).Contents (Elt F)),
    StableHlo.reshape main_v218 main_v219 rfl shapeCasts_S1x128_S128,
    StableHlo.unary main_arg12 main_v220 ((extractStridedSlice S1x128 ![2, 0] · slices_S5x128_S1x128_2_0) : (⟨S5x128, .f32⟩ : BufTy).Contents (Elt F) → (⟨S1x128, .f32⟩ : BufTy).Contents (Elt F)),
    StableHlo.reshape main_v220 main_v221 rfl shapeCasts_S1x128_S128,
    StableHlo.nullary main_cst_30 (constant S_ .f32 0x00000000#32),
    StableHlo.binary main_v217 main_cst_30 main_v222 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v223 (broadcastInDim S128 ![] bcast_S_S128 : (⟨S_, .f32⟩ : BufTy).Contents (Elt F) → (⟨S128, .f32⟩ : BufTy).Contents (Elt F)),
    StableHlo.binary main_v222 main_v223 main_v224 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call10.cst (constant S_ .f32 0x00000000#32),
    StableHlo.TRef.binary (.of main_v217 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v217 : StableHlo.TRef sig ⟨S50000x128, .f32⟩) main_call10.v4 main_call10.v5 subf,
    StableHlo.TRef.binary main_call10.v5 main_call10.v5 main_call10.v6 mulf,
    StableHlo.TRef.unary (.of main_c_32 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v224 main_v226 (broadcastInDim S1x128 ![1] bcast_S128_S1x128_1 : (⟨S128, .f32⟩ : BufTy).Contents (Elt F) → (⟨S1x128, .f32⟩ : BufTy).Contents (Elt F)),
    StableHlo.unary main_v226 main_v227 (broadcastInDim S50000x128 ![0, 1] bcast_S1x128_S50000x128_0_1 : (⟨S1x128, .f32⟩ : BufTy).Contents (Elt F) → (⟨S50000x128, .f32⟩ : BufTy).Contents (Elt F)),
    StableHlo.binary main_v217 main_v227 main_v228 (subf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v229 (broadcastInDim S128 ![] bcast_S_S128 : (⟨S_, .f32⟩ : BufTy).Contents (Elt F) → (⟨S128, .f32⟩ : BufTy).Contents (Elt F)),
    StableHlo.binary main_v225 main_v229 main_v230 (addf : (⟨S128, .f32⟩ : BufTy).Contents (Elt F) → (⟨S128, .f32⟩ : BufTy).Contents (Elt F) → (⟨S128, .f32⟩ : BufTy).Contents (Elt F)),
    StableHlo.unary main_v230 main_v231 (Host.rsqrt : (⟨S128, .f32⟩ : BufTy).Contents (Elt F) → (⟨S128, .f32⟩ : BufTy).Contents (Elt F)),
    StableHlo.unary main_v231 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S50000x128 ![0, 1] bcast_S1x128_S50000x128_0_1 : (⟨S1x128, .f32⟩ : BufTy).Contents (Elt F) → (⟨S50000x128, .f32⟩ : BufTy).Contents (Elt F)),
    StableHlo.binary main_v228 main_v233 main_v234 (mulf : (⟨S50000x128, .f32⟩ : BufTy).Contents (Elt F) → (⟨S50000x128, .f32⟩ : BufTy).Contents (Elt F) → (⟨S50000x128, .f32⟩ : BufTy).Contents (Elt F)),
    StableHlo.unary main_v219 main_v235 (broadcastInDim S1x128 ![1] bcast_S128_S1x128_1 : (⟨S128, .f32⟩ : BufTy).Contents (Elt F) → (⟨S1x128, .f32⟩ : BufTy).Contents (Elt F)),
    StableHlo.unary main_v235 main_v236 (broadcastInDim S50000x128 ![0, 1] bcast_S1x128_S50000x128_0_1 : (⟨S1x128, .f32⟩ : BufTy).Contents (Elt F) → (⟨S50000x128, .f32⟩ : BufTy).Contents (Elt F)),
    StableHlo.binary main_v234 main_v236 main_v237 (mulf : (⟨S50000x128, .f32⟩ : BufTy).Contents (Elt F) → (⟨S50000x128, .f32⟩ : BufTy).Contents (Elt F) → (⟨S50000x128, .f32⟩ : BufTy).Contents (Elt F)),
    StableHlo.unary main_v221 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S50000x128 ![0, 1] bcast_S1x128_S50000x128_0_1 : (⟨S1x128, .f32⟩ : BufTy).Contents (Elt F) → (⟨S50000x128, .f32⟩ : BufTy).Contents (Elt F)),
    StableHlo.binary main_v237 main_v239 main_v240 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v240 : StableHlo.TRef sig ⟨S50000x128, .f32⟩) main_call11.v0 main_call11.v1 maximumf,
    StableHlo.nullary main_c_34 (constantI S_ 32 0#32),
    StableHlo.unary main_c_34 main_v242 (broadcastInDim S800000 ![] bcast_S_S800000 : (⟨S_, .i32⟩ : BufTy).Contents (Elt F) → (⟨S800000, .i32⟩ : BufTy).Contents (Elt F)),
    StableHlo.binary main_v3 main_v242 main_v243 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v244 (broadcastInDim S800000 ![] bcast_S_S800000 : (⟨S_, .i32⟩ : BufTy).Contents (Elt F) → (⟨S800000, .i32⟩ : BufTy).Contents (Elt F)),
    StableHlo.binary main_v3 main_v244 main_v245 (addi : (⟨S800000, .i32⟩ : BufTy).Contents (Elt F) → (⟨S800000, .i32⟩ : BufTy).Contents (Elt F) → (⟨S800000, .i32⟩ : BufTy).Contents (Elt F)),
    StableHlo.ternary main_v243 main_v245 main_v3 main_v246 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v246 main_v247 (broadcastInDim S800000x1 ![0] bcast_S800000_S800000x1_0 : (⟨S800000, .i32⟩ : BufTy).Contents (Elt F) → (⟨S800000x1, .i32⟩ : BufTy).Contents (Elt F)),
    StableHlo.binary main_v241 main_v247 main_v248 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v249 (broadcastInDim S50000x128 ![] bcast_S_S50000x128 : (⟨S_, .f32⟩ : BufTy).Contents (Elt F) → (⟨S50000x128, .f32⟩ : BufTy).Contents (Elt F)),
    StableHlo.unary main_v1 main_v250 (broadcastInDim S800000x1 ![0] bcast_S800000_S800000x1_0 : (⟨S800000, .i32⟩ : BufTy).Contents (Elt F) → (⟨S800000x1, .i32⟩ : BufTy).Contents (Elt F)),
    StableHlo.ternary main_v249 main_v250 main_v248 main_v251 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v252 ((extractStridedSlice S1 ![3] · slices_S5_S1_3) : (⟨S5, .f32⟩ : BufTy).Contents (Elt F) → (⟨S1, .f32⟩ : BufTy).Contents (Elt F)),
    StableHlo.reshape main_v252 main_v253 rfl shapeCasts_S1_S_,
    StableHlo.nullary main_cst_37 (constant S_ .f32 0x3F800000#32),
    StableHlo.binary main_cst_37 main_v253 main_v254 (addf : (⟨S_, .f32⟩ : BufTy).Contents (Elt F) → (⟨S_, .f32⟩ : BufTy).Contents (Elt F) → (⟨S_, .f32⟩ : BufTy).Contents (Elt F)),
    StableHlo.unary main_v254 main_v255 (broadcastInDim S50000x128 ![] bcast_S_S50000x128 : (⟨S_, .f32⟩ : BufTy).Contents (Elt F) → (⟨S50000x128, .f32⟩ : BufTy).Contents (Elt F)),
    StableHlo.binary main_v255 main_v241 main_v256 (mulf : (⟨S50000x128, .f32⟩ : BufTy).Contents (Elt F) → (⟨S50000x128, .f32⟩ : BufTy).Contents (Elt F) → (⟨S50000x128, .f32⟩ : BufTy).Contents (Elt F)),
    StableHlo.binary main_v251 main_v256 main_v257 (addf : (⟨S50000x128, .f32⟩ : BufTy).Contents (Elt F) → (⟨S50000x128, .f32⟩ : BufTy).Contents (Elt F) → (⟨S50000x128, .f32⟩ : BufTy).Contents (Elt F)),
    StableHlo.unary main_arg5 main_v258 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v258 main_v259 rfl shapeCasts_S1x128x128_S128x128 ]

set_option maxRecDepth 8192 in
set_option maxHeartbeats 40000000 in

abbrev ops5 : List (HloOp τ sig (Elt F)) :=
  [ StableHlo.binary main_v257 main_v259 main_v260 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v261 ((extractStridedSlice S1x128 ![3, 0] · slices_S5x128_S1x128_3_0) : (⟨S5x128, .f32⟩ : BufTy).Contents (Elt F) → (⟨S1x128, .f32⟩ : BufTy).Contents (Elt F)),
    StableHlo.reshape main_v261 main_v262 rfl shapeCasts_S1x128_S128,
    StableHlo.unary main_v262 main_v263 (broadcastInDim S1x128 ![1] bcast_S128_S1x128_1 : (⟨S128, .f32⟩ : BufTy).Contents (Elt F) → (⟨S1x128, .f32⟩ : BufTy).Contents (Elt F)),
    StableHlo.unary main_v263 main_v264 (broadcastInDim S50000x128 ![0, 1] bcast_S1x128_S50000x128_0_1 : (⟨S1x128, .f32⟩ : BufTy).Contents (Elt F) → (⟨S50000x128, .f32⟩ : BufTy).Contents (Elt F)),
    StableHlo.binary main_v260 main_v264 main_v265 (addf : (⟨S50000x128, .f32⟩ : BufTy).Contents (Elt F) → (⟨S50000x128, .f32⟩ : BufTy).Contents (Elt F) → (⟨S50000x128, .f32⟩ : BufTy).Contents (Elt F)),
    StableHlo.unary main_arg9 main_v266 ((extractStridedSlice S1x128 ![3, 0] · slices_S5x128_S1x128_3_0) : (⟨S5x128, .f32⟩ : BufTy).Contents (Elt F) → (⟨S1x128, .f32⟩ : BufTy).Contents (Elt F)),
    StableHlo.reshape main_v266 main_v267 rfl shapeCasts_S1x128_S128,
    StableHlo.unary main_arg10 main_v268 ((extractStridedSlice S1x128 ![3, 0] · slices_S5x128_S1x128_3_0) : (⟨S5x128, .f32⟩ : BufTy).Contents (Elt F) → (⟨S1x128, .f32⟩ : BufTy).Contents (Elt F)),
    StableHlo.reshape main_v268 main_v269 rfl shapeCasts_S1x128_S128,
    StableHlo.nullary main_cst_38 (constant S_ .f32 0x00000000#32),
    StableHlo.binary main_v265 main_cst_38 main_v270 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_39 (constant S_ .f32 0x47435000#32),
    StableHlo.unary main_cst_39 main_v271 (broadcastInDim S128 ![] bcast_S_S128 : (⟨S_, .f32⟩ : BufTy).Contents (Elt F) → (⟨S128, .f32⟩ : BufTy).Contents (Elt F)),
    StableHlo.binary main_v270 main_v271 main_v272 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary main_call12.cst (constant S_ .f32 0x00000000#32),
    StableHlo.TRef.binary (.of main_v265 : StableHlo.TRef sig ⟨S50000x128, .f32⟩) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (.of main_v265 : StableHlo.TRef sig ⟨S50000x128, .f32⟩) main_call12.v4 main_call12.v5 subf,
    StableHlo.TRef.binary main_call12.v5 main_call12.v5 main_call12.v6 mulf,
    StableHlo.TRef.unary (.of main_c_40 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v272 main_v274 (broadcastInDim S1x128 ![1] bcast_S128_S1x128_1 : (⟨S128, .f32⟩ : BufTy).Contents (Elt F) → (⟨S1x128, .f32⟩ : BufTy).Contents (Elt F)),
    StableHlo.unary main_v274 main_v275 (broadcastInDim S50000x128 ![0, 1] bcast_S1x128_S50000x128_0_1 : (⟨S1x128, .f32⟩ : BufTy).Contents (Elt F) → (⟨S50000x128, .f32⟩ : BufTy).Contents (Elt F)),
    StableHlo.binary main_v265 main_v275 main_v276 (subf : (⟨S50000x128, .f32⟩ : BufTy).Contents (Elt F) → (⟨S50000x128, .f32⟩ : BufTy).Contents (Elt F) → (⟨S50000x128, .f32⟩ : BufTy).Contents (Elt F)),
    StableHlo.nullary main_cst_41 (constant S_ .f32 0x3727C5AC#32),
    StableHlo.unary main_cst_41 main_v277 (broadcastInDim S128 ![] bcast_S_S128 : (⟨S_, .f32⟩ : BufTy).Contents (Elt F) → (⟨S128, .f32⟩ : BufTy).Contents (Elt F)),
    StableHlo.binary main_v273 main_v277 main_v278 (addf : (⟨S128, .f32⟩ : BufTy).Contents (Elt F) → (⟨S128, .f32⟩ : BufTy).Contents (Elt F) → (⟨S128, .f32⟩ : BufTy).Contents (Elt F)),
    StableHlo.unary main_v278 main_v279 (Host.rsqrt : (⟨S128, .f32⟩ : BufTy).Contents (Elt F) → (⟨S128, .f32⟩ : BufTy).Contents (Elt F)),
    StableHlo.unary main_v279 main_v280 (broadcastInDim S1x128 ![1] bcast_S128_S1x128_1 : (⟨S128, .f32⟩ : BufTy).Contents (Elt F) → (⟨S1x128, .f32⟩ : BufTy).Contents (Elt F)),
    StableHlo.unary main_v280 main_v281 (broadcastInDim S50000x128 ![0, 1] bcast_S1x128_S50000x128_0_1 : (⟨S1x128, .f32⟩ : BufTy).Contents (Elt F) → (⟨S50000x128, .f32⟩ : BufTy).Contents (Elt F)),
    StableHlo.binary main_v276 main_v281 main_v282 (mulf : (⟨S50000x128, .f32⟩ : BufTy).Contents (Elt F) → (⟨S50000x128, .f32⟩ : BufTy).Contents (Elt F) → (⟨S50000x128, .f32⟩ : BufTy).Contents (Elt F)),
    StableHlo.unary main_v267 main_v283 (broadcastInDim S1x128 ![1] bcast_S128_S1x128_1 : (⟨S128, .f32⟩ : BufTy).Contents (Elt F) → (⟨S1x128, .f32⟩ : BufTy).Contents (Elt F)),
    StableHlo.unary main_v283 main_v284 (broadcastInDim S50000x128 ![0, 1] bcast_S1x128_S50000x128_0_1 : (⟨S1x128, .f32⟩ : BufTy).Contents (Elt F) → (⟨S50000x128, .f32⟩ : BufTy).Contents (Elt F)),
    StableHlo.binary main_v282 main_v284 main_v285 (mulf : (⟨S50000x128, .f32⟩ : BufTy).Contents (Elt F) → (⟨S50000x128, .f32⟩ : BufTy).Contents (Elt F) → (⟨S50000x128, .f32⟩ : BufTy).Contents (Elt F)),
    StableHlo.unary main_v269 main_v286 (broadcastInDim S1x128 ![1] bcast_S128_S1x128_1 : (⟨S128, .f32⟩ : BufTy).Contents (Elt F) → (⟨S1x128, .f32⟩ : BufTy).Contents (Elt F)),
    StableHlo.unary main_v286 main_v287 (broadcastInDim S50000x128 ![0, 1] bcast_S1x128_S50000x128_0_1 : (⟨S1x128, .f32⟩ : BufTy).Contents (Elt F) → (⟨S50000x128, .f32⟩ : BufTy).Contents (Elt F)),
    StableHlo.binary main_v285 main_v287 main_v288 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v288 : StableHlo.TRef sig ⟨S50000x128, .f32⟩) main_call13.v0 main_call13.v1 maximumf,
    StableHlo.unary main_arg7 main_v290 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v290 main_v291 rfl shapeCasts_S1x128x128_S128x128,
    StableHlo.binary main_v289 main_v291 main_v292 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v293 ((extractStridedSlice S1x128 ![3, 0] · slices_S5x128_S1x128_3_0) : (⟨S5x128, .f32⟩ : BufTy).Contents (Elt F) → (⟨S1x128, .f32⟩ : BufTy).Contents (Elt F)),
    StableHlo.reshape main_v293 main_v294 rfl shapeCasts_S1x128_S128,
    StableHlo.unary main_v294 main_v295 (broadcastInDim S1x128 ![1] bcast_S128_S1x128_1 : (⟨S128, .f32⟩ : BufTy).Contents (Elt F) → (⟨S1x128, .f32⟩ : BufTy).Contents (Elt F)),
    StableHlo.unary main_v295 main_v296 (broadcastInDim S50000x128 ![0, 1] bcast_S1x128_S50000x128_0_1 : (⟨S1x128, .f32⟩ : BufTy).Contents (Elt F) → (⟨S50000x128, .f32⟩ : BufTy).Contents (Elt F)),
    StableHlo.binary main_v292 main_v296 main_v297 (addf : (⟨S50000x128, .f32⟩ : BufTy).Contents (Elt F) → (⟨S50000x128, .f32⟩ : BufTy).Contents (Elt F) → (⟨S50000x128, .f32⟩ : BufTy).Contents (Elt F)),
    StableHlo.unary main_arg11 main_v298 ((extractStridedSlice S1x128 ![3, 0] · slices_S5x128_S1x128_3_0) : (⟨S5x128, .f32⟩ : BufTy).Contents (Elt F) → (⟨S1x128, .f32⟩ : BufTy).Contents (Elt F)),
    StableHlo.reshape main_v298 main_v299 rfl shapeCasts_S1x128_S128,
    StableHlo.unary main_arg12 main_v300 ((extractStridedSlice S1x128 ![3, 0] · slices_S5x128_S1x128_3_0) : (⟨S5x128, .f32⟩ : BufTy).Contents (Elt F) → (⟨S1x128, .f32⟩ : BufTy).Contents (Elt F)),
    StableHlo.reshape main_v300 main_v301 rfl shapeCasts_S1x128_S128,
    StableHlo.nullary main_cst_42 (constant S_ .f32 0x00000000#32),
    StableHlo.binary main_v297 main_cst_42 main_v302 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_43 (constant S_ .f32 0x47435000#32),
    StableHlo.unary main_cst_43 main_v303 (broadcastInDim S128 ![] bcast_S_S128 : (⟨S_, .f32⟩ : BufTy).Contents (Elt F) → (⟨S128, .f32⟩ : BufTy).Contents (Elt F)),
    StableHlo.binary main_v302 main_v303 main_v304 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary main_call14.cst (constant S_ .f32 0x00000000#32),
    StableHlo.TRef.binary (.of main_v297 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v297 : StableHlo.TRef sig ⟨S50000x128, .f32⟩) main_call14.v4 main_call14.v5 subf,
    StableHlo.TRef.binary main_call14.v5 main_call14.v5 main_call14.v6 mulf,
    StableHlo.TRef.unary (.of main_c_44 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v304 main_v306 (broadcastInDim S1x128 ![1] bcast_S128_S1x128_1 : (⟨S128, .f32⟩ : BufTy).Contents (Elt F) → (⟨S1x128, .f32⟩ : BufTy).Contents (Elt F)),
    StableHlo.unary main_v306 main_v307 (broadcastInDim S50000x128 ![0, 1] bcast_S1x128_S50000x128_0_1 : (⟨S1x128, .f32⟩ : BufTy).Contents (Elt F) → (⟨S50000x128, .f32⟩ : BufTy).Contents (Elt F)),
    StableHlo.binary main_v297 main_v307 main_v308 (subf : (⟨S50000x128, .f32⟩ : BufTy).Contents (Elt F) → (⟨S50000x128, .f32⟩ : BufTy).Contents (Elt F) → (⟨S50000x128, .f32⟩ : BufTy).Contents (Elt F)),
    StableHlo.nullary main_cst_45 (constant S_ .f32 0x3727C5AC#32),
    StableHlo.unary main_cst_45 main_v309 (broadcastInDim S128 ![] bcast_S_S128 : (⟨S_, .f32⟩ : BufTy).Contents (Elt F) → (⟨S128, .f32⟩ : BufTy).Contents (Elt F)),
    StableHlo.binary main_v305 main_v309 main_v310 (addf : (⟨S128, .f32⟩ : BufTy).Contents (Elt F) → (⟨S128, .f32⟩ : BufTy).Contents (Elt F) → (⟨S128, .f32⟩ : BufTy).Contents (Elt F)),
    StableHlo.unary main_v310 main_v311 (Host.rsqrt : (⟨S128, .f32⟩ : BufTy).Contents (Elt F) → (⟨S128, .f32⟩ : BufTy).Contents (Elt F)) ]

set_option maxRecDepth 8192 in
set_option maxHeartbeats 40000000 in

abbrev ops6 : List (HloOp τ sig (Elt F)) :=
  [ StableHlo.unary main_v311 main_v312 (broadcastInDim S1x128 ![1] bcast_S128_S1x128_1 : (⟨S128, .f32⟩ : BufTy).Contents (Elt F) → (⟨S1x128, .f32⟩ : BufTy).Contents (Elt F)),
    StableHlo.unary main_v312 main_v313 (broadcastInDim S50000x128 ![0, 1] bcast_S1x128_S50000x128_0_1 : (⟨S1x128, .f32⟩ : BufTy).Contents (Elt F) → (⟨S50000x128, .f32⟩ : BufTy).Contents (Elt F)),
    StableHlo.binary main_v308 main_v313 main_v314 (mulf : (⟨S50000x128, .f32⟩ : BufTy).Contents (Elt F) → (⟨S50000x128, .f32⟩ : BufTy).Contents (Elt F) → (⟨S50000x128, .f32⟩ : BufTy).Contents (Elt F)),
    StableHlo.unary main_v299 main_v315 (broadcastInDim S1x128 ![1] bcast_S128_S1x128_1 : (⟨S128, .f32⟩ : BufTy).Contents (Elt F) → (⟨S1x128, .f32⟩ : BufTy).Contents (Elt F)),
    StableHlo.unary main_v315 main_v316 (broadcastInDim S50000x128 ![0, 1] bcast_S1x128_S50000x128_0_1 : (⟨S1x128, .f32⟩ : BufTy).Contents (Elt F) → (⟨S50000x128, .f32⟩ : BufTy).Contents (Elt F)),
    StableHlo.binary main_v314 main_v316 main_v317 (mulf : (⟨S50000x128, .f32⟩ : BufTy).Contents (Elt F) → (⟨S50000x128, .f32⟩ : BufTy).Contents (Elt F) → (⟨S50000x128, .f32⟩ : BufTy).Contents (Elt F)),
    StableHlo.unary main_v301 main_v318 (broadcastInDim S1x128 ![1] bcast_S128_S1x128_1 : (⟨S128, .f32⟩ : BufTy).Contents (Elt F) → (⟨S1x128, .f32⟩ : BufTy).Contents (Elt F)),
    StableHlo.unary main_v318 main_v319 (broadcastInDim S50000x128 ![0, 1] bcast_S1x128_S50000x128_0_1 : (⟨S1x128, .f32⟩ : BufTy).Contents (Elt F) → (⟨S50000x128, .f32⟩ : BufTy).Contents (Elt F)),
    StableHlo.binary main_v317 main_v319 main_v320 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v320 : StableHlo.TRef sig ⟨S50000x128, .f32⟩) main_call15.v0 main_call15.v1 maximumf,
    StableHlo.nullary main_c_46 (constantI S_ 32 0#32),
    StableHlo.unary main_c_46 main_v322 (broadcastInDim S800000 ![] bcast_S_S800000 : (⟨S_, .i32⟩ : BufTy).Contents (Elt F) → (⟨S800000, .i32⟩ : BufTy).Contents (Elt F)),
    StableHlo.binary main_v3 main_v322 main_v323 (cmpi .slt : (⟨S800000, .i32⟩ : BufTy).Contents (Elt F) → (⟨S800000, .i32⟩ : BufTy).Contents (Elt F) → (⟨S800000, .i1⟩ : BufTy).Contents (Elt F)),
    StableHlo.nullary main_c_47 (constantI S_ 32 50000#32),
    StableHlo.unary main_c_47 main_v324 (broadcastInDim S800000 ![] bcast_S_S800000 : (⟨S_, .i32⟩ : BufTy).Contents (Elt F) → (⟨S800000, .i32⟩ : BufTy).Contents (Elt F)),
    StableHlo.binary main_v3 main_v324 main_v325 (addi : (⟨S800000, .i32⟩ : BufTy).Contents (Elt F) → (⟨S800000, .i32⟩ : BufTy).Contents (Elt F) → (⟨S800000, .i32⟩ : BufTy).Contents (Elt F)),
    StableHlo.ternary main_v323 main_v325 main_v3 main_v326 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v326 main_v327 (broadcastInDim S800000x1 ![0] bcast_S800000_S800000x1_0 : (⟨S800000, .i32⟩ : BufTy).Contents (Elt F) → (⟨S800000x1, .i32⟩ : BufTy).Contents (Elt F)),
    StableHlo.binary main_v321 main_v327 main_v328 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_48 (constant S_ .f32 0x00000000#32),
    StableHlo.unary main_cst_48 main_v329 (broadcastInDim S50000x128 ![] bcast_S_S50000x128 : (⟨S_, .f32⟩ : BufTy).Contents (Elt F) → (⟨S50000x128, .f32⟩ : BufTy).Contents (Elt F)),
    StableHlo.unary main_v1 main_v330 (broadcastInDim S800000x1 ![0] bcast_S800000_S800000x1_0 : (⟨S800000, .i32⟩ : BufTy).Contents (Elt F) → (⟨S800000x1, .i32⟩ : BufTy).Contents (Elt F)),
    StableHlo.ternary main_v329 main_v330 main_v328 main_v331 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v332 ((extractStridedSlice S1 ![4] · slices_S5_S1_4) : (⟨S5, .f32⟩ : BufTy).Contents (Elt F) → (⟨S1, .f32⟩ : BufTy).Contents (Elt F)),
    StableHlo.reshape main_v332 main_v333 rfl shapeCasts_S1_S_,
    StableHlo.nullary main_cst_49 (constant S_ .f32 0x3F800000#32),
    StableHlo.binary main_cst_49 main_v333 main_v334 (addf : (⟨S_, .f32⟩ : BufTy).Contents (Elt F) → (⟨S_, .f32⟩ : BufTy).Contents (Elt F) → (⟨S_, .f32⟩ : BufTy).Contents (Elt F)),
    StableHlo.unary main_v334 main_v335 (broadcastInDim S50000x128 ![] bcast_S_S50000x128 : (⟨S_, .f32⟩ : BufTy).Contents (Elt F) → (⟨S50000x128, .f32⟩ : BufTy).Contents (Elt F)),
    StableHlo.binary main_v335 main_v321 main_v336 (mulf : (⟨S50000x128, .f32⟩ : BufTy).Contents (Elt F) → (⟨S50000x128, .f32⟩ : BufTy).Contents (Elt F) → (⟨S50000x128, .f32⟩ : BufTy).Contents (Elt F)),
    StableHlo.binary main_v331 main_v336 main_v337 (addf : (⟨S50000x128, .f32⟩ : BufTy).Contents (Elt F) → (⟨S50000x128, .f32⟩ : BufTy).Contents (Elt F) → (⟨S50000x128, .f32⟩ : BufTy).Contents (Elt F)),
    StableHlo.unary main_arg5 main_v338 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v338 main_v339 rfl shapeCasts_S1x128x128_S128x128,
    StableHlo.binary main_v337 main_v339 main_v340 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v341 ((extractStridedSlice S1x128 ![4, 0] · slices_S5x128_S1x128_4_0) : (⟨S5x128, .f32⟩ : BufTy).Contents (Elt F) → (⟨S1x128, .f32⟩ : BufTy).Contents (Elt F)),
    StableHlo.reshape main_v341 main_v342 rfl shapeCasts_S1x128_S128,
    StableHlo.unary main_v342 main_v343 (broadcastInDim S1x128 ![1] bcast_S128_S1x128_1 : (⟨S128, .f32⟩ : BufTy).Contents (Elt F) → (⟨S1x128, .f32⟩ : BufTy).Contents (Elt F)),
    StableHlo.unary main_v343 main_v344 (broadcastInDim S50000x128 ![0, 1] bcast_S1x128_S50000x128_0_1 : (⟨S1x128, .f32⟩ : BufTy).Contents (Elt F) → (⟨S50000x128, .f32⟩ : BufTy).Contents (Elt F)),
    StableHlo.binary main_v340 main_v344 main_v345 (addf : (⟨S50000x128, .f32⟩ : BufTy).Contents (Elt F) → (⟨S50000x128, .f32⟩ : BufTy).Contents (Elt F) → (⟨S50000x128, .f32⟩ : BufTy).Contents (Elt F)),
    StableHlo.unary main_arg9 main_v346 ((extractStridedSlice S1x128 ![4, 0] · slices_S5x128_S1x128_4_0) : (⟨S5x128, .f32⟩ : BufTy).Contents (Elt F) → (⟨S1x128, .f32⟩ : BufTy).Contents (Elt F)),
    StableHlo.reshape main_v346 main_v347 rfl shapeCasts_S1x128_S128,
    StableHlo.unary main_arg10 main_v348 ((extractStridedSlice S1x128 ![4, 0] · slices_S5x128_S1x128_4_0) : (⟨S5x128, .f32⟩ : BufTy).Contents (Elt F) → (⟨S1x128, .f32⟩ : BufTy).Contents (Elt F)),
    StableHlo.reshape main_v348 main_v349 rfl shapeCasts_S1x128_S128,
    StableHlo.nullary main_cst_50 (constant S_ .f32 0x00000000#32),
    StableHlo.binary main_v345 main_cst_50 main_v350 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_51 (constant S_ .f32 0x47435000#32),
    StableHlo.unary main_cst_51 main_v351 (broadcastInDim S128 ![] bcast_S_S128 : (⟨S_, .f32⟩ : BufTy).Contents (Elt F) → (⟨S128, .f32⟩ : BufTy).Contents (Elt F)),
    StableHlo.binary main_v350 main_v351 main_v352 (Host.divf : (⟨S128, .f32⟩ : BufTy).Contents (Elt F) → (⟨S128, .f32⟩ : BufTy).Contents (Elt F) → (⟨S128, .f32⟩ : BufTy).Contents (Elt F)),
    StableHlo.nullary main_c_52 (constantI S_ 32 0#32),
    StableHlo.TRef.nullary main_call16.cst (constant S_ .f32 0x00000000#32),
    StableHlo.TRef.binary (.of main_v345 : StableHlo.TRef sig ⟨S50000x128, .f32⟩) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (.of main_v345 : StableHlo.TRef sig ⟨S50000x128, .f32⟩) main_call16.v4 main_call16.v5 subf,
    StableHlo.TRef.binary main_call16.v5 main_call16.v5 main_call16.v6 mulf,
    StableHlo.TRef.unary (.of main_c_52 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v352 main_v354 (broadcastInDim S1x128 ![1] bcast_S128_S1x128_1 : (⟨S128, .f32⟩ : BufTy).Contents (Elt F) → (⟨S1x128, .f32⟩ : BufTy).Contents (Elt F)),
    StableHlo.unary main_v354 main_v355 (broadcastInDim S50000x128 ![0, 1] bcast_S1x128_S50000x128_0_1 : (⟨S1x128, .f32⟩ : BufTy).Contents (Elt F) → (⟨S50000x128, .f32⟩ : BufTy).Contents (Elt F)),
    StableHlo.binary main_v345 main_v355 main_v356 (subf : (⟨S50000x128, .f32⟩ : BufTy).Contents (Elt F) → (⟨S50000x128, .f32⟩ : BufTy).Contents (Elt F) → (⟨S50000x128, .f32⟩ : BufTy).Contents (Elt F)),
    StableHlo.nullary main_cst_53 (constant S_ .f32 0x3727C5AC#32),
    StableHlo.unary main_cst_53 main_v357 (broadcastInDim S128 ![] bcast_S_S128 : (⟨S_, .f32⟩ : BufTy).Contents (Elt F) → (⟨S128, .f32⟩ : BufTy).Contents (Elt F)),
    StableHlo.binary main_v353 main_v357 main_v358 (addf : (⟨S128, .f32⟩ : BufTy).Contents (Elt F) → (⟨S128, .f32⟩ : BufTy).Contents (Elt F) → (⟨S128, .f32⟩ : BufTy).Contents (Elt F)),
    StableHlo.unary main_v358 main_v359 (Host.rsqrt : (⟨S128, .f32⟩ : BufTy).Contents (Elt F) → (⟨S128, .f32⟩ : BufTy).Contents (Elt F)),
    StableHlo.unary main_v359 main_v360 (broadcastInDim S1x128 ![1] bcast_S128_S1x128_1 : (⟨S128, .f32⟩ : BufTy).Contents (Elt F) → (⟨S1x128, .f32⟩ : BufTy).Contents (Elt F)),
    StableHlo.unary main_v360 main_v361 (broadcastInDim S50000x128 ![0, 1] bcast_S1x128_S50000x128_0_1 : (⟨S1x128, .f32⟩ : BufTy).Contents (Elt F) → (⟨S50000x128, .f32⟩ : BufTy).Contents (Elt F)),
    StableHlo.binary main_v356 main_v361 main_v362 (mulf : (⟨S50000x128, .f32⟩ : BufTy).Contents (Elt F) → (⟨S50000x128, .f32⟩ : BufTy).Contents (Elt F) → (⟨S50000x128, .f32⟩ : BufTy).Contents (Elt F)),
    StableHlo.unary main_v347 main_v363 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 40000000 in

abbrev ops7 : List (HloOp τ sig (Elt F)) :=
  [ StableHlo.unary main_v363 main_v364 (broadcastInDim S50000x128 ![0, 1] bcast_S1x128_S50000x128_0_1 : (⟨S1x128, .f32⟩ : BufTy).Contents (Elt F) → (⟨S50000x128, .f32⟩ : BufTy).Contents (Elt F)),
    StableHlo.binary main_v362 main_v364 main_v365 (mulf : (⟨S50000x128, .f32⟩ : BufTy).Contents (Elt F) → (⟨S50000x128, .f32⟩ : BufTy).Contents (Elt F) → (⟨S50000x128, .f32⟩ : BufTy).Contents (Elt F)),
    StableHlo.unary main_v349 main_v366 (broadcastInDim S1x128 ![1] bcast_S128_S1x128_1 : (⟨S128, .f32⟩ : BufTy).Contents (Elt F) → (⟨S1x128, .f32⟩ : BufTy).Contents (Elt F)),
    StableHlo.unary main_v366 main_v367 (broadcastInDim S50000x128 ![0, 1] bcast_S1x128_S50000x128_0_1 : (⟨S1x128, .f32⟩ : BufTy).Contents (Elt F) → (⟨S50000x128, .f32⟩ : BufTy).Contents (Elt F)),
    StableHlo.binary main_v365 main_v367 main_v368 (addf : (⟨S50000x128, .f32⟩ : BufTy).Contents (Elt F) → (⟨S50000x128, .f32⟩ : BufTy).Contents (Elt F) → (⟨S50000x128, .f32⟩ : BufTy).Contents (Elt F)),
    StableHlo.TRef.nullary main_call17.cst (constant S_ .f32 0x00000000#32),
    StableHlo.TRef.unary main_call17.cst main_call17.v0 (broadcastInDim S50000x128 ![] bcast_S_S50000x128),
    StableHlo.TRef.binary (.of main_v368 : StableHlo.TRef sig ⟨S50000x128, .f32⟩) main_call17.v0 main_call17.v1 maximumf,
    StableHlo.unary main_arg7 main_v370 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v370 main_v371 rfl shapeCasts_S1x128x128_S128x128,
    StableHlo.binary main_v369 main_v371 main_v372 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v373 ((extractStridedSlice S1x128 ![4, 0] · slices_S5x128_S1x128_4_0) : (⟨S5x128, .f32⟩ : BufTy).Contents (Elt F) → (⟨S1x128, .f32⟩ : BufTy).Contents (Elt F)),
    StableHlo.reshape main_v373 main_v374 rfl shapeCasts_S1x128_S128,
    StableHlo.unary main_v374 main_v375 (broadcastInDim S1x128 ![1] bcast_S128_S1x128_1 : (⟨S128, .f32⟩ : BufTy).Contents (Elt F) → (⟨S1x128, .f32⟩ : BufTy).Contents (Elt F)),
    StableHlo.unary main_v375 main_v376 (broadcastInDim S50000x128 ![0, 1] bcast_S1x128_S50000x128_0_1 : (⟨S1x128, .f32⟩ : BufTy).Contents (Elt F) → (⟨S50000x128, .f32⟩ : BufTy).Contents (Elt F)),
    StableHlo.binary main_v372 main_v376 main_v377 (addf : (⟨S50000x128, .f32⟩ : BufTy).Contents (Elt F) → (⟨S50000x128, .f32⟩ : BufTy).Contents (Elt F) → (⟨S50000x128, .f32⟩ : BufTy).Contents (Elt F)),
    StableHlo.unary main_arg11 main_v378 ((extractStridedSlice S1x128 ![4, 0] · slices_S5x128_S1x128_4_0) : (⟨S5x128, .f32⟩ : BufTy).Contents (Elt F) → (⟨S1x128, .f32⟩ : BufTy).Contents (Elt F)),
    StableHlo.reshape main_v378 main_v379 rfl shapeCasts_S1x128_S128,
    StableHlo.unary main_arg12 main_v380 ((extractStridedSlice S1x128 ![4, 0] · slices_S5x128_S1x128_4_0) : (⟨S5x128, .f32⟩ : BufTy).Contents (Elt F) → (⟨S1x128, .f32⟩ : BufTy).Contents (Elt F)),
    StableHlo.reshape main_v380 main_v381 rfl shapeCasts_S1x128_S128,
    StableHlo.nullary main_cst_54 (constant S_ .f32 0x00000000#32),
    StableHlo.binary main_v377 main_cst_54 main_v382 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_55 (constant S_ .f32 0x47435000#32),
    StableHlo.unary main_cst_55 main_v383 (broadcastInDim S128 ![] bcast_S_S128 : (⟨S_, .f32⟩ : BufTy).Contents (Elt F) → (⟨S128, .f32⟩ : BufTy).Contents (Elt F)),
    StableHlo.binary main_v382 main_v383 main_v384 (Host.divf : (⟨S128, .f32⟩ : BufTy).Contents (Elt F) → (⟨S128, .f32⟩ : BufTy).Contents (Elt F) → (⟨S128, .f32⟩ : BufTy).Contents (Elt F)),
    StableHlo.nullary main_c_56 (constantI S_ 32 0#32),
    StableHlo.TRef.nullary main_call18.cst (constant S_ .f32 0x00000000#32),
    StableHlo.TRef.binary (.of main_v377 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v377 : StableHlo.TRef sig ⟨S50000x128, .f32⟩) main_call18.v4 main_call18.v5 subf,
    StableHlo.TRef.binary main_call18.v5 main_call18.v5 main_call18.v6 mulf,
    StableHlo.TRef.unary (.of main_c_56 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v384 main_v386 (broadcastInDim S1x128 ![1] bcast_S128_S1x128_1 : (⟨S128, .f32⟩ : BufTy).Contents (Elt F) → (⟨S1x128, .f32⟩ : BufTy).Contents (Elt F)),
    StableHlo.unary main_v386 main_v387 (broadcastInDim S50000x128 ![0, 1] bcast_S1x128_S50000x128_0_1 : (⟨S1x128, .f32⟩ : BufTy).Contents (Elt F) → (⟨S50000x128, .f32⟩ : BufTy).Contents (Elt F)),
    StableHlo.binary main_v377 main_v387 main_v388 (subf : (⟨S50000x128, .f32⟩ : BufTy).Contents (Elt F) → (⟨S50000x128, .f32⟩ : BufTy).Contents (Elt F) → (⟨S50000x128, .f32⟩ : BufTy).Contents (Elt F)),
    StableHlo.nullary main_cst_57 (constant S_ .f32 0x3727C5AC#32),
    StableHlo.unary main_cst_57 main_v389 (broadcastInDim S128 ![] bcast_S_S128 : (⟨S_, .f32⟩ : BufTy).Contents (Elt F) → (⟨S128, .f32⟩ : BufTy).Contents (Elt F)),
    StableHlo.binary main_v385 main_v389 main_v390 (addf : (⟨S128, .f32⟩ : BufTy).Contents (Elt F) → (⟨S128, .f32⟩ : BufTy).Contents (Elt F) → (⟨S128, .f32⟩ : BufTy).Contents (Elt F)),
    StableHlo.unary main_v390 main_v391 (Host.rsqrt : (⟨S128, .f32⟩ : BufTy).Contents (Elt F) → (⟨S128, .f32⟩ : BufTy).Contents (Elt F)),
    StableHlo.unary main_v391 main_v392 (broadcastInDim S1x128 ![1] bcast_S128_S1x128_1 : (⟨S128, .f32⟩ : BufTy).Contents (Elt F) → (⟨S1x128, .f32⟩ : BufTy).Contents (Elt F)),
    StableHlo.unary main_v392 main_v393 (broadcastInDim S50000x128 ![0, 1] bcast_S1x128_S50000x128_0_1 : (⟨S1x128, .f32⟩ : BufTy).Contents (Elt F) → (⟨S50000x128, .f32⟩ : BufTy).Contents (Elt F)),
    StableHlo.binary main_v388 main_v393 main_v394 (mulf : (⟨S50000x128, .f32⟩ : BufTy).Contents (Elt F) → (⟨S50000x128, .f32⟩ : BufTy).Contents (Elt F) → (⟨S50000x128, .f32⟩ : BufTy).Contents (Elt F)),
    StableHlo.unary main_v379 main_v395 (broadcastInDim S1x128 ![1] bcast_S128_S1x128_1 : (⟨S128, .f32⟩ : BufTy).Contents (Elt F) → (⟨S1x128, .f32⟩ : BufTy).Contents (Elt F)),
    StableHlo.unary main_v395 main_v396 (broadcastInDim S50000x128 ![0, 1] bcast_S1x128_S50000x128_0_1 : (⟨S1x128, .f32⟩ : BufTy).Contents (Elt F) → (⟨S50000x128, .f32⟩ : BufTy).Contents (Elt F)),
    StableHlo.binary main_v394 main_v396 main_v397 (mulf : (⟨S50000x128, .f32⟩ : BufTy).Contents (Elt F) → (⟨S50000x128, .f32⟩ : BufTy).Contents (Elt F) → (⟨S50000x128, .f32⟩ : BufTy).Contents (Elt F)),
    StableHlo.unary main_v381 main_v398 (broadcastInDim S1x128 ![1] bcast_S128_S1x128_1 : (⟨S128, .f32⟩ : BufTy).Contents (Elt F) → (⟨S1x128, .f32⟩ : BufTy).Contents (Elt F)),
    StableHlo.unary main_v398 main_v399 (broadcastInDim S50000x128 ![0, 1] bcast_S1x128_S50000x128_0_1 : (⟨S1x128, .f32⟩ : BufTy).Contents (Elt F) → (⟨S50000x128, .f32⟩ : BufTy).Contents (Elt F)),
    StableHlo.binary main_v397 main_v399 main_v400 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (.of main_v400 : StableHlo.TRef sig ⟨S50000x128, .f32⟩) main_call19.v0 main_call19.v1 maximumf,
    StableHlo.nullary main_cst_58 (constant S_ .f32 0x00000000#32),
    StableHlo.unary main_cst_58 main_v402 (broadcastInDim S128x200 ![] bcast_S_S128x200 : (⟨S_, .f32⟩ : BufTy).Contents (Elt F) → (⟨S128x200, .f32⟩ : BufTy).Contents (Elt F)),
    StableHlo.unary main_arg2 main_v403 (broadcastInDim S50000x1 ![0] bcast_S50000_S50000x1_0 : (⟨S50000, .i32⟩ : BufTy).Contents (Elt F) → (⟨S50000x1, .i32⟩ : BufTy).Contents (Elt F)),
    StableHlo.ternary main_v402 main_v403 main_arg0 main_v404 ((fun x i u => Host.scatterAdd scatter_S128x200_S50000x1_S50000x200_1_0_0_1 x i u) : (⟨S128x200, .f32⟩ : BufTy).Contents (Elt F) → (⟨S50000x1, .i32⟩ : BufTy).Contents (Elt F) → (⟨S50000x200, .f32⟩ : BufTy).Contents (Elt F) → (⟨S128x200, .f32⟩ : BufTy).Contents (Elt F)),
    StableHlo.nullary main_cst_59 (constant S_ .f32 0x00000000#32),
    StableHlo.unary main_cst_59 main_v405 (broadcastInDim S128x128 ![] bcast_S_S128x128 : (⟨S_, .f32⟩ : BufTy).Contents (Elt F) → (⟨S128x128, .f32⟩ : BufTy).Contents (Elt F)),
    StableHlo.unary main_arg2 main_v406 (broadcastInDim S50000x1 ![0] bcast_S50000_S50000x1_0 : (⟨S50000, .i32⟩ : BufTy).Contents (Elt F) → (⟨S50000x1, .i32⟩ : BufTy).Contents (Elt F)),
    StableHlo.ternary main_v405 main_v406 main_v81 main_v407 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_60 (constant S_ .f32 0x00000000#32),
    StableHlo.unary main_cst_60 main_v408 (broadcastInDim S128x128 ![] bcast_S_S128x128 : (⟨S_, .f32⟩ : BufTy).Contents (Elt F) → (⟨S128x128, .f32⟩ : BufTy).Contents (Elt F)),
    StableHlo.unary main_arg2 main_v409 (broadcastInDim S50000x1 ![0] bcast_S50000_S50000x1_0 : (⟨S50000, .i32⟩ : BufTy).Contents (Elt F) → (⟨S50000x1, .i32⟩ : BufTy).Contents (Elt F)),
    StableHlo.ternary main_v408 main_v409 main_v161 main_v410 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_61 (constant S_ .f32 0x00000000#32),
    StableHlo.unary main_cst_61 main_v411 (broadcastInDim S128x128 ![] bcast_S_S128x128 : (⟨S_, .f32⟩ : BufTy).Contents (Elt F) → (⟨S128x128, .f32⟩ : BufTy).Contents (Elt F)),
    StableHlo.unary main_arg2 main_v412 (broadcastInDim S50000x1 ![0] bcast_S50000_S50000x1_0 : (⟨S50000, .i32⟩ : BufTy).Contents (Elt F) → (⟨S50000x1, .i32⟩ : BufTy).Contents (Elt F)),
    StableHlo.ternary main_v411 main_v412 main_v241 main_v413 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_62 (constant S_ .f32 0x00000000#32),
    StableHlo.unary main_cst_62 main_v414 (broadcastInDim S128x128 ![] bcast_S_S128x128 : (⟨S_, .f32⟩ : BufTy).Contents (Elt F) → (⟨S128x128, .f32⟩ : BufTy).Contents (Elt F)) ]

set_option maxRecDepth 8192 in
set_option maxHeartbeats 40000000 in

abbrev ops8 : List (HloOp τ sig (Elt F)) :=
  [ StableHlo.unary main_arg2 main_v415 (broadcastInDim S50000x1 ![0] bcast_S50000_S50000x1_0 : (⟨S50000, .i32⟩ : BufTy).Contents (Elt F) → (⟨S50000x1, .i32⟩ : BufTy).Contents (Elt F)),
    StableHlo.ternary main_v414 main_v415 main_v321 main_v416 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_63 (constant S_ .f32 0x00000000#32),
    StableHlo.unary main_cst_63 main_v417 (broadcastInDim S128x128 ![] bcast_S_S128x128 : (⟨S_, .f32⟩ : BufTy).Contents (Elt F) → (⟨S128x128, .f32⟩ : BufTy).Contents (Elt F)),
    StableHlo.unary main_arg2 main_v418 (broadcastInDim S50000x1 ![0] bcast_S50000_S50000x1_0 : (⟨S50000, .i32⟩ : BufTy).Contents (Elt F) → (⟨S50000x1, .i32⟩ : BufTy).Contents (Elt F)),
    StableHlo.ternary main_v417 main_v418 main_v401 main_v419 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)) ]

abbrev ops : List (HloOp τ sig (Elt F)) :=
  ops0 ++ (ops1 ++ (ops2 ++ (ops3 ++ (ops4 ++ (ops5 ++ (ops6 ++ (ops7 ++ (ops8))))))))

end Cert.ReferenceIdeal.RefRun

end
-- ==== Proof.RefSub.lean ====
import proofs.«410724_j86964497809599_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    reshape_bufs_sub .., nullary_bufs_sub .., binary_bufs_sub .., unary_bufs_sub .., binary_bufs_sub .., binary_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., reshape_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., reshape_bufs_sub ..,
    nullary_bufs_sub .., binary_bufs_sub .., unary_bufs_sub .., binary_bufs_sub .., binary_bufs_sub .., unary_bufs_sub ..,
    reshape_bufs_sub .., binary_bufs_sub .., unary_bufs_sub .., reshape_bufs_sub .., unary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

set_option maxRecDepth 8192 in
theorem ops3_sub : (ops3 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., reshape_bufs_sub .., nullary_bufs_sub ..,
    binary_bufs_sub .., unary_bufs_sub .., binary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

set_option maxRecDepth 8192 in
theorem ops4_sub : (ops4 : List (HloOp τ sig (Elt F))).Forall fun op => op.bufs ⊆ tcRefs τ sig :=
  ⟨binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., reshape_bufs_sub ..,
    nullary_bufs_sub .., binary_bufs_sub .., unary_bufs_sub .., binary_bufs_sub .., binary_bufs_sub .., unary_bufs_sub ..,
    reshape_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

set_option maxRecDepth 8192 in
theorem ops5_sub : (ops5 : List (HloOp τ sig (Elt F))).Forall fun op => op.bufs ⊆ tcRefs τ sig :=
  ⟨binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub ..⟩

set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

set_option maxRecDepth 8192 in
theorem ops6_sub : (ops6 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub ..⟩

set_option maxRecDepth 8192 in
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

set_option maxRecDepth 8192 in
theorem ops7_sub : (ops7 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., unary_bufs_sub .., ternary_bufs_sub .., nullary_bufs_sub ..,
    unary_bufs_sub ..⟩

set_option maxRecDepth 8192 in
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

set_option maxRecDepth 8192 in
theorem ops8_sub : (ops8 : List (HloOp τ sig (Elt F))).Forall fun op => op.bufs ⊆ tcRefs τ sig :=
  ⟨unary_bufs_sub .., ternary_bufs_sub .., nullary_bufs_sub .., unary_bufs_sub .., unary_bufs_sub .., ternary_bufs_sub ..⟩

set_option maxRecDepth 8192 in
theorem ops8_fresh : (ops8 : List (HloOp τ sig (Elt F))).Forall fun op => op.fresh = ∅ :=
  ⟨rfl, rfl, rfl, rfl, rfl, rfl⟩

end Cert.ReferenceIdeal.RefRun

end
-- ==== Proof.RefRun.lean ====
import proofs.«410724_j86964497809599_1_alg».proof.Proof.RefSub

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

theorem part_eq0 (c : Dev nD) : main_part0 (F := F) c = seq ops0 := rfl

set_option maxRecDepth 8192 in
set_option maxHeartbeats 4000000 in

theorem part_eq1 (c : Dev nD) : main_part1 (F := F) c = seq ops1 := rfl

set_option maxRecDepth 8192 in
set_option maxHeartbeats 4000000 in

theorem part_eq2 (c : Dev nD) : main_part2 (F := F) c = seq ops2 := rfl

set_option maxRecDepth 8192 in
set_option maxHeartbeats 4000000 in

theorem part_eq3 (c : Dev nD) : main_part3 (F := F) c = seq ops3 := rfl

set_option maxRecDepth 8192 in
set_option maxHeartbeats 4000000 in

theorem part_eq4 (c : Dev nD) : main_part4 (F := F) c = seq ops4 := rfl

set_option maxRecDepth 8192 in
set_option maxHeartbeats 4000000 in

theorem part_eq5 (c : Dev nD) : main_part5 (F := F) c = seq ops5 := rfl

set_option maxRecDepth 8192 in
set_option maxHeartbeats 4000000 in

theorem part_eq6 (c : Dev nD) : main_part6 (F := F) c = seq ops6 := rfl

set_option maxRecDepth 8192 in
set_option maxHeartbeats 4000000 in

theorem part_eq7 (c : Dev nD) : main_part7 (F := F) c = seq ops7 := rfl

set_option maxRecDepth 8192 in
set_option maxHeartbeats 4000000 in

theorem part_eq8 (c : Dev nD) : main_part8 (F := F) c = seq ops8 := rfl

theorem main_eq (c : Dev nD) : main (F := F) c = seq ops := by
  simp only [ops, seq_append, ← part_eq0 c, ← part_eq1 c, ← part_eq2 c, ← part_eq3 c, ← part_eq4 c, ← part_eq5 c,
    ← part_eq6 c, ← part_eq7 c, ← part_eq8 c]
  rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, List.forall_append.mpr ⟨ops2_sub, List.forall_append.mpr ⟨ops3_sub, List.forall_append.mpr ⟨ops4_sub, List.forall_append.mpr ⟨ops5_sub, List.forall_append.mpr ⟨ops6_sub, List.forall_append.mpr ⟨ops7_sub, ops8_sub⟩⟩⟩⟩⟩⟩⟩⟩

theorem ops_fresh : (ops : List (HloOp τ sig (Elt F))).Forall fun op => op.fresh = ∅ :=
  List.forall_append.mpr ⟨ops0_fresh, List.forall_append.mpr ⟨ops1_fresh, List.forall_append.mpr ⟨ops2_fresh, List.forall_append.mpr ⟨ops3_fresh, List.forall_append.mpr ⟨ops4_fresh, List.forall_append.mpr ⟨ops5_fresh, List.forall_append.mpr ⟨ops6_fresh, List.forall_append.mpr ⟨ops7_fresh, ops8_fresh⟩⟩⟩⟩⟩⟩⟩⟩

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RefRun

end
-- ==== Proof.RefStages.lean ====
import proofs.«410724_j86964497809599_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in

abbrev opsZ0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v3 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v3 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x200_S800000x1_S800000x200_1_0_n_n_0_1_1200 x i) : (⟨S50000x200, .f32⟩ : BufTy).Contents (Elt F) → (⟨S800000x1, .i32⟩ : BufTy).Contents (Elt F) → (⟨S800000x200, .f32⟩ : BufTy).Contents (Elt F)),
    StableHlo.nullary main_cst (constant S_ .f32 0x00000000#32),
    StableHlo.unary main_cst main_v11 (broadcastInDim S50000x200 ![] bcast_S_S50000x200 : (⟨S_, .f32⟩ : BufTy).Contents (Elt F) → (⟨S50000x200, .f32⟩ : BufTy).Contents (Elt F)),
    StableHlo.unary main_v1 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x200_S800000x1_S800000x200_1_0_0_1 x i u) : (⟨S50000x200, .f32⟩ : BufTy).Contents (Elt F) → (⟨S800000x1, .i32⟩ : BufTy).Contents (Elt F) → (⟨S800000x200, .f32⟩ : BufTy).Contents (Elt F) → (⟨S50000x200, .f32⟩ : BufTy).Contents (Elt F)),
    StableHlo.unary main_arg3 main_v14 ((extractStridedSlice S1 ![0] · slices_S5_S1_0) : (⟨S5, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S50000x200 ![] bcast_S_S50000x200 : (⟨S_, .f32⟩ : BufTy).Contents (Elt F) → (⟨S50000x200, .f32⟩ : BufTy).Contents (Elt F)),
    StableHlo.binary main_v17 main_arg0 main_v18 (mulf : (⟨S50000x200, .f32⟩ : BufTy).Contents (Elt F) → (⟨S50000x200, .f32⟩ : BufTy).Contents (Elt F) → (⟨S50000x200, .f32⟩ : BufTy).Contents (Elt F)),
    StableHlo.binary main_v13 main_v18 main_v19 (addf : (⟨S50000x200, .f32⟩ : BufTy).Contents (Elt F) → (⟨S50000x200, .f32⟩ : BufTy).Contents (Elt F) → (⟨S50000x200, .f32⟩ : BufTy).Contents (Elt F)),
    StableHlo.binary main_v19 main_arg4 main_v20 ((fun l r => Host.dotGeneral dot_S50000x200_S200x128_S50000x128_1_0_0_1_n_n none l r) : (⟨S50000x200, .f32⟩ : BufTy).Contents (Elt F) → (⟨S200x128, .f32⟩ : BufTy).Contents (Elt F) → (⟨S50000x128, .f32⟩ : BufTy).Contents (Elt F)),
    StableHlo.unary main_arg6 main_v21 ((extractStridedSlice S1x128 ![0, 0] · slices_S5x128_S1x128_0_0) : (⟨S5x128, .f32⟩ : BufTy).Contents (Elt F) → (⟨S1x128, .f32⟩ : BufTy).Contents (Elt F)),
    StableHlo.reshape main_v21 main_v22 rfl shapeCasts_S1x128_S128,
    StableHlo.unary main_v22 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S50000x128 ![0, 1] bcast_S1x128_S50000x128_0_1 : (⟨S1x128, .f32⟩ : BufTy).Contents (Elt F) → (⟨S50000x128, .f32⟩ : BufTy).Contents (Elt F)),
    StableHlo.binary main_v20 main_v24 main_v25 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 40000000 in

abbrev opsA0 : List (HloOp τ sig (Elt F)) :=
  [ StableHlo.unary main_arg9 main_v26 ((extractStridedSlice S1x128 ![0, 0] · slices_S5x128_S1x128_0_0) : (⟨S5x128, .f32⟩ : BufTy).Contents (Elt F) → (⟨S1x128, .f32⟩ : BufTy).Contents (Elt F)),
    StableHlo.reshape main_v26 main_v27 rfl shapeCasts_S1x128_S128,
    StableHlo.unary main_arg10 main_v28 ((extractStridedSlice S1x128 ![0, 0] · slices_S5x128_S1x128_0_0) : (⟨S5x128, .f32⟩ : BufTy).Contents (Elt F) → (⟨S1x128, .f32⟩ : BufTy).Contents (Elt F)),
    StableHlo.reshape main_v28 main_v29 rfl shapeCasts_S1x128_S128,
    StableHlo.nullary main_cst_2 (constant S_ .f32 0x00000000#32),
    StableHlo.binary main_v25 main_cst_2 main_v30 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_3 (constant S_ .f32 0x47435000#32),
    StableHlo.unary main_cst_3 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v25 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v25 : StableHlo.TRef sig ⟨S50000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v32 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v25 main_v35 main_v36 (subf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3727C5AC#32),
    StableHlo.unary main_cst_5 main_v37 (broadcastInDim S128 ![] bcast_S_S128 : (⟨S_, .f32⟩ : BufTy).Contents (Elt F) → (⟨S128, .f32⟩ : BufTy).Contents (Elt F)),
    StableHlo.binary main_v33 main_v37 main_v38 (addf : (⟨S128, .f32⟩ : BufTy).Contents (Elt F) → (⟨S128, .f32⟩ : BufTy).Contents (Elt F) → (⟨S128, .f32⟩ : BufTy).Contents (Elt F)),
    StableHlo.unary main_v38 main_v39 (Host.rsqrt : (⟨S128, .f32⟩ : BufTy).Contents (Elt F) → (⟨S128, .f32⟩ : BufTy).Contents (Elt F)),
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v41 main_v42 (mulf : (⟨S50000x128, .f32⟩ : BufTy).Contents (Elt F) → (⟨S50000x128, .f32⟩ : BufTy).Contents (Elt F) → (⟨S50000x128, .f32⟩ : BufTy).Contents (Elt F)),
    StableHlo.unary main_v27 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v44 main_v45 (mulf : (⟨S50000x128, .f32⟩ : BufTy).Contents (Elt F) → (⟨S50000x128, .f32⟩ : BufTy).Contents (Elt F) → (⟨S50000x128, .f32⟩ : BufTy).Contents (Elt F)),
    StableHlo.unary main_v29 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v48 : StableHlo.TRef sig ⟨S50000x128, .f32⟩) main_call1.v0 main_call1.v1 maximumf ]

set_option maxRecDepth 8192 in
set_option maxHeartbeats 40000000 in

abbrev opsY0 : List (HloOp τ sig (Elt F)) :=
  [ StableHlo.unary main_arg7 main_v50 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v50 main_v51 rfl shapeCasts_S1x128x128_S128x128,
    StableHlo.binary main_v49 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v53 ((extractStridedSlice S1x128 ![0, 0] · slices_S5x128_S1x128_0_0) : (⟨S5x128, .f32⟩ : BufTy).Contents (Elt F) → (⟨S1x128, .f32⟩ : BufTy).Contents (Elt F)),
    StableHlo.reshape main_v53 main_v54 rfl shapeCasts_S1x128_S128,
    StableHlo.unary main_v54 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v56 main_v57 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 40000000 in

abbrev opsH0 : List (HloOp τ sig (Elt F)) :=
  [ StableHlo.unary main_arg11 main_v58 ((extractStridedSlice S1x128 ![0, 0] · slices_S5x128_S1x128_0_0) : (⟨S5x128, .f32⟩ : BufTy).Contents (Elt F) → (⟨S1x128, .f32⟩ : BufTy).Contents (Elt F)),
    StableHlo.reshape main_v58 main_v59 rfl shapeCasts_S1x128_S128,
    StableHlo.unary main_arg12 main_v60 ((extractStridedSlice S1x128 ![0, 0] · slices_S5x128_S1x128_0_0) : (⟨S5x128, .f32⟩ : BufTy).Contents (Elt F) → (⟨S1x128, .f32⟩ : BufTy).Contents (Elt F)),
    StableHlo.reshape main_v60 main_v61 rfl shapeCasts_S1x128_S128,
    StableHlo.nullary main_cst_6 (constant S_ .f32 0x00000000#32),
    StableHlo.binary main_v57 main_cst_6 main_v62 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v63 (broadcastInDim S128 ![] bcast_S_S128 : (⟨S_, .f32⟩ : BufTy).Contents (Elt F) → (⟨S128, .f32⟩ : BufTy).Contents (Elt F)),
    StableHlo.binary main_v62 main_v63 main_v64 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary (.of main_v57 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v57 : StableHlo.TRef sig ⟨S50000x128, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v64 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v67 main_v68 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v69 (broadcastInDim S128 ![] bcast_S_S128 : (⟨S_, .f32⟩ : BufTy).Contents (Elt F) → (⟨S128, .f32⟩ : BufTy).Contents (Elt F)),
    StableHlo.binary main_v65 main_v69 main_v70 (addf : (⟨S128, .f32⟩ : BufTy).Contents (Elt F) → (⟨S128, .f32⟩ : BufTy).Contents (Elt F) → (⟨S128, .f32⟩ : BufTy).Contents (Elt F)),
    StableHlo.unary main_v70 main_v71 (Host.rsqrt : (⟨S128, .f32⟩ : BufTy).Contents (Elt F) → (⟨S128, .f32⟩ : BufTy).Contents (Elt F)),
    StableHlo.unary main_v71 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v73 main_v74 (mulf : (⟨S50000x128, .f32⟩ : BufTy).Contents (Elt F) → (⟨S50000x128, .f32⟩ : BufTy).Contents (Elt F) → (⟨S50000x128, .f32⟩ : BufTy).Contents (Elt F)),
    StableHlo.unary main_v59 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (mulf : (⟨S50000x128, .f32⟩ : BufTy).Contents (Elt F) → (⟨S50000x128, .f32⟩ : BufTy).Contents (Elt F) → (⟨S50000x128, .f32⟩ : BufTy).Contents (Elt F)),
    StableHlo.unary main_v61 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v80 : StableHlo.TRef sig ⟨S50000x128, .f32⟩) main_call3.v0 main_call3.v1 maximumf ]

set_option maxRecDepth 8192 in
set_option maxHeartbeats 40000000 in

abbrev opsZ1 : List (HloOp τ sig (Elt F)) :=
  [ StableHlo.nullary main_c_10 (constantI S_ 32 0#32),
    StableHlo.unary main_c_10 main_v82 (broadcastInDim S800000 ![] bcast_S_S800000 : (⟨S_, .i32⟩ : BufTy).Contents (Elt F) → (⟨S800000, .i32⟩ : BufTy).Contents (Elt F)),
    StableHlo.binary main_v3 main_v82 main_v83 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v84 (broadcastInDim S800000 ![] bcast_S_S800000 : (⟨S_, .i32⟩ : BufTy).Contents (Elt F) → (⟨S800000, .i32⟩ : BufTy).Contents (Elt F)),
    StableHlo.binary main_v3 main_v84 main_v85 (addi : (⟨S800000, .i32⟩ : BufTy).Contents (Elt F) → (⟨S800000, .i32⟩ : BufTy).Contents (Elt F) → (⟨S800000, .i32⟩ : BufTy).Contents (Elt F)),
    StableHlo.ternary main_v83 main_v85 main_v3 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v86 main_v87 (broadcastInDim S800000x1 ![0] bcast_S800000_S800000x1_0 : (⟨S800000, .i32⟩ : BufTy).Contents (Elt F) → (⟨S800000x1, .i32⟩ : BufTy).Contents (Elt F)),
    StableHlo.binary main_v81 main_v87 main_v88 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v89 (broadcastInDim S50000x128 ![] bcast_S_S50000x128 : (⟨S_, .f32⟩ : BufTy).Contents (Elt F) → (⟨S50000x128, .f32⟩ : BufTy).Contents (Elt F)),
    StableHlo.unary main_v1 main_v90 (broadcastInDim S800000x1 ![0] bcast_S800000_S800000x1_0 : (⟨S800000, .i32⟩ : BufTy).Contents (Elt F) → (⟨S800000x1, .i32⟩ : BufTy).Contents (Elt F)),
    StableHlo.ternary main_v89 main_v90 main_v88 main_v91 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v92 ((extractStridedSlice S1 ![1] · slices_S5_S1_1) : (⟨S5, .f32⟩ : BufTy).Contents (Elt F) → (⟨S1, .f32⟩ : BufTy).Contents (Elt F)),
    StableHlo.reshape main_v92 main_v93 rfl shapeCasts_S1_S_,
    StableHlo.nullary main_cst_13 (constant S_ .f32 0x3F800000#32),
    StableHlo.binary main_cst_13 main_v93 main_v94 (addf : (⟨S_, .f32⟩ : BufTy).Contents (Elt F) → (⟨S_, .f32⟩ : BufTy).Contents (Elt F) → (⟨S_, .f32⟩ : BufTy).Contents (Elt F)),
    StableHlo.unary main_v94 main_v95 (broadcastInDim S50000x128 ![] bcast_S_S50000x128 : (⟨S_, .f32⟩ : BufTy).Contents (Elt F) → (⟨S50000x128, .f32⟩ : BufTy).Contents (Elt F)),
    StableHlo.binary main_v95 main_v81 main_v96 (mulf : (⟨S50000x128, .f32⟩ : BufTy).Contents (Elt F) → (⟨S50000x128, .f32⟩ : BufTy).Contents (Elt F) → (⟨S50000x128, .f32⟩ : BufTy).Contents (Elt F)),
    StableHlo.binary main_v91 main_v96 main_v97 (addf : (⟨S50000x128, .f32⟩ : BufTy).Contents (Elt F) → (⟨S50000x128, .f32⟩ : BufTy).Contents (Elt F) → (⟨S50000x128, .f32⟩ : BufTy).Contents (Elt F)),
    StableHlo.unary main_arg5 main_v98 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v98 main_v99 rfl shapeCasts_S1x128x128_S128x128,
    StableHlo.binary main_v97 main_v99 main_v100 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v101 ((extractStridedSlice S1x128 ![1, 0] · slices_S5x128_S1x128_1_0) : (⟨S5x128, .f32⟩ : BufTy).Contents (Elt F) → (⟨S1x128, .f32⟩ : BufTy).Contents (Elt F)),
    StableHlo.reshape main_v101 main_v102 rfl shapeCasts_S1x128_S128,
    StableHlo.unary main_v102 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v104 main_v105 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 40000000 in

abbrev opsA1 : List (HloOp τ sig (Elt F)) :=
  [ StableHlo.unary main_arg9 main_v106 ((extractStridedSlice S1x128 ![1, 0] · slices_S5x128_S1x128_1_0) : (⟨S5x128, .f32⟩ : BufTy).Contents (Elt F) → (⟨S1x128, .f32⟩ : BufTy).Contents (Elt F)),
    StableHlo.reshape main_v106 main_v107 rfl shapeCasts_S1x128_S128,
    StableHlo.unary main_arg10 main_v108 ((extractStridedSlice S1x128 ![1, 0] · slices_S5x128_S1x128_1_0) : (⟨S5x128, .f32⟩ : BufTy).Contents (Elt F) → (⟨S1x128, .f32⟩ : BufTy).Contents (Elt F)),
    StableHlo.reshape main_v108 main_v109 rfl shapeCasts_S1x128_S128,
    StableHlo.nullary main_cst_14 (constant S_ .f32 0x00000000#32),
    StableHlo.binary main_v105 main_cst_14 main_v110 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v111 (broadcastInDim S128 ![] bcast_S_S128 : (⟨S_, .f32⟩ : BufTy).Contents (Elt F) → (⟨S128, .f32⟩ : BufTy).Contents (Elt F)),
    StableHlo.binary main_v110 main_v111 main_v112 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call4.cst (constant S_ .f32 0x00000000#32),
    StableHlo.TRef.binary (.of main_v105 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v105 : StableHlo.TRef sig ⟨S50000x128, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v112 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v115 main_v116 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v117 (broadcastInDim S128 ![] bcast_S_S128 : (⟨S_, .f32⟩ : BufTy).Contents (Elt F) → (⟨S128, .f32⟩ : BufTy).Contents (Elt F)),
    StableHlo.binary main_v113 main_v117 main_v118 (addf : (⟨S128, .f32⟩ : BufTy).Contents (Elt F) → (⟨S128, .f32⟩ : BufTy).Contents (Elt F) → (⟨S128, .f32⟩ : BufTy).Contents (Elt F)),
    StableHlo.unary main_v118 main_v119 (Host.rsqrt : (⟨S128, .f32⟩ : BufTy).Contents (Elt F) → (⟨S128, .f32⟩ : BufTy).Contents (Elt F)),
    StableHlo.unary main_v119 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v121 main_v122 (mulf : (⟨S50000x128, .f32⟩ : BufTy).Contents (Elt F) → (⟨S50000x128, .f32⟩ : BufTy).Contents (Elt F) → (⟨S50000x128, .f32⟩ : BufTy).Contents (Elt F)),
    StableHlo.unary main_v107 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S50000x128 ![0, 1] bcast_S1x128_S50000x128_0_1 : (⟨S1x128, .f32⟩ : BufTy).Contents (Elt F) → (⟨S50000x128, .f32⟩ : BufTy).Contents (Elt F)),
    StableHlo.binary main_v122 main_v124 main_v125 (mulf : (⟨S50000x128, .f32⟩ : BufTy).Contents (Elt F) → (⟨S50000x128, .f32⟩ : BufTy).Contents (Elt F) → (⟨S50000x128, .f32⟩ : BufTy).Contents (Elt F)),
    StableHlo.unary main_v109 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v125 main_v127 main_v128 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v128 : StableHlo.TRef sig ⟨S50000x128, .f32⟩) main_call5.v0 main_call5.v1 maximumf ]

set_option maxRecDepth 8192 in
set_option maxHeartbeats 40000000 in

abbrev opsY1 : List (HloOp τ sig (Elt F)) :=
  [ StableHlo.unary main_arg7 main_v130 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v130 main_v131 rfl shapeCasts_S1x128x128_S128x128,
    StableHlo.binary main_v129 main_v131 main_v132 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v133 ((extractStridedSlice S1x128 ![1, 0] · slices_S5x128_S1x128_1_0) : (⟨S5x128, .f32⟩ : BufTy).Contents (Elt F) → (⟨S1x128, .f32⟩ : BufTy).Contents (Elt F)),
    StableHlo.reshape main_v133 main_v134 rfl shapeCasts_S1x128_S128,
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v136 main_v137 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 40000000 in

abbrev opsH1 : List (HloOp τ sig (Elt F)) :=
  [ StableHlo.unary main_arg11 main_v138 ((extractStridedSlice S1x128 ![1, 0] · slices_S5x128_S1x128_1_0) : (⟨S5x128, .f32⟩ : BufTy).Contents (Elt F) → (⟨S1x128, .f32⟩ : BufTy).Contents (Elt F)),
    StableHlo.reshape main_v138 main_v139 rfl shapeCasts_S1x128_S128,
    StableHlo.unary main_arg12 main_v140 ((extractStridedSlice S1x128 ![1, 0] · slices_S5x128_S1x128_1_0) : (⟨S5x128, .f32⟩ : BufTy).Contents (Elt F) → (⟨S1x128, .f32⟩ : BufTy).Contents (Elt F)),
    StableHlo.reshape main_v140 main_v141 rfl shapeCasts_S1x128_S128,
    StableHlo.nullary main_cst_18 (constant S_ .f32 0x00000000#32),
    StableHlo.binary main_v137 main_cst_18 main_v142 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_19 (constant S_ .f32 0x47435000#32),
    StableHlo.unary main_cst_19 main_v143 (broadcastInDim S128 ![] bcast_S_S128 : (⟨S_, .f32⟩ : BufTy).Contents (Elt F) → (⟨S128, .f32⟩ : BufTy).Contents (Elt F)),
    StableHlo.binary main_v142 main_v143 main_v144 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call6.cst (constant S_ .f32 0x00000000#32),
    StableHlo.TRef.binary (.of main_v137 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v137 : StableHlo.TRef sig ⟨S50000x128, .f32⟩) main_call6.v4 main_call6.v5 subf,
    StableHlo.TRef.binary main_call6.v5 main_call6.v5 main_call6.v6 mulf,
    StableHlo.TRef.unary (.of main_c_20 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v144 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v147 main_v148 (subf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3727C5AC#32),
    StableHlo.unary main_cst_21 main_v149 (broadcastInDim S128 ![] bcast_S_S128 : (⟨S_, .f32⟩ : BufTy).Contents (Elt F) → (⟨S128, .f32⟩ : BufTy).Contents (Elt F)),
    StableHlo.binary main_v145 main_v149 main_v150 (addf : (⟨S128, .f32⟩ : BufTy).Contents (Elt F) → (⟨S128, .f32⟩ : BufTy).Contents (Elt F) → (⟨S128, .f32⟩ : BufTy).Contents (Elt F)),
    StableHlo.unary main_v150 main_v151 (Host.rsqrt : (⟨S128, .f32⟩ : BufTy).Contents (Elt F) → (⟨S128, .f32⟩ : BufTy).Contents (Elt F)),
    StableHlo.unary main_v151 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v153 main_v154 (mulf : (⟨S50000x128, .f32⟩ : BufTy).Contents (Elt F) → (⟨S50000x128, .f32⟩ : BufTy).Contents (Elt F) → (⟨S50000x128, .f32⟩ : BufTy).Contents (Elt F)),
    StableHlo.unary main_v139 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S50000x128 ![0, 1] bcast_S1x128_S50000x128_0_1 : (⟨S1x128, .f32⟩ : BufTy).Contents (Elt F) → (⟨S50000x128, .f32⟩ : BufTy).Contents (Elt F)),
    StableHlo.binary main_v154 main_v156 main_v157 (mulf : (⟨S50000x128, .f32⟩ : BufTy).Contents (Elt F) → (⟨S50000x128, .f32⟩ : BufTy).Contents (Elt F) → (⟨S50000x128, .f32⟩ : BufTy).Contents (Elt F)),
    StableHlo.unary main_v141 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v159 main_v160 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v160 : StableHlo.TRef sig ⟨S50000x128, .f32⟩) main_call7.v0 main_call7.v1 maximumf ]

set_option maxRecDepth 8192 in
set_option maxHeartbeats 40000000 in

abbrev opsZ2 : List (HloOp τ sig (Elt F)) :=
  [ StableHlo.nullary main_c_22 (constantI S_ 32 0#32),
    StableHlo.unary main_c_22 main_v162 (broadcastInDim S800000 ![] bcast_S_S800000 : (⟨S_, .i32⟩ : BufTy).Contents (Elt F) → (⟨S800000, .i32⟩ : BufTy).Contents (Elt F)),
    StableHlo.binary main_v3 main_v162 main_v163 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v164 (broadcastInDim S800000 ![] bcast_S_S800000 : (⟨S_, .i32⟩ : BufTy).Contents (Elt F) → (⟨S800000, .i32⟩ : BufTy).Contents (Elt F)),
    StableHlo.binary main_v3 main_v164 main_v165 (addi : (⟨S800000, .i32⟩ : BufTy).Contents (Elt F) → (⟨S800000, .i32⟩ : BufTy).Contents (Elt F) → (⟨S800000, .i32⟩ : BufTy).Contents (Elt F)),
    StableHlo.ternary main_v163 main_v165 main_v3 main_v166 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v166 main_v167 (broadcastInDim S800000x1 ![0] bcast_S800000_S800000x1_0 : (⟨S800000, .i32⟩ : BufTy).Contents (Elt F) → (⟨S800000x1, .i32⟩ : BufTy).Contents (Elt F)),
    StableHlo.binary main_v161 main_v167 main_v168 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_24 (constant S_ .f32 0x00000000#32),
    StableHlo.unary main_cst_24 main_v169 (broadcastInDim S50000x128 ![] bcast_S_S50000x128 : (⟨S_, .f32⟩ : BufTy).Contents (Elt F) → (⟨S50000x128, .f32⟩ : BufTy).Contents (Elt F)),
    StableHlo.unary main_v1 main_v170 (broadcastInDim S800000x1 ![0] bcast_S800000_S800000x1_0 : (⟨S800000, .i32⟩ : BufTy).Contents (Elt F) → (⟨S800000x1, .i32⟩ : BufTy).Contents (Elt F)),
    StableHlo.ternary main_v169 main_v170 main_v168 main_v171 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v172 ((extractStridedSlice S1 ![2] · slices_S5_S1_2) : (⟨S5, .f32⟩ : BufTy).Contents (Elt F) → (⟨S1, .f32⟩ : BufTy).Contents (Elt F)),
    StableHlo.reshape main_v172 main_v173 rfl shapeCasts_S1_S_,
    StableHlo.nullary main_cst_25 (constant S_ .f32 0x3F800000#32),
    StableHlo.binary main_cst_25 main_v173 main_v174 (addf : (⟨S_, .f32⟩ : BufTy).Contents (Elt F) → (⟨S_, .f32⟩ : BufTy).Contents (Elt F) → (⟨S_, .f32⟩ : BufTy).Contents (Elt F)),
    StableHlo.unary main_v174 main_v175 (broadcastInDim S50000x128 ![] bcast_S_S50000x128 : (⟨S_, .f32⟩ : BufTy).Contents (Elt F) → (⟨S50000x128, .f32⟩ : BufTy).Contents (Elt F)),
    StableHlo.binary main_v175 main_v161 main_v176 (mulf : (⟨S50000x128, .f32⟩ : BufTy).Contents (Elt F) → (⟨S50000x128, .f32⟩ : BufTy).Contents (Elt F) → (⟨S50000x128, .f32⟩ : BufTy).Contents (Elt F)),
    StableHlo.binary main_v171 main_v176 main_v177 (addf : (⟨S50000x128, .f32⟩ : BufTy).Contents (Elt F) → (⟨S50000x128, .f32⟩ : BufTy).Contents (Elt F) → (⟨S50000x128, .f32⟩ : BufTy).Contents (Elt F)),
    StableHlo.unary main_arg5 main_v178 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v178 main_v179 rfl shapeCasts_S1x128x128_S128x128,
    StableHlo.binary main_v177 main_v179 main_v180 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v181 ((extractStridedSlice S1x128 ![2, 0] · slices_S5x128_S1x128_2_0) : (⟨S5x128, .f32⟩ : BufTy).Contents (Elt F) → (⟨S1x128, .f32⟩ : BufTy).Contents (Elt F)),
    StableHlo.reshape main_v181 main_v182 rfl shapeCasts_S1x128_S128,
    StableHlo.unary main_v182 main_v183 (broadcastInDim S1x128 ![1] bcast_S128_S1x128_1 : (⟨S128, .f32⟩ : BufTy).Contents (Elt F) → (⟨S1x128, .f32⟩ : BufTy).Contents (Elt F)),
    StableHlo.unary main_v183 main_v184 (broadcastInDim S50000x128 ![0, 1] bcast_S1x128_S50000x128_0_1 : (⟨S1x128, .f32⟩ : BufTy).Contents (Elt F) → (⟨S50000x128, .f32⟩ : BufTy).Contents (Elt F)),
    StableHlo.binary main_v180 main_v184 main_v185 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 40000000 in

abbrev opsA2 : List (HloOp τ sig (Elt F)) :=
  [ StableHlo.unary main_arg9 main_v186 ((extractStridedSlice S1x128 ![2, 0] · slices_S5x128_S1x128_2_0) : (⟨S5x128, .f32⟩ : BufTy).Contents (Elt F) → (⟨S1x128, .f32⟩ : BufTy).Contents (Elt F)),
    StableHlo.reshape main_v186 main_v187 rfl shapeCasts_S1x128_S128,
    StableHlo.unary main_arg10 main_v188 ((extractStridedSlice S1x128 ![2, 0] · slices_S5x128_S1x128_2_0) : (⟨S5x128, .f32⟩ : BufTy).Contents (Elt F) → (⟨S1x128, .f32⟩ : BufTy).Contents (Elt F)),
    StableHlo.reshape main_v188 main_v189 rfl shapeCasts_S1x128_S128,
    StableHlo.nullary main_cst_26 (constant S_ .f32 0x00000000#32),
    StableHlo.binary main_v185 main_cst_26 main_v190 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_27 (constant S_ .f32 0x47435000#32),
    StableHlo.unary main_cst_27 main_v191 (broadcastInDim S128 ![] bcast_S_S128 : (⟨S_, .f32⟩ : BufTy).Contents (Elt F) → (⟨S128, .f32⟩ : BufTy).Contents (Elt F)),
    StableHlo.binary main_v190 main_v191 main_v192 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call8.cst (constant S_ .f32 0x00000000#32),
    StableHlo.TRef.binary (.of main_v185 : StableHlo.TRef sig ⟨S50000x128, .f32⟩) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v185 : StableHlo.TRef sig ⟨S50000x128, .f32⟩) main_call8.v4 main_call8.v5 subf,
    StableHlo.TRef.binary main_call8.v5 main_call8.v5 main_call8.v6 mulf,
    StableHlo.TRef.unary (.of main_c_28 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v192 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S50000x128 ![0, 1] bcast_S1x128_S50000x128_0_1 : (⟨S1x128, .f32⟩ : BufTy).Contents (Elt F) → (⟨S50000x128, .f32⟩ : BufTy).Contents (Elt F)),
    StableHlo.binary main_v185 main_v195 main_v196 (subf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3727C5AC#32),
    StableHlo.unary main_cst_29 main_v197 (broadcastInDim S128 ![] bcast_S_S128 : (⟨S_, .f32⟩ : BufTy).Contents (Elt F) → (⟨S128, .f32⟩ : BufTy).Contents (Elt F)),
    StableHlo.binary main_v193 main_v197 main_v198 (addf : (⟨S128, .f32⟩ : BufTy).Contents (Elt F) → (⟨S128, .f32⟩ : BufTy).Contents (Elt F) → (⟨S128, .f32⟩ : BufTy).Contents (Elt F)),
    StableHlo.unary main_v198 main_v199 (Host.rsqrt : (⟨S128, .f32⟩ : BufTy).Contents (Elt F) → (⟨S128, .f32⟩ : BufTy).Contents (Elt F)),
    StableHlo.unary main_v199 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S50000x128 ![0, 1] bcast_S1x128_S50000x128_0_1 : (⟨S1x128, .f32⟩ : BufTy).Contents (Elt F) → (⟨S50000x128, .f32⟩ : BufTy).Contents (Elt F)),
    StableHlo.binary main_v196 main_v201 main_v202 (mulf : (⟨S50000x128, .f32⟩ : BufTy).Contents (Elt F) → (⟨S50000x128, .f32⟩ : BufTy).Contents (Elt F) → (⟨S50000x128, .f32⟩ : BufTy).Contents (Elt F)),
    StableHlo.unary main_v187 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)),
    StableHlo.binary main_v202 main_v204 main_v205 (mulf : (⟨S50000x128, .f32⟩ : BufTy).Contents (Elt F) → (⟨S50000x128, .f32⟩ : BufTy).Contents (Elt F) → (⟨S50000x128, .f32⟩ : BufTy).Contents (Elt F)),
    StableHlo.unary main_v189 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S50000x128 ![0, 1] bcast_S1x128_S50000x128_0_1 : (⟨S1x128, .f32⟩ : BufTy).Contents (Elt F) → (⟨S50000x128, .f32⟩ : BufTy).Contents (Elt F)),
    StableHlo.binary main_v205 main_v207 main_v208 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v208 : StableHlo.TRef sig ⟨S50000x128, .f32⟩) main_call9.v0 main_call9.v1 maximumf ]

set_option maxRecDepth 8192 in
set_option maxHeartbeats 40000000 in

abbrev opsY2 : List (HloOp τ sig (Elt F)) :=
  [ StableHlo.unary main_arg7 main_v210 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v210 main_v211 rfl shapeCasts_S1x128x128_S128x128,
    StableHlo.binary main_v209 main_v211 main_v212 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v213 ((extractStridedSlice S1x128 ![2, 0] · slices_S5x128_S1x128_2_0) : (⟨S5x128, .f32⟩ : BufTy).Contents (Elt F) → (⟨S1x128, .f32⟩ : BufTy).Contents (Elt F)),
    StableHlo.reshape main_v213 main_v214 rfl shapeCasts_S1x128_S128,
    StableHlo.unary main_v214 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S50000x128 ![0, 1] bcast_S1x128_S50000x128_0_1 : (⟨S1x128, .f32⟩ : BufTy).Contents (Elt F) → (⟨S50000x128, .f32⟩ : BufTy).Contents (Elt F)),
    StableHlo.binary main_v212 main_v216 main_v217 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 40000000 in

abbrev opsH2 : List (HloOp τ sig (Elt F)) :=
  [ StableHlo.unary main_arg11 main_v218 ((extractStridedSlice S1x128 ![2, 0] · slices_S5x128_S1x128_2_0) : (⟨S5x128, .f32⟩ : BufTy).Contents (Elt F) → (⟨S1x128, .f32⟩ : BufTy).Contents (Elt F)),
    StableHlo.reshape main_v218 main_v219 rfl shapeCasts_S1x128_S128,
    StableHlo.unary main_arg12 main_v220 ((extractStridedSlice S1x128 ![2, 0] · slices_S5x128_S1x128_2_0) : (⟨S5x128, .f32⟩ : BufTy).Contents (Elt F) → (⟨S1x128, .f32⟩ : BufTy).Contents (Elt F)),
    StableHlo.reshape main_v220 main_v221 rfl shapeCasts_S1x128_S128,
    StableHlo.nullary main_cst_30 (constant S_ .f32 0x00000000#32),
    StableHlo.binary main_v217 main_cst_30 main_v222 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v223 (broadcastInDim S128 ![] bcast_S_S128 : (⟨S_, .f32⟩ : BufTy).Contents (Elt F) → (⟨S128, .f32⟩ : BufTy).Contents (Elt F)),
    StableHlo.binary main_v222 main_v223 main_v224 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call10.cst (constant S_ .f32 0x00000000#32),
    StableHlo.TRef.binary (.of main_v217 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v217 : StableHlo.TRef sig ⟨S50000x128, .f32⟩) main_call10.v4 main_call10.v5 subf,
    StableHlo.TRef.binary main_call10.v5 main_call10.v5 main_call10.v6 mulf,
    StableHlo.TRef.unary (.of main_c_32 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v224 main_v226 (broadcastInDim S1x128 ![1] bcast_S128_S1x128_1 : (⟨S128, .f32⟩ : BufTy).Contents (Elt F) → (⟨S1x128, .f32⟩ : BufTy).Contents (Elt F)),
    StableHlo.unary main_v226 main_v227 (broadcastInDim S50000x128 ![0, 1] bcast_S1x128_S50000x128_0_1 : (⟨S1x128, .f32⟩ : BufTy).Contents (Elt F) → (⟨S50000x128, .f32⟩ : BufTy).Contents (Elt F)),
    StableHlo.binary main_v217 main_v227 main_v228 (subf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v229 (broadcastInDim S128 ![] bcast_S_S128 : (⟨S_, .f32⟩ : BufTy).Contents (Elt F) → (⟨S128, .f32⟩ : BufTy).Contents (Elt F)),
    StableHlo.binary main_v225 main_v229 main_v230 (addf : (⟨S128, .f32⟩ : BufTy).Contents (Elt F) → (⟨S128, .f32⟩ : BufTy).Contents (Elt F) → (⟨S128, .f32⟩ : BufTy).Contents (Elt F)),
    StableHlo.unary main_v230 main_v231 (Host.rsqrt : (⟨S128, .f32⟩ : BufTy).Contents (Elt F) → (⟨S128, .f32⟩ : BufTy).Contents (Elt F)),
    StableHlo.unary main_v231 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S50000x128 ![0, 1] bcast_S1x128_S50000x128_0_1 : (⟨S1x128, .f32⟩ : BufTy).Contents (Elt F) → (⟨S50000x128, .f32⟩ : BufTy).Contents (Elt F)),
    StableHlo.binary main_v228 main_v233 main_v234 (mulf : (⟨S50000x128, .f32⟩ : BufTy).Contents (Elt F) → (⟨S50000x128, .f32⟩ : BufTy).Contents (Elt F) → (⟨S50000x128, .f32⟩ : BufTy).Contents (Elt F)),
    StableHlo.unary main_v219 main_v235 (broadcastInDim S1x128 ![1] bcast_S128_S1x128_1 : (⟨S128, .f32⟩ : BufTy).Contents (Elt F) → (⟨S1x128, .f32⟩ : BufTy).Contents (Elt F)),
    StableHlo.unary main_v235 main_v236 (broadcastInDim S50000x128 ![0, 1] bcast_S1x128_S50000x128_0_1 : (⟨S1x128, .f32⟩ : BufTy).Contents (Elt F) → (⟨S50000x128, .f32⟩ : BufTy).Contents (Elt F)),
    StableHlo.binary main_v234 main_v236 main_v237 (mulf : (⟨S50000x128, .f32⟩ : BufTy).Contents (Elt F) → (⟨S50000x128, .f32⟩ : BufTy).Contents (Elt F) → (⟨S50000x128, .f32⟩ : BufTy).Contents (Elt F)),
    StableHlo.unary main_v221 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S50000x128 ![0, 1] bcast_S1x128_S50000x128_0_1 : (⟨S1x128, .f32⟩ : BufTy).Contents (Elt F) → (⟨S50000x128, .f32⟩ : BufTy).Contents (Elt F)),
    StableHlo.binary main_v237 main_v239 main_v240 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v240 : StableHlo.TRef sig ⟨S50000x128, .f32⟩) main_call11.v0 main_call11.v1 maximumf ]

set_option maxRecDepth 8192 in
set_option maxHeartbeats 40000000 in

abbrev opsZ3 : List (HloOp τ sig (Elt F)) :=
  [ StableHlo.nullary main_c_34 (constantI S_ 32 0#32),
    StableHlo.unary main_c_34 main_v242 (broadcastInDim S800000 ![] bcast_S_S800000 : (⟨S_, .i32⟩ : BufTy).Contents (Elt F) → (⟨S800000, .i32⟩ : BufTy).Contents (Elt F)),
    StableHlo.binary main_v3 main_v242 main_v243 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v244 (broadcastInDim S800000 ![] bcast_S_S800000 : (⟨S_, .i32⟩ : BufTy).Contents (Elt F) → (⟨S800000, .i32⟩ : BufTy).Contents (Elt F)),
    StableHlo.binary main_v3 main_v244 main_v245 (addi : (⟨S800000, .i32⟩ : BufTy).Contents (Elt F) → (⟨S800000, .i32⟩ : BufTy).Contents (Elt F) → (⟨S800000, .i32⟩ : BufTy).Contents (Elt F)),
    StableHlo.ternary main_v243 main_v245 main_v3 main_v246 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v246 main_v247 (broadcastInDim S800000x1 ![0] bcast_S800000_S800000x1_0 : (⟨S800000, .i32⟩ : BufTy).Contents (Elt F) → (⟨S800000x1, .i32⟩ : BufTy).Contents (Elt F)),
    StableHlo.binary main_v241 main_v247 main_v248 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v249 (broadcastInDim S50000x128 ![] bcast_S_S50000x128 : (⟨S_, .f32⟩ : BufTy).Contents (Elt F) → (⟨S50000x128, .f32⟩ : BufTy).Contents (Elt F)),
    StableHlo.unary main_v1 main_v250 (broadcastInDim S800000x1 ![0] bcast_S800000_S800000x1_0 : (⟨S800000, .i32⟩ : BufTy).Contents (Elt F) → (⟨S800000x1, .i32⟩ : BufTy).Contents (Elt F)),
    StableHlo.ternary main_v249 main_v250 main_v248 main_v251 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v252 ((extractStridedSlice S1 ![3] · slices_S5_S1_3) : (⟨S5, .f32⟩ : BufTy).Contents (Elt F) → (⟨S1, .f32⟩ : BufTy).Contents (Elt F)),
    StableHlo.reshape main_v252 main_v253 rfl shapeCasts_S1_S_,
    StableHlo.nullary main_cst_37 (constant S_ .f32 0x3F800000#32),
    StableHlo.binary main_cst_37 main_v253 main_v254 (addf : (⟨S_, .f32⟩ : BufTy).Contents (Elt F) → (⟨S_, .f32⟩ : BufTy).Contents (Elt F) → (⟨S_, .f32⟩ : BufTy).Contents (Elt F)),
    StableHlo.unary main_v254 main_v255 (broadcastInDim S50000x128 ![] bcast_S_S50000x128 : (⟨S_, .f32⟩ : BufTy).Contents (Elt F) → (⟨S50000x128, .f32⟩ : BufTy).Contents (Elt F)),
    StableHlo.binary main_v255 main_v241 main_v256 (mulf : (⟨S50000x128, .f32⟩ : BufTy).Contents (Elt F) → (⟨S50000x128, .f32⟩ : BufTy).Contents (Elt F) → (⟨S50000x128, .f32⟩ : BufTy).Contents (Elt F)),
    StableHlo.binary main_v251 main_v256 main_v257 (addf : (⟨S50000x128, .f32⟩ : BufTy).Contents (Elt F) → (⟨S50000x128, .f32⟩ : BufTy).Contents (Elt F) → (⟨S50000x128, .f32⟩ : BufTy).Contents (Elt F)),
    StableHlo.unary main_arg5 main_v258 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v258 main_v259 rfl shapeCasts_S1x128x128_S128x128,
    StableHlo.binary main_v257 main_v259 main_v260 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v261 ((extractStridedSlice S1x128 ![3, 0] · slices_S5x128_S1x128_3_0) : (⟨S5x128, .f32⟩ : BufTy).Contents (Elt F) → (⟨S1x128, .f32⟩ : BufTy).Contents (Elt F)),
    StableHlo.reshape main_v261 main_v262 rfl shapeCasts_S1x128_S128,
    StableHlo.unary main_v262 main_v263 (broadcastInDim S1x128 ![1] bcast_S128_S1x128_1 : (⟨S128, .f32⟩ : BufTy).Contents (Elt F) → (⟨S1x128, .f32⟩ : BufTy).Contents (Elt F)),
    StableHlo.unary main_v263 main_v264 (broadcastInDim S50000x128 ![0, 1] bcast_S1x128_S50000x128_0_1 : (⟨S1x128, .f32⟩ : BufTy).Contents (Elt F) → (⟨S50000x128, .f32⟩ : BufTy).Contents (Elt F)),
    StableHlo.binary main_v260 main_v264 main_v265 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 40000000 in

abbrev opsA3 : List (HloOp τ sig (Elt F)) :=
  [ StableHlo.unary main_arg9 main_v266 ((extractStridedSlice S1x128 ![3, 0] · slices_S5x128_S1x128_3_0) : (⟨S5x128, .f32⟩ : BufTy).Contents (Elt F) → (⟨S1x128, .f32⟩ : BufTy).Contents (Elt F)),
    StableHlo.reshape main_v266 main_v267 rfl shapeCasts_S1x128_S128,
    StableHlo.unary main_arg10 main_v268 ((extractStridedSlice S1x128 ![3, 0] · slices_S5x128_S1x128_3_0) : (⟨S5x128, .f32⟩ : BufTy).Contents (Elt F) → (⟨S1x128, .f32⟩ : BufTy).Contents (Elt F)),
    StableHlo.reshape main_v268 main_v269 rfl shapeCasts_S1x128_S128,
    StableHlo.nullary main_cst_38 (constant S_ .f32 0x00000000#32),
    StableHlo.binary main_v265 main_cst_38 main_v270 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_39 (constant S_ .f32 0x47435000#32),
    StableHlo.unary main_cst_39 main_v271 (broadcastInDim S128 ![] bcast_S_S128 : (⟨S_, .f32⟩ : BufTy).Contents (Elt F) → (⟨S128, .f32⟩ : BufTy).Contents (Elt F)),
    StableHlo.binary main_v270 main_v271 main_v272 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary main_call12.cst (constant S_ .f32 0x00000000#32),
    StableHlo.TRef.binary (.of main_v265 : StableHlo.TRef sig ⟨S50000x128, .f32⟩) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (.of main_v265 : StableHlo.TRef sig ⟨S50000x128, .f32⟩) main_call12.v4 main_call12.v5 subf,
    StableHlo.TRef.binary main_call12.v5 main_call12.v5 main_call12.v6 mulf,
    StableHlo.TRef.unary (.of main_c_40 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v272 main_v274 (broadcastInDim S1x128 ![1] bcast_S128_S1x128_1 : (⟨S128, .f32⟩ : BufTy).Contents (Elt F) → (⟨S1x128, .f32⟩ : BufTy).Contents (Elt F)),
    StableHlo.unary main_v274 main_v275 (broadcastInDim S50000x128 ![0, 1] bcast_S1x128_S50000x128_0_1 : (⟨S1x128, .f32⟩ : BufTy).Contents (Elt F) → (⟨S50000x128, .f32⟩ : BufTy).Contents (Elt F)),
    StableHlo.binary main_v265 main_v275 main_v276 (subf : (⟨S50000x128, .f32⟩ : BufTy).Contents (Elt F) → (⟨S50000x128, .f32⟩ : BufTy).Contents (Elt F) → (⟨S50000x128, .f32⟩ : BufTy).Contents (Elt F)),
    StableHlo.nullary main_cst_41 (constant S_ .f32 0x3727C5AC#32),
    StableHlo.unary main_cst_41 main_v277 (broadcastInDim S128 ![] bcast_S_S128 : (⟨S_, .f32⟩ : BufTy).Contents (Elt F) → (⟨S128, .f32⟩ : BufTy).Contents (Elt F)),
    StableHlo.binary main_v273 main_v277 main_v278 (addf : (⟨S128, .f32⟩ : BufTy).Contents (Elt F) → (⟨S128, .f32⟩ : BufTy).Contents (Elt F) → (⟨S128, .f32⟩ : BufTy).Contents (Elt F)),
    StableHlo.unary main_v278 main_v279 (Host.rsqrt : (⟨S128, .f32⟩ : BufTy).Contents (Elt F) → (⟨S128, .f32⟩ : BufTy).Contents (Elt F)),
    StableHlo.unary main_v279 main_v280 (broadcastInDim S1x128 ![1] bcast_S128_S1x128_1 : (⟨S128, .f32⟩ : BufTy).Contents (Elt F) → (⟨S1x128, .f32⟩ : BufTy).Contents (Elt F)),
    StableHlo.unary main_v280 main_v281 (broadcastInDim S50000x128 ![0, 1] bcast_S1x128_S50000x128_0_1 : (⟨S1x128, .f32⟩ : BufTy).Contents (Elt F) → (⟨S50000x128, .f32⟩ : BufTy).Contents (Elt F)),
    StableHlo.binary main_v276 main_v281 main_v282 (mulf : (⟨S50000x128, .f32⟩ : BufTy).Contents (Elt F) → (⟨S50000x128, .f32⟩ : BufTy).Contents (Elt F) → (⟨S50000x128, .f32⟩ : BufTy).Contents (Elt F)),
    StableHlo.unary main_v267 main_v283 (broadcastInDim S1x128 ![1] bcast_S128_S1x128_1 : (⟨S128, .f32⟩ : BufTy).Contents (Elt F) → (⟨S1x128, .f32⟩ : BufTy).Contents (Elt F)),
    StableHlo.unary main_v283 main_v284 (broadcastInDim S50000x128 ![0, 1] bcast_S1x128_S50000x128_0_1 : (⟨S1x128, .f32⟩ : BufTy).Contents (Elt F) → (⟨S50000x128, .f32⟩ : BufTy).Contents (Elt F)),
    StableHlo.binary main_v282 main_v284 main_v285 (mulf : (⟨S50000x128, .f32⟩ : BufTy).Contents (Elt F) → (⟨S50000x128, .f32⟩ : BufTy).Contents (Elt F) → (⟨S50000x128, .f32⟩ : BufTy).Contents (Elt F)),
    StableHlo.unary main_v269 main_v286 (broadcastInDim S1x128 ![1] bcast_S128_S1x128_1 : (⟨S128, .f32⟩ : BufTy).Contents (Elt F) → (⟨S1x128, .f32⟩ : BufTy).Contents (Elt F)),
    StableHlo.unary main_v286 main_v287 (broadcastInDim S50000x128 ![0, 1] bcast_S1x128_S50000x128_0_1 : (⟨S1x128, .f32⟩ : BufTy).Contents (Elt F) → (⟨S50000x128, .f32⟩ : BufTy).Contents (Elt F)),
    StableHlo.binary main_v285 main_v287 main_v288 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v288 : StableHlo.TRef sig ⟨S50000x128, .f32⟩) main_call13.v0 main_call13.v1 maximumf ]

set_option maxRecDepth 8192 in
set_option maxHeartbeats 40000000 in

abbrev opsY3 : List (HloOp τ sig (Elt F)) :=
  [ StableHlo.unary main_arg7 main_v290 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v290 main_v291 rfl shapeCasts_S1x128x128_S128x128,
    StableHlo.binary main_v289 main_v291 main_v292 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v293 ((extractStridedSlice S1x128 ![3, 0] · slices_S5x128_S1x128_3_0) : (⟨S5x128, .f32⟩ : BufTy).Contents (Elt F) → (⟨S1x128, .f32⟩ : BufTy).Contents (Elt F)),
    StableHlo.reshape main_v293 main_v294 rfl shapeCasts_S1x128_S128,
    StableHlo.unary main_v294 main_v295 (broadcastInDim S1x128 ![1] bcast_S128_S1x128_1 : (⟨S128, .f32⟩ : BufTy).Contents (Elt F) → (⟨S1x128, .f32⟩ : BufTy).Contents (Elt F)),
    StableHlo.unary main_v295 main_v296 (broadcastInDim S50000x128 ![0, 1] bcast_S1x128_S50000x128_0_1 : (⟨S1x128, .f32⟩ : BufTy).Contents (Elt F) → (⟨S50000x128, .f32⟩ : BufTy).Contents (Elt F)),
    StableHlo.binary main_v292 main_v296 main_v297 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 40000000 in

abbrev opsH3 : List (HloOp τ sig (Elt F)) :=
  [ StableHlo.unary main_arg11 main_v298 ((extractStridedSlice S1x128 ![3, 0] · slices_S5x128_S1x128_3_0) : (⟨S5x128, .f32⟩ : BufTy).Contents (Elt F) → (⟨S1x128, .f32⟩ : BufTy).Contents (Elt F)),
    StableHlo.reshape main_v298 main_v299 rfl shapeCasts_S1x128_S128,
    StableHlo.unary main_arg12 main_v300 ((extractStridedSlice S1x128 ![3, 0] · slices_S5x128_S1x128_3_0) : (⟨S5x128, .f32⟩ : BufTy).Contents (Elt F) → (⟨S1x128, .f32⟩ : BufTy).Contents (Elt F)),
    StableHlo.reshape main_v300 main_v301 rfl shapeCasts_S1x128_S128,
    StableHlo.nullary main_cst_42 (constant S_ .f32 0x00000000#32),
    StableHlo.binary main_v297 main_cst_42 main_v302 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_43 (constant S_ .f32 0x47435000#32),
    StableHlo.unary main_cst_43 main_v303 (broadcastInDim S128 ![] bcast_S_S128 : (⟨S_, .f32⟩ : BufTy).Contents (Elt F) → (⟨S128, .f32⟩ : BufTy).Contents (Elt F)),
    StableHlo.binary main_v302 main_v303 main_v304 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary main_call14.cst (constant S_ .f32 0x00000000#32),
    StableHlo.TRef.binary (.of main_v297 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v297 : StableHlo.TRef sig ⟨S50000x128, .f32⟩) main_call14.v4 main_call14.v5 subf,
    StableHlo.TRef.binary main_call14.v5 main_call14.v5 main_call14.v6 mulf,
    StableHlo.TRef.unary (.of main_c_44 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v304 main_v306 (broadcastInDim S1x128 ![1] bcast_S128_S1x128_1 : (⟨S128, .f32⟩ : BufTy).Contents (Elt F) → (⟨S1x128, .f32⟩ : BufTy).Contents (Elt F)),
    StableHlo.unary main_v306 main_v307 (broadcastInDim S50000x128 ![0, 1] bcast_S1x128_S50000x128_0_1 : (⟨S1x128, .f32⟩ : BufTy).Contents (Elt F) → (⟨S50000x128, .f32⟩ : BufTy).Contents (Elt F)),
    StableHlo.binary main_v297 main_v307 main_v308 (subf : (⟨S50000x128, .f32⟩ : BufTy).Contents (Elt F) → (⟨S50000x128, .f32⟩ : BufTy).Contents (Elt F) → (⟨S50000x128, .f32⟩ : BufTy).Contents (Elt F)),
    StableHlo.nullary main_cst_45 (constant S_ .f32 0x3727C5AC#32),
    StableHlo.unary main_cst_45 main_v309 (broadcastInDim S128 ![] bcast_S_S128 : (⟨S_, .f32⟩ : BufTy).Contents (Elt F) → (⟨S128, .f32⟩ : BufTy).Contents (Elt F)),
    StableHlo.binary main_v305 main_v309 main_v310 (addf : (⟨S128, .f32⟩ : BufTy).Contents (Elt F) → (⟨S128, .f32⟩ : BufTy).Contents (Elt F) → (⟨S128, .f32⟩ : BufTy).Contents (Elt F)),
    StableHlo.unary main_v310 main_v311 (Host.rsqrt : (⟨S128, .f32⟩ : BufTy).Contents (Elt F) → (⟨S128, .f32⟩ : BufTy).Contents (Elt F)),
    StableHlo.unary main_v311 main_v312 (broadcastInDim S1x128 ![1] bcast_S128_S1x128_1 : (⟨S128, .f32⟩ : BufTy).Contents (Elt F) → (⟨S1x128, .f32⟩ : BufTy).Contents (Elt F)),
    StableHlo.unary main_v312 main_v313 (broadcastInDim S50000x128 ![0, 1] bcast_S1x128_S50000x128_0_1 : (⟨S1x128, .f32⟩ : BufTy).Contents (Elt F) → (⟨S50000x128, .f32⟩ : BufTy).Contents (Elt F)),
    StableHlo.binary main_v308 main_v313 main_v314 (mulf : (⟨S50000x128, .f32⟩ : BufTy).Contents (Elt F) → (⟨S50000x128, .f32⟩ : BufTy).Contents (Elt F) → (⟨S50000x128, .f32⟩ : BufTy).Contents (Elt F)),
    StableHlo.unary main_v299 main_v315 (broadcastInDim S1x128 ![1] bcast_S128_S1x128_1 : (⟨S128, .f32⟩ : BufTy).Contents (Elt F) → (⟨S1x128, .f32⟩ : BufTy).Contents (Elt F)),
    StableHlo.unary main_v315 main_v316 (broadcastInDim S50000x128 ![0, 1] bcast_S1x128_S50000x128_0_1 : (⟨S1x128, .f32⟩ : BufTy).Contents (Elt F) → (⟨S50000x128, .f32⟩ : BufTy).Contents (Elt F)),
    StableHlo.binary main_v314 main_v316 main_v317 (mulf : (⟨S50000x128, .f32⟩ : BufTy).Contents (Elt F) → (⟨S50000x128, .f32⟩ : BufTy).Contents (Elt F) → (⟨S50000x128, .f32⟩ : BufTy).Contents (Elt F)),
    StableHlo.unary main_v301 main_v318 (broadcastInDim S1x128 ![1] bcast_S128_S1x128_1 : (⟨S128, .f32⟩ : BufTy).Contents (Elt F) → (⟨S1x128, .f32⟩ : BufTy).Contents (Elt F)),
    StableHlo.unary main_v318 main_v319 (broadcastInDim S50000x128 ![0, 1] bcast_S1x128_S50000x128_0_1 : (⟨S1x128, .f32⟩ : BufTy).Contents (Elt F) → (⟨S50000x128, .f32⟩ : BufTy).Contents (Elt F)),
    StableHlo.binary main_v317 main_v319 main_v320 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v320 : StableHlo.TRef sig ⟨S50000x128, .f32⟩) main_call15.v0 main_call15.v1 maximumf ]

set_option maxRecDepth 8192 in
set_option maxHeartbeats 40000000 in

abbrev opsZ4 : List (HloOp τ sig (Elt F)) :=
  [ StableHlo.nullary main_c_46 (constantI S_ 32 0#32),
    StableHlo.unary main_c_46 main_v322 (broadcastInDim S800000 ![] bcast_S_S800000 : (⟨S_, .i32⟩ : BufTy).Contents (Elt F) → (⟨S800000, .i32⟩ : BufTy).Contents (Elt F)),
    StableHlo.binary main_v3 main_v322 main_v323 (cmpi .slt : (⟨S800000, .i32⟩ : BufTy).Contents (Elt F) → (⟨S800000, .i32⟩ : BufTy).Contents (Elt F) → (⟨S800000, .i1⟩ : BufTy).Contents (Elt F)),
    StableHlo.nullary main_c_47 (constantI S_ 32 50000#32),
    StableHlo.unary main_c_47 main_v324 (broadcastInDim S800000 ![] bcast_S_S800000 : (⟨S_, .i32⟩ : BufTy).Contents (Elt F) → (⟨S800000, .i32⟩ : BufTy).Contents (Elt F)),
    StableHlo.binary main_v3 main_v324 main_v325 (addi : (⟨S800000, .i32⟩ : BufTy).Contents (Elt F) → (⟨S800000, .i32⟩ : BufTy).Contents (Elt F) → (⟨S800000, .i32⟩ : BufTy).Contents (Elt F)),
    StableHlo.ternary main_v323 main_v325 main_v3 main_v326 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v326 main_v327 (broadcastInDim S800000x1 ![0] bcast_S800000_S800000x1_0 : (⟨S800000, .i32⟩ : BufTy).Contents (Elt F) → (⟨S800000x1, .i32⟩ : BufTy).Contents (Elt F)),
    StableHlo.binary main_v321 main_v327 main_v328 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_48 (constant S_ .f32 0x00000000#32),
    StableHlo.unary main_cst_48 main_v329 (broadcastInDim S50000x128 ![] bcast_S_S50000x128 : (⟨S_, .f32⟩ : BufTy).Contents (Elt F) → (⟨S50000x128, .f32⟩ : BufTy).Contents (Elt F)),
    StableHlo.unary main_v1 main_v330 (broadcastInDim S800000x1 ![0] bcast_S800000_S800000x1_0 : (⟨S800000, .i32⟩ : BufTy).Contents (Elt F) → (⟨S800000x1, .i32⟩ : BufTy).Contents (Elt F)),
    StableHlo.ternary main_v329 main_v330 main_v328 main_v331 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v332 ((extractStridedSlice S1 ![4] · slices_S5_S1_4) : (⟨S5, .f32⟩ : BufTy).Contents (Elt F) → (⟨S1, .f32⟩ : BufTy).Contents (Elt F)),
    StableHlo.reshape main_v332 main_v333 rfl shapeCasts_S1_S_,
    StableHlo.nullary main_cst_49 (constant S_ .f32 0x3F800000#32),
    StableHlo.binary main_cst_49 main_v333 main_v334 (addf : (⟨S_, .f32⟩ : BufTy).Contents (Elt F) → (⟨S_, .f32⟩ : BufTy).Contents (Elt F) → (⟨S_, .f32⟩ : BufTy).Contents (Elt F)),
    StableHlo.unary main_v334 main_v335 (broadcastInDim S50000x128 ![] bcast_S_S50000x128 : (⟨S_, .f32⟩ : BufTy).Contents (Elt F) → (⟨S50000x128, .f32⟩ : BufTy).Contents (Elt F)),
    StableHlo.binary main_v335 main_v321 main_v336 (mulf : (⟨S50000x128, .f32⟩ : BufTy).Contents (Elt F) → (⟨S50000x128, .f32⟩ : BufTy).Contents (Elt F) → (⟨S50000x128, .f32⟩ : BufTy).Contents (Elt F)),
    StableHlo.binary main_v331 main_v336 main_v337 (addf : (⟨S50000x128, .f32⟩ : BufTy).Contents (Elt F) → (⟨S50000x128, .f32⟩ : BufTy).Contents (Elt F) → (⟨S50000x128, .f32⟩ : BufTy).Contents (Elt F)),
    StableHlo.unary main_arg5 main_v338 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v338 main_v339 rfl shapeCasts_S1x128x128_S128x128,
    StableHlo.binary main_v337 main_v339 main_v340 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v341 ((extractStridedSlice S1x128 ![4, 0] · slices_S5x128_S1x128_4_0) : (⟨S5x128, .f32⟩ : BufTy).Contents (Elt F) → (⟨S1x128, .f32⟩ : BufTy).Contents (Elt F)),
    StableHlo.reshape main_v341 main_v342 rfl shapeCasts_S1x128_S128,
    StableHlo.unary main_v342 main_v343 (broadcastInDim S1x128 ![1] bcast_S128_S1x128_1 : (⟨S128, .f32⟩ : BufTy).Contents (Elt F) → (⟨S1x128, .f32⟩ : BufTy).Contents (Elt F)),
    StableHlo.unary main_v343 main_v344 (broadcastInDim S50000x128 ![0, 1] bcast_S1x128_S50000x128_0_1 : (⟨S1x128, .f32⟩ : BufTy).Contents (Elt F) → (⟨S50000x128, .f32⟩ : BufTy).Contents (Elt F)),
    StableHlo.binary main_v340 main_v344 main_v345 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 40000000 in

abbrev opsA4 : List (HloOp τ sig (Elt F)) :=
  [ StableHlo.unary main_arg9 main_v346 ((extractStridedSlice S1x128 ![4, 0] · slices_S5x128_S1x128_4_0) : (⟨S5x128, .f32⟩ : BufTy).Contents (Elt F) → (⟨S1x128, .f32⟩ : BufTy).Contents (Elt F)),
    StableHlo.reshape main_v346 main_v347 rfl shapeCasts_S1x128_S128,
    StableHlo.unary main_arg10 main_v348 ((extractStridedSlice S1x128 ![4, 0] · slices_S5x128_S1x128_4_0) : (⟨S5x128, .f32⟩ : BufTy).Contents (Elt F) → (⟨S1x128, .f32⟩ : BufTy).Contents (Elt F)),
    StableHlo.reshape main_v348 main_v349 rfl shapeCasts_S1x128_S128,
    StableHlo.nullary main_cst_50 (constant S_ .f32 0x00000000#32),
    StableHlo.binary main_v345 main_cst_50 main_v350 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_51 (constant S_ .f32 0x47435000#32),
    StableHlo.unary main_cst_51 main_v351 (broadcastInDim S128 ![] bcast_S_S128 : (⟨S_, .f32⟩ : BufTy).Contents (Elt F) → (⟨S128, .f32⟩ : BufTy).Contents (Elt F)),
    StableHlo.binary main_v350 main_v351 main_v352 (Host.divf : (⟨S128, .f32⟩ : BufTy).Contents (Elt F) → (⟨S128, .f32⟩ : BufTy).Contents (Elt F) → (⟨S128, .f32⟩ : BufTy).Contents (Elt F)),
    StableHlo.nullary main_c_52 (constantI S_ 32 0#32),
    StableHlo.TRef.nullary main_call16.cst (constant S_ .f32 0x00000000#32),
    StableHlo.TRef.binary (.of main_v345 : StableHlo.TRef sig ⟨S50000x128, .f32⟩) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (.of main_v345 : StableHlo.TRef sig ⟨S50000x128, .f32⟩) main_call16.v4 main_call16.v5 subf,
    StableHlo.TRef.binary main_call16.v5 main_call16.v5 main_call16.v6 mulf,
    StableHlo.TRef.unary (.of main_c_52 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v352 main_v354 (broadcastInDim S1x128 ![1] bcast_S128_S1x128_1 : (⟨S128, .f32⟩ : BufTy).Contents (Elt F) → (⟨S1x128, .f32⟩ : BufTy).Contents (Elt F)),
    StableHlo.unary main_v354 main_v355 (broadcastInDim S50000x128 ![0, 1] bcast_S1x128_S50000x128_0_1 : (⟨S1x128, .f32⟩ : BufTy).Contents (Elt F) → (⟨S50000x128, .f32⟩ : BufTy).Contents (Elt F)),
    StableHlo.binary main_v345 main_v355 main_v356 (subf : (⟨S50000x128, .f32⟩ : BufTy).Contents (Elt F) → (⟨S50000x128, .f32⟩ : BufTy).Contents (Elt F) → (⟨S50000x128, .f32⟩ : BufTy).Contents (Elt F)),
    StableHlo.nullary main_cst_53 (constant S_ .f32 0x3727C5AC#32),
    StableHlo.unary main_cst_53 main_v357 (broadcastInDim S128 ![] bcast_S_S128 : (⟨S_, .f32⟩ : BufTy).Contents (Elt F) → (⟨S128, .f32⟩ : BufTy).Contents (Elt F)),
    StableHlo.binary main_v353 main_v357 main_v358 (addf : (⟨S128, .f32⟩ : BufTy).Contents (Elt F) → (⟨S128, .f32⟩ : BufTy).Contents (Elt F) → (⟨S128, .f32⟩ : BufTy).Contents (Elt F)),
    StableHlo.unary main_v358 main_v359 (Host.rsqrt : (⟨S128, .f32⟩ : BufTy).Contents (Elt F) → (⟨S128, .f32⟩ : BufTy).Contents (Elt F)),
    StableHlo.unary main_v359 main_v360 (broadcastInDim S1x128 ![1] bcast_S128_S1x128_1 : (⟨S128, .f32⟩ : BufTy).Contents (Elt F) → (⟨S1x128, .f32⟩ : BufTy).Contents (Elt F)),
    StableHlo.unary main_v360 main_v361 (broadcastInDim S50000x128 ![0, 1] bcast_S1x128_S50000x128_0_1 : (⟨S1x128, .f32⟩ : BufTy).Contents (Elt F) → (⟨S50000x128, .f32⟩ : BufTy).Contents (Elt F)),
    StableHlo.binary main_v356 main_v361 main_v362 (mulf : (⟨S50000x128, .f32⟩ : BufTy).Contents (Elt F) → (⟨S50000x128, .f32⟩ : BufTy).Contents (Elt F) → (⟨S50000x128, .f32⟩ : BufTy).Contents (Elt F)),
    StableHlo.unary main_v347 main_v363 (broadcastInDim S1x128 ![1] bcast_S128_S1x128_1 : (⟨S128, .f32⟩ : BufTy).Contents (Elt F) → (⟨S1x128, .f32⟩ : BufTy).Contents (Elt F)),
    StableHlo.unary main_v363 main_v364 (broadcastInDim S50000x128 ![0, 1] bcast_S1x128_S50000x128_0_1 : (⟨S1x128, .f32⟩ : BufTy).Contents (Elt F) → (⟨S50000x128, .f32⟩ : BufTy).Contents (Elt F)),
    StableHlo.binary main_v362 main_v364 main_v365 (mulf : (⟨S50000x128, .f32⟩ : BufTy).Contents (Elt F) → (⟨S50000x128, .f32⟩ : BufTy).Contents (Elt F) → (⟨S50000x128, .f32⟩ : BufTy).Contents (Elt F)),
    StableHlo.unary main_v349 main_v366 (broadcastInDim S1x128 ![1] bcast_S128_S1x128_1 : (⟨S128, .f32⟩ : BufTy).Contents (Elt F) → (⟨S1x128, .f32⟩ : BufTy).Contents (Elt F)),
    StableHlo.unary main_v366 main_v367 (broadcastInDim S50000x128 ![0, 1] bcast_S1x128_S50000x128_0_1 : (⟨S1x128, .f32⟩ : BufTy).Contents (Elt F) → (⟨S50000x128, .f32⟩ : BufTy).Contents (Elt F)),
    StableHlo.binary main_v365 main_v367 main_v368 (addf : (⟨S50000x128, .f32⟩ : BufTy).Contents (Elt F) → (⟨S50000x128, .f32⟩ : BufTy).Contents (Elt F) → (⟨S50000x128, .f32⟩ : BufTy).Contents (Elt F)),
    StableHlo.TRef.nullary main_call17.cst (constant S_ .f32 0x00000000#32),
    StableHlo.TRef.unary main_call17.cst main_call17.v0 (broadcastInDim S50000x128 ![] bcast_S_S50000x128),
    StableHlo.TRef.binary (.of main_v368 : StableHlo.TRef sig ⟨S50000x128, .f32⟩) main_call17.v0 main_call17.v1 maximumf ]

set_option maxRecDepth 8192 in
set_option maxHeartbeats 40000000 in

abbrev opsY4 : List (HloOp τ sig (Elt F)) :=
  [ StableHlo.unary main_arg7 main_v370 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v370 main_v371 rfl shapeCasts_S1x128x128_S128x128,
    StableHlo.binary main_v369 main_v371 main_v372 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v373 ((extractStridedSlice S1x128 ![4, 0] · slices_S5x128_S1x128_4_0) : (⟨S5x128, .f32⟩ : BufTy).Contents (Elt F) → (⟨S1x128, .f32⟩ : BufTy).Contents (Elt F)),
    StableHlo.reshape main_v373 main_v374 rfl shapeCasts_S1x128_S128,
    StableHlo.unary main_v374 main_v375 (broadcastInDim S1x128 ![1] bcast_S128_S1x128_1 : (⟨S128, .f32⟩ : BufTy).Contents (Elt F) → (⟨S1x128, .f32⟩ : BufTy).Contents (Elt F)),
    StableHlo.unary main_v375 main_v376 (broadcastInDim S50000x128 ![0, 1] bcast_S1x128_S50000x128_0_1 : (⟨S1x128, .f32⟩ : BufTy).Contents (Elt F) → (⟨S50000x128, .f32⟩ : BufTy).Contents (Elt F)),
    StableHlo.binary main_v372 main_v376 main_v377 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 40000000 in

abbrev opsH4 : List (HloOp τ sig (Elt F)) :=
  [ StableHlo.unary main_arg11 main_v378 ((extractStridedSlice S1x128 ![4, 0] · slices_S5x128_S1x128_4_0) : (⟨S5x128, .f32⟩ : BufTy).Contents (Elt F) → (⟨S1x128, .f32⟩ : BufTy).Contents (Elt F)),
    StableHlo.reshape main_v378 main_v379 rfl shapeCasts_S1x128_S128,
    StableHlo.unary main_arg12 main_v380 ((extractStridedSlice S1x128 ![4, 0] · slices_S5x128_S1x128_4_0) : (⟨S5x128, .f32⟩ : BufTy).Contents (Elt F) → (⟨S1x128, .f32⟩ : BufTy).Contents (Elt F)),
    StableHlo.reshape main_v380 main_v381 rfl shapeCasts_S1x128_S128,
    StableHlo.nullary main_cst_54 (constant S_ .f32 0x00000000#32),
    StableHlo.binary main_v377 main_cst_54 main_v382 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_55 (constant S_ .f32 0x47435000#32),
    StableHlo.unary main_cst_55 main_v383 (broadcastInDim S128 ![] bcast_S_S128 : (⟨S_, .f32⟩ : BufTy).Contents (Elt F) → (⟨S128, .f32⟩ : BufTy).Contents (Elt F)),
    StableHlo.binary main_v382 main_v383 main_v384 (Host.divf : (⟨S128, .f32⟩ : BufTy).Contents (Elt F) → (⟨S128, .f32⟩ : BufTy).Contents (Elt F) → (⟨S128, .f32⟩ : BufTy).Contents (Elt F)),
    StableHlo.nullary main_c_56 (constantI S_ 32 0#32),
    StableHlo.TRef.nullary main_call18.cst (constant S_ .f32 0x00000000#32),
    StableHlo.TRef.binary (.of main_v377 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v377 : StableHlo.TRef sig ⟨S50000x128, .f32⟩) main_call18.v4 main_call18.v5 subf,
    StableHlo.TRef.binary main_call18.v5 main_call18.v5 main_call18.v6 mulf,
    StableHlo.TRef.unary (.of main_c_56 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v384 main_v386 (broadcastInDim S1x128 ![1] bcast_S128_S1x128_1 : (⟨S128, .f32⟩ : BufTy).Contents (Elt F) → (⟨S1x128, .f32⟩ : BufTy).Contents (Elt F)),
    StableHlo.unary main_v386 main_v387 (broadcastInDim S50000x128 ![0, 1] bcast_S1x128_S50000x128_0_1 : (⟨S1x128, .f32⟩ : BufTy).Contents (Elt F) → (⟨S50000x128, .f32⟩ : BufTy).Contents (Elt F)),
    StableHlo.binary main_v377 main_v387 main_v388 (subf : (⟨S50000x128, .f32⟩ : BufTy).Contents (Elt F) → (⟨S50000x128, .f32⟩ : BufTy).Contents (Elt F) → (⟨S50000x128, .f32⟩ : BufTy).Contents (Elt F)),
    StableHlo.nullary main_cst_57 (constant S_ .f32 0x3727C5AC#32),
    StableHlo.unary main_cst_57 main_v389 (broadcastInDim S128 ![] bcast_S_S128 : (⟨S_, .f32⟩ : BufTy).Contents (Elt F) → (⟨S128, .f32⟩ : BufTy).Contents (Elt F)),
    StableHlo.binary main_v385 main_v389 main_v390 (addf : (⟨S128, .f32⟩ : BufTy).Contents (Elt F) → (⟨S128, .f32⟩ : BufTy).Contents (Elt F) → (⟨S128, .f32⟩ : BufTy).Contents (Elt F)),
    StableHlo.unary main_v390 main_v391 (Host.rsqrt : (⟨S128, .f32⟩ : BufTy).Contents (Elt F) → (⟨S128, .f32⟩ : BufTy).Contents (Elt F)),
    StableHlo.unary main_v391 main_v392 (broadcastInDim S1x128 ![1] bcast_S128_S1x128_1 : (⟨S128, .f32⟩ : BufTy).Contents (Elt F) → (⟨S1x128, .f32⟩ : BufTy).Contents (Elt F)),
    StableHlo.unary main_v392 main_v393 (broadcastInDim S50000x128 ![0, 1] bcast_S1x128_S50000x128_0_1 : (⟨S1x128, .f32⟩ : BufTy).Contents (Elt F) → (⟨S50000x128, .f32⟩ : BufTy).Contents (Elt F)),
    StableHlo.binary main_v388 main_v393 main_v394 (mulf : (⟨S50000x128, .f32⟩ : BufTy).Contents (Elt F) → (⟨S50000x128, .f32⟩ : BufTy).Contents (Elt F) → (⟨S50000x128, .f32⟩ : BufTy).Contents (Elt F)),
    StableHlo.unary main_v379 main_v395 (broadcastInDim S1x128 ![1] bcast_S128_S1x128_1 : (⟨S128, .f32⟩ : BufTy).Contents (Elt F) → (⟨S1x128, .f32⟩ : BufTy).Contents (Elt F)),
    StableHlo.unary main_v395 main_v396 (broadcastInDim S50000x128 ![0, 1] bcast_S1x128_S50000x128_0_1 : (⟨S1x128, .f32⟩ : BufTy).Contents (Elt F) → (⟨S50000x128, .f32⟩ : BufTy).Contents (Elt F)),
    StableHlo.binary main_v394 main_v396 main_v397 (mulf : (⟨S50000x128, .f32⟩ : BufTy).Contents (Elt F) → (⟨S50000x128, .f32⟩ : BufTy).Contents (Elt F) → (⟨S50000x128, .f32⟩ : BufTy).Contents (Elt F)),
    StableHlo.unary main_v381 main_v398 (broadcastInDim S1x128 ![1] bcast_S128_S1x128_1 : (⟨S128, .f32⟩ : BufTy).Contents (Elt F) → (⟨S1x128, .f32⟩ : BufTy).Contents (Elt F)),
    StableHlo.unary main_v398 main_v399 (broadcastInDim S50000x128 ![0, 1] bcast_S1x128_S50000x128_0_1 : (⟨S1x128, .f32⟩ : BufTy).Contents (Elt F) → (⟨S50000x128, .f32⟩ : BufTy).Contents (Elt F)),
    StableHlo.binary main_v397 main_v399 main_v400 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (.of main_v400 : StableHlo.TRef sig ⟨S50000x128, .f32⟩) main_call19.v0 main_call19.v1 maximumf ]

set_option maxRecDepth 8192 in
set_option maxHeartbeats 40000000 in

abbrev opsP : List (HloOp τ sig (Elt F)) :=
  [ StableHlo.nullary main_cst_58 (constant S_ .f32 0x00000000#32),
    StableHlo.unary main_cst_58 main_v402 (broadcastInDim S128x200 ![] bcast_S_S128x200 : (⟨S_, .f32⟩ : BufTy).Contents (Elt F) → (⟨S128x200, .f32⟩ : BufTy).Contents (Elt F)),
    StableHlo.unary main_arg2 main_v403 (broadcastInDim S50000x1 ![0] bcast_S50000_S50000x1_0 : (⟨S50000, .i32⟩ : BufTy).Contents (Elt F) → (⟨S50000x1, .i32⟩ : BufTy).Contents (Elt F)),
    StableHlo.ternary main_v402 main_v403 main_arg0 main_v404 ((fun x i u => Host.scatterAdd scatter_S128x200_S50000x1_S50000x200_1_0_0_1 x i u) : (⟨S128x200, .f32⟩ : BufTy).Contents (Elt F) → (⟨S50000x1, .i32⟩ : BufTy).Contents (Elt F) → (⟨S50000x200, .f32⟩ : BufTy).Contents (Elt F) → (⟨S128x200, .f32⟩ : BufTy).Contents (Elt F)),
    StableHlo.nullary main_cst_59 (constant S_ .f32 0x00000000#32),
    StableHlo.unary main_cst_59 main_v405 (broadcastInDim S128x128 ![] bcast_S_S128x128 : (⟨S_, .f32⟩ : BufTy).Contents (Elt F) → (⟨S128x128, .f32⟩ : BufTy).Contents (Elt F)),
    StableHlo.unary main_arg2 main_v406 (broadcastInDim S50000x1 ![0] bcast_S50000_S50000x1_0 : (⟨S50000, .i32⟩ : BufTy).Contents (Elt F) → (⟨S50000x1, .i32⟩ : BufTy).Contents (Elt F)),
    StableHlo.ternary main_v405 main_v406 main_v81 main_v407 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_60 (constant S_ .f32 0x00000000#32),
    StableHlo.unary main_cst_60 main_v408 (broadcastInDim S128x128 ![] bcast_S_S128x128 : (⟨S_, .f32⟩ : BufTy).Contents (Elt F) → (⟨S128x128, .f32⟩ : BufTy).Contents (Elt F)),
    StableHlo.unary main_arg2 main_v409 (broadcastInDim S50000x1 ![0] bcast_S50000_S50000x1_0 : (⟨S50000, .i32⟩ : BufTy).Contents (Elt F) → (⟨S50000x1, .i32⟩ : BufTy).Contents (Elt F)),
    StableHlo.ternary main_v408 main_v409 main_v161 main_v410 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_61 (constant S_ .f32 0x00000000#32),
    StableHlo.unary main_cst_61 main_v411 (broadcastInDim S128x128 ![] bcast_S_S128x128 : (⟨S_, .f32⟩ : BufTy).Contents (Elt F) → (⟨S128x128, .f32⟩ : BufTy).Contents (Elt F)),
    StableHlo.unary main_arg2 main_v412 (broadcastInDim S50000x1 ![0] bcast_S50000_S50000x1_0 : (⟨S50000, .i32⟩ : BufTy).Contents (Elt F) → (⟨S50000x1, .i32⟩ : BufTy).Contents (Elt F)),
    StableHlo.ternary main_v411 main_v412 main_v241 main_v413 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_62 (constant S_ .f32 0x00000000#32),
    StableHlo.unary main_cst_62 main_v414 (broadcastInDim S128x128 ![] bcast_S_S128x128 : (⟨S_, .f32⟩ : BufTy).Contents (Elt F) → (⟨S128x128, .f32⟩ : BufTy).Contents (Elt F)),
    StableHlo.unary main_arg2 main_v415 (broadcastInDim S50000x1 ![0] bcast_S50000_S50000x1_0 : (⟨S50000, .i32⟩ : BufTy).Contents (Elt F) → (⟨S50000x1, .i32⟩ : BufTy).Contents (Elt F)),
    StableHlo.ternary main_v414 main_v415 main_v321 main_v416 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_63 (constant S_ .f32 0x00000000#32),
    StableHlo.unary main_cst_63 main_v417 (broadcastInDim S128x128 ![] bcast_S_S128x128 : (⟨S_, .f32⟩ : BufTy).Contents (Elt F) → (⟨S128x128, .f32⟩ : BufTy).Contents (Elt F)),
    StableHlo.unary main_arg2 main_v418 (broadcastInDim S50000x1 ![0] bcast_S50000_S50000x1_0 : (⟨S50000, .i32⟩ : BufTy).Contents (Elt F) → (⟨S50000x1, .i32⟩ : BufTy).Contents (Elt F)),
    StableHlo.ternary main_v417 main_v418 main_v401 main_v419 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)) ]

set_option maxRecDepth 65536 in
set_option maxHeartbeats 40000000 in

theorem ops_eq_stages : (ops : List (HloOp τ sig (Elt F))) =
    opsZ0 ++ (opsA0 ++ (opsY0 ++ (opsH0 ++ (opsZ1 ++ (opsA1 ++ (opsY1 ++ (opsH1 ++ (opsZ2 ++ (opsA2 ++ (opsY2 ++ (opsH2 ++ (opsZ3 ++ (opsA3 ++ (opsY3 ++ (opsH3 ++ (opsZ4 ++ (opsA4 ++ (opsY4 ++ (opsH4 ++ (opsP)))))))))))))))))))) := rfl

end Cert.ReferenceIdeal.RefRun

end
-- ==== Proof.RefStage012.lean ====
import proofs.«410724_j86964497809599_1_alg».proof.Proof.RefStages
import proofs.«410724_j86964497809599_1_alg».proof.Proof.SpecNet

noncomputable section

namespace Cert.ReferenceIdeal.RefRead

open Cert.ReferenceIdeal Cert.ReferenceIdeal.Facts₀ Cert.ReferenceIdeal.RefRun Cert.Spec
open Idealize.ShloMosaic Idealize.ShloMosaic.TcCoe Idealize.SL.Sem Idealize.ShloMosaic.StableHlo

set_option maxRecDepth 8192 in
set_option maxHeartbeats 1000000 in

theorem stageZ0_v1 (U : Valuation τ sig (Elt Ideal)) :
    after (opsZ0 (F := Ideal)) U (Proc.devRef .tc main_v1) =
      rowIdx (U (Proc.devRef .tc main_arg1)) := by
  simp only [opsZ0]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageZ0_v3 (U : Valuation τ sig (Elt Ideal)) :
    after (opsZ0 (F := Ideal)) U (Proc.devRef .tc main_v3) =
      colIdx (U (Proc.devRef .tc main_arg1)) := by
  simp only [opsZ0]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageZ0 (U : Valuation τ sig (Elt Ideal)) :
    after (opsZ0 (F := Ideal)) U (Proc.devRef .tc main_v25) =
      lin200 (agg200 (U (Proc.devRef .tc main_arg0)) (rowIdx (U (Proc.devRef .tc main_arg1))) (colIdx (U (Proc.devRef .tc main_arg1))) (pS5 ![0] (U (Proc.devRef .tc main_arg3)) slices_S5_S1_0))
        (U (Proc.devRef .tc main_arg4)) (row (p128 ![0, 0] (U (Proc.devRef .tc main_arg6)) slices_S5x128_S1x128_0_0)) := by
  simp only [opsZ0]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageA0 (U : Valuation τ sig (Elt Ideal)) :
    after (opsA0 (F := Ideal)) U (Proc.devRef .tc main_v49) =
      bnreluR (U (Proc.devRef .tc main_v25)) (p128 ![0, 0] (U (Proc.devRef .tc main_arg9)) slices_S5x128_S1x128_0_0) (p128 ![0, 0] (U (Proc.devRef .tc main_arg10)) slices_S5x128_S1x128_0_0) := by
  simp only [opsA0]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageY0 (U : Valuation τ sig (Elt Ideal)) :
    after (opsY0 (F := Ideal)) U (Proc.devRef .tc main_v57) =
      lin128 (U (Proc.devRef .tc main_v49)) (pW5 ![0, 0, 0] (U (Proc.devRef .tc main_arg7)) slices_S5x128x128_S1x128x128_0_0_0) (row (p128 ![0, 0] (U (Proc.devRef .tc main_arg8)) slices_S5x128_S1x128_0_0)) := by
  simp only [opsY0]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageH0 (U : Valuation τ sig (Elt Ideal)) :
    after (opsH0 (F := Ideal)) U (Proc.devRef .tc main_v81) =
      bnreluR (U (Proc.devRef .tc main_v57)) (p128 ![0, 0] (U (Proc.devRef .tc main_arg11)) slices_S5x128_S1x128_0_0) (p128 ![0, 0] (U (Proc.devRef .tc main_arg12)) slices_S5x128_S1x128_0_0) := by
  simp only [opsH0]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageZ1 (U : Valuation τ sig (Elt Ideal)) :
    after (opsZ1 (F := Ideal)) U (Proc.devRef .tc main_v105) =
      lin128 (agg128 (U (Proc.devRef .tc main_v81)) (U (Proc.devRef .tc main_v1)) (U (Proc.devRef .tc main_v3)) (pS5 ![1] (U (Proc.devRef .tc main_arg3)) slices_S5_S1_1))
        (pW4 ![0, 0, 0] (U (Proc.devRef .tc main_arg5)) slices_S4x128x128_S1x128x128_0_0_0) (row (p128 ![1, 0] (U (Proc.devRef .tc main_arg6)) slices_S5x128_S1x128_1_0)) := by
  simp only [opsZ1]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageA1 (U : Valuation τ sig (Elt Ideal)) :
    after (opsA1 (F := Ideal)) U (Proc.devRef .tc main_v129) =
      bnreluR (U (Proc.devRef .tc main_v105)) (p128 ![1, 0] (U (Proc.devRef .tc main_arg9)) slices_S5x128_S1x128_1_0) (p128 ![1, 0] (U (Proc.devRef .tc main_arg10)) slices_S5x128_S1x128_1_0) := by
  simp only [opsA1]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageY1 (U : Valuation τ sig (Elt Ideal)) :
    after (opsY1 (F := Ideal)) U (Proc.devRef .tc main_v137) =
      lin128 (U (Proc.devRef .tc main_v129)) (pW5 ![1, 0, 0] (U (Proc.devRef .tc main_arg7)) slices_S5x128x128_S1x128x128_1_0_0) (row (p128 ![1, 0] (U (Proc.devRef .tc main_arg8)) slices_S5x128_S1x128_1_0)) := by
  simp only [opsY1]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageH1 (U : Valuation τ sig (Elt Ideal)) :
    after (opsH1 (F := Ideal)) U (Proc.devRef .tc main_v161) =
      bnreluR (U (Proc.devRef .tc main_v137)) (p128 ![1, 0] (U (Proc.devRef .tc main_arg11)) slices_S5x128_S1x128_1_0) (p128 ![1, 0] (U (Proc.devRef .tc main_arg12)) slices_S5x128_S1x128_1_0) := by
  simp only [opsH1]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageZ2 (U : Valuation τ sig (Elt Ideal)) :
    after (opsZ2 (F := Ideal)) U (Proc.devRef .tc main_v185) =
      lin128 (agg128 (U (Proc.devRef .tc main_v161)) (U (Proc.devRef .tc main_v1)) (U (Proc.devRef .tc main_v3)) (pS5 ![2] (U (Proc.devRef .tc main_arg3)) slices_S5_S1_2))
        (pW4 ![1, 0, 0] (U (Proc.devRef .tc main_arg5)) slices_S4x128x128_S1x128x128_1_0_0) (row (p128 ![2, 0] (U (Proc.devRef .tc main_arg6)) slices_S5x128_S1x128_2_0)) := by
  simp only [opsZ2]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageA2 (U : Valuation τ sig (Elt Ideal)) :
    after (opsA2 (F := Ideal)) U (Proc.devRef .tc main_v209) =
      bnreluR (U (Proc.devRef .tc main_v185)) (p128 ![2, 0] (U (Proc.devRef .tc main_arg9)) slices_S5x128_S1x128_2_0) (p128 ![2, 0] (U (Proc.devRef .tc main_arg10)) slices_S5x128_S1x128_2_0) := by
  simp only [opsA2]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageY2 (U : Valuation τ sig (Elt Ideal)) :
    after (opsY2 (F := Ideal)) U (Proc.devRef .tc main_v217) =
      lin128 (U (Proc.devRef .tc main_v209)) (pW5 ![2, 0, 0] (U (Proc.devRef .tc main_arg7)) slices_S5x128x128_S1x128x128_2_0_0) (row (p128 ![2, 0] (U (Proc.devRef .tc main_arg8)) slices_S5x128_S1x128_2_0)) := by
  simp only [opsY2]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageH2 (U : Valuation τ sig (Elt Ideal)) :
    after (opsH2 (F := Ideal)) U (Proc.devRef .tc main_v241) =
      bnreluR (U (Proc.devRef .tc main_v217)) (p128 ![2, 0] (U (Proc.devRef .tc main_arg11)) slices_S5x128_S1x128_2_0) (p128 ![2, 0] (U (Proc.devRef .tc main_arg12)) slices_S5x128_S1x128_2_0) := by
  simp only [opsH2]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

end Cert.ReferenceIdeal.RefRead

end
-- ==== Proof.RefStage34.lean ====
import proofs.«410724_j86964497809599_1_alg».proof.Proof.RefStages
import proofs.«410724_j86964497809599_1_alg».proof.Proof.SpecNet

noncomputable section

namespace Cert.ReferenceIdeal.RefRead

open Cert.ReferenceIdeal Cert.ReferenceIdeal.Facts₀ Cert.ReferenceIdeal.RefRun Cert.Spec
open Idealize.ShloMosaic Idealize.ShloMosaic.TcCoe Idealize.SL.Sem Idealize.ShloMosaic.StableHlo

set_option maxRecDepth 8192 in
set_option maxHeartbeats 1000000 in

theorem stageZ3 (U : Valuation τ sig (Elt Ideal)) :
    after (opsZ3 (F := Ideal)) U (Proc.devRef .tc main_v265) =
      lin128 (agg128 (U (Proc.devRef .tc main_v241)) (U (Proc.devRef .tc main_v1)) (U (Proc.devRef .tc main_v3)) (pS5 ![3] (U (Proc.devRef .tc main_arg3)) slices_S5_S1_3))
        (pW4 ![2, 0, 0] (U (Proc.devRef .tc main_arg5)) slices_S4x128x128_S1x128x128_2_0_0) (row (p128 ![3, 0] (U (Proc.devRef .tc main_arg6)) slices_S5x128_S1x128_3_0)) := by
  simp only [opsZ3]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageA3 (U : Valuation τ sig (Elt Ideal)) :
    after (opsA3 (F := Ideal)) U (Proc.devRef .tc main_v289) =
      bnreluR (U (Proc.devRef .tc main_v265)) (p128 ![3, 0] (U (Proc.devRef .tc main_arg9)) slices_S5x128_S1x128_3_0) (p128 ![3, 0] (U (Proc.devRef .tc main_arg10)) slices_S5x128_S1x128_3_0) := by
  simp only [opsA3]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageY3 (U : Valuation τ sig (Elt Ideal)) :
    after (opsY3 (F := Ideal)) U (Proc.devRef .tc main_v297) =
      lin128 (U (Proc.devRef .tc main_v289)) (pW5 ![3, 0, 0] (U (Proc.devRef .tc main_arg7)) slices_S5x128x128_S1x128x128_3_0_0) (row (p128 ![3, 0] (U (Proc.devRef .tc main_arg8)) slices_S5x128_S1x128_3_0)) := by
  simp only [opsY3]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageH3 (U : Valuation τ sig (Elt Ideal)) :
    after (opsH3 (F := Ideal)) U (Proc.devRef .tc main_v321) =
      bnreluR (U (Proc.devRef .tc main_v297)) (p128 ![3, 0] (U (Proc.devRef .tc main_arg11)) slices_S5x128_S1x128_3_0) (p128 ![3, 0] (U (Proc.devRef .tc main_arg12)) slices_S5x128_S1x128_3_0) := by
  simp only [opsH3]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageZ4 (U : Valuation τ sig (Elt Ideal)) :
    after (opsZ4 (F := Ideal)) U (Proc.devRef .tc main_v345) =
      lin128 (agg128 (U (Proc.devRef .tc main_v321)) (U (Proc.devRef .tc main_v1)) (U (Proc.devRef .tc main_v3)) (pS5 ![4] (U (Proc.devRef .tc main_arg3)) slices_S5_S1_4))
        (pW4 ![3, 0, 0] (U (Proc.devRef .tc main_arg5)) slices_S4x128x128_S1x128x128_3_0_0) (row (p128 ![4, 0] (U (Proc.devRef .tc main_arg6)) slices_S5x128_S1x128_4_0)) := by
  simp only [opsZ4]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageA4 (U : Valuation τ sig (Elt Ideal)) :
    after (opsA4 (F := Ideal)) U (Proc.devRef .tc main_v369) =
      bnreluR (U (Proc.devRef .tc main_v345)) (p128 ![4, 0] (U (Proc.devRef .tc main_arg9)) slices_S5x128_S1x128_4_0) (p128 ![4, 0] (U (Proc.devRef .tc main_arg10)) slices_S5x128_S1x128_4_0) := by
  simp only [opsA4]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageY4 (U : Valuation τ sig (Elt Ideal)) :
    after (opsY4 (F := Ideal)) U (Proc.devRef .tc main_v377) =
      lin128 (U (Proc.devRef .tc main_v369)) (pW5 ![4, 0, 0] (U (Proc.devRef .tc main_arg7)) slices_S5x128x128_S1x128x128_4_0_0) (row (p128 ![4, 0] (U (Proc.devRef .tc main_arg8)) slices_S5x128_S1x128_4_0)) := by
  simp only [opsY4]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

set_option maxRecDepth 8192 in
set_option maxHeartbeats 1000000 in

theorem stageH4 (U : Valuation τ sig (Elt Ideal)) :
    after (opsH4 (F := Ideal)) U (Proc.devRef .tc main_v401) =
      bnreluR (U (Proc.devRef .tc main_v377)) (p128 ![4, 0] (U (Proc.devRef .tc main_arg11)) slices_S5x128_S1x128_4_0) (p128 ![4, 0] (U (Proc.devRef .tc main_arg12)) slices_S5x128_S1x128_4_0) := by
  simp only [opsH4]
  after_results_simp
  try simp only [TRef.toBuf, TRef.ofBuf, cast_eq]
  simp only [bnreluR, meanR, varR, colsum, normR, lin128, lin200, agg128, agg200, srcIdx, dstIdx, rowIdx, colIdx, row, rows, p128, pS5, pW5, pW4, zeroS, nS, epsS, oneS]
  rfl

end Cert.ReferenceIdeal.RefRead

end
-- ==== Proof.RefStagesKeep.lean ====
import proofs.«410724_j86964497809599_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsZ0_W : List (Ref sig .tc) :=
  [main_v0, main_v1, main_v2, main_v3, main_c, main_v4, main_v5, main_c_0,
   main_v6, main_v7, main_v8, main_v9, main_v10, main_cst, main_v11, main_v12,
   main_v13, main_v14, main_v15, main_cst_1, main_v16, main_v17, main_v18, main_v19,
   main_v20, main_v21, main_v22, main_v23, main_v24, main_v25]
set_option maxRecDepth 8192 in
theorem opsZ0_writes : (opsZ0 : List (HloOp τ sig (Elt F))).Forall fun op =>
    op.writes ⊆ (opsZ0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsZ0_keep (U : Valuation τ sig (Elt F)) (r : Ref sig .tc) (h : r ∉ opsZ0_W) :
    after opsZ0 U (Proc.devRef .tc r) = U (Proc.devRef .tc r) :=
  after_of_writes_sub opsZ0 U opsZ0_writes h

abbrev opsA0_W : List (Ref sig .tc) :=
  [main_v26, main_v27, main_v28, main_v29, main_cst_2, main_v30, main_cst_3, main_v31,
   main_v32, main_c_4, main_call0.cst.ref, main_call0.v0.ref, main_call0.v1.ref, main_call0.cst_0.ref, main_call0.v2.ref, main_call0.v3.ref,
   main_call0.v4.ref, main_call0.v5.ref, main_call0.v6.ref, main_call0.v7.ref, main_call0.cst_1.ref, main_call0.v8.ref, main_call0.cst_2.ref, main_call0.v9.ref,
   main_call0.v10.ref, main_call0.v11.ref, main_call0.cst_3.ref, main_call0.v12.ref, main_call0.cst_4.ref, main_call0.call0.v0.ref, main_call0.call0.v1.ref, main_call0.call0.v2.ref,
   main_v34, main_v35, main_v36, main_cst_5, main_v37, main_v38, main_v39, main_v40,
   main_v41, main_v42, main_v43, main_v44, main_v45, main_v46, main_v47, main_v48,
   main_call1.cst.ref, main_call1.v0.ref, main_call1.v1.ref]
set_option maxRecDepth 8192 in
theorem opsA0_writes : (opsA0 : List (HloOp τ sig (Elt F))).Forall fun op =>
    op.writes ⊆ (opsA0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsA0_keep (U : Valuation τ sig (Elt F)) (r : Ref sig .tc) (h : r ∉ opsA0_W) :
    after opsA0 U (Proc.devRef .tc r) = U (Proc.devRef .tc r) :=
  after_of_writes_sub opsA0 U opsA0_writes h

abbrev opsY0_W : List (Ref sig .tc) :=
  [main_v50, main_v51, main_v52, main_v53, main_v54, main_v55, main_v56, main_v57]
set_option maxRecDepth 8192 in
theorem opsY0_writes : (opsY0 : List (HloOp τ sig (Elt F))).Forall fun op =>
    op.writes ⊆ (opsY0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsY0_keep (U : Valuation τ sig (Elt F)) (r : Ref sig .tc) (h : r ∉ opsY0_W) :
    after opsY0 U (Proc.devRef .tc r) = U (Proc.devRef .tc r) :=
  after_of_writes_sub opsY0 U opsY0_writes h

abbrev opsH0_W : List (Ref sig .tc) :=
  [main_v58, main_v59, main_v60, main_v61, main_cst_6, main_v62, main_cst_7, main_v63,
   main_v64, main_c_8, main_call2.cst.ref, main_call2.v0.ref, main_call2.v1.ref, main_call2.cst_0.ref, main_call2.v2.ref, main_call2.v3.ref,
   main_call2.v4.ref, main_call2.v5.ref, main_call2.v6.ref, main_call2.v7.ref, main_call2.cst_1.ref, main_call2.v8.ref, main_call2.cst_2.ref, main_call2.v9.ref,
   main_call2.v10.ref, main_call2.v11.ref, main_call2.cst_3.ref, main_call2.v12.ref, main_call2.cst_4.ref, main_call2.call0.v0.ref, main_call2.call0.v1.ref, main_call2.call0.v2.ref,
   main_v66, main_v67, main_v68, main_cst_9, main_v69, main_v70, main_v71, main_v72,
   main_v73, main_v74, main_v75, main_v76, main_v77, main_v78, main_v79, main_v80,
   main_call3.cst.ref, main_call3.v0.ref, main_call3.v1.ref]
set_option maxRecDepth 8192 in
theorem opsH0_writes : (opsH0 : List (HloOp τ sig (Elt F))).Forall fun op =>
    op.writes ⊆ (opsH0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsH0_keep (U : Valuation τ sig (Elt F)) (r : Ref sig .tc) (h : r ∉ opsH0_W) :
    after opsH0 U (Proc.devRef .tc r) = U (Proc.devRef .tc r) :=
  after_of_writes_sub opsH0 U opsH0_writes h

abbrev opsZ1_W : List (Ref sig .tc) :=
  [main_c_10, main_v82, main_v83, main_c_11, main_v84, main_v85, main_v86, main_v87,
   main_v88, main_cst_12, main_v89, main_v90, main_v91, main_v92, main_v93, main_cst_13,
   main_v94, main_v95, main_v96, main_v97, main_v98, main_v99, main_v100, main_v101,
   main_v102, main_v103, main_v104, main_v105]
set_option maxRecDepth 8192 in
theorem opsZ1_writes : (opsZ1 : List (HloOp τ sig (Elt F))).Forall fun op =>
    op.writes ⊆ (opsZ1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsZ1_keep (U : Valuation τ sig (Elt F)) (r : Ref sig .tc) (h : r ∉ opsZ1_W) :
    after opsZ1 U (Proc.devRef .tc r) = U (Proc.devRef .tc r) :=
  after_of_writes_sub opsZ1 U opsZ1_writes h

abbrev opsA1_W : List (Ref sig .tc) :=
  [main_v106, main_v107, main_v108, main_v109, main_cst_14, main_v110, main_cst_15, main_v111,
   main_v112, main_c_16, main_call4.cst.ref, main_call4.v0.ref, main_call4.v1.ref, main_call4.cst_0.ref, main_call4.v2.ref, main_call4.v3.ref,
   main_call4.v4.ref, main_call4.v5.ref, main_call4.v6.ref, main_call4.v7.ref, main_call4.cst_1.ref, main_call4.v8.ref, main_call4.cst_2.ref, main_call4.v9.ref,
   main_call4.v10.ref, main_call4.v11.ref, main_call4.cst_3.ref, main_call4.v12.ref, main_call4.cst_4.ref, main_call4.call0.v0.ref, main_call4.call0.v1.ref, main_call4.call0.v2.ref,
   main_v114, main_v115, main_v116, main_cst_17, main_v117, main_v118, main_v119, main_v120,
   main_v121, main_v122, main_v123, main_v124, main_v125, main_v126, main_v127, main_v128,
   main_call5.cst.ref, main_call5.v0.ref, main_call5.v1.ref]
set_option maxRecDepth 8192 in
theorem opsA1_writes : (opsA1 : List (HloOp τ sig (Elt F))).Forall fun op =>
    op.writes ⊆ (opsA1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsA1_keep (U : Valuation τ sig (Elt F)) (r : Ref sig .tc) (h : r ∉ opsA1_W) :
    after opsA1 U (Proc.devRef .tc r) = U (Proc.devRef .tc r) :=
  after_of_writes_sub opsA1 U opsA1_writes h

abbrev opsY1_W : List (Ref sig .tc) :=
  [main_v130, main_v131, main_v132, main_v133, main_v134, main_v135, main_v136, main_v137]
set_option maxRecDepth 8192 in
theorem opsY1_writes : (opsY1 : List (HloOp τ sig (Elt F))).Forall fun op =>
    op.writes ⊆ (opsY1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsY1_keep (U : Valuation τ sig (Elt F)) (r : Ref sig .tc) (h : r ∉ opsY1_W) :
    after opsY1 U (Proc.devRef .tc r) = U (Proc.devRef .tc r) :=
  after_of_writes_sub opsY1 U opsY1_writes h

abbrev opsH1_W : List (Ref sig .tc) :=
  [main_v138, main_v139, main_v140, main_v141, main_cst_18, main_v142, main_cst_19, main_v143,
   main_v144, main_c_20, main_call6.cst.ref, main_call6.v0.ref, main_call6.v1.ref, main_call6.cst_0.ref, main_call6.v2.ref, main_call6.v3.ref,
   main_call6.v4.ref, main_call6.v5.ref, main_call6.v6.ref, main_call6.v7.ref, main_call6.cst_1.ref, main_call6.v8.ref, main_call6.cst_2.ref, main_call6.v9.ref,
   main_call6.v10.ref, main_call6.v11.ref, main_call6.cst_3.ref, main_call6.v12.ref, main_call6.cst_4.ref, main_call6.call0.v0.ref, main_call6.call0.v1.ref, main_call6.call0.v2.ref,
   main_v146, main_v147, main_v148, main_cst_21, main_v149, main_v150, main_v151, main_v152,
   main_v153, main_v154, main_v155, main_v156, main_v157, main_v158, main_v159, main_v160,
   main_call7.cst.ref, main_call7.v0.ref, main_call7.v1.ref]
set_option maxRecDepth 8192 in
theorem opsH1_writes : (opsH1 : List (HloOp τ sig (Elt F))).Forall fun op =>
    op.writes ⊆ (opsH1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsH1_keep (U : Valuation τ sig (Elt F)) (r : Ref sig .tc) (h : r ∉ opsH1_W) :
    after opsH1 U (Proc.devRef .tc r) = U (Proc.devRef .tc r) :=
  after_of_writes_sub opsH1 U opsH1_writes h

abbrev opsZ2_W : List (Ref sig .tc) :=
  [main_c_22, main_v162, main_v163, main_c_23, main_v164, main_v165, main_v166, main_v167,
   main_v168, main_cst_24, main_v169, main_v170, main_v171, main_v172, main_v173, main_cst_25,
   main_v174, main_v175, main_v176, main_v177, main_v178, main_v179, main_v180, main_v181,
   main_v182, main_v183, main_v184, main_v185]
set_option maxRecDepth 8192 in
theorem opsZ2_writes : (opsZ2 : List (HloOp τ sig (Elt F))).Forall fun op =>
    op.writes ⊆ (opsZ2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsZ2_keep (U : Valuation τ sig (Elt F)) (r : Ref sig .tc) (h : r ∉ opsZ2_W) :
    after opsZ2 U (Proc.devRef .tc r) = U (Proc.devRef .tc r) :=
  after_of_writes_sub opsZ2 U opsZ2_writes h

abbrev opsA2_W : List (Ref sig .tc) :=
  [main_v186, main_v187, main_v188, main_v189, main_cst_26, main_v190, main_cst_27, main_v191,
   main_v192, main_c_28, main_call8.cst.ref, main_call8.v0.ref, main_call8.v1.ref, main_call8.cst_0.ref, main_call8.v2.ref, main_call8.v3.ref,
   main_call8.v4.ref, main_call8.v5.ref, main_call8.v6.ref, main_call8.v7.ref, main_call8.cst_1.ref, main_call8.v8.ref, main_call8.cst_2.ref, main_call8.v9.ref,
   main_call8.v10.ref, main_call8.v11.ref, main_call8.cst_3.ref, main_call8.v12.ref, main_call8.cst_4.ref, main_call8.call0.v0.ref, main_call8.call0.v1.ref, main_call8.call0.v2.ref,
   main_v194, main_v195, main_v196, main_cst_29, main_v197, main_v198, main_v199, main_v200,
   main_v201, main_v202, main_v203, main_v204, main_v205, main_v206, main_v207, main_v208,
   main_call9.cst.ref, main_call9.v0.ref, main_call9.v1.ref]
set_option maxRecDepth 8192 in
theorem opsA2_writes : (opsA2 : List (HloOp τ sig (Elt F))).Forall fun op =>
    op.writes ⊆ (opsA2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsA2_keep (U : Valuation τ sig (Elt F)) (r : Ref sig .tc) (h : r ∉ opsA2_W) :
    after opsA2 U (Proc.devRef .tc r) = U (Proc.devRef .tc r) :=
  after_of_writes_sub opsA2 U opsA2_writes h

abbrev opsY2_W : List (Ref sig .tc) :=
  [main_v210, main_v211, main_v212, main_v213, main_v214, main_v215, main_v216, main_v217]
set_option maxRecDepth 8192 in
theorem opsY2_writes : (opsY2 : List (HloOp τ sig (Elt F))).Forall fun op =>
    op.writes ⊆ (opsY2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsY2_keep (U : Valuation τ sig (Elt F)) (r : Ref sig .tc) (h : r ∉ opsY2_W) :
    after opsY2 U (Proc.devRef .tc r) = U (Proc.devRef .tc r) :=
  after_of_writes_sub opsY2 U opsY2_writes h

abbrev opsH2_W : List (Ref sig .tc) :=
  [main_v218, main_v219, main_v220, main_v221, main_cst_30, main_v222, main_cst_31, main_v223,
   main_v224, main_c_32, main_call10.cst.ref, main_call10.v0.ref, main_call10.v1.ref, main_call10.cst_0.ref, main_call10.v2.ref, main_call10.v3.ref,
   main_call10.v4.ref, main_call10.v5.ref, main_call10.v6.ref, main_call10.v7.ref, main_call10.cst_1.ref, main_call10.v8.ref, main_call10.cst_2.ref, main_call10.v9.ref,
   main_call10.v10.ref, main_call10.v11.ref, main_call10.cst_3.ref, main_call10.v12.ref, main_call10.cst_4.ref, main_call10.call0.v0.ref, main_call10.call0.v1.ref, main_call10.call0.v2.ref,
   main_v226, main_v227, main_v228, main_cst_33, main_v229, main_v230, main_v231, main_v232,
   main_v233, main_v234, main_v235, main_v236, main_v237, main_v238, main_v239, main_v240,
   main_call11.cst.ref, main_call11.v0.ref, main_call11.v1.ref]
set_option maxRecDepth 8192 in
theorem opsH2_writes : (opsH2 : List (HloOp τ sig (Elt F))).Forall fun op =>
    op.writes ⊆ (opsH2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsH2_keep (U : Valuation τ sig (Elt F)) (r : Ref sig .tc) (h : r ∉ opsH2_W) :
    after opsH2 U (Proc.devRef .tc r) = U (Proc.devRef .tc r) :=
  after_of_writes_sub opsH2 U opsH2_writes h

abbrev opsZ3_W : List (Ref sig .tc) :=
  [main_c_34, main_v242, main_v243, main_c_35, main_v244, main_v245, main_v246, main_v247,
   main_v248, main_cst_36, main_v249, main_v250, main_v251, main_v252, main_v253, main_cst_37,
   main_v254, main_v255, main_v256, main_v257, main_v258, main_v259, main_v260, main_v261,
   main_v262, main_v263, main_v264, main_v265]
set_option maxRecDepth 8192 in
theorem opsZ3_writes : (opsZ3 : List (HloOp τ sig (Elt F))).Forall fun op =>
    op.writes ⊆ (opsZ3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsZ3_keep (U : Valuation τ sig (Elt F)) (r : Ref sig .tc) (h : r ∉ opsZ3_W) :
    after opsZ3 U (Proc.devRef .tc r) = U (Proc.devRef .tc r) :=
  after_of_writes_sub opsZ3 U opsZ3_writes h

abbrev opsA3_W : List (Ref sig .tc) :=
  [main_v266, main_v267, main_v268, main_v269, main_cst_38, main_v270, main_cst_39, main_v271,
   main_v272, main_c_40, main_call12.cst.ref, main_call12.v0.ref, main_call12.v1.ref, main_call12.cst_0.ref, main_call12.v2.ref, main_call12.v3.ref,
   main_call12.v4.ref, main_call12.v5.ref, main_call12.v6.ref, main_call12.v7.ref, main_call12.cst_1.ref, main_call12.v8.ref, main_call12.cst_2.ref, main_call12.v9.ref,
   main_call12.v10.ref, main_call12.v11.ref, main_call12.cst_3.ref, main_call12.v12.ref, main_call12.cst_4.ref, main_call12.call0.v0.ref, main_call12.call0.v1.ref, main_call12.call0.v2.ref,
   main_v274, main_v275, main_v276, main_cst_41, main_v277, main_v278, main_v279, main_v280,
   main_v281, main_v282, main_v283, main_v284, main_v285, main_v286, main_v287, main_v288,
   main_call13.cst.ref, main_call13.v0.ref, main_call13.v1.ref]
set_option maxRecDepth 8192 in
theorem opsA3_writes : (opsA3 : List (HloOp τ sig (Elt F))).Forall fun op =>
    op.writes ⊆ (opsA3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsA3_keep (U : Valuation τ sig (Elt F)) (r : Ref sig .tc) (h : r ∉ opsA3_W) :
    after opsA3 U (Proc.devRef .tc r) = U (Proc.devRef .tc r) :=
  after_of_writes_sub opsA3 U opsA3_writes h

abbrev opsY3_W : List (Ref sig .tc) :=
  [main_v290, main_v291, main_v292, main_v293, main_v294, main_v295, main_v296, main_v297]
set_option maxRecDepth 8192 in
theorem opsY3_writes : (opsY3 : List (HloOp τ sig (Elt F))).Forall fun op =>
    op.writes ⊆ (opsY3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsY3_keep (U : Valuation τ sig (Elt F)) (r : Ref sig .tc) (h : r ∉ opsY3_W) :
    after opsY3 U (Proc.devRef .tc r) = U (Proc.devRef .tc r) :=
  after_of_writes_sub opsY3 U opsY3_writes h

abbrev opsH3_W : List (Ref sig .tc) :=
  [main_v298, main_v299, main_v300, main_v301, main_cst_42, main_v302, main_cst_43, main_v303,
   main_v304, main_c_44, main_call14.cst.ref, main_call14.v0.ref, main_call14.v1.ref, main_call14.cst_0.ref, main_call14.v2.ref, main_call14.v3.ref,
   main_call14.v4.ref, main_call14.v5.ref, main_call14.v6.ref, main_call14.v7.ref, main_call14.cst_1.ref, main_call14.v8.ref, main_call14.cst_2.ref, main_call14.v9.ref,
   main_call14.v10.ref, main_call14.v11.ref, main_call14.cst_3.ref, main_call14.v12.ref, main_call14.cst_4.ref, main_call14.call0.v0.ref, main_call14.call0.v1.ref, main_call14.call0.v2.ref,
   main_v306, main_v307, main_v308, main_cst_45, main_v309, main_v310, main_v311, main_v312,
   main_v313, main_v314, main_v315, main_v316, main_v317, main_v318, main_v319, main_v320,
   main_call15.cst.ref, main_call15.v0.ref, main_call15.v1.ref]
set_option maxRecDepth 8192 in
theorem opsH3_writes : (opsH3 : List (HloOp τ sig (Elt F))).Forall fun op =>
    op.writes ⊆ (opsH3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsH3_keep (U : Valuation τ sig (Elt F)) (r : Ref sig .tc) (h : r ∉ opsH3_W) :
    after opsH3 U (Proc.devRef .tc r) = U (Proc.devRef .tc r) :=
  after_of_writes_sub opsH3 U opsH3_writes h

abbrev opsZ4_W : List (Ref sig .tc) :=
  [main_c_46, main_v322, main_v323, main_c_47, main_v324, main_v325, main_v326, main_v327,
   main_v328, main_cst_48, main_v329, main_v330, main_v331, main_v332, main_v333, main_cst_49,
   main_v334, main_v335, main_v336, main_v337, main_v338, main_v339, main_v340, main_v341,
   main_v342, main_v343, main_v344, main_v345]
set_option maxRecDepth 8192 in
theorem opsZ4_writes : (opsZ4 : List (HloOp τ sig (Elt F))).Forall fun op =>
    op.writes ⊆ (opsZ4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsZ4_keep (U : Valuation τ sig (Elt F)) (r : Ref sig .tc) (h : r ∉ opsZ4_W) :
    after opsZ4 U (Proc.devRef .tc r) = U (Proc.devRef .tc r) :=
  after_of_writes_sub opsZ4 U opsZ4_writes h

abbrev opsA4_W : List (Ref sig .tc) :=
  [main_v346, main_v347, main_v348, main_v349, main_cst_50, main_v350, main_cst_51, main_v351,
   main_v352, main_c_52, main_call16.cst.ref, main_call16.v0.ref, main_call16.v1.ref, main_call16.cst_0.ref, main_call16.v2.ref, main_call16.v3.ref,
   main_call16.v4.ref, main_call16.v5.ref, main_call16.v6.ref, main_call16.v7.ref, main_call16.cst_1.ref, main_call16.v8.ref, main_call16.cst_2.ref, main_call16.v9.ref,
   main_call16.v10.ref, main_call16.v11.ref, main_call16.cst_3.ref, main_call16.v12.ref, main_call16.cst_4.ref, main_call16.call0.v0.ref, main_call16.call0.v1.ref, main_call16.call0.v2.ref,
   main_v354, main_v355, main_v356, main_cst_53, main_v357, main_v358, main_v359, main_v360,
   main_v361, main_v362, main_v363, main_v364, main_v365, main_v366, main_v367, main_v368,
   main_call17.cst.ref, main_call17.v0.ref, main_call17.v1.ref]
set_option maxRecDepth 8192 in
theorem opsA4_writes : (opsA4 : List (HloOp τ sig (Elt F))).Forall fun op =>
    op.writes ⊆ (opsA4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsA4_keep (U : Valuation τ sig (Elt F)) (r : Ref sig .tc) (h : r ∉ opsA4_W) :
    after opsA4 U (Proc.devRef .tc r) = U (Proc.devRef .tc r) :=
  after_of_writes_sub opsA4 U opsA4_writes h

abbrev opsY4_W : List (Ref sig .tc) :=
  [main_v370, main_v371, main_v372, main_v373, main_v374, main_v375, main_v376, main_v377]
set_option maxRecDepth 8192 in
theorem opsY4_writes : (opsY4 : List (HloOp τ sig (Elt F))).Forall fun op =>
    op.writes ⊆ (opsY4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsY4_keep (U : Valuation τ sig (Elt F)) (r : Ref sig .tc) (h : r ∉ opsY4_W) :
    after opsY4 U (Proc.devRef .tc r) = U (Proc.devRef .tc r) :=
  after_of_writes_sub opsY4 U opsY4_writes h

abbrev opsH4_W : List (Ref sig .tc) :=
  [main_v378, main_v379, main_v380, main_v381, main_cst_54, main_v382, main_cst_55, main_v383,
   main_v384, main_c_56, main_call18.cst.ref, main_call18.v0.ref, main_call18.v1.ref, main_call18.cst_0.ref, main_call18.v2.ref, main_call18.v3.ref,
   main_call18.v4.ref, main_call18.v5.ref, main_call18.v6.ref, main_call18.v7.ref, main_call18.cst_1.ref, main_call18.v8.ref, main_call18.cst_2.ref, main_call18.v9.ref,
   main_call18.v10.ref, main_call18.v11.ref, main_call18.cst_3.ref, main_call18.v12.ref, main_call18.cst_4.ref, main_call18.call0.v0.ref, main_call18.call0.v1.ref, main_call18.call0.v2.ref,
   main_v386, main_v387, main_v388, main_cst_57, main_v389, main_v390, main_v391, main_v392,
   main_v393, main_v394, main_v395, main_v396, main_v397, main_v398, main_v399, main_v400,
   main_call19.cst.ref, main_call19.v0.ref, main_call19.v1.ref]
set_option maxRecDepth 8192 in
theorem opsH4_writes : (opsH4 : List (HloOp τ sig (Elt F))).Forall fun op =>
    op.writes ⊆ (opsH4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsH4_keep (U : Valuation τ sig (Elt F)) (r : Ref sig .tc) (h : r ∉ opsH4_W) :
    after opsH4 U (Proc.devRef .tc r) = U (Proc.devRef .tc r) :=
  after_of_writes_sub opsH4 U opsH4_writes h

abbrev opsP_W : List (Ref sig .tc) :=
  [main_cst_58, main_v402, main_v403, main_v404, main_cst_59, main_v405, main_v406, main_v407,
   main_cst_60, main_v408, main_v409, main_v410, main_cst_61, main_v411, main_v412, main_v413,
   main_cst_62, main_v414, main_v415, main_v416, main_cst_63, main_v417, main_v418, main_v419]
set_option maxRecDepth 8192 in
theorem opsP_writes : (opsP : List (HloOp τ sig (Elt F))).Forall fun op =>
    op.writes ⊆ (opsP_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem opsP_keep (U : Valuation τ sig (Elt F)) (r : Ref sig .tc) (h : r ∉ opsP_W) :
    after opsP U (Proc.devRef .tc r) = U (Proc.devRef .tc r) :=
  after_of_writes_sub opsP U opsP_writes h

end Cert.ReferenceIdeal.RefRun

end
-- ==== Proof.RefLayers.lean ====
import proofs.«410724_j86964497809599_1_alg».proof.Proof.RefStage012
import proofs.«410724_j86964497809599_1_alg».proof.Proof.RefStage34
import proofs.«410724_j86964497809599_1_alg».proof.Proof.RefStagesKeep

noncomputable section

namespace Cert.ReferenceIdeal.RefRead

open Cert.ReferenceIdeal Cert.ReferenceIdeal.Facts₀ Cert.ReferenceIdeal.RefRun Cert.Spec
open Idealize.ShloMosaic Idealize.ShloMosaic.TcCoe Idealize.SL.Sem Idealize.ShloMosaic.StableHlo

structure ArgsAt (A : Args) (U : Valuation τ sig (Elt Ideal)) : Prop where
  a0 : U (Proc.devRef .tc main_arg0) = A.x
  a1 : U (Proc.devRef .tc main_arg1) = A.ei
  a2 : U (Proc.devRef .tc main_arg2) = A.batch
  a3 : U (Proc.devRef .tc main_arg3) = A.eps
  a4 : U (Proc.devRef .tc main_arg4) = A.w1_0
  a5 : U (Proc.devRef .tc main_arg5) = A.w1
  a6 : U (Proc.devRef .tc main_arg6) = A.b1
  a7 : U (Proc.devRef .tc main_arg7) = A.w2
  a8 : U (Proc.devRef .tc main_arg8) = A.b2
  a9 : U (Proc.devRef .tc main_arg9) = A.g1
  a10 : U (Proc.devRef .tc main_arg10) = A.be1
  a11 : U (Proc.devRef .tc main_arg11) = A.g2
  a12 : U (Proc.devRef .tc main_arg12) = A.be2

structure IdxAt (A : Args) (U : Valuation τ sig (Elt Ideal)) : Prop where
  r : U (Proc.devRef .tc main_v1) = rowIdx A.ei
  c : U (Proc.devRef .tc main_v3) = colIdx A.ei

abbrev runL0 (U : Valuation τ sig (Elt Ideal)) : Valuation τ sig (Elt Ideal) :=
  after (opsH0 (F := Ideal)) (after (opsY0 (F := Ideal)) (after (opsA0 (F := Ideal)) (after (opsZ0 (F := Ideal)) U)))

theorem layer0_keep (U : Valuation τ sig (Elt Ideal)) (r : Ref sig .tc)
    (h : r ∉ opsZ0_W ++ (opsA0_W ++ (opsY0_W ++ opsH0_W))) :
    after (opsH0 (F := Ideal)) (after (opsY0 (F := Ideal)) (after (opsA0 (F := Ideal)) (after (opsZ0 (F := Ideal)) U)))
      (Proc.devRef .tc r) = U (Proc.devRef .tc r) := by
  have hZ : r ∉ opsZ0_W := fun m => h (List.mem_append_left _ m)
  have hA : r ∉ opsA0_W := fun m => h (List.mem_append_right _ (List.mem_append_left _ m))
  have hY : r ∉ opsY0_W := fun m => h (List.mem_append_right _ (List.mem_append_right _ (List.mem_append_left _ m)))
  have hH : r ∉ opsH0_W := fun m => h (List.mem_append_right _ (List.mem_append_right _ (List.mem_append_right _ m)))
  rw [opsH0_keep _ r hH, opsY0_keep _ r hY, opsA0_keep _ r hA, opsZ0_keep _ r hZ]

set_option maxRecDepth 8192 in

theorem runL0_args (A : Args) (U : Valuation τ sig (Elt Ideal)) (h : ArgsAt A U) : ArgsAt A (runL0 U) where
  a0 := (layer0_keep U main_arg0 (by decide)).trans h.a0
  a1 := (layer0_keep U main_arg1 (by decide)).trans h.a1
  a2 := (layer0_keep U main_arg2 (by decide)).trans h.a2
  a3 := (layer0_keep U main_arg3 (by decide)).trans h.a3
  a4 := (layer0_keep U main_arg4 (by decide)).trans h.a4
  a5 := (layer0_keep U main_arg5 (by decide)).trans h.a5
  a6 := (layer0_keep U main_arg6 (by decide)).trans h.a6
  a7 := (layer0_keep U main_arg7 (by decide)).trans h.a7
  a8 := (layer0_keep U main_arg8 (by decide)).trans h.a8
  a9 := (layer0_keep U main_arg9 (by decide)).trans h.a9
  a10 := (layer0_keep U main_arg10 (by decide)).trans h.a10
  a11 := (layer0_keep U main_arg11 (by decide)).trans h.a11
  a12 := (layer0_keep U main_arg12 (by decide)).trans h.a12

set_option maxRecDepth 8192 in

theorem layer0 (U : Valuation τ sig (Elt Ideal)) :
    after (opsH0 (F := Ideal)) (after (opsY0 (F := Ideal)) (after (opsA0 (F := Ideal)) (after (opsZ0 (F := Ideal)) U)))
      (Proc.devRef .tc main_v81) =
      bnreluR
        (lin128
          (bnreluR
            (lin200
              (agg200 (U (Proc.devRef .tc main_arg0)) (rowIdx (U (Proc.devRef .tc main_arg1))) (colIdx (U (Proc.devRef .tc main_arg1)))
                (pS5 ![0] (U (Proc.devRef .tc main_arg3)) slices_S5_S1_0))
              (U (Proc.devRef .tc main_arg4)) (row (p128 ![0, 0] (U (Proc.devRef .tc main_arg6)) slices_S5x128_S1x128_0_0)))
            (p128 ![0, 0] (U (Proc.devRef .tc main_arg9)) slices_S5x128_S1x128_0_0) (p128 ![0, 0] (U (Proc.devRef .tc main_arg10)) slices_S5x128_S1x128_0_0))
          (pW5 ![0, 0, 0] (U (Proc.devRef .tc main_arg7)) slices_S5x128x128_S1x128x128_0_0_0)
          (row (p128 ![0, 0] (U (Proc.devRef .tc main_arg8)) slices_S5x128_S1x128_0_0)))
        (p128 ![0, 0] (U (Proc.devRef .tc main_arg11)) slices_S5x128_S1x128_0_0) (p128 ![0, 0] (U (Proc.devRef .tc main_arg12)) slices_S5x128_S1x128_0_0) := by
  rw [stageH0, stageY0, stageA0, stageZ0,
    opsY0_keep _ main_arg11 (by decide), opsA0_keep _ main_arg11 (by decide), opsZ0_keep _ main_arg11 (by decide),
    opsY0_keep _ main_arg12 (by decide), opsA0_keep _ main_arg12 (by decide), opsZ0_keep _ main_arg12 (by decide),
    opsA0_keep _ main_arg7 (by decide), opsZ0_keep _ main_arg7 (by decide),
    opsA0_keep _ main_arg8 (by decide), opsZ0_keep _ main_arg8 (by decide),
    opsZ0_keep _ main_arg9 (by decide), opsZ0_keep _ main_arg10 (by decide)]

theorem layer0_spec (A : Args) (U : Valuation τ sig (Elt Ideal)) (ha : ArgsAt A U) :
    after (opsH0 (F := Ideal)) (after (opsY0 (F := Ideal)) (after (opsA0 (F := Ideal)) (after (opsZ0 (F := Ideal)) U)))
      (Proc.devRef .tc main_v81) = h1R A := by
  rw [layer0, ha.a0, ha.a1, ha.a3, ha.a4, ha.a6, ha.a7, ha.a8, ha.a9, ha.a10, ha.a11, ha.a12]
  simp only [h1R, afterR, layerR, z0, lp0]

set_option maxRecDepth 8192 in

theorem runL0_idx (A : Args) (U : Valuation τ sig (Elt Ideal)) (ha : ArgsAt A U) : IdxAt A (runL0 U) where
  r := by
    show after opsH0 (after opsY0 (after opsA0 (after opsZ0 U))) _ = _
    rw [opsH0_keep _ main_v1 (by decide), opsY0_keep _ main_v1 (by decide), opsA0_keep _ main_v1 (by decide), stageZ0_v1, ha.a1]
  c := by
    show after opsH0 (after opsY0 (after opsA0 (after opsZ0 U))) _ = _
    rw [opsH0_keep _ main_v3 (by decide), opsY0_keep _ main_v3 (by decide), opsA0_keep _ main_v3 (by decide), stageZ0_v3, ha.a1]

abbrev runL1 (U : Valuation τ sig (Elt Ideal)) : Valuation τ sig (Elt Ideal) :=
  after (opsH1 (F := Ideal)) (after (opsY1 (F := Ideal)) (after (opsA1 (F := Ideal)) (after (opsZ1 (F := Ideal)) U)))

theorem layer1_keep (U : Valuation τ sig (Elt Ideal)) (r : Ref sig .tc)
    (h : r ∉ opsZ1_W ++ (opsA1_W ++ (opsY1_W ++ opsH1_W))) :
    after (opsH1 (F := Ideal)) (after (opsY1 (F := Ideal)) (after (opsA1 (F := Ideal)) (after (opsZ1 (F := Ideal)) U)))
      (Proc.devRef .tc r) = U (Proc.devRef .tc r) := by
  have hZ : r ∉ opsZ1_W := fun m => h (List.mem_append_left _ m)
  have hA : r ∉ opsA1_W := fun m => h (List.mem_append_right _ (List.mem_append_left _ m))
  have hY : r ∉ opsY1_W := fun m => h (List.mem_append_right _ (List.mem_append_right _ (List.mem_append_left _ m)))
  have hH : r ∉ opsH1_W := fun m => h (List.mem_append_right _ (List.mem_append_right _ (List.mem_append_right _ m)))
  rw [opsH1_keep _ r hH, opsY1_keep _ r hY, opsA1_keep _ r hA, opsZ1_keep _ r hZ]

set_option maxRecDepth 8192 in

theorem runL1_args (A : Args) (U : Valuation τ sig (Elt Ideal)) (h : ArgsAt A U) : ArgsAt A (runL1 U) where
  a0 := (layer1_keep U main_arg0 (by decide)).trans h.a0
  a1 := (layer1_keep U main_arg1 (by decide)).trans h.a1
  a2 := (layer1_keep U main_arg2 (by decide)).trans h.a2
  a3 := (layer1_keep U main_arg3 (by decide)).trans h.a3
  a4 := (layer1_keep U main_arg4 (by decide)).trans h.a4
  a5 := (layer1_keep U main_arg5 (by decide)).trans h.a5
  a6 := (layer1_keep U main_arg6 (by decide)).trans h.a6
  a7 := (layer1_keep U main_arg7 (by decide)).trans h.a7
  a8 := (layer1_keep U main_arg8 (by decide)).trans h.a8
  a9 := (layer1_keep U main_arg9 (by decide)).trans h.a9
  a10 := (layer1_keep U main_arg10 (by decide)).trans h.a10
  a11 := (layer1_keep U main_arg11 (by decide)).trans h.a11
  a12 := (layer1_keep U main_arg12 (by decide)).trans h.a12

set_option maxRecDepth 8192 in

theorem layer1 (U : Valuation τ sig (Elt Ideal)) :
    after (opsH1 (F := Ideal)) (after (opsY1 (F := Ideal)) (after (opsA1 (F := Ideal)) (after (opsZ1 (F := Ideal)) U)))
      (Proc.devRef .tc main_v161) =
      bnreluR
        (lin128
          (bnreluR
            (lin128
              (agg128 (U (Proc.devRef .tc main_v81)) (U (Proc.devRef .tc main_v1)) (U (Proc.devRef .tc main_v3))
                (pS5 ![1] (U (Proc.devRef .tc main_arg3)) slices_S5_S1_1))
              (pW4 ![0, 0, 0] (U (Proc.devRef .tc main_arg5)) slices_S4x128x128_S1x128x128_0_0_0)
              (row (p128 ![1, 0] (U (Proc.devRef .tc main_arg6)) slices_S5x128_S1x128_1_0)))
            (p128 ![1, 0] (U (Proc.devRef .tc main_arg9)) slices_S5x128_S1x128_1_0) (p128 ![1, 0] (U (Proc.devRef .tc main_arg10)) slices_S5x128_S1x128_1_0))
          (pW5 ![1, 0, 0] (U (Proc.devRef .tc main_arg7)) slices_S5x128x128_S1x128x128_1_0_0)
          (row (p128 ![1, 0] (U (Proc.devRef .tc main_arg8)) slices_S5x128_S1x128_1_0)))
        (p128 ![1, 0] (U (Proc.devRef .tc main_arg11)) slices_S5x128_S1x128_1_0) (p128 ![1, 0] (U (Proc.devRef .tc main_arg12)) slices_S5x128_S1x128_1_0) := by
  rw [stageH1, stageY1, stageA1, stageZ1,
    opsY1_keep _ main_arg11 (by decide), opsA1_keep _ main_arg11 (by decide), opsZ1_keep _ main_arg11 (by decide),
    opsY1_keep _ main_arg12 (by decide), opsA1_keep _ main_arg12 (by decide), opsZ1_keep _ main_arg12 (by decide),
    opsA1_keep _ main_arg7 (by decide), opsZ1_keep _ main_arg7 (by decide),
    opsA1_keep _ main_arg8 (by decide), opsZ1_keep _ main_arg8 (by decide),
    opsZ1_keep _ main_arg9 (by decide), opsZ1_keep _ main_arg10 (by decide)]

theorem layer1_spec (A : Args) (U : Valuation τ sig (Elt Ideal)) (ha : ArgsAt A U) (hi : IdxAt A U)
    (X : M S50000x128) (hx : U (Proc.devRef .tc main_v81) = X) :
    after (opsH1 (F := Ideal)) (after (opsY1 (F := Ideal)) (after (opsA1 (F := Ideal)) (after (opsZ1 (F := Ideal)) U)))
      (Proc.devRef .tc main_v161) = afterR (zNext A X (lp1 A) (w1_1 A)) (lp1 A) := by
  rw [layer1, hx, hi.r, hi.c, ha.a3, ha.a5, ha.a6, ha.a7, ha.a8, ha.a9, ha.a10, ha.a11, ha.a12]
  simp only [afterR, layerR, zNext, lp1, w1_1]

theorem runL1_idx (A : Args) (U : Valuation τ sig (Elt Ideal)) (hi : IdxAt A U) : IdxAt A (runL1 U) where
  r := (layer1_keep U main_v1 (by decide)).trans hi.r
  c := (layer1_keep U main_v3 (by decide)).trans hi.c

abbrev runL2 (U : Valuation τ sig (Elt Ideal)) : Valuation τ sig (Elt Ideal) :=
  after (opsH2 (F := Ideal)) (after (opsY2 (F := Ideal)) (after (opsA2 (F := Ideal)) (after (opsZ2 (F := Ideal)) U)))

theorem layer2_keep (U : Valuation τ sig (Elt Ideal)) (r : Ref sig .tc)
    (h : r ∉ opsZ2_W ++ (opsA2_W ++ (opsY2_W ++ opsH2_W))) :
    after (opsH2 (F := Ideal)) (after (opsY2 (F := Ideal)) (after (opsA2 (F := Ideal)) (after (opsZ2 (F := Ideal)) U)))
      (Proc.devRef .tc r) = U (Proc.devRef .tc r) := by
  have hZ : r ∉ opsZ2_W := fun m => h (List.mem_append_left _ m)
  have hA : r ∉ opsA2_W := fun m => h (List.mem_append_right _ (List.mem_append_left _ m))
  have hY : r ∉ opsY2_W := fun m => h (List.mem_append_right _ (List.mem_append_right _ (List.mem_append_left _ m)))
  have hH : r ∉ opsH2_W := fun m => h (List.mem_append_right _ (List.mem_append_right _ (List.mem_append_right _ m)))
  rw [opsH2_keep _ r hH, opsY2_keep _ r hY, opsA2_keep _ r hA, opsZ2_keep _ r hZ]

set_option maxRecDepth 8192 in

theorem runL2_args (A : Args) (U : Valuation τ sig (Elt Ideal)) (h : ArgsAt A U) : ArgsAt A (runL2 U) where
  a0 := (layer2_keep U main_arg0 (by decide)).trans h.a0
  a1 := (layer2_keep U main_arg1 (by decide)).trans h.a1
  a2 := (layer2_keep U main_arg2 (by decide)).trans h.a2
  a3 := (layer2_keep U main_arg3 (by decide)).trans h.a3
  a4 := (layer2_keep U main_arg4 (by decide)).trans h.a4
  a5 := (layer2_keep U main_arg5 (by decide)).trans h.a5
  a6 := (layer2_keep U main_arg6 (by decide)).trans h.a6
  a7 := (layer2_keep U main_arg7 (by decide)).trans h.a7
  a8 := (layer2_keep U main_arg8 (by decide)).trans h.a8
  a9 := (layer2_keep U main_arg9 (by decide)).trans h.a9
  a10 := (layer2_keep U main_arg10 (by decide)).trans h.a10
  a11 := (layer2_keep U main_arg11 (by decide)).trans h.a11
  a12 := (layer2_keep U main_arg12 (by decide)).trans h.a12

set_option maxRecDepth 8192 in

theorem layer2 (U : Valuation τ sig (Elt Ideal)) :
    after (opsH2 (F := Ideal)) (after (opsY2 (F := Ideal)) (after (opsA2 (F := Ideal)) (after (opsZ2 (F := Ideal)) U)))
      (Proc.devRef .tc main_v241) =
      bnreluR
        (lin128
          (bnreluR
            (lin128
              (agg128 (U (Proc.devRef .tc main_v161)) (U (Proc.devRef .tc main_v1)) (U (Proc.devRef .tc main_v3))
                (pS5 ![2] (U (Proc.devRef .tc main_arg3)) slices_S5_S1_2))
              (pW4 ![1, 0, 0] (U (Proc.devRef .tc main_arg5)) slices_S4x128x128_S1x128x128_1_0_0)
              (row (p128 ![2, 0] (U (Proc.devRef .tc main_arg6)) slices_S5x128_S1x128_2_0)))
            (p128 ![2, 0] (U (Proc.devRef .tc main_arg9)) slices_S5x128_S1x128_2_0) (p128 ![2, 0] (U (Proc.devRef .tc main_arg10)) slices_S5x128_S1x128_2_0))
          (pW5 ![2, 0, 0] (U (Proc.devRef .tc main_arg7)) slices_S5x128x128_S1x128x128_2_0_0)
          (row (p128 ![2, 0] (U (Proc.devRef .tc main_arg8)) slices_S5x128_S1x128_2_0)))
        (p128 ![2, 0] (U (Proc.devRef .tc main_arg11)) slices_S5x128_S1x128_2_0) (p128 ![2, 0] (U (Proc.devRef .tc main_arg12)) slices_S5x128_S1x128_2_0) := by
  rw [stageH2, stageY2, stageA2, stageZ2,
    opsY2_keep _ main_arg11 (by decide), opsA2_keep _ main_arg11 (by decide), opsZ2_keep _ main_arg11 (by decide),
    opsY2_keep _ main_arg12 (by decide), opsA2_keep _ main_arg12 (by decide), opsZ2_keep _ main_arg12 (by decide),
    opsA2_keep _ main_arg7 (by decide), opsZ2_keep _ main_arg7 (by decide),
    opsA2_keep _ main_arg8 (by decide), opsZ2_keep _ main_arg8 (by decide),
    opsZ2_keep _ main_arg9 (by decide), opsZ2_keep _ main_arg10 (by decide)]

theorem layer2_spec (A : Args) (U : Valuation τ sig (Elt Ideal)) (ha : ArgsAt A U) (hi : IdxAt A U)
    (X : M S50000x128) (hx : U (Proc.devRef .tc main_v161) = X) :
    after (opsH2 (F := Ideal)) (after (opsY2 (F := Ideal)) (after (opsA2 (F := Ideal)) (after (opsZ2 (F := Ideal)) U)))
      (Proc.devRef .tc main_v241) = afterR (zNext A X (lp2 A) (w1_2 A)) (lp2 A) := by
  rw [layer2, hx, hi.r, hi.c, ha.a3, ha.a5, ha.a6, ha.a7, ha.a8, ha.a9, ha.a10, ha.a11, ha.a12]
  simp only [afterR, layerR, zNext, lp2, w1_2]

theorem runL2_idx (A : Args) (U : Valuation τ sig (Elt Ideal)) (hi : IdxAt A U) : IdxAt A (runL2 U) where
  r := (layer2_keep U main_v1 (by decide)).trans hi.r
  c := (layer2_keep U main_v3 (by decide)).trans hi.c

abbrev runL3 (U : Valuation τ sig (Elt Ideal)) : Valuation τ sig (Elt Ideal) :=
  after (opsH3 (F := Ideal)) (after (opsY3 (F := Ideal)) (after (opsA3 (F := Ideal)) (after (opsZ3 (F := Ideal)) U)))

theorem layer3_keep (U : Valuation τ sig (Elt Ideal)) (r : Ref sig .tc)
    (h : r ∉ opsZ3_W ++ (opsA3_W ++ (opsY3_W ++ opsH3_W))) :
    after (opsH3 (F := Ideal)) (after (opsY3 (F := Ideal)) (after (opsA3 (F := Ideal)) (after (opsZ3 (F := Ideal)) U)))
      (Proc.devRef .tc r) = U (Proc.devRef .tc r) := by
  have hZ : r ∉ opsZ3_W := fun m => h (List.mem_append_left _ m)
  have hA : r ∉ opsA3_W := fun m => h (List.mem_append_right _ (List.mem_append_left _ m))
  have hY : r ∉ opsY3_W := fun m => h (List.mem_append_right _ (List.mem_append_right _ (List.mem_append_left _ m)))
  have hH : r ∉ opsH3_W := fun m => h (List.mem_append_right _ (List.mem_append_right _ (List.mem_append_right _ m)))
  rw [opsH3_keep _ r hH, opsY3_keep _ r hY, opsA3_keep _ r hA, opsZ3_keep _ r hZ]

set_option maxRecDepth 8192 in

theorem runL3_args (A : Args) (U : Valuation τ sig (Elt Ideal)) (h : ArgsAt A U) : ArgsAt A (runL3 U) where
  a0 := (layer3_keep U main_arg0 (by decide)).trans h.a0
  a1 := (layer3_keep U main_arg1 (by decide)).trans h.a1
  a2 := (layer3_keep U main_arg2 (by decide)).trans h.a2
  a3 := (layer3_keep U main_arg3 (by decide)).trans h.a3
  a4 := (layer3_keep U main_arg4 (by decide)).trans h.a4
  a5 := (layer3_keep U main_arg5 (by decide)).trans h.a5
  a6 := (layer3_keep U main_arg6 (by decide)).trans h.a6
  a7 := (layer3_keep U main_arg7 (by decide)).trans h.a7
  a8 := (layer3_keep U main_arg8 (by decide)).trans h.a8
  a9 := (layer3_keep U main_arg9 (by decide)).trans h.a9
  a10 := (layer3_keep U main_arg10 (by decide)).trans h.a10
  a11 := (layer3_keep U main_arg11 (by decide)).trans h.a11
  a12 := (layer3_keep U main_arg12 (by decide)).trans h.a12

set_option maxRecDepth 8192 in

theorem layer3 (U : Valuation τ sig (Elt Ideal)) :
    after (opsH3 (F := Ideal)) (after (opsY3 (F := Ideal)) (after (opsA3 (F := Ideal)) (after (opsZ3 (F := Ideal)) U)))
      (Proc.devRef .tc main_v321) =
      bnreluR
        (lin128
          (bnreluR
            (lin128
              (agg128 (U (Proc.devRef .tc main_v241)) (U (Proc.devRef .tc main_v1)) (U (Proc.devRef .tc main_v3))
                (pS5 ![3] (U (Proc.devRef .tc main_arg3)) slices_S5_S1_3))
              (pW4 ![2, 0, 0] (U (Proc.devRef .tc main_arg5)) slices_S4x128x128_S1x128x128_2_0_0)
              (row (p128 ![3, 0] (U (Proc.devRef .tc main_arg6)) slices_S5x128_S1x128_3_0)))
            (p128 ![3, 0] (U (Proc.devRef .tc main_arg9)) slices_S5x128_S1x128_3_0) (p128 ![3, 0] (U (Proc.devRef .tc main_arg10)) slices_S5x128_S1x128_3_0))
          (pW5 ![3, 0, 0] (U (Proc.devRef .tc main_arg7)) slices_S5x128x128_S1x128x128_3_0_0)
          (row (p128 ![3, 0] (U (Proc.devRef .tc main_arg8)) slices_S5x128_S1x128_3_0)))
        (p128 ![3, 0] (U (Proc.devRef .tc main_arg11)) slices_S5x128_S1x128_3_0) (p128 ![3, 0] (U (Proc.devRef .tc main_arg12)) slices_S5x128_S1x128_3_0) := by
  rw [stageH3, stageY3, stageA3, stageZ3,
    opsY3_keep _ main_arg11 (by decide), opsA3_keep _ main_arg11 (by decide), opsZ3_keep _ main_arg11 (by decide),
    opsY3_keep _ main_arg12 (by decide), opsA3_keep _ main_arg12 (by decide), opsZ3_keep _ main_arg12 (by decide),
    opsA3_keep _ main_arg7 (by decide), opsZ3_keep _ main_arg7 (by decide),
    opsA3_keep _ main_arg8 (by decide), opsZ3_keep _ main_arg8 (by decide),
    opsZ3_keep _ main_arg9 (by decide), opsZ3_keep _ main_arg10 (by decide)]

theorem layer3_spec (A : Args) (U : Valuation τ sig (Elt Ideal)) (ha : ArgsAt A U) (hi : IdxAt A U)
    (X : M S50000x128) (hx : U (Proc.devRef .tc main_v241) = X) :
    after (opsH3 (F := Ideal)) (after (opsY3 (F := Ideal)) (after (opsA3 (F := Ideal)) (after (opsZ3 (F := Ideal)) U)))
      (Proc.devRef .tc main_v321) = afterR (zNext A X (lp3 A) (w1_3 A)) (lp3 A) := by
  rw [layer3, hx, hi.r, hi.c, ha.a3, ha.a5, ha.a6, ha.a7, ha.a8, ha.a9, ha.a10, ha.a11, ha.a12]
  simp only [afterR, layerR, zNext, lp3, w1_3]

theorem runL3_idx (A : Args) (U : Valuation τ sig (Elt Ideal)) (hi : IdxAt A U) : IdxAt A (runL3 U) where
  r := (layer3_keep U main_v1 (by decide)).trans hi.r
  c := (layer3_keep U main_v3 (by decide)).trans hi.c

abbrev runL4 (U : Valuation τ sig (Elt Ideal)) : Valuation τ sig (Elt Ideal) :=
  after (opsH4 (F := Ideal)) (after (opsY4 (F := Ideal)) (after (opsA4 (F := Ideal)) (after (opsZ4 (F := Ideal)) U)))

theorem layer4_keep (U : Valuation τ sig (Elt Ideal)) (r : Ref sig .tc)
    (h : r ∉ opsZ4_W ++ (opsA4_W ++ (opsY4_W ++ opsH4_W))) :
    after (opsH4 (F := Ideal)) (after (opsY4 (F := Ideal)) (after (opsA4 (F := Ideal)) (after (opsZ4 (F := Ideal)) U)))
      (Proc.devRef .tc r) = U (Proc.devRef .tc r) := by
  have hZ : r ∉ opsZ4_W := fun m => h (List.mem_append_left _ m)
  have hA : r ∉ opsA4_W := fun m => h (List.mem_append_right _ (List.mem_append_left _ m))
  have hY : r ∉ opsY4_W := fun m => h (List.mem_append_right _ (List.mem_append_right _ (List.mem_append_left _ m)))
  have hH : r ∉ opsH4_W := fun m => h (List.mem_append_right _ (List.mem_append_right _ (List.mem_append_right _ m)))
  rw [opsH4_keep _ r hH, opsY4_keep _ r hY, opsA4_keep _ r hA, opsZ4_keep _ r hZ]

set_option maxRecDepth 8192 in

theorem runL4_args (A : Args) (U : Valuation τ sig (Elt Ideal)) (h : ArgsAt A U) : ArgsAt A (runL4 U) where
  a0 := (layer4_keep U main_arg0 (by decide)).trans h.a0
  a1 := (layer4_keep U main_arg1 (by decide)).trans h.a1
  a2 := (layer4_keep U main_arg2 (by decide)).trans h.a2
  a3 := (layer4_keep U main_arg3 (by decide)).trans h.a3
  a4 := (layer4_keep U main_arg4 (by decide)).trans h.a4
  a5 := (layer4_keep U main_arg5 (by decide)).trans h.a5
  a6 := (layer4_keep U main_arg6 (by decide)).trans h.a6
  a7 := (layer4_keep U main_arg7 (by decide)).trans h.a7
  a8 := (layer4_keep U main_arg8 (by decide)).trans h.a8
  a9 := (layer4_keep U main_arg9 (by decide)).trans h.a9
  a10 := (layer4_keep U main_arg10 (by decide)).trans h.a10
  a11 := (layer4_keep U main_arg11 (by decide)).trans h.a11
  a12 := (layer4_keep U main_arg12 (by decide)).trans h.a12

set_option maxRecDepth 8192 in

theorem layer4 (U : Valuation τ sig (Elt Ideal)) :
    after (opsH4 (F := Ideal)) (after (opsY4 (F := Ideal)) (after (opsA4 (F := Ideal)) (after (opsZ4 (F := Ideal)) U)))
      (Proc.devRef .tc main_v401) =
      bnreluR
        (lin128
          (bnreluR
            (lin128
              (agg128 (U (Proc.devRef .tc main_v321)) (U (Proc.devRef .tc main_v1)) (U (Proc.devRef .tc main_v3))
                (pS5 ![4] (U (Proc.devRef .tc main_arg3)) slices_S5_S1_4))
              (pW4 ![3, 0, 0] (U (Proc.devRef .tc main_arg5)) slices_S4x128x128_S1x128x128_3_0_0)
              (row (p128 ![4, 0] (U (Proc.devRef .tc main_arg6)) slices_S5x128_S1x128_4_0)))
            (p128 ![4, 0] (U (Proc.devRef .tc main_arg9)) slices_S5x128_S1x128_4_0) (p128 ![4, 0] (U (Proc.devRef .tc main_arg10)) slices_S5x128_S1x128_4_0))
          (pW5 ![4, 0, 0] (U (Proc.devRef .tc main_arg7)) slices_S5x128x128_S1x128x128_4_0_0)
          (row (p128 ![4, 0] (U (Proc.devRef .tc main_arg8)) slices_S5x128_S1x128_4_0)))
        (p128 ![4, 0] (U (Proc.devRef .tc main_arg11)) slices_S5x128_S1x128_4_0) (p128 ![4, 0] (U (Proc.devRef .tc main_arg12)) slices_S5x128_S1x128_4_0) := by
  rw [stageH4, stageY4, stageA4, stageZ4,
    opsY4_keep _ main_arg11 (by decide), opsA4_keep _ main_arg11 (by decide), opsZ4_keep _ main_arg11 (by decide),
    opsY4_keep _ main_arg12 (by decide), opsA4_keep _ main_arg12 (by decide), opsZ4_keep _ main_arg12 (by decide),
    opsA4_keep _ main_arg7 (by decide), opsZ4_keep _ main_arg7 (by decide),
    opsA4_keep _ main_arg8 (by decide), opsZ4_keep _ main_arg8 (by decide),
    opsZ4_keep _ main_arg9 (by decide), opsZ4_keep _ main_arg10 (by decide)]

theorem layer4_spec (A : Args) (U : Valuation τ sig (Elt Ideal)) (ha : ArgsAt A U) (hi : IdxAt A U)
    (X : M S50000x128) (hx : U (Proc.devRef .tc main_v321) = X) :
    after (opsH4 (F := Ideal)) (after (opsY4 (F := Ideal)) (after (opsA4 (F := Ideal)) (after (opsZ4 (F := Ideal)) U)))
      (Proc.devRef .tc main_v401) = afterR (zNext A X (lp4 A) (w1_4 A)) (lp4 A) := by
  rw [layer4, hx, hi.r, hi.c, ha.a3, ha.a5, ha.a6, ha.a7, ha.a8, ha.a9, ha.a10, ha.a11, ha.a12]
  simp only [afterR, layerR, zNext, lp4, w1_4]

theorem runL4_idx (A : Args) (U : Valuation τ sig (Elt Ideal)) (hi : IdxAt A U) : IdxAt A (runL4 U) where
  r := (layer4_keep U main_v1 (by decide)).trans hi.r
  c := (layer4_keep U main_v3 (by decide)).trans hi.c

end Cert.ReferenceIdeal.RefRead

end
-- ==== Proof.RefStageP.lean ====
import proofs.«410724_j86964497809599_1_alg».proof.Proof.RefStages
import proofs.«410724_j86964497809599_1_alg».proof.Proof.Spec
import Idealize.ShloMosaic.Lib.StableHlo.Run

noncomputable section

namespace Cert.ReferenceIdeal.RefRead

open Cert.ReferenceIdeal Cert.ReferenceIdeal.Gen Idealize.ShloMosaic Idealize.ShloMosaic.TcCoe Idealize.SL.Sem Idealize.ShloMosaic.StableHlo

set_option maxRecDepth 8192 in

theorem opsP_v404 (U : Valuation τ sig (Elt Ideal)) :
    after (RefRun.opsP (F := Ideal)) U (Proc.devRef .tc main_v404)
      = Spec.pool200 (Spec.batchColR (U (Proc.devRef .tc main_arg2))) (U (Proc.devRef .tc main_arg0)) := by
  simp only [RefRun.opsP]
  after_results_simp
  simp only [Spec.pool200, Spec.batchColR, Spec.zeroS]

set_option maxRecDepth 8192 in

theorem opsP_v407 (U : Valuation τ sig (Elt Ideal)) :
    after (RefRun.opsP (F := Ideal)) U (Proc.devRef .tc main_v407)
      = Spec.pool128 (Spec.batchColR (U (Proc.devRef .tc main_arg2))) (U (Proc.devRef .tc main_v81)) := by
  simp only [RefRun.opsP]
  after_results_simp
  simp only [Spec.pool128, Spec.batchColR, Spec.zeroS]

set_option maxRecDepth 8192 in

theorem opsP_v410 (U : Valuation τ sig (Elt Ideal)) :
    after (RefRun.opsP (F := Ideal)) U (Proc.devRef .tc main_v410)
      = Spec.pool128 (Spec.batchColR (U (Proc.devRef .tc main_arg2))) (U (Proc.devRef .tc main_v161)) := by
  simp only [RefRun.opsP]
  after_results_simp
  simp only [Spec.pool128, Spec.batchColR, Spec.zeroS]

set_option maxRecDepth 8192 in

theorem opsP_v413 (U : Valuation τ sig (Elt Ideal)) :
    after (RefRun.opsP (F := Ideal)) U (Proc.devRef .tc main_v413)
      = Spec.pool128 (Spec.batchColR (U (Proc.devRef .tc main_arg2))) (U (Proc.devRef .tc main_v241)) := by
  simp only [RefRun.opsP]
  after_results_simp
  simp only [Spec.pool128, Spec.batchColR, Spec.zeroS]

set_option maxRecDepth 8192 in

theorem opsP_v416 (U : Valuation τ sig (Elt Ideal)) :
    after (RefRun.opsP (F := Ideal)) U (Proc.devRef .tc main_v416)
      = Spec.pool128 (Spec.batchColR (U (Proc.devRef .tc main_arg2))) (U (Proc.devRef .tc main_v321)) := by
  simp only [RefRun.opsP]
  after_results_simp
  simp only [Spec.pool128, Spec.batchColR, Spec.zeroS]

set_option maxRecDepth 8192 in

theorem opsP_v419 (U : Valuation τ sig (Elt Ideal)) :
    after (RefRun.opsP (F := Ideal)) U (Proc.devRef .tc main_v419)
      = Spec.pool128 (Spec.batchColR (U (Proc.devRef .tc main_arg2))) (U (Proc.devRef .tc main_v401)) := by
  simp only [RefRun.opsP]
  after_results_simp
  simp only [Spec.pool128, Spec.batchColR, Spec.zeroS]

end Cert.ReferenceIdeal.RefRead

end
-- ==== Proof.RefKept.lean ====
import proofs.«410724_j86964497809599_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0_W : List (Ref sig .tc) :=
  [ main_v0, main_v1, main_v2, main_v3, main_c, main_v4, main_v5, main_c_0, main_v6, main_v7, main_v8, main_v9,
    main_v10, main_cst, main_v11, main_v12, main_v13, main_v14, main_v15, main_cst_1, main_v16, main_v17, main_v18,
    main_v19, main_v20, main_v21, main_v22, main_v23, main_v24, main_v25, main_v26, main_v27, main_v28, main_v29,
    main_cst_2, main_v30, main_cst_3, main_v31, main_v32, main_c_4, main_call0_cst, main_call0_v0, main_call0_v1,
    main_call0_cst_0, main_call0_v2, main_call0_v3, main_call0_v4, main_call0_v5, main_call0_v6, main_call0_v7,
    main_call0_cst_1, main_call0_v8, main_call0_cst_2, main_call0_v9, main_call0_v10, main_call0_v11,
    main_call0_cst_3, main_call0_v12, main_call0_cst_4, main_call0_call0_v0, main_call0_call0_v1, main_v33, main_v34,
    main_v35, main_v36, main_cst_5, main_v37, main_v38, main_v39, main_v40, main_v41, main_v42, main_v43, main_v44,
    main_v45, main_v46, main_v47, main_v48, main_call1_cst, main_call1_v0, main_v49, main_v50, main_v51 ]

set_option maxRecDepth 8192 in

theorem ops0_writes : (ops0 : List (HloOp τ sig (Elt F))).Forall fun op =>
    op.writes ⊆ (ops0_W.map (Proc.devRef (τ := τ) .tc)).toFinset := by
  simp only [ops0, List.Forall, nullary_writes, unary_writes, binary_writes, ternary_writes, reshape_writes,
    Finset.singleton_subset_iff, List.mem_toFinset]
  repeat' apply And.intro
  all_goals exact List.mem_map_of_mem (by decide)

theorem ops0_keep (V : Valuation τ sig (Elt F)) (r : Ref sig .tc) (h : r ∉ ops0_W) :
    after ops0 V (Proc.devRef .tc r) = V (Proc.devRef .tc r) :=
  after_of_writes_sub ops0 V ops0_writes h

abbrev ops1_W : List (Ref sig .tc) :=
  [ main_v52, main_v53, main_v54, main_v55, main_v56, main_v57, main_v58, main_v59, main_v60, main_v61, main_cst_6,
    main_v62, main_cst_7, main_v63, main_v64, main_c_8, main_call2_cst, main_call2_v0, main_call2_v1,
    main_call2_cst_0, main_call2_v2, main_call2_v3, main_call2_v4, main_call2_v5, main_call2_v6, main_call2_v7,
    main_call2_cst_1, main_call2_v8, main_call2_cst_2, main_call2_v9, main_call2_v10, main_call2_v11,
    main_call2_cst_3, main_call2_v12, main_call2_cst_4, main_call2_call0_v0, main_call2_call0_v1, main_v65, main_v66,
    main_v67, main_v68, main_cst_9, main_v69, main_v70, main_v71, main_v72, main_v73, main_v74, main_v75, main_v76,
    main_v77, main_v78, main_v79, main_v80, main_call3_cst, main_call3_v0, main_v81, main_c_10, main_v82, main_v83,
    main_c_11, main_v84, main_v85, main_v86, main_v87, main_v88, main_cst_12, main_v89, main_v90, main_v91, main_v92,
    main_v93, main_cst_13, main_v94, main_v95, main_v96, main_v97, main_v98, main_v99, main_v100, main_v101,
    main_v102, main_v103 ]

set_option maxRecDepth 8192 in

theorem ops1_writes : (ops1 : List (HloOp τ sig (Elt F))).Forall fun op =>
    op.writes ⊆ (ops1_W.map (Proc.devRef (τ := τ) .tc)).toFinset := by
  simp only [ops1, List.Forall, nullary_writes, unary_writes, binary_writes, ternary_writes, reshape_writes,
    Finset.singleton_subset_iff, List.mem_toFinset]
  repeat' apply And.intro
  all_goals exact List.mem_map_of_mem (by decide)

theorem ops1_keep (V : Valuation τ sig (Elt F)) (r : Ref sig .tc) (h : r ∉ ops1_W) :
    after ops1 V (Proc.devRef .tc r) = V (Proc.devRef .tc r) :=
  after_of_writes_sub ops1 V ops1_writes h

abbrev ops2_W : List (Ref sig .tc) :=
  [ main_v104, main_v105, main_v106, main_v107, main_v108, main_v109, main_cst_14, main_v110, main_cst_15, main_v111,
    main_v112, main_c_16, main_call4_cst, main_call4_v0, main_call4_v1, main_call4_cst_0, main_call4_v2,
    main_call4_v3, main_call4_v4, main_call4_v5, main_call4_v6, main_call4_v7, main_call4_cst_1, main_call4_v8,
    main_call4_cst_2, main_call4_v9, main_call4_v10, main_call4_v11, main_call4_cst_3, main_call4_v12,
    main_call4_cst_4, main_call4_call0_v0, main_call4_call0_v1, main_v113, main_v114, main_v115, main_v116,
    main_cst_17, main_v117, main_v118, main_v119, main_v120, main_v121, main_v122, main_v123, main_v124, main_v125,
    main_v126, main_v127, main_v128, main_call5_cst, main_call5_v0, main_v129, main_v130, main_v131, main_v132,
    main_v133, main_v134, main_v135, main_v136, main_v137, main_v138, main_v139, main_v140, main_v141, main_cst_18,
    main_v142, main_cst_19, main_v143, main_v144, main_c_20, main_call6_cst, main_call6_v0, main_call6_v1,
    main_call6_cst_0, main_call6_v2, main_call6_v3, main_call6_v4, main_call6_v5, main_call6_v6, main_call6_v7,
    main_call6_cst_1, main_call6_v8, main_call6_cst_2, main_call6_v9, main_call6_v10, main_call6_v11,
    main_call6_cst_3, main_call6_v12, main_call6_cst_4, main_call6_call0_v0, main_call6_call0_v1, main_v145,
    main_v146, main_v147, main_v148, main_cst_21, main_v149, main_v150, main_v151, main_v152, main_v153, main_v154,
    main_v155 ]

set_option maxRecDepth 8192 in

theorem ops2_writes : (ops2 : List (HloOp τ sig (Elt F))).Forall fun op =>
    op.writes ⊆ (ops2_W.map (Proc.devRef (τ := τ) .tc)).toFinset := by
  simp only [ops2, List.Forall, nullary_writes, unary_writes, binary_writes, ternary_writes, reshape_writes,
    Finset.singleton_subset_iff, List.mem_toFinset]
  repeat' apply And.intro
  all_goals exact List.mem_map_of_mem (by decide)

theorem ops2_keep (V : Valuation τ sig (Elt F)) (r : Ref sig .tc) (h : r ∉ ops2_W) :
    after ops2 V (Proc.devRef .tc r) = V (Proc.devRef .tc r) :=
  after_of_writes_sub ops2 V ops2_writes h

abbrev ops3_W : List (Ref sig .tc) :=
  [ main_v156, main_v157, main_v158, main_v159, main_v160, main_call7_cst, main_call7_v0, main_v161, main_c_22,
    main_v162, main_v163, main_c_23, main_v164, main_v165, main_v166, main_v167, main_v168, main_cst_24, main_v169,
    main_v170, main_v171, main_v172, main_v173, main_cst_25, main_v174, main_v175, main_v176, main_v177, main_v178,
    main_v179, main_v180, main_v181, main_v182, main_v183, main_v184, main_v185, main_v186, main_v187, main_v188,
    main_v189, main_cst_26, main_v190, main_cst_27, main_v191, main_v192, main_c_28, main_call8_cst, main_call8_v0,
    main_call8_v1, main_call8_cst_0, main_call8_v2, main_call8_v3, main_call8_v4, main_call8_v5, main_call8_v6,
    main_call8_v7, main_call8_cst_1, main_call8_v8, main_call8_cst_2, main_call8_v9, main_call8_v10, main_call8_v11,
    main_call8_cst_3, main_call8_v12, main_call8_cst_4, main_call8_call0_v0, main_call8_call0_v1, main_v193,
    main_v194, main_v195, main_v196, main_cst_29, main_v197, main_v198, main_v199, main_v200, main_v201, main_v202,
    main_v203, main_v204, main_v205, main_v206, main_v207 ]

set_option maxRecDepth 8192 in

theorem ops3_writes : (ops3 : List (HloOp τ sig (Elt F))).Forall fun op =>
    op.writes ⊆ (ops3_W.map (Proc.devRef (τ := τ) .tc)).toFinset := by
  simp only [ops3, List.Forall, nullary_writes, unary_writes, binary_writes, ternary_writes, reshape_writes,
    Finset.singleton_subset_iff, List.mem_toFinset]
  repeat' apply And.intro
  all_goals exact List.mem_map_of_mem (by decide)

theorem ops3_keep (V : Valuation τ sig (Elt F)) (r : Ref sig .tc) (h : r ∉ ops3_W) :
    after ops3 V (Proc.devRef .tc r) = V (Proc.devRef .tc r) :=
  after_of_writes_sub ops3 V ops3_writes h

abbrev ops4_W : List (Ref sig .tc) :=
  [ main_v208, main_call9_cst, main_call9_v0, main_v209, main_v210, main_v211, main_v212, main_v213, main_v214,
    main_v215, main_v216, main_v217, main_v218, main_v219, main_v220, main_v221, main_cst_30, main_v222, main_cst_31,
    main_v223, main_v224, main_c_32, main_call10_cst, main_call10_v0, main_call10_v1, main_call10_cst_0,
    main_call10_v2, main_call10_v3, main_call10_v4, main_call10_v5, main_call10_v6, main_call10_v7,
    main_call10_cst_1, main_call10_v8, main_call10_cst_2, main_call10_v9, main_call10_v10, main_call10_v11,
    main_call10_cst_3, main_call10_v12, main_call10_cst_4, main_call10_call0_v0, main_call10_call0_v1, main_v225,
    main_v226, main_v227, main_v228, main_cst_33, main_v229, main_v230, main_v231, main_v232, main_v233, main_v234,
    main_v235, main_v236, main_v237, main_v238, main_v239, main_v240, main_call11_cst, main_call11_v0, main_v241,
    main_c_34, main_v242, main_v243, main_c_35, main_v244, main_v245, main_v246, main_v247, main_v248, main_cst_36,
    main_v249, main_v250, main_v251, main_v252, main_v253, main_cst_37, main_v254, main_v255, main_v256, main_v257,
    main_v258, main_v259 ]

set_option maxRecDepth 8192 in

theorem ops4_writes : (ops4 : List (HloOp τ sig (Elt F))).Forall fun op =>
    op.writes ⊆ (ops4_W.map (Proc.devRef (τ := τ) .tc)).toFinset := by
  simp only [ops4, List.Forall, nullary_writes, unary_writes, binary_writes, ternary_writes, reshape_writes,
    Finset.singleton_subset_iff, List.mem_toFinset]
  repeat' apply And.intro
  all_goals exact List.mem_map_of_mem (by decide)

theorem ops4_keep (V : Valuation τ sig (Elt F)) (r : Ref sig .tc) (h : r ∉ ops4_W) :
    after ops4 V (Proc.devRef .tc r) = V (Proc.devRef .tc r) :=
  after_of_writes_sub ops4 V ops4_writes h

abbrev ops5_W : List (Ref sig .tc) :=
  [ main_v260, main_v261, main_v262, main_v263, main_v264, main_v265, main_v266, main_v267, main_v268, main_v269,
    main_cst_38, main_v270, main_cst_39, main_v271, main_v272, main_c_40, main_call12_cst, main_call12_v0,
    main_call12_v1, main_call12_cst_0, main_call12_v2, main_call12_v3, main_call12_v4, main_call12_v5,
    main_call12_v6, main_call12_v7, main_call12_cst_1, main_call12_v8, main_call12_cst_2, main_call12_v9,
    main_call12_v10, main_call12_v11, main_call12_cst_3, main_call12_v12, main_call12_cst_4, main_call12_call0_v0,
    main_call12_call0_v1, main_v273, main_v274, main_v275, main_v276, main_cst_41, main_v277, main_v278, main_v279,
    main_v280, main_v281, main_v282, main_v283, main_v284, main_v285, main_v286, main_v287, main_v288,
    main_call13_cst, main_call13_v0, main_v289, main_v290, main_v291, main_v292, main_v293, main_v294, main_v295,
    main_v296, main_v297, main_v298, main_v299, main_v300, main_v301, main_cst_42, main_v302, main_cst_43, main_v303,
    main_v304, main_c_44, main_call14_cst, main_call14_v0, main_call14_v1, main_call14_cst_0, main_call14_v2,
    main_call14_v3, main_call14_v4, main_call14_v5, main_call14_v6, main_call14_v7, main_call14_cst_1,
    main_call14_v8, main_call14_cst_2, main_call14_v9, main_call14_v10, main_call14_v11, main_call14_cst_3,
    main_call14_v12, main_call14_cst_4, main_call14_call0_v0, main_call14_call0_v1, main_v305, main_v306, main_v307,
    main_v308, main_cst_45, main_v309, main_v310, main_v311 ]

set_option maxRecDepth 8192 in

theorem ops5_writes : (ops5 : List (HloOp τ sig (Elt F))).Forall fun op =>
    op.writes ⊆ (ops5_W.map (Proc.devRef (τ := τ) .tc)).toFinset := by
  simp only [ops5, List.Forall, nullary_writes, unary_writes, binary_writes, ternary_writes, reshape_writes,
    Finset.singleton_subset_iff, List.mem_toFinset]
  repeat' apply And.intro
  all_goals exact List.mem_map_of_mem (by decide)

theorem ops5_keep (V : Valuation τ sig (Elt F)) (r : Ref sig .tc) (h : r ∉ ops5_W) :
    after ops5 V (Proc.devRef .tc r) = V (Proc.devRef .tc r) :=
  after_of_writes_sub ops5 V ops5_writes h

abbrev ops6_W : List (Ref sig .tc) :=
  [ main_v312, main_v313, main_v314, main_v315, main_v316, main_v317, main_v318, main_v319, main_v320,
    main_call15_cst, main_call15_v0, main_v321, main_c_46, main_v322, main_v323, main_c_47, main_v324, main_v325,
    main_v326, main_v327, main_v328, main_cst_48, main_v329, main_v330, main_v331, main_v332, main_v333, main_cst_49,
    main_v334, main_v335, main_v336, main_v337, main_v338, main_v339, main_v340, main_v341, main_v342, main_v343,
    main_v344, main_v345, main_v346, main_v347, main_v348, main_v349, main_cst_50, main_v350, main_cst_51, main_v351,
    main_v352, main_c_52, main_call16_cst, main_call16_v0, main_call16_v1, main_call16_cst_0, main_call16_v2,
    main_call16_v3, main_call16_v4, main_call16_v5, main_call16_v6, main_call16_v7, main_call16_cst_1,
    main_call16_v8, main_call16_cst_2, main_call16_v9, main_call16_v10, main_call16_v11, main_call16_cst_3,
    main_call16_v12, main_call16_cst_4, main_call16_call0_v0, main_call16_call0_v1, main_v353, main_v354, main_v355,
    main_v356, main_cst_53, main_v357, main_v358, main_v359, main_v360, main_v361, main_v362, main_v363 ]

set_option maxRecDepth 8192 in

theorem ops6_writes : (ops6 : List (HloOp τ sig (Elt F))).Forall fun op =>
    op.writes ⊆ (ops6_W.map (Proc.devRef (τ := τ) .tc)).toFinset := by
  simp only [ops6, List.Forall, nullary_writes, unary_writes, binary_writes, ternary_writes, reshape_writes,
    Finset.singleton_subset_iff, List.mem_toFinset]
  repeat' apply And.intro
  all_goals exact List.mem_map_of_mem (by decide)

theorem ops6_keep (V : Valuation τ sig (Elt F)) (r : Ref sig .tc) (h : r ∉ ops6_W) :
    after ops6 V (Proc.devRef .tc r) = V (Proc.devRef .tc r) :=
  after_of_writes_sub ops6 V ops6_writes h

abbrev ops7_W : List (Ref sig .tc) :=
  [ main_v364, main_v365, main_v366, main_v367, main_v368, main_call17_cst, main_call17_v0, main_v369, main_v370,
    main_v371, main_v372, main_v373, main_v374, main_v375, main_v376, main_v377, main_v378, main_v379, main_v380,
    main_v381, main_cst_54, main_v382, main_cst_55, main_v383, main_v384, main_c_56, main_call18_cst, main_call18_v0,
    main_call18_v1, main_call18_cst_0, main_call18_v2, main_call18_v3, main_call18_v4, main_call18_v5,
    main_call18_v6, main_call18_v7, main_call18_cst_1, main_call18_v8, main_call18_cst_2, main_call18_v9,
    main_call18_v10, main_call18_v11, main_call18_cst_3, main_call18_v12, main_call18_cst_4, main_call18_call0_v0,
    main_call18_call0_v1, main_v385, main_v386, main_v387, main_v388, main_cst_57, main_v389, main_v390, main_v391,
    main_v392, main_v393, main_v394, main_v395, main_v396, main_v397, main_v398, main_v399, main_v400,
    main_call19_cst, main_call19_v0, main_v401, main_cst_58, main_v402, main_v403, main_v404, main_cst_59, main_v405,
    main_v406, main_v407, main_cst_60, main_v408, main_v409, main_v410, main_cst_61, main_v411, main_v412, main_v413,
    main_cst_62, main_v414 ]

set_option maxRecDepth 8192 in

theorem ops7_writes : (ops7 : List (HloOp τ sig (Elt F))).Forall fun op =>
    op.writes ⊆ (ops7_W.map (Proc.devRef (τ := τ) .tc)).toFinset := by
  simp only [ops7, List.Forall, nullary_writes, unary_writes, binary_writes, ternary_writes, reshape_writes,
    Finset.singleton_subset_iff, List.mem_toFinset]
  repeat' apply And.intro
  all_goals exact List.mem_map_of_mem (by decide)

theorem ops7_keep (V : Valuation τ sig (Elt F)) (r : Ref sig .tc) (h : r ∉ ops7_W) :
    after ops7 V (Proc.devRef .tc r) = V (Proc.devRef .tc r) :=
  after_of_writes_sub ops7 V ops7_writes h

abbrev ops8_W : List (Ref sig .tc) :=
  [ main_v415, main_v416, main_cst_63, main_v417, main_v418, main_v419 ]

set_option maxRecDepth 8192 in

theorem ops8_writes : (ops8 : List (HloOp τ sig (Elt F))).Forall fun op =>
    op.writes ⊆ (ops8_W.map (Proc.devRef (τ := τ) .tc)).toFinset := by
  simp only [ops8, List.Forall, nullary_writes, unary_writes, binary_writes, ternary_writes, reshape_writes,
    Finset.singleton_subset_iff, List.mem_toFinset]
  repeat' apply And.intro
  all_goals exact List.mem_map_of_mem (by decide)

theorem ops8_keep (V : Valuation τ sig (Elt F)) (r : Ref sig .tc) (h : r ∉ ops8_W) :
    after ops8 V (Proc.devRef .tc r) = V (Proc.devRef .tc r) :=
  after_of_writes_sub ops8 V ops8_writes h

end Cert.ReferenceIdeal.RefRun

end
-- ==== Proof.RefArgs.lean ====
import proofs.«410724_j86964497809599_1_alg».proof.Proof.RefKept

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem ops_keep (V : Valuation τ sig (Elt F)) (r : Ref sig .tc)
    (h0 : r ∉ RefRun.ops0_W) (h1 : r ∉ RefRun.ops1_W) (h2 : r ∉ RefRun.ops2_W) (h3 : r ∉ RefRun.ops3_W)
    (h4 : r ∉ RefRun.ops4_W) (h5 : r ∉ RefRun.ops5_W) (h6 : r ∉ RefRun.ops6_W) (h7 : r ∉ RefRun.ops7_W)
    (h8 : r ∉ RefRun.ops8_W) :
    after (RefRun.ops (F := F)) V (Proc.devRef .tc r) = V (Proc.devRef .tc r) := by
  show after (RefRun.ops0 ++ (RefRun.ops1 ++ (RefRun.ops2 ++ (RefRun.ops3 ++ (RefRun.ops4 ++ (RefRun.ops5 ++
    (RefRun.ops6 ++ (RefRun.ops7 ++ RefRun.ops8)))))))) V (Proc.devRef .tc r) = _
  rw [after_app, after_app, after_app, after_app, after_app, after_app, after_app, after_app,
    RefRun.ops8_keep _ r h8, RefRun.ops7_keep _ r h7, RefRun.ops6_keep _ r h6, RefRun.ops5_keep _ r h5,
    RefRun.ops4_keep _ r h4, RefRun.ops3_keep _ r h3, RefRun.ops2_keep _ r h2, RefRun.ops1_keep _ r h1,
    RefRun.ops0_keep _ r h0]

theorem arg_kept0 (V : Valuation τ sig (Elt F)) :
    after (RefRun.ops (F := F)) V (Proc.devRef .tc main_arg0) = V (Proc.devRef .tc main_arg0) :=
  ops_keep V main_arg0 (by decide) (by decide) (by decide) (by decide) (by decide) (by decide) (by decide) (by decide)
    (by decide)

theorem arg_kept1 (V : Valuation τ sig (Elt F)) :
    after (RefRun.ops (F := F)) V (Proc.devRef .tc main_arg1) = V (Proc.devRef .tc main_arg1) :=
  ops_keep V main_arg1 (by decide) (by decide) (by decide) (by decide) (by decide) (by decide) (by decide) (by decide)
    (by decide)

theorem arg_kept2 (V : Valuation τ sig (Elt F)) :
    after (RefRun.ops (F := F)) V (Proc.devRef .tc main_arg2) = V (Proc.devRef .tc main_arg2) :=
  ops_keep V main_arg2 (by decide) (by decide) (by decide) (by decide) (by decide) (by decide) (by decide) (by decide)
    (by decide)

theorem arg_kept3 (V : Valuation τ sig (Elt F)) :
    after (RefRun.ops (F := F)) V (Proc.devRef .tc main_arg3) = V (Proc.devRef .tc main_arg3) :=
  ops_keep V main_arg3 (by decide) (by decide) (by decide) (by decide) (by decide) (by decide) (by decide) (by decide)
    (by decide)

theorem arg_kept4 (V : Valuation τ sig (Elt F)) :
    after (RefRun.ops (F := F)) V (Proc.devRef .tc main_arg4) = V (Proc.devRef .tc main_arg4) :=
  ops_keep V main_arg4 (by decide) (by decide) (by decide) (by decide) (by decide) (by decide) (by decide) (by decide)
    (by decide)

theorem arg_kept5 (V : Valuation τ sig (Elt F)) :
    after (RefRun.ops (F := F)) V (Proc.devRef .tc main_arg5) = V (Proc.devRef .tc main_arg5) :=
  ops_keep V main_arg5 (by decide) (by decide) (by decide) (by decide) (by decide) (by decide) (by decide) (by decide)
    (by decide)

theorem arg_kept6 (V : Valuation τ sig (Elt F)) :
    after (RefRun.ops (F := F)) V (Proc.devRef .tc main_arg6) = V (Proc.devRef .tc main_arg6) :=
  ops_keep V main_arg6 (by decide) (by decide) (by decide) (by decide) (by decide) (by decide) (by decide) (by decide)
    (by decide)

theorem arg_kept7 (V : Valuation τ sig (Elt F)) :
    after (RefRun.ops (F := F)) V (Proc.devRef .tc main_arg7) = V (Proc.devRef .tc main_arg7) :=
  ops_keep V main_arg7 (by decide) (by decide) (by decide) (by decide) (by decide) (by decide) (by decide) (by decide)
    (by decide)

theorem arg_kept8 (V : Valuation τ sig (Elt F)) :
    after (RefRun.ops (F := F)) V (Proc.devRef .tc main_arg8) = V (Proc.devRef .tc main_arg8) :=
  ops_keep V main_arg8 (by decide) (by decide) (by decide) (by decide) (by decide) (by decide) (by decide) (by decide)
    (by decide)

theorem arg_kept9 (V : Valuation τ sig (Elt F)) :
    after (RefRun.ops (F := F)) V (Proc.devRef .tc main_arg9) = V (Proc.devRef .tc main_arg9) :=
  ops_keep V main_arg9 (by decide) (by decide) (by decide) (by decide) (by decide) (by decide) (by decide) (by decide)
    (by decide)

theorem arg_kept10 (V : Valuation τ sig (Elt F)) :
    after (RefRun.ops (F := F)) V (Proc.devRef .tc main_arg10) = V (Proc.devRef .tc main_arg10) :=
  ops_keep V main_arg10 (by decide) (by decide) (by decide) (by decide) (by decide) (by decide) (by decide) (by decide)
    (by decide)

theorem arg_kept11 (V : Valuation τ sig (Elt F)) :
    after (RefRun.ops (F := F)) V (Proc.devRef .tc main_arg11) = V (Proc.devRef .tc main_arg11) :=
  ops_keep V main_arg11 (by decide) (by decide) (by decide) (by decide) (by decide) (by decide) (by decide) (by decide)
    (by decide)

theorem arg_kept12 (V : Valuation τ sig (Elt F)) :
    after (RefRun.ops (F := F)) V (Proc.devRef .tc main_arg12) = V (Proc.devRef .tc main_arg12) :=
  ops_keep V main_arg12 (by decide) (by decide) (by decide) (by decide) (by decide) (by decide) (by decide) (by decide)
    (by decide)

end Cert.ReferenceIdeal.RefRead

end
-- ==== Proof.RefRead.lean ====
import proofs.«410724_j86964497809599_1_alg».proof.Proof.RefLayers
import proofs.«410724_j86964497809599_1_alg».proof.Proof.RefStageP
import proofs.«410724_j86964497809599_1_alg».proof.Proof.RefArgs

noncomputable section

namespace Cert.ReferenceIdeal.RefRead

open Cert.ReferenceIdeal Cert.ReferenceIdeal.Facts₀ Cert.ReferenceIdeal.RefRun Cert.Spec Idealize.ShloMosaic Idealize.ShloMosaic.TcCoe Idealize.SL.Sem Idealize.ShloMosaic.StableHlo

abbrev Val : Type := Valuation τ sig (Elt Ideal)

def argsOf (V : Valuation τ sig (Elt Ideal)) : Args where
  x := V (Proc.devRef .tc main_arg0)
  ei := V (Proc.devRef .tc main_arg1)
  batch := V (Proc.devRef .tc main_arg2)
  eps := V (Proc.devRef .tc main_arg3)
  w1_0 := V (Proc.devRef .tc main_arg4)
  w1 := V (Proc.devRef .tc main_arg5)
  b1 := V (Proc.devRef .tc main_arg6)
  w2 := V (Proc.devRef .tc main_arg7)
  b2 := V (Proc.devRef .tc main_arg8)
  g1 := V (Proc.devRef .tc main_arg9)
  be1 := V (Proc.devRef .tc main_arg10)
  g2 := V (Proc.devRef .tc main_arg11)
  be2 := V (Proc.devRef .tc main_arg12)

def W0 (V : Val) : Val := after opsH0 (after opsY0 (after opsA0 (after opsZ0 V)))

def W1 (V : Val) : Val := after opsH1 (after opsY1 (after opsA1 (after opsZ1 (W0 V))))

def W2 (V : Val) : Val := after opsH2 (after opsY2 (after opsA2 (after opsZ2 (W1 V))))

def W3 (V : Val) : Val := after opsH3 (after opsY3 (after opsA3 (after opsZ3 (W2 V))))

def W4 (V : Val) : Val := after opsH4 (after opsY4 (after opsA4 (after opsZ4 (W3 V))))

theorem after_ops (V : Val) : after (ops (F := Ideal)) V = after opsP (W4 V) := by
  rw [ops_eq_stages]
  simp only [after_app]
  rfl

structure Tracks (V W : Val) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)
  a10 : W (Proc.devRef .tc main_arg10) = V (Proc.devRef .tc main_arg10)
  a11 : W (Proc.devRef .tc main_arg11) = V (Proc.devRef .tc main_arg11)
  a12 : W (Proc.devRef .tc main_arg12) = V (Proc.devRef .tc main_arg12)
  v1 : W (Proc.devRef .tc main_v1) = rowIdx (V (Proc.devRef .tc main_arg1))
  v3 : W (Proc.devRef .tc main_v3) = colIdx (V (Proc.devRef .tc main_arg1))

abbrev tracked : List (Ref sig .tc) :=
  [main_arg0, main_arg1, main_arg2, main_arg3, main_arg4, main_arg5, main_arg6, main_arg7, main_arg8, main_arg9, main_arg10, main_arg11, main_arg12, main_v1, main_v3]

theorem Tracks.keep {V W W' : Val} {L : List (Ref sig .tc)}
    (hk : ∀ r : Ref sig .tc, r ∉ L → W' (Proc.devRef .tc r) = W (Proc.devRef .tc r))
    (hd : ∀ r ∈ tracked, r ∉ L) (h : Tracks V W) : Tracks V W' where
  a0 := (hk main_arg0 (hd _ (by decide))).trans h.a0
  a1 := (hk main_arg1 (hd _ (by decide))).trans h.a1
  a2 := (hk main_arg2 (hd _ (by decide))).trans h.a2
  a3 := (hk main_arg3 (hd _ (by decide))).trans h.a3
  a4 := (hk main_arg4 (hd _ (by decide))).trans h.a4
  a5 := (hk main_arg5 (hd _ (by decide))).trans h.a5
  a6 := (hk main_arg6 (hd _ (by decide))).trans h.a6
  a7 := (hk main_arg7 (hd _ (by decide))).trans h.a7
  a8 := (hk main_arg8 (hd _ (by decide))).trans h.a8
  a9 := (hk main_arg9 (hd _ (by decide))).trans h.a9
  a10 := (hk main_arg10 (hd _ (by decide))).trans h.a10
  a11 := (hk main_arg11 (hd _ (by decide))).trans h.a11
  a12 := (hk main_arg12 (hd _ (by decide))).trans h.a12
  v1 := (hk main_v1 (hd _ (by decide))).trans h.v1
  v3 := (hk main_v3 (hd _ (by decide))).trans h.v3

theorem tracks0 (V : Val) : Tracks V (W0 V) where
  a0 := layer0_keep V main_arg0 (by decide)
  a1 := layer0_keep V main_arg1 (by decide)
  a2 := layer0_keep V main_arg2 (by decide)
  a3 := layer0_keep V main_arg3 (by decide)
  a4 := layer0_keep V main_arg4 (by decide)
  a5 := layer0_keep V main_arg5 (by decide)
  a6 := layer0_keep V main_arg6 (by decide)
  a7 := layer0_keep V main_arg7 (by decide)
  a8 := layer0_keep V main_arg8 (by decide)
  a9 := layer0_keep V main_arg9 (by decide)
  a10 := layer0_keep V main_arg10 (by decide)
  a11 := layer0_keep V main_arg11 (by decide)
  a12 := layer0_keep V main_arg12 (by decide)
  v1 := by
    show after opsH0 (after opsY0 (after opsA0 (after opsZ0 V))) (Proc.devRef .tc main_v1) = _
    rw [opsH0_keep _ main_v1 (by decide), opsY0_keep _ main_v1 (by decide), opsA0_keep _ main_v1 (by decide), stageZ0_v1]
  v3 := by
    show after opsH0 (after opsY0 (after opsA0 (after opsZ0 V))) (Proc.devRef .tc main_v3) = _
    rw [opsH0_keep _ main_v3 (by decide), opsY0_keep _ main_v3 (by decide), opsA0_keep _ main_v3 (by decide), stageZ0_v3]

theorem tracks1 (V : Val) : Tracks V (W1 V) :=
  (tracks0 V).keep (fun r h => layer1_keep (W0 V) r h) (by decide)

theorem tracks2 (V : Val) : Tracks V (W2 V) :=
  (tracks1 V).keep (fun r h => layer2_keep (W1 V) r h) (by decide)

theorem tracks3 (V : Val) : Tracks V (W3 V) :=
  (tracks2 V).keep (fun r h => layer3_keep (W2 V) r h) (by decide)

theorem tracks4 (V : Val) : Tracks V (W4 V) :=
  (tracks3 V).keep (fun r h => layer4_keep (W3 V) r h) (by decide)

theorem W0_h1 (V : Val) : W0 V (Proc.devRef .tc main_v81) = h1R (argsOf V) :=
  (layer0 V).trans rfl

theorem W1_h1 (V : Val) : W1 V (Proc.devRef .tc main_v81) = h1R (argsOf V) :=
  (layer1_keep (W0 V) main_v81 (by decide)).trans (W0_h1 V)

theorem W1_h2 (V : Val) : W1 V (Proc.devRef .tc main_v161) = h2R (argsOf V) := by
  show after opsH1 (after opsY1 (after opsA1 (after opsZ1 (W0 V)))) (Proc.devRef .tc main_v161) = _
  rw [layer1 (W0 V), W0_h1 V, (tracks0 V).v1, (tracks0 V).v3, (tracks0 V).a3, (tracks0 V).a5, (tracks0 V).a6, (tracks0 V).a7, (tracks0 V).a8, (tracks0 V).a9,
    (tracks0 V).a10, (tracks0 V).a11, (tracks0 V).a12]
  rfl

theorem W2_h1 (V : Val) : W2 V (Proc.devRef .tc main_v81) = h1R (argsOf V) :=
  (layer2_keep (W1 V) main_v81 (by decide)).trans (W1_h1 V)

theorem W2_h2 (V : Val) : W2 V (Proc.devRef .tc main_v161) = h2R (argsOf V) :=
  (layer2_keep (W1 V) main_v161 (by decide)).trans (W1_h2 V)

theorem W2_h3 (V : Val) : W2 V (Proc.devRef .tc main_v241) = h3R (argsOf V) := by
  show after opsH2 (after opsY2 (after opsA2 (after opsZ2 (W1 V)))) (Proc.devRef .tc main_v241) = _
  rw [layer2 (W1 V), W1_h2 V, (tracks1 V).v1, (tracks1 V).v3, (tracks1 V).a3, (tracks1 V).a5, (tracks1 V).a6, (tracks1 V).a7, (tracks1 V).a8, (tracks1 V).a9,
    (tracks1 V).a10, (tracks1 V).a11, (tracks1 V).a12]
  rfl

theorem W3_h1 (V : Val) : W3 V (Proc.devRef .tc main_v81) = h1R (argsOf V) :=
  (layer3_keep (W2 V) main_v81 (by decide)).trans (W2_h1 V)

theorem W3_h2 (V : Val) : W3 V (Proc.devRef .tc main_v161) = h2R (argsOf V) :=
  (layer3_keep (W2 V) main_v161 (by decide)).trans (W2_h2 V)

theorem W3_h3 (V : Val) : W3 V (Proc.devRef .tc main_v241) = h3R (argsOf V) :=
  (layer3_keep (W2 V) main_v241 (by decide)).trans (W2_h3 V)

theorem W3_h4 (V : Val) : W3 V (Proc.devRef .tc main_v321) = h4R (argsOf V) := by
  show after opsH3 (after opsY3 (after opsA3 (after opsZ3 (W2 V)))) (Proc.devRef .tc main_v321) = _
  rw [layer3 (W2 V), W2_h3 V, (tracks2 V).v1, (tracks2 V).v3, (tracks2 V).a3, (tracks2 V).a5, (tracks2 V).a6, (tracks2 V).a7, (tracks2 V).a8, (tracks2 V).a9,
    (tracks2 V).a10, (tracks2 V).a11, (tracks2 V).a12]
  rfl

theorem W4_h1 (V : Val) : W4 V (Proc.devRef .tc main_v81) = h1R (argsOf V) :=
  (layer4_keep (W3 V) main_v81 (by decide)).trans (W3_h1 V)

theorem W4_h2 (V : Val) : W4 V (Proc.devRef .tc main_v161) = h2R (argsOf V) :=
  (layer4_keep (W3 V) main_v161 (by decide)).trans (W3_h2 V)

theorem W4_h3 (V : Val) : W4 V (Proc.devRef .tc main_v241) = h3R (argsOf V) :=
  (layer4_keep (W3 V) main_v241 (by decide)).trans (W3_h3 V)

theorem W4_h4 (V : Val) : W4 V (Proc.devRef .tc main_v321) = h4R (argsOf V) :=
  (layer4_keep (W3 V) main_v321 (by decide)).trans (W3_h4 V)

theorem W4_h5 (V : Val) : W4 V (Proc.devRef .tc main_v401) = h5R (argsOf V) := by
  show after opsH4 (after opsY4 (after opsA4 (after opsZ4 (W3 V)))) (Proc.devRef .tc main_v401) = _
  rw [layer4 (W3 V), W3_h4 V, (tracks3 V).v1, (tracks3 V).v3, (tracks3 V).a3, (tracks3 V).a5, (tracks3 V).a6, (tracks3 V).a7, (tracks3 V).a8, (tracks3 V).a9,
    (tracks3 V).a10, (tracks3 V).a11, (tracks3 V).a12]
  rfl

theorem res_h5 (V : Valuation τ sig (Elt Ideal)) : after (ops (F := Ideal)) V (Proc.devRef .tc main_v401) = h5R (argsOf V) := by
  rw [after_ops, opsP_keep _ main_v401 (by decide), W4_h5]

theorem res_p0 (V : Valuation τ sig (Elt Ideal)) :
    after (ops (F := Ideal)) V (Proc.devRef .tc main_v404) = pool200 (batchColR (V (Proc.devRef .tc main_arg2))) (V (Proc.devRef .tc main_arg0)) := by
  rw [after_ops, opsP_v404, (tracks4 V).a2, (tracks4 V).a0]

theorem res_p1 (V : Valuation τ sig (Elt Ideal)) :
    after (ops (F := Ideal)) V (Proc.devRef .tc main_v407) = pool128 (batchColR (V (Proc.devRef .tc main_arg2))) (h1R (argsOf V)) := by
  rw [after_ops, opsP_v407, (tracks4 V).a2, W4_h1]

theorem res_p2 (V : Valuation τ sig (Elt Ideal)) :
    after (ops (F := Ideal)) V (Proc.devRef .tc main_v410) = pool128 (batchColR (V (Proc.devRef .tc main_arg2))) (h2R (argsOf V)) := by
  rw [after_ops, opsP_v410, (tracks4 V).a2, W4_h2]

theorem res_p3 (V : Valuation τ sig (Elt Ideal)) :
    after (ops (F := Ideal)) V (Proc.devRef .tc main_v413) = pool128 (batchColR (V (Proc.devRef .tc main_arg2))) (h3R (argsOf V)) := by
  rw [after_ops, opsP_v413, (tracks4 V).a2, W4_h3]

theorem res_p4 (V : Valuation τ sig (Elt Ideal)) :
    after (ops (F := Ideal)) V (Proc.devRef .tc main_v416) = pool128 (batchColR (V (Proc.devRef .tc main_arg2))) (h4R (argsOf V)) := by
  rw [after_ops, opsP_v416, (tracks4 V).a2, W4_h4]

theorem res_p5 (V : Valuation τ sig (Elt Ideal)) :
    after (ops (F := Ideal)) V (Proc.devRef .tc main_v419) = pool128 (batchColR (V (Proc.devRef .tc main_arg2))) (h5R (argsOf V)) := by
  rw [after_ops, opsP_v419, (tracks4 V).a2, W4_h5]

end Cert.ReferenceIdeal.RefRead

end
-- ==== Proof.Consts.lean ====
import Idealize.ShloMosaic.PureOps.Ideal

noncomputable section

namespace Cert.Consts

open Idealize.ShloMosaic

theorem ofBits_one : Ideal.ofBits .f32 0x3F800000#32 = ((1 : ℝ) : EReal) := by
  simp [Ideal.ofBits, Ideal.ieee, -EReal.coe_mul]; norm_num

theorem ofBits_n : Ideal.ofBits .f32 0x47435000#32 = ((50000 : ℝ) : EReal) := by
  simp [Ideal.ofBits, Ideal.ieee, -EReal.coe_mul]; norm_num

theorem ofBits_eps : Ideal.ofBits .f32 0x3727C5AC#32 = ((10995116 / 2 ^ 40 : ℝ) : EReal) := by
  simp [Ideal.ofBits, Ideal.ieee, -EReal.coe_mul]; norm_num

theorem eps_pos : (0 : ℝ) < 10995116 / 2 ^ 40 := by norm_num

theorem ofBits_posInf : Ideal.ofBits .f32 0x7F800000#32 = (⊤ : EReal) := by
  simp [Ideal.ofBits, Ideal.ieee]

end Cert.Consts

end
-- ==== Proof.BnMath.lean ====
import proofs.«410724_j86964497809599_1_alg».proof.Proof.Spec
import proofs.«410724_j86964497809599_1_alg».proof.Proof.Consts
import Idealize.ShloMosaic.PureOps.Ideal.Laws
import Idealize.ShloMosaic.Lib.ValueIdx
import Mathlib.Tactic.FieldSimp
import Mathlib.Tactic.Ring
import Mathlib.Tactic.NormNum

noncomputable section

namespace Cert.Spec

open Cert.ReferenceIdeal Cert.ReferenceIdeal.Facts₀ Idealize.ShloMosaic Idealize.ShloMosaic.TcCoe
open Idealize.ShloMosaic.ValueIdx

theorem coe_finsum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem var_identity {n : ℕ} (z : Fin n → ℝ) (N : ℝ) (hN : (n : ℝ) = N) (h0 : N ≠ 0) :
    (∑ i, z i * z i) * (1 / N) - ((∑ i, z i) * (1 / N)) * ((∑ i, z i) * (1 / N))
      = (∑ i, (z i - (∑ i, z i) * (1 / N)) * (z i - (∑ i, z i) * (1 / N))) * (1 / N) := by
  have hs : ∑ i, z i = N * ((∑ i, z i) * (1 / N)) := by field_simp
  generalize (∑ i, z i) * (1 / N) = m at hs ⊢
  have e : ∀ i, (z i - m) * (z i - m) = z i * z i - 2 * m * z i + m * m := fun i => by ring
  simp only [e, Finset.sum_add_distrib, Finset.sum_sub_distrib, ← Finset.mul_sum, Finset.sum_const,
    Finset.card_univ, Fintype.card_fin, nsmul_eq_mul, hN, hs]
  field_simp
  ring

theorem bcast0_apply {t : Shape} {α : Type} (h : S_.BroadcastsInDim t ![]) (x : S_.Idx → α) (j : t.Idx) :
    broadcastInDim t ![] h x j = x ix0 := congrArg x (funext fun a => a.elim0)

theorem row_ix2 (v : M S128) (u : Fin 1) (c : Fin 128) : row v (ix2 u c) = v (ix1 c) := by
  unfold row broadcastInDim
  exact congrArg v (funext fun a => match a with | ⟨0, _⟩ => Fin.ext rfl)

theorem rows_ix2 (v : M S1x128) (n : Fin 50000) (c : Fin 128) : rows v (ix2 n c) = v (ix2 0 c) := by
  unfold rows broadcastInDim
  exact congrArg v (funext fun a => match a with | ⟨0, _⟩ => Fin.ext rfl | ⟨1, _⟩ => Fin.ext rfl)

theorem nS_apply (i : S_.Idx) : nS i = ((50000 : ℝ) : EReal) := Cert.Consts.ofBits_n

theorem zeroS_apply (i : S_.Idx) : zeroS i = 0 := Ideal.ofBits_zero_f32

theorem normR_apply (i : S_.Idx) : normR i = ((50000 : ℝ) : EReal) := by
  show nS i - (((0#32 : BitVec 32).toInt : ℝ) : EReal) = _
  rw [nS_apply]
  simp

theorem guard_true (i : S_.Idx) : cmpf .ogt normR zeroS i = 1#1 := by
  show Ideal.cmp .ogt (normR i) (zeroS i) = 1#1
  rw [normR_apply, zeroS_apply]
  show BitVec.ofBool (decide ((0 : EReal) < ((50000 : ℝ) : EReal))) = 1#1
  rw [decide_eq_true (by exact_mod_cast (by norm_num : (0 : ℝ) < 50000))]
  rfl

theorem reduces_d0 : S50000x128.Reduces [0] S128 := by decide

theorem colsum_apply (Z : M S50000x128) (c : Fin 128) : colsum Z (ix1 c) = ∑ n : Fin 50000, Z (ix2 n c) := by
  unfold colsum Host.reduceAdd
  rw [Ideal.hostReduceAdd_def, Ideal.hostReduceAdd_single reducesTo_S50000x128_S128_d0 reduces_d0, zeroS_apply, zero_add]
  show ∑ n : Fin 50000, Z (reduces_d0.lift (ix1 c) n) = _
  exact Finset.sum_congr rfl fun n _ => congrArg Z (funext fun a => match a with | ⟨0, _⟩ => Fin.ext rfl | ⟨1, _⟩ => Fin.ext rfl)

section Column
variable (Z : M S50000x128) (c : Fin 128) (z : Fin 50000 → ℝ) (hz : ∀ n, Z (ix2 n c) = (z n : EReal))
include hz

theorem colsum_real : colsum Z (ix1 c) = ((∑ n, z n : ℝ) : EReal) := by
  rw [colsum_apply, coe_finsum]
  exact Finset.sum_congr rfl fun n _ => hz n

theorem colsumsq_real : colsum (mulf Z Z) (ix1 c) = ((∑ n, z n * z n : ℝ) : EReal) := by
  rw [colsum_apply, coe_finsum]
  exact Finset.sum_congr rfl fun n _ => by rw [mulf_apply, hz n, EReal.coe_mul]

theorem meanK_real (u : Fin 1) : meanK (sumRow Z) (ix2 u c) = (((∑ n, z n) * (1 / 50000) : ℝ) : EReal) := by
  show Ideal.div (row (colsum Z) (ix2 u c)) (broadcastInDim S1x128 ![] bcast_S_S1x128 nS (ix2 u c)) = _
  rw [row_ix2, bcast0_apply, nS_apply, Ideal.div_coe (by norm_num), colsum_real Z c z hz, ← EReal.coe_mul]

theorem varK_real (u : Fin 1) : varK (sqRow Z) (meanK (sumRow Z)) (ix2 u c)
    = (((∑ n, z n * z n) * (1 / 50000) - ((∑ n, z n) * (1 / 50000)) * ((∑ n, z n) * (1 / 50000)) : ℝ) : EReal) := by
  show Ideal.div (row (colsum (mulf Z Z)) (ix2 u c)) (broadcastInDim S1x128 ![] bcast_S_S1x128 nS (ix2 u c))
    - meanK (sumRow Z) (ix2 u c) * meanK (sumRow Z) (ix2 u c) = _
  rw [row_ix2, bcast0_apply, nS_apply, Ideal.div_coe (by norm_num), colsumsq_real Z c z hz, meanK_real Z c z hz,
    ← EReal.coe_mul, ← EReal.coe_mul, ← EReal.coe_sub]

theorem varR_real : varR Z (ix1 c)
    = (((∑ n, (z n - (∑ n, z n) * (1 / 50000)) * (z n - (∑ n, z n) * (1 / 50000))) * (1 / 50000) : ℝ) : EReal) := by
  have hD : ∀ n, subf Z (rows (meanK (sumRow Z))) (ix2 n c) = ((z n - (∑ n, z n) * (1 / 50000) : ℝ) : EReal) := fun n => by
    rw [subf_apply, rows_ix2, meanK_real Z c z hz, hz n, ← EReal.coe_sub]
  unfold varR
  rw [select_apply, bcast0_apply, guard_true, select_one]
  show Ideal.div (colsum (mulf (subf Z (rows (meanK (sumRow Z)))) (subf Z (rows (meanK (sumRow Z))))) (ix1 c))
    (broadcastInDim S128 ![] bcast_S_S128 normR (ix1 c)) = _
  rw [bcast0_apply, normR_apply, Ideal.div_coe (by norm_num), colsumsq_real _ c _ hD, ← EReal.coe_mul]

end Column

theorem meanK_eq (Z : M S50000x128) : meanK (sumRow Z) = row (meanR Z) := rfl

theorem varK_eq (Z : M S50000x128) (hZ : AllReal Z) : varK (sqRow Z) (meanK (sumRow Z)) = row (varR Z) := by
  funext j
  obtain ⟨u, c, rfl⟩ : ∃ u c, j = ix2 u c := ⟨j 0, j 1, eq_ix2 j⟩
  have hz : ∀ n, Z (ix2 n c) = (((fun n => (hZ (ix2 n c)).choose) n : ℝ) : EReal) := fun n => (hZ (ix2 n c)).choose_spec
  rw [varK_real Z c _ hz, row_ix2, varR_real Z c _ hz]
  exact congrArg _ (var_identity _ 50000 (by norm_num) (by norm_num))

theorem bnK_eq (Z : M S50000x128) (g be : M S128) (hZ : AllReal Z) : bnK Z g be = bnreluR Z g be := by
  unfold bnK bnreluK bnreluR
  rw [varK_eq Z hZ, meanK_eq]
  rfl

theorem varR_nonneg_real (Z : M S50000x128) (hZ : AllReal Z) : ∀ j, ∃ r : ℝ, 0 ≤ r ∧ varR Z j = (r : EReal) := by
  intro j
  rw [eq_ix1 j]
  have hz : ∀ n, Z (ix2 n (j 0)) = (((fun n => (hZ (ix2 n (j 0))).choose) n : ℝ) : EReal) := fun n => (hZ (ix2 n (j 0))).choose_spec
  exact ⟨_, mul_nonneg (Finset.sum_nonneg fun n _ => mul_self_nonneg _) (by norm_num), varR_real Z (j 0) _ hz⟩

theorem batchCol_eq (b : I S50000) (h : S50000.ShapeCasts S50000x1) : shapeCast S50000x1 b h = batchColR b := by
  funext j
  unfold shapeCast batchColR broadcastInDim
  refine congrArg b (Shape.reshapeEquiv_eq_of_rowMajor h ?_)
  rw [Shape.rowMajor_val_one, Shape.rowMajor_val_two]
  have h1 : (j 1).val < 1 := (j 1).isLt
  show (j 0).val = (j 0).val * 1 + (j 1).val
  omega

end Cert.Spec

end
-- ==== Proof.Finite.lean ====
import proofs.«410724_j86964497809599_1_alg».proof.Proof.SpecNet
import proofs.«410724_j86964497809599_1_alg».proof.Proof.Consts
import Idealize.ShloMosaic.PureOps.Ideal.Laws

noncomputable section

namespace Cert.Spec

open Cert.ReferenceIdeal Cert.ReferenceIdeal.Facts₀ Idealize.ShloMosaic Idealize.ShloMosaic.TcCoe

def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem isReal_zero : IsReal 0 := ⟨0, EReal.coe_zero.symm⟩

theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_coe {x : EReal} (hx : IsReal x) {y : ℝ} (hy : y ≠ 0) : IsReal (Ideal.div x (y : EReal)) := by
  rw [Ideal.div_coe hy]; exact hx.mul ⟨_, rfl⟩

theorem isReal_rsqrt_pos {r : ℝ} (hr : 0 < r) : IsReal (Ideal.rsqrt (r : EReal)) := by
  rw [Ideal.rsqrt_coe, if_neg (not_lt.mpr hr.le), if_neg hr.ne']; exact ⟨_, rfl⟩

theorem allReal_zeroS : AllReal zeroS := fun _ => ⟨0, by
  show Ideal.ofBits .f32 0x00000000#32 = _
  rw [Ideal.ofBits_zero_f32, EReal.coe_zero]⟩
theorem allReal_oneS : AllReal oneS := fun _ => ⟨1, Cert.Consts.ofBits_one⟩
theorem allReal_nS : AllReal nS := fun _ => ⟨50000, Cert.Consts.ofBits_n⟩
theorem allReal_epsS : AllReal epsS := fun _ => ⟨_, Cert.Consts.ofBits_eps⟩

variable {S T : Shape}

theorem allReal_addf {a b : M S} (ha : AllReal a) (hb : AllReal b) : AllReal (addf a b) :=
  fun i => IsReal.add (ha i) (hb i)
theorem allReal_subf {a b : M S} (ha : AllReal a) (hb : AllReal b) : AllReal (subf a b) :=
  fun i => IsReal.sub (ha i) (hb i)
theorem allReal_mulf {a b : M S} (ha : AllReal a) (hb : AllReal b) : AllReal (mulf a b) :=
  fun i => IsReal.mul (ha i) (hb i)
theorem allReal_maximumf {a b : M S} (ha : AllReal a) (hb : AllReal b) : AllReal (maximumf a b) :=
  fun i => IsReal.max (ha i) (hb i)

theorem allReal_bcast {v : M S} (dims : Fin S.rank → Fin T.rank) (h : S.BroadcastsInDim T dims) (hv : AllReal v) :
    AllReal (broadcastInDim T dims h v) := fun _ => hv _

theorem allReal_shapeCast {v : M S} (h : S.ShapeCasts T) (hv : AllReal v) : AllReal (shapeCast T v h) := fun _ => hv _

theorem allReal_slice {v : M S} (off : Fin S.rank → Nat) (h : S.Slices off T) (hv : AllReal v) :
    AllReal (extractStridedSlice T off v h) := fun _ => hv _

theorem allReal_gather {SI : Shape} {w : Nat} {v : M S} (d : GatherDims S SI T) (idx : IVec SI w) (hv : AllReal v) :
    AllReal (Host.gather d v idx) := fun _ => hv _

theorem allReal_scatterAdd {SI U : Shape} {w : Nat} (d : ScatterDims S SI U) {x : M S} (idx : IVec SI w) {upd : M U}
    (hx : AllReal x) (hu : AllReal upd) : AllReal (Host.scatterAdd d x idx upd) := fun i => by
  show IsReal (x i + ∑ j ∈ Finset.univ.filter (fun j => d.resultIdx? j idx = some i), upd j)
  exact IsReal.add (hx i) (IsReal.sum _ _ fun j _ => hu j)

theorem allReal_dotGeneral {SL SR SO : Shape} (d : DotDims SL SR SO) {X : M SL} {W : M SR}
    (hX : AllReal X) (hW : AllReal W) : AllReal (Host.dotGeneral d none X W) := fun j => by
  show IsReal (FloatOps.dotGeneral d none .single X W j)
  rw [Ideal.dotGeneral_apply]
  exact IsReal.sum _ _ fun k _ => IsReal.mul (hX _) (hW _)

theorem allReal_reduceAdd {axes : List (Fin S.rank)} {U : Shape} {x : M S} {init : M U}
    (h : S.ReducesTo axes T) (hu : 0 < U.numel) (hx : AllReal x) (hi : AllReal init) :
    AllReal (Host.reduceAdd x init h hu) := fun j => by
  show IsReal (init (Shape.Idx.first hu) + ∑ i ∈ Finset.univ.filter (fun i => h.drop i = j), x i)
  exact IsReal.add (hi _) (IsReal.sum _ _ fun i _ => hx i)

theorem allReal_row (v : M S128) (hv : AllReal v) : AllReal (row v) := allReal_bcast _ _ hv
theorem allReal_rows (v : M S1x128) (hv : AllReal v) : AllReal (rows v) := allReal_bcast _ _ hv

theorem allReal_p128 (off : Fin 2 → Nat) (a : M S5x128) (h : S5x128.Slices off S1x128) (ha : AllReal a) :
    AllReal (p128 off a h) := allReal_shapeCast _ (allReal_slice _ _ ha)
theorem allReal_pW5 (off : Fin 3 → Nat) (a : M S5x128x128) (h : S5x128x128.Slices off S1x128x128) (ha : AllReal a) :
    AllReal (pW5 off a h) := allReal_shapeCast _ (allReal_slice _ _ ha)
theorem allReal_pW4 (off : Fin 3 → Nat) (a : M S4x128x128) (h : S4x128x128.Slices off S1x128x128) (ha : AllReal a) :
    AllReal (pW4 off a h) := allReal_shapeCast _ (allReal_slice _ _ ha)
theorem allReal_pS5 (off : Fin 1 → Nat) (a : M S5) (h : S5.Slices off S1) (ha : AllReal a) :
    AllReal (pS5 off a h) := allReal_shapeCast _ (allReal_slice _ _ ha)

theorem allReal_agg200 (h : M S50000x200) (r col : I S800000) (e : M S_) (hh : AllReal h) (he : AllReal e) :
    AllReal (agg200 h r col e) :=
  allReal_addf
    (allReal_scatterAdd _ _ (allReal_bcast _ _ allReal_zeroS) (allReal_gather _ _ hh))
    (allReal_mulf (allReal_bcast _ _ (allReal_addf allReal_oneS he)) hh)

theorem allReal_agg128 (h : M S50000x128) (r col : I S800000) (e : M S_) (hh : AllReal h) (he : AllReal e) :
    AllReal (agg128 h r col e) :=
  allReal_addf
    (allReal_scatterAdd _ _ (allReal_bcast _ _ allReal_zeroS) (allReal_gather _ _ hh))
    (allReal_mulf (allReal_bcast _ _ (allReal_addf allReal_oneS he)) hh)

theorem allReal_lin200 (X : M S50000x200) (W : M S200x128) (b : M S1x128) (hX : AllReal X) (hW : AllReal W)
    (hb : AllReal b) : AllReal (lin200 X W b) :=
  allReal_addf (allReal_dotGeneral _ hX hW) (allReal_rows b hb)

theorem allReal_lin128 (X : M S50000x128) (W : M S128x128) (b : M S1x128) (hX : AllReal X) (hW : AllReal W)
    (hb : AllReal b) : AllReal (lin128 X W b) :=
  allReal_addf (allReal_dotGeneral _ hX hW) (allReal_rows b hb)

theorem allReal_colsum (Z : M S50000x128) (hZ : AllReal Z) : AllReal (colsum Z) :=
  allReal_reduceAdd _ _ hZ allReal_zeroS

theorem allReal_meanR (Z : M S50000x128) (hZ : AllReal Z) : AllReal (meanR Z) := fun j => by
  show IsReal (Ideal.div (colsum Z j) (Ideal.ofBits .f32 0x47435000#32))
  rw [Cert.Consts.ofBits_n]
  exact IsReal.div_coe (allReal_colsum Z hZ j) (by norm_num)

theorem allReal_rstd (Z : M S50000x128) (hvar : ∀ j, ∃ r : ℝ, 0 ≤ r ∧ varR Z j = (r : EReal)) :
    AllReal (Host.rsqrt (addf (varR Z) (broadcastInDim S128 ![] bcast_S_S128 epsS))) := fun j => by
  obtain ⟨r, hr, hv⟩ := hvar j
  show IsReal (Ideal.rsqrt (varR Z j + Ideal.ofBits .f32 0x3727C5AC#32))
  rw [hv, Cert.Consts.ofBits_eps, ← EReal.coe_add]
  exact isReal_rsqrt_pos (add_pos_of_nonneg_of_pos hr Cert.Consts.eps_pos)

theorem allReal_bnreluR_of (Z : M S50000x128) (g be : M S128) (hZ : AllReal Z) (hg : AllReal g) (hbe : AllReal be)
    (hvar : ∀ j, ∃ r : ℝ, 0 ≤ r ∧ varR Z j = (r : EReal)) : AllReal (bnreluR Z g be) :=
  allReal_maximumf
    (allReal_addf
      (allReal_mulf
        (allReal_mulf
          (allReal_subf hZ (allReal_rows _ (allReal_row _ (allReal_meanR Z hZ))))
          (allReal_rows _ (allReal_row _ (allReal_rstd Z hvar))))
        (allReal_rows _ (allReal_row _ hg)))
      (allReal_rows _ (allReal_row _ hbe)))
    (allReal_bcast _ _ allReal_zeroS)

def VarReal : Prop := ∀ Z : M S50000x128, AllReal Z → ∀ j, ∃ r : ℝ, 0 ≤ r ∧ varR Z j = (r : EReal)

theorem allReal_layerR_of (hvar : VarReal) (z1 : M S50000x128) (g1 be1 : M S128) (W2 : M S128x128) (b2 g2 be2 : M S128)
    (hz : AllReal z1) (hg1 : AllReal g1) (hbe1 : AllReal be1) (hW2 : AllReal W2) (hb2 : AllReal b2)
    (hg2 : AllReal g2) (hbe2 : AllReal be2) : AllReal (layerR z1 g1 be1 W2 b2 g2 be2) := by
  have h1 : AllReal (bnreluR z1 g1 be1) := allReal_bnreluR_of z1 g1 be1 hz hg1 hbe1 (hvar z1 hz)
  have h2 : AllReal (lin128 (bnreluR z1 g1 be1) W2 (row b2)) := allReal_lin128 _ _ _ h1 hW2 (allReal_row _ hb2)
  exact allReal_bnreluR_of _ g2 be2 h2 hg2 hbe2 (hvar _ h2)

theorem allReal_afterR_of (hvar : VarReal) (z : M S50000x128) (P : LP) (hz : AllReal z) (hP : P.Finite) :
    AllReal (afterR z P) :=
  allReal_layerR_of hvar z P.g1 P.be1 P.W2 P.b2 P.g2 P.be2 hz hP.g1 hP.be1 hP.W2 hP.b2 hP.g2 hP.be2

theorem finite_lp0 (A : Args) (hA : A.Finite) : (lp0 A).Finite where
  e := allReal_pS5 _ _ slices_S5_S1_0 hA.eps
  b1 := allReal_p128 _ _ slices_S5x128_S1x128_0_0 hA.b1
  g1 := allReal_p128 _ _ slices_S5x128_S1x128_0_0 hA.g1
  be1 := allReal_p128 _ _ slices_S5x128_S1x128_0_0 hA.be1
  W2 := allReal_pW5 _ _ slices_S5x128x128_S1x128x128_0_0_0 hA.w2
  b2 := allReal_p128 _ _ slices_S5x128_S1x128_0_0 hA.b2
  g2 := allReal_p128 _ _ slices_S5x128_S1x128_0_0 hA.g2
  be2 := allReal_p128 _ _ slices_S5x128_S1x128_0_0 hA.be2

theorem finite_lp1 (A : Args) (hA : A.Finite) : (lp1 A).Finite where
  e := allReal_pS5 _ _ slices_S5_S1_1 hA.eps
  b1 := allReal_p128 _ _ slices_S5x128_S1x128_1_0 hA.b1
  g1 := allReal_p128 _ _ slices_S5x128_S1x128_1_0 hA.g1
  be1 := allReal_p128 _ _ slices_S5x128_S1x128_1_0 hA.be1
  W2 := allReal_pW5 _ _ slices_S5x128x128_S1x128x128_1_0_0 hA.w2
  b2 := allReal_p128 _ _ slices_S5x128_S1x128_1_0 hA.b2
  g2 := allReal_p128 _ _ slices_S5x128_S1x128_1_0 hA.g2
  be2 := allReal_p128 _ _ slices_S5x128_S1x128_1_0 hA.be2

theorem finite_lp2 (A : Args) (hA : A.Finite) : (lp2 A).Finite where
  e := allReal_pS5 _ _ slices_S5_S1_2 hA.eps
  b1 := allReal_p128 _ _ slices_S5x128_S1x128_2_0 hA.b1
  g1 := allReal_p128 _ _ slices_S5x128_S1x128_2_0 hA.g1
  be1 := allReal_p128 _ _ slices_S5x128_S1x128_2_0 hA.be1
  W2 := allReal_pW5 _ _ slices_S5x128x128_S1x128x128_2_0_0 hA.w2
  b2 := allReal_p128 _ _ slices_S5x128_S1x128_2_0 hA.b2
  g2 := allReal_p128 _ _ slices_S5x128_S1x128_2_0 hA.g2
  be2 := allReal_p128 _ _ slices_S5x128_S1x128_2_0 hA.be2

theorem finite_lp3 (A : Args) (hA : A.Finite) : (lp3 A).Finite where
  e := allReal_pS5 _ _ slices_S5_S1_3 hA.eps
  b1 := allReal_p128 _ _ slices_S5x128_S1x128_3_0 hA.b1
  g1 := allReal_p128 _ _ slices_S5x128_S1x128_3_0 hA.g1
  be1 := allReal_p128 _ _ slices_S5x128_S1x128_3_0 hA.be1
  W2 := allReal_pW5 _ _ slices_S5x128x128_S1x128x128_3_0_0 hA.w2
  b2 := allReal_p128 _ _ slices_S5x128_S1x128_3_0 hA.b2
  g2 := allReal_p128 _ _ slices_S5x128_S1x128_3_0 hA.g2
  be2 := allReal_p128 _ _ slices_S5x128_S1x128_3_0 hA.be2

theorem finite_lp4 (A : Args) (hA : A.Finite) : (lp4 A).Finite where
  e := allReal_pS5 _ _ slices_S5_S1_4 hA.eps
  b1 := allReal_p128 _ _ slices_S5x128_S1x128_4_0 hA.b1
  g1 := allReal_p128 _ _ slices_S5x128_S1x128_4_0 hA.g1
  be1 := allReal_p128 _ _ slices_S5x128_S1x128_4_0 hA.be1
  W2 := allReal_pW5 _ _ slices_S5x128x128_S1x128x128_4_0_0 hA.w2
  b2 := allReal_p128 _ _ slices_S5x128_S1x128_4_0 hA.b2
  g2 := allReal_p128 _ _ slices_S5x128_S1x128_4_0 hA.g2
  be2 := allReal_p128 _ _ slices_S5x128_S1x128_4_0 hA.be2

theorem finite_w1_1 (A : Args) (hA : A.Finite) : AllReal (w1_1 A) :=
  allReal_pW4 _ _ slices_S4x128x128_S1x128x128_0_0_0 hA.w1
theorem finite_w1_2 (A : Args) (hA : A.Finite) : AllReal (w1_2 A) :=
  allReal_pW4 _ _ slices_S4x128x128_S1x128x128_1_0_0 hA.w1
theorem finite_w1_3 (A : Args) (hA : A.Finite) : AllReal (w1_3 A) :=
  allReal_pW4 _ _ slices_S4x128x128_S1x128x128_2_0_0 hA.w1
theorem finite_w1_4 (A : Args) (hA : A.Finite) : AllReal (w1_4 A) :=
  allReal_pW4 _ _ slices_S4x128x128_S1x128x128_3_0_0 hA.w1

theorem allReal_z0 (A : Args) (hA : A.Finite) : AllReal (z0 A) :=
  allReal_lin200 _ _ _ (allReal_agg200 _ _ _ _ hA.x (finite_lp0 A hA).e) hA.w1_0 (allReal_row _ (finite_lp0 A hA).b1)

theorem allReal_zNext (A : Args) (h : M S50000x128) (P : LP) (W1 : M S128x128) (_ : A.Finite) (hh : AllReal h)
    (hP : P.Finite) (hW : AllReal W1) : AllReal (zNext A h P W1) :=
  allReal_lin128 _ _ _ (allReal_agg128 _ _ _ _ hh hP.e) hW (allReal_row _ hP.b1)

theorem allReal_h1R_of (hvar : VarReal) (A : Args) (hA : A.Finite) : AllReal (h1R A) :=
  allReal_afterR_of hvar _ _ (allReal_z0 A hA) (finite_lp0 A hA)
theorem allReal_h2R_of (hvar : VarReal) (A : Args) (hA : A.Finite) : AllReal (h2R A) :=
  allReal_afterR_of hvar _ _
    (allReal_zNext A _ _ _ hA (allReal_h1R_of hvar A hA) (finite_lp1 A hA) (finite_w1_1 A hA)) (finite_lp1 A hA)
theorem allReal_h3R_of (hvar : VarReal) (A : Args) (hA : A.Finite) : AllReal (h3R A) :=
  allReal_afterR_of hvar _ _
    (allReal_zNext A _ _ _ hA (allReal_h2R_of hvar A hA) (finite_lp2 A hA) (finite_w1_2 A hA)) (finite_lp2 A hA)
theorem allReal_h4R_of (hvar : VarReal) (A : Args) (hA : A.Finite) : AllReal (h4R A) :=
  allReal_afterR_of hvar _ _
    (allReal_zNext A _ _ _ hA (allReal_h3R_of hvar A hA) (finite_lp3 A hA) (finite_w1_3 A hA)) (finite_lp3 A hA)
theorem allReal_h5R_of (hvar : VarReal) (A : Args) (hA : A.Finite) : AllReal (h5R A) :=
  allReal_afterR_of hvar _ _
    (allReal_zNext A _ _ _ hA (allReal_h4R_of hvar A hA) (finite_lp4 A hA) (finite_w1_4 A hA)) (finite_lp4 A hA)

end Cert.Spec

end
-- ==== Proof.FiniteNet.lean ====
import proofs.«410724_j86964497809599_1_alg».proof.Proof.Finite
import proofs.«410724_j86964497809599_1_alg».proof.Proof.BnMath

noncomputable section

namespace Cert.Spec

open Cert.ReferenceIdeal Cert.ReferenceIdeal.Facts₀ Idealize.ShloMosaic Idealize.ShloMosaic.TcCoe

theorem varReal : VarReal := fun Z hZ => varR_nonneg_real Z hZ

theorem allReal_bnreluR (Z : M S50000x128) (g be : M S128) (hZ : AllReal Z) (hg : AllReal g) (hbe : AllReal be) :
    AllReal (bnreluR Z g be) := allReal_bnreluR_of Z g be hZ hg hbe (varR_nonneg_real Z hZ)

theorem allReal_layerR (z1 : M S50000x128) (g1 be1 : M S128) (W2 : M S128x128) (b2 g2 be2 : M S128)
    (hz : AllReal z1) (hg1 : AllReal g1) (hbe1 : AllReal be1) (hW2 : AllReal W2) (hb2 : AllReal b2)
    (hg2 : AllReal g2) (hbe2 : AllReal be2) : AllReal (layerR z1 g1 be1 W2 b2 g2 be2) :=
  allReal_layerR_of varReal z1 g1 be1 W2 b2 g2 be2 hz hg1 hbe1 hW2 hb2 hg2 hbe2

theorem allReal_afterR (z : M S50000x128) (P : LP) (hz : AllReal z) (hP : P.Finite) : AllReal (afterR z P) :=
  allReal_afterR_of varReal z P hz hP

theorem allReal_h1R (A : Args) (hA : A.Finite) : AllReal (h1R A) := allReal_h1R_of varReal A hA
theorem allReal_h2R (A : Args) (hA : A.Finite) : AllReal (h2R A) := allReal_h2R_of varReal A hA
theorem allReal_h3R (A : Args) (hA : A.Finite) : AllReal (h3R A) := allReal_h3R_of varReal A hA
theorem allReal_h4R (A : Args) (hA : A.Finite) : AllReal (h4R A) := allReal_h4R_of varReal A hA
theorem allReal_h5R (A : Args) (hA : A.Finite) : AllReal (h5R A) := allReal_h5R_of varReal A hA

end Cert.Spec

end
-- ==== Proof.Bridge.lean ====
import proofs.«410724_j86964497809599_1_alg».proof.Proof.SpecNet
import proofs.«410724_j86964497809599_1_alg».proof.Proof.BnMath
import proofs.«410724_j86964497809599_1_alg».proof.Proof.Finite
import proofs.«410724_j86964497809599_1_alg».proof.Proof.FiniteNet

noncomputable section

namespace Cert.Spec

open Cert.ReferenceIdeal Cert.ReferenceIdeal.Facts₀ Idealize.ShloMosaic Idealize.ShloMosaic.TcCoe

theorem afterK_eq (z : M S50000x128) (P : LP) (hz : AllReal z) (hP : P.Finite) : afterK z P = afterR z P := by
  unfold afterK afterR layerK layerR
  rw [bnK_eq z P.g1 P.be1 hz]
  exact bnK_eq _ P.g2 P.be2
    (allReal_lin128 _ _ _ (allReal_bnreluR _ _ _ hz hP.g1 hP.be1) hP.W2 (allReal_row _ hP.b2))

theorem h1_eq (A : Args) (hA : A.Finite) : h1K A = h1R A :=
  afterK_eq _ _ (allReal_z0 A hA) (finite_lp0 A hA)

theorem h2_eq (A : Args) (hA : A.Finite) : h2K A = h2R A := by
  unfold h2K h2R; rw [h1_eq A hA]
  exact afterK_eq _ _ (allReal_zNext A _ _ _ hA (allReal_h1R A hA) (finite_lp1 A hA) (finite_w1_1 A hA)) (finite_lp1 A hA)

theorem h3_eq (A : Args) (hA : A.Finite) : h3K A = h3R A := by
  unfold h3K h3R; rw [h2_eq A hA]
  exact afterK_eq _ _ (allReal_zNext A _ _ _ hA (allReal_h2R A hA) (finite_lp2 A hA) (finite_w1_2 A hA)) (finite_lp2 A hA)

theorem h4_eq (A : Args) (hA : A.Finite) : h4K A = h4R A := by
  unfold h4K h4R; rw [h3_eq A hA]
  exact afterK_eq _ _ (allReal_zNext A _ _ _ hA (allReal_h3R A hA) (finite_lp3 A hA) (finite_w1_3 A hA)) (finite_lp3 A hA)

theorem h5_eq (A : Args) (hA : A.Finite) : h5K A = h5R A := by
  unfold h5K h5R; rw [h4_eq A hA]
  exact afterK_eq _ _ (allReal_zNext A _ _ _ hA (allReal_h4R A hA) (finite_lp4 A hA) (finite_w1_4 A hA)) (finite_lp4 A hA)

end Cert.Spec

end
-- ==== Proof.PreFinite.lean ====
import proofs.«410724_j86964497809599_1_alg».proof.Proof.SpecNet
import proofs.«410724_j86964497809599_1_alg».proof.Pre_finite_inputs
import proofs.«410724_j86964497809599_1_alg».proof.Proof.Gen.Pre_finite_inputs
import proofs.«410724_j86964497809599_1_alg».proof.Proof.Consts
import Idealize.ShloMosaic.Lib.ReduceAll

noncomputable section

namespace Cert.Spec

open Cert.ReferenceIdeal Idealize.ShloMosaic

theorem real_of_abs_lt_posInf (a : EReal)
    (h : Ideal.cmp .olt (max a (-a)) (Ideal.ofBits .f32 0x7F800000#32) = 1#1) : ∃ r : ℝ, a = (r : EReal) := by
  rw [Cert.Consts.ofBits_posInf] at h
  induction a using EReal.rec with
  | bot => simp [Ideal.cmp] at h
  | coe r => exact ⟨r, rfl⟩
  | top => simp [Ideal.cmp] at h

theorem allReal_of_all_abs_lt {S : Shape} {axes : List (Fin S.rank)} (v : M S)
    (hb : (⟨0, ![]⟩ : Shape).BroadcastsInDim S (![] : Fin 0 → Fin S.rank))
    (hr : S.ReducesTo axes ⟨0, ![]⟩) (hu : 0 < (⟨0, ![]⟩ : Shape).numel) (init : IVec ⟨0, ![]⟩ 1)
    (j : (⟨0, ![]⟩ : Shape).Idx)
    (e : Host.reduce IntOp.andi
        (cmpf .olt (Host.absf v) (broadcastInDim S ![] hb (constant (F := Ideal) ⟨0, ![]⟩ .f32 0x7F800000#32)))
        init hr hu j = 1#1) : AllReal v := by
  intro i
  have hi := Host.reduce_andi_eq_one _ init hr hu j e i (funext fun d => d.elim0)
  exact real_of_abs_lt_posInf (v i) hi

theorem finite_of_pre (x : M S50000x200) (ei : I S2x800000) (batch : I S50000) (eps : M S5) (w1_0 : M S200x128)
    (w1 : M S4x128x128) (b1 : M S5x128) (w2 : M S5x128x128) (b2 g1 be1 g2 be2 : M S5x128)
    (h : Cert.Pre_finite_inputs.fn (F := Ideal) x ei batch eps w1_0 w1 b1 w2 b2 g1 be1 g2 be2 = (fun _ => 1#1)) :
    (Args.mk x ei batch eps w1_0 w1 b1 w2 b2 g1 be1 g2 be2).Finite := by
  have h0 := congrFun h (fun a => a.elim0)
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨hx, heps⟩, hw1_0⟩, hw1⟩, hb1⟩, hw2⟩, hb2⟩, hg1⟩, hbe1⟩, hg2⟩, hbe2⟩ := h0
  exact
    { x := allReal_of_all_abs_lt x _ _ _ _ _ hx
      eps := allReal_of_all_abs_lt eps _ _ _ _ _ heps
      w1_0 := allReal_of_all_abs_lt w1_0 _ _ _ _ _ hw1_0
      w1 := allReal_of_all_abs_lt w1 _ _ _ _ _ hw1
      b1 := allReal_of_all_abs_lt b1 _ _ _ _ _ hb1
      w2 := allReal_of_all_abs_lt w2 _ _ _ _ _ hw2
      b2 := allReal_of_all_abs_lt b2 _ _ _ _ _ hb2
      g1 := allReal_of_all_abs_lt g1 _ _ _ _ _ hg1
      be1 := allReal_of_all_abs_lt be1 _ _ _ _ _ hbe1
      g2 := allReal_of_all_abs_lt g2 _ _ _ _ _ hg2
      be2 := allReal_of_all_abs_lt be2 _ _ _ _ _ hbe2 }

end Cert.Spec

end
-- ==== Proof.lean ====
import proofs.«410724_j86964497809599_1_alg».proof.Defs
import proofs.«410724_j86964497809599_1_alg».proof.Proof.Gen.Kernel
import proofs.«410724_j86964497809599_1_alg».proof.Proof.Gen.Kernel.Frame
import proofs.«410724_j86964497809599_1_alg».proof.Proof.Gen.KernelIdeal
import proofs.«410724_j86964497809599_1_alg».proof.Proof.Gen.KernelIdeal.Frame
import proofs.«410724_j86964497809599_1_alg».proof.Proof.Gen.ReferenceIdeal
import proofs.«410724_j86964497809599_1_alg».proof.Proof.Gen.Pre_finite_inputs
import proofs.«410724_j86964497809599_1_alg».proof.Proof.KRun
import proofs.«410724_j86964497809599_1_alg».proof.Proof.KRead
import proofs.«410724_j86964497809599_1_alg».proof.Proof.RefRun
import proofs.«410724_j86964497809599_1_alg».proof.Proof.RefRead
import proofs.«410724_j86964497809599_1_alg».proof.Proof.Bridge
import proofs.«410724_j86964497809599_1_alg».proof.Proof.PreFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono
    (fun _ h c => ⟨(h c _).trans (Cert.ReferenceIdeal.RefRead.arg_kept0 _), (h c _).trans (Cert.ReferenceIdeal.RefRead.arg_kept1 _),
      (h c _).trans (Cert.ReferenceIdeal.RefRead.arg_kept2 _), (h c _).trans (Cert.ReferenceIdeal.RefRead.arg_kept3 _),
      (h c _).trans (Cert.ReferenceIdeal.RefRead.arg_kept4 _), (h c _).trans (Cert.ReferenceIdeal.RefRead.arg_kept5 _),
      (h c _).trans (Cert.ReferenceIdeal.RefRead.arg_kept6 _), (h c _).trans (Cert.ReferenceIdeal.RefRead.arg_kept7 _),
      (h c _).trans (Cert.ReferenceIdeal.RefRead.arg_kept8 _), (h c _).trans (Cert.ReferenceIdeal.RefRead.arg_kept9 _),
      (h c _).trans (Cert.ReferenceIdeal.RefRead.arg_kept10 _), (h c _).trans (Cert.ReferenceIdeal.RefRead.arg_kept11 _),
      (h c _).trans (Cert.ReferenceIdeal.RefRead.arg_kept12 _)⟩)
    (Cert.ReferenceIdeal.RefRun.run_after (F := Ideal) m ρ)

theorem args_ext (A B : Cert.Spec.Args) (h0 : A.x = B.x) (h1 : A.ei = B.ei) (h2 : A.batch = B.batch) (h3 : A.eps = B.eps)
    (h4 : A.w1_0 = B.w1_0) (h5 : A.w1 = B.w1) (h6 : A.b1 = B.b1) (h7 : A.w2 = B.w2) (h8 : A.b2 = B.b2)
    (h9 : A.g1 = B.g1) (h10 : A.be1 = B.be1) (h11 : A.g2 = B.g2) (h12 : A.be2 = B.be2) : A = B := by
  cases A; cases B
  simp only [Cert.Spec.Args.mk.injEq]
  exact ⟨h0, h1, h2, h3, h4, h5, h6, h7, h8, h9, h10, h11, h12⟩

theorem algebraic : Cert.algebraic_KernelIdeal_ReferenceIdeal := by
  intro m ρ m' ρ' hpre hagree
  refine ⟨fun c => Cert.KernelIdeal.Gen.W36 m ρ c (Proc.devRef .tc Cert.KernelIdeal.main_v268),
    fun c => Cert.KernelIdeal.Gen.W36 m ρ c (Proc.devRef .tc Cert.KernelIdeal.main_v269),
    fun c => Cert.KernelIdeal.Gen.W36 m ρ c (Proc.devRef .tc Cert.KernelIdeal.main_v270),
    fun c => Cert.KernelIdeal.Gen.W36 m ρ c (Proc.devRef .tc Cert.KernelIdeal.main_v271),
    fun c => Cert.KernelIdeal.Gen.W36 m ρ c (Proc.devRef .tc Cert.KernelIdeal.main_v272),
    fun c => Cert.KernelIdeal.Gen.W36 m ρ c (Proc.devRef .tc Cert.KernelIdeal.main_v273),
    fun c => Cert.KernelIdeal.Gen.W36 m ρ c (Proc.devRef .tc Cert.KernelIdeal.main_v267),
    Cert.KernelIdeal.KRun.run_named m ρ, ?_⟩
  refine (θ_run Cert.ReferenceIdeal.defs _ _).mono (fun r h c => ?_) (Cert.ReferenceIdeal.RefRun.run_after (F := Ideal) m' ρ')
  obtain ⟨e0, e1, e2, e3, e4, e5, e6, e7, e8, e9, e10, e11, e12⟩ := hagree c

  have hA : Cert.ReferenceIdeal.RefRead.argsOf (StableHlo.launchContents m' c) = Cert.KernelIdeal.KRead.argsOf m c :=
    args_ext _ _ e0 e1 e2 e3 e4 e5 e6 e7 e8 e9 e10 e11 e12

  have hfin : (Cert.KernelIdeal.KRead.argsOf m c).Finite := Cert.Spec.finite_of_pre _ _ _ _ _ _ _ _ _ _ _ _ _ (hpre c)

  have hB : Cert.Spec.batchColR (StableHlo.launchContents m' c (Proc.devRef .tc Cert.ReferenceIdeal.main_arg2))
      = shapeCast Cert.ReferenceIdeal.S50000x1 (m ((c.tc : Thread Cert.KernelIdeal.nD Cert.KernelIdeal.τ).loc Cert.KernelIdeal.main_arg2)) Cert.KernelIdeal.Facts₀.shapeCasts_S50000_S50000x1 :=
    (congrArg Cert.Spec.batchColR e2).trans (Cert.Spec.batchCol_eq _ _).symm

  have hH1 : Cert.Spec.h1R (Cert.ReferenceIdeal.RefRead.argsOf (StableHlo.launchContents m' c)) = Cert.Spec.h1K (Cert.KernelIdeal.KRead.argsOf m c) :=
    (congrArg Cert.Spec.h1R hA).trans (Cert.Spec.h1_eq _ hfin).symm
  have hH2 : Cert.Spec.h2R (Cert.ReferenceIdeal.RefRead.argsOf (StableHlo.launchContents m' c)) = Cert.Spec.h2K (Cert.KernelIdeal.KRead.argsOf m c) :=
    (congrArg Cert.Spec.h2R hA).trans (Cert.Spec.h2_eq _ hfin).symm
  have hH3 : Cert.Spec.h3R (Cert.ReferenceIdeal.RefRead.argsOf (StableHlo.launchContents m' c)) = Cert.Spec.h3K (Cert.KernelIdeal.KRead.argsOf m c) :=
    (congrArg Cert.Spec.h3R hA).trans (Cert.Spec.h3_eq _ hfin).symm
  have hH4 : Cert.Spec.h4R (Cert.ReferenceIdeal.RefRead.argsOf (StableHlo.launchContents m' c)) = Cert.Spec.h4K (Cert.KernelIdeal.KRead.argsOf m c) :=
    (congrArg Cert.Spec.h4R hA).trans (Cert.Spec.h4_eq _ hfin).symm
  have hH5 : Cert.Spec.h5R (Cert.ReferenceIdeal.RefRead.argsOf (StableHlo.launchContents m' c)) = Cert.Spec.h5K (Cert.KernelIdeal.KRead.argsOf m c) :=
    (congrArg Cert.Spec.h5R hA).trans (Cert.Spec.h5_eq _ hfin).symm
  exact ⟨
    (h c Cert.ReferenceIdeal.main_v404).trans ((Cert.ReferenceIdeal.RefRead.res_p0 _).trans
      ((congrArg₂ Cert.Spec.pool200 hB e0).trans (Cert.KernelIdeal.KRead.res_p0 m ρ c).symm)),
    (h c Cert.ReferenceIdeal.main_v407).trans ((Cert.ReferenceIdeal.RefRead.res_p1 _).trans
      ((congrArg₂ Cert.Spec.pool128 hB hH1).trans (Cert.KernelIdeal.KRead.res_p1 m ρ c).symm)),
    (h c Cert.ReferenceIdeal.main_v410).trans ((Cert.ReferenceIdeal.RefRead.res_p2 _).trans
      ((congrArg₂ Cert.Spec.pool128 hB hH2).trans (Cert.KernelIdeal.KRead.res_p2 m ρ c).symm)),
    (h c Cert.ReferenceIdeal.main_v413).trans ((Cert.ReferenceIdeal.RefRead.res_p3 _).trans
      ((congrArg₂ Cert.Spec.pool128 hB hH3).trans (Cert.KernelIdeal.KRead.res_p3 m ρ c).symm)),
    (h c Cert.ReferenceIdeal.main_v416).trans ((Cert.ReferenceIdeal.RefRead.res_p4 _).trans
      ((congrArg₂ Cert.Spec.pool128 hB hH4).trans (Cert.KernelIdeal.KRead.res_p4 m ρ c).symm)),
    (h c Cert.ReferenceIdeal.main_v419).trans ((Cert.ReferenceIdeal.RefRead.res_p5 _).trans
      ((congrArg₂ Cert.Spec.pool128 hB hH5).trans (Cert.KernelIdeal.KRead.res_p5 m ρ c).symm)),
    (h c Cert.ReferenceIdeal.main_v401).trans ((Cert.ReferenceIdeal.RefRead.res_h5 _).trans (hH5.trans (Cert.KernelIdeal.KRead.res_h5 m ρ c).symm)),
    (h c Cert.ReferenceIdeal.main_arg0).trans (Cert.ReferenceIdeal.RefRead.arg_kept0 _),
    (h c Cert.ReferenceIdeal.main_arg1).trans (Cert.ReferenceIdeal.RefRead.arg_kept1 _),
    (h c Cert.ReferenceIdeal.main_arg2).trans (Cert.ReferenceIdeal.RefRead.arg_kept2 _),
    (h c Cert.ReferenceIdeal.main_arg3).trans (Cert.ReferenceIdeal.RefRead.arg_kept3 _),
    (h c Cert.ReferenceIdeal.main_arg4).trans (Cert.ReferenceIdeal.RefRead.arg_kept4 _),
    (h c Cert.ReferenceIdeal.main_arg5).trans (Cert.ReferenceIdeal.RefRead.arg_kept5 _),
    (h c Cert.ReferenceIdeal.main_arg6).trans (Cert.ReferenceIdeal.RefRead.arg_kept6 _),
    (h c Cert.ReferenceIdeal.main_arg7).trans (Cert.ReferenceIdeal.RefRead.arg_kept7 _),
    (h c Cert.ReferenceIdeal.main_arg8).trans (Cert.ReferenceIdeal.RefRead.arg_kept8 _),
    (h c Cert.ReferenceIdeal.main_arg9).trans (Cert.ReferenceIdeal.RefRead.arg_kept9 _),
    (h c Cert.ReferenceIdeal.main_arg10).trans (Cert.ReferenceIdeal.RefRead.arg_kept10 _),
    (h c Cert.ReferenceIdeal.main_arg11).trans (Cert.ReferenceIdeal.RefRead.arg_kept11 _),
    (h c Cert.ReferenceIdeal.main_arg12).trans (Cert.ReferenceIdeal.RefRead.arg_kept12 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
